-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x1 : Shape := ⟨2, ![100000, 1]⟩
abbrev S1 : Shape := ⟨1, ![1]⟩
abbrev S100000x3 : Shape := ⟨2, ![100000, 3]⟩
abbrev S100000 : Shape := ⟨1, ![100000]⟩
abbrev S100000x16 : Shape := ⟨2, ![100000, 16]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1 : S_.BroadcastsInDim S1 (![] : Fin 0 → Fin S1.rank)
  reducesTo_S1_S_d0 : S1.ReducesTo [0] S_
  bcast_S_S100000x3 : S_.BroadcastsInDim S100000x3 (![] : Fin 0 → Fin S100000x3.rank)
  reducesTo_S100000x3_S_d0_1 : S100000x3.ReducesTo [0, 1] S_
  bcast_S_S100000x16 : S_.BroadcastsInDim S100000x16 (![] : Fin 0 → Fin S100000x16.rank)
  reducesTo_S100000x16_S_d0_1 : S100000x16.ReducesTo [0, 1] S_
  bcast_S_S100000 : S_.BroadcastsInDim S100000 (![] : Fin 0 → Fin S100000.rank)
  reducesTo_S100000_S_d0 : S100000.ReducesTo [0] S_
  reducesTo_S_S_d : S_.ReducesTo [] S_

variable [Facts]

def fn_part2 {F : FTy → Type} [FloatOps F] (main_arg1 : FVec F S1 .f32) (main_arg4 : IVec S100000 32) (main_arg8 : IVec S_ 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg4 main_v34
  let main_c_13 : IVec S_ 32 := constantI S_ 32 511#32
  let main_v36 : IVec S100000 32 := broadcastInDim S100000 ![] bcast_S_S100000 main_c_13
  let main_v37 : IVec S100000 1 := cmpi .sle main_arg4 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  let main_c_15 : IVec S_ 32 := constantI S_ 32 16#32
  let main_v41 : IVec S_ 1 := cmpi .sge main_arg8 main_c_15
  let main_c_16 : IVec S_ 32 := constantI S_ 32 16#32
  let main_v42 : IVec S_ 1 := cmpi .sle main_arg8 main_c_16
  let main_v43 : IVec S_ 1 := andi main_v41 main_v42
  let main_c_17 : IVec S_ 1 := constantI S_ 1 1#1
  let main_v44 : IVec S_ 1 := (fun x v => Host.reduce IntOp.andi x v reducesTo_S_S_d h_S_) main_v43 main_c_17
  let main_v45 : IVec S_ 1 := andi main_v40 main_v44
  let main_cst_18 : FVec F S_ .f32 := constant S_ .f32 0x00000000#32
  let main_v46 : FVec F S1 .f32 := broadcastInDim S1 ![] bcast_S_S1 main_cst_18
  let main_v47 : IVec S1 1 := cmpf .ogt main_arg1 main_v46
  let main_c_19 : IVec S_ 1 := constantI S_ 1 1#1
  let main_v48 : IVec S_ 1 := (fun x v => Host.reduce IntOp.andi x v reducesTo_S1_S_d0 h_S_) main_v47 main_c_19
  let main_v49 : IVec S_ 1 := andi main_v45 main_v48
  main_v49

def fn_part1 {F : FTy → Type} [FloatOps F] (main_arg1 : FVec F S1 .f32) (main_arg4 : IVec S100000 32) (main_arg5 : FVec F S1 .f32) (main_arg6 : FVec F S100000x16 .f32) (main_arg7 : FVec F S100000x16 .f32) (main_arg8 : IVec S_ 32) (main_v13 : IVec S_ 1) (main_v16 : IVec S100000x3 1) : IVec S_ 1 :=
  let main_c_5 : IVec S_ 1 := constantI S_ 1 1#1
  let main_v17 : IVec S_ 1 := (fun x v => Host.reduce IntOp.andi x v reducesTo_S100000x3_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S100000x16 .f32 := Host.absf main_arg6
  let main_cst_8 : FVec F S_ .f32 := constant S_ .f32 0x7F800000#32
  let main_v25 : FVec F S100000x16 .f32 := broadcastInDim S100000x16 ![] bcast_S_S100000x16 main_cst_8
  let main_v26 : IVec S100000x16 1 := cmpf .olt main_v24 main_v25
  let main_c_9 : IVec S_ 1 := constantI S_ 1 1#1
  let main_v27 : IVec S_ 1 := (fun x v => Host.reduce IntOp.andi x v reducesTo_S100000x16_S_d0_1 h_S_) main_v26 main_c_9
  let main_v28 : IVec S_ 1 := andi main_v23 main_v27
  let main_v29 : FVec F S100000x16 .f32 := Host.absf main_arg7
  let main_cst_10 : FVec F S_ .f32 := constant S_ .f32 0x7F800000#32
  let main_v30 : FVec F S100000x16 .f32 := broadcastInDim S100000x16 ![] bcast_S_S100000x16 main_cst_10
  let main_v31 : IVec S100000x16 1 := cmpf .olt main_v29 main_v30
  let main_c_11 : IVec S_ 1 := constantI S_ 1 1#1
  let main_v32 : IVec S_ 1 := (fun x v => Host.reduce IntOp.andi x v reducesTo_S100000x16_S_d0_1 h_S_) main_v31 main_c_11
  let main_v33 : IVec S_ 1 := andi main_v28 main_v32
  fn_part2 (F := F) main_arg1 main_arg4 main_arg8 main_v33

def fn {F : FTy → Type} [FloatOps F] (main_arg0 : FVec F S100000x1 .f32) (main_arg1 : FVec F S1 .f32) (main_arg2 : FVec F S100000x3 .f32) (main_arg3 : FVec F S100000x3 .f32) (main_arg4 : IVec S100000 32) (main_arg5 : FVec F S1 .f32) (main_arg6 : FVec F S100000x16 .f32) (main_arg7 : FVec F S100000x16 .f32) (main_arg8 : IVec S_ 32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S100000x3 .f32 := Host.absf main_arg3
  let main_cst_4 : FVec F S_ .f32 := constant S_ .f32 0x7F800000#32
  let main_v15 : FVec F S100000x3 .f32 := broadcastInDim S100000x3 ![] bcast_S_S100000x3 main_cst_4
  let main_v16 : IVec S100000x3 1 := cmpf .olt main_v14 main_v15
  fn_part1 (F := F) main_arg1 main_arg4 main_arg5 main_arg6 main_arg7 main_arg8 main_v13 main_v16
-- ==== Kernel.lean ====
abbrev S100000x1 : Shape := ⟨2, ![100000, 1]⟩
abbrev S1 : Shape := ⟨1, ![1]⟩
abbrev S100000x3 : Shape := ⟨2, ![100000, 3]⟩
abbrev S100000 : Shape := ⟨1, ![100000]⟩
abbrev S100000x16 : Shape := ⟨2, ![100000, 16]⟩
abbrev S_ : Shape := ⟨0, ![]⟩
abbrev S1x1 : Shape := ⟨2, ![1, 1]⟩
abbrev S1x100000 : Shape := ⟨2, ![1, 100000]⟩
abbrev S3x100000 : Shape := ⟨2, ![3, 100000]⟩
abbrev S16x100000 : Shape := ⟨2, ![16, 100000]⟩
abbrev S100352 : Shape := ⟨1, ![100352]⟩
abbrev S1x14336 : Shape := ⟨2, ![1, 14336]⟩
abbrev S3x14336 : Shape := ⟨2, ![3, 14336]⟩
abbrev S16x14336 : Shape := ⟨2, ![16, 14336]⟩
abbrev S14336 : Shape := ⟨1, ![14336]⟩
abbrev S3072 : Shape := ⟨1, ![3072]⟩
abbrev S3136 : Shape := ⟨1, ![3136]⟩
abbrev S528 : Shape := ⟨1, ![528]⟩
abbrev S32 : Shape := ⟨1, ![32]⟩
abbrev S3x16x1x512 : Shape := ⟨4, ![3, 16, 1, 512]⟩
abbrev S3x2x1x32 : Shape := ⟨4, ![3, 2, 1, 32]⟩
abbrev S2784 : Shape := ⟨1, ![2784]⟩
abbrev S16 : Shape := ⟨1, ![16]⟩
abbrev S512 : Shape := ⟨1, ![512]⟩
abbrev S1x1x1x512 : Shape := ⟨4, ![1, 1, 1, 512]⟩
abbrev S1x1x1x32 : Shape := ⟨4, ![1, 1, 1, 32]⟩
abbrev S1x1x1x16 : Shape := ⟨4, ![1, 1, 1, 16]⟩
abbrev S2x512 : Shape := ⟨2, ![2, 512]⟩
abbrev S1x512 : Shape := ⟨2, ![1, 512]⟩

abbrev nBuf : Table → Nat
  | .hbm => 29
  | .local .tc .vmem => 16
  | .local .tc .smem => 3
  | .shared => 1
  | .local .scVector .vmem => 10
  | _ => 0

abbrev bufTy : (tb : Table) → Fin (nBuf tb) → BufTy
  | .hbm, ⟨0, _⟩ => ⟨S100000x1, .f32⟩
  | .hbm, ⟨1, _⟩ => ⟨S1, .f32⟩
  | .hbm, ⟨2, _⟩ => ⟨S100000x3, .f32⟩
  | .hbm, ⟨3, _⟩ => ⟨S100000x3, .f32⟩
  | .hbm, ⟨4, _⟩ => ⟨S100000, .i32⟩
  | .hbm, ⟨5, _⟩ => ⟨S1, .f32⟩
  | .hbm, ⟨6, _⟩ => ⟨S100000x16, .f32⟩
  | .hbm, ⟨7, _⟩ => ⟨S100000x16, .f32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S1x100000, .f32⟩
  | .hbm, ⟨21, _⟩ => ⟨S3x100000, .f32⟩
  | .hbm, ⟨22, _⟩ => ⟨S3x100000, .f32⟩
  | .hbm, ⟨23, _⟩ => ⟨S16x100000, .f32⟩
  | .hbm, ⟨24, _⟩ => ⟨S16x100000, .f32⟩
  | .hbm, ⟨25, _⟩ => ⟨S100352, .f32⟩
  | .hbm, ⟨26, _⟩ => ⟨S100352, .f32⟩
  | .hbm, ⟨27, _⟩ => ⟨S3072, .f32⟩
  | .hbm, ⟨28, _⟩ => ⟨S2x512, .f32⟩
  | .local .tc .vmem, ⟨0, _⟩ => ⟨S1x14336, .f32⟩
  | .local .tc .vmem, ⟨1, _⟩ => ⟨S1x14336, .f32⟩
  | .local .tc .vmem, ⟨2, _⟩ => ⟨S3x14336, .f32⟩
  | .local .tc .vmem, ⟨3, _⟩ => ⟨S3x14336, .f32⟩
  | .local .tc .vmem, ⟨4, _⟩ => ⟨S3x14336, .f32⟩
  | .local .tc .vmem, ⟨5, _⟩ => ⟨S3x14336, .f32⟩
  | .local .tc .vmem, ⟨6, _⟩ => ⟨S16x14336, .f32⟩
  | .local .tc .vmem, ⟨7, _⟩ => ⟨S16x14336, .f32⟩
  | .local .tc .vmem, ⟨8, _⟩ => ⟨S16x14336, .f32⟩
  | .local .tc .vmem, ⟨9, _⟩ => ⟨S16x14336, .f32⟩
  | .local .tc .vmem, ⟨10, _⟩ => ⟨S14336, .f32⟩
  | .local .tc .vmem, ⟨11, _⟩ => ⟨S14336, .f32⟩
  | .local .tc .vmem, ⟨12, _⟩ => ⟨S14336, .f32⟩
  | .local .tc .vmem, ⟨13, _⟩ => ⟨S14336, .f32⟩
  | .local .tc .vmem, ⟨14, _⟩ => ⟨S3072, .f32⟩
  | .local .tc .vmem, ⟨15, _⟩ => ⟨S2x512, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .shared, ⟨0, _⟩ => ⟨S3x16x1x512, .f32⟩
  | .local .scVector .vmem, ⟨0, _⟩ => ⟨S3136, .f32⟩
  | .local .scVector .vmem, ⟨1, _⟩ => ⟨S3136, .f32⟩
  | .local .scVector .vmem, ⟨2, _⟩ => ⟨S3136, .i32⟩
  | .local .scVector .vmem, ⟨3, _⟩ => ⟨S528, .f32⟩
  | .local .scVector .vmem, ⟨4, _⟩ => ⟨S528, .f32⟩
  | .local .scVector .vmem, ⟨5, _⟩ => ⟨S528, .f32⟩
  | .local .scVector .vmem, ⟨6, _⟩ => ⟨S32, .f32⟩
  | .local .scVector .vmem, ⟨7, _⟩ => ⟨S32, .f32⟩
  | .local .scVector .vmem, ⟨8, _⟩ => ⟨S32, .f32⟩
  | .local .scVector .vmem, ⟨9, _⟩ => ⟨S3x2x1x32, .f32⟩
  | _, _ => ⟨S100000x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | _ => false

abbrev sig : RefSig :=
  ofTables nBuf rfl bufTy 5 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_v17 : Ref sig .tc := ⟨.hbm, 28, rfl⟩
abbrev main_v15_0_scv : Ref sig .scVector := ⟨.hbm, 25, rfl⟩
abbrev main_v15_1_scv : Ref sig .scVector := ⟨.hbm, 26, rfl⟩
abbrev main_arg4_scv : Ref sig .scVector := ⟨.hbm, 4, rfl⟩
abbrev main_v16_scv : Ref sig .scVector := ⟨.hbm, 27, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc2_stg0_0 : Ref sig .tc := ⟨.vmem, 14, rfl⟩
abbrev cc2_stg1_0 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc1_scratch9 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch10 : Ref sig .scVector := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc2_sem0_0 : DmaSem sig := 28
abbrev cc2_sem1_0 : DmaSem sig := 29
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x14336 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x14336 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x14336 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x14336 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x14336 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S14336 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S14336 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  ![v2.toNat]
def k1_cond1 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v7 : BitVec 1 := Scalar.cmpi .slt v1 c31_i32
  let v8 : BitVec 32 := Scalar.extui v7
  let c0_i32 : BitVec 32 := 0#32
  let v9 : BitVec 1 := Scalar.cmpi .ne v8 c0_i32
  v9

def k1_off2 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  ![v2.toNat]
def k1_cond2 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32_0 : BitVec 32 := 31#32
  let v10 : BitVec 1 := Scalar.cmpi .eq v1 c31_i32_0
  let v11 : BitVec 32 := Scalar.extui v10
  let c0_i32_1 : BitVec 32 := 0#32
  let v12 : BitVec 1 := Scalar.cmpi .ne v11 c0_i32_1
  v12

def k1_off3 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  ![v2.toNat]
@[reducible] def k1_t1_loop : Scf.Loop 32 :=
  let c0_i32_70 : BitVec 32 := 0#32
  let c197_i32_71 : BitVec 32 := 197#32
  let v122 : BitVec 32 := Scalar.addi c0_i32_70 c197_i32_71
  let c1_i32 : BitVec 32 := 1#32
  ⟨c0_i32_70, v122, c1_i32⟩

def k1_chk1 (v1441 : IVec S16 32) : Prop :=
  (∀ a x, ((![v1441] : Fin 1 → IVec S16 32) a x).toNat < S3136.size a) ∧
  (∀ a x, ((![v1441] : Fin 1 → IVec S16 32) a x).toNat < S3136.size a) ∧
  (∀ a x, ((![v1441] : Fin 1 → IVec S16 32) a x).toNat < S3136.size a)
instance k1_chk1.dec : ∀ (v1441 : IVec S16 32), Decidable (k1_chk1 v1441) := fun v1441 => decidable_of_iff' _ (Iff.of_eq (k1_chk1.eq_1 v1441))
theorem k1_idx1_inb : ∀ (v1441 : IVec S16 32) (k1_hw1 : k1_chk1 v1441), ∀ a x, ((![v1441] : Fin 1 → IVec S16 32) a x).toNat < S3136.size a := fun v1441 k1_hw1 => k1_hw1.1
theorem k1_idx2_inb : ∀ (v1441 : IVec S16 32) (k1_hw1 : k1_chk1 v1441), ∀ a x, ((![v1441] : Fin 1 → IVec S16 32) a x).toNat < S3136.size a := fun v1441 k1_hw1 => k1_hw1.2.1
theorem k1_idx3_inb : ∀ (v1441 : IVec S16 32) (k1_hw1 : k1_chk1 v1441), ∀ a x, ((![v1441] : Fin 1 → IVec S16 32) a x).toNat < S3136.size a := fun v1441 k1_hw1 => k1_hw1.2.2

def k1_chk2 (v1442 : IVec S16 32) : Prop :=
  (∀ a x, ((![v1442] : Fin 1 → IVec S16 32) a x).toNat < S528.size a) ∧
  (∀ a x, ((![v1442] : Fin 1 → IVec S16 32) a x).toNat < S528.size a) ∧
  (∀ a x, ((![v1442] : Fin 1 → IVec S16 32) a x).toNat < S528.size a)
instance k1_chk2.dec : ∀ (v1442 : IVec S16 32), Decidable (k1_chk2 v1442) := fun v1442 => decidable_of_iff' _ (Iff.of_eq (k1_chk2.eq_1 v1442))
theorem k1_idx4_inb : ∀ (v1442 : IVec S16 32) (k1_hw2 : k1_chk2 v1442), ∀ a x, ((![v1442] : Fin 1 → IVec S16 32) a x).toNat < S528.size a := fun v1442 k1_hw2 => k1_hw2.1
theorem k1_idx5_inb : ∀ (v1442 : IVec S16 32) (k1_hw2 : k1_chk2 v1442), ∀ a x, ((![v1442] : Fin 1 → IVec S16 32) a x).toNat < S528.size a := fun v1442 k1_hw2 => k1_hw2.2.1
theorem k1_idx6_inb : ∀ (v1442 : IVec S16 32) (k1_hw2 : k1_chk2 v1442), ∀ a x, ((![v1442] : Fin 1 → IVec S16 32) a x).toNat < S528.size a := fun v1442 k1_hw2 => k1_hw2.2.2
def k1_off4 (i : grid1.Coords) : Fin 4 → Nat :=
  let c0_i32_73 : BitVec 32 := 0#32
  let arg1 : BitVec 32 := BitVec.ofNat 32 (i 1).val
  let c0_i32_74 : BitVec 32 := 0#32
  let c0_i32_1278_r2 : BitVec 32 := 0#32
  ![0, arg1.toNat, 0, 0]
def k1_off5 (i : grid1.Coords) : Fin 4 → Nat :=
  let c1_i32_75 : BitVec 32 := 1#32
  let arg1 : BitVec 32 := BitVec.ofNat 32 (i 1).val
  let c0_i32_76 : BitVec 32 := 0#32
  let c0_i32_1278_r3 : BitVec 32 := 0#32
  ![1, arg1.toNat, 0, 0]
def k1_off6 (i : grid1.Coords) : Fin 4 → Nat :=
  let c2_i32 : BitVec 32 := 2#32
  let arg1 : BitVec 32 := BitVec.ofNat 32 (i 1).val
  let c0_i32_77 : BitVec 32 := 0#32
  let c0_i32_1278_r4 : BitVec 32 := 0#32
  ![2, arg1.toNat, 0, 0]
def k1_off7 (i : grid1.Coords) : Fin 4 → Nat :=
  let c0_i32_79 : BitVec 32 := 0#32
  let c0_i32_80 : BitVec 32 := 0#32
  let c0_i32_81 : BitVec 32 := 0#32
  let arg1 : BitVec 32 := BitVec.ofNat 32 (i 1).val
  let c32_i32 : BitVec 32 := 32#32
  let v123 : BitVec 32 := Scalar.muli arg1 c32_i32
  ![0, 0, 0, v123.toNat]
def k1_off8 (i : grid1.Coords) : Fin 4 → Nat :=
  let c1_i32_88 : BitVec 32 := 1#32
  let c0_i32_89 : BitVec 32 := 0#32
  let c0_i32_90 : BitVec 32 := 0#32
  let arg1 : BitVec 32 := BitVec.ofNat 32 (i 1).val
  let c32_i32_87 : BitVec 32 := 32#32
  let v132 : BitVec 32 := Scalar.muli arg1 c32_i32_87
  ![1, 0, 0, v132.toNat]
def k1_off9 (i : grid1.Coords) : Fin 4 → Nat :=
  let c2_i32_97 : BitVec 32 := 2#32
  let c0_i32_98 : BitVec 32 := 0#32
  let c0_i32_99 : BitVec 32 := 0#32
  let arg1 : BitVec 32 := BitVec.ofNat 32 (i 1).val
  let c32_i32_96 : BitVec 32 := 32#32
  let v141 : BitVec 32 := Scalar.muli arg1 c32_i32_96
  ![2, 0, 0, v141.toNat]
def k1_off10 (i : grid1.Coords) : Fin 4 → Nat :=
  let c0_i32_106 : BitVec 32 := 0#32
  let c1_i32_107 : BitVec 32 := 1#32
  let c0_i32_108 : BitVec 32 := 0#32
  let arg1 : BitVec 32 := BitVec.ofNat 32 (i 1).val
  let c32_i32_105 : BitVec 32 := 32#32
  let v150 : BitVec 32 := Scalar.muli arg1 c32_i32_105
  ![0, 1, 0, v150.toNat]
def k1_off11 (i : grid1.Coords) : Fin 4 → Nat :=
  let c1_i32_115 : BitVec 32 := 1#32
  let c1_i32_116 : BitVec 32 := 1#32
  let c0_i32_117 : BitVec 32 := 0#32
  let arg1 : BitVec 32 := BitVec.ofNat 32 (i 1).val
  let c32_i32_114 : BitVec 32 := 32#32
  let v159 : BitVec 32 := Scalar.muli arg1 c32_i32_114
  ![1, 1, 0, v159.toNat]
def k1_off12 (i : grid1.Coords) : Fin 4 → Nat :=
  let c2_i32_124 : BitVec 32 := 2#32
  let c1_i32_125 : BitVec 32 := 1#32
  let c0_i32_126 : BitVec 32 := 0#32
  let arg1 : BitVec 32 := BitVec.ofNat 32 (i 1).val
  let c32_i32_123 : BitVec 32 := 32#32
  let v168 : BitVec 32 := Scalar.muli arg1 c32_i32_123
  ![2, 1, 0, v168.toNat]
def k1_off13 (i : grid1.Coords) : Fin 4 → Nat :=
  let c0_i32_181 : BitVec 32 := 0#32
  let c2_i32_182 : BitVec 32 := 2#32
  let c0_i32_183 : BitVec 32 := 0#32
  let arg1 : BitVec 32 := BitVec.ofNat 32 (i 1).val
  let c32_i32_180 : BitVec 32 := 32#32
  let v231 : BitVec 32 := Scalar.muli arg1 c32_i32_180
  ![0, 2, 0, v231.toNat]
def k1_off14 (i : grid1.Coords) : Fin 4 → Nat :=
  let c1_i32_190 : BitVec 32 := 1#32
  let c2_i32_191 : BitVec 32 := 2#32
  let c0_i32_192 : BitVec 32 := 0#32
  let arg1 : BitVec 32 := BitVec.ofNat 32 (i 1).val
  let c32_i32_189 : BitVec 32 := 32#32
  let v240 : BitVec 32 := Scalar.muli arg1 c32_i32_189
  ![1, 2, 0, v240.toNat]
def k1_off15 (i : grid1.Coords) : Fin 4 → Nat :=
  let c2_i32_199 : BitVec 32 := 2#32
  let c2_i32_200 : BitVec 32 := 2#32
  let c0_i32_201 : BitVec 32 := 0#32
  let arg1 : BitVec 32 := BitVec.ofNat 32 (i 1).val
  let c32_i32_198 : BitVec 32 := 32#32
  let v249 : BitVec 32 := Scalar.muli arg1 c32_i32_198
  ![2, 2, 0, v249.toNat]
def k1_off16 (i : grid1.Coords) : Fin 4 → Nat :=
  let c0_i32_256 : BitVec 32 := 0#32
  let c3_i32 : BitVec 32 := 3#32
  let c0_i32_257 : BitVec 32 := 0#32
  let arg1 : BitVec 32 := BitVec.ofNat 32 (i 1).val
  let c32_i32_255 : BitVec 32 := 32#32
  let v312 : BitVec 32 := Scalar.muli arg1 c32_i32_255
  ![0, 3, 0, v312.toNat]
def k1_off17 (i : grid1.Coords) : Fin 4 → Nat :=
  let c1_i32_264 : BitVec 32 := 1#32
  let c3_i32_265 : BitVec 32 := 3#32
  let c0_i32_266 : BitVec 32 := 0#32
  let arg1 : BitVec 32 := BitVec.ofNat 32 (i 1).val
  let c32_i32_263 : BitVec 32 := 32#32
  let v321 : BitVec 32 := Scalar.muli arg1 c32_i32_263
  ![1, 3, 0, v321.toNat]
def k1_off18 (i : grid1.Coords) : Fin 4 → Nat :=
  let c2_i32_273 : BitVec 32 := 2#32
  let c3_i32_274 : BitVec 32 := 3#32
  let c0_i32_275 : BitVec 32 := 0#32
  let arg1 : BitVec 32 := BitVec.ofNat 32 (i 1).val
  let c32_i32_272 : BitVec 32 := 32#32
  let v330 : BitVec 32 := Scalar.muli arg1 c32_i32_272
  ![2, 3, 0, v330.toNat]
def k1_off19 (i : grid1.Coords) : Fin 4 → Nat :=
  let c0_i32_330 : BitVec 32 := 0#32
  let c4_i32 : BitVec 32 := 4#32
  let c0_i32_331 : BitVec 32 := 0#32
  let arg1 : BitVec 32 := BitVec.ofNat 32 (i 1).val
  let c32_i32_329 : BitVec 32 := 32#32
  let v393 : BitVec 32 := Scalar.muli arg1 c32_i32_329
  ![0, 4, 0, v393.toNat]
def k1_off20 (i : grid1.Coords) : Fin 4 → Nat :=
  let c1_i32_338 : BitVec 32 := 1#32
  let c4_i32_339 : BitVec 32 := 4#32
  let c0_i32_340 : BitVec 32 := 0#32
  let arg1 : BitVec 32 := BitVec.ofNat 32 (i 1).val
  let c32_i32_337 : BitVec 32 := 32#32
  let v402 : BitVec 32 := Scalar.muli arg1 c32_i32_337
  ![1, 4, 0, v402.toNat]
def k1_off21 (i : grid1.Coords) : Fin 4 → Nat :=
  let c2_i32_347 : BitVec 32 := 2#32
  let c4_i32_348 : BitVec 32 := 4#32
  let c0_i32_349 : BitVec 32 := 0#32
  let arg1 : BitVec 32 := BitVec.ofNat 32 (i 1).val
  let c32_i32_346 : BitVec 32 := 32#32
  let v411 : BitVec 32 := Scalar.muli arg1 c32_i32_346
  ![2, 4, 0, v411.toNat]
def k1_off22 (i : grid1.Coords) : Fin 4 → Nat :=
  let c0_i32_404 : BitVec 32 := 0#32
  let c5_i32 : BitVec 32 := 5#32
  let c0_i32_405 : BitVec 32 := 0#32
  let arg1 : BitVec 32 := BitVec.ofNat 32 (i 1).val
  let c32_i32_403 : BitVec 32 := 32#32
  let v474 : BitVec 32 := Scalar.muli arg1 c32_i32_403
  ![0, 5, 0, v474.toNat]
def k1_off23 (i : grid1.Coords) : Fin 4 → Nat :=
  let c1_i32_412 : BitVec 32 := 1#32
  let c5_i32_413 : BitVec 32 := 5#32
  let c0_i32_414 : BitVec 32 := 0#32
  let arg1 : BitVec 32 := BitVec.ofNat 32 (i 1).val
  let c32_i32_411 : BitVec 32 := 32#32
  let v483 : BitVec 32 := Scalar.muli arg1 c32_i32_411
  ![1, 5, 0, v483.toNat]
def k1_off24 (i : grid1.Coords) : Fin 4 → Nat :=
  let c2_i32_421 : BitVec 32 := 2#32
  let c5_i32_422 : BitVec 32 := 5#32
  let c0_i32_423 : BitVec 32 := 0#32
  let arg1 : BitVec 32 := BitVec.ofNat 32 (i 1).val
  let c32_i32_420 : BitVec 32 := 32#32
  let v492 : BitVec 32 := Scalar.muli arg1 c32_i32_420
  ![2, 5, 0, v492.toNat]
def k1_off25 (i : grid1.Coords) : Fin 4 → Nat :=
  let c0_i32_478 : BitVec 32 := 0#32
  let c6_i32 : BitVec 32 := 6#32
  let c0_i32_479 : BitVec 32 := 0#32
  let arg1 : BitVec 32 := BitVec.ofNat 32 (i 1).val
  let c32_i32_477 : BitVec 32 := 32#32
  let v555 : BitVec 32 := Scalar.muli arg1 c32_i32_477
  ![0, 6, 0, v555.toNat]
def k1_off26 (i : grid1.Coords) : Fin 4 → Nat :=
  let c1_i32_486 : BitVec 32 := 1#32
  let c6_i32_487 : BitVec 32 := 6#32
  let c0_i32_488 : BitVec 32 := 0#32
  let arg1 : BitVec 32 := BitVec.ofNat 32 (i 1).val
  let c32_i32_485 : BitVec 32 := 32#32
  let v564 : BitVec 32 := Scalar.muli arg1 c32_i32_485
  ![1, 6, 0, v564.toNat]
def k1_off27 (i : grid1.Coords) : Fin 4 → Nat :=
  let c2_i32_495 : BitVec 32 := 2#32
  let c6_i32_496 : BitVec 32 := 6#32
  let c0_i32_497 : BitVec 32 := 0#32
  let arg1 : BitVec 32 := BitVec.ofNat 32 (i 1).val
  let c32_i32_494 : BitVec 32 := 32#32
  let v573 : BitVec 32 := Scalar.muli arg1 c32_i32_494
  ![2, 6, 0, v573.toNat]
def k1_off28 (i : grid1.Coords) : Fin 4 → Nat :=
  let c0_i32_552 : BitVec 32 := 0#32
  let c7_i32 : BitVec 32 := 7#32
  let c0_i32_553 : BitVec 32 := 0#32
  let arg1 : BitVec 32 := BitVec.ofNat 32 (i 1).val
  let c32_i32_551 : BitVec 32 := 32#32
  let v636 : BitVec 32 := Scalar.muli arg1 c32_i32_551
  ![0, 7, 0, v636.toNat]
def k1_off29 (i : grid1.Coords) : Fin 4 → Nat :=
  let c1_i32_560 : BitVec 32 := 1#32
  let c7_i32_561 : BitVec 32 := 7#32
  let c0_i32_562 : BitVec 32 := 0#32
  let arg1 : BitVec 32 := BitVec.ofNat 32 (i 1).val
  let c32_i32_559 : BitVec 32 := 32#32
  let v645 : BitVec 32 := Scalar.muli arg1 c32_i32_559
  ![1, 7, 0, v645.toNat]
def k1_off30 (i : grid1.Coords) : Fin 4 → Nat :=
  let c2_i32_569 : BitVec 32 := 2#32
  let c7_i32_570 : BitVec 32 := 7#32
  let c0_i32_571 : BitVec 32 := 0#32
  let arg1 : BitVec 32 := BitVec.ofNat 32 (i 1).val
  let c32_i32_568 : BitVec 32 := 32#32
  let v654 : BitVec 32 := Scalar.muli arg1 c32_i32_568
  ![2, 7, 0, v654.toNat]
def k1_off31 (i : grid1.Coords) : Fin 4 → Nat :=
  let c0_i32_626 : BitVec 32 := 0#32
  let c8_i32 : BitVec 32 := 8#32
  let c0_i32_627 : BitVec 32 := 0#32
  let arg1 : BitVec 32 := BitVec.ofNat 32 (i 1).val
  let c32_i32_625 : BitVec 32 := 32#32
  let v717 : BitVec 32 := Scalar.muli arg1 c32_i32_625
  ![0, 8, 0, v717.toNat]
def k1_off32 (i : grid1.Coords) : Fin 4 → Nat :=
  let c1_i32_634 : BitVec 32 := 1#32
  let c8_i32_635 : BitVec 32 := 8#32
  let c0_i32_636 : BitVec 32 := 0#32
  let arg1 : BitVec 32 := BitVec.ofNat 32 (i 1).val
  let c32_i32_633 : BitVec 32 := 32#32
  let v726 : BitVec 32 := Scalar.muli arg1 c32_i32_633
  ![1, 8, 0, v726.toNat]
def k1_off33 (i : grid1.Coords) : Fin 4 → Nat :=
  let c2_i32_643 : BitVec 32 := 2#32
  let c8_i32_644 : BitVec 32 := 8#32
  let c0_i32_645 : BitVec 32 := 0#32
  let arg1 : BitVec 32 := BitVec.ofNat 32 (i 1).val
  let c32_i32_642 : BitVec 32 := 32#32
  let v735 : BitVec 32 := Scalar.muli arg1 c32_i32_642
  ![2, 8, 0, v735.toNat]
def k1_off34 (i : grid1.Coords) : Fin 4 → Nat :=
  let c0_i32_700 : BitVec 32 := 0#32
  let c9_i32 : BitVec 32 := 9#32
  let c0_i32_701 : BitVec 32 := 0#32
  let arg1 : BitVec 32 := BitVec.ofNat 32 (i 1).val
  let c32_i32_699 : BitVec 32 := 32#32
  let v798 : BitVec 32 := Scalar.muli arg1 c32_i32_699
  ![0, 9, 0, v798.toNat]
def k1_off35 (i : grid1.Coords) : Fin 4 → Nat :=
  let c1_i32_708 : BitVec 32 := 1#32
  let c9_i32_709 : BitVec 32 := 9#32
  let c0_i32_710 : BitVec 32 := 0#32
  let arg1 : BitVec 32 := BitVec.ofNat 32 (i 1).val
  let c32_i32_707 : BitVec 32 := 32#32
  let v807 : BitVec 32 := Scalar.muli arg1 c32_i32_707
  ![1, 9, 0, v807.toNat]
def k1_off36 (i : grid1.Coords) : Fin 4 → Nat :=
  let c2_i32_717 : BitVec 32 := 2#32
  let c9_i32_718 : BitVec 32 := 9#32
  let c0_i32_719 : BitVec 32 := 0#32
  let arg1 : BitVec 32 := BitVec.ofNat 32 (i 1).val
  let c32_i32_716 : BitVec 32 := 32#32
  let v816 : BitVec 32 := Scalar.muli arg1 c32_i32_716
  ![2, 9, 0, v816.toNat]
def k1_off37 (i : grid1.Coords) : Fin 4 → Nat :=
  let c0_i32_774 : BitVec 32 := 0#32
  let c10_i32 : BitVec 32 := 10#32
  let c0_i32_775 : BitVec 32 := 0#32
  let arg1 : BitVec 32 := BitVec.ofNat 32 (i 1).val
  let c32_i32_773 : BitVec 32 := 32#32
  let v879 : BitVec 32 := Scalar.muli arg1 c32_i32_773
  ![0, 10, 0, v879.toNat]
def k1_off38 (i : grid1.Coords) : Fin 4 → Nat :=
  let c1_i32_782 : BitVec 32 := 1#32
  let c10_i32_783 : BitVec 32 := 10#32
  let c0_i32_784 : BitVec 32 := 0#32
  let arg1 : BitVec 32 := BitVec.ofNat 32 (i 1).val
  let c32_i32_781 : BitVec 32 := 32#32
  let v888 : BitVec 32 := Scalar.muli arg1 c32_i32_781
  ![1, 10, 0, v888.toNat]
def k1_off39 (i : grid1.Coords) : Fin 4 → Nat :=
  let c2_i32_791 : BitVec 32 := 2#32
  let c10_i32_792 : BitVec 32 := 10#32
  let c0_i32_793 : BitVec 32 := 0#32
  let arg1 : BitVec 32 := BitVec.ofNat 32 (i 1).val
  let c32_i32_790 : BitVec 32 := 32#32
  let v897 : BitVec 32 := Scalar.muli arg1 c32_i32_790
  ![2, 10, 0, v897.toNat]
def k1_off40 (i : grid1.Coords) : Fin 4 → Nat :=
  let c0_i32_848 : BitVec 32 := 0#32
  let c11_i32 : BitVec 32 := 11#32
  let c0_i32_849 : BitVec 32 := 0#32
  let arg1 : BitVec 32 := BitVec.ofNat 32 (i 1).val
  let c32_i32_847 : BitVec 32 := 32#32
  let v960 : BitVec 32 := Scalar.muli arg1 c32_i32_847
  ![0, 11, 0, v960.toNat]
def k1_off41 (i : grid1.Coords) : Fin 4 → Nat :=
  let c1_i32_856 : BitVec 32 := 1#32
  let c11_i32_857 : BitVec 32 := 11#32
  let c0_i32_858 : BitVec 32 := 0#32
  let arg1 : BitVec 32 := BitVec.ofNat 32 (i 1).val
  let c32_i32_855 : BitVec 32 := 32#32
  let v969 : BitVec 32 := Scalar.muli arg1 c32_i32_855
  ![1, 11, 0, v969.toNat]
def k1_off42 (i : grid1.Coords) : Fin 4 → Nat :=
  let c2_i32_865 : BitVec 32 := 2#32
  let c11_i32_866 : BitVec 32 := 11#32
  let c0_i32_867 : BitVec 32 := 0#32
  let arg1 : BitVec 32 := BitVec.ofNat 32 (i 1).val
  let c32_i32_864 : BitVec 32 := 32#32
  let v978 : BitVec 32 := Scalar.muli arg1 c32_i32_864
  ![2, 11, 0, v978.toNat]
def k1_off43 (i : grid1.Coords) : Fin 4 → Nat :=
  let c0_i32_922 : BitVec 32 := 0#32
  let c12_i32 : BitVec 32 := 12#32
  let c0_i32_923 : BitVec 32 := 0#32
  let arg1 : BitVec 32 := BitVec.ofNat 32 (i 1).val
  let c32_i32_921 : BitVec 32 := 32#32
  let v1041 : BitVec 32 := Scalar.muli arg1 c32_i32_921
  ![0, 12, 0, v1041.toNat]
def k1_off44 (i : grid1.Coords) : Fin 4 → Nat :=
  let c1_i32_930 : BitVec 32 := 1#32
  let c12_i32_931 : BitVec 32 := 12#32
  let c0_i32_932 : BitVec 32 := 0#32
  let arg1 : BitVec 32 := BitVec.ofNat 32 (i 1).val
  let c32_i32_929 : BitVec 32 := 32#32
  let v1050 : BitVec 32 := Scalar.muli arg1 c32_i32_929
  ![1, 12, 0, v1050.toNat]
def k1_off45 (i : grid1.Coords) : Fin 4 → Nat :=
  let c2_i32_939 : BitVec 32 := 2#32
  let c12_i32_940 : BitVec 32 := 12#32
  let c0_i32_941 : BitVec 32 := 0#32
  let arg1 : BitVec 32 := BitVec.ofNat 32 (i 1).val
  let c32_i32_938 : BitVec 32 := 32#32
  let v1059 : BitVec 32 := Scalar.muli arg1 c32_i32_938
  ![2, 12, 0, v1059.toNat]
def k1_off46 (i : grid1.Coords) : Fin 4 → Nat :=
  let c0_i32_996 : BitVec 32 := 0#32
  let c13_i32 : BitVec 32 := 13#32
  let c0_i32_997 : BitVec 32 := 0#32
  let arg1 : BitVec 32 := BitVec.ofNat 32 (i 1).val
  let c32_i32_995 : BitVec 32 := 32#32
  let v1122 : BitVec 32 := Scalar.muli arg1 c32_i32_995
  ![0, 13, 0, v1122.toNat]
def k1_off47 (i : grid1.Coords) : Fin 4 → Nat :=
  let c1_i32_1004 : BitVec 32 := 1#32
  let c13_i32_1005 : BitVec 32 := 13#32
  let c0_i32_1006 : BitVec 32 := 0#32
  let arg1 : BitVec 32 := BitVec.ofNat 32 (i 1).val
  let c32_i32_1003 : BitVec 32 := 32#32
  let v1131 : BitVec 32 := Scalar.muli arg1 c32_i32_1003
  ![1, 13, 0, v1131.toNat]
def k1_off48 (i : grid1.Coords) : Fin 4 → Nat :=
  let c2_i32_1013 : BitVec 32 := 2#32
  let c13_i32_1014 : BitVec 32 := 13#32
  let c0_i32_1015 : BitVec 32 := 0#32
  let arg1 : BitVec 32 := BitVec.ofNat 32 (i 1).val
  let c32_i32_1012 : BitVec 32 := 32#32
  let v1140 : BitVec 32 := Scalar.muli arg1 c32_i32_1012
  ![2, 13, 0, v1140.toNat]
def k1_off49 (i : grid1.Coords) : Fin 4 → Nat :=
  let c0_i32_1070 : BitVec 32 := 0#32
  let c14_i32 : BitVec 32 := 14#32
  let c0_i32_1071 : BitVec 32 := 0#32
  let arg1 : BitVec 32 := BitVec.ofNat 32 (i 1).val
  let c32_i32_1069 : BitVec 32 := 32#32
  let v1203 : BitVec 32 := Scalar.muli arg1 c32_i32_1069
  ![0, 14, 0, v1203.toNat]
def k1_off50 (i : grid1.Coords) : Fin 4 → Nat :=
  let c1_i32_1078 : BitVec 32 := 1#32
  let c14_i32_1079 : BitVec 32 := 14#32
  let c0_i32_1080 : BitVec 32 := 0#32
  let arg1 : BitVec 32 := BitVec.ofNat 32 (i 1).val
  let c32_i32_1077 : BitVec 32 := 32#32
  let v1212 : BitVec 32 := Scalar.muli arg1 c32_i32_1077
  ![1, 14, 0, v1212.toNat]
def k1_off51 (i : grid1.Coords) : Fin 4 → Nat :=
  let c2_i32_1087 : BitVec 32 := 2#32
  let c14_i32_1088 : BitVec 32 := 14#32
  let c0_i32_1089 : BitVec 32 := 0#32
  let arg1 : BitVec 32 := BitVec.ofNat 32 (i 1).val
  let c32_i32_1086 : BitVec 32 := 32#32
  let v1221 : BitVec 32 := Scalar.muli arg1 c32_i32_1086
  ![2, 14, 0, v1221.toNat]
def k1_off52 (i : grid1.Coords) : Fin 4 → Nat :=
  let c0_i32_1144 : BitVec 32 := 0#32
  let c15_i32 : BitVec 32 := 15#32
  let c0_i32_1145 : BitVec 32 := 0#32
  let arg1 : BitVec 32 := BitVec.ofNat 32 (i 1).val
  let c32_i32_1143 : BitVec 32 := 32#32
  let v1284 : BitVec 32 := Scalar.muli arg1 c32_i32_1143
  ![0, 15, 0, v1284.toNat]
def k1_off53 (i : grid1.Coords) : Fin 4 → Nat :=
  let c1_i32_1152 : BitVec 32 := 1#32
  let c15_i32_1153 : BitVec 32 := 15#32
  let c0_i32_1154 : BitVec 32 := 0#32
  let arg1 : BitVec 32 := BitVec.ofNat 32 (i 1).val
  let c32_i32_1151 : BitVec 32 := 32#32
  let v1293 : BitVec 32 := Scalar.muli arg1 c32_i32_1151
  ![1, 15, 0, v1293.toNat]
def k1_off54 (i : grid1.Coords) : Fin 4 → Nat :=
  let c2_i32_1161 : BitVec 32 := 2#32
  let c15_i32_1162 : BitVec 32 := 15#32
  let c0_i32_1163 : BitVec 32 := 0#32
  let arg1 : BitVec 32 := BitVec.ofNat 32 (i 1).val
  let c32_i32_1160 : BitVec 32 := 32#32
  let v1302 : BitVec 32 := Scalar.muli arg1 c32_i32_1160
  ![2, 15, 0, v1302.toNat]
def k1_off55 (i : grid1.Coords) (c0_i32_1271 : BitVec 32) : Fin 1 → Nat :=
  let arg0 : BitVec 32 := BitVec.ofNat 32 (i 0).val
  let c1536_i32 : BitVec 32 := 1536#32
  let v1425 : BitVec 32 := Scalar.muli arg0 c1536_i32
  let v1426 : BitVec 32 := Scalar.addi v1425 c0_i32_1271
  let arg1 : BitVec 32 := BitVec.ofNat 32 (i 1).val
  let c32_i32_1272 : BitVec 32 := 32#32
  let v1427 : BitVec 32 := Scalar.muli arg1 c32_i32_1272
  let v1428 : BitVec 32 := Scalar.addi v1426 v1427
  ![v1428.toNat]
abbrev grid2 : Pipeline.Grid := .none

abbrev stage2_0 : Fin 1 → Memref sig .tc .vmem S3072 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1_S_ : S1.ShapeCasts S_
  shapeCasts_S_S1x1 : S_.ShapeCasts S1x1
  transposes_S100000x1_S1x100000_1_0 : S100000x1.Transposes [1, 0] S1x100000
  transposes_S100000x3_S3x100000_1_0 : S100000x3.Transposes [1, 0] S3x100000
  transposes_S100000x16_S16x100000_1_0 : S100000x16.Transposes [1, 0] S16x100000
  inb_S1x1_S1x1_0_0 : ∀ a, (![0, 0] : Fin 2 → Nat) a + S1x1.size a ≤ S1x1.size a
  numel1_S1x1 : S1x1.numel = 1
  inb_S1x14336_S1x14336_0_0 : ∀ a, (![0, 0] : Fin 2 → Nat) a + S1x14336.size a ≤ S1x14336.size a
  h_S1x14336 : 0 < S1x14336.numel
  shapeCasts_S1x14336_S14336 : S1x14336.ShapeCasts S14336
  inb_S3x14336_S3x14336_0_0 : ∀ a, (![0, 0] : Fin 2 → Nat) a + S3x14336.size a ≤ S3x14336.size a
  h_S3x14336 : 0 < S3x14336.numel
  shapeCasts_S3x14336_S3x14336 : S3x14336.ShapeCasts S3x14336
  reduces_S3x14336_S14336 : S3x14336.Reduces [0] S14336
  inb_S14336_S14336_0 : ∀ a, (![0] : Fin 1 → Nat) a + S14336.size a ≤ S14336.size a
  h_S14336 : 0 < S14336.numel
  inb_S16x14336_S16x14336_0_0 : ∀ a, (![0, 0] : Fin 2 → Nat) a + S16x14336.size a ≤ S16x14336.size a
  h_S16x14336 : 0 < S16x14336.numel
  shapeCasts_S16x14336_S16x14336 : S16x14336.ShapeCasts S16x14336
  reduces_S16x14336_S14336 : S16x14336.Reduces [0] S14336
  inb_S3136_S2784_0 : ∀ a, (![0] : Fin 1 → Nat) a + S2784.size a ≤ S3136.size a
  inb_S3136_S16_2784 : ∀ a, (![2784] : Fin 1 → Nat) a + S16.size a ≤ S3136.size a
  h_S16 : 0 < S16.numel
  inb_S3136_S16_2800 : ∀ a, (![2800] : Fin 1 → Nat) a + S16.size a ≤ S3136.size a
  inb_S3136_S16_2816 : ∀ a, (![2816] : Fin 1 → Nat) a + S16.size a ≤ S3136.size a
  inb_S3136_S16_2832 : ∀ a, (![2832] : Fin 1 → Nat) a + S16.size a ≤ S3136.size a
  inb_S3136_S16_2848 : ∀ a, (![2848] : Fin 1 → Nat) a + S16.size a ≤ S3136.size a
  inb_S3136_S16_2864 : ∀ a, (![2864] : Fin 1 → Nat) a + S16.size a ≤ S3136.size a
  inb_S3136_S16_2880 : ∀ a, (![2880] : Fin 1 → Nat) a + S16.size a ≤ S3136.size a
  inb_S3136_S16_2896 : ∀ a, (![2896] : Fin 1 → Nat) a + S16.size a ≤ S3136.size a
  inb_S3136_S16_2912 : ∀ a, (![2912] : Fin 1 → Nat) a + S16.size a ≤ S3136.size a
  inb_S3136_S16_2928 : ∀ a, (![2928] : Fin 1 → Nat) a + S16.size a ≤ S3136.size a
  inb_S3136_S16_2944 : ∀ a, (![2944] : Fin 1 → Nat) a + S16.size a ≤ S3136.size a
  inb_S3136_S16_2960 : ∀ a, (![2960] : Fin 1 → Nat) a + S16.size a ≤ S3136.size a
  inb_S3136_S16_2976 : ∀ a, (![2976] : Fin 1 → Nat) a + S16.size a ≤ S3136.size a
  inb_S3136_S16_2992 : ∀ a, (![2992] : Fin 1 → Nat) a + S16.size a ≤ S3136.size a
  inb_S3136_S16_3008 : ∀ a, (![3008] : Fin 1 → Nat) a + S16.size a ≤ S3136.size a
  inb_S3136_S16_3024 : ∀ a, (![3024] : Fin 1 → Nat) a + S16.size a ≤ S3136.size a
  inb_S3136_S16_3040 : ∀ a, (![3040] : Fin 1 → Nat) a + S16.size a ≤ S3136.size a
  inb_S3136_S16_3056 : ∀ a, (![3056] : Fin 1 → Nat) a + S16.size a ≤ S3136.size a
  inb_S3136_S16_3072 : ∀ a, (![3072] : Fin 1 → Nat) a + S16.size a ≤ S3136.size a
  inb_S3136_S16_3088 : ∀ a, (![3088] : Fin 1 → Nat) a + S16.size a ≤ S3136.size a
  inb_S3136_S16_3104 : ∀ a, (![3104] : Fin 1 → Nat) a + S16.size a ≤ S3136.size a
  inb_S3136_S16_3120 : ∀ a, (![3120] : Fin 1 → Nat) a + S16.size a ≤ S3136.size a
  inb_S528_S16_0 : ∀ a, (![0] : Fin 1 → Nat) a + S16.size a ≤ S528.size a
  inb_S528_S16_16 : ∀ a, (![16] : Fin 1 → Nat) a + S16.size a ≤ S528.size a
  inb_S528_S16_32 : ∀ a, (![32] : Fin 1 → Nat) a + S16.size a ≤ S528.size a
  inb_S528_S16_48 : ∀ a, (![48] : Fin 1 → Nat) a + S16.size a ≤ S528.size a
  inb_S528_S16_64 : ∀ a, (![64] : Fin 1 → Nat) a + S16.size a ≤ S528.size a
  inb_S528_S16_80 : ∀ a, (![80] : Fin 1 → Nat) a + S16.size a ≤ S528.size a
  inb_S528_S16_96 : ∀ a, (![96] : Fin 1 → Nat) a + S16.size a ≤ S528.size a
  inb_S528_S16_112 : ∀ a, (![112] : Fin 1 → Nat) a + S16.size a ≤ S528.size a
  inb_S528_S16_128 : ∀ a, (![128] : Fin 1 → Nat) a + S16.size a ≤ S528.size a
  inb_S528_S16_144 : ∀ a, (![144] : Fin 1 → Nat) a + S16.size a ≤ S528.size a
  inb_S528_S16_160 : ∀ a, (![160] : Fin 1 → Nat) a + S16.size a ≤ S528.size a
  inb_S528_S16_176 : ∀ a, (![176] : Fin 1 → Nat) a + S16.size a ≤ S528.size a
  inb_S528_S16_192 : ∀ a, (![192] : Fin 1 → Nat) a + S16.size a ≤ S528.size a
  inb_S528_S16_208 : ∀ a, (![208] : Fin 1 → Nat) a + S16.size a ≤ S528.size a
  inb_S528_S16_224 : ∀ a, (![224] : Fin 1 → Nat) a + S16.size a ≤ S528.size a
  inb_S528_S16_240 : ∀ a, (![240] : Fin 1 → Nat) a + S16.size a ≤ S528.size a
  inb_S528_S16_256 : ∀ a, (![256] : Fin 1 → Nat) a + S16.size a ≤ S528.size a
  inb_S528_S16_272 : ∀ a, (![272] : Fin 1 → Nat) a + S16.size a ≤ S528.size a
  inb_S528_S16_288 : ∀ a, (![288] : Fin 1 → Nat) a + S16.size a ≤ S528.size a
  inb_S528_S16_304 : ∀ a, (![304] : Fin 1 → Nat) a + S16.size a ≤ S528.size a
  inb_S528_S16_320 : ∀ a, (![320] : Fin 1 → Nat) a + S16.size a ≤ S528.size a
  inb_S528_S16_336 : ∀ a, (![336] : Fin 1 → Nat) a + S16.size a ≤ S528.size a
  inb_S528_S16_352 : ∀ a, (![352] : Fin 1 → Nat) a + S16.size a ≤ S528.size a
  inb_S528_S16_368 : ∀ a, (![368] : Fin 1 → Nat) a + S16.size a ≤ S528.size a
  inb_S528_S16_384 : ∀ a, (![384] : Fin 1 → Nat) a + S16.size a ≤ S528.size a
  inb_S528_S16_400 : ∀ a, (![400] : Fin 1 → Nat) a + S16.size a ≤ S528.size a
  inb_S528_S16_416 : ∀ a, (![416] : Fin 1 → Nat) a + S16.size a ≤ S528.size a
  inb_S528_S16_432 : ∀ a, (![432] : Fin 1 → Nat) a + S16.size a ≤ S528.size a
  inb_S528_S16_448 : ∀ a, (![448] : Fin 1 → Nat) a + S16.size a ≤ S528.size a
  inb_S528_S16_464 : ∀ a, (![464] : Fin 1 → Nat) a + S16.size a ≤ S528.size a
  inb_S528_S16_480 : ∀ a, (![480] : Fin 1 → Nat) a + S16.size a ≤ S528.size a
  inb_S528_S16_496 : ∀ a, (![496] : Fin 1 → Nat) a + S16.size a ≤ S528.size a
  inb_S528_S16_512 : ∀ a, (![512] : Fin 1 → Nat) a + S16.size a ≤ S528.size a
  iota_S16_d0_w32_scVector : S16.Iotas .scVector 32 [0]
  h_S3136 : 0 < S3136.numel
  h_S528 : 0 < S528.numel
  inb_S528_S512_0 : ∀ a, (![0] : Fin 1 → Nat) a + S512.size a ≤ S528.size a
  squeezes_S1x1x1x512_S512 : S1x1x1x512.Squeezes S512
  inb_S3x2x1x32_S1x1x1x32_0_0_0_0 : ∀ a, (![0, 0, 0, 0] : Fin 4 → Nat) a + S1x1x1x32.size a ≤ S3x2x1x32.size a
  squeezes_S1x1x1x32_S32 : S1x1x1x32.Squeezes S32
  inb_S3x2x1x32_S1x1x1x32_1_0_0_0 : ∀ a, (![1, 0, 0, 0] : Fin 4 → Nat) a + S1x1x1x32.size a ≤ S3x2x1x32.size a
  inb_S3x2x1x32_S1x1x1x32_2_0_0_0 : ∀ a, (![2, 0, 0, 0] : Fin 4 → Nat) a + S1x1x1x32.size a ≤ S3x2x1x32.size a
  inb_S3x2x1x32_S1x1x1x32_0_1_0_0 : ∀ a, (![0, 1, 0, 0] : Fin 4 → Nat) a + S1x1x1x32.size a ≤ S3x2x1x32.size a
  inb_S3x2x1x32_S1x1x1x32_1_1_0_0 : ∀ a, (![1, 1, 0, 0] : Fin 4 → Nat) a + S1x1x1x32.size a ≤ S3x2x1x32.size a
  inb_S3x2x1x32_S1x1x1x32_2_1_0_0 : ∀ a, (![2, 1, 0, 0] : Fin 4 → Nat) a + S1x1x1x32.size a ≤ S3x2x1x32.size a
  inb_S3x2x1x32_S1x1x1x16_0_0_0_0 : ∀ a, (![0, 0, 0, 0] : Fin 4 → Nat) a + S1x1x1x16.size a ≤ S3x2x1x32.size a
  h_S1x1x1x16 : 0 < S1x1x1x16.numel
  shapeCasts_S1x1x1x16_S16 : S1x1x1x16.ShapeCasts S16
  inb_S3x2x1x32_S1x1x1x16_0_0_0_16 : ∀ a, (![0, 0, 0, 16] : Fin 4 → Nat) a + S1x1x1x16.size a ≤ S3x2x1x32.size a
  inb_S3x2x1x32_S1x1x1x16_1_0_0_0 : ∀ a, (![1, 0, 0, 0] : Fin 4 → Nat) a + S1x1x1x16.size a ≤ S3x2x1x32.size a
  inb_S3x2x1x32_S1x1x1x16_1_0_0_16 : ∀ a, (![1, 0, 0, 16] : Fin 4 → Nat) a + S1x1x1x16.size a ≤ S3x2x1x32.size a
  inb_S3x2x1x32_S1x1x1x16_2_0_0_0 : ∀ a, (![2, 0, 0, 0] : Fin 4 → Nat) a + S1x1x1x16.size a ≤ S3x2x1x32.size a
  inb_S3x2x1x32_S1x1x1x16_2_0_0_16 : ∀ a, (![2, 0, 0, 16] : Fin 4 → Nat) a + S1x1x1x16.size a ≤ S3x2x1x32.size a
  inb_S3x2x1x32_S1x1x1x16_0_1_0_0 : ∀ a, (![0, 1, 0, 0] : Fin 4 → Nat) a + S1x1x1x16.size a ≤ S3x2x1x32.size a
  inb_S3x2x1x32_S1x1x1x16_0_1_0_16 : ∀ a, (![0, 1, 0, 16] : Fin 4 → Nat) a + S1x1x1x16.size a ≤ S3x2x1x32.size a
  inb_S3x2x1x32_S1x1x1x16_1_1_0_0 : ∀ a, (![1, 1, 0, 0] : Fin 4 → Nat) a + S1x1x1x16.size a ≤ S3x2x1x32.size a
  inb_S3x2x1x32_S1x1x1x16_1_1_0_16 : ∀ a, (![1, 1, 0, 16] : Fin 4 → Nat) a + S1x1x1x16.size a ≤ S3x2x1x32.size a
  inb_S3x2x1x32_S1x1x1x16_2_1_0_0 : ∀ a, (![2, 1, 0, 0] : Fin 4 → Nat) a + S1x1x1x16.size a ≤ S3x2x1x32.size a
  inb_S3x2x1x32_S1x1x1x16_2_1_0_16 : ∀ a, (![2, 1, 0, 16] : Fin 4 → Nat) a + S1x1x1x16.size a ≤ S3x2x1x32.size a
  inb_S32_S16_0 : ∀ a, (![0] : Fin 1 → Nat) a + S16.size a ≤ S32.size a
  inb_S32_S16_16 : ∀ a, (![16] : Fin 1 → Nat) a + S16.size a ≤ S32.size a
  inb_S3072_S512_0 : ∀ a, (![0] : Fin 1 → Nat) a + S512.size a ≤ S3072.size a
  h_S512 : 0 < S512.numel
  shapeCasts_S512_S512 : S512.ShapeCasts S512
  inb_S3072_S512_1536 : ∀ a, (![1536] : Fin 1 → Nat) a + S512.size a ≤ S3072.size a
  inb_S3072_S512_512 : ∀ a, (![512] : Fin 1 → Nat) a + S512.size a ≤ S3072.size a
  inb_S3072_S512_2048 : ∀ a, (![2048] : Fin 1 → Nat) a + S512.size a ≤ S3072.size a
  inb_S3072_S512_1024 : ∀ a, (![1024] : Fin 1 → Nat) a + S512.size a ≤ S3072.size a
  inb_S3072_S512_2560 : ∀ a, (![2560] : Fin 1 → Nat) a + S512.size a ≤ S3072.size a
  shapeCasts_S512_S1x512 : S512.ShapeCasts S1x512
  concatenates_S1x512_S1x512_S2x512_d0 : Shape.Concatenates [S1x512, S1x512] S2x512 0
  inb_S2x512_S2x512_0_0 : ∀ a, (![0, 0] : Fin 2 → Nat) a + S2x512.size a ≤ S2x512.size a
  h_S2x512 : 0 < S2x512.numel
  hcc1_scratch11 : 17 + S_.numel ≤ 30
  hcc1_scratch12 : 18 + S_.numel ≤ 30
  hcc1_scratch13 : 19 + S_.numel ≤ 30
  hcc1_scoped0 : 20 + S_.numel ≤ 30
  hcc1_scoped1 : 21 + S_.numel ≤ 30
  hcc1_scoped2 : 22 + S_.numel ≤ 30
  hcc1_scoped3 : 23 + S_.numel ≤ 30
  hcc1_scoped4 : 24 + S_.numel ≤ 30
  hcc1_scoped5 : 25 + S_.numel ≤ 30
  hcc1_scoped6 : 26 + S_.numel ≤ 30
  hcc1_scoped7 : 27 + S_.numel ≤ 30
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x14336.size a < S1x100000.size a
  hwx0_3 : ∀ i : grid0.Coords, EltTy.bits .f32 = 32 ∨ (Rect.unit (s := S1x100000) (fun a => cc0_transform_3 i a * S1x14336.size a) (fun a => (Pipeline.Clip.of (cc0_transform_3 i a) (S1x14336.size a) (S1x100000.size a)).extent (S1x14336.size a)) fun a => Pipeline.Clip.inb (Pipeline.Clip.ok_of (hstart0_3 i a))).WholeWords (EltTy.packing .f32)
  hwxs0_3 : ∀ i : grid0.Coords, EltTy.bits .f32 = 32 ∨ (Rect.unit (s := S1x14336) (fun _ => 0) (fun a => (Pipeline.Clip.of (cc0_transform_3 i a) (S1x14336.size a) (S1x100000.size a)).extent (S1x14336.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S3x14336.size a < S3x100000.size a
  hwx0_4 : ∀ i : grid0.Coords, EltTy.bits .f32 = 32 ∨ (Rect.unit (s := S3x100000) (fun a => cc0_transform_4 i a * S3x14336.size a) (fun a => (Pipeline.Clip.of (cc0_transform_4 i a) (S3x14336.size a) (S3x100000.size a)).extent (S3x14336.size a)) fun a => Pipeline.Clip.inb (Pipeline.Clip.ok_of (hstart0_4 i a))).WholeWords (EltTy.packing .f32)
  hwxs0_4 : ∀ i : grid0.Coords, EltTy.bits .f32 = 32 ∨ (Rect.unit (s := S3x14336) (fun _ => 0) (fun a => (Pipeline.Clip.of (cc0_transform_4 i a) (S3x14336.size a) (S3x100000.size a)).extent (S3x14336.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S3x14336.size a < S3x100000.size a
  hwx0_5 : ∀ i : grid0.Coords, EltTy.bits .f32 = 32 ∨ (Rect.unit (s := S3x100000) (fun a => cc0_transform_5 i a * S3x14336.size a) (fun a => (Pipeline.Clip.of (cc0_transform_5 i a) (S3x14336.size a) (S3x100000.size a)).extent (S3x14336.size a)) fun a => Pipeline.Clip.inb (Pipeline.Clip.ok_of (hstart0_5 i a))).WholeWords (EltTy.packing .f32)
  hwxs0_5 : ∀ i : grid0.Coords, EltTy.bits .f32 = 32 ∨ (Rect.unit (s := S3x14336) (fun _ => 0) (fun a => (Pipeline.Clip.of (cc0_transform_5 i a) (S3x14336.size a) (S3x100000.size a)).extent (S3x14336.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S16x14336.size a < S16x100000.size a
  hwx0_6 : ∀ i : grid0.Coords, EltTy.bits .f32 = 32 ∨ (Rect.unit (s := S16x100000) (fun a => cc0_transform_6 i a * S16x14336.size a) (fun a => (Pipeline.Clip.of (cc0_transform_6 i a) (S16x14336.size a) (S16x100000.size a)).extent (S16x14336.size a)) fun a => Pipeline.Clip.inb (Pipeline.Clip.ok_of (hstart0_6 i a))).WholeWords (EltTy.packing .f32)
  hwxs0_6 : ∀ i : grid0.Coords, EltTy.bits .f32 = 32 ∨ (Rect.unit (s := S16x14336) (fun _ => 0) (fun a => (Pipeline.Clip.of (cc0_transform_6 i a) (S16x14336.size a) (S16x100000.size a)).extent (S16x14336.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S16x14336.size a < S16x100000.size a
  hwx0_7 : ∀ i : grid0.Coords, EltTy.bits .f32 = 32 ∨ (Rect.unit (s := S16x100000) (fun a => cc0_transform_7 i a * S16x14336.size a) (fun a => (Pipeline.Clip.of (cc0_transform_7 i a) (S16x14336.size a) (S16x100000.size a)).extent (S16x14336.size a)) fun a => Pipeline.Clip.inb (Pipeline.Clip.ok_of (hstart0_7 i a))).WholeWords (EltTy.packing .f32)
  hwxs0_7 : ∀ i : grid0.Coords, EltTy.bits .f32 = 32 ∨ (Rect.unit (s := S16x14336) (fun _ => 0) (fun a => (Pipeline.Clip.of (cc0_transform_7 i a) (S16x14336.size a) (S16x100000.size a)).extent (S16x14336.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S14336.size a ≤ S100352.size a
  hwx0_8 : ∀ i : grid0.Coords, EltTy.bits .f32 = 32 ∨ (Rect.block (s := S100352) S14336.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S14336.size a ≤ S100352.size a
  hwx0_9 : ∀ i : grid0.Coords, EltTy.bits .f32 = 32 ∨ (Rect.block (s := S100352) S14336.size (cc0_transform_9 i) (hinb0_9 i)).WholeWords (EltTy.packing .f32)
  hcore1 : grid1.bound 0 ≤ τ.nSC
  hsub1 : grid1.bound 1 ≤ τ.nSub
  k1_off1_inb : ∀ i : grid1.Coords, ∀ a, (k1_off1 i) a + S3136.size a ≤ S100352.size a
  k1_off2_inb : ∀ i : grid1.Coords, ∀ (k1_h1 : k1_cond1 i = 1#1), ∀ a, (k1_off2 i) a + S3136.size a ≤ S100000.size a
  k1_off3_inb : ∀ i : grid1.Coords, ∀ (k1_h2 : k1_cond2 i = 1#1), ∀ a, (k1_off3 i) a + S2784.size a ≤ S100000.size a
  k1_t1_ok : k1_t1_loop.OK
  k1_off4_inb : ∀ i : grid1.Coords, ∀ a, (k1_off4 i) a + S1x1x1x512.size a ≤ S3x16x1x512.size a
  k1_off5_inb : ∀ i : grid1.Coords, ∀ a, (k1_off5 i) a + S1x1x1x512.size a ≤ S3x16x1x512.size a
  k1_off6_inb : ∀ i : grid1.Coords, ∀ a, (k1_off6 i) a + S1x1x1x512.size a ≤ S3x16x1x512.size a
  k1_off7_inb : ∀ i : grid1.Coords, ∀ a, (k1_off7 i) a + S1x1x1x32.size a ≤ S3x16x1x512.size a
  k1_off8_inb : ∀ i : grid1.Coords, ∀ a, (k1_off8 i) a + S1x1x1x32.size a ≤ S3x16x1x512.size a
  k1_off9_inb : ∀ i : grid1.Coords, ∀ a, (k1_off9 i) a + S1x1x1x32.size a ≤ S3x16x1x512.size a
  k1_off10_inb : ∀ i : grid1.Coords, ∀ a, (k1_off10 i) a + S1x1x1x32.size a ≤ S3x16x1x512.size a
  k1_off11_inb : ∀ i : grid1.Coords, ∀ a, (k1_off11 i) a + S1x1x1x32.size a ≤ S3x16x1x512.size a
  k1_off12_inb : ∀ i : grid1.Coords, ∀ a, (k1_off12 i) a + S1x1x1x32.size a ≤ S3x16x1x512.size a
  k1_off13_inb : ∀ i : grid1.Coords, ∀ a, (k1_off13 i) a + S1x1x1x32.size a ≤ S3x16x1x512.size a
  k1_off14_inb : ∀ i : grid1.Coords, ∀ a, (k1_off14 i) a + S1x1x1x32.size a ≤ S3x16x1x512.size a
  k1_off15_inb : ∀ i : grid1.Coords, ∀ a, (k1_off15 i) a + S1x1x1x32.size a ≤ S3x16x1x512.size a
  k1_off16_inb : ∀ i : grid1.Coords, ∀ a, (k1_off16 i) a + S1x1x1x32.size a ≤ S3x16x1x512.size a
  k1_off17_inb : ∀ i : grid1.Coords, ∀ a, (k1_off17 i) a + S1x1x1x32.size a ≤ S3x16x1x512.size a
  k1_off18_inb : ∀ i : grid1.Coords, ∀ a, (k1_off18 i) a + S1x1x1x32.size a ≤ S3x16x1x512.size a
  k1_off19_inb : ∀ i : grid1.Coords, ∀ a, (k1_off19 i) a + S1x1x1x32.size a ≤ S3x16x1x512.size a
  k1_off20_inb : ∀ i : grid1.Coords, ∀ a, (k1_off20 i) a + S1x1x1x32.size a ≤ S3x16x1x512.size a
  k1_off21_inb : ∀ i : grid1.Coords, ∀ a, (k1_off21 i) a + S1x1x1x32.size a ≤ S3x16x1x512.size a
  k1_off22_inb : ∀ i : grid1.Coords, ∀ a, (k1_off22 i) a + S1x1x1x32.size a ≤ S3x16x1x512.size a
  k1_off23_inb : ∀ i : grid1.Coords, ∀ a, (k1_off23 i) a + S1x1x1x32.size a ≤ S3x16x1x512.size a
  k1_off24_inb : ∀ i : grid1.Coords, ∀ a, (k1_off24 i) a + S1x1x1x32.size a ≤ S3x16x1x512.size a
  k1_off25_inb : ∀ i : grid1.Coords, ∀ a, (k1_off25 i) a + S1x1x1x32.size a ≤ S3x16x1x512.size a
  k1_off26_inb : ∀ i : grid1.Coords, ∀ a, (k1_off26 i) a + S1x1x1x32.size a ≤ S3x16x1x512.size a
  k1_off27_inb : ∀ i : grid1.Coords, ∀ a, (k1_off27 i) a + S1x1x1x32.size a ≤ S3x16x1x512.size a
  k1_off28_inb : ∀ i : grid1.Coords, ∀ a, (k1_off28 i) a + S1x1x1x32.size a ≤ S3x16x1x512.size a
  k1_off29_inb : ∀ i : grid1.Coords, ∀ a, (k1_off29 i) a + S1x1x1x32.size a ≤ S3x16x1x512.size a
  k1_off30_inb : ∀ i : grid1.Coords, ∀ a, (k1_off30 i) a + S1x1x1x32.size a ≤ S3x16x1x512.size a
  k1_off31_inb : ∀ i : grid1.Coords, ∀ a, (k1_off31 i) a + S1x1x1x32.size a ≤ S3x16x1x512.size a
  k1_off32_inb : ∀ i : grid1.Coords, ∀ a, (k1_off32 i) a + S1x1x1x32.size a ≤ S3x16x1x512.size a
  k1_off33_inb : ∀ i : grid1.Coords, ∀ a, (k1_off33 i) a + S1x1x1x32.size a ≤ S3x16x1x512.size a
  k1_off34_inb : ∀ i : grid1.Coords, ∀ a, (k1_off34 i) a + S1x1x1x32.size a ≤ S3x16x1x512.size a
  k1_off35_inb : ∀ i : grid1.Coords, ∀ a, (k1_off35 i) a + S1x1x1x32.size a ≤ S3x16x1x512.size a
  k1_off36_inb : ∀ i : grid1.Coords, ∀ a, (k1_off36 i) a + S1x1x1x32.size a ≤ S3x16x1x512.size a
  k1_off37_inb : ∀ i : grid1.Coords, ∀ a, (k1_off37 i) a + S1x1x1x32.size a ≤ S3x16x1x512.size a
  k1_off38_inb : ∀ i : grid1.Coords, ∀ a, (k1_off38 i) a + S1x1x1x32.size a ≤ S3x16x1x512.size a
  k1_off39_inb : ∀ i : grid1.Coords, ∀ a, (k1_off39 i) a + S1x1x1x32.size a ≤ S3x16x1x512.size a
  k1_off40_inb : ∀ i : grid1.Coords, ∀ a, (k1_off40 i) a + S1x1x1x32.size a ≤ S3x16x1x512.size a
  k1_off41_inb : ∀ i : grid1.Coords, ∀ a, (k1_off41 i) a + S1x1x1x32.size a ≤ S3x16x1x512.size a
  k1_off42_inb : ∀ i : grid1.Coords, ∀ a, (k1_off42 i) a + S1x1x1x32.size a ≤ S3x16x1x512.size a
  k1_off43_inb : ∀ i : grid1.Coords, ∀ a, (k1_off43 i) a + S1x1x1x32.size a ≤ S3x16x1x512.size a
  k1_off44_inb : ∀ i : grid1.Coords, ∀ a, (k1_off44 i) a + S1x1x1x32.size a ≤ S3x16x1x512.size a
  k1_off45_inb : ∀ i : grid1.Coords, ∀ a, (k1_off45 i) a + S1x1x1x32.size a ≤ S3x16x1x512.size a
  k1_off46_inb : ∀ i : grid1.Coords, ∀ a, (k1_off46 i) a + S1x1x1x32.size a ≤ S3x16x1x512.size a
  k1_off47_inb : ∀ i : grid1.Coords, ∀ a, (k1_off47 i) a + S1x1x1x32.size a ≤ S3x16x1x512.size a
  k1_off48_inb : ∀ i : grid1.Coords, ∀ a, (k1_off48 i) a + S1x1x1x32.size a ≤ S3x16x1x512.size a
  k1_off49_inb : ∀ i : grid1.Coords, ∀ a, (k1_off49 i) a + S1x1x1x32.size a ≤ S3x16x1x512.size a
  k1_off50_inb : ∀ i : grid1.Coords, ∀ a, (k1_off50 i) a + S1x1x1x32.size a ≤ S3x16x1x512.size a
  k1_off51_inb : ∀ i : grid1.Coords, ∀ a, (k1_off51 i) a + S1x1x1x32.size a ≤ S3x16x1x512.size a
  k1_off52_inb : ∀ i : grid1.Coords, ∀ a, (k1_off52 i) a + S1x1x1x32.size a ≤ S3x16x1x512.size a
  k1_off53_inb : ∀ i : grid1.Coords, ∀ a, (k1_off53 i) a + S1x1x1x32.size a ≤ S3x16x1x512.size a
  k1_off54_inb : ∀ i : grid1.Coords, ∀ a, (k1_off54 i) a + S1x1x1x32.size a ≤ S3x16x1x512.size a
  k1_off55_inb : ∀ i : grid1.Coords, ∀ (r : Fin 3), ∀ a, (k1_off55 i (BitVec.ofNat 32 (512 * r.val))) a + S32.size a ≤ S3072.size a
  hstage2_0 : ∀ j, (stage2_0 j).IsWhole
  hstage2_1 : ∀ j, (stage2_1 j).IsWhole

variable [Facts₀]

abbrev cc1_scratch11 : DmaSems sig S_ := SemArray.consecutive 17 S_ hcc1_scratch11
abbrev cc1_scratch12 : DmaSems sig S_ := SemArray.consecutive 18 S_ hcc1_scratch12
abbrev cc1_scratch13 : DmaSems sig S_ := SemArray.consecutive 19 S_ hcc1_scratch13
abbrev cc1_scoped0 : DmaSems sig S_ := SemArray.consecutive 20 S_ hcc1_scoped0
abbrev cc1_scoped1 : DmaSems sig S_ := SemArray.consecutive 21 S_ hcc1_scoped1
abbrev cc1_scoped2 : DmaSems sig S_ := SemArray.consecutive 22 S_ hcc1_scoped2
abbrev cc1_scoped3 : DmaSems sig S_ := SemArray.consecutive 23 S_ hcc1_scoped3
abbrev cc1_scoped4 : DmaSems sig S_ := SemArray.consecutive 24 S_ hcc1_scoped4
abbrev cc1_scoped5 : DmaSems sig S_ := SemArray.consecutive 25 S_ hcc1_scoped5
abbrev cc1_scoped6 : DmaSems sig S_ := SemArray.consecutive 26 S_ hcc1_scoped6
abbrev cc1_scoped7 : DmaSems sig S_ := SemArray.consecutive 27 S_ hcc1_scoped7

abbrev win0_0 : Pipeline.Window sig grid0 :=
  Pipeline.Window.ofSpec (Memref.whole main_v3) S1x1.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v10) S1x14336.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v11) S3x14336.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v12) S3x14336.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v13) S16x14336.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v14) S16x14336.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpec (Memref.whole main_v15_0) S14336.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_1) S14336.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win2_0 : Pipeline.Window sig grid2 :=
  Pipeline.Window.whole (Memref.whole main_v16) false false (stage2_0 0) (sem2_0 0) (Memref.isWhole_whole _) (hstage2_0 0)

abbrev win2_1 : Pipeline.Window sig grid2 :=
  Pipeline.Window.whole (Memref.whole main_v17) true false (stage2_1 0) (sem2_1 0) (Memref.isWhole_whole _) (hstage2_1 0)

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x1 : Shape := ⟨2, ![100000, 1]⟩
abbrev S1 : Shape := ⟨1, ![1]⟩
abbrev S100000x3 : Shape := ⟨2, ![100000, 3]⟩
abbrev S100000 : Shape := ⟨1, ![100000]⟩
abbrev S100000x16 : Shape := ⟨2, ![100000, 16]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 66
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S1, .f32⟩
  | .hbm, ⟨2, _⟩ => ⟨S100000x3, .f32⟩
  | .hbm, ⟨3, _⟩ => ⟨S100000x3, .f32⟩
  | .hbm, ⟨4, _⟩ => ⟨S100000, .i32⟩
  | .hbm, ⟨5, _⟩ => ⟨S1, .f32⟩
  | .hbm, ⟨6, _⟩ => ⟨S100000x16, .f32⟩
  | .hbm, ⟨7, _⟩ => ⟨S100000x16, .f32⟩
  | .hbm, ⟨8, _⟩ => ⟨S_, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000x3, .f32⟩
  | .hbm, ⟨16, _⟩ => ⟨S100000x3, .f32⟩
  | .hbm, ⟨17, _⟩ => ⟨S100000x3, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S512, .f32⟩
  | .hbm, ⟨23, _⟩ => ⟨S100000x1, .i32⟩
  | .hbm, ⟨24, _⟩ => ⟨S512, .f32⟩
  | .hbm, ⟨25, _⟩ => ⟨S_, .f32⟩
  | .hbm, ⟨26, _⟩ => ⟨S100000, .f32⟩
  | .hbm, ⟨27, _⟩ => ⟨S_, .f32⟩
  | .hbm, ⟨28, _⟩ => ⟨S512, .f32⟩
  | .hbm, ⟨29, _⟩ => ⟨S100000x1, .i32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S1, .f32⟩
  | .hbm, ⟨36, _⟩ => ⟨S1, .f32⟩
  | .hbm, ⟨37, _⟩ => ⟨S512, .f32⟩
  | .hbm, ⟨38, _⟩ => ⟨S512, .f32⟩
  | .hbm, ⟨39, _⟩ => ⟨S100000x16, .f32⟩
  | .hbm, ⟨40, _⟩ => ⟨S100000x16, .f32⟩
  | .hbm, ⟨41, _⟩ => ⟨S_, .f32⟩
  | .hbm, ⟨42, _⟩ => ⟨S100000, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S100000, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S512, .f32⟩
  | .hbm, ⟨51, _⟩ => ⟨S100000x1, .i32⟩
  | .hbm, ⟨52, _⟩ => ⟨S512, .f32⟩
  | .hbm, ⟨53, _⟩ => ⟨S_, .f32⟩
  | .hbm, ⟨54, _⟩ => ⟨S100000, .f32⟩
  | .hbm, ⟨55, _⟩ => ⟨S_, .f32⟩
  | .hbm, ⟨56, _⟩ => ⟨S512, .f32⟩
  | .hbm, ⟨57, _⟩ => ⟨S100000x1, .i32⟩
  | .hbm, ⟨58, _⟩ => ⟨S512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S1x512, .f32⟩
  | .hbm, ⟨64, _⟩ => ⟨S1x512, .f32⟩
  | .hbm, ⟨65, _⟩ => ⟨S2x512, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S1_S100000_0 : S1.BroadcastsInDim S100000 (![0] : Fin 1 → Fin S100000.rank)
  reducesTo_S100000x3_S100000_d1 : S100000x3.ReducesTo [1] S100000
  h_S_ : 0 < S_.numel
  bcast_S_S512 : S_.BroadcastsInDim S512 (![] : Fin 0 → Fin S512.rank)
  bcast_S100000_S100000x1_0 : S100000.BroadcastsInDim S100000x1 (![0] : Fin 1 → Fin S100000x1.rank)
  bcast_S1_S512_0 : S1.BroadcastsInDim S512 (![0] : Fin 1 → Fin S512.rank)
  reducesTo_S100000x16_S100000_d1 : S100000x16.ReducesTo [1] S100000
  bcast_S_S1 : S_.BroadcastsInDim S1 (![] : Fin 0 → Fin S1.rank)
  bcast_S512_S1x512_1 : S512.BroadcastsInDim S1x512 (![1] : Fin 1 → Fin S1x512.rank)
  concatenates_S1x512_S1x512_S2x512_d0 : Shape.Concatenates [S1x512, S1x512] S2x512 0
  scatter_S512_S100000x1_S100000_n_0_0_1_wf : ScatterDims.WF S512 S100000x1 S100000 [] [0] [0] 1

variable [Facts₀]

def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.RefImports.lean ====
import proofs.«203579_g3066606649474_cont_9to1_387_24_alg».proof.Proof.Gen.ReferenceIdeal.Run
import proofs.«203579_g3066606649474_cont_9to1_387_24_alg».proof.Proof.Gen.ReferenceIdeal.Read
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SNx1 : Shape := ⟨2, ![100000, 1]⟩
abbrev S1 : Shape := ⟨1, ![1]⟩
abbrev SNx3 : Shape := ⟨2, ![100000, 3]⟩
abbrev SN : Shape := ⟨1, ![100000]⟩
abbrev SNx16 : Shape := ⟨2, ![100000, 16]⟩
abbrev S0 : Shape := ⟨0, ![]⟩
abbrev S2x512 : Shape := ⟨2, ![2, 512]⟩

abbrev negTwo : EReal := Ideal.ofBits .f32 0xC0000000#32

abbrev one : EReal := Ideal.ofBits .f32 0x3F800000#32

theorem one_eq : one = ((1 : ℝ) : EReal) := by
  simp [one, Ideal.ofBits, Ideal.ieee, -EReal.coe_mul]; norm_num

theorem negTwo_eq : negTwo = ((-2 : ℝ) : EReal) := by
  simp [negTwo, Ideal.ofBits, Ideal.ieee, -EReal.coe_mul]; norm_num

theorem inf_eq : Ideal.ofBits .f32 0x7F800000#32 = (⊤ : EReal) := by
  simp [Ideal.ofBits, Ideal.ieee]

section
variable (t : FVec Ideal SNx1 .f32) (σ : FVec Ideal S1 .f32) (xp x : FVec Ideal SNx3 .f32) (ids : IVec SN 32)
  (β : FVec Ideal S1 .f32) (oh p0 : FVec Ideal SNx16 .f32) (Kc : IVec S0 32)

def lnσ : EReal := Ideal.log (σ (ix1 (0 : Fin 1)))

def a : EReal := negTwo * lnσ σ

def c1 : EReal := -lnσ σ

def c2 : EReal := (((Kc ix0).toInt : ℝ) : EReal) * β (ix1 (0 : Fin 1))

def lc (i : Fin 100000) : EReal :=
  (c1 σ * Ideal.exp (a σ * t (ix2 i (0 : Fin 1)))) * ∑ d : Fin 3, (xp (ix2 i d) - x (ix2 i d)) * (xp (ix2 i d) - x (ix2 i d))

def ld (i : Fin 100000) : EReal :=
  (c2 β Kc * t (ix2 i (0 : Fin 1))) * ∑ k : Fin 16, (oh (ix2 i k) - p0 (ix2 i k)) * (oh (ix2 i k) - p0 (ix2 i k))

def seg (s : Fin 512) : Finset (Fin 100000) := Finset.univ.filter fun i => (ids (ix1 i)).toNat = s.val

def cnt (s : Fin 512) : EReal := ∑ _i ∈ seg ids s, one

def sum0 (s : Fin 512) : EReal := ∑ i ∈ seg ids s, lc t σ xp x i

def sum1 (s : Fin 512) : EReal := ∑ i ∈ seg ids s, ld t β oh p0 Kc i

def row0 (s : Fin 512) : EReal := Ideal.div (sum0 t σ xp x ids s) (max (cnt ids s) one)

def row1 (s : Fin 512) : EReal := Ideal.div (sum1 t ids β oh p0 Kc s) (max (cnt ids s) one)

def out : FVec Ideal S2x512 .f32 := fun j =>
  if (j 0).val = 0 then row0 t σ xp x ids (j 1) else row1 t ids β oh p0 Kc (j 1)

theorem out_row0 (s : Fin 512) : out t σ xp x ids β oh p0 Kc (ix2 (0 : Fin 2) s) = row0 t σ xp x ids s := by
  unfold out; exact if_pos rfl
theorem out_row1 (s : Fin 512) : out t σ xp x ids β oh p0 Kc (ix2 (1 : Fin 2) s) = row1 t ids β oh p0 Kc s := by
  unfold out; exact if_neg (by show ¬((1 : Nat) = 0); decide)

theorem c2_eq : c2 β Kc = FloatOps.sitofp (F := Ideal) .f32 (Kc ix0) * β (ix1 (0 : Fin 1)) := rfl

end

end Cert.Spec

end
-- ==== Proof.RefValue.lean ====
import proofs.«203579_g3066606649474_cont_9to1_387_24_alg».proof.Proof.Gen.ReferenceIdeal.Read
import proofs.«203579_g3066606649474_cont_9to1_387_24_alg».proof.Proof.Gen.Pre_input_domain
import proofs.«203579_g3066606649474_cont_9to1_387_24_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal Cert.ReferenceIdeal.Gen Cert.ReferenceIdeal.Read

abbrev dseg := scatter_S512_S100000x1_S100000_n_0_0_1

theorem siIdx_eq (j : S100000.Idx) (c : Fin dseg.scatterDimsToOperandDims.length) :
    dseg.siIdx j c = ix2 (j 0) (0 : Fin 1) := by
  funext b
  match b with
  | ⟨0, _⟩ =>
    apply Fin.ext
    simp [ScatterDims.siIdx, ScatterDims.siCoord, dseg, scatter_S512_S100000x1_S100000_n_0_0_1]
    rfl
  | ⟨1, _⟩ =>
    apply Fin.ext
    simp [ScatterDims.siIdx, dseg, scatter_S512_S100000x1_S100000_n_0_0_1]

theorem start_eq (j : S100000.Idx) (idx : IVec S100000x1 32) (a : Fin S512.rank) :
    dseg.start j idx a = (idx (ix2 (j 0) (0 : Fin 1))).toInt := by
  have ha : a = 0 := Subsingleton.elim _ _
  subst ha
  unfold ScatterDims.start
  rw [dif_pos (by decide)]
  exact congrArg (fun k => (idx k).toInt) (siIdx_eq j _)

theorem window_eq (j : S100000.Idx) (a : Fin S512.rank) : dseg.window j a = 0 := by
  have ha : a = 0 := Subsingleton.elim _ _
  subst ha
  unfold ScatterDims.window
  rw [dif_neg (by decide)]

theorem resultIdx_iff (idx : IVec S100000x1 32) (j : S100000.Idx) (s : Fin 512) :
    dseg.resultIdx? j idx = some (ix1 s) ↔ (idx (ix2 (j 0) (0 : Fin 1))).toInt = (s.val : Int) := by
  unfold ScatterDims.resultIdx?
  simp only [start_eq, window_eq]
  have hs : s.val < 512 := s.isLt
  constructor
  · intro h
    split at h
    · next hh =>
      have h1 := congrArg Fin.val (congrFun (Option.some.inj h) 0)
      have h2 := (hh 0).1
      simp only [Nat.cast_zero, add_zero] at h1 h2
      show _ = ((s.val : Nat) : Int)
      rw [← show ((idx (ix2 (j 0) (0 : Fin 1))).toInt).toNat = s.val from h1]
      exact (Int.toNat_of_nonneg h2).symm
    · exact absurd h (by simp)
  · intro h
    rw [dif_pos (by intro a; rw [h]; simp only [Matrix.cons_val_fin_one]; constructor <;> omega)]
    congr 1
    funext a
    have ha : a = 0 := Subsingleton.elim _ _
    subst ha
    apply Fin.ext
    show ((idx (ix2 (j 0) (0 : Fin 1))).toInt + ((0 : Nat) : Int)).toNat = s.val
    rw [h]; simp

theorem toInt_eq_iff (w : BitVec 32) (s : Fin 512) : w.toInt = (s.val : Int) ↔ w.toNat = s.val := by
  have hs : s.val < 512 := s.isLt
  have hw : w.toNat < 4294967296 := w.isLt
  rw [BitVec.toInt_eq_toNat_cond]
  split <;> omega

def nodeEquiv : Fin 100000 ≃ S100000.Idx where
  toFun i := ix1 i
  invFun j := j 0
  left_inv _ := rfl
  right_inv j := (eq_ix1 j).symm

theorem scatter_apply (x0 : FVec Ideal S512 .f32) (ids : IVec S100000 32) (idxv : IVec S100000x1 32)
    (hidx : ∀ i : Fin 100000, idxv (ix2 i (0 : Fin 1)) = ids (ix1 i)) (upd : FVec Ideal S100000 .f32) (s : Fin 512) :
    Host.scatterAdd (F := Ideal) dseg x0 idxv upd (ix1 s) = x0 (ix1 s) + ∑ i ∈ Cert.Spec.seg ids s, upd (ix1 i) := by
  show x0 (ix1 s) + ∑ j ∈ Finset.univ.filter (fun j => dseg.resultIdx? j idxv = some (ix1 s)), upd j = _
  refine congrArg (_ + ·) ?_
  symm
  refine Finset.sum_equiv nodeEquiv (fun i => ?_) (fun i _ => rfl)
  rw [Cert.Spec.seg, Finset.mem_filter, Finset.mem_filter]
  simp only [Finset.mem_univ, true_and]
  rw [resultIdx_iff]
  show _ ↔ (idxv (ix2 i (0 : Fin 1))).toInt = _
  rw [hidx, toInt_eq_iff]

theorem idx_v0 (i : Fin 100000) : idx_main_v0 (ix1 i) = ix2 i (0 : Fin 1) := by
  funext a
  match a with
  | ⟨0, _⟩ => exact Fin.ext (Nat.div_one _)
  | ⟨1, _⟩ => rfl
theorem idx_v8 (i : Fin 100000) (k : Fin 3) : idx_main_v8 (ix1 i) k = ix2 i k := by
  funext a; match a with | ⟨0, _⟩ => rfl | ⟨1, _⟩ => rfl
theorem idx_v26 (i : Fin 100000) (k : Fin 16) : idx_main_v26 (ix1 i) k = ix2 i k := by
  funext a; match a with | ⟨0, _⟩ => rfl | ⟨1, _⟩ => rfl
theorem idx_v3 (j : S100000.Idx) : idx_main_v3 j = ix1 (0 : Fin 1) := by
  funext a; match a with | ⟨0, _⟩ => rfl
theorem idx_v30 (j : S100000.Idx) : idx_main_v30 j = ix1 (0 : Fin 1) := by
  funext a; match a with | ⟨0, _⟩ => rfl
theorem idx_v22 (j : S512.Idx) : idx_main_v22 j = ix1 (0 : Fin 1) := by
  funext a; match a with | ⟨0, _⟩ => rfl
theorem idx_v11 (i : Fin 100000) : idx_main_v11 (ix2 i (0 : Fin 1)) = ix1 i := by
  funext a; match a with | ⟨0, _⟩ => rfl
theorem idx_v15 (i : Fin 100000) : idx_main_v15 (ix2 i (0 : Fin 1)) = ix1 i := by
  funext a; match a with | ⟨0, _⟩ => rfl
theorem idx_v34 (i : Fin 100000) : idx_main_v34 (ix2 i (0 : Fin 1)) = ix1 i := by
  funext a; match a with | ⟨0, _⟩ => rfl
theorem idx_v38 (i : Fin 100000) : idx_main_v38 (ix2 i (0 : Fin 1)) = ix1 i := by
  funext a; match a with | ⟨0, _⟩ => rfl
theorem idx_v43 (s : Fin 512) : idx_main_v43 (ix2 (0 : Fin 1) s) = ix1 s := by
  funext a; match a with | ⟨0, _⟩ => rfl
theorem idx_v44 (s : Fin 512) : idx_main_v44 (ix2 (0 : Fin 1) s) = ix1 s := by
  funext a; match a with | ⟨0, _⟩ => rfl

section
variable (t : FVec Ideal Cert.Spec.SNx1 .f32) (σ : FVec Ideal Cert.Spec.S1 .f32) (xp x : FVec Ideal Cert.Spec.SNx3 .f32)
  (ids : IVec Cert.Spec.SN 32) (β : FVec Ideal Cert.Spec.S1 .f32) (oh p0 : FVec Ideal Cert.Spec.SNx16 .f32) (Kc : IVec Cert.Spec.S0 32)

theorem upd1_apply (i : Fin 100000) :
    val_main_v32 (F := Ideal) t β oh p0 Kc (ix1 i) = Cert.Spec.ld t β oh p0 Kc i := by
  rw [val_main_v32_apply, val_main_v31_apply, val_main_v30_apply, val_main_v29_apply, val_main_v28_apply,
    val_main_v27_apply, val_main_v0_apply, val_main_v26_apply, idx_v0, idx_v30, val_main_cst_5_apply]
  simp only [val_main_v25_apply, val_main_v24_apply, idx_v26, Ideal.mulf_def, Ideal.subf_def, Ideal.ofBits_def,
    Ideal.ofBits_zero_f32, zero_add]
  rfl

theorem upd0_apply (i : Fin 100000) :
    val_main_v9 (F := Ideal) t σ xp x (ix1 i)
      = Ideal.pow (σ (ix1 (0 : Fin 1))) (Cert.Spec.negTwo * t (ix2 i (0 : Fin 1)))
        * ∑ d : Fin 3, max (xp (ix2 i d) - x (ix2 i d)) (-(xp (ix2 i d) - x (ix2 i d)))
            * max (xp (ix2 i d) - x (ix2 i d)) (-(xp (ix2 i d) - x (ix2 i d))) := by
  rw [val_main_v9_apply, val_main_v4_apply, val_main_v3_apply, val_main_v2_apply, val_main_v1_apply, val_main_cst_apply,
    val_main_v0_apply, val_main_v8_apply, idx_v0, idx_v3, val_main_cst_0_apply]
  simp only [val_main_v7_apply, val_main_v6_apply, val_main_v5_apply, idx_v8, Ideal.mulf_def, Ideal.subf_def,
    Ideal.ofBits_def, Ideal.ofBits_zero_f32, zero_add, Ideal.hostPowf_def, Ideal.hostAbsf_def, Ideal.absf_def]

theorem ones13_apply (j : S100000.Idx) : val_main_v13 (F := Ideal) j = Cert.Spec.one := by
  rw [val_main_v13_apply, val_main_cst_2_apply]; rfl
theorem ones36_apply (j : S100000.Idx) : val_main_v36 (F := Ideal) j = Cert.Spec.one := by
  rw [val_main_v36_apply, val_main_cst_7_apply]; rfl

theorem cnt16_apply (s : Fin 512) : val_main_v16 (F := Ideal) ids (ix1 s) = Cert.Spec.cnt ids s := by
  unfold val_main_v16
  rw [scatter_apply _ ids _ (fun i => by rw [val_main_v15_apply, idx_v15]) _ s, val_main_v14_apply, val_main_cst_3_apply]
  simp only [ones13_apply, Ideal.ofBits_def, Ideal.ofBits_zero_f32, zero_add]
  rfl

theorem cnt39_apply (s : Fin 512) : val_main_v39 (F := Ideal) ids (ix1 s) = Cert.Spec.cnt ids s := by
  unfold val_main_v39
  rw [scatter_apply _ ids _ (fun i => by rw [val_main_v38_apply, idx_v38]) _ s, val_main_v37_apply, val_main_cst_8_apply]
  simp only [ones36_apply, Ideal.ofBits_def, Ideal.ofBits_zero_f32, zero_add]
  rfl

theorem sum35_apply (s : Fin 512) :
    val_main_v35 (F := Ideal) t ids β oh p0 Kc (ix1 s) = Cert.Spec.sum1 t ids β oh p0 Kc s := by
  unfold val_main_v35
  rw [scatter_apply _ ids _ (fun i => by rw [val_main_v34_apply, idx_v34]) _ s, val_main_v33_apply, val_main_cst_6_apply]
  simp only [upd1_apply, Ideal.ofBits_def, Ideal.ofBits_zero_f32, zero_add]
  rfl

theorem row1_apply (s : Fin 512) :
    val_main_v42 (F := Ideal) t ids β oh p0 Kc (ix1 s) = Cert.Spec.row1 t ids β oh p0 Kc s := by
  rw [val_main_v42_apply, val_main_v41_apply, sum35_apply, cnt39_apply, val_main_v40_apply, val_main_cst_9_apply]
  rfl

end

theorem coe_sum {ι : Type} (A : Finset ι) (f : ι → ℝ) : ((∑ i ∈ A, f i : ℝ) : EReal) = ∑ i ∈ A, (f i : EReal) := by
  classical
  refine Finset.induction_on A (by simp) (fun a A ha ih => ?_)
  rw [Finset.sum_insert ha, Finset.sum_insert ha, EReal.coe_add, ih]

theorem real_of_abs_lt_top {a : EReal} (h : max a (-a) < ⊤) : ∃ r : ℝ, a = r := by
  have h1 : a ≠ ⊤ := by rintro rfl; simp at h
  have h2 : a ≠ ⊥ := by rintro rfl; simp at h
  exact ⟨a.toReal, (EReal.coe_toReal h1 h2).symm⟩

theorem pow_eq (sg tr : ℝ) (hsg : 0 < sg) :
    Ideal.pow (sg : EReal) (Cert.Spec.negTwo * (tr : EReal)) = ((Real.exp ((-2 * Real.log sg) * tr) : ℝ) : EReal) := by
  rw [Cert.Spec.negTwo_eq, ← EReal.coe_mul, Ideal.pow_coe_coe, Real.rpow_eq_pow, Real.rpow_def_of_pos hsg]
  congr 2; ring

theorem log_eq (sg : ℝ) (hsg : 0 < sg) : Ideal.log (sg : EReal) = ((Real.log sg : ℝ) : EReal) := by
  rw [Ideal.log_coe, if_neg (not_le.2 hsg)]

theorem exp_eq (sg tr : ℝ) (hsg : 0 < sg) :
    Ideal.exp ((Cert.Spec.negTwo * Ideal.log (sg : EReal)) * (tr : EReal)) = ((Real.exp ((-2 * Real.log sg) * tr) : ℝ) : EReal) := by
  rw [log_eq sg hsg, Cert.Spec.negTwo_eq, ← EReal.coe_mul, ← EReal.coe_mul, Ideal.exp_coe]

theorem coe_max' (a b : ℝ) : max (a : EReal) (b : EReal) = ((max a b : ℝ) : EReal) :=
  (EReal.coe_strictMono.monotone.map_max).symm

theorem abs_sq (a b : ℝ) :
    max ((a : EReal) - (b : EReal)) (-((a : EReal) - (b : EReal))) * max ((a : EReal) - (b : EReal)) (-((a : EReal) - (b : EReal)))
      = (((a - b) * (a - b) : ℝ) : EReal) := by
  rw [← EReal.coe_sub, ← EReal.coe_neg, coe_max', ← EReal.coe_mul, ← abs_eq_max_neg, abs_mul_abs_self]

theorem node_ref (sg tr : ℝ) (hsg : 0 < sg) (a b : Fin 3 → ℝ) :
    Ideal.pow (sg : EReal) (Cert.Spec.negTwo * (tr : EReal))
        * ∑ d : Fin 3, max ((a d : EReal) - (b d : EReal)) (-((a d : EReal) - (b d : EReal)))
            * max ((a d : EReal) - (b d : EReal)) (-((a d : EReal) - (b d : EReal)))
      = ((Real.exp ((-2 * Real.log sg) * tr) * ∑ d : Fin 3, (a d - b d) * (a d - b d) : ℝ) : EReal) := by
  rw [pow_eq sg tr hsg, EReal.coe_mul, coe_sum]
  exact congrArg (_ * ·) (Finset.sum_congr rfl fun d _ => abs_sq (a d) (b d))

theorem node_spec (sg tr : ℝ) (hsg : 0 < sg) (a b : Fin 3 → ℝ) :
    (-(Ideal.log (sg : EReal)) * Ideal.exp ((Cert.Spec.negTwo * Ideal.log (sg : EReal)) * (tr : EReal)))
        * ∑ d : Fin 3, ((a d : EReal) - (b d : EReal)) * ((a d : EReal) - (b d : EReal))
      = (((-Real.log sg) * (Real.exp ((-2 * Real.log sg) * tr) * ∑ d : Fin 3, (a d - b d) * (a d - b d)) : ℝ) : EReal) := by
  rw [exp_eq sg tr hsg, log_eq sg hsg, ← EReal.coe_neg, ← EReal.coe_mul]
  rw [show (∑ d : Fin 3, ((a d : EReal) - (b d : EReal)) * ((a d : EReal) - (b d : EReal)))
      = ((∑ d : Fin 3, (a d - b d) * (a d - b d) : ℝ) : EReal) from by
    rw [coe_sum]; exact Finset.sum_congr rfl fun d _ => by rw [← EReal.coe_sub, ← EReal.coe_mul]]
  rw [← EReal.coe_mul]
  congr 1; ring

theorem mean_law {ι : Type} (A : Finset ι) (c : ℝ) (f : ι → ℝ) (n : EReal) (hn : ∃ r : ℝ, r ≠ 0 ∧ n = r) :
    (c : EReal) * Ideal.div (∑ i ∈ A, (f i : EReal)) n = Ideal.div (∑ i ∈ A, ((c * f i : ℝ) : EReal)) n := by
  obtain ⟨r, hr, rfl⟩ := hn
  rw [Ideal.div_coe hr, Ideal.div_coe hr, ← coe_sum, ← coe_sum, ← EReal.coe_mul, ← EReal.coe_mul, ← EReal.coe_mul,
    ← Finset.mul_sum]
  congr 1; ring

theorem cnt_real (ids : IVec Cert.Spec.SN 32) (s : Fin 512) :
    ∃ r : ℝ, r ≠ 0 ∧ max (Cert.Spec.cnt ids s) Cert.Spec.one = r := by
  refine ⟨max (∑ _i ∈ Cert.Spec.seg ids s, (1 : ℝ)) 1, (lt_of_lt_of_le one_pos (le_max_right _ _)).ne', ?_⟩
  unfold Cert.Spec.cnt
  rw [Cert.Spec.one_eq, ← coe_sum, coe_max']

instance : Subsingleton Cert.Pre_input_domain.S_.Idx := ⟨fun a b => funext fun d => d.elim0⟩

theorem lt_of_olt {a b : EReal} (h : FloatOps.cmpf (F := Ideal) (φ := .f32) .olt a b = 1#1) : a < b := by
  by_contra hn
  rw [Ideal.cmpf_def] at h
  simp [Ideal.cmp, hn] at h

theorem lt_of_ogt {a b : EReal} (h : FloatOps.cmpf (F := Ideal) (φ := .f32) .ogt a b = 1#1) : b < a := by
  by_contra hn
  rw [Ideal.cmpf_def] at h
  simp [Ideal.cmp, hn] at h

section
variable (t : FVec Ideal Cert.Spec.SNx1 .f32) (σ : FVec Ideal Cert.Spec.S1 .f32) (xp x : FVec Ideal Cert.Spec.SNx3 .f32)
  (ids : IVec Cert.Spec.SN 32) (β : FVec Ideal Cert.Spec.S1 .f32) (oh p0 : FVec Ideal Cert.Spec.SNx16 .f32) (Kc : IVec Cert.Spec.S0 32)
  [hP : Cert.Pre_input_domain.Facts]

theorem pre_decode (hpre : Cert.Pre_input_domain.fn (F := Ideal) t σ xp x ids β oh p0 Kc = fun _ => 1#1) :
    (∀ j, max (t j) (-(t j)) < ⊤) ∧ (∀ j, max (σ j) (-(σ j)) < ⊤) ∧ (∀ j, max (xp j) (-(xp j)) < ⊤)
      ∧ (∀ j, max (x j) (-(x j)) < ⊤) ∧ (∀ j, 0 < σ j) := by
  have h0 := congrFun hpre ix0
  dsimp only [Cert.Pre_input_domain.fn, Cert.Pre_input_domain.fn_part1, Cert.Pre_input_domain.fn_part2] at h0
  simp only [Idealize.ShloMosaic.andi, IntOp.andi_eq_one] at h0
  obtain ⟨⟨⟨⟨⟨⟨⟨⟨⟨h_t, h_σ⟩, h_xp⟩, h_x⟩, h_β⟩, h_oh⟩, h_p0⟩, h_ids⟩, h_K⟩, h_pos⟩ := h0
  refine ⟨fun j => ?_, fun j => ?_, fun j => ?_, fun j => ?_, fun j => ?_⟩
  · have := Host.reduce_andi_all _ _ _ _ _ h_t j
    rw [← Cert.Spec.inf_eq]; exact lt_of_olt this
  · have := Host.reduce_andi_all _ _ _ _ _ h_σ j
    rw [← Cert.Spec.inf_eq]; exact lt_of_olt this
  · have := Host.reduce_andi_all _ _ _ _ _ h_xp j
    rw [← Cert.Spec.inf_eq]; exact lt_of_olt this
  · have := Host.reduce_andi_all _ _ _ _ _ h_x j
    rw [← Cert.Spec.inf_eq]; exact lt_of_olt this
  · have := Host.reduce_andi_all _ _ _ _ _ h_pos j
    have h : (Ideal.ofBits .f32 0x00000000#32 : EReal) < σ j := lt_of_ogt this
    rwa [Ideal.ofBits_zero_f32] at h

end

section
variable (t : FVec Ideal Cert.Spec.SNx1 .f32) (σ : FVec Ideal Cert.Spec.S1 .f32) (xp x : FVec Ideal Cert.Spec.SNx3 .f32)
  (ids : IVec Cert.Spec.SN 32) (β : FVec Ideal Cert.Spec.S1 .f32) (oh p0 : FVec Ideal Cert.Spec.SNx16 .f32) (Kc : IVec Cert.Spec.S0 32)
  [hP : Cert.Pre_input_domain.Facts]

theorem row0_apply (hpre : Cert.Pre_input_domain.fn (F := Ideal) t σ xp x ids β oh p0 Kc = fun _ => 1#1) (s : Fin 512) :
    val_main_v23 (F := Ideal) t σ xp x ids (ix1 s) = Cert.Spec.row0 t σ xp x ids s := by
  obtain ⟨ht, hσ, hxp, hx, hpos⟩ := pre_decode t σ xp x ids β oh p0 Kc hpre
  clear hpre
  obtain ⟨sg, hsgeq⟩ := real_of_abs_lt_top (hσ (ix1 (0 : Fin 1)))
  have hsg : 0 < sg := by
    have h := hpos (ix1 (0 : Fin 1)); rw [hsgeq] at h; exact_mod_cast h
  obtain ⟨tr, rfl⟩ : ∃ tr : Cert.Spec.SNx1.Idx → ℝ, t = fun j => (tr j : EReal) :=
    ⟨fun j => (t j).toReal, funext fun j => by
      obtain ⟨r, hr⟩ := real_of_abs_lt_top (ht j)
      show t j = (((t j).toReal : ℝ) : EReal)
      rw [hr, EReal.toReal_coe]⟩
  obtain ⟨xpr, rfl⟩ : ∃ xpr : Cert.Spec.SNx3.Idx → ℝ, xp = fun j => (xpr j : EReal) :=
    ⟨fun j => (xp j).toReal, funext fun j => by
      obtain ⟨r, hr⟩ := real_of_abs_lt_top (hxp j)
      show xp j = (((xp j).toReal : ℝ) : EReal)
      rw [hr, EReal.toReal_coe]⟩
  obtain ⟨xr, rfl⟩ : ∃ xr : Cert.Spec.SNx3.Idx → ℝ, x = fun j => (xr j : EReal) :=
    ⟨fun j => (x j).toReal, funext fun j => by
      obtain ⟨r, hr⟩ := real_of_abs_lt_top (hx j)
      show x j = (((x j).toReal : ℝ) : EReal)
      rw [hr, EReal.toReal_coe]⟩
  rw [val_main_v23_apply, val_main_v22_apply, val_main_v21_apply, val_main_v20_apply, idx_v22, val_main_v19_apply,
    val_main_v18_apply, cnt16_apply, val_main_v17_apply, val_main_cst_4_apply]
  unfold val_main_v12
  rw [scatter_apply _ ids _ (fun i => by rw [val_main_v11_apply, idx_v11]) _ s, val_main_v10_apply, val_main_cst_1_apply]
  simp only [upd0_apply, Ideal.mulf_def, Ideal.hostDivf_def, Ideal.hostNegf_def, Ideal.negf_def, Ideal.hostUnary_log_def,
    Ideal.maximumf_def, Ideal.ofBits_def, Ideal.ofBits_zero_f32, zero_add]
  unfold Cert.Spec.row0 Cert.Spec.sum0
  have hR := fun i : Fin 100000 =>
    node_ref sg (tr (ix2 i (0 : Fin 1))) hsg (fun d => xpr (ix2 i d)) (fun d => xr (ix2 i d))
  have hS : ∀ i : Fin 100000, Cert.Spec.lc (fun j => (tr j : EReal)) σ (fun j => (xpr j : EReal)) (fun j => (xr j : EReal)) i
      = (((-Real.log sg) * (Real.exp ((-2 * Real.log sg) * tr (ix2 i (0 : Fin 1)))
          * ∑ d : Fin 3, (xpr (ix2 i d) - xr (ix2 i d)) * (xpr (ix2 i d) - xr (ix2 i d))) : ℝ) : EReal) := fun i => by
    unfold Cert.Spec.lc Cert.Spec.c1 Cert.Spec.a Cert.Spec.lnσ
    rw [hsgeq]
    exact node_spec sg (tr (ix2 i (0 : Fin 1))) hsg (fun d => xpr (ix2 i d)) (fun d => xr (ix2 i d))
  rw [hsgeq]
  simp only [hR, hS]
  rw [log_eq sg hsg, ← EReal.coe_neg]
  exact mean_law _ _ _ _ (cnt_real ids s)

theorem out_at0 (s : Fin 512) :
    val_main_v45 (F := Ideal) t σ xp x ids β oh p0 Kc (ix2 (0 : Fin 2) s) = val_main_v23 (F := Ideal) t σ xp x ids (ix1 s) := by
  unfold val_main_v45
  rw [concatenate_pair_apply_left (t := S2x512) (s₁ := S1x512) (s₂ := S1x512) (0 : Fin 2) _ _
    concatenates_S1x512_S1x512_S2x512_d0 (ix2 (0 : Fin 2) s) rfl (ix2 (0 : Fin 1) s)
    (fun b => match b with | ⟨0, _⟩ => rfl | ⟨1, _⟩ => rfl), val_main_v43_apply, idx_v43]

theorem out_at1 (s : Fin 512) :
    val_main_v45 (F := Ideal) t σ xp x ids β oh p0 Kc (ix2 (1 : Fin 2) s) = val_main_v42 (F := Ideal) t ids β oh p0 Kc (ix1 s) := by
  unfold val_main_v45
  have hi : ∀ b : Fin S1x512.rank, b.cast (rfl : S1x512.rank = S2x512.rank) ≠ (0 : Fin S2x512.rank) →
      ((ix2 (0 : Fin 1) s : S1x512.Idx) b).val = ((ix2 (1 : Fin 2) s : S2x512.Idx) (b.cast rfl)).val := by
    intro b hb
    match b, hb with
    | ⟨0, _⟩, hb => exact absurd rfl hb
    | ⟨1, _⟩, _ => rfl
  rw [concatenate_pair_apply_right (t := S2x512) (s₁ := S1x512) (s₂ := S1x512) (0 : Fin 2) _ _
    concatenates_S1x512_S1x512_S2x512_d0 (ix2 (1 : Fin 2) s) rfl rfl (ix2 (0 : Fin 1) s) hi rfl, val_main_v44_apply, idx_v44]

theorem ref_eq (hpre : Cert.Pre_input_domain.fn (F := Ideal) t σ xp x ids β oh p0 Kc = fun _ => 1#1) :
    val_main_v45 (F := Ideal) t σ xp x ids β oh p0 Kc = Cert.Spec.out t σ xp x ids β oh p0 Kc := by
  funext j
  obtain ⟨r, s, rfl⟩ : ∃ (r : Fin 2) (s : Fin 512), j = ix2 r s := ⟨j 0, j 1, eq_ix2 j⟩
  match r with
  | ⟨0, _⟩ =>
    exact (out_at0 t σ xp x ids β oh p0 Kc s).trans ((row0_apply t σ xp x ids β oh p0 Kc hpre s).trans
      (Cert.Spec.out_row0 t σ xp x ids β oh p0 Kc s).symm)
  | ⟨1, _⟩ =>
    exact (out_at1 t σ xp x ids β oh p0 Kc s).trans ((row1_apply t ids β oh p0 Kc s).trans
      (Cert.Spec.out_row1 t σ xp x ids β oh p0 Kc s).symm)

end

end Cert.RefValue

end
-- ==== Proof.ClaimsRef.lean ====
import proofs.«203579_g3066606649474_cont_9to1_387_24_alg».proof.Defs
import proofs.«203579_g3066606649474_cont_9to1_387_24_alg».proof.Proof.Gen.ReferenceIdeal
import proofs.«203579_g3066606649474_cont_9to1_387_24_alg».proof.Proof.Gen.Pre_input_domain
import proofs.«203579_g3066606649474_cont_9to1_387_24_alg».proof.Proof.RefImports
import proofs.«203579_g3066606649474_cont_9to1_387_24_alg».proof.Proof.RefValue

noncomputable section

namespace Cert.Proof.ClaimsRef

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

open Cert.ReferenceIdeal in

theorem ref_run_spec (m' : (ℓ : Loc Cert.ReferenceIdeal.nD Cert.ReferenceIdeal.τ Cert.ReferenceIdeal.sig) → Buf (Elt Ideal) ℓ)
    (ρ' : Dev Cert.ReferenceIdeal.nD → PrngReg) (hpre' : Cert.Pre_ReferenceIdeal m') :
    θ_run (Cert.ReferenceIdeal.defs (F := Ideal)) (onTc (τ := Cert.ReferenceIdeal.τ) (Cert.ReferenceIdeal.main (F := Ideal))) ⟨m', fun _ => 0, ρ'⟩ fun r => ∀ c : Dev nD,
      r.2.mem ((c.tc : Thread nD τ).loc main_v45)
          = Cert.Spec.out (m' ((c.tc : Thread nD τ).loc main_arg0)) (m' ((c.tc : Thread nD τ).loc main_arg1)) (m' ((c.tc : Thread nD τ).loc main_arg2))
              (m' ((c.tc : Thread nD τ).loc main_arg3)) (m' ((c.tc : Thread nD τ).loc main_arg4)) (m' ((c.tc : Thread nD τ).loc main_arg5))
              (m' ((c.tc : Thread nD τ).loc main_arg6)) (m' ((c.tc : Thread nD τ).loc main_arg7)) (m' ((c.tc : Thread nD τ).loc main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8) :=
  (θ_run Cert.ReferenceIdeal.defs _ _).mono
    (fun _ h c => ⟨by rw [(h c).1, Cert.ReferenceIdeal.Read.val_main_v45_eq]; exact Cert.RefValue.ref_eq _ _ _ _ _ _ _ _ _ (hpre' c), (h c).2⟩)
    (Cert.ReferenceIdeal.Value.run (F := Ideal) m' ρ')

end Cert.Proof.ClaimsRef

end
-- ==== Proof.R0.lean ====
import proofs.«203579_g3066606649474_cont_9to1_387_24_alg».proof.Proof.Gen.KernelIdeal.Skeleton
import Idealize.ShloMosaic.Lib.ValueIdx

noncomputable section

namespace Cert.Proof.KI

open Cert.KernelIdeal Cert.KernelIdeal.Gen
open Idealize.ShloMosaic Idealize.SL.Sem
open Idealize.ShloMosaic.ValueIdx (ix1 ix2)

variable {F : FTy → Type} [FloatOps F]

section Host
variable (m : (ℓ : Loc nD τ sig) → Buf (Elt F) ℓ) (d : Dev nD)

def hLog : Vec F S_ .f32 :=
  (Host.log : (⟨S_, .f32⟩ : BufTy).Contents (Elt F) → (⟨S_, .f32⟩ : BufTy).Contents (Elt F))
    (shapeCast S_ (m ((d.tc : Thread nD τ).loc main_arg1)) shapeCasts_S1_S_)

def hA : Vec F S1x1 .f32 :=
  shapeCast S1x1 ((mulf : (⟨S_, .f32⟩ : BufTy).Contents (Elt F) → (⟨S_, .f32⟩ : BufTy).Contents (Elt F) → (⟨S_, .f32⟩ : BufTy).Contents (Elt F))
    (constant S_ .f32 0xC0000000#32) (hLog m d)) shapeCasts_S_S1x1

def hC1 : Vec F S1x1 .f32 :=
  shapeCast S1x1 ((Host.negf : (⟨S_, .f32⟩ : BufTy).Contents (Elt F) → (⟨S_, .f32⟩ : BufTy).Contents (Elt F)) (hLog m d)) shapeCasts_S_S1x1

def hC2 : Vec F S1x1 .f32 :=
  shapeCast S1x1 ((mulf : (⟨S_, .f32⟩ : BufTy).Contents (Elt F) → (⟨S_, .f32⟩ : BufTy).Contents (Elt F) → (⟨S_, .f32⟩ : BufTy).Contents (Elt F))
    ((sitofp .f32 : (⟨S_, .i32⟩ : BufTy).Contents (Elt F) → (⟨S_, .f32⟩ : BufTy).Contents (Elt F)) (m ((d.tc : Thread nD τ).loc main_arg8)))
    (shapeCast S_ (m ((d.tc : Thread nD τ).loc main_arg5)) shapeCasts_S1_S_)) shapeCasts_S_S1x1

def hT : Vec F S1x100000 .f32 :=
  transpose S1x100000 [1, 0] (m ((d.tc : Thread nD τ).loc main_arg0)) transposes_S100000x1_S1x100000_1_0

def hXp : Vec F S3x100000 .f32 :=
  transpose S3x100000 [1, 0] (m ((d.tc : Thread nD τ).loc main_arg2)) transposes_S100000x3_S3x100000_1_0

def hX : Vec F S3x100000 .f32 :=
  transpose S3x100000 [1, 0] (m ((d.tc : Thread nD τ).loc main_arg3)) transposes_S100000x3_S3x100000_1_0

def hOh : Vec F S16x100000 .f32 :=
  transpose S16x100000 [1, 0] (m ((d.tc : Thread nD τ).loc main_arg6)) transposes_S100000x16_S16x100000_1_0

def hP0 : Vec F S16x100000 .f32 :=
  transpose S16x100000 [1, 0] (m ((d.tc : Thread nD τ).loc main_arg7)) transposes_S100000x16_S16x100000_1_0

end Host

def BlkOf {r : Nat} (A : Vec F ⟨2, ![r, 100000]⟩ .f32) (t : Fin 7) (b : Vec F ⟨2, ![r, 14336]⟩ .f32) : Prop :=
  ∀ (i : Fin r) (j : Fin 14336) (h : t.val * 14336 + j.val < 100000), b (ix2 i j) = A (ix2 i ⟨t.val * 14336 + j.val, h⟩)

abbrev lane (t : Fin 7) (j : Fin 14336) : S100352.Idx :=
  ix1 ⟨t.val * 14336 + j.val, by have := t.isLt; have := j.isLt; omega⟩

def R0 (m : (ℓ : Loc nD τ sig) → Buf (Elt F) ℓ) (d : Dev nD) (lcA ldA : Vec F S100352 .f32) : Prop :=
  ∀ t : Fin 7,
    (∃ (tb : Vec F S1x14336 .f32) (xpb xb : Vec F S3x14336 .f32),
      BlkOf (hT m d) t tb ∧ BlkOf (hXp m d) t xpb ∧ BlkOf (hX m d) t xb ∧
      ∀ j : Fin 14336, lcA (lane t j) = k0_pay2 (hA m d (ix2 0 0)) (hC1 m d (ix2 0 0)) tb xpb xb (ix1 j)) ∧
    (∃ (tb : Vec F S1x14336 .f32) (ohb p0b : Vec F S16x14336 .f32),
      BlkOf (hT m d) t tb ∧ BlkOf (hOh m d) t ohb ∧ BlkOf (hP0 m d) t p0b ∧
      ∀ j : Fin 14336, ldA (lane t j) = k0_pay3 (hC2 m d (ix2 0 0)) tb ohb p0b (ix1 j))

end Cert.Proof.KI

end
-- ==== Proof.Vals.lean ====
import proofs.«203579_g3066606649474_cont_9to1_387_24_alg».proof.Proof.R0
import Idealize.ShloMosaic.Lib.ValueIdx

noncomputable section

namespace Cert.Proof.KI

open Cert.KernelIdeal Cert.KernelIdeal.Gen
open Idealize.ShloMosaic Idealize.SL.Sem

variable {F : FTy → Type} [FloatOps F]

def baseOf (c i : Nat) : Nat := (c * 16 + i) * 3136

theorem baseOf_add_lt {c i : Nat} (hc : c < 2) (hi : i < 16) (k : Fin 3136) : baseOf c i + k.val < 100352 := by
  unfold baseOf; have := k.isLt; omega

def chunkOf (A : Vec F S100352 .f32) (c : Fin 2) (i : Fin 16) : Vec F S3136 .f32 :=
  fun k => A (ValueIdx.ix1 ⟨baseOf c.val i.val + (k 0).val, baseOf_add_lt c.isLt i.isLt (k 0)⟩)

def ChunkOk (m : (ℓ : Loc nD τ sig) → Buf (Elt F) ℓ) (d : Dev nD) (c : Fin 2) (i : Fin 16) (lcv ldv : Vec F S3136 .f32) : Prop :=
  ∃ lcA ldA : Vec F S100352 .f32, R0 m d lcA ldA ∧ lcv = chunkOf lcA c i ∧ ldv = chunkOf ldA c i

def tileIds (m : (ℓ : Loc nD τ sig) → Buf (Elt F) ℓ) (d : Dev nD) (c : Fin 2) (i : Fin 16) : IVec S3136 32 :=
  fun k => if h : baseOf c.val i.val + (k 0).val < 100000 then (m ((d.tc : Thread nD τ).loc main_arg4)) (ValueIdx.ix1 ⟨_, h⟩) else 512#32

def IdsOk (m : (ℓ : Loc nD τ sig) → Buf (Elt F) ℓ) (d : Dev nD) : Prop :=
  ∀ j : S100000.Idx, ((m ((d.tc : Thread nD τ).loc main_arg4)) j : BitVec 32).toNat ≤ 511

def accZero : Vec F S528 .f32 := fun _ => Scalar.ofBits .f32 0x00000000#32

open Classical in

def accStep (vals : Vec F S3136 .f32) (idsv : IVec S3136 32) (k : Fin k1_t1_loop.trips) (acc : Vec F S528 .f32) : Vec F S528 .f32 :=
  if h1 : ∀ a x, ((![k1_pay6 k] : Fin 1 → IVec S16 32) a x).toNat < S3136.size a then
    if h2 : ∀ a x, ((![loadIdx (F := F) (e := .i32) idsv ![k1_pay6 k] h1] : Fin 1 → IVec S16 32) a x).toNat < S528.size a then
      storeIdx acc ![loadIdx (F := F) (e := .i32) idsv ![k1_pay6 k] h1] (loadIdx vals ![k1_pay6 k] h1) (k1_pay5 k) true h2
    else acc
  else acc

def accPre (vals : Vec F S3136 .f32) (idsv : IVec S3136 32) : ℕ → Vec F S528 .f32
  | 0 => accZero
  | n + 1 => if h : n < k1_t1_loop.trips then accStep vals idsv ⟨n, h⟩ (accPre vals idsv n) else accPre vals idsv n

def accFold (vals : Vec F S3136 .f32) (idsv : IVec S3136 32) : Vec F S528 .f32 := accPre vals idsv k1_t1_loop.trips

def onesV : Vec F S3136 .f32 := fun _ => Scalar.ofBits .f32 0x3F800000#32

def rowVals (a : Fin 3) (lcv ldv : Vec F S3136 .f32) : Vec F S3136 .f32 :=
  match a with | 0 => lcv | 1 => ldv | 2 => onesV

def binsOf (g : Vec F S528 .f32) : Vec F S512 .f32 :=
  fun b => g (ValueIdx.ix1 ⟨(b 0).val, Nat.lt_of_lt_of_le (b 0).isLt (by decide)⟩)

def AccOk (m : (ℓ : Loc nD τ sig) → Buf (Elt F) ℓ) (d : Dev nD) (c : Fin 2) (v : Fin 16) (a : Fin 3) (f : Vec F S512 .f32) : Prop :=
  ∃ lcv ldv : Vec F S3136 .f32, ChunkOk m d c v lcv ldv ∧ f = binsOf (accFold (rowVals a lcv ldv) (tileIds m d c v))

theorem tileIds_lt {m : (ℓ : Loc nD τ sig) → Buf (Elt F) ℓ} {d : Dev nD} (h : IdsOk m d) (c : Fin 2) (i : Fin 16) (k : S3136.Idx) :
    (tileIds m d c i k).toNat < 528 := by
  unfold tileIds
  split
  · exact Nat.lt_of_le_of_lt (h _) (by decide)
  · decide

def OutOk (m : (ℓ : Loc nD τ sig) → Buf (Elt F) ℓ) (d : Dev nD) (c : Fin 2) (i : Fin 16) (a : Fin 3) (o : Vec F S32 .f32) : Prop :=
  ∃ rows : Fin 16 → Vec F S512 .f32, (∀ v, AccOk m d c v a (rows v)) ∧
    ∀ r : S32.Idx, o r = (List.finRange 16).foldl (fun acc v => FloatOps.addf acc (rows v (ValueIdx.ix1 ⟨i.val * 32 + (r 0).val, by
      have := i.isLt; have hr : (r 0).val < 32 := (r 0).isLt; show i.val * 32 + (r 0).val < 512; omega⟩))) (Scalar.ofBits .f32 0x00000000#32)

def outSlice (pA : Vec F S3072 .f32) (c : Fin 2) (i : Fin 16) (a : Fin 3) : Vec F S32 .f32 :=
  fun r => pA (ValueIdx.ix1 ⟨c.val * 1536 + a.val * 512 + i.val * 32 + (r 0).val, by have := c.isLt; have := i.isLt; have := a.isLt; have hr : (r 0).val < 32 := (r 0).isLt; omega⟩)

def shRowOf (f : Vec F S3x16x1x512 .f32) (a : Fin 3) (v : Fin 16) : Vec F S512 .f32 :=
  fun b => f (fun x => match x with | ⟨0, _⟩ => a | ⟨1, _⟩ => v | ⟨2, _⟩ => (0 : Fin 1) | ⟨3, _⟩ => b 0)

end Cert.Proof.KI

end
-- ==== Proof.Setup.lean ====
import proofs.«203579_g3066606649474_cont_9to1_387_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic
import proofs.«203579_g3066606649474_cont_9to1_387_24_alg».proof.Proof.Gen.KernelIdeal
import proofs.«203579_g3066606649474_cont_9to1_387_24_alg».proof.Proof.Gen.KernelIdeal.Skeleton
import proofs.«203579_g3066606649474_cont_9to1_387_24_alg».proof.Proof.Gen.KernelIdeal.Launch
import proofs.«203579_g3066606649474_cont_9to1_387_24_alg».proof.Proof.Gen.KernelIdeal.Points
import proofs.«203579_g3066606649474_cont_9to1_387_24_alg».proof.Proof.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
def ER : Emb UR (MT nD τ sig (HIx 1) (Elt F) ℕ UU ℕ) :=
  (((Emb.inl : Emb UR (UR × Counters)).trans (Emb.inr : Emb (UR × Counters) (UB × (UR × Counters)))).trans
      (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

variable (m : (ℓ : Loc nD τ sig) → Buf (Elt F) ℓ) (ρ : Dev nD → PrngReg)

abbrev lcLoc (d : Dev nD) : Loc nD τ sig := (SparseCore.T d).loc main_v15_0
abbrev ldLoc (d : Dev nD) : Loc nD τ sig := (SparseCore.T d).loc main_v15_1
abbrev idsLoc (d : Dev nD) : Loc nD τ sig := (SparseCore.T d).loc main_arg4
abbrev pLoc (d : Dev nD) : Loc nD τ sig := (SparseCore.T d).loc main_v16
abbrev shRef (c : Fin τ.nSC) : DevRef τ sig := ⟨.shared, ⟨0, by decide⟩, c⟩
abbrev shLoc (d : Dev nD) (c : Fin τ.nSC) : Loc nD τ sig := (d, shRef c)

def coreSet (c : Nat) : Finset S100352.Idx := Finset.univ.filter fun j => c * 50176 ≤ (j 0).val ∧ (j 0).val < (c + 1) * 50176
def chunkSet (c i : Nat) : Finset S100352.Idx := Finset.univ.filter fun j => baseOf c i ≤ (j 0).val ∧ (j 0).val < baseOf c i + 3136
def idsCoreSet (c : Nat) : Finset S100000.Idx := Finset.univ.filter fun j => c * 50176 ≤ (j 0).val ∧ (j 0).val < (c + 1) * 50176
def idsSet (c i : Nat) : Finset S100000.Idx := Finset.univ.filter fun j => baseOf c i ≤ (j 0).val ∧ (j 0).val < baseOf c i + 3136
def outCoreSet (c : Nat) : Finset S3072.Idx := Finset.univ.filter fun j => c * 1536 ≤ (j 0).val ∧ (j 0).val < (c + 1) * 1536
def outSets (c i : Nat) : Finset S3072.Idx :=
  Finset.univ.filter fun j => ∃ a : Fin 3, c * 1536 + a.val * 512 + i * 32 ≤ (j 0).val ∧ (j 0).val < c * 1536 + a.val * 512 + i * 32 + 32
def shRows (v : Nat) : Finset S3x16x1x512.Idx := Finset.univ.filter fun j => (j 1).val = v
def shBlk (v i : Nat) : Finset S3x16x1x512.Idx := Finset.univ.filter fun j => (j 1).val = v ∧ i * 32 ≤ (j 3).val ∧ (j 3).val < i * 32 + 32
def shCols (i : Nat) : Finset S3x16x1x512.Idx := Finset.univ.filter fun j => i * 32 ≤ (j 3).val ∧ (j 3).val < i * 32 + 32

variable [FloatOps F]

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

def bPay (g : GSem nD τ sig) (n : ℕ) : sProp 𝕄 :=
  match g with
  | ((d, .scVector c j), _) =>
    if hn : n < 16 then
      iprop(∃ f : Buf (Elt F) (shLoc d c), ⌜∀ a : Fin 3, AccOk m d (Fin.cast nSC_eq c) ⟨n, hn⟩ a (shRowOf f a ⟨n, hn⟩)⌝ ∗ (shLoc d c ↦[shBlk n j.val]{fullShare} f))
    else iprop(emp)
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

def stP (d : Dev nD) (c : Nat) : sProp 𝕄 :=
  iprop((∃ lcA ldA : Vec F S100352 .f32, ⌜R0 m d lcA ldA⌝ ∗ (lcLoc d ↦[coreSet c]{fullShare} lcA) ∗ (ldLoc d ↦[coreSet c]{fullShare} ldA))
    ∗ ⌜IdsOk m d⌝ ∗ (idsLoc d ↦[idsCoreSet c]{fullShare} m (idsLoc d)) ∗ ∃ f, (pLoc d ↦[outCoreSet c]{fullShare} f))
def dnP (d : Dev nD) (c : Fin 2) : sProp 𝕄 :=
  iprop((∃ f, (lcLoc d ↦[coreSet c.val]{fullShare} f)) ∗ (∃ f, (ldLoc d ↦[coreSet c.val]{fullShare} f))
    ∗ (idsLoc d ↦[idsCoreSet c.val]{fullShare} m (idsLoc d))
    ∗ ∃ pA : Vec F S3072 .f32, ⌜∀ (i : Fin 16) (a : Fin 3), OutOk m d c i a (outSlice pA c i a)⌝ ∗ (pLoc d ↦[outCoreSet c.val]{fullShare} pA))
def goP (d : Dev nD) (c : Fin τ.nSC) (i : Nat) : sProp 𝕄 :=
  iprop((∃ lcA ldA : Vec F S100352 .f32, ⌜R0 m d lcA ldA⌝ ∗ (lcLoc d ↦[chunkSet c.val i]{fullShare} lcA) ∗ (ldLoc d ↦[chunkSet c.val i]{fullShare} ldA))
    ∗ ⌜IdsOk m d⌝ ∗ (idsLoc d ↦[idsSet c.val i]{fullShare} m (idsLoc d)) ∗ (∃ f, (pLoc d ↦[outSets c.val i]{fullShare} f))
    ∗ ∃ f, (shLoc d c ↦[shRows i]{fullShare} f))
def tdP (d : Dev nD) (c : Fin τ.nSC) (i : Fin 16) : sProp 𝕄 :=
  iprop((∃ f, (lcLoc d ↦[chunkSet c.val i.val]{fullShare} f)) ∗ (∃ f, (ldLoc d ↦[chunkSet c.val i.val]{fullShare} f))
    ∗ (idsLoc d ↦[idsSet c.val i.val]{fullShare} m (idsLoc d))
    ∗ (∃ pA : Vec F S3072 .f32, ⌜∀ a : Fin 3, OutOk m d (Fin.cast nSC_eq c) i a (outSlice pA (Fin.cast nSC_eq c) i a)⌝ ∗ (pLoc d ↦[outSets c.val i.val]{fullShare} pA))
    ∗ ∃ f, (shLoc d c ↦[shCols i.val]{fullShare} f))

def P : (K (F := F)).Pay (nD := nD) (Val := Elt F) (Name := ℕ) (U := UU) where
  st := fun q d c => match q with | 0 => stP m d (coreOf c).val
  dn := fun q d c => match q with | 0 => dnP m d (Fin.cast nSC_eq (coreOf c))
  go := fun q d c i => match q with | 0 => goP m d (coreOf c) i.val
  td := fun q d c i => match q with | 0 => tdP m d (coreOf c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by show BI.Storable (upEmb : UEmb _ 𝕄) (stP m d (coreOf c).val); unfold stP; infer_instance
  dn q d c := match q with
    | 0 => by show BI.Storable (upEmb : UEmb _ 𝕄) (dnP m d (Fin.cast nSC_eq (coreOf c))); unfold dnP; infer_instance
  go q d c i := match q with
    | 0 => by show BI.Storable (upEmb : UEmb _ 𝕄) (goP m d (coreOf c) i.val); unfold goP; infer_instance
  td q d c i := match q with
    | 0 => by show BI.Storable (upEmb : UEmb _ 𝕄) (tdP m d (coreOf c) (Fin.cast nSub_zero i)); unfold tdP; infer_instance

end Cert.Proof.KI

end
-- ==== Proof.VecSplit.lean ====
import proofs.«203579_g3066606649474_cont_9to1_387_24_alg».proof.Proof.Setup
import Idealize.ShloMosaic.Rules.PointsTo
import Idealize.SL.ProofMode.BigOp

noncomputable section

namespace Cert.Proof.KI

open Cert.KernelIdeal Cert.KernelIdeal.Gen

open Idealize.ShloMosaic
open Idealize.ShloMosaic.SparseCore (S V T)
open Idealize.ShloMosaic.SparseCore.Cfg (HIx ownBufs ownRefs mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

def Parts {ι : Type} [DecidableEq ι] (Kf : Fin 16 → Finset ι) (Sset : Finset ι) : Prop :=
  (∀ i ∈ Finset.univ, ∀ j ∈ Finset.univ, i ≠ j → Disjoint (Kf i) (Kf j)) ∧ Finset.univ.biUnion Kf = Sset

-- Every point of the whole lies in the one part its key names: so the parts are disjoint and cover it.
theorem parts_key {ι : Type} [DecidableEq ι] {Kf : Fin 16 → Finset ι} {Sset : Finset ι} (k : ι → ℕ)
    (h : ∀ (i : Fin 16) x, x ∈ Kf i ↔ x ∈ Sset ∧ k x = i.val) (hk : ∀ x ∈ Sset, k x < 16) : Parts Kf Sset :=
  ⟨fun i _ j _ hij => Finset.disjoint_left.mpr fun x h1 h2 => hij (Fin.ext (((h i x).mp h1).2.symm.trans ((h j x).mp h2).2)),
    Finset.ext fun x => by
      rw [Finset.mem_biUnion]
      exact ⟨fun ⟨i, _, hi⟩ => ((h i x).mp hi).1, fun hx => ⟨⟨k x, hk x hx⟩, Finset.mem_univ _, (h _ x).mpr ⟨hx, rfl⟩⟩⟩⟩

theorem chunk_parts (c : Nat) : Parts (fun i : Fin 16 => chunkSet c i.val) (coreSet c) :=
  parts_key (fun x => ((x 0).val - c * 50176) / 3136)
    (fun i x => by simp only [chunkSet, coreSet, Finset.mem_filter_univ]; unfold baseOf; have := i.isLt; omega)
    fun x hx => by simp only [coreSet, Finset.mem_filter_univ] at hx; omega

theorem ids_parts (c : Nat) : Parts (fun i : Fin 16 => idsSet c i.val) (idsCoreSet c) :=
  parts_key (fun x => ((x 0).val - c * 50176) / 3136)
    (fun i x => by simp only [idsSet, idsCoreSet, Finset.mem_filter_univ]; unfold baseOf; have := i.isLt; omega)
    fun x hx => by simp only [idsCoreSet, Finset.mem_filter_univ] at hx; omega

theorem out_parts (c : Nat) : Parts (fun i : Fin 16 => outSets c i.val) (outCoreSet c) :=
  parts_key (fun x => ((x 0).val - c * 1536) % 512 / 32)
    (fun i x => by
      simp only [outSets, outCoreSet, Finset.mem_filter_univ]
      have := i.isLt
      exact ⟨fun ⟨a, h1, h2⟩ => by have := a.isLt; omega,
        fun ⟨h1, h2⟩ => ⟨⟨((x 0).val - c * 1536) / 512, by omega⟩, by dsimp only; omega, by dsimp only; omega⟩⟩)
    fun x hx => by omega

theorem shRows_parts : Parts (fun i : Fin 16 => shRows i.val) Finset.univ :=
  parts_key (fun x => (x 1).val) (fun i x => by simp only [shRows, Finset.mem_filter_univ, Finset.mem_univ, true_and]) fun x _ => (x 1).isLt

theorem shCols_parts : Parts (fun i : Fin 16 => shCols i.val) Finset.univ :=
  parts_key (fun x => (x 3).val / 32) (fun i x => by simp only [shCols, Finset.mem_filter_univ, Finset.mem_univ, true_and]; omega)
    fun x _ => by have h : (x 3).val < 512 := (x 3).isLt; omega

section
variable (ℓ : Loc nD τ sig) {Kf : Fin 16 → Finset (Idx ℓ)} {Sset : Finset (Idx ℓ)} (h : Parts Kf Sset)
include h

theorem pts_parts (f : Buf (Elt F) ℓ) :
    (ℓ ↦[Sset]{fullShare} f : sProp 𝕄) = bigSep Finset.univ fun i => ℓ ↦[Kf i]{fullShare} f := by
  rw [← h.2]; exact pointsTo_biUnion Finset.univ Kf h.1

theorem pts_join (fs : Fin 16 → Buf (Elt F) ℓ) :
    (bigSep Finset.univ fun i => ℓ ↦[Kf i]{fullShare} fs i)
      ⊢ (iprop(∃ g, ⌜∀ i ∈ Finset.univ, ∀ x ∈ Kf i, g x = fs i x⌝ ∗ ℓ ↦[Sset]{fullShare} g) : sProp 𝕄) := by
  rw [← h.2]; exact pointsTo_biUnion_join Finset.univ Kf fs (fs 0) h.1

theorem pts_join_ex (hne : Nonempty (Buf (Elt F) ℓ)) :
    (bigSep Finset.univ fun i => iprop(∃ f, ℓ ↦[Kf i]{fullShare} f)) ⊢ (iprop(∃ g, ℓ ↦[Sset]{fullShare} g) : sProp 𝕄) := by
  refine (bigSep_exists_pi Finset.univ fun i f => (ℓ ↦[Kf i]{fullShare} f : sProp 𝕄)).trans ?_
  iintro ⟨%fs, H⟩
  ihave H' := (pts_join ℓ h fs) $$ H
  icases H' with ⟨%g, -, Hg⟩
  iexists g; iexact Hg

end

variable (m : (ℓ : Loc nD τ sig) → Buf (Elt F) ℓ) [FloatOps F]

theorem split_go (d : Dev nD) (C : Fin τ.nSC) :
    iprop(stP m d C.val ∗ ∃ f, shLoc d C ↦{fullShare} f) ⊢ (bigSep Finset.univ fun i : Fin 16 => goP m d C i.val : sProp 𝕄) := by
  unfold stP
  simp only [pts_parts (lcLoc d) (chunk_parts C.val), pts_parts (ldLoc d) (chunk_parts C.val), pts_parts (idsLoc d) (ids_parts C.val),
    pts_parts (pLoc d) (out_parts C.val), pts_parts (shLoc d C) shRows_parts]
  iintro ⟨⟨⟨%lcA, %ldA, %hR, Hlc, Hld⟩, %hI, Hids, ⟨%fo, Ho⟩⟩, ⟨%fsh, Hsh⟩⟩
  have key (i : Fin 16) : iprop((lcLoc d ↦[chunkSet C.val i.val]{fullShare} lcA) ∗ (ldLoc d ↦[chunkSet C.val i.val]{fullShare} ldA)
      ∗ (idsLoc d ↦[idsSet C.val i.val]{fullShare} m (idsLoc d)) ∗ (pLoc d ↦[outSets C.val i.val]{fullShare} fo)
      ∗ (shLoc d C ↦[shRows i.val]{fullShare} fsh)) ⊢ (goP m d C i.val : sProp 𝕄) := by
    unfold goP
    iintro ⟨H1, H2, H3, H4, H5⟩
    isplitl [H1 H2]
    · iexists lcA, ldA; iframe; ipureintro; exact hR
    isplitr; · ipureintro; exact hI
    iframe
    isplitl [H4]; · iexists fo; iexact H4
    iexists fsh; iexact H5
  iapply (SparseCore.ent (bigSep_mono (s := Finset.univ) fun i _ => key i))
  rw [bigSep_sep', bigSep_sep', bigSep_sep', bigSep_sep']
  iframe

theorem join_td (d : Dev nD) (C : Fin τ.nSC) :
    (bigSep Finset.univ fun i : Fin 16 => tdP m d C i) ⊢ (iprop(dnP m d (Fin.cast nSC_eq C) ∗ ∃ f, shLoc d C ↦{fullShare} f) : sProp 𝕄) := by
  haveI : Nonempty (Vec F S3072 .f32) := ⟨fun _ => FloatOps.ofBits .f32 0⟩
  unfold tdP dnP
  simp only [Fin.val_cast]
  rw [bigSep_sep', bigSep_sep', bigSep_sep', bigSep_sep', pts_parts (idsLoc d) (ids_parts C.val)]
  iintro ⟨Hlc, Hld, Hids, Ho, Hsh⟩
  ihave Hlc := (pts_join_ex (lcLoc d) (chunk_parts C.val) ⟨fun _ => FloatOps.ofBits .f32 0⟩) $$ Hlc
  ihave Hld := (pts_join_ex (ldLoc d) (chunk_parts C.val) ⟨fun _ => FloatOps.ofBits .f32 0⟩) $$ Hld
  ihave Hsh := (pts_join_ex (shLoc d C) shCols_parts ⟨fun _ => FloatOps.ofBits .f32 0⟩) $$ Hsh
  ihave Ho := (bigSep_exists_pi (Y := fun _ => Vec F S3072 .f32) Finset.univ _) $$ Ho
  icases Ho with ⟨%fs, Ho⟩
  ihave Ho := (bigSep_pure_sep Finset.univ _ _) $$ Ho
  icases Ho with ⟨%hok, Ho⟩
  ihave Ho := (pts_join (pLoc d) (out_parts C.val) fs) $$ Ho
  icases Ho with ⟨%g, %hg, Ho⟩
  iframe Hlc Hld Hids Hsh
  iexists g
  iframe
  ipureintro
  intro i a
  have e : outSlice g (Fin.cast nSC_eq C) i a = outSlice (fs i) (Fin.cast nSC_eq C) i a := funext fun r => hg i (Finset.mem_univ i) _ (by
    simp only [outSets, Finset.mem_filter_univ]
    exact ⟨a, Nat.le_add_right _ _, Nat.add_lt_add_left (r 0).isLt _⟩)
  rw [e]; exact hok i (Finset.mem_univ i) a

theorem vecSplit : (K (F := F)).VecSplit (P m) 0 := by
  intro d c
  show iprop(stP m d (coreOf c).val ∗ _) ⊢ |={_}=> iprop((bigSep Finset.univ fun i : Fin 16 => goP m d (coreOf c) i.val)
    ∗ ((bigSep Finset.univ fun i : Fin 16 => tdP m d (coreOf c) i) -∗ iprop(dnP m d (Fin.cast nSC_eq (coreOf c)) ∗ _)))
  rw [show (ownBufs (S d (coreOf c)) : sProp 𝕄) = iprop((∃ f, shLoc d (coreOf c) ↦{fullShare} f) ∗ _) from
    SparseCore.bigSep_erase' ((mem_ownRefs (p := Proc.scScalar (coreOf c)) (b := shRef (coreOf c))).mpr rfl)]
  iintro ⟨Hst, Hsh, Hrest⟩; imodintro
  isplitl [Hst Hsh]
  · iapply (split_go m d (coreOf c)); iframe
  iintro Htd
  ihave H := (join_td m d (coreOf c)) $$ Htd
  icases H with ⟨Hdn, Hsh⟩
  iframe

end Cert.Proof.KI

end
-- ==== Proof.RegionsIface.lean ====
import proofs.«203579_g3066606649474_cont_9to1_387_24_alg».proof.Proof.Setup

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def hostOps : List (HloOp τ sig (Elt F)) :=
  [ StableHlo.reshape main_arg1 main_v0 rfl Facts₀.shapeCasts_S1_S_,
    StableHlo.unary main_v0 main_v1 (Host.log : (⟨S_, .f32⟩ : BufTy).Contents (Elt F) → (⟨S_, .f32⟩ : BufTy).Contents (Elt F)),
    StableHlo.nullary main_cst (constant S_ .f32 0xC0000000#32),
    StableHlo.binary main_cst main_v1 main_v2 (mulf : (⟨S_, .f32⟩ : BufTy).Contents (Elt F) → (⟨S_, .f32⟩ : BufTy).Contents (Elt F) → (⟨S_, .f32⟩ : BufTy).Contents (Elt F)),
    StableHlo.reshape main_v2 main_v3 rfl Facts₀.shapeCasts_S_S1x1,
    StableHlo.unary main_v1 main_v4 (Host.negf : (⟨S_, .f32⟩ : BufTy).Contents (Elt F) → (⟨S_, .f32⟩ : BufTy).Contents (Elt F)),
    StableHlo.reshape main_v4 main_v5 rfl Facts₀.shapeCasts_S_S1x1,
    StableHlo.reshape main_arg5 main_v6 rfl Facts₀.shapeCasts_S1_S_,
    StableHlo.unary main_arg8 main_v7 (sitofp .f32 : (⟨S_, .i32⟩ : BufTy).Contents (Elt F) → (⟨S_, .f32⟩ : BufTy).Contents (Elt F)),
    StableHlo.binary main_v7 main_v6 main_v8 (mulf : (⟨S_, .f32⟩ : BufTy).Contents (Elt F) → (⟨S_, .f32⟩ : BufTy).Contents (Elt F) → (⟨S_, .f32⟩ : BufTy).Contents (Elt F)),
    StableHlo.reshape main_v8 main_v9 rfl Facts₀.shapeCasts_S_S1x1,
    StableHlo.unary main_arg0 main_v10 ((transpose S1x100000 [1, 0] · Facts₀.transposes_S100000x1_S1x100000_1_0) : (⟨S100000x1, .f32⟩ : BufTy).Contents (Elt F) → (⟨S1x100000, .f32⟩ : BufTy).Contents (Elt F)),
    StableHlo.unary main_arg2 main_v11 ((transpose S3x100000 [1, 0] · Facts₀.transposes_S100000x3_S3x100000_1_0) : (⟨S100000x3, .f32⟩ : BufTy).Contents (Elt F) → (⟨S3x100000, .f32⟩ : BufTy).Contents (Elt F)),
    StableHlo.unary main_arg3 main_v12 ((transpose S3x100000 [1, 0] · Facts₀.transposes_S100000x3_S3x100000_1_0) : (⟨S100000x3, .f32⟩ : BufTy).Contents (Elt F) → (⟨S3x100000, .f32⟩ : BufTy).Contents (Elt F)),
    StableHlo.unary main_arg6 main_v13 ((transpose S16x100000 [1, 0] · Facts₀.transposes_S100000x16_S16x100000_1_0) : (⟨S100000x16, .f32⟩ : BufTy).Contents (Elt F) → (⟨S16x100000, .f32⟩ : BufTy).Contents (Elt F)),
    StableHlo.unary main_arg7 main_v14 ((transpose S16x100000 [1, 0] · Facts₀.transposes_S100000x16_S16x100000_1_0) : (⟨S100000x16, .f32⟩ : BufTy).Contents (Elt F) → (⟨S16x100000, .f32⟩ : BufTy).Contents (Elt F)) ]

def V0 (m : (ℓ : Loc nD τ sig) → Buf (Elt F) ℓ) (d : Dev nD) : Valuation τ sig (Elt F) := fun b => m (d, b)

def V1 (m : (ℓ : Loc nD τ sig) → Buf (Elt F) ℓ) (d : Dev nD) : Valuation τ sig (Elt F) := StableHlo.after hostOps (V0 m d)

def TV1 (m : (ℓ : Loc nD τ sig) → Buf (Elt F) ℓ) (d : Dev nD) : (b : Ref sig .tc) → Buf (Elt F) ((T d : Thread nD τ).loc b) :=
  fun b => V1 m d (Proc.devRef .tc b)

def recAt (d : Dev nD) (n : ℕ) : Set (SemLoc sig × HIx 1) := {p | (K (F := F)).lev ((T d : Thread nD τ), p.1) p.2 ≤ 8 * n}

def Gd (d : Dev nD) : sProp 𝕄 :=
  iprop((bigSep Finset.univ fun p : Fin 2 => Pipeline.cellsGhost (nD := nD) (τ := τ) cfgs (ER (F := F)) p d)
    ∗ (bigSep Finset.univ fun p : Fin 2 => Pipeline.toksInit (nD := nD) (τ := τ) cfgs (ER (F := F)) p d))

structure Reg0 (m : (ℓ : Loc nD τ sig) → Buf (Elt F) ℓ) (d : Dev nD) where

  rd : Pipeline.RDat τ (Elt F) (HIx 1) ℕ UU ℕ cfg0 d

  hA : ∀ w, rd.A w = TV1 m d (Pipeline.arrRef cfg0.spec w)

  hshare : ∀ w, rd.share w = fullShare
  howed : ∀ t, rd.owed t = (K (F := F)).Otc d 0
  hrec : ∀ t, rd.recorded t = recAt (F := F) d 0

  hin : (Pipeline.scopedRest (Ix := HIx 1) (Name := ℕ) (U := UU) (Lvl := ℕ) (Val := Elt F) cfg0.spec d : sProp 𝕄) ⊢ rd.Φ 0
  hout : rd.Φ (Fin.last cfg0.N) ⊢ (Pipeline.scopedRest (Ix := HIx 1) (Name := ℕ) (U := UU) (Lvl := ℕ) (Val := Elt F) cfg0.spec d : sProp 𝕄)

  hbody : rd.BodyObligation defs₀ 𝒱₀ none Set.univ

  hval : ∀ (lcA : Buf (Elt F) ((cfg0.win 8).arr.view.loc (d.tc : Thread nD τ))) (ldA : Buf (Elt F) ((cfg0.win 9).arr.view.loc (d.tc : Thread nD τ))),
    rd.ArrAt 8 cfg0.N lcA → rd.ArrAt 9 cfg0.N ldA → R0 m d lcA ldA

structure Reg2 (epi : Vec F S3072 .f32 → Vec F S2x512 .f32) (m : (ℓ : Loc nD τ sig) → Buf (Elt F) ℓ) (pA : Vec F S3072 .f32) (d : Dev nD) where
  rd : Pipeline.RDat τ (Elt F) (HIx 1) ℕ UU ℕ cfg2 d

  hA0 : rd.A 0 = pA
  hA1 : rd.A 1 = m ((T d : Thread nD τ).loc main_v17)
  hshare : ∀ w, rd.share w = fullShare
  howed : ∀ t, rd.owed t = (K (F := F)).Otc d 1
  hrec : ∀ t, rd.recorded t = recAt (F := F) d 1
  hin : (Pipeline.scopedRest (Ix := HIx 1) (Name := ℕ) (U := UU) (Lvl := ℕ) (Val := Elt F) cfg2.spec d : sProp 𝕄) ⊢ rd.Φ 0
  hout : rd.Φ (Fin.last cfg2.N) ⊢ (Pipeline.scopedRest (Ix := HIx 1) (Name := ℕ) (U := UU) (Lvl := ℕ) (Val := Elt F) cfg2.spec d : sProp 𝕄)
  hbody : rd.BodyObligation defs₀ 𝒱₀ none Set.univ

  hval : ∀ (o : Buf (Elt F) ((cfg2.win 1).arr.view.loc (d.tc : Thread nD τ))), rd.ArrAt 1 cfg2.N o → o = epi pA

end Cert.Proof.KI

end
-- ==== Proof.LaunchElem.lean ====
import proofs.«203579_g3066606649474_cont_9to1_387_24_alg».proof.Proof.Setup
import proofs.«203579_g3066606649474_cont_9to1_387_24_alg».proof.Proof.RegionsIface
import Idealize.ShloMosaic.Lib.SparseCore.Launch
import Idealize.ShloMosaic.Lib.Pipeline.Sound
import Idealize.ShloMosaic.Lib.Rounds

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) [FloatOps F]

omit [FloatOps F] in
private theorem bigSep_emp_l {I : Type} (s : Finset I) : (bigSep s fun _ => iprop(emp)) = (iprop(emp) : sProp 𝕄) := bigSep_emp_const s

abbrev DCI : Type := Dev nD × Fin τ.nSC × Fin τ.nSub
abbrev bcell₃ (x : DCI) : GSem nD τ sig := bcell x.1 x.2.1 x.2.2

def bCells : Finset (GSem nD τ sig) := Finset.univ.image bcell₃
def bToks : Finset (GSem nD τ sig × ℕ × ℕ) :=
  Finset.univ.image fun x : DCI × Fin (grid1.bound 1) => (bcell x.1.1 x.1.2.1 (x.2.castLE hsub1), 0, x.1.2.2.val)
def u₀ : UU :=
  (initOf (K (F := F)).hsCells (K (F := F)).hsToks,
    (initOf bCells bToks, (initOf (Pipeline.cells (nD := nD) (τ := τ) cfgs Gen.cellOf_inj) (Pipeline.launchToks (nD := nD) (τ := τ) cfgs Gen.cellOf_inj), 1)))

omit [FloatOps F] in
theorem bcell₃_injective : Function.Injective (bcell₃ : DCI → GSem nD τ sig) := fun ⟨_, _, _⟩ ⟨_, _, _⟩ e => by cases e; rfl

omit [FloatOps F] in
theorem ownU_split (a : UH) (b : UB) (r : UR) :
    (ownU ((a, (b, (r, 1))) : UU) : sProp 𝕄) ⊢ iprop(BI.own (EH a) ∗ BI.own (EB b) ∗ BI.own (ER r)) := by
  let E : Emb UU 𝕄 := uEmb.toEmb
  have h1 : (ownU ((a, (b, (r, 1))) : UU) : sProp 𝕄) ⊢ iprop(BI.own (EH a) ∗ BI.own (E ((1, (b, (r, 1))) : UU))) :=
    BI.own_op_elim (E.op_of_mem (Prod.mk_mem_op (URA.mem_op_one a) (URA.mem_one_op (b, (r, (1 : Counters))))))
  have h2 : (BI.own (E ((1, (b, (r, 1))) : UU)) : sProp 𝕄) ⊢ iprop(BI.own (EB b) ∗ BI.own (ER r)) :=
    BI.own_op_elim (E.op_of_mem (Prod.mk_mem_op (URA.mem_op_one (1 : UH)) (Prod.mk_mem_op (URA.mem_op_one b) (URA.mem_one_op (r, (1 : Counters))))))
  exact h1.trans (sep_mono_r h2)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

theorem sems_b : ((K (F := F)).freeSems0 : sProp 𝕄) ⊢ bigSep bCells fun g => semVal g 0 := by
  unfold SparseCore.Cfg.freeSems0
  rw [bCells_eq]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Fin.sum_univ_zero, tallyAt_zero]
  | n + 1 => by rw [Fin.sum_univ_castSucc, sum_tallyAt_one g ι n, tallyAt_add]

theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  obtain ⟨rfl, h⟩ := Prod.mk.inj (Prod.mk.inj (Prod.mk.inj e).1).1
  obtain ⟨rfl, hj⟩ := Proc.scVector.inj h
  obtain rfl : j = j' := Fin.ext (congrArg Fin.val hj)
  obtain rfl : i = i' := Fin.ext (Prod.mk.inj (Prod.mk.inj e).2).2
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

abbrev sharedKit : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
abbrev mineKit (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

theorem kit_intro (dci : DCI) : iprop(sharedKit (F := F) m ∗ mineKit dci) ⊢ (bkit (F := F) m dci.1 dci.2.1 dci.2.2 : sProp 𝕄) := by
  obtain ⟨d, c, i⟩ := dci
  iintro ⟨⟨⟨%κ, #Hinv⟩, #Hr⟩, Hat, Htok, Hcred⟩
  dsimp only
  unfold bkit
  iframe
  have pick (Ψ : DCI → sProp 𝕄) [∀ x, BI.Persistent (Ψ x)] :
      bigSep Finset.univ Ψ ⊢ bigSep Finset.univ fun j : Fin (grid1.bound 1) => Ψ (d, c, j.castLE hsub1) :=
    bigSep_intro_persistent fun j _ => bigSep_elim (Finset.mem_univ _)
  isplitr
  · iexists κ; iapply (pick fun x => cellInv EB (bRd (F := F) m) (κ (bcell₃ x)) (bcell₃ x)); iexact Hinv
  iapply (pick fun x => reached EB (bcell₃ x) 0); iexact Hr

theorem kits_deal (κ : GSem nD τ sig → ℕ) :
    iprop((bigSep bCells fun g => cellInv EB (bRd (F := F) m) (κ g) g) ∗ (bigSep bCells fun g => reached EB g 0)
        ∗ (bigSep bCells fun g => atPos EB g 0 ∅ 0) ∗ (bigSep bToks fun x => dutyTok EB x.1 x.2.1 x.2.2)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [bCells_eq, bCells_eq, bCells_eq, toks_eq, SparseCore.Cfg.bigSep_threads (fun thr : Thread nD τ => bigSep Finset.univ fun q : Fin 1 => (P m).x q thr)]
  simp only [Px_T, Px_S, Px_V, bigSep_emp_l]
  iintro ⟨#Hinv, #Hr, Hat, Htok, Hcred⟩
  isplitr; · iempintro
  isplitr; · iempintro
  iapply (bigSep_with_persistent (R := sharedKit (F := F) m) (Φ := mineKit (F := F)) fun dci _ => kit_intro (F := F) m dci)
  isplitr
  · isplitl; · iexists κ; iexact Hinv
    iexact Hr
  unfold mineKit
  rw [bigSep_sep', bigSep_sep']
  iframe

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => Gd (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HR⟩
  imod (Rounds.fund EB (bRd (F := F) m) bCells bToks) $$ HB with ⟨Hst, #Hr, Hat, Htok⟩
  imod (Pipeline.fund_ghost (nD := nD) (τ := τ) cfgs (ER (F := F)) Gen.cellOf_inj) $$ HR with ⟨Hg1, Hg2⟩
  ihave Hsems := (sems_b (F := F)) $$ Hfree
  imod (invs_b (F := F) m) $$ [Hsems Hst] with ⟨%κ, #Hinv⟩
  · iframe
  ihave Hcred' := (creds_b m) $$ Hcred
  imodintro
  isplitl [HH]; · iexact HH
  isplitl [Hg1 Hg2]
  · unfold Gd
    rw [bigSep_sep']
    iframe
  iapply (kits_deal m κ)
  iframe
  isplitl; · iexact Hinv
  iexact Hr

end Cert.Proof.KI

end
-- ==== Proof.TileGeom.lean ====
import proofs.«203579_g3066606649474_cont_9to1_387_24_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

theorem bound_one : grid1.bound 1 = 16 := rfl
abbrev jL (L : grid1.Coords) : Fin 16 := Fin.cast bound_one (L 1)
theorem L0_lt (L : grid1.Coords) : (L 0).val < 2 := (L 0).isLt
theorem L1_lt (L : grid1.Coords) : (L 1).val < 16 := (L 1).isLt

theorem bigSep_eraseList {M : Type} [URA M] {I : Type} [DecidableEq I] (Φ : I → sProp M) :
    ∀ (l : List I) (s : Finset I), l.Nodup → (∀ x ∈ l, x ∈ s) →
      bigSep s Φ = l.foldr (fun x acc => iprop(Φ x ∗ acc)) (bigSep (l.foldl Finset.erase s) Φ)
  | [], _, _, _ => rfl
  | x :: l, s, hnd, hs =>
    (SparseCore.bigSep_erase' (hs x (List.mem_cons_self ..))).trans
      (congrArg (fun t => iprop(Φ x ∗ t))
        (bigSep_eraseList Φ l (s.erase x) (List.nodup_cons.mp hnd).2 fun y hy =>
          Finset.mem_erase.mpr ⟨fun e => (List.nodup_cons.mp hnd).1 (e ▸ hy), hs y (List.mem_cons_of_mem _ hy)⟩))

section Tile

variable (d : Dev nD) (L : grid1.Coords)

abbrev dcell (d : Dev nD) (c : Fin τ.nSC) (i : Fin τ.nSub) (s : DmaSem sig) : GSem nD τ sig := (V d c i, .dma s)

abbrev tileSems : List (DmaSem sig) :=
  [cc1_scratch11.sem, cc1_scratch12.sem, cc1_scratch13.sem, cc1_scoped0.sem, cc1_scoped1.sem, cc1_scoped2.sem, cc1_scoped3.sem,
    cc1_scoped4.sem, cc1_scoped5.sem, cc1_scoped6.sem, cc1_scoped7.sem]

abbrev semsRest (d : Dev nD) (L : grid1.Coords) : Finset (GSem nD τ sig) :=
  (tileSems.map (dcell d (cV L) (jV L))).foldl Finset.erase (ownCells (V d (cV L) (jV L)))

theorem ownSems0_V :
    (ownSems0 (V d (cV L) (jV L)) : sProp 𝕄)
      = iprop(semVal (V d (cV L) (jV L), .dma cc1_scratch11.sem) 0 ∗ semVal (V d (cV L) (jV L), .dma cc1_scratch12.sem) 0
          ∗ semVal (V d (cV L) (jV L), .dma cc1_scratch13.sem) 0 ∗ semVal (V d (cV L) (jV L), .dma cc1_scoped0.sem) 0
          ∗ semVal (V d (cV L) (jV L), .dma cc1_scoped1.sem) 0 ∗ semVal (V d (cV L) (jV L), .dma cc1_scoped2.sem) 0
          ∗ semVal (V d (cV L) (jV L), .dma cc1_scoped3.sem) 0 ∗ semVal (V d (cV L) (jV L), .dma cc1_scoped4.sem) 0
          ∗ semVal (V d (cV L) (jV L), .dma cc1_scoped5.sem) 0 ∗ semVal (V d (cV L) (jV L), .dma cc1_scoped6.sem) 0
          ∗ semVal (V d (cV L) (jV L), .dma cc1_scoped7.sem) 0 ∗ bigSep (semsRest d L) fun g => semVal g 0) :=
  bigSep_eraseList (fun g => semVal g 0) (tileSems.map (dcell d (cV L) (jV L))) (ownCells (V d (cV L) (jV L)))
    ((by decide : tileSems.Nodup).map fun _ _ e => SemLoc.dma.inj (Prod.mk.inj e).2)
    fun x hx => by obtain ⟨s, -, rfl⟩ := List.mem_map.mp hx; exact mem_ownCells.mpr ⟨rfl, sig.sc_scopedDmaSem .scVector s (by decide)⟩

abbrev vref (c : Fin τ.nSC) (i : Fin τ.nSub) (b : Ref sig .scVector) : DevRef τ sig := (Proc.scVector c i).devRef b

abbrev tileBufs : List (Ref sig .scVector) :=
  [cc1_scratch0, cc1_scratch1, cc1_scratch2, cc1_scratch3, cc1_scratch4, cc1_scratch5, cc1_scratch6, cc1_scratch7, cc1_scratch8, cc1_scratch10]

abbrev bufsRest (L : grid1.Coords) : Finset (DevRef τ sig) :=
  (tileBufs.map (vref (cV L) (jV L))).foldl Finset.erase (ownRefs (τ := τ) (.scVector (cV L) (jV L)))

set_option maxHeartbeats 1600000 in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f) ∗ (∃ f, (V d (cV L) (jV L)).loc cc1_scratch5 ↦{fullShare} f)
          ∗ (∃ f, (V d (cV L) (jV L)).loc cc1_scratch6 ↦{fullShare} f) ∗ (∃ f, (V d (cV L) (jV L)).loc cc1_scratch7 ↦{fullShare} f)
          ∗ (∃ f, (V d (cV L) (jV L)).loc cc1_scratch8 ↦{fullShare} f) ∗ (∃ f, (V d (cV L) (jV L)).loc cc1_scratch10 ↦{fullShare} f)
          ∗ bigSep (bufsRest L) fun b => iprop(∃ f, ((d, b) : Loc nD τ sig) ↦{fullShare} f)) :=
  bigSep_eraseList (fun b => iprop(∃ f, ((d, b) : Loc nD τ sig) ↦{fullShare} f)) (tileBufs.map (vref (cV L) (jV L)))
    (ownRefs (τ := τ) (.scVector (cV L) (jV L))) ((by decide : tileBufs.Nodup).map (Proc.devRef_injective (Proc.scVector (cV L) (jV L))))
    fun x hx => by
      obtain ⟨b, hb, rfl⟩ := List.mem_map.mp hx
      simp only [tileBufs, List.mem_cons, List.not_mem_nil, or_false] at hb
      rcases hb with rfl | rfl | rfl | rfl | rfl | rfl | rfl | rfl | rfl | rfl <;> exact SparseCore.Cfg.mem_ownRefs_of_owner rfl

theorem forall_fin4 {P : Fin 4 → Prop} : (∀ a, P a) ↔ P 0 ∧ P 1 ∧ P 2 ∧ P 3 :=
  ⟨fun h => ⟨h 0, h 1, h 2, h 3⟩, fun h a => by
    match a with
    | ⟨0, _⟩ => exact h.1
    | ⟨1, _⟩ => exact h.2.1
    | ⟨2, _⟩ => exact h.2.2.1
    | ⟨3, _⟩ => exact h.2.2.2⟩

theorem bigSep_fin_three {M : Type} [URA M] (Φ : Fin 3 → sProp M) : bigSep Finset.univ Φ = iprop(Φ 0 ∗ Φ 1 ∗ Φ 2) :=
  bigSep_univ_eq_bigSepL [0, 1, 2] (by decide) (by decide) Φ

theorem mem_unit1 {n : Nat} {off size : Fin 1 → Nat} {inb : ∀ a, off a + size a ≤ (⟨1, ![n]⟩ : Shape).size a} {j : (⟨1, ![n]⟩ : Shape).Idx} :
    j ∈ (Rect.unit (s := ⟨1, ![n]⟩) off size inb).set ↔ off 0 ≤ (j 0).val ∧ (j 0).val < off 0 + size 0 :=
  Rect.mem_set_unit.trans Fin.forall_fin_one

theorem k1_cond1_iff : ∀ L : grid1.Coords, k1_cond1 L = 1#1 ↔ 16 * (L 0).val + (L 1).val < 31 := by decide +kernel
theorem k1_cond2_iff : ∀ L : grid1.Coords, k1_cond2 L = 1#1 ↔ 16 * (L 0).val + (L 1).val = 31 := by decide +kernel

abbrev lcM : Memref sig .scVector .hbm S100352 .f32 := Memref.whole main_v15_0_scv
abbrev ldM : Memref sig .scVector .hbm S100352 .f32 := Memref.whole main_v15_1_scv
abbrev idsM : Memref sig .scVector .hbm S100000 .i32 := Memref.whole main_arg4_scv
abbrev pM : Memref sig .scVector .hbm S3072 .f32 := Memref.whole main_v16_scv
abbrev shM : Memref sig .scVector .shared S3x16x1x512 .f32 := Memref.whole cc1_scratch9
abbrev idsvM : Memref sig .scVector .vmem S3136 .i32 := Memref.whole cc1_scratch2
abbrev rbM : Memref sig .scVector .vmem S3x2x1x32 .f32 := Memref.whole cc1_scratch10

def shRowA (a v : Nat) : Finset S3x16x1x512.Idx := Finset.univ.filter fun j => (j 0).val = a ∧ (j 1).val = v
def shBlkA (a v i : Nat) : Finset S3x16x1x512.Idx :=
  Finset.univ.filter fun j => (j 0).val = a ∧ (j 1).val = v ∧ i * 32 ≤ (j 3).val ∧ (j 3).val < i * 32 + 32
def outSetA (c i a : Nat) : Finset S3072.Idx :=
  Finset.univ.filter fun j => c * 1536 + a * 512 + i * 32 ≤ (j 0).val ∧ (j 0).val < c * 1536 + a * 512 + i * 32 + 32
def rbSet (a b : Nat) : Finset S3x2x1x32.Idx := Finset.univ.filter fun j => (j 0).val = a ∧ (j 1).val = b

abbrev chunkAt (M : Memref sig .scVector .hbm S100352 .f32) (off : Fin 1 → Nat) (inb : ∀ a, off a + S3136.size a ≤ S100352.size a) :
    Memref sig .scVector .hbm S3136 .f32 :=
  M.slice (Rect.unit (s := S100352) off S3136.size inb) (fun _ => rfl)
abbrev idsAt (off : Fin 1 → Nat) (inb : ∀ a, off a + S3136.size a ≤ S100000.size a) : Memref sig .scVector .hbm S3136 .i32 :=
  idsM.slice (Rect.unit (s := S100000) off S3136.size inb) (fun _ => rfl)
abbrev idsTailAt (off : Fin 1 → Nat) (inb : ∀ a, off a + S2784.size a ≤ S100000.size a) : Memref sig .scVector .hbm S2784 .i32 :=
  idsM.slice (Rect.unit (s := S100000) off S2784.size inb) (fun _ => rfl)
abbrev idsvHead : Memref sig .scVector .vmem S2784 .i32 :=
  idsvM.slice (Rect.unit (s := S3136) ![0] S2784.size inb_S3136_S2784_0) (fun _ => rfl)
abbrev shRowAt (off : Fin 4 → Nat) (inb : ∀ a, off a + S1x1x1x512.size a ≤ S3x16x1x512.size a) : Memref sig .scVector .shared S512 .f32 :=
  (shM.slice (Rect.unit (s := S3x16x1x512) off S1x1x1x512.size inb) (fun _ => rfl)).squeeze S512 squeezes_S1x1x1x512_S512
abbrev shBlkAt (off : Fin 4 → Nat) (inb : ∀ a, off a + S1x1x1x32.size a ≤ S3x16x1x512.size a) : Memref sig .scVector .shared S32 .f32 :=
  (shM.slice (Rect.unit (s := S3x16x1x512) off S1x1x1x32.size inb) (fun _ => rfl)).squeeze S32 squeezes_S1x1x1x32_S32
abbrev rbAt (off : Fin 4 → Nat) (inb : ∀ a, off a + S1x1x1x32.size a ≤ S3x2x1x32.size a) : Memref sig .scVector .vmem S32 .f32 :=
  (rbM.slice (Rect.unit (s := S3x2x1x32) off S1x1x1x32.size inb) (fun _ => rfl)).squeeze S32 squeezes_S1x1x1x32_S32
abbrev outAt (off : Fin 1 → Nat) (inb : ∀ a, off a + S32.size a ≤ S3072.size a) : Memref sig .scVector .hbm S32 .f32 :=
  pM.slice (Rect.unit (s := S3072) off S32.size inb) (fun _ => rfl)

theorem set_unit1 {n : Nat} {off size : Fin 1 → Nat} {inb : ∀ a, off a + size a ≤ (⟨1, ![n]⟩ : Shape).size a} {lo hi : Nat} (o : Nat) (ho : off = ![o])
    (h : ∀ x < n, (o ≤ x ∧ x < o + size 0) ↔ lo ≤ x ∧ x < hi) :
    (Rect.unit (s := ⟨1, ![n]⟩) off size inb).set = Finset.univ.filter fun j => lo ≤ (j 0).val ∧ (j 0).val < hi := by
  subst ho
  ext j
  rw [mem_unit1, Finset.mem_filter, and_iff_right (Finset.mem_univ _)]
  exact h _ (j 0).isLt

theorem chunk_iff (c i k x : Nat) (h : k = 3136 ∨ 16 * c + i = 31 ∧ k = 2784 ∧ x < 100000) :
    (50176 * c + 3136 * i ≤ x ∧ x < 50176 * c + 3136 * i + k) ↔ baseOf c i ≤ x ∧ x < baseOf c i + 3136 := by
  unfold baseOf; omega

theorem pts_of_set {ℓ : Loc nD τ sig} {K K' : Finset (Idx ℓ)} (h : K = K') (q : PosShare TreeShare) (f : Buf (Elt F) ℓ) :
    (ℓ ↦[K]{q} f : sProp 𝕄) = ℓ ↦[K']{q} f := by rw [h]

section R4
variable {n0 n1 n3 : Nat} {off size : Fin 4 → Nat} {inb : ∀ a, off a + size a ≤ (⟨4, ![n0, n1, 1, n3]⟩ : Shape).size a}

theorem set_blk4 (a v lo w : Nat) (ho : off = ![a, v, 0, lo]) (hs : size = ![1, 1, 1, w]) :
    (Rect.unit (s := ⟨4, ![n0, n1, 1, n3]⟩) off size inb).set
      = Finset.univ.filter fun j => (j 0).val = a ∧ (j 1).val = v ∧ lo ≤ (j 3).val ∧ (j 3).val < lo + w := by
  subst ho hs
  ext j
  rw [Rect.mem_set_unit, forall_fin4]
  have h2 : (j 2).val < 1 := (j 2).isLt
  simp only [Finset.mem_filter, Finset.mem_univ, _root_.true_and]
  show ((a ≤ (j 0).val ∧ (j 0).val < a + 1) ∧ (v ≤ (j 1).val ∧ (j 1).val < v + 1) ∧ (0 ≤ (j 2).val ∧ (j 2).val < 0 + 1) ∧ (lo ≤ (j 3).val ∧ (j 3).val < lo + w)) ↔ _
  omega

theorem set_row4 (a v : Nat) (ho : off = ![a, v, 0, 0]) (hs : size = ![1, 1, 1, n3]) :
    (Rect.unit (s := ⟨4, ![n0, n1, 1, n3]⟩) off size inb).set = Finset.univ.filter fun j => (j 0).val = a ∧ (j 1).val = v :=
  (set_blk4 a v 0 n3 ho hs).trans (Finset.filter_congr fun j _ => by have h3 : (j 3).val < n3 := (j 3).isLt; omega)

end R4

theorem set_rbAt (off : Fin 4 → Nat) (inb) (a b : Nat) (h : off = ![a, b, 0, 0]) : (rbAt off inb).view.set = rbSet a b :=
  (View.set_reshape ..).trans ((View.set_slice_whole ..).trans (set_row4 a b h rfl))

theorem bigSep_fin_sixteen {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem pts_lcK (q : PosShare TreeShare) (f : Buf (Elt F) (lcLoc d)) :
    ((chunkAt lcM (k1_off1 L) (k1_off1_inb L)).view.loc (V d (cV L) (jV L)) ↦[(chunkAt lcM (k1_off1 L) (k1_off1_inb L)).view.set]{q} f : sProp 𝕄)
      = lcLoc d ↦[chunkSet (cV L).val (L 1).val]{q} f := by
  exact pts_of_set ((View.set_slice_whole ..).trans (set_unit1 _ (k1_off1_eq L) fun x _ => chunk_iff _ _ _ x (.inl rfl))) q f

theorem pts_ldK (q : PosShare TreeShare) (f : Buf (Elt F) (ldLoc d)) :
    ((chunkAt ldM (k1_off1 L) (k1_off1_inb L)).view.loc (V d (cV L) (jV L)) ↦[(chunkAt ldM (k1_off1 L) (k1_off1_inb L)).view.set]{q} f : sProp 𝕄)
      = ldLoc d ↦[chunkSet (cV L).val (L 1).val]{q} f := by
  exact pts_of_set ((View.set_slice_whole ..).trans (set_unit1 _ (k1_off1_eq L) fun x _ => chunk_iff _ _ _ x (.inl rfl))) q f

theorem pts_idsK (h1 : k1_cond1 L = 1#1) (q : PosShare TreeShare) (f : Buf (Elt F) (idsLoc d)) :
    ((idsAt (k1_off2 L) (k1_off2_inb L h1)).view.loc (V d (cV L) (jV L)) ↦[(idsAt (k1_off2 L) (k1_off2_inb L h1)).view.set]{q} f : sProp 𝕄)
      = idsLoc d ↦[idsSet (cV L).val (L 1).val]{q} f := by
  exact pts_of_set ((View.set_slice_whole ..).trans (set_unit1 _ (k1_off2_eq L) fun x _ => chunk_iff _ _ _ x (.inl rfl))) q f

theorem pts_idsTK (h2 : k1_cond2 L = 1#1) (q : PosShare TreeShare) (f : Buf (Elt F) (idsLoc d)) :
    ((idsTailAt (k1_off3 L) (k1_off3_inb L h2)).view.loc (V d (cV L) (jV L)) ↦[(idsTailAt (k1_off3 L) (k1_off3_inb L h2)).view.set]{q} f : sProp 𝕄)
      = idsLoc d ↦[idsSet (cV L).val (L 1).val]{q} f := by
  exact pts_of_set ((View.set_slice_whole ..).trans (set_unit1 _ (k1_off3_eq L) fun x hx => chunk_iff _ _ _ x (.inr ⟨(k1_cond2_iff L).mp h2, rfl, hx⟩))) q f

theorem pts_shRowK0 (q : PosShare TreeShare) (f : Buf (Elt F) (shLoc d (cV L))) :
    ((shRowAt (k1_off4 L) (k1_off4_inb L)).view.loc (V d (cV L) (jV L)) ↦[(shRowAt (k1_off4 L) (k1_off4_inb L)).view.set]{q} f : sProp 𝕄)
      = shLoc d (cV L) ↦[shRowA 0 (L 1).val]{q} f :=
  pts_of_set ((View.set_reshape ..).trans ((View.set_slice_whole ..).trans (set_row4 0 _ (k1_off4_eq L) rfl))) q f
theorem pts_shRowK1 (q : PosShare TreeShare) (f : Buf (Elt F) (shLoc d (cV L))) :
    ((shRowAt (k1_off5 L) (k1_off5_inb L)).view.loc (V d (cV L) (jV L)) ↦[(shRowAt (k1_off5 L) (k1_off5_inb L)).view.set]{q} f : sProp 𝕄)
      = shLoc d (cV L) ↦[shRowA 1 (L 1).val]{q} f :=
  pts_of_set ((View.set_reshape ..).trans ((View.set_slice_whole ..).trans (set_row4 1 _ (k1_off5_eq L) rfl))) q f
theorem pts_shRowK2 (q : PosShare TreeShare) (f : Buf (Elt F) (shLoc d (cV L))) :
    ((shRowAt (k1_off6 L) (k1_off6_inb L)).view.loc (V d (cV L) (jV L)) ↦[(shRowAt (k1_off6 L) (k1_off6_inb L)).view.set]{q} f : sProp 𝕄)
      = shLoc d (cV L) ↦[shRowA 2 (L 1).val]{q} f :=
  pts_of_set ((View.set_reshape ..).trans ((View.set_slice_whole ..).trans (set_row4 2 _ (k1_off6_eq L) rfl))) q f

theorem pts_shBlkAt (off : Fin 4 → Nat) (inb) (a v : Nat) (h : off = ![a, v, 0, 32 * (L 1).val]) (q : PosShare TreeShare) (f : Buf (Elt F) (shLoc d (cV L))) :
    ((shBlkAt off inb).view.loc (V d (cV L) (jV L)) ↦[(shBlkAt off inb).view.set]{q} f : sProp 𝕄)
      = shLoc d (cV L) ↦[shBlkA a v (L 1).val]{q} f := by
  exact pts_of_set ((View.set_reshape ..).trans ((View.set_slice_whole ..).trans (set_blk4 a v _ 32 (by rw [h, Nat.mul_comm]) rfl))) q f

theorem out_iff (c a i x : Nat) : (1536 * c + 512 * a + 32 * i ≤ x ∧ x < 1536 * c + 512 * a + 32 * i + 32) ↔
    c * 1536 + a * 512 + i * 32 ≤ x ∧ x < c * 1536 + a * 512 + i * 32 + 32 := by omega

theorem shRowA_disjoint {a a' : Nat} (v v' : Nat) (h : a ≠ a') : Disjoint (shRowA a v) (shRowA a' v') :=
  Finset.disjoint_filter.mpr fun _ _ h1 h2 => h (h1.1.symm.trans h2.1)
theorem shBlkA_disjoint {a a' : Nat} (v v' i i' : Nat) (h : a ≠ a') : Disjoint (shBlkA a v i) (shBlkA a' v' i') :=
  Finset.disjoint_filter.mpr fun _ _ h1 h2 => h (h1.1.symm.trans h2.1)
theorem shBlk_disjoint {v v' : Nat} (i i' : Nat) (h : v ≠ v') : Disjoint (shBlk v i) (shBlk v' i') :=
  Finset.disjoint_filter.mpr fun _ _ h1 h2 => h (h1.1.symm.trans h2.1)
theorem shBlk_disjoint' (v v' : Nat) {i i' : Nat} (h : i ≠ i') : Disjoint (shBlk v i) (shBlk v' i') :=
  Finset.disjoint_filter.mpr fun _ _ h1 h2 => h (by omega)
theorem outSetA_disjoint (c i : Nat) {a a' : Nat} (h : a ≠ a') : Disjoint (outSetA c i a) (outSetA c i a') :=
  Finset.disjoint_filter.mpr fun _ _ h1 h2 => h (by omega)

theorem shRows_eq (v : Nat) : shRows v = (Finset.univ : Finset (Fin 3)).biUnion fun a => shRowA a.val v := by
  ext j
  simp only [shRows, shRowA, Finset.mem_biUnion, Finset.mem_filter, Finset.mem_univ, _root_.true_and]
  exact ⟨fun h => ⟨⟨(j 0).val, (j 0).isLt⟩, rfl, h⟩, fun ⟨_, _, h⟩ => h⟩
theorem shRows_eq_blks (v : Nat) : shRows v = (Finset.univ : Finset (Fin (grid1.bound 1))).biUnion fun i => shBlk v i.val := by
  ext j
  simp only [shRows, shBlk, Finset.mem_biUnion, Finset.mem_filter, Finset.mem_univ, _root_.true_and]
  have h3 : (j 3).val < 512 := (j 3).isLt
  exact ⟨fun h => ⟨⟨(j 3).val / 32, by show (j 3).val / 32 < 16; omega⟩, h, by show (j 3).val / 32 * 32 ≤ _; omega, by show _ < (j 3).val / 32 * 32 + 32; omega⟩,
    fun ⟨_, h, _⟩ => h⟩
theorem shBlk_eq (v i : Nat) : shBlk v i = (Finset.univ : Finset (Fin 3)).biUnion fun a => shBlkA a.val v i := by
  ext j
  simp only [shBlk, shBlkA, Finset.mem_biUnion, Finset.mem_filter, Finset.mem_univ, _root_.true_and]
  exact ⟨fun h => ⟨⟨(j 0).val, (j 0).isLt⟩, rfl, h⟩, fun ⟨_, _, h⟩ => h⟩
theorem shCols_eq (i : Nat) : shCols i = (Finset.univ : Finset (Fin 16)).biUnion fun v => shBlk v.val i := by
  ext j
  simp only [shCols, shBlk, Finset.mem_biUnion, Finset.mem_filter, Finset.mem_univ, _root_.true_and]
  exact ⟨fun h => ⟨⟨(j 1).val, (j 1).isLt⟩, rfl, h⟩, fun ⟨_, _, h⟩ => h⟩
theorem outSets_eq (c i : Nat) : outSets c i = (Finset.univ : Finset (Fin 3)).biUnion fun a => outSetA c i a.val := by
  ext j
  simp only [outSets, outSetA, Finset.mem_biUnion, Finset.mem_filter, Finset.mem_univ, _root_.true_and]

theorem pts_shRows (c : Fin τ.nSC) (v : Nat) (q : PosShare TreeShare) (f : Buf (Elt F) (shLoc d c)) :
    (shLoc d c ↦[shRows v]{q} f : sProp 𝕄)
      = iprop((shLoc d c ↦[shRowA 0 v]{q} f) ∗ (shLoc d c ↦[shRowA 1 v]{q} f) ∗ (shLoc d c ↦[shRowA 2 v]{q} f)) := by
  rw [shRows_eq, pointsTo_biUnion (ℓ := shLoc d c) (Finset.univ : Finset (Fin 3)) (fun a => shRowA a.val v)
    (fun a _ a' _ h => shRowA_disjoint v v (fun e => h (Fin.ext e))), bigSep_fin_three] <;> rfl

theorem pts_shBlk (c : Fin τ.nSC) (v i : Nat) (q : PosShare TreeShare) (f : Buf (Elt F) (shLoc d c)) :
    (shLoc d c ↦[shBlk v i]{q} f : sProp 𝕄)
      = iprop((shLoc d c ↦[shBlkA 0 v i]{q} f) ∗ (shLoc d c ↦[shBlkA 1 v i]{q} f) ∗ (shLoc d c ↦[shBlkA 2 v i]{q} f)) := by
  rw [shBlk_eq, pointsTo_biUnion (ℓ := shLoc d c) (Finset.univ : Finset (Fin 3)) (fun a => shBlkA a.val v i)
    (fun a _ a' _ h => shBlkA_disjoint v v i i (fun e => h (Fin.ext e))), bigSep_fin_three] <;> rfl

theorem pts_shCols (c : Fin τ.nSC) (i : Nat) (q : PosShare TreeShare) (f : Buf (Elt F) (shLoc d c)) :
    (shLoc d c ↦[shCols i]{q} f : sProp 𝕄)
      = bigSep Finset.univ fun v : Fin 16 =>
          iprop((shLoc d c ↦[shBlkA 0 v.val i]{q} f) ∗ (shLoc d c ↦[shBlkA 1 v.val i]{q} f) ∗ (shLoc d c ↦[shBlkA 2 v.val i]{q} f)) := by
  rw [shCols_eq, pointsTo_biUnion (ℓ := shLoc d c) (Finset.univ : Finset (Fin 16)) (fun v => shBlk v.val i)
    (fun v _ v' _ h => shBlk_disjoint i i (fun e => h (Fin.ext e)))]
  exact bigSep_congr fun v _ => pts_shBlk d c v.val i q f

theorem pts_outSets (c i : Nat) (q : PosShare TreeShare) (f : Buf (Elt F) (pLoc d)) :
    (pLoc d ↦[outSets c i]{q} f : sProp 𝕄)
      = iprop((pLoc d ↦[outSetA c i 0]{q} f) ∗ (pLoc d ↦[outSetA c i 1]{q} f) ∗ (pLoc d ↦[outSetA c i 2]{q} f)) := by
  rw [outSets_eq, pointsTo_biUnion (ℓ := pLoc d) (Finset.univ : Finset (Fin 3)) (fun a => outSetA c i a.val)
    (fun a _ a' _ h => outSetA_disjoint c i (fun e => h (Fin.ext e))), bigSep_fin_three] <;> rfl

theorem pts_outK0 (q : PosShare TreeShare) (f : Buf (Elt F) (pLoc d)) :
    ((outAt (k1_off55 L 0#32) (k1_off55_inb L 0)).view.loc (V d (cV L) (jV L)) ↦[(outAt (k1_off55 L 0#32) (k1_off55_inb L 0)).view.set]{q} f : sProp 𝕄)
      = pLoc d ↦[outSetA (cV L).val (L 1).val 0]{q} f :=
  pts_of_set ((View.set_slice_whole ..).trans (set_unit1 _ (k1_off55_eq L 0) fun x _ => out_iff ..)) q f
theorem pts_outK1 (q : PosShare TreeShare) (f : Buf (Elt F) (pLoc d)) :
    ((outAt (k1_off55 L 512#32) (k1_off55_inb L 1)).view.loc (V d (cV L) (jV L)) ↦[(outAt (k1_off55 L 512#32) (k1_off55_inb L 1)).view.set]{q} f : sProp 𝕄)
      = pLoc d ↦[outSetA (cV L).val (L 1).val 1]{q} f :=
  pts_of_set ((View.set_slice_whole ..).trans (set_unit1 _ (k1_off55_eq L 1) fun x _ => out_iff ..)) q f
theorem pts_outK2 (q : PosShare TreeShare) (f : Buf (Elt F) (pLoc d)) :
    ((outAt (k1_off55 L 1024#32) (k1_off55_inb L 2)).view.loc (V d (cV L) (jV L)) ↦[(outAt (k1_off55 L 1024#32) (k1_off55_inb L 2)).view.set]{q} f : sProp 𝕄)
      = pLoc d ↦[outSetA (cV L).val (L 1).val 2]{q} f :=
  pts_of_set ((View.set_slice_whole ..).trans (set_unit1 _ (k1_off55_eq L 2) fun x _ => out_iff ..)) q f

abbrev accHead (b : Ref sig .scVector) (M : Memref sig .scVector .vmem S528 .f32) : Memref sig .scVector .vmem S512 .f32 :=
  M.slice (Rect.unit (s := S528) ![0] S512.size inb_S528_S512_0) (fun _ => rfl)

theorem of_pm {M : Type} [URA M] {P Q : sProp M} (h : P ⊢ Q) : Idealize.SL.BI.Entails P Q := h

theorem pointsTo_biUnion_join_ex {ℓ : Loc nD τ sig} {T : Type} [DecidableEq T] (S : Finset T) (K : T → Finset (Idx ℓ))
    (P : T → Buf (Elt F) ℓ → Prop) (q : PosShare TreeShare) (f₀ : Buf (Elt F) ℓ)
    (h : ∀ t ∈ S, ∀ t' ∈ S, t ≠ t' → Disjoint (K t) (K t')) :
    bigSep S (fun t => iprop(∃ f, ⌜P t f⌝ ∗ ℓ ↦[K t]{q} f))
      ⊢ (iprop(∃ g, ⌜∀ t ∈ S, ∃ f, P t f ∧ ∀ i ∈ K t, g i = f i⌝ ∗ ℓ ↦[S.biUnion K]{q} g) : sProp 𝕄) := by
  have : Nonempty (Buf (Elt F) ℓ) := ⟨f₀⟩
  refine (bigSep_exists_pi S fun t (f : Buf (Elt F) ℓ) => iprop(⌜P t f⌝ ∗ ℓ ↦[K t]{q} f)).trans ?_
  iintro ⟨%fs, H⟩
  ihave H1 := (bigSep_pure_sep S (fun t => P t (fs t)) fun t => ℓ ↦[K t]{q} fs t) $$ H
  icases H1 with ⟨%hP, H1⟩
  ihave H2 := (pointsTo_biUnion_join S K fs f₀ h) $$ H1
  icases H2 with ⟨%g, %hg, H2⟩
  iexists g
  isplitr
  · ipureintro; exact fun t ht => ⟨fs t, hP t ht, hg t ht⟩
  · iexact H2

variable [FloatOps F] (m : (ℓ : Loc nD τ sig) → Buf (Elt F) ℓ)

theorem bPay_lt (c : Fin τ.nSC) (j : Fin τ.nSub) (n : ℕ) (hn : n < 16) :
    (bRd (F := F) m).payload (bcell d c j) 0 n
      = iprop(∃ f : Buf (Elt F) (shLoc d c), ⌜∀ a : Fin 3, AccOk m d (Fin.cast nSC_eq c) ⟨n, hn⟩ a (shRowOf f a ⟨n, hn⟩)⌝ ∗ (shLoc d c ↦[shBlk n j.val]{fullShare} f)) := by
  show bPay m (bcell d c j) n = _
  unfold bPay; dsimp only
  rw [dif_pos hn]

theorem pays_intro :
    iprop(∃ f : Buf (Elt F) (shLoc d (cV L)), ⌜∀ a : Fin 3, AccOk m d (Fin.cast nSC_eq (cV L)) (jL L) a (shRowOf f a (jL L))⌝
        ∗ (shLoc d (cV L) ↦[shRows (L 1).val]{fullShare} f))
      ⊢ (bigSep Finset.univ fun j' : Fin (grid1.bound 1) => (bRd (F := F) m).payload (bcell d (cV L) (j'.castLE hsub1)) 0 (jV L).val : sProp 𝕄) := by
  iintro ⟨%f, %hf, H⟩
  let Φ : Fin (grid1.bound 1) → sProp 𝕄 := fun j' => shLoc d (cV L) ↦[shBlk (jV L).val (j'.castLE hsub1).val]{fullShare} f
  have hsplit : (shLoc d (cV L) ↦[shRows (L 1).val]{fullShare} f : sProp 𝕄) = bigSep Finset.univ Φ := by
    rw [shRows_eq_blks, pointsTo_biUnion (ℓ := shLoc d (cV L)) Finset.univ (fun i : Fin (grid1.bound 1) => shBlk (L 1).val i.val)
      fun i _ i' _ h => shBlk_disjoint' _ _ fun e => h (Fin.ext e)] <;> rfl
  ihave H2 := (Entails.of_eq hsplit) $$ H
  iapply (show bigSep Finset.univ Φ ⊢ _ from bigSep_mono fun j' _ => by
    rw [bPay_lt d m (cV L) (j'.castLE hsub1) (jV L).val (L1_lt L)]
    refine of_pm ?_
    iintro H
    iexists f
    isplitr
    · ipureintro; exact hf
    · iexact H)
  iexact H2

theorem pays_elim :
    (bigSep ((bRd (F := F) m).duties (bcell d (cV L) (jV L)) 0 \ ∅) fun n => (bRd (F := F) m).payload (bcell d (cV L) (jV L)) 0 n)
      ⊢ (iprop(∃ f : Buf (Elt F) (shLoc d (cV L)),
            ⌜∀ (v : Fin 16) (a : Fin 3), ∃ g : Vec F S512 .f32, AccOk m d (Fin.cast nSC_eq (cV L)) v a g ∧
                ∀ b : S512.Idx, (L 1).val * 32 ≤ (b 0).val → (b 0).val < (L 1).val * 32 + 32 → shRowOf f a v b = g b⌝
            ∗ (shLoc d (cV L) ↦[shCols (L 1).val]{fullShare} f)) : sProp 𝕄) := by
  rw [Finset.sdiff_empty, bRd_duties₀]
  refine (show _ ⊢ _ from bigSep_mono fun n hn => ?_).trans ((pointsTo_biUnion_join_ex (F := F) (ℓ := shLoc d (cV L)) _ (fun n => shBlk n (L 1).val)
    (fun n f => ∃ hn : n < 16, ∀ a : Fin 3, AccOk m d (Fin.cast nSC_eq (cV L)) ⟨n, hn⟩ a (shRowOf f a ⟨n, hn⟩)) fullShare (m (shLoc d (cV L)))
    fun n _ n' _ h => shBlk_disjoint _ _ h).trans ?_)
  · obtain ⟨i, -, rfl⟩ := Finset.mem_image.mp hn
    rw [bPay_lt d m (cV L) (jV L) i.val i.isLt]
    refine of_pm ?_
    iintro ⟨%f, %hf, H⟩
    iexists f
    isplitr
    · ipureintro; exact ⟨i.isLt, hf⟩
    · iexact H
  iintro ⟨%g, %hg, H⟩
  iexists g
  isplitr
  · ipureintro
    intro v a
    obtain ⟨fv, ⟨hn, hacc⟩, hag⟩ := hg v.val (Finset.mem_image.mpr ⟨v, Finset.mem_univ _, rfl⟩)
    exact ⟨shRowOf fv a v, hacc a, fun b h1 h2 => hag _ (Finset.mem_filter.mpr ⟨Finset.mem_univ _, rfl, h1, h2⟩)⟩
  · rw [show ((Finset.univ : Finset (Fin τ.nSub)).image Fin.val).biUnion (fun n => shBlk n (L 1).val) = shCols (L 1).val from Finset.ext fun j => by
      simp only [shCols, shBlk, Finset.mem_biUnion, Finset.mem_image, Finset.mem_filter, Finset.mem_univ, _root_.true_and]
      exact ⟨fun ⟨_, _, _, h⟩ => h, fun h => ⟨(j 1).val, ⟨⟨(j 1).val, (j 1).isLt⟩, rfl⟩, rfl, h⟩⟩]
    iexact H

end Tile

end Cert.Proof.KI

end
-- ==== Proof.TileCols.lean ====
import proofs.«203579_g3066606649474_cont_9to1_387_24_alg».proof.Proof.TileGeom

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

set_option hygiene false in
local notation "𝔹" off:max inb:max =>
  ((shBlkAt off inb).view.loc (V d (cV L) (jV L)) ↦[(shBlkAt off inb).view.set]{q} f : sProp 𝕄)

/-- The bins a tile holds after the barrier, tile by tile and plane by plane, each block as the slice the program's own offset function names. -/
theorem pts_colsK (d : Dev nD) (L : grid1.Coords) (q : PosShare TreeShare) (f : Buf (Elt F) (shLoc d (cV L))) :
    (shLoc d (cV L) ↦[shCols (L 1).val]{q} f : sProp 𝕄) = iprop(
      (𝔹 (k1_off7 L) (k1_off7_inb L) ∗ 𝔹 (k1_off8 L) (k1_off8_inb L) ∗ 𝔹 (k1_off9 L) (k1_off9_inb L)) ∗
      (𝔹 (k1_off10 L) (k1_off10_inb L) ∗ 𝔹 (k1_off11 L) (k1_off11_inb L) ∗ 𝔹 (k1_off12 L) (k1_off12_inb L)) ∗
      (𝔹 (k1_off13 L) (k1_off13_inb L) ∗ 𝔹 (k1_off14 L) (k1_off14_inb L) ∗ 𝔹 (k1_off15 L) (k1_off15_inb L)) ∗
      (𝔹 (k1_off16 L) (k1_off16_inb L) ∗ 𝔹 (k1_off17 L) (k1_off17_inb L) ∗ 𝔹 (k1_off18 L) (k1_off18_inb L)) ∗
      (𝔹 (k1_off19 L) (k1_off19_inb L) ∗ 𝔹 (k1_off20 L) (k1_off20_inb L) ∗ 𝔹 (k1_off21 L) (k1_off21_inb L)) ∗
      (𝔹 (k1_off22 L) (k1_off22_inb L) ∗ 𝔹 (k1_off23 L) (k1_off23_inb L) ∗ 𝔹 (k1_off24 L) (k1_off24_inb L)) ∗
      (𝔹 (k1_off25 L) (k1_off25_inb L) ∗ 𝔹 (k1_off26 L) (k1_off26_inb L) ∗ 𝔹 (k1_off27 L) (k1_off27_inb L)) ∗
      (𝔹 (k1_off28 L) (k1_off28_inb L) ∗ 𝔹 (k1_off29 L) (k1_off29_inb L) ∗ 𝔹 (k1_off30 L) (k1_off30_inb L)) ∗
      (𝔹 (k1_off31 L) (k1_off31_inb L) ∗ 𝔹 (k1_off32 L) (k1_off32_inb L) ∗ 𝔹 (k1_off33 L) (k1_off33_inb L)) ∗
      (𝔹 (k1_off34 L) (k1_off34_inb L) ∗ 𝔹 (k1_off35 L) (k1_off35_inb L) ∗ 𝔹 (k1_off36 L) (k1_off36_inb L)) ∗
      (𝔹 (k1_off37 L) (k1_off37_inb L) ∗ 𝔹 (k1_off38 L) (k1_off38_inb L) ∗ 𝔹 (k1_off39 L) (k1_off39_inb L)) ∗
      (𝔹 (k1_off40 L) (k1_off40_inb L) ∗ 𝔹 (k1_off41 L) (k1_off41_inb L) ∗ 𝔹 (k1_off42 L) (k1_off42_inb L)) ∗
      (𝔹 (k1_off43 L) (k1_off43_inb L) ∗ 𝔹 (k1_off44 L) (k1_off44_inb L) ∗ 𝔹 (k1_off45 L) (k1_off45_inb L)) ∗
      (𝔹 (k1_off46 L) (k1_off46_inb L) ∗ 𝔹 (k1_off47 L) (k1_off47_inb L) ∗ 𝔹 (k1_off48 L) (k1_off48_inb L)) ∗
      (𝔹 (k1_off49 L) (k1_off49_inb L) ∗ 𝔹 (k1_off50 L) (k1_off50_inb L) ∗ 𝔹 (k1_off51 L) (k1_off51_inb L)) ∗
      (𝔹 (k1_off52 L) (k1_off52_inb L) ∗ 𝔹 (k1_off53 L) (k1_off53_inb L) ∗ 𝔹 (k1_off54 L) (k1_off54_inb L))) := by
  have s3 : ∀ {a0 a1 a2 b0 b1 b2 : sProp 𝕄}, b0 = a0 → b1 = a1 → b2 = a2 → iprop(a0 ∗ a1 ∗ a2) = iprop(b0 ∗ b1 ∗ b2) := by
    rintro _ _ _ _ _ _ rfl rfl rfl; rfl
  have c2 : ∀ {x x' y y' : sProp 𝕄}, x = x' → y = y' → iprop(x ∗ y) = iprop(x' ∗ y') := by
    rintro _ _ _ _ rfl rfl; rfl
  refine (pts_shCols d (cV L) (L 1).val q f).trans ((bigSep_fin_sixteen _).trans ?_)
  exact c2 (s3 (pts_shBlkAt d L (k1_off7 L) (k1_off7_inb L) 0 0 (k1_off7_eq L) q f) (pts_shBlkAt d L (k1_off8 L) (k1_off8_inb L) 1 0 (k1_off8_eq L) q f) (pts_shBlkAt d L (k1_off9 L) (k1_off9_inb L) 2 0 (k1_off9_eq L) q f))
    (c2 (s3 (pts_shBlkAt d L (k1_off10 L) (k1_off10_inb L) 0 1 (k1_off10_eq L) q f) (pts_shBlkAt d L (k1_off11 L) (k1_off11_inb L) 1 1 (k1_off11_eq L) q f) (pts_shBlkAt d L (k1_off12 L) (k1_off12_inb L) 2 1 (k1_off12_eq L) q f))
    (c2 (s3 (pts_shBlkAt d L (k1_off13 L) (k1_off13_inb L) 0 2 (k1_off13_eq L) q f) (pts_shBlkAt d L (k1_off14 L) (k1_off14_inb L) 1 2 (k1_off14_eq L) q f) (pts_shBlkAt d L (k1_off15 L) (k1_off15_inb L) 2 2 (k1_off15_eq L) q f))
    (c2 (s3 (pts_shBlkAt d L (k1_off16 L) (k1_off16_inb L) 0 3 (k1_off16_eq L) q f) (pts_shBlkAt d L (k1_off17 L) (k1_off17_inb L) 1 3 (k1_off17_eq L) q f) (pts_shBlkAt d L (k1_off18 L) (k1_off18_inb L) 2 3 (k1_off18_eq L) q f))
    (c2 (s3 (pts_shBlkAt d L (k1_off19 L) (k1_off19_inb L) 0 4 (k1_off19_eq L) q f) (pts_shBlkAt d L (k1_off20 L) (k1_off20_inb L) 1 4 (k1_off20_eq L) q f) (pts_shBlkAt d L (k1_off21 L) (k1_off21_inb L) 2 4 (k1_off21_eq L) q f))
    (c2 (s3 (pts_shBlkAt d L (k1_off22 L) (k1_off22_inb L) 0 5 (k1_off22_eq L) q f) (pts_shBlkAt d L (k1_off23 L) (k1_off23_inb L) 1 5 (k1_off23_eq L) q f) (pts_shBlkAt d L (k1_off24 L) (k1_off24_inb L) 2 5 (k1_off24_eq L) q f))
    (c2 (s3 (pts_shBlkAt d L (k1_off25 L) (k1_off25_inb L) 0 6 (k1_off25_eq L) q f) (pts_shBlkAt d L (k1_off26 L) (k1_off26_inb L) 1 6 (k1_off26_eq L) q f) (pts_shBlkAt d L (k1_off27 L) (k1_off27_inb L) 2 6 (k1_off27_eq L) q f))
    (c2 (s3 (pts_shBlkAt d L (k1_off28 L) (k1_off28_inb L) 0 7 (k1_off28_eq L) q f) (pts_shBlkAt d L (k1_off29 L) (k1_off29_inb L) 1 7 (k1_off29_eq L) q f) (pts_shBlkAt d L (k1_off30 L) (k1_off30_inb L) 2 7 (k1_off30_eq L) q f))
    (c2 (s3 (pts_shBlkAt d L (k1_off31 L) (k1_off31_inb L) 0 8 (k1_off31_eq L) q f) (pts_shBlkAt d L (k1_off32 L) (k1_off32_inb L) 1 8 (k1_off32_eq L) q f) (pts_shBlkAt d L (k1_off33 L) (k1_off33_inb L) 2 8 (k1_off33_eq L) q f))
    (c2 (s3 (pts_shBlkAt d L (k1_off34 L) (k1_off34_inb L) 0 9 (k1_off34_eq L) q f) (pts_shBlkAt d L (k1_off35 L) (k1_off35_inb L) 1 9 (k1_off35_eq L) q f) (pts_shBlkAt d L (k1_off36 L) (k1_off36_inb L) 2 9 (k1_off36_eq L) q f))
    (c2 (s3 (pts_shBlkAt d L (k1_off37 L) (k1_off37_inb L) 0 10 (k1_off37_eq L) q f) (pts_shBlkAt d L (k1_off38 L) (k1_off38_inb L) 1 10 (k1_off38_eq L) q f) (pts_shBlkAt d L (k1_off39 L) (k1_off39_inb L) 2 10 (k1_off39_eq L) q f))
    (c2 (s3 (pts_shBlkAt d L (k1_off40 L) (k1_off40_inb L) 0 11 (k1_off40_eq L) q f) (pts_shBlkAt d L (k1_off41 L) (k1_off41_inb L) 1 11 (k1_off41_eq L) q f) (pts_shBlkAt d L (k1_off42 L) (k1_off42_inb L) 2 11 (k1_off42_eq L) q f))
    (c2 (s3 (pts_shBlkAt d L (k1_off43 L) (k1_off43_inb L) 0 12 (k1_off43_eq L) q f) (pts_shBlkAt d L (k1_off44 L) (k1_off44_inb L) 1 12 (k1_off44_eq L) q f) (pts_shBlkAt d L (k1_off45 L) (k1_off45_inb L) 2 12 (k1_off45_eq L) q f))
    (c2 (s3 (pts_shBlkAt d L (k1_off46 L) (k1_off46_inb L) 0 13 (k1_off46_eq L) q f) (pts_shBlkAt d L (k1_off47 L) (k1_off47_inb L) 1 13 (k1_off47_eq L) q f) (pts_shBlkAt d L (k1_off48 L) (k1_off48_inb L) 2 13 (k1_off48_eq L) q f))
    (c2 (s3 (pts_shBlkAt d L (k1_off49 L) (k1_off49_inb L) 0 14 (k1_off49_eq L) q f) (pts_shBlkAt d L (k1_off50 L) (k1_off50_inb L) 1 14 (k1_off50_eq L) q f) (pts_shBlkAt d L (k1_off51 L) (k1_off51_inb L) 2 14 (k1_off51_eq L) q f))
    (s3 (pts_shBlkAt d L (k1_off52 L) (k1_off52_inb L) 0 15 (k1_off52_eq L) q f) (pts_shBlkAt d L (k1_off53 L) (k1_off53_inb L) 1 15 (k1_off53_eq L) q f) (pts_shBlkAt d L (k1_off54 L) (k1_off54_inb L) 2 15 (k1_off54_eq L) q f))))))))))))))))

end Cert.Proof.KI

end
-- ==== Proof.TileLoop.lean ====
import proofs.«203579_g3066606649474_cont_9to1_387_24_alg».proof.Proof.Setup
import Idealize.ShloMosaic.PureOps.Ideal
import Idealize.ShloMosaic.Lib.ValueIdx
import Mathlib.Algebra.BigOperators.Fin

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem trips_eq : k1_t1_loop.trips = 197 := by decide

theorem pay4_toNat (k : Fin k1_t1_loop.trips) (x : S16.Idx) : (k1_pay4 k x).toNat = 197 * (x 0).val + k.val := by
  have hk : k.val < 197 := trips_eq ▸ k.isLt
  have hl : (x 0).val < 16 := (x 0).isLt
  show (IntOp.addi (IntOp.muli (BitVec.ofNat 32 (0 * S16.size 0 + (x 0).val)) 197#32) (Scf.iv 0#32 1#32 k.val)).toNat = _
  rw [Nat.zero_mul, Nat.zero_add]
  unfold IntOp.addi IntOp.muli Scf.iv
  simp only [BitVec.toNat_add, BitVec.toNat_mul, BitVec.toNat_ofNat]
  omega

theorem clamp_toNat (p : BitVec 32) (hp : p.toNat < 4000) : (IntOp.minsi p 3135#32).toNat = min p.toNat 3135 := by
  unfold IntOp.minsi
  split <;> rename_i h <;> rw [BitVec.slt_iff_toInt_lt, BitVec.toInt_eq_toNat_cond] at h <;> simp at h
  · omega
  · have : (3135#32 : BitVec 32).toNat = 3135 := by decide
    omega

theorem mask_iff (p : BitVec 32) (hp : p.toNat < 4000) : IntOp.cmpi .slt p 3136#32 = 1 ↔ p.toNat < 3136 := by
  have hs : p.slt 3136#32 = true ↔ p.toNat < 3136 := by
    rw [BitVec.slt_iff_toInt_lt, BitVec.toInt_eq_toNat_cond]
    simp
    omega
  show BitVec.ofBool (p.slt 3136#32) = 1 ↔ _
  rw [← hs]
  generalize p.slt 3136#32 = c
  cases c <;> decide

theorem pay4_lt (k : Fin k1_t1_loop.trips) (x : S16.Idx) : (k1_pay4 k x).toNat < 4000 := by
  have hk : k.val < 197 := trips_eq ▸ k.isLt
  have hl : (x 0).val < 16 := (x 0).isLt
  rw [pay4_toNat]
  omega

theorem pay6_toNat (k : Fin k1_t1_loop.trips) (x : S16.Idx) : (k1_pay6 k x).toNat = min (197 * (x 0).val + k.val) 3135 :=
  (clamp_toNat _ (pay4_lt k x)).trans (by rw [pay4_toNat])

theorem pay5_iff (k : Fin k1_t1_loop.trips) (x : S16.Idx) : k1_pay5 k x = 1 ↔ 197 * (x 0).val + k.val < 3136 :=
  (mask_iff _ (pay4_lt k x)).trans (by rw [pay4_toNat])

-- The clamp keeps every lane's node inside the chunk.
theorem idx_inb (k : Fin k1_t1_loop.trips) : ∀ a x, ((![k1_pay6 k] : Fin 1 → IVec S16 32) a x).toNat < S3136.size a := by
  intro a x
  obtain rfl : a = 0 := Subsingleton.elim _ _
  show (k1_pay6 k x).toNat < 3136
  rw [pay6_toNat]
  omega

theorem chk1_pay6 (k : Fin k1_t1_loop.trips) : k1_chk1 (k1_pay6 k) := ⟨idx_inb k, idx_inb k, idx_inb k⟩

theorem ids_inb {idsR : IVec S3136 32} (hids : ∀ p, (idsR p).toNat < 528) (ix : IVec S16 32)
    (h : ∀ a x, ((![ix] : Fin 1 → IVec S16 32) a x).toNat < S3136.size a) :
    ∀ a x, ((![loadIdx (F := F) (e := .i32) idsR ![ix] h] : Fin 1 → IVec S16 32) a x).toNat < S528.size a := by
  intro a x
  obtain rfl : a = 0 := Subsingleton.elim _ _
  exact hids _

theorem chk2_of {idsR : IVec S3136 32} (hids : ∀ p, (idsR p).toNat < 528) (ix : IVec S16 32)
    (h : ∀ a x, ((![ix] : Fin 1 → IVec S16 32) a x).toNat < S3136.size a) :
    k1_chk2 (loadIdx (F := F) (e := .i32) idsR ![ix] h) := ⟨ids_inb hids ix h, ids_inb hids ix h, ids_inb hids ix h⟩

theorem accPre_step (vals : Vec F S3136 .f32) (idsv : IVec S3136 32) (k : Fin k1_t1_loop.trips) (h1 : ∀ a x, ((![k1_pay6 k] : Fin 1 → IVec S16 32) a x).toNat < S3136.size a)
    (h2 : ∀ a x, ((![loadIdx (F := F) (e := .i32) idsv ![k1_pay6 k] h1] : Fin 1 → IVec S16 32) a x).toNat < S528.size a) :
    storeIdx (accPre vals idsv k.val) ![loadIdx (F := F) (e := .i32) idsv ![k1_pay6 k] h1] (loadIdx vals ![k1_pay6 k] h1) (k1_pay5 k) true h2
      = accPre vals idsv (k.val + 1) := by
  obtain ⟨n, hn⟩ := k
  show _ = (if h : n < k1_t1_loop.trips then accStep vals idsv ⟨n, h⟩ (accPre vals idsv n) else accPre vals idsv n)
  rw [dif_pos hn]
  unfold accStep
  rw [dif_pos h1, dif_pos h2]

abbrev sLc : Memref sig .scVector .vmem S3136 .f32 := Memref.whole cc1_scratch0
abbrev sLd : Memref sig .scVector .vmem S3136 .f32 := Memref.whole cc1_scratch1
abbrev sIds : Memref sig .scVector .vmem S3136 .i32 := Memref.whole cc1_scratch2
abbrev sAc : Memref sig .scVector .vmem S528 .f32 := Memref.whole cc1_scratch3
abbrev sAd : Memref sig .scVector .vmem S528 .f32 := Memref.whole cc1_scratch4
abbrev sAn : Memref sig .scVector .vmem S528 .f32 := Memref.whole cc1_scratch5

-- An indexed load from a buffer held whole, whose whole read is g, looks g up.
theorem wp_look {defs : Defs nD τ sig (Elt F) Λ₀} (𝒱 : Variants) (c : Thread nD τ) (bd : Option 𝒱.V) (E : Set ℕ) {α : Type} {Q : α → sProp 𝕄}
    {s t : Shape} {e : EltTy} {m : Memref sig c.2.kind .vmem s e} {idxs : Fin s.rank → IVec t 32} {h : ∀ a x, (idxs a x).toNat < s.size a}
    {hl : m.view.Loads} {k : Vec F t e → Prog (TpuEff nD τ sig (Elt F) Λ₀ c.2) α} {q : PosShare TreeShare}
    {f : Buf (Elt F) (m.view.loc c)} {g : Vec F s e} (hr : (m.access (.whole s)).read (Elt F) f = g) :
    (m.view.loc c ↦{q} f : sProp 𝕄)
      ⊢ iprop(((m.view.loc c ↦{q} f) -∗ wp frame (wpE defs 𝒱 c bd) E (k (loadIdx g idxs h)) Q)
        -∗ wp frame (wpE defs 𝒱 c bd) E (SparseCore.vectorLoadIdx m idxs h hl >>= k) Q) := by
  subst hr
  exact SparseCore.wp_vectorLoadIdx 𝒱 c bd E (base := m) (idxs := idxs) (h := h) (hl := hl) (k := k) (S := Finset.univ) (q := q) (f := f) (Q := Q) (Finset.subset_univ _)

-- An indexed store into a buffer held whole leaves f', when the whole reads g, the store makes w of g, and w written whole is f'.
theorem wp_put {defs : Defs nD τ sig (Elt F) Λ₀} (𝒱 : Variants) (c : Thread nD τ) (bd : Option 𝒱.V) (E : Set ℕ) {α : Type} {Q : α → sProp 𝕄}
    {s : Shape} {e : EltTy} {m : Memref sig c.2.kind .vmem s e} {n : Fin 1 → Nat} {idxs : Fin s.rank → IVec ⟨1, n⟩ 32} {v : Vec F ⟨1, n⟩ e}
    {mask : IVec ⟨1, n⟩ 1} {add : Bool} {h : ∀ a x, (idxs a x).toNat < s.size a} {hs : (m.access (.whole s)).Stores Finset.univ}
    {k : PUnit → Prog (TpuEff nD τ sig (Elt F) Λ₀ c.2) α} {f f' : Buf (Elt F) (m.view.loc c)} {g w : Vec F s e}
    (h0 : (m.access (.whole s)).set = Finset.univ) (hr : (m.access (.whole s)).read (Elt F) f = g)
    (hw : (m.access (.whole s)).write (Elt F) f w Finset.univ = f') (hg : storeIdx g idxs v mask add h = w) :
    (m.view.loc c ↦{fullShare} f : sProp 𝕄)
      ⊢ iprop(((m.view.loc c ↦{fullShare} f') -∗ wp frame (wpE defs 𝒱 c bd) E (k ⟨⟩) Q)
        -∗ wp frame (wpE defs 𝒱 c bd) E (SparseCore.vectorStoreIdx m idxs v mask add h hs >>= k) Q) := by
  subst hr hg hw
  have := SparseCore.wp_vectorStoreIdx (defs := defs) 𝒱 c bd E (base := m) (idxs := idxs) (v := v) (mask := mask) (add := add) (h := h) (hs := hs) (k := k) (f := f) (Q := Q)
  rw [h0] at this
  exact this

section Trip

variable (d : Dev nD) (L : grid1.Coords)

abbrev thrV : Thread nD τ := V d ((L 0).castLE hcore1) ((L 1).castLE hsub1)

def loopInv (lcv ldv : Vec F S3136 .f32) (idsv : IVec S3136 32) (j : Nat) (_ : Unit) : sProp 𝕄 :=
  iprop(((sIds).view.loc (thrV d L) ↦{fullShare} idsv) ∗ ((sLc).view.loc (thrV d L) ↦{fullShare} lcv) ∗ ((sLd).view.loc (thrV d L) ↦{fullShare} ldv)
    ∗ ((sAc).view.loc (thrV d L) ↦{fullShare} accPre lcv idsv j) ∗ ((sAd).view.loc (thrV d L) ↦{fullShare} accPre ldv idsv j)
    ∗ ((sAn).view.loc (thrV d L) ↦{fullShare} accPre (onesV (F := F)) idsv j))

theorem wp_trip {defs : Defs nD τ sig (Elt F) Λ₀} (𝒱 : Variants) (bd : Option 𝒱.V) (E : Set ℕ)
    {arg2 : Memref sig .scVector .hbm S100352 .f32} {harg2 : arg2.IsWhole} {arg3 : Memref sig .scVector .hbm S100352 .f32} {harg3 : arg3.IsWhole}
    {arg4 : Memref sig .scVector .hbm S100000 .i32} {harg4 : arg4.IsWhole} {arg5 : Memref sig .scVector .hbm S3072 .f32} {harg5 : arg5.IsWhole}
    {arg12 : Memref sig .scVector .vmem S32 .f32} {harg12 : arg12.IsWhole} {arg13 : Memref sig .scVector .vmem S32 .f32} {harg13 : arg13.IsWhole}
    {arg14 : Memref sig .scVector .vmem S32 .f32} {harg14 : arg14.IsWhole} {arg15 : Memref sig .scVector .shared S3x16x1x512 .f32} {harg15 : arg15.IsWhole}
    {arg16 : Memref sig .scVector .vmem S3x2x1x32 .f32} {harg16 : arg16.IsWhole} {arg17 arg18 arg19 : DmaSems sig S_}
    {r0 r1 r2 r3 r4 r5 r6 r7 : DmaSems sig S_} {v13 : FVec F S16 .f32}
    (lcv ldv : Vec F S3136 .f32) (idsv : IVec S3136 32) (hids : ∀ p, (idsv p).toNat < 528)
    (k : Fin k1_t1_loop.trips) (acc : Unit) :
    loopInv d L lcv ldv idsv k.val acc
      ⊢ wp frame (wpE defs 𝒱 (thrV d L) bd) E
          (k1_t1_body L arg2 harg2 arg3 harg3 arg4 harg4 arg5 harg5 sLc (Memref.isWhole_whole _) sLd (Memref.isWhole_whole _) sIds (Memref.isWhole_whole _)
            sAc (Memref.isWhole_whole _) sAd (Memref.isWhole_whole _) sAn (Memref.isWhole_whole _) arg12 harg12 arg13 harg13 arg14 harg14 arg15 harg15 arg16 harg16
            arg17 arg18 arg19 r0 r1 r2 r3 r4 r5 r6 r7 v13 k acc)
          (loopInv d L lcv ldv idsv (k.val + 1)) := by
  unfold loopInv k1_t1_body
  simp only [Prog.lift, Prog.bind_op, Prog.bind_ret, Prog.pure_eq_ret]
  iintro ⟨Hids, Hlc, Hld, Hac, Had, Han⟩
  rw [wp_assume_of _ _ _ _ (chk1_pay6 k)]
  iapply (wp_look 𝒱 (thrV d L) bd E (m := sIds) (q := fullShare) (Memref.read_access_whole (Elt F) cc1_scratch2 idsv)) $$ Hids; iintro Hids
  rw [wp_assume_of _ _ _ _ (chk2_of (F := F) hids (k1_pay6 k) _)]
  iapply (wp_look 𝒱 (thrV d L) bd E (m := sLc) (q := fullShare) (Memref.read_access_whole (Elt F) cc1_scratch0 lcv)) $$ Hlc; iintro Hlc
  iapply (wp_look 𝒱 (thrV d L) bd E (m := sLd) (q := fullShare) (Memref.read_access_whole (Elt F) cc1_scratch1 ldv)) $$ Hld; iintro Hld
  iapply (wp_put 𝒱 (thrV d L) bd E (m := sAc) (Memref.set_access_whole cc1_scratch3) (Memref.read_access_whole _ cc1_scratch3 _)
    (Memref.write_access_whole_univ _ cc1_scratch3 _ _) (accPre_step lcv idsv k (idx_inb k) (ids_inb hids _ _))) $$ Hac; iintro Hac
  iapply (wp_put 𝒱 (thrV d L) bd E (m := sAd) (Memref.set_access_whole cc1_scratch4) (Memref.read_access_whole _ cc1_scratch4 _)
    (Memref.write_access_whole_univ _ cc1_scratch4 _ _) (accPre_step ldv idsv k (idx_inb k) (ids_inb hids _ _))) $$ Had; iintro Had
  iapply (wp_put 𝒱 (thrV d L) bd E (m := sAn) (Memref.set_access_whole cc1_scratch5) (Memref.read_access_whole _ cc1_scratch5 _)
    (Memref.write_access_whole_univ _ cc1_scratch5 _ _) (accPre_step (onesV (F := F)) idsv k (idx_inb k) (ids_inb hids _ _))) $$ Han; iintro Han
  sl_step
  iframe

end Trip

section AtIdeal

open scoped BigOperators
open Idealize.ShloMosaic.ValueIdx (ix1)

def nodeOf (l : Fin 16) (j : Nat) : Fin 3136 := ⟨min (197 * l.val + j) 3135, by omega⟩

-- Over the extended reals an indexed add leaves in a bin what was there plus the values of the set lanes that name it.
theorem storeIdx_add_ideal {d : Fin 1 → Nat} (g : Vec Ideal S528 .f32) (ix : IVec ⟨1, d⟩ 32) (v : Vec Ideal ⟨1, d⟩ .f32) (mk : IVec ⟨1, d⟩ 1)
    (h : ∀ a x, ((![ix] : Fin 1 → IVec ⟨1, d⟩ 32) a x).toNat < S528.size a) (b : S528.Idx) :
    storeIdx g ![ix] v mk true h b
      = g b + ∑ l : Fin (d 0), if mk (Shape.ofLane l) = 1 ∧ (ix (Shape.ofLane l)).toNat = (b 0).val then v (Shape.ofLane l) else 0 := by
  rw [Fin.sum_univ_def]
  unfold storeIdx
  generalize List.finRange (d 0) = ls
  induction ls generalizing g with
  | nil => simp
  | cons l ls ih =>
    rw [List.foldl_cons, ih, List.map_cons, List.sum_cons, ← add_assoc]
    congr 1
    by_cases hm : mk (Shape.ofLane l) = 1
    · simp only [hm, ↓reduceIte, true_and]
      by_cases hb : (ix (Shape.ofLane l)).toNat = (b 0).val
      · have hbi : b = idxAt ![ix] h (Shape.ofLane l) := by
          funext a; obtain rfl : a = 0 := Subsingleton.elim _ _; exact Fin.ext hb.symm
        have hall : ∀ a, (b a).val = ((idxAt ![ix] h (Shape.ofLane l)) a).val := fun a => by rw [← hbi]
        rw [if_pos hb, if_pos hall, ← hbi]; rfl
      · have hall : ¬ ∀ a, (b a).val = ((idxAt ![ix] h (Shape.ofLane l)) a).val := fun hall => hb (hall 0).symm
        rw [if_neg hb, add_zero, if_neg hall]
    · simp only [hm, ↓reduceIte, false_and, add_zero]

def tripSum (vals : Vec Ideal S3136 .f32) (idsv : IVec S3136 32) (b : Fin 528) (j : Nat) : EReal :=
  ∑ l : Fin 16, if 197 * l.val + j < 3136 ∧ (idsv (ix1 (nodeOf l j))).toNat = b.val then vals (ix1 (nodeOf l j)) else 0

theorem loadIdx_pay6 {e : EltTy} (f : Vec Ideal S3136 e) (k : Fin k1_t1_loop.trips)
    (h : ∀ a x, ((![k1_pay6 k] : Fin 1 → IVec S16 32) a x).toNat < S3136.size a) (l : Fin 16) :
    loadIdx f ![k1_pay6 k] h (Shape.ofLane l) = f (ix1 (nodeOf l k.val)) := by
  refine congrArg f (funext fun a => ?_)
  obtain rfl : a = 0 := Subsingleton.elim _ _
  exact Fin.ext (pay6_toNat k (Shape.ofLane l))

theorem accPre_ideal (vals : Vec Ideal S3136 .f32) (idsv : IVec S3136 32) (hids : ∀ k, (idsv k).toNat < 528) (b : Fin 528) :
    ∀ n, n ≤ 197 → accPre vals idsv n (ix1 b) = ∑ j ∈ Finset.range n, tripSum vals idsv b j
  | 0, _ => by
    rw [Finset.range_zero, Finset.sum_empty]
    show Ideal.ofBits .f32 0x00000000#32 = 0
    simp [Ideal.ofBits, Ideal.ieee]
  | n + 1, hn => by
    have hlt : n < k1_t1_loop.trips := by rw [trips_eq]; omega
    rw [← accPre_step vals idsv ⟨n, hlt⟩ (idx_inb _) (ids_inb (F := Ideal) hids _ _), storeIdx_add_ideal,
      accPre_ideal vals idsv hids b n (by omega), Finset.sum_range_succ]
    congr 1
    unfold tripSum
    refine Finset.sum_congr rfl fun l _ => ?_
    exact if_congr (and_congr (pay5_iff ⟨n, hlt⟩ (Shape.ofLane l)) (iff_of_eq (congrArg (·.toNat = b.val) (loadIdx_pay6 (e := .i32) idsv ⟨n, hlt⟩ _ l))))
      (loadIdx_pay6 vals ⟨n, hlt⟩ _ l) rfl

-- Every node of the chunk is looked up by exactly one lane of one trip.
theorem sum_trips_eq (f : Fin 3136 → EReal) :
    ∑ j ∈ Finset.range 197, ∑ l : Fin 16, (if 197 * l.val + j < 3136 then f (nodeOf l j) else 0) = ∑ k : Fin 3136, f k := by
  rw [← Finset.sum_product', ← Finset.sum_filter]
  refine Finset.sum_nbij' (fun x => nodeOf x.2 x.1) (fun k => (k.val % 197, ⟨k.val / 197, by have := k.isLt; omega⟩)) ?_ ?_ ?_ ?_ ?_
  · intro x _; exact Finset.mem_univ _
  · intro k _
    simp only [Finset.mem_filter, Finset.mem_product, Finset.mem_range, Finset.mem_univ, and_true]
    have := k.isLt
    constructor <;> omega
  · rintro ⟨j, l⟩ hx
    simp only [Finset.mem_filter, Finset.mem_product, Finset.mem_range, Finset.mem_univ, and_true] at hx
    have hl := l.isLt
    refine Prod.ext ?_ (Fin.ext ?_)
    · show min (197 * l.val + j) 3135 % 197 = j
      omega
    · show min (197 * l.val + j) 3135 / 197 = l.val
      omega
  · intro k _
    have := k.isLt
    refine Fin.ext ?_
    show min (197 * (k.val / 197) + k.val % 197) 3135 = k.val
    omega
  · intro x _; rfl

theorem accFold_ideal (vals : Vec Ideal S3136 .f32) (idsv : IVec S3136 32) (hids : ∀ k, (idsv k).toNat < 528) (b : Fin 528) :
    accFold vals idsv (ix1 b) = ∑ k ∈ Finset.univ.filter (fun k : Fin 3136 => (idsv (ix1 k)).toNat = b.val), vals (ix1 k) := by
  have h := accPre_ideal vals idsv hids b 197 le_rfl
  rw [← trips_eq] at h
  rw [Finset.sum_filter, ← sum_trips_eq]
  refine h.trans (Finset.sum_congr rfl fun j _ => ?_)
  unfold tripSum
  refine Finset.sum_congr rfl fun l _ => ?_
  by_cases hc : 197 * l.val + j < 3136 <;> simp [hc]

end AtIdeal

end Cert.Proof.KI

end
-- ==== Proof.TileVals.lean ====
import proofs.«203579_g3066606649474_cont_9to1_387_24_alg».proof.Proof.TileGeom
import Idealize.ShloMosaic.Lib.WritesUnit

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

section Fill

variable {κ : Kind} {sp : Space} {n : Nat} {e : EltTy} {Val : EltTy → Type} (v : View sig κ sp ⟨1, ![n]⟩ e) (f : v.ty.Contents Val)
  (z : Val e) (lo : Nat) (y : (⟨1, ![n]⟩ : Shape).Idx)

/-- After stores of sixteen lanes of `z` stacked from `lo` up to `hi`, a position below `hi` reads `z`, or what was there if it is below `lo`. -/
def Filled (hi : Nat) (L : List (View.Piece Val ⟨1, ![n]⟩ e)) : Prop :=
  (y 0).val < hi → v.read Val (v.writes Val f L) y = if (y 0).val < lo then v.read Val f y else z

theorem Filled.nil : Filled v f z lo y lo [] := fun h => (if_pos h).symm

theorem Filled.cons {o : Nat} {inb} {w : (Rect.unit (s := ⟨1, ![n]⟩) ![o] S16.size inb).shape.Idx → Val e} {L : List (View.Piece Val ⟨1, ![n]⟩ e)}
    (hw : ∀ x, w x = z) (hlo : lo ≤ o) (hL : Filled v f z lo y o L) :
    Filled v f z lo y (o + 16) (⟨Rect.unit (s := ⟨1, ![n]⟩) ![o] S16.size inb, w⟩ :: L) := fun hy => by
  by_cases h : o ≤ (y 0).val
  · rw [View.read_writes_cons_unit_of_mem v f inb w L y (ValueIdx.ix1 ⟨(y 0).val - o, by omega⟩) rfl
      (Fin.forall_fin_one.mpr (by show (y 0).val = o + ((y 0).val - o); omega)), hw, if_neg (Nat.not_lt.mpr (hlo.trans h))]
  · rw [View.read_writes_cons_unit_of_not_mem v f inb w L y rfl 0 (Or.inl (Nat.lt_of_not_le h))]
    exact hL (Nat.lt_of_not_le h)

end Fill

variable [FloatOps F] (d : Dev nD) (L : grid1.Coords) (m : (ℓ : Loc nD τ sig) → Buf (Elt F) ℓ)

/-- Position `x` of a unit-stride window of an array is the array's position `off + x`. -/
theorem unit_emb {s : Shape} {off size : Fin s.rank → Nat} {inb : ∀ a, off a + size a ≤ s.size a}
    (x : (Rect.unit (s := s) off size inb).shape.Idx) (j : s.Idx) (h : ∀ a, off a + (x a).val = (j a).val) :
    (Rect.unit (s := s) off size inb).emb x = j :=
  funext fun a => Fin.ext (by show off a + 1 * (x a).val = (j a).val; rw [Nat.one_mul]; exact h a)

theorem unit_emb1 {n : Nat} {off size : Fin 1 → Nat} {inb : ∀ a, off a + size a ≤ (⟨1, ![n]⟩ : Shape).size a}
    (k : (Rect.unit (s := ⟨1, ![n]⟩) off size inb).shape.Idx) {i : Nat} (e : off 0 + (k 0).val = i) (h : i < n) :
    (Rect.unit (s := ⟨1, ![n]⟩) off size inb).emb k = ValueIdx.ix1 ⟨i, h⟩ :=
  unit_emb k _ (Fin.forall_fin_one.mpr e)

theorem base_emb {n : Nat} {off size : Fin 1 → Nat} {inb : ∀ a, off a + size a ≤ (⟨1, ![n]⟩ : Shape).size a}
    (ho : off = ![50176 * (L 0).val + 3136 * (L 1).val]) (k : (Rect.unit (s := ⟨1, ![n]⟩) off size inb).shape.Idx)
    (h : baseOf (L 0).val (L 1).val + (k 0).val < n) :
    (Rect.unit (s := ⟨1, ![n]⟩) off size inb).emb k = ValueIdx.ix1 ⟨baseOf (L 0).val (L 1).val + (k 0).val, h⟩ :=
  unit_emb1 k (by subst ho; show 50176 * (L 0).val + 3136 * (L 1).val + (k 0).val = ((L 0).val * 16 + (L 1).val) * 3136 + (k 0).val; omega) h

theorem outSlice_congr (c : Fin 2) (i : Fin 16) (a : Fin 3) (g f : Vec F S3072 .f32) (h : ∀ j ∈ outSetA c.val i.val a.val, g j = f j) :
    outSlice g c i a = outSlice f c i a :=
  funext fun r => h _ (Finset.mem_filter.mpr ⟨Finset.mem_univ _, Nat.le_add_right _ _, Nat.add_lt_add_left (r 0).isLt _⟩)

theorem glue3 {ℓ : Loc nD τ sig} (K : Fin 3 → Finset (Idx ℓ)) (P : Fin 3 → Buf (Elt F) ℓ → Prop) (f₀ : Buf (Elt F) ℓ)
    (hK : ∀ a a', a ≠ a' → Disjoint (K a) (K a')) (hP : ∀ a g f, P a f → (∀ j ∈ K a, g j = f j) → P a g) :
    iprop((∃ f, ⌜P 0 f⌝ ∗ (ℓ ↦[K 0]{fullShare} f)) ∗ (∃ f, ⌜P 1 f⌝ ∗ (ℓ ↦[K 1]{fullShare} f)) ∗ (∃ f, ⌜P 2 f⌝ ∗ (ℓ ↦[K 2]{fullShare} f)))
      ⊢ (iprop(∃ g, ⌜∀ a, P a g⌝ ∗ (ℓ ↦[Finset.univ.biUnion K]{fullShare} g)) : sProp 𝕄) := by
  refine (Entails.of_eq (bigSep_fin_three (fun a : Fin 3 => (iprop(∃ f, ⌜P a f⌝ ∗ (ℓ ↦[K a]{fullShare} f)) : sProp 𝕄))).symm).trans ?_
  refine (pointsTo_biUnion_join_ex (F := F) Finset.univ K P fullShare f₀ (fun a _ a' _ h => hK a a' h)).trans ?_
  iintro ⟨%g, %hg, H⟩
  iexists g
  isplitr
  · ipureintro
    intro a
    obtain ⟨f, hf, hag⟩ := hg a (Finset.mem_univ a)
    exact hP a g f hf hag
  · iexact H

theorem out_glue :
    iprop((∃ f : Vec F S3072 .f32, ⌜OutOk m d (Fin.cast nSC_eq (cV L)) (jL L) 0 (outSlice f (Fin.cast nSC_eq (cV L)) (jL L) 0)⌝
          ∗ (pLoc d ↦[outSetA (cV L).val (L 1).val 0]{fullShare} f))
        ∗ (∃ f : Vec F S3072 .f32, ⌜OutOk m d (Fin.cast nSC_eq (cV L)) (jL L) 1 (outSlice f (Fin.cast nSC_eq (cV L)) (jL L) 1)⌝
          ∗ (pLoc d ↦[outSetA (cV L).val (L 1).val 1]{fullShare} f))
        ∗ (∃ f : Vec F S3072 .f32, ⌜OutOk m d (Fin.cast nSC_eq (cV L)) (jL L) 2 (outSlice f (Fin.cast nSC_eq (cV L)) (jL L) 2)⌝
          ∗ (pLoc d ↦[outSetA (cV L).val (L 1).val 2]{fullShare} f)))
      ⊢ (iprop(∃ pA : Vec F S3072 .f32,
            ⌜∀ a : Fin 3, OutOk m d (Fin.cast nSC_eq (cV L)) (jL L) a (outSlice pA (Fin.cast nSC_eq (cV L)) (jL L) a)⌝
            ∗ (pLoc d ↦[outSets (cV L).val (L 1).val]{fullShare} pA)) : sProp 𝕄) := by
  rw [outSets_eq]
  exact glue3 (F := F) (ℓ := pLoc d) (fun a => outSetA (cV L).val (L 1).val a.val) (fun a f => OutOk m d _ (jL L) a (outSlice f (Fin.cast nSC_eq (cV L)) (jL L) a)) (m (pLoc d))
    (fun _ _ h => outSetA_disjoint _ _ (fun e => h (Fin.ext e))) (fun a g f hf h => by rw [outSlice_congr (Fin.cast nSC_eq (cV L)) (jL L) a g f h]; exact hf)

abbrev binIx (i : Fin 16) (r : S32.Idx) : S512.Idx :=
  ValueIdx.ix1 ⟨i.val * 32 + (r 0).val, by have := i.isLt; have hr : (r 0).val < 32 := (r 0).isLt; show i.val * 32 + (r 0).val < 512; omega⟩

theorem outOk_of_rows (c : Fin 2) (i : Fin 16) (a : Fin 3) (f : Vec F S3x16x1x512 .f32)
    (hf : ∀ (v : Fin 16) (a : Fin 3), ∃ g : Vec F S512 .f32, AccOk m d c v a g ∧
      ∀ b : S512.Idx, i.val * 32 ≤ (b 0).val → (b 0).val < i.val * 32 + 32 → shRowOf f a v b = g b)
    (o : Vec F S32 .f32)
    (ho : ∀ r : S32.Idx, o r = (List.finRange 16).foldl (fun acc v => FloatOps.addf acc (shRowOf f a v (binIx i r))) (Scalar.ofBits .f32 0x00000000#32)) :
    OutOk m d c i a o := by
  choose rows hrows using fun v => hf v a
  refine ⟨rows, fun v => (hrows v).1, fun r => ?_⟩
  rw [ho r]
  refine congrArg (fun x : Fin 16 → F .f32 => (List.finRange 16).foldl (fun acc v => FloatOps.addf acc (x v)) (Scalar.ofBits .f32 0x00000000#32))
    (funext fun v => ?_)
  exact (hrows v).2 (binIx i r) (Nat.le_add_right _ _) (Nat.add_lt_add_left (r 0).isLt _)

def sq4 {n : Nat} (b : (⟨1, ![n]⟩ : Shape).Idx) : (⟨4, ![1, 1, 1, n]⟩ : Shape).Idx :=
  fun x => match x with | ⟨0, _⟩ => (0 : Fin 1) | ⟨1, _⟩ => (0 : Fin 1) | ⟨2, _⟩ => (0 : Fin 1) | ⟨3, _⟩ => b 0

theorem reshape_sq4 {n : Nat} (h : (⟨1, ![n]⟩ : Shape).numel = (⟨4, ![1, 1, 1, n]⟩ : Shape).numel) (b : (⟨1, ![n]⟩ : Shape).Idx) :
    Shape.reshapeEquiv h b = sq4 b :=
  Shape.reshapeEquiv_eq_of_rowMajor h (by
    rw [Shape.rowMajor_val_four, Shape.rowMajor_val_one]
    show ((0 * 1 + 0) * 1 + 0) * n + (b 0).val = (b 0).val
    omega)

theorem read_shRowAt (off : Fin 4 → Nat) (inb) (a : Fin 3) (v : Fin 16) (h : off = ![a.val, v.val, 0, 0]) (g : Vec F S3x16x1x512 .f32) :
    (shRowAt off inb).view.read (Elt F) g = shRowOf g a v := by
  subst h
  funext b
  show g ((Rect.unit (s := S3x16x1x512) ![a.val, v.val, 0, 0] S1x1x1x512.size inb).emb (Shape.reshapeEquiv squeezes_S1x1x1x512_S512.numel_eq b)) = shRowOf g a v b
  rw [reshape_sq4]
  exact congrArg g (unit_emb _ _ (forall_fin4.mpr ⟨rfl, rfl, rfl, Nat.zero_add _⟩))

theorem read_shBlkAt (off : Fin 4 → Nat) (inb) (a : Fin 3) (v j : Fin 16) (h : off = ![a.val, v.val, 0, 32 * j.val]) (g : Vec F S3x16x1x512 .f32) :
    (shBlkAt off inb).view.read (Elt F) g = fun r : S32.Idx => shRowOf g a v (binIx j r) := by
  subst h
  funext r
  show g ((Rect.unit (s := S3x16x1x512) ![a.val, v.val, 0, 32 * j.val] S1x1x1x32.size inb).emb (Shape.reshapeEquiv squeezes_S1x1x1x32_S32.numel_eq r)) = shRowOf g a v (binIx j r)
  rw [reshape_sq4]
  exact congrArg g (unit_emb _ _ (forall_fin4.mpr ⟨rfl, rfl, rfl, congrArg (· + (r 0).val) (Nat.mul_comm 32 j.val)⟩))

theorem read_outAt (off : Fin 1 → Nat) (inb) (c : Fin 2) (i : Fin 16) (a : Fin 3) (h : off = ![1536 * c.val + 512 * a.val + 32 * i.val]) (pA : Vec F S3072 .f32) :
    (outAt off inb).view.read (Elt F) pA = outSlice pA c i a := by
  subst h
  exact funext fun r => congrArg pA (unit_emb1 r (by rw [Matrix.cons_val_zero]; omega) _)

def lanes16 (h0 : Nat) (hh : h0 + 16 ≤ 32) (w : Vec F S32 .f32) : Vec F S1x1x1x16 .f32 :=
  fun x => w (ValueIdx.ix1 ⟨h0 + (x 3).val, by have h3 : (x 3).val < 16 := (x 3).isLt; omega⟩)

theorem read_two_halves {κ : Kind} {sp : Space} (v : View sig κ sp S32 .f32) (fb : v.ty.Contents (Elt F)) (R0 R1 : Vec F S16 .f32)
    (inb0 : ∀ a, (![0] : Fin 1 → Nat) a + S16.size a ≤ S32.size a) (inb16 : ∀ a, (![16] : Fin 1 → Nat) a + S16.size a ≤ S32.size a) (r : S32.Idx) :
    v.read (Elt F) (v.writes (Elt F) fb [⟨Rect.unit (s := S32) ![16] S16.size inb16, R1⟩, ⟨Rect.unit (s := S32) ![0] S16.size inb0, R0⟩]) r
      = if h : (r 0).val < 16 then R0 (ValueIdx.ix1 ⟨(r 0).val, h⟩)
        else R1 (ValueIdx.ix1 ⟨(r 0).val - 16, by have hr : (r 0).val < 32 := (r 0).isLt; omega⟩) := by
  split
  · next h =>
    rw [View.read_writes_cons_unit_of_not_mem v fb inb16 R1 _ r rfl 0 (Or.inl h)]
    exact View.read_writes_cons_unit_of_mem v fb inb0 R0 [] r _ rfl (Fin.forall_fin_one.mpr (Nat.zero_add _).symm)
  · next h =>
    exact View.read_writes_cons_unit_of_mem v fb inb16 R1 _ r _ rfl
      (Fin.forall_fin_one.mpr (by show (r 0).val = 16 + ((r 0).val - 16); omega))

theorem read_rbAccess (a b h0 : Nat) (hh : h0 + 16 ≤ 32) (inb : ∀ x, (![a, b, 0, h0] : Fin 4 → Nat) x + S1x1x1x16.size x ≤ S3x2x1x32.size x)
    (inb' : ∀ x, (![a, b, 0, 0] : Fin 4 → Nat) x + S1x1x1x32.size x ≤ S3x2x1x32.size x) (g : Vec F S3x2x1x32 .f32) :
    (rbM.access (Rect.unit (s := S3x2x1x32) ![a, b, 0, h0] S1x1x1x16.size inb)).read (Elt F) g
      = lanes16 h0 hh ((rbAt ![a, b, 0, 0] inb').view.read (Elt F) g) := by
  funext x
  show g ((Rect.unit (s := S3x2x1x32) ![a, b, 0, h0] S1x1x1x16.size inb).emb x)
    = g ((Rect.unit (s := S3x2x1x32) ![a, b, 0, 0] S1x1x1x32.size inb').emb (Shape.reshapeEquiv squeezes_S1x1x1x32_S32.numel_eq (ValueIdx.ix1 ⟨h0 + (x 3).val, _⟩)))
  rw [reshape_sq4]
  exact congrArg g (unit_emb x _ (forall_fin4.mpr ⟨congrArg (a + ·) (Fin.val_eq_zero _), congrArg (b + ·) (Fin.val_eq_zero _),
    congrArg (0 + ·) (Fin.val_eq_zero _), ((Nat.zero_add _).trans (Nat.one_mul _)).symm⟩))

theorem fetched_lc (fb : cc1_scratch0.ty.Contents (Elt F)) (lcA : Vec F S100352 .f32) :
    View.write (Elt F) (Memref.whole cc1_scratch0).view fb
        (ReadAs.same.apply ((chunkAt lcM (k1_off1 L) (k1_off1_inb L)).view.read (Elt F) lcA)) Finset.univ
      = chunkOf lcA (Fin.cast nSC_eq (cV L)) (jL L) :=
  (View.write_whole_univ cc1_scratch0 fb _).trans (funext fun k => congrArg lcA (base_emb L (k1_off1_eq L) k _))

theorem fetched_ld (fb : cc1_scratch1.ty.Contents (Elt F)) (ldA : Vec F S100352 .f32) :
    View.write (Elt F) (Memref.whole cc1_scratch1).view fb
        (ReadAs.same.apply ((chunkAt ldM (k1_off1 L) (k1_off1_inb L)).view.read (Elt F) ldA)) Finset.univ
      = chunkOf ldA (Fin.cast nSC_eq (cV L)) (jL L) :=
  (View.write_whole_univ cc1_scratch1 fb _).trans (funext fun k => congrArg ldA (base_emb L (k1_off1_eq L) k _))

theorem fetched_ids (h1 : k1_cond1 L = 1#1) (fb : cc1_scratch2.ty.Contents (Elt F)) :
    View.write (Elt F) (Memref.whole cc1_scratch2).view fb
        (ReadAs.same.apply ((idsAt (k1_off2 L) (k1_off2_inb L h1)).view.read (Elt F) (m (idsLoc d)))) Finset.univ
      = tileIds m d (Fin.cast nSC_eq (cV L)) (jL L) := by
  refine (View.write_whole_univ cc1_scratch2 fb _).trans (funext fun k => ?_)
  have hlt : baseOf (L 0).val (L 1).val + (k 0).val < 100000 := by
    have := (k1_cond1_iff L).mp h1; have : (k 0).val < 3136 := (k 0).isLt; unfold baseOf; omega
  unfold tileIds
  rw [dif_pos (show baseOf (Fin.cast nSC_eq (cV L)).val (jL L).val + (k 0).val < 100000 from hlt)]
  exact congrArg (m (idsLoc d)) (base_emb L (k1_off2_eq L) k hlt)

def zeroPieces : List (View.Piece (Elt F) S528 .f32) :=
  [⟨Rect.unit (s := S528) ![512] S16.size inb_S528_S16_512, k1_pay2⟩,
    ⟨Rect.unit (s := S528) ![496] S16.size inb_S528_S16_496, k1_pay2⟩,
    ⟨Rect.unit (s := S528) ![480] S16.size inb_S528_S16_480, k1_pay2⟩,
    ⟨Rect.unit (s := S528) ![464] S16.size inb_S528_S16_464, k1_pay2⟩,
    ⟨Rect.unit (s := S528) ![448] S16.size inb_S528_S16_448, k1_pay2⟩,
    ⟨Rect.unit (s := S528) ![432] S16.size inb_S528_S16_432, k1_pay2⟩,
    ⟨Rect.unit (s := S528) ![416] S16.size inb_S528_S16_416, k1_pay2⟩,
    ⟨Rect.unit (s := S528) ![400] S16.size inb_S528_S16_400, k1_pay2⟩,
    ⟨Rect.unit (s := S528) ![384] S16.size inb_S528_S16_384, k1_pay2⟩,
    ⟨Rect.unit (s := S528) ![368] S16.size inb_S528_S16_368, k1_pay2⟩,
    ⟨Rect.unit (s := S528) ![352] S16.size inb_S528_S16_352, k1_pay2⟩,
    ⟨Rect.unit (s := S528) ![336] S16.size inb_S528_S16_336, k1_pay2⟩,
    ⟨Rect.unit (s := S528) ![320] S16.size inb_S528_S16_320, k1_pay2⟩,
    ⟨Rect.unit (s := S528) ![304] S16.size inb_S528_S16_304, k1_pay2⟩,
    ⟨Rect.unit (s := S528) ![288] S16.size inb_S528_S16_288, k1_pay2⟩,
    ⟨Rect.unit (s := S528) ![272] S16.size inb_S528_S16_272, k1_pay2⟩,
    ⟨Rect.unit (s := S528) ![256] S16.size inb_S528_S16_256, k1_pay2⟩,
    ⟨Rect.unit (s := S528) ![240] S16.size inb_S528_S16_240, k1_pay2⟩,
    ⟨Rect.unit (s := S528) ![224] S16.size inb_S528_S16_224, k1_pay2⟩,
    ⟨Rect.unit (s := S528) ![208] S16.size inb_S528_S16_208, k1_pay2⟩,
    ⟨Rect.unit (s := S528) ![192] S16.size inb_S528_S16_192, k1_pay2⟩,
    ⟨Rect.unit (s := S528) ![176] S16.size inb_S528_S16_176, k1_pay2⟩,
    ⟨Rect.unit (s := S528) ![160] S16.size inb_S528_S16_160, k1_pay2⟩,
    ⟨Rect.unit (s := S528) ![144] S16.size inb_S528_S16_144, k1_pay2⟩,
    ⟨Rect.unit (s := S528) ![128] S16.size inb_S528_S16_128, k1_pay2⟩,
    ⟨Rect.unit (s := S528) ![112] S16.size inb_S528_S16_112, k1_pay2⟩,
    ⟨Rect.unit (s := S528) ![96] S16.size inb_S528_S16_96, k1_pay2⟩,
    ⟨Rect.unit (s := S528) ![80] S16.size inb_S528_S16_80, k1_pay2⟩,
    ⟨Rect.unit (s := S528) ![64] S16.size inb_S528_S16_64, k1_pay2⟩,
    ⟨Rect.unit (s := S528) ![48] S16.size inb_S528_S16_48, k1_pay2⟩,
    ⟨Rect.unit (s := S528) ![32] S16.size inb_S528_S16_32, k1_pay2⟩,
    ⟨Rect.unit (s := S528) ![16] S16.size inb_S528_S16_16, k1_pay2⟩,
    ⟨Rect.unit (s := S528) ![0] S16.size inb_S528_S16_0, k1_pay2⟩]

theorem zeroFilled {κ : Kind} {sp : Space} (v : View sig κ sp S528 .f32) (f : v.ty.Contents (Elt F)) (y : S528.Idx) :
    Filled v f (Scalar.ofBits .f32 0x00000000#32 : Elt F .f32) 0 y 528 zeroPieces := by
  unfold zeroPieces
  iterate 33 refine Filled.cons v f _ 0 y (fun _ => rfl) (Nat.zero_le _) ?_
  exact Filled.nil v f _ 0 y

theorem zerofill3 (base : cc1_scratch3.ty.Contents (Elt F)) : (Memref.whole cc1_scratch3).view.writes (Elt F) base zeroPieces = accZero (F := F) :=
  funext fun y => (zeroFilled (View.whole cc1_scratch3) base y (y 0).isLt).trans (if_neg (Nat.not_lt_zero _))
theorem zerofill4 (base : cc1_scratch4.ty.Contents (Elt F)) : (Memref.whole cc1_scratch4).view.writes (Elt F) base zeroPieces = accZero (F := F) :=
  funext fun y => (zeroFilled (View.whole cc1_scratch4) base y (y 0).isLt).trans (if_neg (Nat.not_lt_zero _))
theorem zerofill5 (base : cc1_scratch5.ty.Contents (Elt F)) : (Memref.whole cc1_scratch5).view.writes (Elt F) base zeroPieces = accZero (F := F) :=
  funext fun y => (zeroFilled (View.whole cc1_scratch5) base y (y 0).isLt).trans (if_neg (Nat.not_lt_zero _))

def tailPieces : List (View.Piece (Elt F) S3136 .i32) :=
  [⟨Rect.unit (s := S3136) ![3120] S16.size inb_S3136_S16_3120, k1_pay1⟩,
    ⟨Rect.unit (s := S3136) ![3104] S16.size inb_S3136_S16_3104, k1_pay1⟩,
    ⟨Rect.unit (s := S3136) ![3088] S16.size inb_S3136_S16_3088, k1_pay1⟩,
    ⟨Rect.unit (s := S3136) ![3072] S16.size inb_S3136_S16_3072, k1_pay1⟩,
    ⟨Rect.unit (s := S3136) ![3056] S16.size inb_S3136_S16_3056, k1_pay1⟩,
    ⟨Rect.unit (s := S3136) ![3040] S16.size inb_S3136_S16_3040, k1_pay1⟩,
    ⟨Rect.unit (s := S3136) ![3024] S16.size inb_S3136_S16_3024, k1_pay1⟩,
    ⟨Rect.unit (s := S3136) ![3008] S16.size inb_S3136_S16_3008, k1_pay1⟩,
    ⟨Rect.unit (s := S3136) ![2992] S16.size inb_S3136_S16_2992, k1_pay1⟩,
    ⟨Rect.unit (s := S3136) ![2976] S16.size inb_S3136_S16_2976, k1_pay1⟩,
    ⟨Rect.unit (s := S3136) ![2960] S16.size inb_S3136_S16_2960, k1_pay1⟩,
    ⟨Rect.unit (s := S3136) ![2944] S16.size inb_S3136_S16_2944, k1_pay1⟩,
    ⟨Rect.unit (s := S3136) ![2928] S16.size inb_S3136_S16_2928, k1_pay1⟩,
    ⟨Rect.unit (s := S3136) ![2912] S16.size inb_S3136_S16_2912, k1_pay1⟩,
    ⟨Rect.unit (s := S3136) ![2896] S16.size inb_S3136_S16_2896, k1_pay1⟩,
    ⟨Rect.unit (s := S3136) ![2880] S16.size inb_S3136_S16_2880, k1_pay1⟩,
    ⟨Rect.unit (s := S3136) ![2864] S16.size inb_S3136_S16_2864, k1_pay1⟩,
    ⟨Rect.unit (s := S3136) ![2848] S16.size inb_S3136_S16_2848, k1_pay1⟩,
    ⟨Rect.unit (s := S3136) ![2832] S16.size inb_S3136_S16_2832, k1_pay1⟩,
    ⟨Rect.unit (s := S3136) ![2816] S16.size inb_S3136_S16_2816, k1_pay1⟩,
    ⟨Rect.unit (s := S3136) ![2800] S16.size inb_S3136_S16_2800, k1_pay1⟩,
    ⟨Rect.unit (s := S3136) ![2784] S16.size inb_S3136_S16_2784, k1_pay1⟩]

theorem tailFilled {κ : Kind} {sp : Space} (v : View sig κ sp S3136 .i32) (f : v.ty.Contents (Elt F)) (y : S3136.Idx) :
    Filled v f (512#32 : Elt F .i32) 2784 y 3136 tailPieces := by
  unfold tailPieces
  iterate 22 refine Filled.cons v f _ 2784 y (fun _ => rfl) (by decide) ?_
  exact Filled.nil v f _ 2784 y

theorem tail_ids (h2 : k1_cond2 L = 1#1) (G : Vec F S3136 .i32)
    (hG : (idsvHead).view.read (Elt F) G = ReadAs.same.apply ((idsTailAt (k1_off3 L) (k1_off3_inb L h2)).view.read (Elt F) (m (idsLoc d)))) :
    (Memref.whole cc1_scratch2).view.writes (Elt F) G tailPieces = tileIds m d (Fin.cast nSC_eq (cV L)) (jL L) := by
  have hw := (k1_cond2_iff L).mp h2
  funext y
  refine (tailFilled (View.whole cc1_scratch2) G y (y 0).isLt).trans ?_
  unfold tileIds
  by_cases hy : (y 0).val < 2784
  · have hk : baseOf (L 0).val (L 1).val + (y 0).val < 100000 := by unfold baseOf; omega
    rw [if_pos hy, dif_pos (show baseOf (Fin.cast nSC_eq (cV L)).val (jL L).val + (y 0).val < 100000 from hk)]
    exact (congrArg G ((ValueIdx.eq_ix1 y).trans (unit_emb1 (ValueIdx.ix1 ⟨(y 0).val, hy⟩) (Nat.zero_add _) _).symm)).trans
      ((congrFun hG _).trans (congrArg (m (idsLoc d)) (base_emb L (k1_off3_eq L) (ValueIdx.ix1 ⟨(y 0).val, hy⟩) hk)))
  · have hk : ¬ baseOf (L 0).val (L 1).val + (y 0).val < 100000 := by unfold baseOf; omega
    rw [if_neg hy, dif_neg (show ¬ baseOf (Fin.cast nSC_eq (cV L)).val (jL L).val + (y 0).val < 100000 from hk)]

theorem shRowOf_congr (a : Fin 3) (v : Fin 16) (g f : Vec F S3x16x1x512 .f32) (h : ∀ j ∈ shRowA a.val v.val, g j = f j) :
    shRowOf g a v = shRowOf f a v :=
  funext fun _ => h _ (Finset.mem_filter.mpr ⟨Finset.mem_univ _, rfl, rfl⟩)

theorem rows_glue :
    iprop((∃ f : Vec F S3x16x1x512 .f32, ⌜AccOk m d (Fin.cast nSC_eq (cV L)) (jL L) 0 (shRowOf f 0 (jL L))⌝
          ∗ (shLoc d (cV L) ↦[shRowA 0 (L 1).val]{fullShare} f))
        ∗ (∃ f : Vec F S3x16x1x512 .f32, ⌜AccOk m d (Fin.cast nSC_eq (cV L)) (jL L) 1 (shRowOf f 1 (jL L))⌝
          ∗ (shLoc d (cV L) ↦[shRowA 1 (L 1).val]{fullShare} f))
        ∗ (∃ f : Vec F S3x16x1x512 .f32, ⌜AccOk m d (Fin.cast nSC_eq (cV L)) (jL L) 2 (shRowOf f 2 (jL L))⌝
          ∗ (shLoc d (cV L) ↦[shRowA 2 (L 1).val]{fullShare} f)))
      ⊢ (iprop(∃ f : Buf (Elt F) (shLoc d (cV L)), ⌜∀ a : Fin 3, AccOk m d (Fin.cast nSC_eq (cV L)) (jL L) a (shRowOf f a (jL L))⌝
            ∗ (shLoc d (cV L) ↦[shRows (L 1).val]{fullShare} f)) : sProp 𝕄) := by
  rw [shRows_eq]
  exact glue3 (F := F) (ℓ := shLoc d (cV L)) (fun a => shRowA a.val (L 1).val) (fun a f => AccOk m d (Fin.cast nSC_eq (cV L)) (jL L) a (shRowOf f a (jL L))) (m (shLoc d (cV L)))
    (fun _ _ h => shRowA_disjoint _ _ (fun e => h (Fin.ext e))) (fun a g f hf h => by rw [shRowOf_congr a (jL L) g f h]; exact hf)

theorem row_written (a : Fin 3) (off : Fin 4 → Nat) (inb) (hoff : off = ![a.val, (jL L).val, 0, 0]) (fsh : Buf (Elt F) (shLoc d (cV L)))
    (W : S512.Idx → Elt F .f32) :
    shRowOf ((shRowAt off inb).view.writes (Elt F) fsh [⟨Rect.whole S512, W⟩]) a (jL L) = W :=
  (read_shRowAt off inb a (jL L) hoff _).symm.trans (View.read_writes_whole (shRowAt off inb).view fsh W)

theorem head_read3 (A : Vec F S528 .f32) : ReadAs.same.apply ((accHead cc1_scratch3 (Memref.whole cc1_scratch3)).view.read (Elt F) A) = binsOf A :=
  funext fun b => congrArg A (unit_emb1 b (Nat.zero_add _) _)
theorem head_read4 (A : Vec F S528 .f32) : ReadAs.same.apply ((accHead cc1_scratch4 (Memref.whole cc1_scratch4)).view.read (Elt F) A) = binsOf A :=
  funext fun b => congrArg A (unit_emb1 b (Nat.zero_add _) _)
theorem head_read5 (A : Vec F S528 .f32) : ReadAs.same.apply ((accHead cc1_scratch5 (Memref.whole cc1_scratch5)).view.read (Elt F) A) = binsOf A :=
  funext fun b => congrArg A (unit_emb1 b (Nat.zero_add _) _)

theorem accOk_rows (lcA ldA : Vec F S100352 .f32) (hR0 : R0 m d lcA ldA) (a : Fin 3) :
    AccOk m d (Fin.cast nSC_eq (cV L)) (jL L) a
      (binsOf (accFold (rowVals a (chunkOf lcA (Fin.cast nSC_eq (cV L)) (jL L)) (chunkOf ldA (Fin.cast nSC_eq (cV L)) (jL L)))
        (tileIds m d (Fin.cast nSC_eq (cV L)) (jL L)))) :=
  ⟨chunkOf lcA (Fin.cast nSC_eq (cV L)) (jL L), chunkOf ldA (Fin.cast nSC_eq (cV L)) (jL L), ⟨lcA, ldA, hR0, rfl, rfl⟩, rfl⟩

theorem row_fact0 (lcA ldA : Vec F S100352 .f32) (hR0 : R0 m d lcA ldA) (fsh : Buf (Elt F) (shLoc d (cV L))) :
    AccOk m d (Fin.cast nSC_eq (cV L)) (jL L) 0
      (shRowOf ((shRowAt (k1_off4 L) (k1_off4_inb L)).view.writes (Elt F) fsh
        [⟨Rect.whole S512, ReadAs.same.apply ((accHead cc1_scratch3 (Memref.whole cc1_scratch3)).view.read (Elt F)
          (accPre (chunkOf lcA (Fin.cast nSC_eq (cV L)) (jL L)) (tileIds m d (Fin.cast nSC_eq (cV L)) (jL L)) (Scf.trips k1_t1_loop.lb k1_t1_loop.ub k1_t1_loop.st)))⟩]) 0 (jL L)) := by
  rw [row_written d L 0 _ _ (k1_off4_eq L) fsh, head_read3]
  exact accOk_rows d L m lcA ldA hR0 0

theorem row_fact1 (lcA ldA : Vec F S100352 .f32) (hR0 : R0 m d lcA ldA) (fsh : Buf (Elt F) (shLoc d (cV L))) :
    AccOk m d (Fin.cast nSC_eq (cV L)) (jL L) 1
      (shRowOf ((shRowAt (k1_off5 L) (k1_off5_inb L)).view.writes (Elt F) fsh
        [⟨Rect.whole S512, ReadAs.same.apply ((accHead cc1_scratch4 (Memref.whole cc1_scratch4)).view.read (Elt F)
          (accPre (chunkOf ldA (Fin.cast nSC_eq (cV L)) (jL L)) (tileIds m d (Fin.cast nSC_eq (cV L)) (jL L)) (Scf.trips k1_t1_loop.lb k1_t1_loop.ub k1_t1_loop.st)))⟩]) 1 (jL L)) := by
  rw [row_written d L 1 _ _ (k1_off5_eq L) fsh, head_read4]
  exact accOk_rows d L m lcA ldA hR0 1

theorem row_fact2 (lcA ldA : Vec F S100352 .f32) (hR0 : R0 m d lcA ldA) (fsh : Buf (Elt F) (shLoc d (cV L))) :
    AccOk m d (Fin.cast nSC_eq (cV L)) (jL L) 2
      (shRowOf ((shRowAt (k1_off6 L) (k1_off6_inb L)).view.writes (Elt F) fsh
        [⟨Rect.whole S512, ReadAs.same.apply ((accHead cc1_scratch5 (Memref.whole cc1_scratch5)).view.read (Elt F)
          (accPre (onesV (F := F)) (tileIds m d (Fin.cast nSC_eq (cV L)) (jL L)) (Scf.trips k1_t1_loop.lb k1_t1_loop.ub k1_t1_loop.st)))⟩]) 2 (jL L)) := by
  rw [row_written d L 2 _ _ (k1_off6_eq L) fsh, head_read5]
  exact accOk_rows d L m lcA ldA hR0 2

theorem out_written (c : Fin 2) (i : Fin 16) (a : Fin 3) (off : Fin 1 → Nat) (inb) (hoff : off = ![1536 * c.val + 512 * a.val + 32 * i.val])
    (pA0 : Vec F S3072 .f32) (W : S32.Idx → Elt F .f32) :
    outSlice ((outAt off inb).view.writes (Elt F) pA0 [⟨Rect.whole S32, W⟩]) c i a = W :=
  (read_outAt off inb c i a hoff _).symm.trans (View.read_writes_whole (outAt off inb).view pA0 W)

end Cert.Proof.KI

end
-- ==== Proof.TileRounds.lean ====
import proofs.«203579_g3066606649474_cont_9to1_387_24_alg».proof.Proof.Vals
import Idealize.ShloMosaic.Lib.Pipeline.Value
import Idealize.ShloMosaic.Lib.ValueIdx

noncomputable section

namespace Cert.Proof.KI

open Cert.KernelIdeal Cert.KernelIdeal.Gen
open Idealize.ShloMosaic
open Idealize.ShloMosaic.ValueIdx (ix1 ix4)

variable {F : FTy → Type} [FloatOps F]

def regStep (acc : FVec F S16 .f32) (ld : Vec F S1x1x1x16 .f32) : FVec F S16 .f32 :=
  addf acc (shapeCast S16 ld Facts₀.shapeCasts_S1x1x1x16_S16)

def regSum (ld : Fin 16 → Vec F S1x1x1x16 .f32) : ℕ → FVec F S16 .f32
  | 0 => k1_pay2
  | v + 1 => if h : v < 16 then regStep (regSum ld v) (ld ⟨v, h⟩) else regSum ld v

-- Lane k of a loaded block and lane k of a running sum sit at the same row-major position.
theorem regStep_apply (acc : FVec F S16 .f32) (ld : Vec F S1x1x1x16 .f32) (k : Fin 16) :
    regStep acc ld (ix1 k) = FloatOps.addf (acc (ix1 k)) (ld (ix4 (0 : Fin 1) (0 : Fin 1) (0 : Fin 1) k)) := by
  refine congrArg (FloatOps.addf (acc (ix1 k))) (shapeCast_apply ld _ (ix1 k) _ ?_)
  rw [Shape.rowMajor_val_four, Shape.rowMajor_val_one]
  show ((0 * 1 + 0) * 1 + 0) * 16 + k.val = k.val
  simp

theorem regSum_apply (ld : Fin 16 → Vec F S1x1x1x16 .f32) (k : Fin 16) :
    ∀ n, n ≤ 16 → regSum ld n (ix1 k)
      = ((List.finRange 16).take n).foldl (fun acc v => FloatOps.addf acc (ld v (ix4 (0 : Fin 1) (0 : Fin 1) (0 : Fin 1) k))) (Scalar.ofBits .f32 0x00000000#32)
  | 0, _ => rfl
  | n + 1, hn => by
    have h : n < 16 := hn
    show (if h : n < 16 then regStep (regSum ld n) (ld ⟨n, h⟩) else regSum ld n) (ix1 k) = _
    rw [dif_pos h, regStep_apply, regSum_apply ld k n h.le,
      List.take_succ_eq_append_getElem (by rw [List.length_finRange]; exact h), List.foldl_append, List.getElem_finRange]
    rfl

theorem regSum_all (ld : Fin 16 → Vec F S1x1x1x16 .f32) (k : Fin 16) :
    regSum ld 16 (ix1 k)
      = (List.finRange 16).foldl (fun acc v => FloatOps.addf acc (ld v (ix4 (0 : Fin 1) (0 : Fin 1) (0 : Fin 1) k))) (Scalar.ofBits .f32 0x00000000#32) := by
  rw [regSum_apply ld k 16 le_rfl, List.take_of_length_le (by rw [List.length_finRange])]

end Cert.Proof.KI

end
-- ==== Proof.TileFinal.lean ====
import proofs.«203579_g3066606649474_cont_9to1_387_24_alg».proof.Proof.TileVals
import proofs.«203579_g3066606649474_cont_9to1_387_24_alg».proof.Proof.TileRounds

noncomputable section

namespace Cert.Proof.KI

open Cert.KernelIdeal Cert.KernelIdeal.Gen

open Idealize.ShloMosaic
open Idealize.ShloMosaic.SparseCore (S V T)
open Idealize.SL Idealize.SL.Sem
open Idealize.ShloMosaic.ValueIdx (ix1 ix4)

variable {F : FTy → Type} [FloatOps F] (d : Dev nD) (L : grid1.Coords) (m : (ℓ : Loc nD τ sig) → Buf (Elt F) ℓ)

theorem lanes16_ix4 (h0 : Nat) (hh : h0 + 16 ≤ 32) (w : Vec F S32 .f32) (k : Fin 16) :
    lanes16 h0 hh w (ix4 (0 : Fin 1) (0 : Fin 1) (0 : Fin 1) k) = w (ix1 ⟨h0 + k.val, by have := k.isLt; omega⟩) := rfl

theorem plane_sum (c : Fin 2) (i : Fin 16) (a : Fin 3) (fc : Vec F S3x16x1x512 .f32)
    (hfc : ∀ (v : Fin 16) (a : Fin 3), ∃ g : Vec F S512 .f32, AccOk m d c v a g ∧
      ∀ b : S512.Idx, i.val * 32 ≤ (b 0).val → (b 0).val < i.val * 32 + 32 → shRowOf fc a v b = g b)
    (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc a v (binIx i r)))
    (hld1 : ∀ v, ld1 v = lanes16 16 (by decide) (fun r => shRowOf fc a v (binIx i r)))
    (o : Vec F S32 .f32)
    (ho : ∀ r : S32.Idx, o r = if h : (r 0).val < 16 then LO (ix1 ⟨(r 0).val, h⟩)
      else HI (ix1 ⟨(r 0).val - 16, by have hr : (r 0).val < 32 := (r 0).isLt; omega⟩)) :
    OutOk m d c i a o := by
  refine outOk_of_rows d m c i a fc hfc o (fun r => ?_)
  have hr : (r 0).val < 32 := (r 0).isLt
  rw [ho r]
  split
  · next h =>
    rw [hLO, regSum_all ld0 ⟨(r 0).val, h⟩]
    refine congrArg (fun x : Fin 16 → F .f32 => (List.finRange 16).foldl (fun acc v => FloatOps.addf acc (x v)) (Scalar.ofBits .f32 0x00000000#32))
      (funext fun v => ?_)
    rw [hld0 v, lanes16_ix4]
    refine congrArg (fun z => shRowOf fc a v (binIx i z)) (funext fun x => ?_)
    match x with
    | ⟨0, _⟩ => exact Fin.ext (Nat.zero_add _)
  · next h =>
    rw [hHI, regSum_all ld1 ⟨(r 0).val - 16, by omega⟩]
    refine congrArg (fun x : Fin 16 → F .f32 => (List.finRange 16).foldl (fun acc v => FloatOps.addf acc (x v)) (Scalar.ofBits .f32 0x00000000#32))
      (funext fun v => ?_)
    rw [hld1 v, lanes16_ix4]
    refine congrArg (fun z => shRowOf fc a v (binIx i z)) (funext fun x => ?_)
    match x with
    | ⟨0, _⟩ => exact Fin.ext (by show 16 + ((r 0).val - 16) = (r 0).val; omega)

theorem plane_final0 (fc : Vec F S3x16x1x512 .f32)
    (hfc : ∀ (v : Fin 16) (a : Fin 3), ∃ g : Vec F S512 .f32, AccOk m d (Fin.cast nSC_eq (cV L)) v a g ∧
      ∀ b : S512.Idx, (L 1).val * 32 ≤ (b 0).val → (b 0).val < (L 1).val * 32 + 32 → shRowOf fc a v b = g b)
    (fp : Vec F S3072 .f32) (fb : Vec F S32 .f32) (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc 0 v (binIx (jL L) r)))
    (hld1 : ∀ v, ld1 v = lanes16 16 (by decide) (fun r => shRowOf fc 0 v (binIx (jL L) r))) :
    OutOk m d (Fin.cast nSC_eq (cV L)) (jL L) 0
      (outSlice ((outAt (k1_off55 L 0#32) (k1_off55_inb L 0)).view.writes (Elt F) fp
        [⟨Rect.whole S32, ReadAs.same.apply (View.read (Elt F) (Memref.whole cc1_scratch6).view
          ((Memref.whole cc1_scratch6).view.writes (Elt F) fb
            [⟨Rect.unit ![16] S16.size inb_S32_S16_16, HI⟩, ⟨Rect.unit ![0] S16.size inb_S32_S16_0, LO⟩]))⟩])
        (Fin.cast nSC_eq (cV L)) (jL L) 0) := by
  rw [out_written (Fin.cast nSC_eq (cV L)) (jL L) 0 (k1_off55 L 0#32) (k1_off55_inb L 0) (k1_off55_eq L 0) fp]
  exact plane_sum d m (Fin.cast nSC_eq (cV L)) (jL L) 0 fc hfc LO HI ld0 ld1 hLO hHI hld0 hld1 _
    (fun r => read_two_halves (Memref.whole cc1_scratch6).view fb LO HI inb_S32_S16_0 inb_S32_S16_16 r)

theorem plane_final1 (fc : Vec F S3x16x1x512 .f32)
    (hfc : ∀ (v : Fin 16) (a : Fin 3), ∃ g : Vec F S512 .f32, AccOk m d (Fin.cast nSC_eq (cV L)) v a g ∧
      ∀ b : S512.Idx, (L 1).val * 32 ≤ (b 0).val → (b 0).val < (L 1).val * 32 + 32 → shRowOf fc a v b = g b)
    (fp : Vec F S3072 .f32) (fb : Vec F S32 .f32) (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc 1 v (binIx (jL L) r)))
    (hld1 : ∀ v, ld1 v = lanes16 16 (by decide) (fun r => shRowOf fc 1 v (binIx (jL L) r))) :
    OutOk m d (Fin.cast nSC_eq (cV L)) (jL L) 1
      (outSlice ((outAt (k1_off55 L 512#32) (k1_off55_inb L 1)).view.writes (Elt F) fp
        [⟨Rect.whole S32, ReadAs.same.apply (View.read (Elt F) (Memref.whole cc1_scratch7).view
          ((Memref.whole cc1_scratch7).view.writes (Elt F) fb
            [⟨Rect.unit ![16] S16.size inb_S32_S16_16, HI⟩, ⟨Rect.unit ![0] S16.size inb_S32_S16_0, LO⟩]))⟩])
        (Fin.cast nSC_eq (cV L)) (jL L) 1) := by
  rw [out_written (Fin.cast nSC_eq (cV L)) (jL L) 1 (k1_off55 L 512#32) (k1_off55_inb L 1) (k1_off55_eq L 1) fp]
  exact plane_sum d m (Fin.cast nSC_eq (cV L)) (jL L) 1 fc hfc LO HI ld0 ld1 hLO hHI hld0 hld1 _
    (fun r => read_two_halves (Memref.whole cc1_scratch7).view fb LO HI inb_S32_S16_0 inb_S32_S16_16 r)

theorem plane_final2 (fc : Vec F S3x16x1x512 .f32)
    (hfc : ∀ (v : Fin 16) (a : Fin 3), ∃ g : Vec F S512 .f32, AccOk m d (Fin.cast nSC_eq (cV L)) v a g ∧
      ∀ b : S512.Idx, (L 1).val * 32 ≤ (b 0).val → (b 0).val < (L 1).val * 32 + 32 → shRowOf fc a v b = g b)
    (fp : Vec F S3072 .f32) (fb : Vec F S32 .f32) (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc 2 v (binIx (jL L) r)))
    (hld1 : ∀ v, ld1 v = lanes16 16 (by decide) (fun r => shRowOf fc 2 v (binIx (jL L) r))) :
    OutOk m d (Fin.cast nSC_eq (cV L)) (jL L) 2
      (outSlice ((outAt (k1_off55 L 1024#32) (k1_off55_inb L 2)).view.writes (Elt F) fp
        [⟨Rect.whole S32, ReadAs.same.apply (View.read (Elt F) (Memref.whole cc1_scratch8).view
          ((Memref.whole cc1_scratch8).view.writes (Elt F) fb
            [⟨Rect.unit ![16] S16.size inb_S32_S16_16, HI⟩, ⟨Rect.unit ![0] S16.size inb_S32_S16_0, LO⟩]))⟩])
        (Fin.cast nSC_eq (cV L)) (jL L) 2) := by
  rw [out_written (Fin.cast nSC_eq (cV L)) (jL L) 2 (k1_off55 L 1024#32) (k1_off55_inb L 2) (k1_off55_eq L 2) fp]
  exact plane_sum d m (Fin.cast nSC_eq (cV L)) (jL L) 2 fc hfc LO HI ld0 ld1 hLO hHI hld0 hld1 _
    (fun r => read_two_halves (Memref.whole cc1_scratch8).view fb LO HI inb_S32_S16_0 inb_S32_S16_16 r)

end Cert.Proof.KI

end
-- ==== Proof.TileLoad3.lean ====
import proofs.«203579_g3066606649474_cont_9to1_387_24_alg».proof.Proof.TileVals

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A write into another plane or the other slot of the receive buffer leaves this window's contents as they were. -/
theorem read_slot_write (a a' b b' : Nat) (hne : a ≠ a' ∨ b ≠ b')
    (inb : ∀ x, (![a, b, 0, 0] : Fin 4 → Nat) x + S1x1x1x32.size x ≤ S3x2x1x32.size x)
    (inb' : ∀ x, (![a', b', 0, 0] : Fin 4 → Nat) x + S1x1x1x32.size x ≤ S3x2x1x32.size x)
    (g : Vec F S3x2x1x32 .f32) (P : Vec F S32 .f32) (M : Finset S32.Idx) :
    (rbAt ![a, b, 0, 0] inb).view.read (Elt F) ((rbAt ![a', b', 0, 0] inb').view.write (Elt F) g P M)
      = (rbAt ![a, b, 0, 0] inb).view.read (Elt F) g := by
  funext x
  rw [View.read_apply, View.read_apply]
  refine congrArg _ (View.write_of_not_mem _ _ _ ?_)
  intro hm
  have hm' : (rbAt ![a, b, 0, 0] inb).view.emb x ∈ rbSet a' b' := by
    rw [← set_rbAt ![a', b', 0, 0] inb' a' b' rfl, ← View.setOn_univ]
    exact Finset.mem_of_subset (Finset.map_subset_map.mpr (Finset.subset_univ M)) hm
  have h1 : (rbAt ![a, b, 0, 0] inb).view.emb x ∈ rbSet a b := by
    rw [← set_rbAt ![a, b, 0, 0] inb a b rfl]; exact View.emb_mem_set _ x
  simp only [rbSet, Finset.mem_filter, Finset.mem_univ, true_and] at hm' h1
  exact hne.elim (fun h => h (h1.1.symm.trans hm'.1)) (fun h => h (h1.2.symm.trans hm'.2))

/-- Sixteen lanes of a plane, read after the round's three copies landed in its slot, are lanes of that plane's delivery (here and in the two lemmas below). -/
theorem load3_2 (b h0 : Nat)
    {inb : ∀ x, (![2, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {X : Vec F S3x2x1x32 .f32} {P0 P1 P2 W : Vec F S32 .f32} (hP : P2 = W) (hh : h0 + 16 ≤ 32 := by decide) :
    (rbM).view.readAt (Elt F) (Rect.unit (s := S3x2x1x32) ![2, b, 0, h0] S1x1x1x16.size inb).toLoadRect
        ((rbAt ![2, b, 0, 0] i2).view.write (Elt F) ((rbAt ![1, b, 0, 0] i1).view.write (Elt F)
          ((rbAt ![0, b, 0, 0] i0).view.write (Elt F) X P0 Finset.univ) P1 Finset.univ) P2 Finset.univ)
      = lanes16 h0 hh W := by
  subst hP
  show (rbM.access (Rect.unit (s := S3x2x1x32) ![2, b, 0, h0] S1x1x1x16.size inb)).read (Elt F) _ = _
  rw [read_rbAccess 2 b h0 hh inb i2, View.read_write_univ]

theorem load3_1 (b h0 : Nat)
    {inb : ∀ x, (![1, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {X : Vec F S3x2x1x32 .f32} {P0 P1 P2 W : Vec F S32 .f32} (hP : P1 = W) (hh : h0 + 16 ≤ 32 := by decide) :
    (rbM).view.readAt (Elt F) (Rect.unit (s := S3x2x1x32) ![1, b, 0, h0] S1x1x1x16.size inb).toLoadRect
        ((rbAt ![2, b, 0, 0] i2).view.write (Elt F) ((rbAt ![1, b, 0, 0] i1).view.write (Elt F)
          ((rbAt ![0, b, 0, 0] i0).view.write (Elt F) X P0 Finset.univ) P1 Finset.univ) P2 Finset.univ)
      = lanes16 h0 hh W := by
  subst hP
  show (rbM.access (Rect.unit (s := S3x2x1x32) ![1, b, 0, h0] S1x1x1x16.size inb)).read (Elt F) _ = _
  rw [read_rbAccess 1 b h0 hh inb i1, read_slot_write 1 2 b b (.inl (by decide)) i1 i2, View.read_write_univ]

theorem load3_0 (b h0 : Nat)
    {inb : ∀ x, (![0, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {X : Vec F S3x2x1x32 .f32} {P0 P1 P2 W : Vec F S32 .f32} (hP : P0 = W) (hh : h0 + 16 ≤ 32 := by decide) :
    (rbM).view.readAt (Elt F) (Rect.unit (s := S3x2x1x32) ![0, b, 0, h0] S1x1x1x16.size inb).toLoadRect
        ((rbAt ![2, b, 0, 0] i2).view.write (Elt F) ((rbAt ![1, b, 0, 0] i1).view.write (Elt F)
          ((rbAt ![0, b, 0, 0] i0).view.write (Elt F) X P0 Finset.univ) P1 Finset.univ) P2 Finset.univ)
      = lanes16 h0 hh W := by
  subst hP
  show (rbM.access (Rect.unit (s := S3x2x1x32) ![0, b, 0, h0] S1x1x1x16.size inb)).read (Elt F) _ = _
  rw [read_rbAccess 0 b h0 hh inb i0, read_slot_write 0 2 b b (.inl (by decide)) i0 i2, read_slot_write 0 1 b b (.inl (by decide)) i0 i1,
    View.read_write_univ]

/-- The same with the next round's three copies already landed in the other slot, which the load does not touch. -/
theorem load6_2 (b b' h0 : Nat)
    {inb : ∀ x, (![2, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {j0 : ∀ x, (![0, b', 0, 0] : Fin 4 → Nat) x + S1x1x1x32.size x ≤ S3x2x1x32.size x}
    {j1 : ∀ x, (![1, b', 0, 0] : Fin 4 → Nat) x + S1x1x1x32.size x ≤ S3x2x1x32.size x}
    {j2 : ∀ x, (![2, b', 0, 0] : Fin 4 → Nat) x + S1x1x1x32.size x ≤ S3x2x1x32.size x}
    {X : Vec F S3x2x1x32 .f32} {P0 P1 P2 Q0 Q1 Q2 W : Vec F S32 .f32} (hP : P2 = W) (hbb : b ≠ b' := by decide) (hh : h0 + 16 ≤ 32 := by decide) :
    (rbM).view.readAt (Elt F) (Rect.unit (s := S3x2x1x32) ![2, b, 0, h0] S1x1x1x16.size inb).toLoadRect
        ((rbAt ![2, b', 0, 0] j2).view.write (Elt F) ((rbAt ![1, b', 0, 0] j1).view.write (Elt F) ((rbAt ![0, b', 0, 0] j0).view.write (Elt F)
          ((rbAt ![2, b, 0, 0] i2).view.write (Elt F) ((rbAt ![1, b, 0, 0] i1).view.write (Elt F)
            ((rbAt ![0, b, 0, 0] i0).view.write (Elt F) X P0 Finset.univ) P1 Finset.univ) P2 Finset.univ)
          Q0 Finset.univ) Q1 Finset.univ) Q2 Finset.univ)
      = lanes16 h0 hh W := by
  subst hP
  show (rbM.access (Rect.unit (s := S3x2x1x32) ![2, b, 0, h0] S1x1x1x16.size inb)).read (Elt F) _ = _
  rw [read_rbAccess 2 b h0 hh inb i2, read_slot_write 2 2 b b' (.inr hbb) i2 j2, read_slot_write 2 1 b b' (.inr hbb) i2 j1,
    read_slot_write 2 0 b b' (.inr hbb) i2 j0, View.read_write_univ]

theorem load6_1 (b b' h0 : Nat)
    {inb : ∀ x, (![1, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {j0 : ∀ x, (![0, b', 0, 0] : Fin 4 → Nat) x + S1x1x1x32.size x ≤ S3x2x1x32.size x}
    {j1 : ∀ x, (![1, b', 0, 0] : Fin 4 → Nat) x + S1x1x1x32.size x ≤ S3x2x1x32.size x}
    {j2 : ∀ x, (![2, b', 0, 0] : Fin 4 → Nat) x + S1x1x1x32.size x ≤ S3x2x1x32.size x}
    {X : Vec F S3x2x1x32 .f32} {P0 P1 P2 Q0 Q1 Q2 W : Vec F S32 .f32} (hP : P1 = W) (hbb : b ≠ b' := by decide) (hh : h0 + 16 ≤ 32 := by decide) :
    (rbM).view.readAt (Elt F) (Rect.unit (s := S3x2x1x32) ![1, b, 0, h0] S1x1x1x16.size inb).toLoadRect
        ((rbAt ![2, b', 0, 0] j2).view.write (Elt F) ((rbAt ![1, b', 0, 0] j1).view.write (Elt F) ((rbAt ![0, b', 0, 0] j0).view.write (Elt F)
          ((rbAt ![2, b, 0, 0] i2).view.write (Elt F) ((rbAt ![1, b, 0, 0] i1).view.write (Elt F)
            ((rbAt ![0, b, 0, 0] i0).view.write (Elt F) X P0 Finset.univ) P1 Finset.univ) P2 Finset.univ)
          Q0 Finset.univ) Q1 Finset.univ) Q2 Finset.univ)
      = lanes16 h0 hh W := by
  subst hP
  show (rbM.access (Rect.unit (s := S3x2x1x32) ![1, b, 0, h0] S1x1x1x16.size inb)).read (Elt F) _ = _
  rw [read_rbAccess 1 b h0 hh inb i1, read_slot_write 1 2 b b' (.inr hbb) i1 j2, read_slot_write 1 1 b b' (.inr hbb) i1 j1,
    read_slot_write 1 0 b b' (.inr hbb) i1 j0, read_slot_write 1 2 b b (.inl (by decide)) i1 i2, View.read_write_univ]

theorem load6_0 (b b' h0 : Nat)
    {inb : ∀ x, (![0, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {j0 : ∀ x, (![0, b', 0, 0] : Fin 4 → Nat) x + S1x1x1x32.size x ≤ S3x2x1x32.size x}
    {j1 : ∀ x, (![1, b', 0, 0] : Fin 4 → Nat) x + S1x1x1x32.size x ≤ S3x2x1x32.size x}
    {j2 : ∀ x, (![2, b', 0, 0] : Fin 4 → Nat) x + S1x1x1x32.size x ≤ S3x2x1x32.size x}
    {X : Vec F S3x2x1x32 .f32} {P0 P1 P2 Q0 Q1 Q2 W : Vec F S32 .f32} (hP : P0 = W) (hbb : b ≠ b' := by decide) (hh : h0 + 16 ≤ 32 := by decide) :
    (rbM).view.readAt (Elt F) (Rect.unit (s := S3x2x1x32) ![0, b, 0, h0] S1x1x1x16.size inb).toLoadRect
        ((rbAt ![2, b', 0, 0] j2).view.write (Elt F) ((rbAt ![1, b', 0, 0] j1).view.write (Elt F) ((rbAt ![0, b', 0, 0] j0).view.write (Elt F)
          ((rbAt ![2, b, 0, 0] i2).view.write (Elt F) ((rbAt ![1, b, 0, 0] i1).view.write (Elt F)
            ((rbAt ![0, b, 0, 0] i0).view.write (Elt F) X P0 Finset.univ) P1 Finset.univ) P2 Finset.univ)
          Q0 Finset.univ) Q1 Finset.univ) Q2 Finset.univ)
      = lanes16 h0 hh W := by
  subst hP
  show (rbM.access (Rect.unit (s := S3x2x1x32) ![0, b, 0, h0] S1x1x1x16.size inb)).read (Elt F) _ = _
  rw [read_rbAccess 0 b h0 hh inb i0, read_slot_write 0 2 b b' (.inr hbb) i0 j2, read_slot_write 0 1 b b' (.inr hbb) i0 j1,
    read_slot_write 0 0 b b' (.inr hbb) i0 j0, read_slot_write 0 2 b b (.inl (by decide)) i0 i2, read_slot_write 0 1 b b (.inl (by decide)) i0 i1,
    View.read_write_univ]

end Cert.Proof.KI

end
-- ==== Proof.TileBodyFull.lean ====
import proofs.«203579_g3066606649474_cont_9to1_387_24_alg».proof.Proof.TileGeom
import proofs.«203579_g3066606649474_cont_9to1_387_24_alg».proof.Proof.TileCols
import proofs.«203579_g3066606649474_cont_9to1_387_24_alg».proof.Proof.TileLoop
import proofs.«203579_g3066606649474_cont_9to1_387_24_alg».proof.Proof.TileVals
import proofs.«203579_g3066606649474_cont_9to1_387_24_alg».proof.Proof.TileRounds
import proofs.«203579_g3066606649474_cont_9to1_387_24_alg».proof.Proof.TileFinal
import proofs.«203579_g3066606649474_cont_9to1_387_24_alg».proof.Proof.TileLoad3

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

private theorem waits_ins {W W' : Waits sig (HIx 1)} {x : SemLoc sig × HIx 1} (hx : x.2 = none ∨ x.2 = some (0 : Fin 1))
    (h : ∀ p ∈ W', p ∈ W ∨ p.2 = none ∨ p.2 = some (0 : Fin 1)) :
    ∀ p ∈ insert x W', p ∈ W ∨ p.2 = none ∨ p.2 = some (0 : Fin 1) := by
  intro p hp
  rcases Finset.mem_insert.mp hp with rfl | hp
  · exact .inr hx
  · exact h p hp

section Tile
variable (d : Dev nD) (L : grid1.Coords)

set_option maxHeartbeats 4000000 in
/-- One vector subcore's task at a symbolic place: its chunk added into 512 bins, the bins published, exchanged at the barrier, and sixteen tiles' blocks summed in tile order. -/
theorem tile_body_full (h1 : k1_cond1 L = 1#1) (h2 : ¬ k1_cond2 L = 1#1) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (L 1).val
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L
            (Memref.whole main_v15_0_scv) (Memref.isWhole_whole _)
            (Memref.whole main_v15_1_scv) (Memref.isWhole_whole _)
            (Memref.whole main_arg4_scv) (Memref.isWhole_whole _)
            (Memref.whole main_v16_scv) (Memref.isWhole_whole _)
            (Memref.whole cc1_scratch0) (Memref.isWhole_whole _)
            (Memref.whole cc1_scratch1) (Memref.isWhole_whole _)
            (Memref.whole cc1_scratch2) (Memref.isWhole_whole _)
            (Memref.whole cc1_scratch3) (Memref.isWhole_whole _)
            (Memref.whole cc1_scratch4) (Memref.isWhole_whole _)
            (Memref.whole cc1_scratch5) (Memref.isWhole_whole _)
            (Memref.whole cc1_scratch6) (Memref.isWhole_whole _)
            (Memref.whole cc1_scratch7) (Memref.isWhole_whole _)
            (Memref.whole cc1_scratch8) (Memref.isWhole_whole _)
            (Memref.whole cc1_scratch9) (Memref.isWhole_whole _)
            (Memref.whole cc1_scratch10) (Memref.isWhole_whole _)
            cc1_scratch11 cc1_scratch12 cc1_scratch13 cc1_scoped0 cc1_scoped1 cc1_scoped2 cc1_scoped3 cc1_scoped4 cc1_scoped5 cc1_scoped6 cc1_scoped7)
          fun _ => iprop(tdP m d (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by

  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold bkit goP
  iintro ⟨#Hlv, ⟨⟨%κ, #Hinv⟩, Htoks, #Hrch, Hat, Hcred⟩, ⟨⟨%lcA, %ldA, %hR0, Hlc, Hld⟩, %hIds, Hids, ⟨%fp, Hp⟩, ⟨%fsh, Hsh⟩⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hs10, Hsems⟩, HO⟩

  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv

  ihave Hlc := (Entails.of_eq (show (lcLoc d ↦[chunkSet (cV L).val (L 1).val]{fullShare} lcA : sProp 𝕄) = _ from (pts_lcK (F := F) d L fullShare lcA).symm)) $$ Hlc
  ihave Hld := (Entails.of_eq (show (ldLoc d ↦[chunkSet (cV L).val (L 1).val]{fullShare} ldA : sProp 𝕄) = _ from (pts_ldK (F := F) d L fullShare ldA).symm)) $$ Hld
  ihave Hids := (Entails.of_eq (show (idsLoc d ↦[idsSet (cV L).val (L 1).val]{fullShare} m (idsLoc d) : sProp 𝕄) = _ from (pts_idsK (F := F) d L h1 fullShare (m (idsLoc d))).symm)) $$ Hids

  ihave Hb0 := (Entails.of_eq (show ((V d (cV L) (jV L)).loc cc1_scratch0 ↦{fullShare} fb0 : sProp 𝕄) = ((Memref.whole cc1_scratch0).view.loc (V d (cV L) (jV L)) ↦{fullShare} fb0) from rfl)) $$ Hb0
  ihave Hb1 := (Entails.of_eq (show ((V d (cV L) (jV L)).loc cc1_scratch1 ↦{fullShare} fb1 : sProp 𝕄) = ((Memref.whole cc1_scratch1).view.loc (V d (cV L) (jV L)) ↦{fullShare} fb1) from rfl)) $$ Hb1
  ihave Hb2 := (Entails.of_eq (show ((V d (cV L) (jV L)).loc cc1_scratch2 ↦{fullShare} fb2 : sProp 𝕄) = ((Memref.whole cc1_scratch2).view.loc (V d (cV L) (jV L)) ↦{fullShare} fb2) from rfl)) $$ Hb2
  ihave Hb3 := (Entails.of_eq (show ((V d (cV L) (jV L)).loc cc1_scratch3 ↦{fullShare} fb3 : sProp 𝕄) = ((Memref.whole cc1_scratch3).view.loc (V d (cV L) (jV L)) ↦{fullShare} fb3) from rfl)) $$ Hb3
  ihave Hb4 := (Entails.of_eq (show ((V d (cV L) (jV L)).loc cc1_scratch4 ↦{fullShare} fb4 : sProp 𝕄) = ((Memref.whole cc1_scratch4).view.loc (V d (cV L) (jV L)) ↦{fullShare} fb4) from rfl)) $$ Hb4
  ihave Hb5 := (Entails.of_eq (show ((V d (cV L) (jV L)).loc cc1_scratch5 ↦{fullShare} fb5 : sProp 𝕄) = ((Memref.whole cc1_scratch5).view.loc (V d (cV L) (jV L)) ↦{fullShare} fb5) from rfl)) $$ Hb5
  ihave Hb6 := (Entails.of_eq (show ((V d (cV L) (jV L)).loc cc1_scratch6 ↦{fullShare} fb6 : sProp 𝕄) = ((Memref.whole cc1_scratch6).view.loc (V d (cV L) (jV L)) ↦{fullShare} fb6) from rfl)) $$ Hb6
  ihave Hb7 := (Entails.of_eq (show ((V d (cV L) (jV L)).loc cc1_scratch7 ↦{fullShare} fb7 : sProp 𝕄) = ((Memref.whole cc1_scratch7).view.loc (V d (cV L) (jV L)) ↦{fullShare} fb7) from rfl)) $$ Hb7
  ihave Hb8 := (Entails.of_eq (show ((V d (cV L) (jV L)).loc cc1_scratch8 ↦{fullShare} fb8 : sProp 𝕄) = ((Memref.whole cc1_scratch8).view.loc (V d (cV L) (jV L)) ↦{fullShare} fb8) from rfl)) $$ Hb8
  ihave Hb9 := (Entails.of_eq (show ((V d (cV L) (jV L)).loc cc1_scratch10 ↦{fullShare} fb9 : sProp 𝕄) = ((Memref.whole cc1_scratch10).view.loc (V d (cV L) (jV L)) ↦{fullShare} fb9) from rfl)) $$ Hb9

  have hBa : Transfers.BatchOf (V d (cV L) (jV L)) (SemLoc.dma cc1_scratch11.sem) 2 := Transfers.BatchOf.intro _ _ _
  have hBb0 : Transfers.BatchOf (V d (cV L) (jV L)) (SemLoc.dma cc1_scratch12.sem) 3 true := Transfers.BatchOf.intro _ _ _ _
  have hBb1 : Transfers.BatchOf (V d (cV L) (jV L)) (SemLoc.dma cc1_scratch13.sem) 3 true := Transfers.BatchOf.intro _ _ _ _
  sl_exec_parts

  have e0 : View.write (Elt F) (Memref.whole cc1_scratch0).view fb0 (tile_body_full.sl.dma0 L lcA) Finset.univ = chunkOf lcA (Fin.cast nSC_eq (cV L)) (jL L) := fetched_lc (F := F) L fb0 lcA
  have e1 : View.write (Elt F) (Memref.whole cc1_scratch1).view fb1 (tile_body_full.sl.dma1 L ldA) Finset.univ = chunkOf ldA (Fin.cast nSC_eq (cV L)) (jL L) := fetched_ld (F := F) L fb1 ldA
  have e2 : View.write (Elt F) (Memref.whole cc1_scratch2).view fb2 (tile_body_full.sl.dma0_1 m d L h1) Finset.univ = tileIds m d (Fin.cast nSC_eq (cV L)) (jL L) := fetched_ids (F := F) d L m h1 fb2
  have e3 : (Memref.whole cc1_scratch3).view.writes (Elt F) (Memref.whole cc1_scratch3).view.junk tile_body_full.sl.Hb3_33 = accZero (F := F) := zerofill3 (F := F) _
  have e4 : (Memref.whole cc1_scratch4).view.writes (Elt F) (Memref.whole cc1_scratch4).view.junk tile_body_full.sl.Hb4_33 = accZero (F := F) := zerofill4 (F := F) _
  have e5 : (Memref.whole cc1_scratch5).view.writes (Elt F) (Memref.whole cc1_scratch5).view.junk tile_body_full.sl.Hb5_33 = accZero (F := F) := zerofill5 (F := F) _
  rw [e0, e1, e2, e3, e4, e5]
  have hids := tileIds_lt hIds (Fin.cast nSC_eq (cV L)) (jL L)

  sl_for (loopInv d L (chunkOf lcA (Fin.cast nSC_eq (cV L)) (jL L)) (chunkOf ldA (Fin.cast nSC_eq (cV L)) (jL L)) (tileIds m d (Fin.cast nSC_eq (cV L)) (jL L))) $$ [Hb2 Hb0 Hb1 Hb3 Hb4 Hb5]
  · intro k acc
    exact wp_trip d L 𝒱₀ none Set.univ _ _ _ hids k acc
  · unfold loopInv
    isplitl [Hb2]; · iexact Hb2
    isplitl [Hb0]; · iexact Hb0
    isplitl [Hb1]; · iexact Hb1
    isplitl [Hb3]; · iexact Hb3
    isplitl [Hb4]; · iexact Hb4
    iexact Hb5
  iintro %acc HI
  unfold loopInv
  icases HI with ⟨Hb2, Hb0, Hb1, Hb3, Hb4, Hb5⟩

  ihave Hsh := (Entails.of_eq (pts_shRows (F := F) d (cV L) (L 1).val fullShare fsh)) $$ Hsh
  icases Hsh with ⟨Hsh0, Hsh1, Hsh2⟩
  ihave Hsh0 := (Entails.of_eq (pts_shRowK0 (F := F) d L fullShare fsh).symm) $$ Hsh0
  ihave Hsh1 := (Entails.of_eq (pts_shRowK1 (F := F) d L fullShare fsh).symm) $$ Hsh1
  ihave Hsh2 := (Entails.of_eq (pts_shRowK2 (F := F) d L fullShare fsh).symm) $$ Hsh2
  sl_exec_parts

  have hbar : (sc_bar0 : Sem sig) ≠ (K (F := F)).go := sc_bar0_ne_go
  ihave Hmwb := (show levAts (K (F := F)).L (K (F := F)).lev ⊢ MayWait (V d (cV L) (jV L)) (SemLoc.reg sc_bar0) (some (0 : Fin 1)) O from
    (K (F := F)).mayOwe_of_bound 3
      (fun p hp => by rw [Finset.mem_singleton] at hp; subst hp; exact le_of_eq ((K (F := F)).lev_V_reg d (cV L) (jV L) hbar (0 : Fin 1)))
      (fun g ι h => lt_of_lt_of_le (show 3 < 8 * (0 : Fin 1).val + 6 by decide) (hOlev g ι h))) $$ Hlv

  ihave Hpay := (pays_intro (F := F) d L m) $$ [Hsh0 Hsh1 Hsh2]
  · ihave Hsh0 := (Entails.of_eq (pts_shRowK0 (F := F) d L fullShare _)) $$ Hsh0
    ihave Hsh1 := (Entails.of_eq (pts_shRowK1 (F := F) d L fullShare _)) $$ Hsh1
    ihave Hsh2 := (Entails.of_eq (pts_shRowK2 (F := F) d L fullShare _)) $$ Hsh2
    iapply (rows_glue (F := F) d L m)
    isplitl [Hsh0]
    · iexists _
      isplitr [Hsh0]
      pick_goal 2; · iexact Hsh0
      ipureintro; exact row_fact0 (F := F) d L m lcA ldA hR0 fsh
    isplitl [Hsh1]
    · iexists _
      isplitr [Hsh1]
      pick_goal 2; · iexact Hsh1
      ipureintro; exact row_fact1 (F := F) d L m lcA ldA hR0 fsh
    iexists _
    isplitr [Hsh2]
    pick_goal 2; · iexact Hsh2
    ipureintro; exact row_fact2 (F := F) d L m lcA ldA hR0 fsh

  ihave Hzip := (show iprop((bigSep Finset.univ fun j : Fin (grid1.bound 1) => dutyTok EB (bcell d (cV L) (j.castLE hsub1)) 0 (jV L).val)
        ∗ (bigSep Finset.univ fun j : Fin (grid1.bound 1) => (bRd (F := F) m).payload (bcell d (cV L) (j.castLE hsub1)) 0 (jV L).val)
        ∗ (bigSep Finset.univ fun j : Fin (grid1.bound 1) => reached EB (bcell d (cV L) (j.castLE hsub1)) 0))
      ⊢ (bigSep Finset.univ fun j : Fin (grid1.bound 1) => iprop(dutyTok EB (bcell d (cV L) (j.castLE hsub1)) 0 (jV L).val
          ∗ (bRd (F := F) m).payload (bcell d (cV L) (j.castLE hsub1)) 0 (jV L).val ∗ reached EB (bcell d (cV L) (j.castLE hsub1)) 0) : sProp 𝕄) from
    Entails.of_eq ((congrArg (fun X : sProp 𝕄 => iprop((bigSep Finset.univ fun j : Fin (grid1.bound 1) => dutyTok EB (bcell d (cV L) (j.castLE hsub1)) 0 (jV L).val) ∗ X))
        (BI.bigSep_sep Finset.univ (fun j : Fin (grid1.bound 1) => (bRd (F := F) m).payload (bcell d (cV L) (j.castLE hsub1)) 0 (jV L).val) (fun j : Fin (grid1.bound 1) => reached EB (bcell d (cV L) (j.castLE hsub1)) 0)).symm).trans
      (BI.bigSep_sep Finset.univ (fun j : Fin (grid1.bound 1) => dutyTok EB (bcell d (cV L) (j.castLE hsub1)) 0 (jV L).val)
        (fun j : Fin (grid1.bound 1) => iprop((bRd (F := F) m).payload (bcell d (cV L) (j.castLE hsub1)) 0 (jV L).val ∗ reached EB (bcell d (cV L) (j.castLE hsub1)) 0))).symm)) $$ [Htoks Hpay Hrch]
  · isplitl [Htoks]; · iexact Htoks
    isplitl [Hpay]; · iexact Hpay
    iexact Hrch
  unfold oxV
  iapply (SparseCore.wp_subcoreBarrier (defs := defs₀ (F := F)) 𝒱₀ none EB (bRd (F := F) m) d (sc := cV L) (i := jV L) sc_bar0 (grid1.bound 1) hsub1 (L 1) rfl κ (fun _ => 0) (jV L).val
      (fun j => bRd_mem₀ m d (cV L) (j.castLE hsub1) (jV L)) (fun _ => rfl) (bRd_expect m d (cV L) (jV L)) (some (0 : Fin 1)) O _) $$ [HO Hzip Hcred Hat]
  · isplitl []; · iexact Hinv
    isplitl [HO]; · iexact HO
    isplitl [Hzip]; · iexact Hzip
    isplitl [Hcred]; · iexact Hcred
    isplitl [Hat]; · iexact Hat
    iexact Hmwb
  iintro ⟨HO, Hat, #Hrch1, Hgot⟩

  ihave Hcols := (pays_elim (F := F) d L m) $$ Hgot
  icases Hcols with ⟨%fc, %hfc, Hcols⟩
  ihave Hcols := (Entails.of_eq (pts_colsK (F := F) d L fullShare fc)) $$ Hcols
  icases Hcols with ⟨⟨Hk0_0, Hk0_1, Hk0_2⟩, ⟨Hk1_0, Hk1_1, Hk1_2⟩, ⟨Hk2_0, Hk2_1, Hk2_2⟩, ⟨Hk3_0, Hk3_1, Hk3_2⟩, ⟨Hk4_0, Hk4_1, Hk4_2⟩, ⟨Hk5_0, Hk5_1, Hk5_2⟩, ⟨Hk6_0, Hk6_1, Hk6_2⟩, ⟨Hk7_0, Hk7_1, Hk7_2⟩, ⟨Hk8_0, Hk8_1, Hk8_2⟩, ⟨Hk9_0, Hk9_1, Hk9_2⟩, ⟨Hk10_0, Hk10_1, Hk10_2⟩, ⟨Hk11_0, Hk11_1, Hk11_2⟩, ⟨Hk12_0, Hk12_1, Hk12_2⟩, ⟨Hk13_0, Hk13_1, Hk13_2⟩, ⟨Hk14_0, Hk14_1, Hk14_2⟩, ⟨Hk15_0, Hk15_1, Hk15_2⟩⟩

  sl_exec_parts

  ihave Hp := (Entails.of_eq (pts_outSets (F := F) d (cV L).val (L 1).val fullShare fp)) $$ Hp
  icases Hp with ⟨Hp0, Hp1, Hp2⟩
  ihave Hp0 := (Entails.of_eq (show (pLoc d ↦[outSetA (cV L).val (L 1).val 0]{fullShare} fp : sProp 𝕄) = _ from (pts_outK0 (F := F) d L fullShare fp).symm)) $$ Hp0
  ihave Hp1 := (Entails.of_eq (show (pLoc d ↦[outSetA (cV L).val (L 1).val 1]{fullShare} fp : sProp 𝕄) = _ from (pts_outK1 (F := F) d L fullShare fp).symm)) $$ Hp1
  ihave Hp2 := (Entails.of_eq (show (pLoc d ↦[outSetA (cV L).val (L 1).val 2]{fullShare} fp : sProp 𝕄) = _ from (pts_outK2 (F := F) d L fullShare fp).symm)) $$ Hp2
  sl_exec_parts
  sl_step

  have ho0 : OutOk m d (Fin.cast nSC_eq (cV L)) (jL L) 0 (outSlice ((outAt (k1_off55 L 0#32) (k1_off55_inb L 0)).view.writes (Elt F) fp [⟨Rect.whole S32, tile_body_full.sl.dma0_6 d L fb6 fb9 fc⟩]) (Fin.cast nSC_eq (cV L)) (jL L) 0) := by
    refine plane_final0 (F := F) d L m fc hfc fp fb6 _ _
      ![tile_body_full.sl.v204_ld d L fb9 fc, tile_body_full.sl.v285_ld d L fb9 fc, tile_body_full.sl.v366_ld d L fb9 fc, tile_body_full.sl.v447_ld d L fb9 fc, tile_body_full.sl.v528_ld d L fb9 fc, tile_body_full.sl.v609_ld d L fb9 fc, tile_body_full.sl.v690_ld d L fb9 fc, tile_body_full.sl.v771_ld d L fb9 fc, tile_body_full.sl.v852_ld d L fb9 fc, tile_body_full.sl.v933_ld d L fb9 fc, tile_body_full.sl.v1014_ld d L fb9 fc, tile_body_full.sl.v1095_ld d L fb9 fc, tile_body_full.sl.v1176_ld d L fb9 fc, tile_body_full.sl.v1257_ld d L fb9 fc, tile_body_full.sl.v1338_ld d L fb9 fc, tile_body_full.sl.v1392_ld d L fb9 fc]
      ![tile_body_full.sl.v209_ld d L fb9 fc, tile_body_full.sl.v290_ld d L fb9 fc, tile_body_full.sl.v371_ld d L fb9 fc, tile_body_full.sl.v452_ld d L fb9 fc, tile_body_full.sl.v533_ld d L fb9 fc, tile_body_full.sl.v614_ld d L fb9 fc, tile_body_full.sl.v695_ld d L fb9 fc, tile_body_full.sl.v776_ld d L fb9 fc, tile_body_full.sl.v857_ld d L fb9 fc, tile_body_full.sl.v938_ld d L fb9 fc, tile_body_full.sl.v1019_ld d L fb9 fc, tile_body_full.sl.v1100_ld d L fb9 fc, tile_body_full.sl.v1181_ld d L fb9 fc, tile_body_full.sl.v1262_ld d L fb9 fc, tile_body_full.sl.v1343_ld d L fb9 fc, tile_body_full.sl.v1397_ld d L fb9 fc] ?_ ?_ ?_ ?_
    · rfl
    · rfl
    · intro v; fin_cases v
      · exact load6_0 0 1 0 (read_shBlkAt (F := F) (k1_off7 L) (k1_off7_inb L) 0 0 (jL L) (k1_off7_eq L) fc)
      · exact load6_0 1 0 0 (read_shBlkAt (F := F) (k1_off10 L) (k1_off10_inb L) 0 1 (jL L) (k1_off10_eq L) fc)
      · exact load6_0 0 1 0 (read_shBlkAt (F := F) (k1_off13 L) (k1_off13_inb L) 0 2 (jL L) (k1_off13_eq L) fc)
      · exact load6_0 1 0 0 (read_shBlkAt (F := F) (k1_off16 L) (k1_off16_inb L) 0 3 (jL L) (k1_off16_eq L) fc)
      · exact load6_0 0 1 0 (read_shBlkAt (F := F) (k1_off19 L) (k1_off19_inb L) 0 4 (jL L) (k1_off19_eq L) fc)
      · exact load6_0 1 0 0 (read_shBlkAt (F := F) (k1_off22 L) (k1_off22_inb L) 0 5 (jL L) (k1_off22_eq L) fc)
      · exact load6_0 0 1 0 (read_shBlkAt (F := F) (k1_off25 L) (k1_off25_inb L) 0 6 (jL L) (k1_off25_eq L) fc)
      · exact load6_0 1 0 0 (read_shBlkAt (F := F) (k1_off28 L) (k1_off28_inb L) 0 7 (jL L) (k1_off28_eq L) fc)
      · exact load6_0 0 1 0 (read_shBlkAt (F := F) (k1_off31 L) (k1_off31_inb L) 0 8 (jL L) (k1_off31_eq L) fc)
      · exact load6_0 1 0 0 (read_shBlkAt (F := F) (k1_off34 L) (k1_off34_inb L) 0 9 (jL L) (k1_off34_eq L) fc)
      · exact load6_0 0 1 0 (read_shBlkAt (F := F) (k1_off37 L) (k1_off37_inb L) 0 10 (jL L) (k1_off37_eq L) fc)
      · exact load6_0 1 0 0 (read_shBlkAt (F := F) (k1_off40 L) (k1_off40_inb L) 0 11 (jL L) (k1_off40_eq L) fc)
      · exact load6_0 0 1 0 (read_shBlkAt (F := F) (k1_off43 L) (k1_off43_inb L) 0 12 (jL L) (k1_off43_eq L) fc)
      · exact load6_0 1 0 0 (read_shBlkAt (F := F) (k1_off46 L) (k1_off46_inb L) 0 13 (jL L) (k1_off46_eq L) fc)
      · exact load6_0 0 1 0 (read_shBlkAt (F := F) (k1_off49 L) (k1_off49_inb L) 0 14 (jL L) (k1_off49_eq L) fc)
      · exact load3_0 1 0 (read_shBlkAt (F := F) (k1_off52 L) (k1_off52_inb L) 0 15 (jL L) (k1_off52_eq L) fc)
    · intro v; fin_cases v
      · exact load6_0 0 1 16 (read_shBlkAt (F := F) (k1_off7 L) (k1_off7_inb L) 0 0 (jL L) (k1_off7_eq L) fc)
      · exact load6_0 1 0 16 (read_shBlkAt (F := F) (k1_off10 L) (k1_off10_inb L) 0 1 (jL L) (k1_off10_eq L) fc)
      · exact load6_0 0 1 16 (read_shBlkAt (F := F) (k1_off13 L) (k1_off13_inb L) 0 2 (jL L) (k1_off13_eq L) fc)
      · exact load6_0 1 0 16 (read_shBlkAt (F := F) (k1_off16 L) (k1_off16_inb L) 0 3 (jL L) (k1_off16_eq L) fc)
      · exact load6_0 0 1 16 (read_shBlkAt (F := F) (k1_off19 L) (k1_off19_inb L) 0 4 (jL L) (k1_off19_eq L) fc)
      · exact load6_0 1 0 16 (read_shBlkAt (F := F) (k1_off22 L) (k1_off22_inb L) 0 5 (jL L) (k1_off22_eq L) fc)
      · exact load6_0 0 1 16 (read_shBlkAt (F := F) (k1_off25 L) (k1_off25_inb L) 0 6 (jL L) (k1_off25_eq L) fc)
      · exact load6_0 1 0 16 (read_shBlkAt (F := F) (k1_off28 L) (k1_off28_inb L) 0 7 (jL L) (k1_off28_eq L) fc)
      · exact load6_0 0 1 16 (read_shBlkAt (F := F) (k1_off31 L) (k1_off31_inb L) 0 8 (jL L) (k1_off31_eq L) fc)
      · exact load6_0 1 0 16 (read_shBlkAt (F := F) (k1_off34 L) (k1_off34_inb L) 0 9 (jL L) (k1_off34_eq L) fc)
      · exact load6_0 0 1 16 (read_shBlkAt (F := F) (k1_off37 L) (k1_off37_inb L) 0 10 (jL L) (k1_off37_eq L) fc)
      · exact load6_0 1 0 16 (read_shBlkAt (F := F) (k1_off40 L) (k1_off40_inb L) 0 11 (jL L) (k1_off40_eq L) fc)
      · exact load6_0 0 1 16 (read_shBlkAt (F := F) (k1_off43 L) (k1_off43_inb L) 0 12 (jL L) (k1_off43_eq L) fc)
      · exact load6_0 1 0 16 (read_shBlkAt (F := F) (k1_off46 L) (k1_off46_inb L) 0 13 (jL L) (k1_off46_eq L) fc)
      · exact load6_0 0 1 16 (read_shBlkAt (F := F) (k1_off49 L) (k1_off49_inb L) 0 14 (jL L) (k1_off49_eq L) fc)
      · exact load3_0 1 16 (read_shBlkAt (F := F) (k1_off52 L) (k1_off52_inb L) 0 15 (jL L) (k1_off52_eq L) fc)
  have ho1 : OutOk m d (Fin.cast nSC_eq (cV L)) (jL L) 1 (outSlice ((outAt (k1_off55 L 512#32) (k1_off55_inb L 1)).view.writes (Elt F) fp [⟨Rect.whole S32, tile_body_full.sl.dma0_7 d L fb7 fb9 fc⟩]) (Fin.cast nSC_eq (cV L)) (jL L) 1) := by
    refine plane_final1 (F := F) d L m fc hfc fp fb7 _ _
      ![tile_body_full.sl.v214_ld d L fb9 fc, tile_body_full.sl.v295_ld d L fb9 fc, tile_body_full.sl.v376_ld d L fb9 fc, tile_body_full.sl.v457_ld d L fb9 fc, tile_body_full.sl.v538_ld d L fb9 fc, tile_body_full.sl.v619_ld d L fb9 fc, tile_body_full.sl.v700_ld d L fb9 fc, tile_body_full.sl.v781_ld d L fb9 fc, tile_body_full.sl.v862_ld d L fb9 fc, tile_body_full.sl.v943_ld d L fb9 fc, tile_body_full.sl.v1024_ld d L fb9 fc, tile_body_full.sl.v1105_ld d L fb9 fc, tile_body_full.sl.v1186_ld d L fb9 fc, tile_body_full.sl.v1267_ld d L fb9 fc, tile_body_full.sl.v1348_ld d L fb9 fc, tile_body_full.sl.v1402_ld d L fb9 fc]
      ![tile_body_full.sl.v219_ld d L fb9 fc, tile_body_full.sl.v300_ld d L fb9 fc, tile_body_full.sl.v381_ld d L fb9 fc, tile_body_full.sl.v462_ld d L fb9 fc, tile_body_full.sl.v543_ld d L fb9 fc, tile_body_full.sl.v624_ld d L fb9 fc, tile_body_full.sl.v705_ld d L fb9 fc, tile_body_full.sl.v786_ld d L fb9 fc, tile_body_full.sl.v867_ld d L fb9 fc, tile_body_full.sl.v948_ld d L fb9 fc, tile_body_full.sl.v1029_ld d L fb9 fc, tile_body_full.sl.v1110_ld d L fb9 fc, tile_body_full.sl.v1191_ld d L fb9 fc, tile_body_full.sl.v1272_ld d L fb9 fc, tile_body_full.sl.v1353_ld d L fb9 fc, tile_body_full.sl.v1407_ld d L fb9 fc] ?_ ?_ ?_ ?_
    · rfl
    · rfl
    · intro v; fin_cases v
      · exact load6_1 0 1 0 (read_shBlkAt (F := F) (k1_off8 L) (k1_off8_inb L) 1 0 (jL L) (k1_off8_eq L) fc)
      · exact load6_1 1 0 0 (read_shBlkAt (F := F) (k1_off11 L) (k1_off11_inb L) 1 1 (jL L) (k1_off11_eq L) fc)
      · exact load6_1 0 1 0 (read_shBlkAt (F := F) (k1_off14 L) (k1_off14_inb L) 1 2 (jL L) (k1_off14_eq L) fc)
      · exact load6_1 1 0 0 (read_shBlkAt (F := F) (k1_off17 L) (k1_off17_inb L) 1 3 (jL L) (k1_off17_eq L) fc)
      · exact load6_1 0 1 0 (read_shBlkAt (F := F) (k1_off20 L) (k1_off20_inb L) 1 4 (jL L) (k1_off20_eq L) fc)
      · exact load6_1 1 0 0 (read_shBlkAt (F := F) (k1_off23 L) (k1_off23_inb L) 1 5 (jL L) (k1_off23_eq L) fc)
      · exact load6_1 0 1 0 (read_shBlkAt (F := F) (k1_off26 L) (k1_off26_inb L) 1 6 (jL L) (k1_off26_eq L) fc)
      · exact load6_1 1 0 0 (read_shBlkAt (F := F) (k1_off29 L) (k1_off29_inb L) 1 7 (jL L) (k1_off29_eq L) fc)
      · exact load6_1 0 1 0 (read_shBlkAt (F := F) (k1_off32 L) (k1_off32_inb L) 1 8 (jL L) (k1_off32_eq L) fc)
      · exact load6_1 1 0 0 (read_shBlkAt (F := F) (k1_off35 L) (k1_off35_inb L) 1 9 (jL L) (k1_off35_eq L) fc)
      · exact load6_1 0 1 0 (read_shBlkAt (F := F) (k1_off38 L) (k1_off38_inb L) 1 10 (jL L) (k1_off38_eq L) fc)
      · exact load6_1 1 0 0 (read_shBlkAt (F := F) (k1_off41 L) (k1_off41_inb L) 1 11 (jL L) (k1_off41_eq L) fc)
      · exact load6_1 0 1 0 (read_shBlkAt (F := F) (k1_off44 L) (k1_off44_inb L) 1 12 (jL L) (k1_off44_eq L) fc)
      · exact load6_1 1 0 0 (read_shBlkAt (F := F) (k1_off47 L) (k1_off47_inb L) 1 13 (jL L) (k1_off47_eq L) fc)
      · exact load6_1 0 1 0 (read_shBlkAt (F := F) (k1_off50 L) (k1_off50_inb L) 1 14 (jL L) (k1_off50_eq L) fc)
      · exact load3_1 1 0 (read_shBlkAt (F := F) (k1_off53 L) (k1_off53_inb L) 1 15 (jL L) (k1_off53_eq L) fc)
    · intro v; fin_cases v
      · exact load6_1 0 1 16 (read_shBlkAt (F := F) (k1_off8 L) (k1_off8_inb L) 1 0 (jL L) (k1_off8_eq L) fc)
      · exact load6_1 1 0 16 (read_shBlkAt (F := F) (k1_off11 L) (k1_off11_inb L) 1 1 (jL L) (k1_off11_eq L) fc)
      · exact load6_1 0 1 16 (read_shBlkAt (F := F) (k1_off14 L) (k1_off14_inb L) 1 2 (jL L) (k1_off14_eq L) fc)
      · exact load6_1 1 0 16 (read_shBlkAt (F := F) (k1_off17 L) (k1_off17_inb L) 1 3 (jL L) (k1_off17_eq L) fc)
      · exact load6_1 0 1 16 (read_shBlkAt (F := F) (k1_off20 L) (k1_off20_inb L) 1 4 (jL L) (k1_off20_eq L) fc)
      · exact load6_1 1 0 16 (read_shBlkAt (F := F) (k1_off23 L) (k1_off23_inb L) 1 5 (jL L) (k1_off23_eq L) fc)
      · exact load6_1 0 1 16 (read_shBlkAt (F := F) (k1_off26 L) (k1_off26_inb L) 1 6 (jL L) (k1_off26_eq L) fc)
      · exact load6_1 1 0 16 (read_shBlkAt (F := F) (k1_off29 L) (k1_off29_inb L) 1 7 (jL L) (k1_off29_eq L) fc)
      · exact load6_1 0 1 16 (read_shBlkAt (F := F) (k1_off32 L) (k1_off32_inb L) 1 8 (jL L) (k1_off32_eq L) fc)
      · exact load6_1 1 0 16 (read_shBlkAt (F := F) (k1_off35 L) (k1_off35_inb L) 1 9 (jL L) (k1_off35_eq L) fc)
      · exact load6_1 0 1 16 (read_shBlkAt (F := F) (k1_off38 L) (k1_off38_inb L) 1 10 (jL L) (k1_off38_eq L) fc)
      · exact load6_1 1 0 16 (read_shBlkAt (F := F) (k1_off41 L) (k1_off41_inb L) 1 11 (jL L) (k1_off41_eq L) fc)
      · exact load6_1 0 1 16 (read_shBlkAt (F := F) (k1_off44 L) (k1_off44_inb L) 1 12 (jL L) (k1_off44_eq L) fc)
      · exact load6_1 1 0 16 (read_shBlkAt (F := F) (k1_off47 L) (k1_off47_inb L) 1 13 (jL L) (k1_off47_eq L) fc)
      · exact load6_1 0 1 16 (read_shBlkAt (F := F) (k1_off50 L) (k1_off50_inb L) 1 14 (jL L) (k1_off50_eq L) fc)
      · exact load3_1 1 16 (read_shBlkAt (F := F) (k1_off53 L) (k1_off53_inb L) 1 15 (jL L) (k1_off53_eq L) fc)
  have ho2 : OutOk m d (Fin.cast nSC_eq (cV L)) (jL L) 2 (outSlice ((outAt (k1_off55 L 1024#32) (k1_off55_inb L 2)).view.writes (Elt F) fp [⟨Rect.whole S32, tile_body_full.sl.dma0_8 d L fb8 fb9 fc⟩]) (Fin.cast nSC_eq (cV L)) (jL L) 2) := by
    refine plane_final2 (F := F) d L m fc hfc fp fb8 _ _
      ![tile_body_full.sl.v224_ld d L fb9 fc, tile_body_full.sl.v305_ld d L fb9 fc, tile_body_full.sl.v386_ld d L fb9 fc, tile_body_full.sl.v467_ld d L fb9 fc, tile_body_full.sl.v548_ld d L fb9 fc, tile_body_full.sl.v629_ld d L fb9 fc, tile_body_full.sl.v710_ld d L fb9 fc, tile_body_full.sl.v791_ld d L fb9 fc, tile_body_full.sl.v872_ld d L fb9 fc, tile_body_full.sl.v953_ld d L fb9 fc, tile_body_full.sl.v1034_ld d L fb9 fc, tile_body_full.sl.v1115_ld d L fb9 fc, tile_body_full.sl.v1196_ld d L fb9 fc, tile_body_full.sl.v1277_ld d L fb9 fc, tile_body_full.sl.v1358_ld d L fb9 fc, tile_body_full.sl.v1412_ld d L fb9 fc]
      ![tile_body_full.sl.v229_ld d L fb9 fc, tile_body_full.sl.v310_ld d L fb9 fc, tile_body_full.sl.v391_ld d L fb9 fc, tile_body_full.sl.v472_ld d L fb9 fc, tile_body_full.sl.v553_ld d L fb9 fc, tile_body_full.sl.v634_ld d L fb9 fc, tile_body_full.sl.v715_ld d L fb9 fc, tile_body_full.sl.v796_ld d L fb9 fc, tile_body_full.sl.v877_ld d L fb9 fc, tile_body_full.sl.v958_ld d L fb9 fc, tile_body_full.sl.v1039_ld d L fb9 fc, tile_body_full.sl.v1120_ld d L fb9 fc, tile_body_full.sl.v1201_ld d L fb9 fc, tile_body_full.sl.v1282_ld d L fb9 fc, tile_body_full.sl.v1363_ld d L fb9 fc, tile_body_full.sl.v1417_ld d L fb9 fc] ?_ ?_ ?_ ?_
    · rfl
    · rfl
    · intro v; fin_cases v
      · exact load6_2 0 1 0 (read_shBlkAt (F := F) (k1_off9 L) (k1_off9_inb L) 2 0 (jL L) (k1_off9_eq L) fc)
      · exact load6_2 1 0 0 (read_shBlkAt (F := F) (k1_off12 L) (k1_off12_inb L) 2 1 (jL L) (k1_off12_eq L) fc)
      · exact load6_2 0 1 0 (read_shBlkAt (F := F) (k1_off15 L) (k1_off15_inb L) 2 2 (jL L) (k1_off15_eq L) fc)
      · exact load6_2 1 0 0 (read_shBlkAt (F := F) (k1_off18 L) (k1_off18_inb L) 2 3 (jL L) (k1_off18_eq L) fc)
      · exact load6_2 0 1 0 (read_shBlkAt (F := F) (k1_off21 L) (k1_off21_inb L) 2 4 (jL L) (k1_off21_eq L) fc)
      · exact load6_2 1 0 0 (read_shBlkAt (F := F) (k1_off24 L) (k1_off24_inb L) 2 5 (jL L) (k1_off24_eq L) fc)
      · exact load6_2 0 1 0 (read_shBlkAt (F := F) (k1_off27 L) (k1_off27_inb L) 2 6 (jL L) (k1_off27_eq L) fc)
      · exact load6_2 1 0 0 (read_shBlkAt (F := F) (k1_off30 L) (k1_off30_inb L) 2 7 (jL L) (k1_off30_eq L) fc)
      · exact load6_2 0 1 0 (read_shBlkAt (F := F) (k1_off33 L) (k1_off33_inb L) 2 8 (jL L) (k1_off33_eq L) fc)
      · exact load6_2 1 0 0 (read_shBlkAt (F := F) (k1_off36 L) (k1_off36_inb L) 2 9 (jL L) (k1_off36_eq L) fc)
      · exact load6_2 0 1 0 (read_shBlkAt (F := F) (k1_off39 L) (k1_off39_inb L) 2 10 (jL L) (k1_off39_eq L) fc)
      · exact load6_2 1 0 0 (read_shBlkAt (F := F) (k1_off42 L) (k1_off42_inb L) 2 11 (jL L) (k1_off42_eq L) fc)
      · exact load6_2 0 1 0 (read_shBlkAt (F := F) (k1_off45 L) (k1_off45_inb L) 2 12 (jL L) (k1_off45_eq L) fc)
      · exact load6_2 1 0 0 (read_shBlkAt (F := F) (k1_off48 L) (k1_off48_inb L) 2 13 (jL L) (k1_off48_eq L) fc)
      · exact load6_2 0 1 0 (read_shBlkAt (F := F) (k1_off51 L) (k1_off51_inb L) 2 14 (jL L) (k1_off51_eq L) fc)
      · exact load3_2 1 0 (read_shBlkAt (F := F) (k1_off54 L) (k1_off54_inb L) 2 15 (jL L) (k1_off54_eq L) fc)
    · intro v; fin_cases v
      · exact load6_2 0 1 16 (read_shBlkAt (F := F) (k1_off9 L) (k1_off9_inb L) 2 0 (jL L) (k1_off9_eq L) fc)
      · exact load6_2 1 0 16 (read_shBlkAt (F := F) (k1_off12 L) (k1_off12_inb L) 2 1 (jL L) (k1_off12_eq L) fc)
      · exact load6_2 0 1 16 (read_shBlkAt (F := F) (k1_off15 L) (k1_off15_inb L) 2 2 (jL L) (k1_off15_eq L) fc)
      · exact load6_2 1 0 16 (read_shBlkAt (F := F) (k1_off18 L) (k1_off18_inb L) 2 3 (jL L) (k1_off18_eq L) fc)
      · exact load6_2 0 1 16 (read_shBlkAt (F := F) (k1_off21 L) (k1_off21_inb L) 2 4 (jL L) (k1_off21_eq L) fc)
      · exact load6_2 1 0 16 (read_shBlkAt (F := F) (k1_off24 L) (k1_off24_inb L) 2 5 (jL L) (k1_off24_eq L) fc)
      · exact load6_2 0 1 16 (read_shBlkAt (F := F) (k1_off27 L) (k1_off27_inb L) 2 6 (jL L) (k1_off27_eq L) fc)
      · exact load6_2 1 0 16 (read_shBlkAt (F := F) (k1_off30 L) (k1_off30_inb L) 2 7 (jL L) (k1_off30_eq L) fc)
      · exact load6_2 0 1 16 (read_shBlkAt (F := F) (k1_off33 L) (k1_off33_inb L) 2 8 (jL L) (k1_off33_eq L) fc)
      · exact load6_2 1 0 16 (read_shBlkAt (F := F) (k1_off36 L) (k1_off36_inb L) 2 9 (jL L) (k1_off36_eq L) fc)
      · exact load6_2 0 1 16 (read_shBlkAt (F := F) (k1_off39 L) (k1_off39_inb L) 2 10 (jL L) (k1_off39_eq L) fc)
      · exact load6_2 1 0 16 (read_shBlkAt (F := F) (k1_off42 L) (k1_off42_inb L) 2 11 (jL L) (k1_off42_eq L) fc)
      · exact load6_2 0 1 16 (read_shBlkAt (F := F) (k1_off45 L) (k1_off45_inb L) 2 12 (jL L) (k1_off45_eq L) fc)
      · exact load6_2 1 0 16 (read_shBlkAt (F := F) (k1_off48 L) (k1_off48_inb L) 2 13 (jL L) (k1_off48_eq L) fc)
      · exact load6_2 0 1 16 (read_shBlkAt (F := F) (k1_off51 L) (k1_off51_inb L) 2 14 (jL L) (k1_off51_eq L) fc)
      · exact load3_2 1 16 (read_shBlkAt (F := F) (k1_off54 L) (k1_off54_inb L) 2 15 (jL L) (k1_off54_eq L) fc)
  unfold tdP

  ihave Hlc := (Entails.of_eq (show _ = (lcLoc d ↦[chunkSet (cV L).val (jL L).val]{fullShare} lcA : sProp 𝕄) from pts_lcK (F := F) d L fullShare lcA)) $$ Hlc
  ihave Hld := (Entails.of_eq (show _ = (ldLoc d ↦[chunkSet (cV L).val (jL L).val]{fullShare} ldA : sProp 𝕄) from pts_ldK (F := F) d L fullShare ldA)) $$ Hld
  ihave Hids := (Entails.of_eq (show _ = (idsLoc d ↦[idsSet (cV L).val (jL L).val]{fullShare} m (idsLoc d) : sProp 𝕄) from pts_idsK (F := F) d L h1 fullShare (m (idsLoc d)))) $$ Hids

  ihave Hp0 := (Entails.of_eq (pts_outK0 (F := F) d L fullShare _)) $$ Hp0
  ihave Hp1 := (Entails.of_eq (pts_outK1 (F := F) d L fullShare _)) $$ Hp1
  ihave Hp2 := (Entails.of_eq (pts_outK2 (F := F) d L fullShare _)) $$ Hp2
  ihave Hout := (out_glue (F := F) d L m) $$ [Hp0 Hp1 Hp2]
  · isplitl [Hp0]
    · iexists _; isplitr [Hp0]
      pick_goal 2; · iexact Hp0
      ipureintro; exact ho0
    isplitl [Hp1]
    · iexists _; isplitr [Hp1]
      pick_goal 2; · iexact Hp1
      ipureintro; exact ho1
    iexists _; isplitr [Hp2]
    pick_goal 2; · iexact Hp2
    ipureintro; exact ho2
  ihave Hcols := (Entails.of_eq (show _ = (shLoc d (cV L) ↦[shCols (jL L).val]{fullShare} fc : sProp 𝕄) from (pts_colsK (F := F) d L fullShare fc).symm)) $$ [Hk0_0 Hk0_1 Hk0_2 Hk1_0 Hk1_1 Hk1_2 Hk2_0 Hk2_1 Hk2_2 Hk3_0 Hk3_1 Hk3_2 Hk4_0 Hk4_1 Hk4_2 Hk5_0 Hk5_1 Hk5_2 Hk6_0 Hk6_1 Hk6_2 Hk7_0 Hk7_1 Hk7_2 Hk8_0 Hk8_1 Hk8_2 Hk9_0 Hk9_1 Hk9_2 Hk10_0 Hk10_1 Hk10_2 Hk11_0 Hk11_1 Hk11_2 Hk12_0 Hk12_1 Hk12_2 Hk13_0 Hk13_1 Hk13_2 Hk14_0 Hk14_1 Hk14_2 Hk15_0 Hk15_1 Hk15_2]
  · iframe

  isplitl [Hlc Hld Hids Hout Hcols]
  · isplitl [Hlc]; · iexists _; iexact Hlc
    isplitl [Hld]; · iexists _; iexact Hld
    isplitl [Hids]; · iexact Hids
    isplitl [Hout]; · iexact Hout
    iexists _; iexact Hcols
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hs10 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _
  isplitr [HO]
  pick_goal 2; · iexact HO
  ipureintro
  repeat (refine waits_ins ?_ ?_; · first | exact .inl rfl | exact .inr rfl)
  exact fun p hp => .inl hp

end Tile

end Cert.Proof.KI

end
-- ==== Proof.TileIdsLast.lean ====
import proofs.«203579_g3066606649474_cont_9to1_387_24_alg».proof.Proof.TileVals

noncomputable section

namespace Cert.Proof.KI

open Cert.KernelIdeal Cert.KernelIdeal.Gen

open Idealize.ShloMosaic
open Idealize.ShloMosaic.SparseCore (S V T)
open Idealize.SL Idealize.SL.Sem

variable {F : FTy → Type} [FloatOps F] (d : Dev nD) (L : grid1.Coords) (m : (ℓ : Loc nD τ sig) → Buf (Elt F) ℓ)

def tailWrites (W : S2784.Idx → Elt F .i32) : List (View.Piece (Elt F) S3136 .i32) :=
  tailPieces ++ [⟨Rect.unit (s := S3136) ![0] S2784.size inb_S3136_S2784_0, W⟩]

theorem tail_ids_writes (h2 : k1_cond2 L = 1#1) (base : cc1_scratch2.ty.Contents (Elt F)) :
    (Memref.whole cc1_scratch2).view.writes (Elt F) base
        (tailWrites (ReadAs.same.apply ((idsTailAt (k1_off3 L) (k1_off3_inb L h2)).view.read (Elt F) (m (idsLoc d)))))
      = tileIds m d (Fin.cast nSC_eq (cV L)) (jL L) := by
  unfold tailWrites
  rw [View.writes_append]
  exact tail_ids d L m h2 _ (View.read_write_univ (v := (idsvHead).view) base _)

end Cert.Proof.KI

end
-- ==== Proof.TileBodyTail.lean ====
import proofs.«203579_g3066606649474_cont_9to1_387_24_alg».proof.Proof.TileGeom
import proofs.«203579_g3066606649474_cont_9to1_387_24_alg».proof.Proof.TileCols
import proofs.«203579_g3066606649474_cont_9to1_387_24_alg».proof.Proof.TileLoop
import proofs.«203579_g3066606649474_cont_9to1_387_24_alg».proof.Proof.TileVals
import proofs.«203579_g3066606649474_cont_9to1_387_24_alg».proof.Proof.TileRounds
import proofs.«203579_g3066606649474_cont_9to1_387_24_alg».proof.Proof.TileFinal
import proofs.«203579_g3066606649474_cont_9to1_387_24_alg».proof.Proof.TileLoad3
import proofs.«203579_g3066606649474_cont_9to1_387_24_alg».proof.Proof.TileIdsLast

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

private theorem waits_ins {W W' : Waits sig (HIx 1)} {x : SemLoc sig × HIx 1} (hx : x.2 = none ∨ x.2 = some (0 : Fin 1))
    (h : ∀ p ∈ W', p ∈ W ∨ p.2 = none ∨ p.2 = some (0 : Fin 1)) :
    ∀ p ∈ insert x W', p ∈ W ∨ p.2 = none ∨ p.2 = some (0 : Fin 1) := by
  intro p hp
  rcases Finset.mem_insert.mp hp with rfl | hp
  · exact .inr hx
  · exact h p hp

section Tile
variable (d : Dev nD) (L : grid1.Coords)

set_option maxHeartbeats 4000000 in
/-- One vector subcore's task at a symbolic place: its chunk added into 512 bins, the bins published, exchanged at the barrier, and sixteen tiles' blocks summed in tile order. -/
theorem tile_body_tail (h1 : ¬ k1_cond1 L = 1#1) (h2 : k1_cond2 L = 1#1) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (L 1).val
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L
            (Memref.whole main_v15_0_scv) (Memref.isWhole_whole _)
            (Memref.whole main_v15_1_scv) (Memref.isWhole_whole _)
            (Memref.whole main_arg4_scv) (Memref.isWhole_whole _)
            (Memref.whole main_v16_scv) (Memref.isWhole_whole _)
            (Memref.whole cc1_scratch0) (Memref.isWhole_whole _)
            (Memref.whole cc1_scratch1) (Memref.isWhole_whole _)
            (Memref.whole cc1_scratch2) (Memref.isWhole_whole _)
            (Memref.whole cc1_scratch3) (Memref.isWhole_whole _)
            (Memref.whole cc1_scratch4) (Memref.isWhole_whole _)
            (Memref.whole cc1_scratch5) (Memref.isWhole_whole _)
            (Memref.whole cc1_scratch6) (Memref.isWhole_whole _)
            (Memref.whole cc1_scratch7) (Memref.isWhole_whole _)
            (Memref.whole cc1_scratch8) (Memref.isWhole_whole _)
            (Memref.whole cc1_scratch9) (Memref.isWhole_whole _)
            (Memref.whole cc1_scratch10) (Memref.isWhole_whole _)
            cc1_scratch11 cc1_scratch12 cc1_scratch13 cc1_scoped0 cc1_scoped1 cc1_scoped2 cc1_scoped3 cc1_scoped4 cc1_scoped5 cc1_scoped6 cc1_scoped7)
          fun _ => iprop(tdP m d (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by

  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold bkit goP
  iintro ⟨#Hlv, ⟨⟨%κ, #Hinv⟩, Htoks, #Hrch, Hat, Hcred⟩, ⟨⟨%lcA, %ldA, %hR0, Hlc, Hld⟩, %hIds, Hids, ⟨%fp, Hp⟩, ⟨%fsh, Hsh⟩⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hs10, Hsems⟩, HO⟩

  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv

  ihave Hlc := (Entails.of_eq (show (lcLoc d ↦[chunkSet (cV L).val (L 1).val]{fullShare} lcA : sProp 𝕄) = _ from (pts_lcK (F := F) d L fullShare lcA).symm)) $$ Hlc
  ihave Hld := (Entails.of_eq (show (ldLoc d ↦[chunkSet (cV L).val (L 1).val]{fullShare} ldA : sProp 𝕄) = _ from (pts_ldK (F := F) d L fullShare ldA).symm)) $$ Hld
  ihave Hids := (Entails.of_eq (show (idsLoc d ↦[idsSet (cV L).val (L 1).val]{fullShare} m (idsLoc d) : sProp 𝕄) = _ from (pts_idsTK (F := F) d L h2 fullShare (m (idsLoc d))).symm)) $$ Hids

  ihave Hb0 := (Entails.of_eq (show ((V d (cV L) (jV L)).loc cc1_scratch0 ↦{fullShare} fb0 : sProp 𝕄) = ((Memref.whole cc1_scratch0).view.loc (V d (cV L) (jV L)) ↦{fullShare} fb0) from rfl)) $$ Hb0
  ihave Hb1 := (Entails.of_eq (show ((V d (cV L) (jV L)).loc cc1_scratch1 ↦{fullShare} fb1 : sProp 𝕄) = ((Memref.whole cc1_scratch1).view.loc (V d (cV L) (jV L)) ↦{fullShare} fb1) from rfl)) $$ Hb1
  ihave Hb2 := (Entails.of_eq (show ((V d (cV L) (jV L)).loc cc1_scratch2 ↦{fullShare} fb2 : sProp 𝕄) = ((Memref.whole cc1_scratch2).view.loc (V d (cV L) (jV L)) ↦{fullShare} fb2) from rfl)) $$ Hb2
  ihave Hb3 := (Entails.of_eq (show ((V d (cV L) (jV L)).loc cc1_scratch3 ↦{fullShare} fb3 : sProp 𝕄) = ((Memref.whole cc1_scratch3).view.loc (V d (cV L) (jV L)) ↦{fullShare} fb3) from rfl)) $$ Hb3
  ihave Hb4 := (Entails.of_eq (show ((V d (cV L) (jV L)).loc cc1_scratch4 ↦{fullShare} fb4 : sProp 𝕄) = ((Memref.whole cc1_scratch4).view.loc (V d (cV L) (jV L)) ↦{fullShare} fb4) from rfl)) $$ Hb4
  ihave Hb5 := (Entails.of_eq (show ((V d (cV L) (jV L)).loc cc1_scratch5 ↦{fullShare} fb5 : sProp 𝕄) = ((Memref.whole cc1_scratch5).view.loc (V d (cV L) (jV L)) ↦{fullShare} fb5) from rfl)) $$ Hb5
  ihave Hb6 := (Entails.of_eq (show ((V d (cV L) (jV L)).loc cc1_scratch6 ↦{fullShare} fb6 : sProp 𝕄) = ((Memref.whole cc1_scratch6).view.loc (V d (cV L) (jV L)) ↦{fullShare} fb6) from rfl)) $$ Hb6
  ihave Hb7 := (Entails.of_eq (show ((V d (cV L) (jV L)).loc cc1_scratch7 ↦{fullShare} fb7 : sProp 𝕄) = ((Memref.whole cc1_scratch7).view.loc (V d (cV L) (jV L)) ↦{fullShare} fb7) from rfl)) $$ Hb7
  ihave Hb8 := (Entails.of_eq (show ((V d (cV L) (jV L)).loc cc1_scratch8 ↦{fullShare} fb8 : sProp 𝕄) = ((Memref.whole cc1_scratch8).view.loc (V d (cV L) (jV L)) ↦{fullShare} fb8) from rfl)) $$ Hb8
  ihave Hb9 := (Entails.of_eq (show ((V d (cV L) (jV L)).loc cc1_scratch10 ↦{fullShare} fb9 : sProp 𝕄) = ((Memref.whole cc1_scratch10).view.loc (V d (cV L) (jV L)) ↦{fullShare} fb9) from rfl)) $$ Hb9

  have hBa : Transfers.BatchOf (V d (cV L) (jV L)) (SemLoc.dma cc1_scratch11.sem) 2 := Transfers.BatchOf.intro _ _ _
  have hBb0 : Transfers.BatchOf (V d (cV L) (jV L)) (SemLoc.dma cc1_scratch12.sem) 3 true := Transfers.BatchOf.intro _ _ _ _
  have hBb1 : Transfers.BatchOf (V d (cV L) (jV L)) (SemLoc.dma cc1_scratch13.sem) 3 true := Transfers.BatchOf.intro _ _ _ _
  sl_exec_parts

  have e0 : View.write (Elt F) (Memref.whole cc1_scratch0).view fb0 (tile_body_tail.sl.dma0 L lcA) Finset.univ = chunkOf lcA (Fin.cast nSC_eq (cV L)) (jL L) := fetched_lc (F := F) L fb0 lcA
  have e1 : View.write (Elt F) (Memref.whole cc1_scratch1).view fb1 (tile_body_tail.sl.dma1 L ldA) Finset.univ = chunkOf ldA (Fin.cast nSC_eq (cV L)) (jL L) := fetched_ld (F := F) L fb1 ldA
  have e2 : (Memref.whole cc1_scratch2).view.writes (Elt F) (Memref.whole cc1_scratch2).view.junk (tile_body_tail.sl.Hb2_23 m d L h2) = tileIds m d (Fin.cast nSC_eq (cV L)) (jL L) := tail_ids_writes (F := F) d L m h2 _
  have e3 : (Memref.whole cc1_scratch3).view.writes (Elt F) (Memref.whole cc1_scratch3).view.junk tile_body_tail.sl.Hb3_33 = accZero (F := F) := zerofill3 (F := F) _
  have e4 : (Memref.whole cc1_scratch4).view.writes (Elt F) (Memref.whole cc1_scratch4).view.junk tile_body_tail.sl.Hb4_33 = accZero (F := F) := zerofill4 (F := F) _
  have e5 : (Memref.whole cc1_scratch5).view.writes (Elt F) (Memref.whole cc1_scratch5).view.junk tile_body_tail.sl.Hb5_33 = accZero (F := F) := zerofill5 (F := F) _
  rw [e0, e1, e2, e3, e4, e5]
  have hids := tileIds_lt hIds (Fin.cast nSC_eq (cV L)) (jL L)

  sl_for (loopInv d L (chunkOf lcA (Fin.cast nSC_eq (cV L)) (jL L)) (chunkOf ldA (Fin.cast nSC_eq (cV L)) (jL L)) (tileIds m d (Fin.cast nSC_eq (cV L)) (jL L))) $$ [Hb2 Hb0 Hb1 Hb3 Hb4 Hb5]
  · intro k acc
    exact wp_trip d L 𝒱₀ none Set.univ _ _ _ hids k acc
  · unfold loopInv
    isplitl [Hb2]; · iexact Hb2
    isplitl [Hb0]; · iexact Hb0
    isplitl [Hb1]; · iexact Hb1
    isplitl [Hb3]; · iexact Hb3
    isplitl [Hb4]; · iexact Hb4
    iexact Hb5
  iintro %acc HI
  unfold loopInv
  icases HI with ⟨Hb2, Hb0, Hb1, Hb3, Hb4, Hb5⟩

  ihave Hsh := (Entails.of_eq (pts_shRows (F := F) d (cV L) (L 1).val fullShare fsh)) $$ Hsh
  icases Hsh with ⟨Hsh0, Hsh1, Hsh2⟩
  ihave Hsh0 := (Entails.of_eq (pts_shRowK0 (F := F) d L fullShare fsh).symm) $$ Hsh0
  ihave Hsh1 := (Entails.of_eq (pts_shRowK1 (F := F) d L fullShare fsh).symm) $$ Hsh1
  ihave Hsh2 := (Entails.of_eq (pts_shRowK2 (F := F) d L fullShare fsh).symm) $$ Hsh2
  sl_exec_parts

  have hbar : (sc_bar0 : Sem sig) ≠ (K (F := F)).go := sc_bar0_ne_go
  ihave Hmwb := (show levAts (K (F := F)).L (K (F := F)).lev ⊢ MayWait (V d (cV L) (jV L)) (SemLoc.reg sc_bar0) (some (0 : Fin 1)) O from
    (K (F := F)).mayOwe_of_bound 3
      (fun p hp => by rw [Finset.mem_singleton] at hp; subst hp; exact le_of_eq ((K (F := F)).lev_V_reg d (cV L) (jV L) hbar (0 : Fin 1)))
      (fun g ι h => lt_of_lt_of_le (show 3 < 8 * (0 : Fin 1).val + 6 by decide) (hOlev g ι h))) $$ Hlv

  ihave Hpay := (pays_intro (F := F) d L m) $$ [Hsh0 Hsh1 Hsh2]
  · ihave Hsh0 := (Entails.of_eq (pts_shRowK0 (F := F) d L fullShare _)) $$ Hsh0
    ihave Hsh1 := (Entails.of_eq (pts_shRowK1 (F := F) d L fullShare _)) $$ Hsh1
    ihave Hsh2 := (Entails.of_eq (pts_shRowK2 (F := F) d L fullShare _)) $$ Hsh2
    iapply (rows_glue (F := F) d L m)
    isplitl [Hsh0]
    · iexists _
      isplitr [Hsh0]
      pick_goal 2; · iexact Hsh0
      ipureintro; exact row_fact0 (F := F) d L m lcA ldA hR0 fsh
    isplitl [Hsh1]
    · iexists _
      isplitr [Hsh1]
      pick_goal 2; · iexact Hsh1
      ipureintro; exact row_fact1 (F := F) d L m lcA ldA hR0 fsh
    iexists _
    isplitr [Hsh2]
    pick_goal 2; · iexact Hsh2
    ipureintro; exact row_fact2 (F := F) d L m lcA ldA hR0 fsh

  ihave Hzip := (show iprop((bigSep Finset.univ fun j : Fin (grid1.bound 1) => dutyTok EB (bcell d (cV L) (j.castLE hsub1)) 0 (jV L).val)
        ∗ (bigSep Finset.univ fun j : Fin (grid1.bound 1) => (bRd (F := F) m).payload (bcell d (cV L) (j.castLE hsub1)) 0 (jV L).val)
        ∗ (bigSep Finset.univ fun j : Fin (grid1.bound 1) => reached EB (bcell d (cV L) (j.castLE hsub1)) 0))
      ⊢ (bigSep Finset.univ fun j : Fin (grid1.bound 1) => iprop(dutyTok EB (bcell d (cV L) (j.castLE hsub1)) 0 (jV L).val
          ∗ (bRd (F := F) m).payload (bcell d (cV L) (j.castLE hsub1)) 0 (jV L).val ∗ reached EB (bcell d (cV L) (j.castLE hsub1)) 0) : sProp 𝕄) from
    Entails.of_eq ((congrArg (fun X : sProp 𝕄 => iprop((bigSep Finset.univ fun j : Fin (grid1.bound 1) => dutyTok EB (bcell d (cV L) (j.castLE hsub1)) 0 (jV L).val) ∗ X))
        (BI.bigSep_sep Finset.univ (fun j : Fin (grid1.bound 1) => (bRd (F := F) m).payload (bcell d (cV L) (j.castLE hsub1)) 0 (jV L).val) (fun j : Fin (grid1.bound 1) => reached EB (bcell d (cV L) (j.castLE hsub1)) 0)).symm).trans
      (BI.bigSep_sep Finset.univ (fun j : Fin (grid1.bound 1) => dutyTok EB (bcell d (cV L) (j.castLE hsub1)) 0 (jV L).val)
        (fun j : Fin (grid1.bound 1) => iprop((bRd (F := F) m).payload (bcell d (cV L) (j.castLE hsub1)) 0 (jV L).val ∗ reached EB (bcell d (cV L) (j.castLE hsub1)) 0))).symm)) $$ [Htoks Hpay Hrch]
  · isplitl [Htoks]; · iexact Htoks
    isplitl [Hpay]; · iexact Hpay
    iexact Hrch
  unfold oxV
  iapply (SparseCore.wp_subcoreBarrier (defs := defs₀ (F := F)) 𝒱₀ none EB (bRd (F := F) m) d (sc := cV L) (i := jV L) sc_bar0 (grid1.bound 1) hsub1 (L 1) rfl κ (fun _ => 0) (jV L).val
      (fun j => bRd_mem₀ m d (cV L) (j.castLE hsub1) (jV L)) (fun _ => rfl) (bRd_expect m d (cV L) (jV L)) (some (0 : Fin 1)) O _) $$ [HO Hzip Hcred Hat]
  · isplitl []; · iexact Hinv
    isplitl [HO]; · iexact HO
    isplitl [Hzip]; · iexact Hzip
    isplitl [Hcred]; · iexact Hcred
    isplitl [Hat]; · iexact Hat
    iexact Hmwb
  iintro ⟨HO, Hat, #Hrch1, Hgot⟩

  ihave Hcols := (pays_elim (F := F) d L m) $$ Hgot
  icases Hcols with ⟨%fc, %hfc, Hcols⟩
  ihave Hcols := (Entails.of_eq (pts_colsK (F := F) d L fullShare fc)) $$ Hcols
  icases Hcols with ⟨⟨Hk0_0, Hk0_1, Hk0_2⟩, ⟨Hk1_0, Hk1_1, Hk1_2⟩, ⟨Hk2_0, Hk2_1, Hk2_2⟩, ⟨Hk3_0, Hk3_1, Hk3_2⟩, ⟨Hk4_0, Hk4_1, Hk4_2⟩, ⟨Hk5_0, Hk5_1, Hk5_2⟩, ⟨Hk6_0, Hk6_1, Hk6_2⟩, ⟨Hk7_0, Hk7_1, Hk7_2⟩, ⟨Hk8_0, Hk8_1, Hk8_2⟩, ⟨Hk9_0, Hk9_1, Hk9_2⟩, ⟨Hk10_0, Hk10_1, Hk10_2⟩, ⟨Hk11_0, Hk11_1, Hk11_2⟩, ⟨Hk12_0, Hk12_1, Hk12_2⟩, ⟨Hk13_0, Hk13_1, Hk13_2⟩, ⟨Hk14_0, Hk14_1, Hk14_2⟩, ⟨Hk15_0, Hk15_1, Hk15_2⟩⟩

  sl_exec_parts

  ihave Hp := (Entails.of_eq (pts_outSets (F := F) d (cV L).val (L 1).val fullShare fp)) $$ Hp
  icases Hp with ⟨Hp0, Hp1, Hp2⟩
  ihave Hp0 := (Entails.of_eq (show (pLoc d ↦[outSetA (cV L).val (L 1).val 0]{fullShare} fp : sProp 𝕄) = _ from (pts_outK0 (F := F) d L fullShare fp).symm)) $$ Hp0
  ihave Hp1 := (Entails.of_eq (show (pLoc d ↦[outSetA (cV L).val (L 1).val 1]{fullShare} fp : sProp 𝕄) = _ from (pts_outK1 (F := F) d L fullShare fp).symm)) $$ Hp1
  ihave Hp2 := (Entails.of_eq (show (pLoc d ↦[outSetA (cV L).val (L 1).val 2]{fullShare} fp : sProp 𝕄) = _ from (pts_outK2 (F := F) d L fullShare fp).symm)) $$ Hp2
  sl_exec_parts
  sl_step

  have ho0 : OutOk m d (Fin.cast nSC_eq (cV L)) (jL L) 0 (outSlice ((outAt (k1_off55 L 0#32) (k1_off55_inb L 0)).view.writes (Elt F) fp [⟨Rect.whole S32, tile_body_tail.sl.dma0_6 d L fb6 fb9 fc⟩]) (Fin.cast nSC_eq (cV L)) (jL L) 0) := by
    refine plane_final0 (F := F) d L m fc hfc fp fb6 _ _
      ![tile_body_tail.sl.v204_ld d L fb9 fc, tile_body_tail.sl.v285_ld d L fb9 fc, tile_body_tail.sl.v366_ld d L fb9 fc, tile_body_tail.sl.v447_ld d L fb9 fc, tile_body_tail.sl.v528_ld d L fb9 fc, tile_body_tail.sl.v609_ld d L fb9 fc, tile_body_tail.sl.v690_ld d L fb9 fc, tile_body_tail.sl.v771_ld d L fb9 fc, tile_body_tail.sl.v852_ld d L fb9 fc, tile_body_tail.sl.v933_ld d L fb9 fc, tile_body_tail.sl.v1014_ld d L fb9 fc, tile_body_tail.sl.v1095_ld d L fb9 fc, tile_body_tail.sl.v1176_ld d L fb9 fc, tile_body_tail.sl.v1257_ld d L fb9 fc, tile_body_tail.sl.v1338_ld d L fb9 fc, tile_body_tail.sl.v1392_ld d L fb9 fc]
      ![tile_body_tail.sl.v209_ld d L fb9 fc, tile_body_tail.sl.v290_ld d L fb9 fc, tile_body_tail.sl.v371_ld d L fb9 fc, tile_body_tail.sl.v452_ld d L fb9 fc, tile_body_tail.sl.v533_ld d L fb9 fc, tile_body_tail.sl.v614_ld d L fb9 fc, tile_body_tail.sl.v695_ld d L fb9 fc, tile_body_tail.sl.v776_ld d L fb9 fc, tile_body_tail.sl.v857_ld d L fb9 fc, tile_body_tail.sl.v938_ld d L fb9 fc, tile_body_tail.sl.v1019_ld d L fb9 fc, tile_body_tail.sl.v1100_ld d L fb9 fc, tile_body_tail.sl.v1181_ld d L fb9 fc, tile_body_tail.sl.v1262_ld d L fb9 fc, tile_body_tail.sl.v1343_ld d L fb9 fc, tile_body_tail.sl.v1397_ld d L fb9 fc] ?_ ?_ ?_ ?_
    · rfl
    · rfl
    · intro v; fin_cases v
      · exact load6_0 0 1 0 (read_shBlkAt (F := F) (k1_off7 L) (k1_off7_inb L) 0 0 (jL L) (k1_off7_eq L) fc)
      · exact load6_0 1 0 0 (read_shBlkAt (F := F) (k1_off10 L) (k1_off10_inb L) 0 1 (jL L) (k1_off10_eq L) fc)
      · exact load6_0 0 1 0 (read_shBlkAt (F := F) (k1_off13 L) (k1_off13_inb L) 0 2 (jL L) (k1_off13_eq L) fc)
      · exact load6_0 1 0 0 (read_shBlkAt (F := F) (k1_off16 L) (k1_off16_inb L) 0 3 (jL L) (k1_off16_eq L) fc)
      · exact load6_0 0 1 0 (read_shBlkAt (F := F) (k1_off19 L) (k1_off19_inb L) 0 4 (jL L) (k1_off19_eq L) fc)
      · exact load6_0 1 0 0 (read_shBlkAt (F := F) (k1_off22 L) (k1_off22_inb L) 0 5 (jL L) (k1_off22_eq L) fc)
      · exact load6_0 0 1 0 (read_shBlkAt (F := F) (k1_off25 L) (k1_off25_inb L) 0 6 (jL L) (k1_off25_eq L) fc)
      · exact load6_0 1 0 0 (read_shBlkAt (F := F) (k1_off28 L) (k1_off28_inb L) 0 7 (jL L) (k1_off28_eq L) fc)
      · exact load6_0 0 1 0 (read_shBlkAt (F := F) (k1_off31 L) (k1_off31_inb L) 0 8 (jL L) (k1_off31_eq L) fc)
      · exact load6_0 1 0 0 (read_shBlkAt (F := F) (k1_off34 L) (k1_off34_inb L) 0 9 (jL L) (k1_off34_eq L) fc)
      · exact load6_0 0 1 0 (read_shBlkAt (F := F) (k1_off37 L) (k1_off37_inb L) 0 10 (jL L) (k1_off37_eq L) fc)
      · exact load6_0 1 0 0 (read_shBlkAt (F := F) (k1_off40 L) (k1_off40_inb L) 0 11 (jL L) (k1_off40_eq L) fc)
      · exact load6_0 0 1 0 (read_shBlkAt (F := F) (k1_off43 L) (k1_off43_inb L) 0 12 (jL L) (k1_off43_eq L) fc)
      · exact load6_0 1 0 0 (read_shBlkAt (F := F) (k1_off46 L) (k1_off46_inb L) 0 13 (jL L) (k1_off46_eq L) fc)
      · exact load6_0 0 1 0 (read_shBlkAt (F := F) (k1_off49 L) (k1_off49_inb L) 0 14 (jL L) (k1_off49_eq L) fc)
      · exact load3_0 1 0 (read_shBlkAt (F := F) (k1_off52 L) (k1_off52_inb L) 0 15 (jL L) (k1_off52_eq L) fc)
    · intro v; fin_cases v
      · exact load6_0 0 1 16 (read_shBlkAt (F := F) (k1_off7 L) (k1_off7_inb L) 0 0 (jL L) (k1_off7_eq L) fc)
      · exact load6_0 1 0 16 (read_shBlkAt (F := F) (k1_off10 L) (k1_off10_inb L) 0 1 (jL L) (k1_off10_eq L) fc)
      · exact load6_0 0 1 16 (read_shBlkAt (F := F) (k1_off13 L) (k1_off13_inb L) 0 2 (jL L) (k1_off13_eq L) fc)
      · exact load6_0 1 0 16 (read_shBlkAt (F := F) (k1_off16 L) (k1_off16_inb L) 0 3 (jL L) (k1_off16_eq L) fc)
      · exact load6_0 0 1 16 (read_shBlkAt (F := F) (k1_off19 L) (k1_off19_inb L) 0 4 (jL L) (k1_off19_eq L) fc)
      · exact load6_0 1 0 16 (read_shBlkAt (F := F) (k1_off22 L) (k1_off22_inb L) 0 5 (jL L) (k1_off22_eq L) fc)
      · exact load6_0 0 1 16 (read_shBlkAt (F := F) (k1_off25 L) (k1_off25_inb L) 0 6 (jL L) (k1_off25_eq L) fc)
      · exact load6_0 1 0 16 (read_shBlkAt (F := F) (k1_off28 L) (k1_off28_inb L) 0 7 (jL L) (k1_off28_eq L) fc)
      · exact load6_0 0 1 16 (read_shBlkAt (F := F) (k1_off31 L) (k1_off31_inb L) 0 8 (jL L) (k1_off31_eq L) fc)
      · exact load6_0 1 0 16 (read_shBlkAt (F := F) (k1_off34 L) (k1_off34_inb L) 0 9 (jL L) (k1_off34_eq L) fc)
      · exact load6_0 0 1 16 (read_shBlkAt (F := F) (k1_off37 L) (k1_off37_inb L) 0 10 (jL L) (k1_off37_eq L) fc)
      · exact load6_0 1 0 16 (read_shBlkAt (F := F) (k1_off40 L) (k1_off40_inb L) 0 11 (jL L) (k1_off40_eq L) fc)
      · exact load6_0 0 1 16 (read_shBlkAt (F := F) (k1_off43 L) (k1_off43_inb L) 0 12 (jL L) (k1_off43_eq L) fc)
      · exact load6_0 1 0 16 (read_shBlkAt (F := F) (k1_off46 L) (k1_off46_inb L) 0 13 (jL L) (k1_off46_eq L) fc)
      · exact load6_0 0 1 16 (read_shBlkAt (F := F) (k1_off49 L) (k1_off49_inb L) 0 14 (jL L) (k1_off49_eq L) fc)
      · exact load3_0 1 16 (read_shBlkAt (F := F) (k1_off52 L) (k1_off52_inb L) 0 15 (jL L) (k1_off52_eq L) fc)
  have ho1 : OutOk m d (Fin.cast nSC_eq (cV L)) (jL L) 1 (outSlice ((outAt (k1_off55 L 512#32) (k1_off55_inb L 1)).view.writes (Elt F) fp [⟨Rect.whole S32, tile_body_tail.sl.dma0_7 d L fb7 fb9 fc⟩]) (Fin.cast nSC_eq (cV L)) (jL L) 1) := by
    refine plane_final1 (F := F) d L m fc hfc fp fb7 _ _
      ![tile_body_tail.sl.v214_ld d L fb9 fc, tile_body_tail.sl.v295_ld d L fb9 fc, tile_body_tail.sl.v376_ld d L fb9 fc, tile_body_tail.sl.v457_ld d L fb9 fc, tile_body_tail.sl.v538_ld d L fb9 fc, tile_body_tail.sl.v619_ld d L fb9 fc, tile_body_tail.sl.v700_ld d L fb9 fc, tile_body_tail.sl.v781_ld d L fb9 fc, tile_body_tail.sl.v862_ld d L fb9 fc, tile_body_tail.sl.v943_ld d L fb9 fc, tile_body_tail.sl.v1024_ld d L fb9 fc, tile_body_tail.sl.v1105_ld d L fb9 fc, tile_body_tail.sl.v1186_ld d L fb9 fc, tile_body_tail.sl.v1267_ld d L fb9 fc, tile_body_tail.sl.v1348_ld d L fb9 fc, tile_body_tail.sl.v1402_ld d L fb9 fc]
      ![tile_body_tail.sl.v219_ld d L fb9 fc, tile_body_tail.sl.v300_ld d L fb9 fc, tile_body_tail.sl.v381_ld d L fb9 fc, tile_body_tail.sl.v462_ld d L fb9 fc, tile_body_tail.sl.v543_ld d L fb9 fc, tile_body_tail.sl.v624_ld d L fb9 fc, tile_body_tail.sl.v705_ld d L fb9 fc, tile_body_tail.sl.v786_ld d L fb9 fc, tile_body_tail.sl.v867_ld d L fb9 fc, tile_body_tail.sl.v948_ld d L fb9 fc, tile_body_tail.sl.v1029_ld d L fb9 fc, tile_body_tail.sl.v1110_ld d L fb9 fc, tile_body_tail.sl.v1191_ld d L fb9 fc, tile_body_tail.sl.v1272_ld d L fb9 fc, tile_body_tail.sl.v1353_ld d L fb9 fc, tile_body_tail.sl.v1407_ld d L fb9 fc] ?_ ?_ ?_ ?_
    · rfl
    · rfl
    · intro v; fin_cases v
      · exact load6_1 0 1 0 (read_shBlkAt (F := F) (k1_off8 L) (k1_off8_inb L) 1 0 (jL L) (k1_off8_eq L) fc)
      · exact load6_1 1 0 0 (read_shBlkAt (F := F) (k1_off11 L) (k1_off11_inb L) 1 1 (jL L) (k1_off11_eq L) fc)
      · exact load6_1 0 1 0 (read_shBlkAt (F := F) (k1_off14 L) (k1_off14_inb L) 1 2 (jL L) (k1_off14_eq L) fc)
      · exact load6_1 1 0 0 (read_shBlkAt (F := F) (k1_off17 L) (k1_off17_inb L) 1 3 (jL L) (k1_off17_eq L) fc)
      · exact load6_1 0 1 0 (read_shBlkAt (F := F) (k1_off20 L) (k1_off20_inb L) 1 4 (jL L) (k1_off20_eq L) fc)
      · exact load6_1 1 0 0 (read_shBlkAt (F := F) (k1_off23 L) (k1_off23_inb L) 1 5 (jL L) (k1_off23_eq L) fc)
      · exact load6_1 0 1 0 (read_shBlkAt (F := F) (k1_off26 L) (k1_off26_inb L) 1 6 (jL L) (k1_off26_eq L) fc)
      · exact load6_1 1 0 0 (read_shBlkAt (F := F) (k1_off29 L) (k1_off29_inb L) 1 7 (jL L) (k1_off29_eq L) fc)
      · exact load6_1 0 1 0 (read_shBlkAt (F := F) (k1_off32 L) (k1_off32_inb L) 1 8 (jL L) (k1_off32_eq L) fc)
      · exact load6_1 1 0 0 (read_shBlkAt (F := F) (k1_off35 L) (k1_off35_inb L) 1 9 (jL L) (k1_off35_eq L) fc)
      · exact load6_1 0 1 0 (read_shBlkAt (F := F) (k1_off38 L) (k1_off38_inb L) 1 10 (jL L) (k1_off38_eq L) fc)
      · exact load6_1 1 0 0 (read_shBlkAt (F := F) (k1_off41 L) (k1_off41_inb L) 1 11 (jL L) (k1_off41_eq L) fc)
      · exact load6_1 0 1 0 (read_shBlkAt (F := F) (k1_off44 L) (k1_off44_inb L) 1 12 (jL L) (k1_off44_eq L) fc)
      · exact load6_1 1 0 0 (read_shBlkAt (F := F) (k1_off47 L) (k1_off47_inb L) 1 13 (jL L) (k1_off47_eq L) fc)
      · exact load6_1 0 1 0 (read_shBlkAt (F := F) (k1_off50 L) (k1_off50_inb L) 1 14 (jL L) (k1_off50_eq L) fc)
      · exact load3_1 1 0 (read_shBlkAt (F := F) (k1_off53 L) (k1_off53_inb L) 1 15 (jL L) (k1_off53_eq L) fc)
    · intro v; fin_cases v
      · exact load6_1 0 1 16 (read_shBlkAt (F := F) (k1_off8 L) (k1_off8_inb L) 1 0 (jL L) (k1_off8_eq L) fc)
      · exact load6_1 1 0 16 (read_shBlkAt (F := F) (k1_off11 L) (k1_off11_inb L) 1 1 (jL L) (k1_off11_eq L) fc)
      · exact load6_1 0 1 16 (read_shBlkAt (F := F) (k1_off14 L) (k1_off14_inb L) 1 2 (jL L) (k1_off14_eq L) fc)
      · exact load6_1 1 0 16 (read_shBlkAt (F := F) (k1_off17 L) (k1_off17_inb L) 1 3 (jL L) (k1_off17_eq L) fc)
      · exact load6_1 0 1 16 (read_shBlkAt (F := F) (k1_off20 L) (k1_off20_inb L) 1 4 (jL L) (k1_off20_eq L) fc)
      · exact load6_1 1 0 16 (read_shBlkAt (F := F) (k1_off23 L) (k1_off23_inb L) 1 5 (jL L) (k1_off23_eq L) fc)
      · exact load6_1 0 1 16 (read_shBlkAt (F := F) (k1_off26 L) (k1_off26_inb L) 1 6 (jL L) (k1_off26_eq L) fc)
      · exact load6_1 1 0 16 (read_shBlkAt (F := F) (k1_off29 L) (k1_off29_inb L) 1 7 (jL L) (k1_off29_eq L) fc)
      · exact load6_1 0 1 16 (read_shBlkAt (F := F) (k1_off32 L) (k1_off32_inb L) 1 8 (jL L) (k1_off32_eq L) fc)
      · exact load6_1 1 0 16 (read_shBlkAt (F := F) (k1_off35 L) (k1_off35_inb L) 1 9 (jL L) (k1_off35_eq L) fc)
      · exact load6_1 0 1 16 (read_shBlkAt (F := F) (k1_off38 L) (k1_off38_inb L) 1 10 (jL L) (k1_off38_eq L) fc)
      · exact load6_1 1 0 16 (read_shBlkAt (F := F) (k1_off41 L) (k1_off41_inb L) 1 11 (jL L) (k1_off41_eq L) fc)
      · exact load6_1 0 1 16 (read_shBlkAt (F := F) (k1_off44 L) (k1_off44_inb L) 1 12 (jL L) (k1_off44_eq L) fc)
      · exact load6_1 1 0 16 (read_shBlkAt (F := F) (k1_off47 L) (k1_off47_inb L) 1 13 (jL L) (k1_off47_eq L) fc)
      · exact load6_1 0 1 16 (read_shBlkAt (F := F) (k1_off50 L) (k1_off50_inb L) 1 14 (jL L) (k1_off50_eq L) fc)
      · exact load3_1 1 16 (read_shBlkAt (F := F) (k1_off53 L) (k1_off53_inb L) 1 15 (jL L) (k1_off53_eq L) fc)
  have ho2 : OutOk m d (Fin.cast nSC_eq (cV L)) (jL L) 2 (outSlice ((outAt (k1_off55 L 1024#32) (k1_off55_inb L 2)).view.writes (Elt F) fp [⟨Rect.whole S32, tile_body_tail.sl.dma0_8 d L fb8 fb9 fc⟩]) (Fin.cast nSC_eq (cV L)) (jL L) 2) := by
    refine plane_final2 (F := F) d L m fc hfc fp fb8 _ _
      ![tile_body_tail.sl.v224_ld d L fb9 fc, tile_body_tail.sl.v305_ld d L fb9 fc, tile_body_tail.sl.v386_ld d L fb9 fc, tile_body_tail.sl.v467_ld d L fb9 fc, tile_body_tail.sl.v548_ld d L fb9 fc, tile_body_tail.sl.v629_ld d L fb9 fc, tile_body_tail.sl.v710_ld d L fb9 fc, tile_body_tail.sl.v791_ld d L fb9 fc, tile_body_tail.sl.v872_ld d L fb9 fc, tile_body_tail.sl.v953_ld d L fb9 fc, tile_body_tail.sl.v1034_ld d L fb9 fc, tile_body_tail.sl.v1115_ld d L fb9 fc, tile_body_tail.sl.v1196_ld d L fb9 fc, tile_body_tail.sl.v1277_ld d L fb9 fc, tile_body_tail.sl.v1358_ld d L fb9 fc, tile_body_tail.sl.v1412_ld d L fb9 fc]
      ![tile_body_tail.sl.v229_ld d L fb9 fc, tile_body_tail.sl.v310_ld d L fb9 fc, tile_body_tail.sl.v391_ld d L fb9 fc, tile_body_tail.sl.v472_ld d L fb9 fc, tile_body_tail.sl.v553_ld d L fb9 fc, tile_body_tail.sl.v634_ld d L fb9 fc, tile_body_tail.sl.v715_ld d L fb9 fc, tile_body_tail.sl.v796_ld d L fb9 fc, tile_body_tail.sl.v877_ld d L fb9 fc, tile_body_tail.sl.v958_ld d L fb9 fc, tile_body_tail.sl.v1039_ld d L fb9 fc, tile_body_tail.sl.v1120_ld d L fb9 fc, tile_body_tail.sl.v1201_ld d L fb9 fc, tile_body_tail.sl.v1282_ld d L fb9 fc, tile_body_tail.sl.v1363_ld d L fb9 fc, tile_body_tail.sl.v1417_ld d L fb9 fc] ?_ ?_ ?_ ?_
    · rfl
    · rfl
    · intro v; fin_cases v
      · exact load6_2 0 1 0 (read_shBlkAt (F := F) (k1_off9 L) (k1_off9_inb L) 2 0 (jL L) (k1_off9_eq L) fc)
      · exact load6_2 1 0 0 (read_shBlkAt (F := F) (k1_off12 L) (k1_off12_inb L) 2 1 (jL L) (k1_off12_eq L) fc)
      · exact load6_2 0 1 0 (read_shBlkAt (F := F) (k1_off15 L) (k1_off15_inb L) 2 2 (jL L) (k1_off15_eq L) fc)
      · exact load6_2 1 0 0 (read_shBlkAt (F := F) (k1_off18 L) (k1_off18_inb L) 2 3 (jL L) (k1_off18_eq L) fc)
      · exact load6_2 0 1 0 (read_shBlkAt (F := F) (k1_off21 L) (k1_off21_inb L) 2 4 (jL L) (k1_off21_eq L) fc)
      · exact load6_2 1 0 0 (read_shBlkAt (F := F) (k1_off24 L) (k1_off24_inb L) 2 5 (jL L) (k1_off24_eq L) fc)
      · exact load6_2 0 1 0 (read_shBlkAt (F := F) (k1_off27 L) (k1_off27_inb L) 2 6 (jL L) (k1_off27_eq L) fc)
      · exact load6_2 1 0 0 (read_shBlkAt (F := F) (k1_off30 L) (k1_off30_inb L) 2 7 (jL L) (k1_off30_eq L) fc)
      · exact load6_2 0 1 0 (read_shBlkAt (F := F) (k1_off33 L) (k1_off33_inb L) 2 8 (jL L) (k1_off33_eq L) fc)
      · exact load6_2 1 0 0 (read_shBlkAt (F := F) (k1_off36 L) (k1_off36_inb L) 2 9 (jL L) (k1_off36_eq L) fc)
      · exact load6_2 0 1 0 (read_shBlkAt (F := F) (k1_off39 L) (k1_off39_inb L) 2 10 (jL L) (k1_off39_eq L) fc)
      · exact load6_2 1 0 0 (read_shBlkAt (F := F) (k1_off42 L) (k1_off42_inb L) 2 11 (jL L) (k1_off42_eq L) fc)
      · exact load6_2 0 1 0 (read_shBlkAt (F := F) (k1_off45 L) (k1_off45_inb L) 2 12 (jL L) (k1_off45_eq L) fc)
      · exact load6_2 1 0 0 (read_shBlkAt (F := F) (k1_off48 L) (k1_off48_inb L) 2 13 (jL L) (k1_off48_eq L) fc)
      · exact load6_2 0 1 0 (read_shBlkAt (F := F) (k1_off51 L) (k1_off51_inb L) 2 14 (jL L) (k1_off51_eq L) fc)
      · exact load3_2 1 0 (read_shBlkAt (F := F) (k1_off54 L) (k1_off54_inb L) 2 15 (jL L) (k1_off54_eq L) fc)
    · intro v; fin_cases v
      · exact load6_2 0 1 16 (read_shBlkAt (F := F) (k1_off9 L) (k1_off9_inb L) 2 0 (jL L) (k1_off9_eq L) fc)
      · exact load6_2 1 0 16 (read_shBlkAt (F := F) (k1_off12 L) (k1_off12_inb L) 2 1 (jL L) (k1_off12_eq L) fc)
      · exact load6_2 0 1 16 (read_shBlkAt (F := F) (k1_off15 L) (k1_off15_inb L) 2 2 (jL L) (k1_off15_eq L) fc)
      · exact load6_2 1 0 16 (read_shBlkAt (F := F) (k1_off18 L) (k1_off18_inb L) 2 3 (jL L) (k1_off18_eq L) fc)
      · exact load6_2 0 1 16 (read_shBlkAt (F := F) (k1_off21 L) (k1_off21_inb L) 2 4 (jL L) (k1_off21_eq L) fc)
      · exact load6_2 1 0 16 (read_shBlkAt (F := F) (k1_off24 L) (k1_off24_inb L) 2 5 (jL L) (k1_off24_eq L) fc)
      · exact load6_2 0 1 16 (read_shBlkAt (F := F) (k1_off27 L) (k1_off27_inb L) 2 6 (jL L) (k1_off27_eq L) fc)
      · exact load6_2 1 0 16 (read_shBlkAt (F := F) (k1_off30 L) (k1_off30_inb L) 2 7 (jL L) (k1_off30_eq L) fc)
      · exact load6_2 0 1 16 (read_shBlkAt (F := F) (k1_off33 L) (k1_off33_inb L) 2 8 (jL L) (k1_off33_eq L) fc)
      · exact load6_2 1 0 16 (read_shBlkAt (F := F) (k1_off36 L) (k1_off36_inb L) 2 9 (jL L) (k1_off36_eq L) fc)
      · exact load6_2 0 1 16 (read_shBlkAt (F := F) (k1_off39 L) (k1_off39_inb L) 2 10 (jL L) (k1_off39_eq L) fc)
      · exact load6_2 1 0 16 (read_shBlkAt (F := F) (k1_off42 L) (k1_off42_inb L) 2 11 (jL L) (k1_off42_eq L) fc)
      · exact load6_2 0 1 16 (read_shBlkAt (F := F) (k1_off45 L) (k1_off45_inb L) 2 12 (jL L) (k1_off45_eq L) fc)
      · exact load6_2 1 0 16 (read_shBlkAt (F := F) (k1_off48 L) (k1_off48_inb L) 2 13 (jL L) (k1_off48_eq L) fc)
      · exact load6_2 0 1 16 (read_shBlkAt (F := F) (k1_off51 L) (k1_off51_inb L) 2 14 (jL L) (k1_off51_eq L) fc)
      · exact load3_2 1 16 (read_shBlkAt (F := F) (k1_off54 L) (k1_off54_inb L) 2 15 (jL L) (k1_off54_eq L) fc)
  unfold tdP

  ihave Hlc := (Entails.of_eq (show _ = (lcLoc d ↦[chunkSet (cV L).val (jL L).val]{fullShare} lcA : sProp 𝕄) from pts_lcK (F := F) d L fullShare lcA)) $$ Hlc
  ihave Hld := (Entails.of_eq (show _ = (ldLoc d ↦[chunkSet (cV L).val (jL L).val]{fullShare} ldA : sProp 𝕄) from pts_ldK (F := F) d L fullShare ldA)) $$ Hld
  ihave Hids := (Entails.of_eq (show _ = (idsLoc d ↦[idsSet (cV L).val (jL L).val]{fullShare} m (idsLoc d) : sProp 𝕄) from pts_idsTK (F := F) d L h2 fullShare (m (idsLoc d)))) $$ Hids

  ihave Hp0 := (Entails.of_eq (pts_outK0 (F := F) d L fullShare _)) $$ Hp0
  ihave Hp1 := (Entails.of_eq (pts_outK1 (F := F) d L fullShare _)) $$ Hp1
  ihave Hp2 := (Entails.of_eq (pts_outK2 (F := F) d L fullShare _)) $$ Hp2
  ihave Hout := (out_glue (F := F) d L m) $$ [Hp0 Hp1 Hp2]
  · isplitl [Hp0]
    · iexists _; isplitr [Hp0]
      pick_goal 2; · iexact Hp0
      ipureintro; exact ho0
    isplitl [Hp1]
    · iexists _; isplitr [Hp1]
      pick_goal 2; · iexact Hp1
      ipureintro; exact ho1
    iexists _; isplitr [Hp2]
    pick_goal 2; · iexact Hp2
    ipureintro; exact ho2
  ihave Hcols := (Entails.of_eq (show _ = (shLoc d (cV L) ↦[shCols (jL L).val]{fullShare} fc : sProp 𝕄) from (pts_colsK (F := F) d L fullShare fc).symm)) $$ [Hk0_0 Hk0_1 Hk0_2 Hk1_0 Hk1_1 Hk1_2 Hk2_0 Hk2_1 Hk2_2 Hk3_0 Hk3_1 Hk3_2 Hk4_0 Hk4_1 Hk4_2 Hk5_0 Hk5_1 Hk5_2 Hk6_0 Hk6_1 Hk6_2 Hk7_0 Hk7_1 Hk7_2 Hk8_0 Hk8_1 Hk8_2 Hk9_0 Hk9_1 Hk9_2 Hk10_0 Hk10_1 Hk10_2 Hk11_0 Hk11_1 Hk11_2 Hk12_0 Hk12_1 Hk12_2 Hk13_0 Hk13_1 Hk13_2 Hk14_0 Hk14_1 Hk14_2 Hk15_0 Hk15_1 Hk15_2]
  · iframe

  isplitl [Hlc Hld Hids Hout Hcols]
  · isplitl [Hlc]; · iexists _; iexact Hlc
    isplitl [Hld]; · iexists _; iexact Hld
    isplitl [Hids]; · iexact Hids
    isplitl [Hout]; · iexact Hout
    iexists _; iexact Hcols
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hs10 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _
  isplitr [HO]
  pick_goal 2; · iexact HO
  ipureintro
  repeat (refine waits_ins ?_ ?_; · first | exact .inl rfl | exact .inr rfl)
  exact fun p hp => .inl hp

end Tile

end Cert.Proof.KI

end
-- ==== Proof.TileBody.lean ====
import proofs.«203579_g3066606649474_cont_9to1_387_24_alg».proof.Proof.TileBodyFull
import proofs.«203579_g3066606649474_cont_9to1_387_24_alg».proof.Proof.TileBodyTail

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

section Tile

variable (d : Dev nD) (L : grid1.Coords)

theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (L 1).val
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L
            (Memref.whole main_v15_0_scv) (Memref.isWhole_whole _)
            (Memref.whole main_v15_1_scv) (Memref.isWhole_whole _)
            (Memref.whole main_arg4_scv) (Memref.isWhole_whole _)
            (Memref.whole main_v16_scv) (Memref.isWhole_whole _)
            (Memref.whole cc1_scratch0) (Memref.isWhole_whole _)
            (Memref.whole cc1_scratch1) (Memref.isWhole_whole _)
            (Memref.whole cc1_scratch2) (Memref.isWhole_whole _)
            (Memref.whole cc1_scratch3) (Memref.isWhole_whole _)
            (Memref.whole cc1_scratch4) (Memref.isWhole_whole _)
            (Memref.whole cc1_scratch5) (Memref.isWhole_whole _)
            (Memref.whole cc1_scratch6) (Memref.isWhole_whole _)
            (Memref.whole cc1_scratch7) (Memref.isWhole_whole _)
            (Memref.whole cc1_scratch8) (Memref.isWhole_whole _)
            (Memref.whole cc1_scratch9) (Memref.isWhole_whole _)
            (Memref.whole cc1_scratch10) (Memref.isWhole_whole _)
            cc1_scratch11 cc1_scratch12 cc1_scratch13 cc1_scoped0 cc1_scoped1 cc1_scoped2 cc1_scoped3 cc1_scoped4 cc1_scoped5 cc1_scoped6 cc1_scoped7)
          fun _ => iprop(tdP m d (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h : 16 * (L 0).val + (L 1).val < 31
  · exact tile_body_full m d L ((k1_cond1_iff L).mpr h) (fun e => absurd ((k1_cond2_iff L).mp e) (by omega)) hF O W hO hOlev
  · have h31 : 16 * (L 0).val + (L 1).val = 31 := by have := L0_lt L; have := L1_lt L; omega
    exact tile_body_tail m d L (fun e => absurd ((k1_cond1_iff L).mp e) (by omega)) ((k1_cond2_iff L).mpr h31) hF O W hO hOlev

end Tile

end Cert.Proof.KI

end
-- ==== Proof.TileObl.lean ====
import proofs.«203579_g3066606649474_cont_9to1_387_24_alg».proof.Proof.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          (Memref.whole main_v15_0_scv) (Memref.isWhole_whole _) (Memref.whole main_v15_1_scv) (Memref.isWhole_whole _) (Memref.whole main_arg4_scv) (Memref.isWhole_whole _) (Memref.whole main_v16_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _)
          cc1_scratch11 cc1_scratch12 cc1_scratch13 cc1_scoped0 cc1_scoped1 cc1_scoped2 cc1_scoped3 cc1_scoped4 cc1_scoped5 cc1_scoped6 cc1_scoped7) ⟨⟩ c s := rfl

set_option maxRecDepth 16384 in
theorem tileObl (hF : (K (F := F)).Facts) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change iprop(levAts (K (F := F)).L (K (F := F)).lev ∗ bkit m d ((K (F := F)).core 0 c) ((K (F := F)).sub 0 i) ∗ goP m d ((K (F := F)).core 0 c) i.val
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) (O + oxV d ((K (F := F)).core 0 c)) W)
      ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO hOlev

end Cert.Proof.KI

end
-- ==== Proof.Main.lean ====
import proofs.«203579_g3066606649474_cont_9to1_387_24_alg».proof.Proof.RegionsIface
import Idealize.ShloMosaic.Lib.Pipeline.Frame

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def tailProg (d : Dev nD) : Prog (TpuEff nD τ sig (Elt F) (SparseCore.Sig (ΛP (F := F)) 1) .tc) PUnit := do
  Prog.lift (.customCall (SparseCore.inner (Pipeline.entry 0)) ())
  (K (F := F)).run d 0
  Prog.lift (.customCall (SparseCore.inner (Pipeline.entry 1)) ())
  pure ⟨⟩

theorem main_eq (d : Dev nD) : main (F := F) d = (StableHlo.seq hostOps >>= fun _ => tailProg d) := rfl

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

theorem tcSt_lend {cfg : Pipeline.Cfg sig Λ₀} {d : Dev nD} (rd : Pipeline.RDat τ (Elt F) (HIx 1) ℕ UU ℕ cfg d) (n : ℕ)
    (ho : ∀ t, rd.owed t = (K (F := F)).Otc d n) (hr : ∀ t, rd.recorded t = recAt (F := F) d n) (t t' : Fin (cfg.N + 1)) :
    ((K (F := F)).tcSt EH d n : sProp 𝕄) ⊢ iprop(rd.owesAt none t ∗ (rd.owesAt none t' -∗ (K (F := F)).tcSt EH d n)) := by
  unfold SparseCore.Cfg.tcSt Pipeline.RDat.owesAt Pipeline.owesWithin Pipeline.RDat.bound; rw [ho, ho, hr, hr]
  iintro ⟨⟨%W, %hW, HO⟩, Hr⟩
  isplitl [HO]
  · iexists W; iframe; ipureintro; exact fun p hp => Or.inl (hW p (Finset.mem_coe.mp hp))
  iintro ⟨%W', %hW', HO⟩
  iframe Hr; iexists W'; iframe; ipureintro
  intro p hp
  rcases hW' (Finset.mem_coe.mpr hp) with h | ⟨w, s, rfl⟩
  · exact h
  · show (K (F := F)).lev _ none ≤ _
    rw [SparseCore.Cfg.lev_none]; exact Nat.zero_le _

theorem prefHeld_none (p : Fin 2) (d : Dev nD) (q) (pf) :
    (Pipeline.prefHeld (Ix := HIx 1) (Name := ℕ) (U := UU) (Lvl := ℕ) (Val := Elt F) (pcfgs (F := F) p).pre d q pf : sProp 𝕄) = BI.emp := by
  unfold Pipeline.prefHeld; rw [Finset.univ_eq_empty, BI.bigSep_empty]

theorem pts_whole {ℓ : Loc nD τ sig} {S : Finset (Idx ℓ)} {q : PosShare TreeShare} {f g : Buf (Elt F) ℓ} (hq : q = fullShare) (hS : S = Finset.univ) (hf : f = g) :
    (ℓ ↦[S]{q} f : sProp 𝕄) = (ℓ ↦{fullShare} g) := by rw [hq, hS, hf]

variable (m : (ℓ : Loc nD τ sig) → Buf (Elt F) ℓ) (ρ : Dev nD → PrngReg)
variable (epi : Vec F S3072 .f32 → Vec F S2x512 .f32)
variable (r0 : ∀ d, Reg0 m d) (r2 : ∀ pA d, Reg2 epi m pA d)

def argsAt (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_arg3 ↦{fullShare} m ((T d : Thread nD τ).loc main_arg3))
    ∗ ((T d : Thread nD τ).loc main_arg4 ↦{fullShare} m ((T d : Thread nD τ).loc main_arg4))
    ∗ ((T d : Thread nD τ).loc main_arg5 ↦{fullShare} m ((T d : Thread nD τ).loc main_arg5))
    ∗ ((T d : Thread nD τ).loc main_arg6 ↦{fullShare} m ((T d : Thread nD τ).loc main_arg6))
    ∗ ((T d : Thread nD τ).loc main_arg7 ↦{fullShare} m ((T d : Thread nD τ).loc main_arg7))
    ∗ ((T d : Thread nD τ).loc main_arg8 ↦{fullShare} m ((T d : Thread nD τ).loc main_arg8)))

def FIN (d : Dev nD) : sProp 𝕄 :=
  iprop(argsAt m d ∗ ∃ pA : Vec F S3072 .f32, ⌜∀ (c : Fin 2) (i : Fin 16) (a : Fin 3), OutOk m d c i a (outSlice pA c i a)⌝
    ∗ ((T d : Thread nD τ).loc main_v17 ↦{fullShare} epi pA))

abbrev adm : (p : Fin 2) → (pcfgs (F := F) p).Adm := fun p => (cfgs p).toPCfg_adm

def rdats (pA : Vec F S3072 .f32) : (p : Fin 2) → (d : Dev nD) → Pipeline.RDat τ (Elt F) (HIx 1) ℕ UU ℕ (Pipeline.pin (pcfgs (F := F)) adm p) d
  | ⟨0, _⟩ => fun d => (r0 d).rd
  | ⟨1, _⟩ => fun d => (r2 pA d).rd
  | ⟨_ + 2, h⟩ => absurd h (Nat.not_lt.2 (Nat.le_add_left _ _))

theorem rdats_zero (pA : Vec F S3072 .f32) (d : Dev nD) : rdats m epi r0 r2 pA 0 d = (r0 d).rd := rfl
theorem rdats_one (pA : Vec F S3072 .f32) (d : Dev nD) : rdats m epi r0 r2 pA 1 d = (r2 pA d).rd := rfl

def pre0 (d : Dev nD) : sProp 𝕄 :=
  iprop((K (F := F)).tcSt EH d 0 ∗ unscopedBufs d (TV1 m d))
def Z0 (d : Dev nD) : sProp 𝕄 :=
  iprop(((r0 d).rd.owesAt none (Fin.last _) -∗ (K (F := F)).tcSt EH d 0) ∗ Pipeline.unscopedRest cfg0.spec d (TV1 m d))

def post0 (d : Dev nD) : sProp 𝕄 :=
  iprop((K (F := F)).tcSt EH d 0
    ∗ (∃ lcA ldA : Vec F S100352 .f32, ⌜R0 m d lcA ldA⌝ ∗ (lcLoc d ↦{fullShare} lcA) ∗ (ldLoc d ↦{fullShare} ldA))
    ∗ Pipeline.unscopedRest cfg0.spec d (TV1 m d))

def pre2 (pA : Vec F S3072 .f32) (d : Dev nD) : sProp 𝕄 :=
  iprop((K (F := F)).tcSt EH d 1 ∗ (pLoc d ↦{fullShare} pA)
    ∗ ((T d : Thread nD τ).loc main_v17 ↦{fullShare} m ((T d : Thread nD τ).loc main_v17)) ∗ argsAt m d)
def Z2 (pA : Vec F S3072 .f32) (d : Dev nD) : sProp 𝕄 :=
  iprop(((r2 pA d).rd.owesAt none (Fin.last _) -∗ (K (F := F)).tcSt EH d 1) ∗ argsAt m d)

def post2 (pA : Vec F S3072 .f32) (d : Dev nD) : sProp 𝕄 :=
  iprop((K (F := F)).tcSt EH d 1 ∗ ((T d : Thread nD τ).loc main_v17 ↦{fullShare} epi pA) ∗ argsAt m d)

section Regions

variable {lv : GSem nD τ sig → HIx 1 → ℕ}

theorem hwaits (hlv : (K (F := F)).Refines lv) (pA : Vec F S3072 .f32) (p : Fin 2) (n : ℕ) (d : Dev nD)
    (ho : ∀ t, (rdats m epi r0 r2 pA p d).owed t = (K (F := F)).Otc d n) :
    (levAts (K (F := F)).L lv : sProp 𝕄) ⊢ Pipeline.RDat.cellsWaits (Pipeline.pin (pcfgs (F := F)) adm) (rdats m epi r0 r2 pA) none p d :=
  Pipeline.RDat.cellsWaits_intro (Pipeline.pin (pcfgs (F := F)) adm) (rdats m epi r0 r2 pA) none p d fun w s t => by
    rw [ho t]
    exact (K (F := F)).mayWait_none _ (Otc_none d n) lv hlv

def seg0 (hlv : (K (F := F)).Refines lv) (pA : Vec F S3072 .f32) :
    Pipeline.RDat.RegionSeg (pcfgs (F := F)) adm (rdats m epi r0 r2 pA) none defs₀ 𝒱₀ (K (F := F)).L lv 0 where
  win := Gen.winFacts0.to₀
  block_pos := Gen.block_pos0
  stage_whole := Gen.stage_whole0
  K := PEmpty
  osem k := k.elim
  ho := Pipeline.OwnSemFacts.none _
  hbody c := (r0 c).hbody
  hwaits c := hwaits m epi r0 r2 hlv pA 0 0 c (r0 c).howed
  pre := pre0 m
  post := post0 m
  X _ := iprop(emp)
  Y _ := iprop(emp)
  Z := Z0 m r0
  hentry c := by
    have harr := Pipeline.RDat.arrays_of_unscopedBufs (pcfgs (F := F)) adm (rdats m epi r0 r2 pA) (p := 0) Gen.winFacts0 Gen.arr_whole0 c
      (r0 c).hshare (TV1 m c) (r0 c).hA
    rw [rdats_zero] at harr
    rw [prefHeld_none, rdats_zero]
    unfold pre0 Z0
    iintro ⟨⟨Hst, Hb⟩, -, -⟩
    imodintro
    ihave ⟨Ha, Hur⟩ := harr $$ Hb
    ihave ⟨HO, Hst⟩ := (tcSt_lend (r0 c).rd 0 (r0 c).howed (r0 c).hrec 0 (Fin.last _)) $$ Hst
    iframe; iempintro
  hin c := by
    rw [rdats_zero]
    iintro ⟨-, -, H⟩; iapply (r0 c).hin $$ H
  hout c := by
    rw [Pipeline.ownSems0_none, rdats_zero]
    iintro H
    ihave H := (r0 c).hout $$ H
    iframe; iempintro
  hexit c := by
    rw [rdats_zero]
    unfold Pipeline.RDat.arraysAt Z0
    rw [Gen.bigSep_W0]
    iintro ⟨⟨-, -, -, -, -, -, -, -, ⟨%lcA, %h8, H8⟩, ⟨%ldA, %h9, H9⟩⟩, HO, -, ⟨Hst, Hur⟩⟩
    imodintro
    unfold post0
    ihave Hst := Hst $$ HO
    iframe Hst Hur
    iexists lcA, ldA
    isplitr; · ipureintro; exact (r0 c).hval lcA ldA h8 h9
    isplitl [H8]
    · iapply (Entails.of_eq (pts_whole ((r0 c).hshare 8) (Gen.arr_whole0 8).set_eq_univ rfl)); iexact H8
    · iapply (Entails.of_eq (pts_whole ((r0 c).hshare 9) (Gen.arr_whole0 9).set_eq_univ rfl)); iexact H9

def seg2 (hlv : (K (F := F)).Refines lv) (pA : Vec F S3072 .f32) :
    Pipeline.RDat.RegionSeg (pcfgs (F := F)) adm (rdats m epi r0 r2 pA) none defs₀ 𝒱₀ (K (F := F)).L lv 1 where
  win := Gen.winFacts2.to₀
  block_pos := Gen.block_pos2
  stage_whole := Gen.stage_whole2
  K := PEmpty
  osem k := k.elim
  ho := Pipeline.OwnSemFacts.none _
  hbody c := (r2 pA c).hbody
  hwaits c := hwaits m epi r0 r2 hlv pA 1 1 c (r2 pA c).howed
  pre := pre2 m pA
  post := post2 m epi pA
  X _ := iprop(emp)
  Y _ := iprop(emp)
  Z := Z2 m epi r2 pA
  hentry c := by
    rw [prefHeld_none, rdats_one]
    unfold pre2 Z2 Pipeline.RDat.arrays; rw [Gen.bigSep_W2]
    iintro ⟨⟨Hst, Hp, Hv, Hargs⟩, -, -⟩
    imodintro
    isplitl [Hp Hv]
    · isplitl [Hp]
      · iapply (Entails.of_eq (pts_whole ((r2 pA c).hshare 0) (Gen.arr_whole2 0).set_eq_univ (r2 pA c).hA0).symm); iexact Hp
      · iapply (Entails.of_eq (pts_whole ((r2 pA c).hshare 1) (Gen.arr_whole2 1).set_eq_univ (r2 pA c).hA1).symm); iexact Hv
    ihave ⟨HO, Hst⟩ := (tcSt_lend (r2 pA c).rd 1 (r2 pA c).howed (r2 pA c).hrec 0 (Fin.last _)) $$ Hst
    iframe; iempintro
  hin c := by
    rw [rdats_one]
    iintro ⟨-, -, H⟩; iapply (r2 pA c).hin $$ H
  hout c := by
    rw [Pipeline.ownSems0_none, rdats_one]
    iintro H
    ihave H := (r2 pA c).hout $$ H
    iframe; iempintro
  hexit c := by
    rw [rdats_one]
    unfold Pipeline.RDat.arraysAt Z2
    rw [Gen.bigSep_W2]
    iintro ⟨⟨-, ⟨%o, %h1, H1⟩⟩, HO, -, ⟨Hst, Hargs⟩⟩
    imodintro
    unfold post2
    ihave Hst := Hst $$ HO
    iframe Hst Hargs
    iapply (Entails.of_eq (pts_whole ((r2 pA c).hshare 1) (Gen.arr_whole2 1).set_eq_univ ((r2 pA c).hval o h1))); iexact H1

end Regions

section Run

variable {lv : GSem nD τ sig → HIx 1 → ℕ}

theorem wp_region {p : Fin 2} (rds : (p : Fin 2) → (d : Dev nD) → Pipeline.RDat τ (Elt F) (HIx 1) ℕ UU ℕ (Pipeline.pin (pcfgs (F := F)) adm p) d)
    (R : Pipeline.RDat.RegionSeg (pcfgs (F := F)) adm rds none defs₀ 𝒱₀ (K (F := F)).L lv p) {pre post : Dev nD → sProp 𝕄} (hpre : R.pre = pre) (hpost : R.post = post) (d : Dev nD)
    (k : Prog (TpuEff nD τ sig (Elt F) (SparseCore.Sig (ΛP (F := F)) 1) .tc) PUnit) (Q : PUnit → sProp 𝕄) :
    iprop((iprop(boundary (T d : Thread nD τ) ∗ post d) -∗ wp frame (wpE ((K (F := F)).defs (D (F := F))) 𝒱 (T d) none) Set.univ k Q)
        ∗ boundary (T d : Thread nD τ) ∗ pre d ∗ levAts (K (F := F)).L lv
        ∗ Pipeline.cellsGhost (nD := nD) (τ := τ) cfgs (ER (F := F)) p d ∗ Pipeline.toksInit (nD := nD) (τ := τ) cfgs (ER (F := F)) p d)
      ⊢ wp frame (wpE ((K (F := F)).defs (D (F := F))) 𝒱 (T d) none) Set.univ
          (Prog.lift (.customCall (SparseCore.inner (Pipeline.entry p)) ()) >>= fun _ => k) Q := by
  subst hpre hpost
  rw [wp_bind]
  have h1 := R.wp (pcfgs (F := F)) adm rds none Gen.cellOf_inj (ER (F := F)) defs₀ 𝒱₀ (K (F := F)).L lv d none (fun u h => nomatch h)
    (fun _ => (.ret ⟨⟩ : Prog (TpuEff nD τ sig (Elt F) (ΛP (F := F)) .tc) PUnit))
    (fun _ => wp frame (wpE ((K (F := F)).defs (D (F := F))) 𝒱 (T d) none) Set.univ k Q)
  have h2 := (K (F := F)).wp_liftProg (D (F := F)) 𝒱 (T d) Set.univ none
    (.op (.customCall (Pipeline.entry p) ()) fun _ => (.ret ⟨⟩ : Prog (TpuEff nD τ sig (Elt F) (ΛP (F := F)) .tc) PUnit))
    (fun _ => wp frame (wpE ((K (F := F)).defs (D (F := F))) 𝒱 (T d) none) Set.univ k Q)
  refine BIBase.Entails.trans ?_ (h1.trans h2)
  iintro ⟨Hk, Hrest⟩
  iframe Hrest
  iintro H; rw [wp_ret]; imodintro; iapply Hk $$ H

end Run

def writtenRefs : List (Ref sig .tc) :=
  [main_v0, main_v1, main_cst, main_v2, main_v3, main_v4, main_v5, main_v6, main_v7, main_v8, main_v9, main_v10, main_v11, main_v12, main_v13, main_v14]

theorem hostOps_writes : (hostOps (F := F)).Forall fun op => op.writes ⊆ (writtenRefs.map (Proc.devRef (τ := τ) .tc)).toFinset := by
  simp only [hostOps, List.Forall]
  and_intros <;> exact Finset.singleton_subset_iff.mpr (by decide)

theorem TV1_of_not_written (d : Dev nD) {b : Ref sig .tc} (hb : b ∉ writtenRefs) : TV1 m d b = m ((T d : Thread nD τ).loc b) :=
  StableHlo.after_of_writes_sub hostOps (V0 m d) hostOps_writes hb

theorem hostOps_sub : ∀ op ∈ (hostOps (F := F)), op.bufs ⊆ Pipeline.ucRefs τ sig :=
  List.forall_iff_forall_mem.mp (by
    simp only [hostOps, List.Forall]
    and_intros <;> exact Pipeline.sub_ucRefs _ (by
      first
        | exact StableHlo.reshape_bufs_sub ..
        | exact StableHlo.unary_bufs_sub ..
        | exact StableHlo.binary_bufs_sub ..
        | exact StableHlo.nullary_bufs_sub ..))

theorem hostOps_fresh : ∀ op ∈ (hostOps (F := F)), op.fresh = ∅ :=
  List.forall_iff_forall_mem.mp (by
    simp only [hostOps, List.Forall]
    and_intros <;> rfl)

-- the two halves of the index range are complementary
theorem coreSet_compl : Finset.univ \ coreSet 0 = coreSet 1 := by
  ext j
  have hj : (j 0).val < 100352 := (j 0).isLt
  simp only [coreSet, Finset.mem_sdiff, Finset.mem_filter, Finset.mem_univ, true_and]
  omega

theorem idsCoreSet_compl : Finset.univ \ idsCoreSet 0 = idsCoreSet 1 := by
  ext j
  have hj : (j 0).val < 100000 := (j 0).isLt
  simp only [idsCoreSet, Finset.mem_sdiff, Finset.mem_filter, Finset.mem_univ, true_and]
  omega

theorem outCoreSet_compl : Finset.univ \ outCoreSet 0 = outCoreSet 1 := by
  ext j
  have hj : (j 0).val < 3072 := (j 0).isLt
  simp only [outCoreSet, Finset.mem_sdiff, Finset.mem_filter, Finset.mem_univ, true_and]
  omega

theorem bigSep_two (Φ : Fin 2 → sProp 𝕄) : bigSep Finset.univ Φ = iprop(Φ 0 ∗ Φ 1) := BI.bigSep_fin_two Φ

-- a whole buffer is a part and its complement
theorem split2 {ℓ : Loc nD τ sig} {A B : Finset (Idx ℓ)} (h : Finset.univ \ A = B) (q : PosShare TreeShare) (f : Buf (Elt F) ℓ) :
    (ℓ ↦{q} f : sProp 𝕄) ⊣⊢ iprop((ℓ ↦[A]{q} f) ∗ ℓ ↦[B]{q} f) := by
  rw [← h]; exact pointsTo_split_subset (Finset.subset_univ A)

-- the piecewise function agrees with f on A and with g on the complement of A
theorem join2 {ℓ : Loc nD τ sig} {A B : Finset (Idx ℓ)} (h : Finset.univ \ A = B) (q : PosShare TreeShare) (f g : Buf (Elt F) ℓ) :
    iprop((ℓ ↦[A]{q} f) ∗ ℓ ↦[B]{q} g) ⊢ (iprop(∃ u : Buf (Elt F) ℓ, ⌜(∀ j ∈ A, u j = f j) ∧ (∀ j ∈ B, u j = g j)⌝ ∗ ℓ ↦{q} u) : sProp 𝕄) := by
  classical
  subst h
  iintro H
  iexists (A.piecewise f g)
  isplitr
  · ipureintro
    exact ⟨fun j hj => Finset.piecewise_eq_of_mem _ _ _ hj, fun j hj => Finset.piecewise_eq_of_notMem _ _ _ (Finset.mem_sdiff.mp hj).2⟩
  · iapply (pointsTo_join_subset (Finset.subset_univ A)) $$ H

theorem st_intro (d : Dev nD) (hids : IdsOk m d) :
    iprop((∃ lcA ldA : Vec F S100352 .f32, ⌜R0 m d lcA ldA⌝ ∗ (lcLoc d ↦{fullShare} lcA) ∗ (ldLoc d ↦{fullShare} ldA))
        ∗ (idsLoc d ↦{fullShare} m (idsLoc d)) ∗ ∃ f, (pLoc d ↦{fullShare} f))
      ⊢ (bigSep Finset.univ fun c : Fin ((K (F := F)).nCore 0) => (P m).st 0 d c : sProp 𝕄) := by
  refine BIBase.Entails.trans ?_ (Entails.of_eq (bigSep_two (fun c : Fin 2 => stP m d c.val)).symm)
  unfold stP
  beta_reduce
  simp only [Fin.val_zero, Fin.val_one]
  iintro ⟨⟨%lcA, %ldA, %hR, Hlc, Hld⟩, Hids, ⟨%f, Hp⟩⟩
  ihave ⟨Hlc0, Hlc1⟩ := (split2 (ℓ := lcLoc d) coreSet_compl fullShare lcA).1 $$ Hlc
  ihave ⟨Hld0, Hld1⟩ := (split2 (ℓ := ldLoc d) coreSet_compl fullShare ldA).1 $$ Hld
  ihave ⟨Hi0, Hi1⟩ := (split2 (ℓ := idsLoc d) idsCoreSet_compl fullShare (m (idsLoc d))).1 $$ Hids
  ihave ⟨Hp0, Hp1⟩ := (split2 (ℓ := pLoc d) outCoreSet_compl fullShare f).1 $$ Hp
  isplitl [Hlc0 Hld0 Hi0 Hp0]
  · iframe Hi0 %hids
    isplitr [Hp0]
    · iexists lcA, ldA; iframe %hR ∗
    iexists f; iexact Hp0
  · iframe Hi1 %hids
    isplitr [Hp1]
    · iexists lcA, ldA; iframe %hR ∗
    iexists f; iexact Hp1

-- rows c of the partial array lie inside half c of its index range
theorem outSlice_congr_core (pA pB : Vec F S3072 .f32) (c : Fin 2) (h : ∀ j ∈ outCoreSet c.val, pA j = pB j) (i : Fin 16) (a : Fin 3) :
    outSlice pA c i a = outSlice pB c i a := by
  funext r
  unfold outSlice
  refine h _ ?_
  have := c.isLt; have := i.isLt; have := a.isLt; have hr : (r 0).val < 32 := (r 0).isLt
  simp only [outCoreSet, Finset.mem_filter, Finset.mem_univ, true_and]
  show c.val * 1536 ≤ c.val * 1536 + a.val * 512 + i.val * 32 + (r 0).val ∧ c.val * 1536 + a.val * 512 + i.val * 32 + (r 0).val < (c.val + 1) * 1536
  omega

theorem dn_elim (d : Dev nD) :
    (bigSep Finset.univ fun c : Fin ((K (F := F)).nCore 0) => (P m).dn 0 d c : sProp 𝕄)
      ⊢ iprop((idsLoc d ↦{fullShare} m (idsLoc d))
          ∗ ∃ pA : Vec F S3072 .f32, ⌜∀ (c : Fin 2) (i : Fin 16) (a : Fin 3), OutOk m d c i a (outSlice pA c i a)⌝ ∗ (pLoc d ↦{fullShare} pA)) := by
  refine BIBase.Entails.trans (Entails.of_eq (bigSep_two (fun c : Fin 2 => dnP m d c))) ?_
  unfold dnP
  beta_reduce
  simp only [Fin.val_zero, Fin.val_one]
  iintro ⟨⟨-, -, Hi0, ⟨%pA0, %h0, Hp0⟩⟩, ⟨-, -, Hi1, ⟨%pA1, %h1, Hp1⟩⟩⟩
  isplitl [Hi0 Hi1]
  · iapply (split2 (ℓ := idsLoc d) idsCoreSet_compl fullShare (m (idsLoc d))).2
    iframe
  ihave ⟨%pA, %hpA, Hp⟩ := (join2 (ℓ := pLoc d) outCoreSet_compl fullShare pA0 pA1) $$ [Hp0 Hp1]
  · iframe
  iexists pA
  iframe
  ipureintro
  refine Fin.forall_fin_two.mpr ⟨fun i a => ?_, fun i a => ?_⟩
  · rw [outSlice_congr_core pA pA0 0 hpA.1]; exact h0 i a
  · rw [outSlice_congr_core pA pA1 1 hpA.2]; exact h1 i a

theorem rest0_elim (d : Dev nD) :
    (Pipeline.unscopedRest (Ix := HIx 1) (Name := ℕ) (U := UU) (Lvl := ℕ) cfg0.spec d (TV1 m d) : sProp 𝕄)
      ⊢ iprop(argsAt m d ∗ (pLoc d ↦{fullShare} m (pLoc d)) ∗ ((T d : Thread nD τ).loc main_v17 ↦{fullShare} m ((T d : Thread nD τ).loc main_v17))) := by
  rw [Gen.unscopedRest0_eq d (TV1 m d)]
  simp (disch := decide) only [TV1_of_not_written m d]
  unfold argsAt
  iintro ⟨H0, H1, H2, H3, H4, H5, H6, H7, H8, -, -, -, -, -, -, -, -, H16, H17⟩
  iframe

section Main

variable {lv : GSem nD τ sig → HIx 1 → ℕ}

include r0 r2 in
set_option backward.isDefEq.respectTransparency.types false in
theorem hmain (hlv : (K (F := F)).Refines lv) (hids : ∀ d, IdsOk m d) (κ : GSem nD τ sig → ℕ) (d : Dev nD) :
    iprop((K (F := F)).ctx EH (P m) κ lv ∗ (K (F := F)).tcSt EH d 0 ∗ (K (F := F)).tcRes m ρ d ∗ Gd (F := F) d)
      ⊢ wp frame (wpE ((K (F := F)).defs (D (F := F))) 𝒱 (T d) none) Set.univ (main (F := F) d)
          fun _ => iprop((K (F := F)).tcSt EH d 1 ∗ FIN m epi d) := by
  rw [main_eq d]
  unfold Gd SparseCore.Cfg.tcRes
  rw [bigSep_two, bigSep_two, show (unscopedBufs d (fun b => m ((T d : Thread nD τ).loc b)) : sProp 𝕄) = StableHlo.held (T d : Thread nD τ) (Pipeline.ucRefs τ sig) (V0 m d)
    from Pipeline.unscopedBufs_held d (V0 m d)]
  iintro ⟨#Hctx, Hst, ⟨Hbd, Hh, -, -⟩, ⟨Hg0, Hg1⟩, ⟨Ht0, Ht1⟩⟩
  iapply (StableHlo.wp_seq (defs := (K (F := F)).defs (D (F := F))) 𝒱 none Set.univ d (Pipeline.ucRefs τ sig) (fun _ => tailProg (F := F) d)
    hostOps hostOps_sub hostOps_fresh (V0 m d)) $$ [Hbd Hh]
  · iframe
  iintro ⟨Hbd, Hh⟩
  have hb : (StableHlo.held (T d : Thread nD τ) (Pipeline.ucRefs τ sig) (StableHlo.after hostOps (V0 m d)) : sProp 𝕄) = unscopedBufs d (TV1 m d) :=
    (Pipeline.unscopedBufs_held (Ix := HIx 1) (Name := ℕ) (U := UU) (Lvl := ℕ) d (V1 m d)).symm
  ihave Hb := (Entails.of_eq hb) $$ Hh
  ihave Hlev := (SparseCore.Cfg.ctx_levAts κ) $$ Hctx
  iapply (wp_region (rdats m epi r0 r2 (fun _ => FloatOps.ofBits .f32 0)) (seg0 m epi r0 r2 hlv (fun _ => FloatOps.ofBits .f32 0)) (pre := pre0 m) (post := post0 m) rfl rfl d)
  unfold pre0 post0
  iframe Hbd Hst Hb Hlev Hg0 Ht0
  iintro ⟨Hbd, Hst, Hlcld, Hur⟩
  ihave ⟨Hargs, Hp, Hv⟩ := (rest0_elim m d) $$ Hur
  unfold argsAt
  icases Hargs with ⟨H0, H1, H2, H3, H4, H5, H6, H7, H8⟩
  rw [wp_bind]
  iapply ((K (F := F)).wp_run (D (F := F)) 𝒱 (EH := EH) (P := P m) κ d 0 (lv := lv) (hlv := hlv))
  iframe Hctx
  isplitl [Hst]; · iexact Hst
  isplitl [Hlcld H4 Hp]
  · iapply (st_intro m d (hids d))
    iframe Hlcld H4
    iexists _; iexact Hp
  iintro ⟨Hst, Hdn⟩
  ihave ⟨H4, ⟨%pA, %hpA, Hp⟩⟩ := (dn_elim m d) $$ Hdn
  ihave Hargs : argsAt m d $$ [H0 H1 H2 H3 H4 H5 H6 H7 H8]
  · unfold argsAt; iframe
  ihave Hlev := (SparseCore.Cfg.ctx_levAts κ) $$ Hctx
  iapply (wp_region (rdats m epi r0 r2 pA) (seg2 m epi r0 r2 hlv pA) (pre := pre2 m pA) (post := post2 m epi pA) rfl rfl d)
  unfold pre2
  iframe Hbd Hp Hv Hargs Hlev Hg1 Ht1
  isplitr [Hst]
  · unfold post2 FIN
    iintro ⟨-, Hst, Hv, Hargs⟩
    rw [wp_pure]; imodintro
    iframe; iexists pA; iframe %hpA ∗
  iexact Hst

end Main

def fq (d : Dev nD) (s' : Phys nD τ sig (Elt F)) : Prop :=
  s'.mem.mem ((T d : Thread nD τ).loc main_arg0) = m ((T d : Thread nD τ).loc main_arg0)
  ∧ s'.mem.mem ((T d : Thread nD τ).loc main_arg1) = m ((T d : Thread nD τ).loc main_arg1)
  ∧ s'.mem.mem ((T d : Thread nD τ).loc main_arg2) = m ((T d : Thread nD τ).loc main_arg2)
  ∧ s'.mem.mem ((T d : Thread nD τ).loc main_arg3) = m ((T d : Thread nD τ).loc main_arg3)
  ∧ s'.mem.mem ((T d : Thread nD τ).loc main_arg4) = m ((T d : Thread nD τ).loc main_arg4)
  ∧ s'.mem.mem ((T d : Thread nD τ).loc main_arg5) = m ((T d : Thread nD τ).loc main_arg5)
  ∧ s'.mem.mem ((T d : Thread nD τ).loc main_arg6) = m ((T d : Thread nD τ).loc main_arg6)
  ∧ s'.mem.mem ((T d : Thread nD τ).loc main_arg7) = m ((T d : Thread nD τ).loc main_arg7)
  ∧ s'.mem.mem ((T d : Thread nD τ).loc main_arg8) = m ((T d : Thread nD τ).loc main_arg8)
  ∧ ∃ pA : Vec F S3072 .f32, (∀ (c : Fin 2) (i : Fin 16) (a : Fin 3), OutOk m d c i a (outSlice pA c i a))
      ∧ s'.mem.mem ((T d : Thread nD τ).loc main_v17) = epi pA

-- functions that agree at every index are equal
theorem ext_univ {α β} [Fintype α] {f g : α → β} (h : ∀ i ∈ Finset.univ, f i = g i) : f = g := funext fun i => h i (Finset.mem_univ i)

theorem hfin (d : Dev nD) (s' : Phys nD τ sig (Elt F)) : iprop(FIN m epi d ∗ SI s') ⊢ (⌜fq m epi d s'⌝ : sProp 𝕄) := by
  unfold FIN argsAt
  iintro ⟨⟨⟨H0, H1, H2, H3, H4, H5, H6, H7, H8⟩, ⟨%pA, %hpA, Hv⟩⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI Hv gives %hv
  ipureintro
  exact ⟨ext_univ h0, ext_univ h1, ext_univ h2, ext_univ h3, ext_univ h4, ext_univ h5, ext_univ h6, ext_univ h7, ext_univ h8, pA, hpA, ext_univ hv⟩

end Cert.Proof.KI

end
-- ==== Proof.PreIds.lean ====
import proofs.«203579_g3066606649474_cont_9to1_387_24_alg».proof.Proof.Vals
import proofs.«203579_g3066606649474_cont_9to1_387_24_alg».proof.Pre_input_domain
import Idealize.ShloMosaic.Lib.ReduceAll
import Idealize.ShloMosaic.Lib.ValueIdx

noncomputable section

namespace Cert.Proof.KI

open Cert.KernelIdeal Cert.KernelIdeal.Gen
open Idealize.ShloMosaic Idealize.SL.Sem Idealize.ShloMosaic.ValueIdx

variable {F : FTy → Type} [FloatOps F]

instance subsingleton_scalar_idx : Subsingleton Cert.Pre_input_domain.S_.Idx := ⟨fun a b => funext fun d => d.elim0⟩

theorem toNat_le_of_range (w : BitVec 32) (h1 : IntOp.cmpi .sge w 0#32 = 1#1) (h2 : IntOp.cmpi .sle w 511#32 = 1#1) :
    w.toNat ≤ 511 := by
  have hw : w.toNat < 4294967296 := w.isLt
  have e1 : 0 ≤ w.toInt := by
    by_contra hn
    simp [IntOp.cmpi, BitVec.sle, hn] at h1
  have e2 : w.toInt ≤ 511 := by
    by_contra hn
    simp [IntOp.cmpi, BitVec.sle, hn] at h2
  rw [BitVec.toInt_eq_toNat_cond] at e1 e2
  split at e1 <;> omega

theorem idsOk_of_pre [hP : Cert.Pre_input_domain.Facts] (m : (ℓ : Loc nD τ sig) → Buf (Elt F) ℓ) (d : Dev nD)
    (hpre : Cert.Pre_input_domain.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) (m ((d.tc : Thread nD τ).loc main_arg7))
      (m ((d.tc : Thread nD τ).loc main_arg8)) = fun _ => 1#1) : IdsOk m d := by
  intro j
  have h0 := congrFun hpre ix0
  dsimp only [Cert.Pre_input_domain.fn, Cert.Pre_input_domain.fn_part1, Cert.Pre_input_domain.fn_part2] at h0
  simp only [Idealize.ShloMosaic.andi, IntOp.andi_eq_one] at h0
  obtain ⟨⟨⟨_, h_ids⟩, _⟩, _⟩ := h0
  have h := Host.reduce_andi_all _ _ _ _ _ h_ids j
  obtain ⟨h1, h2⟩ := IntOp.andi_eq_one.1 h
  exact toNat_le_of_range _ h1 h2

end Cert.Proof.KI

end
-- ==== Proof.Run.lean ====
import proofs.«203579_g3066606649474_cont_9to1_387_24_alg».proof.Proof.Setup
import proofs.«203579_g3066606649474_cont_9to1_387_24_alg».proof.Proof.VecSplit
import proofs.«203579_g3066606649474_cont_9to1_387_24_alg».proof.Proof.LaunchElem
import proofs.«203579_g3066606649474_cont_9to1_387_24_alg».proof.Proof.TileObl
import proofs.«203579_g3066606649474_cont_9to1_387_24_alg».proof.Proof.Main
import proofs.«203579_g3066606649474_cont_9to1_387_24_alg».proof.Proof.PreIds
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (epi : Vec F S3072 .f32 → Vec F S2x512 .f32)

def QC : PUnit × MemSt nD τ sig (Elt F) → Prop := fun r => ∀ d : Dev nD,
  r.2.mem ((T d : Thread nD τ).loc main_arg0) = m ((T d : Thread nD τ).loc main_arg0)
  ∧ r.2.mem ((T d : Thread nD τ).loc main_arg1) = m ((T d : Thread nD τ).loc main_arg1)
  ∧ r.2.mem ((T d : Thread nD τ).loc main_arg2) = m ((T d : Thread nD τ).loc main_arg2)
  ∧ r.2.mem ((T d : Thread nD τ).loc main_arg3) = m ((T d : Thread nD τ).loc main_arg3)
  ∧ r.2.mem ((T d : Thread nD τ).loc main_arg4) = m ((T d : Thread nD τ).loc main_arg4)
  ∧ r.2.mem ((T d : Thread nD τ).loc main_arg5) = m ((T d : Thread nD τ).loc main_arg5)
  ∧ r.2.mem ((T d : Thread nD τ).loc main_arg6) = m ((T d : Thread nD τ).loc main_arg6)
  ∧ r.2.mem ((T d : Thread nD τ).loc main_arg7) = m ((T d : Thread nD τ).loc main_arg7)
  ∧ r.2.mem ((T d : Thread nD τ).loc main_arg8) = m ((T d : Thread nD τ).loc main_arg8)
  ∧ ∃ pA : Vec F S3072 .f32, (∀ (c : Fin 2) (i : Fin 16) (a : Fin 3), OutOk m d c i a (outSlice pA c i a))
      ∧ r.2.mem ((T d : Thread nD τ).loc main_v17) = epi pA

theorem run_main (r0 : ∀ d, Reg0 m d) (r2 : ∀ pA d, Reg2 epi m pA d) (hids : ∀ d, IdsOk m d) :
    θ_run (Cert.KernelIdeal.defs (F := F)) (Cert.KernelIdeal.threads (F := F)) ⟨m, fun _ => 0, ρ⟩ (QC m epi) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => vecSplit m)
    m ρ main (fun d => Gd (F := F) d) (FIN m epi) (u₀ (F := F)) (hu₀ m)
    (hmain m ρ epi r0 r2 ((K (F := F)).refines_self) hids) (fq m epi) (hfin m epi) (QC m epi) (fun _ h => h)

theorem run_main_pre [hP : Cert.Pre_input_domain.Facts] (r0 : ∀ d, Reg0 m d) (r2 : ∀ pA d, Reg2 epi m pA d)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    θ_run (Cert.KernelIdeal.defs (F := F)) (Cert.KernelIdeal.threads (F := F)) ⟨m, fun _ => 0, ρ⟩ (QC m epi) :=
  run_main m ρ epi r0 r2 fun d => idsOk_of_pre m d (hpre d)

end Cert.Proof.KI

end
-- ==== Proof.HostVals.lean ====
import proofs.«203579_g3066606649474_cont_9to1_387_24_alg».proof.Proof.RegionsIface
import Idealize.ShloMosaic.Lib.StableHlo.Run

noncomputable section

namespace Cert.Proof.KI

open Cert.KernelIdeal Cert.KernelIdeal.Gen

open Idealize.ShloMosaic Idealize.ShloMosaic.TcCoe
open Idealize.ShloMosaic.SparseCore (S V T)
open Idealize.ShloMosaic.StableHlo
open Idealize.SL Idealize.SL.Sem

variable {F : FTy → Type} [FloatOps F] (m : (ℓ : Loc nD τ sig) → Buf (Elt F) ℓ) (d : Dev nD)

theorem tv1_v3 : TV1 m d main_v3 = hA m d := by
  show StableHlo.after hostOps (V0 m d) (Proc.devRef .tc main_v3) = _
  unfold hostOps
  after_results
  rfl

theorem tv1_v5 : TV1 m d main_v5 = hC1 m d := by
  show StableHlo.after hostOps (V0 m d) (Proc.devRef .tc main_v5) = _
  unfold hostOps
  after_results
  rfl

theorem tv1_v9 : TV1 m d main_v9 = hC2 m d := by
  show StableHlo.after hostOps (V0 m d) (Proc.devRef .tc main_v9) = _
  unfold hostOps
  after_results
  rfl

theorem tv1_v10 : TV1 m d main_v10 = hT m d := by
  show StableHlo.after hostOps (V0 m d) (Proc.devRef .tc main_v10) = _
  unfold hostOps
  after_results
  rfl

theorem tv1_v11 : TV1 m d main_v11 = hXp m d := by
  show StableHlo.after hostOps (V0 m d) (Proc.devRef .tc main_v11) = _
  unfold hostOps
  after_results
  rfl

theorem tv1_v12 : TV1 m d main_v12 = hX m d := by
  show StableHlo.after hostOps (V0 m d) (Proc.devRef .tc main_v12) = _
  unfold hostOps
  after_results
  rfl

theorem tv1_v13 : TV1 m d main_v13 = hOh m d := by
  show StableHlo.after hostOps (V0 m d) (Proc.devRef .tc main_v13) = _
  unfold hostOps
  after_results
  rfl

theorem tv1_v14 : TV1 m d main_v14 = hP0 m d := by
  show StableHlo.after hostOps (V0 m d) (Proc.devRef .tc main_v14) = _
  unfold hostOps
  after_results
  rfl

end Cert.Proof.KI

end
-- ==== Proof.Region0Data.lean ====
import proofs.«203579_g3066606649474_cont_9to1_387_24_alg».proof.Proof.R0
import proofs.«203579_g3066606649474_cont_9to1_387_24_alg».proof.Proof.Gen.KernelIdeal.Launch
import proofs.«203579_g3066606649474_cont_9to1_387_24_alg».proof.Proof.Gen.KernelIdeal.Points
import Idealize.ShloMosaic.Lib.Pipeline.Kit
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]

section Body
variable {Ix : Type} [DecidableEq Ix] {Name : Type} [DecidableEq Name] {U : Type} [URA U] {Lvl : Type} [Preorder Lvl]

local notation "𝕄" => MT nD τ sig Ix (Elt F) Name U Lvl

abbrev i00 : S1x1.Idx := fun a => ⟨0, by fin_cases a <;> exact Nat.one_pos⟩

theorem i00_eq : i00 = ix2 (0 : Fin 1) (0 : Fin 1) := funext fun a => by fin_cases a <;> rfl

set_option maxHeartbeats 2000000 in
theorem sound_body0 (c : Dev nD) (E : Set Name) (i : grid0.Coords) (s : Fin 2)
    (Y0 Y1 Y2 : S1x1.Idx → Elt F .f32) (Y3 : S1x14336.Idx → Elt F .f32) (Y4 Y5 : S3x14336.Idx → Elt F .f32)
    (Y6 Y7 : S16x14336.Idx → Elt F .f32) (Y8 Y9 : S14336.Idx → Elt F .f32)
    (h0 : (stage0_0 0).IsWhole) (h1 : (stage0_1 0).IsWhole) (h2 : (stage0_2 0).IsWhole) (h3 : (stage0_3 s).IsWhole)
    (h4 : (stage0_4 s).IsWhole) (h5 : (stage0_5 s).IsWhole) (h6 : (stage0_6 s).IsWhole) (h7 : (stage0_7 s).IsWhole)
    (h8 : (stage0_8 s).IsWhole) (h9 : (stage0_9 s).IsWhole) (K : PUnit → sProp 𝕄) :
    iprop((owns (c : Thread nD τ) (stage0_0 0) fullShare Y0 ∗ owns (c : Thread nD τ) (stage0_1 0) fullShare Y1
            ∗ owns (c : Thread nD τ) (stage0_2 0) fullShare Y2 ∗ owns (c : Thread nD τ) (stage0_3 s) fullShare Y3
            ∗ owns (c : Thread nD τ) (stage0_4 s) fullShare Y4 ∗ owns (c : Thread nD τ) (stage0_5 s) fullShare Y5
            ∗ owns (c : Thread nD τ) (stage0_6 s) fullShare Y6 ∗ owns (c : Thread nD τ) (stage0_7 s) fullShare Y7
            ∗ owns (c : Thread nD τ) (stage0_8 s) fullShare Y8 ∗ owns (c : Thread nD τ) (stage0_9 s) fullShare Y9)
          ∗ (iprop(owns (c : Thread nD τ) (stage0_0 0) fullShare Y0 ∗ owns (c : Thread nD τ) (stage0_1 0) fullShare Y1
            ∗ owns (c : Thread nD τ) (stage0_2 0) fullShare Y2 ∗ owns (c : Thread nD τ) (stage0_3 s) fullShare Y3
            ∗ owns (c : Thread nD τ) (stage0_4 s) fullShare Y4 ∗ owns (c : Thread nD τ) (stage0_5 s) fullShare Y5
            ∗ owns (c : Thread nD τ) (stage0_6 s) fullShare Y6 ∗ owns (c : Thread nD τ) (stage0_7 s) fullShare Y7
            ∗ owns (c : Thread nD τ) (stage0_8 s) fullShare (k0_pay2 (Y0 i00) (Y1 i00) Y3 Y4 Y5)
            ∗ owns (c : Thread nD τ) (stage0_9 s) fullShare (k0_pay3 (Y2 i00) Y3 Y6 Y7)) -∗ K ⟨⟩))
      ⊢ wp frame (wpE (defs₀ (F := F)) Variants.none c none) E
          (cc0__tc_elem_body i (stage0_0 0) h0 (stage0_1 0) h1 (stage0_2 0) h2 (stage0_3 s) h3 (stage0_4 s) h4 (stage0_5 s) h5
            (stage0_6 s) h6 (stage0_7 s) h7 (stage0_8 s) h8 (stage0_9 s) h9) K := by
  have hz2 : (![0, 0] : Fin 2 → Nat) = fun _ => 0 := funext fun a => by fin_cases a <;> rfl
  have hz1 : (![0] : Fin 1 → Nat) = fun _ => 0 := funext fun a => by fin_cases a <;> rfl
  fin_cases s <;>
  · simp only [owns_whole, cc0__tc_elem_body_eq_skeleton]; unfold cc0__tc_elem_body_skel
    simp only [smemLoad, smemLoadElt, Prog.lift, Prog.bind_op, Prog.bind_ret]
    iintro ⟨⟨H0, H1, H2, H3, H4, H5, H6, H7, H8, H9⟩, Hk⟩
    sl_steps
    iapply Hk
    first
      | erw [Memref.write_access_unit_zero_univ (Elt F) cc0_stg8_0 hz1,
          Memref.write_access_unit_zero_univ (Elt F) cc0_stg9_0 hz1,
          Memref.readAt_unit_zero (Elt F) cc0_stg0_0 hz2,
          Memref.readAt_unit_zero (Elt F) cc0_stg1_0 hz2,
          Memref.readAt_unit_zero (Elt F) cc0_stg2_0 hz2,
          Memref.readAt_unit_zero (Elt F) cc0_stg3_0 hz2,
          Memref.readAt_unit_zero (Elt F) cc0_stg4_0 hz2,
          Memref.readAt_unit_zero (Elt F) cc0_stg5_0 hz2,
          Memref.readAt_unit_zero (Elt F) cc0_stg6_0 hz2,
          Memref.readAt_unit_zero (Elt F) cc0_stg7_0 hz2]
      | erw [Memref.write_access_unit_zero_univ (Elt F) cc0_stg8_1 hz1,
          Memref.write_access_unit_zero_univ (Elt F) cc0_stg9_1 hz1,
          Memref.readAt_unit_zero (Elt F) cc0_stg0_0 hz2,
          Memref.readAt_unit_zero (Elt F) cc0_stg1_0 hz2,
          Memref.readAt_unit_zero (Elt F) cc0_stg2_0 hz2,
          Memref.readAt_unit_zero (Elt F) cc0_stg3_1 hz2,
          Memref.readAt_unit_zero (Elt F) cc0_stg4_1 hz2,
          Memref.readAt_unit_zero (Elt F) cc0_stg5_1 hz2,
          Memref.readAt_unit_zero (Elt F) cc0_stg6_1 hz2,
          Memref.readAt_unit_zero (Elt F) cc0_stg7_1 hz2]
    iframe
    isplitl [H8]
    · iexact H8
    · iexact H9

abbrev pt (t : Fin cfg0.N) : Fin 7 := Fin.cast N_0 t

def rd0G (d : Dev nD) (A₀ : (w : Fin cfg0.W) → Buf (Elt F) ((cfg0.win w).arr.view.loc (d.tc : Thread nD τ)))
    (Φ₀ : sProp 𝕄) (O : CellTallies nD τ sig Ix) (R : Set (SemLoc sig × Ix)) : RDat τ (Elt F) Ix Name U Lvl cfg0 d where
  A := A₀
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ X => ∃ (tb : Vec F S1x14336 .f32) (xpb xb : Vec F S3x14336 .f32),
        BlkOf (r := 1) (A₀ 3 : Vec F S1x100000 .f32) (pt t) tb ∧ BlkOf (r := 3) (A₀ 4 : Vec F S3x100000 .f32) (pt t) xpb
          ∧ BlkOf (r := 3) (A₀ 5 : Vec F S3x100000 .f32) (pt t) xb
          ∧ X = k0_pay2 ((A₀ 0 : Vec F S1x1 .f32) i00) ((A₀ 1 : Vec F S1x1 .f32) i00) tb xpb xb
    | ⟨9, _⟩ => fun _ X => ∃ (tb : Vec F S1x14336 .f32) (ohb p0b : Vec F S16x14336 .f32),
        BlkOf (r := 1) (A₀ 3 : Vec F S1x100000 .f32) (pt t) tb ∧ BlkOf (r := 16) (A₀ 6 : Vec F S16x100000 .f32) (pt t) ohb
          ∧ BlkOf (r := 16) (A₀ 7 : Vec F S16x100000 .f32) (pt t) p0b
          ∧ X = k0_pay3 ((A₀ 2 : Vec F S1x1 .f32) i00) tb ohb p0b
  Φ _ := Φ₀
  q _ := fullShare
  owed _ := O
  recorded _ := R

theorem tr3 : ∀ t : Fin grid0.N, cc0_transform_3 (grid0.coords t) = ![0, t.val] := by decide +kernel
theorem tr4 : ∀ t : Fin grid0.N, cc0_transform_4 (grid0.coords t) = ![0, t.val] := by decide +kernel
theorem tr5 : ∀ t : Fin grid0.N, cc0_transform_5 (grid0.coords t) = ![0, t.val] := by decide +kernel
theorem tr6 : ∀ t : Fin grid0.N, cc0_transform_6 (grid0.coords t) = ![0, t.val] := by decide +kernel
theorem tr7 : ∀ t : Fin grid0.N, cc0_transform_7 (grid0.coords t) = ![0, t.val] := by decide +kernel

theorem slot3 : ∀ t : Fin grid0.N, (win0_3.slot t.val t.isLt).val = t.val % 2 := by decide +kernel
theorem slot4 : ∀ t : Fin grid0.N, (win0_4.slot t.val t.isLt).val = t.val % 2 := by decide +kernel
theorem slot5 : ∀ t : Fin grid0.N, (win0_5.slot t.val t.isLt).val = t.val % 2 := by decide +kernel
theorem slot6 : ∀ t : Fin grid0.N, (win0_6.slot t.val t.isLt).val = t.val % 2 := by decide +kernel
theorem slot7 : ∀ t : Fin grid0.N, (win0_7.slot t.val t.isLt).val = t.val % 2 := by decide +kernel
theorem slot8 : ∀ t : Fin grid0.N, (win0_8.slot t.val t.isLt).val = t.val % 2 := by decide +kernel
theorem slot9 : ∀ t : Fin grid0.N, (win0_9.slot t.val t.isLt).val = t.val % 2 := by decide +kernel

end Body

end Cert.Proof.KI

end
-- ==== Proof.Region0Body.lean ====
import proofs.«203579_g3066606649474_cont_9to1_387_24_alg».proof.Proof.Region0Data
import Idealize.ShloMosaic.Lib.Pipeline.Kit
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem xs3 : ∀ t : Fin grid0.N, win0_3.xsize (grid0.coords t) = ![1, min 14336 (100000 - t.val * 14336)] := by decide +kernel
theorem xs4 : ∀ t : Fin grid0.N, win0_4.xsize (grid0.coords t) = ![3, min 14336 (100000 - t.val * 14336)] := by decide +kernel
theorem xs5 : ∀ t : Fin grid0.N, win0_5.xsize (grid0.coords t) = ![3, min 14336 (100000 - t.val * 14336)] := by decide +kernel
theorem xs6 : ∀ t : Fin grid0.N, win0_6.xsize (grid0.coords t) = ![16, min 14336 (100000 - t.val * 14336)] := by decide +kernel
theorem xs7 : ∀ t : Fin grid0.N, win0_7.xsize (grid0.coords t) = ![16, min 14336 (100000 - t.val * 14336)] := by decide +kernel

section
variable {d : Dev nD} (rd : RDat τ (Elt F) Ix Name U Lvl cfg0 d) (t : Fin cfg0.N)

theorem fetched_moved (w : Fin cfg0.W) (dd : (cfg0.win w).block.Idx → Elt F (cfg0.win w).elt) (y : (cfg0.win w).block.Idx)
    (hy : ∀ a, (y a).val < (cfg0.win w).xsize (cfg0.grid.coords t) a) :
    rd.fetched w t dd y = ((cfg0.win w).blk t).view.read (Elt F) (rd.A w) fun a => ⟨(y a).val, hy a⟩ := by
  unfold RDat.fetched RDat.blockOf Window.fill
  rw [dif_pos ((Window.moved_iff _ _ _).mpr hy)]

theorem blk3 (dd : (cfg0.win 3).block.Idx → Elt F (cfg0.win 3).elt) :
    BlkOf (r := 1) (rd.A 3 : Vec F S1x100000 .f32) (pt t) (rd.fetched 3 t dd) := fun i j h => by
  have hh : t.val * 14336 + j.val < 100000 := h
  rw [fetched_moved rd t 3 dd (ix2 i j) fun a => by
    show _ < win0_3.xsize (grid0.coords t) a
    rw [xs3 t]
    match a with
    | ⟨0, _⟩ => exact i.isLt
    | ⟨1, _⟩ => show j.val < min 14336 _; have := j.isLt; omega]
  rw [View.read_apply]
  show rd.A 3 _ = rd.A 3 _
  congr 1
  funext a
  refine Fin.ext ((Window.rect_emb_val (cfg0.win 3) t _ a).trans ?_)
  show cc0_transform_3 (grid0.coords t) a * _ + _ = _
  rw [tr3 t]
  match a with
  | ⟨0, _⟩ => show 0 * 1 + i.val = i.val; omega
  | ⟨1, _⟩ => rfl

theorem blk4 (dd : (cfg0.win 4).block.Idx → Elt F (cfg0.win 4).elt) :
    BlkOf (r := 3) (rd.A 4 : Vec F S3x100000 .f32) (pt t) (rd.fetched 4 t dd) := fun i j h => by
  have hh : t.val * 14336 + j.val < 100000 := h
  rw [fetched_moved rd t 4 dd (ix2 i j) fun a => by
    show _ < win0_4.xsize (grid0.coords t) a
    rw [xs4 t]
    match a with
    | ⟨0, _⟩ => exact i.isLt
    | ⟨1, _⟩ => show j.val < min 14336 _; have := j.isLt; omega]
  rw [View.read_apply]
  show rd.A 4 _ = rd.A 4 _
  congr 1
  funext a
  refine Fin.ext ((Window.rect_emb_val (cfg0.win 4) t _ a).trans ?_)
  show cc0_transform_4 (grid0.coords t) a * _ + _ = _
  rw [tr4 t]
  match a with
  | ⟨0, _⟩ => show 0 * 3 + i.val = i.val; omega
  | ⟨1, _⟩ => rfl

theorem blk5 (dd : (cfg0.win 5).block.Idx → Elt F (cfg0.win 5).elt) :
    BlkOf (r := 3) (rd.A 5 : Vec F S3x100000 .f32) (pt t) (rd.fetched 5 t dd) := fun i j h => by
  have hh : t.val * 14336 + j.val < 100000 := h
  rw [fetched_moved rd t 5 dd (ix2 i j) fun a => by
    show _ < win0_5.xsize (grid0.coords t) a
    rw [xs5 t]
    match a with
    | ⟨0, _⟩ => exact i.isLt
    | ⟨1, _⟩ => show j.val < min 14336 _; have := j.isLt; omega]
  rw [View.read_apply]
  show rd.A 5 _ = rd.A 5 _
  congr 1
  funext a
  refine Fin.ext ((Window.rect_emb_val (cfg0.win 5) t _ a).trans ?_)
  show cc0_transform_5 (grid0.coords t) a * _ + _ = _
  rw [tr5 t]
  match a with
  | ⟨0, _⟩ => show 0 * 3 + i.val = i.val; omega
  | ⟨1, _⟩ => rfl

theorem blk6 (dd : (cfg0.win 6).block.Idx → Elt F (cfg0.win 6).elt) :
    BlkOf (r := 16) (rd.A 6 : Vec F S16x100000 .f32) (pt t) (rd.fetched 6 t dd) := fun i j h => by
  have hh : t.val * 14336 + j.val < 100000 := h
  rw [fetched_moved rd t 6 dd (ix2 i j) fun a => by
    show _ < win0_6.xsize (grid0.coords t) a
    rw [xs6 t]
    match a with
    | ⟨0, _⟩ => exact i.isLt
    | ⟨1, _⟩ => show j.val < min 14336 _; have := j.isLt; omega]
  rw [View.read_apply]
  show rd.A 6 _ = rd.A 6 _
  congr 1
  funext a
  refine Fin.ext ((Window.rect_emb_val (cfg0.win 6) t _ a).trans ?_)
  show cc0_transform_6 (grid0.coords t) a * _ + _ = _
  rw [tr6 t]
  match a with
  | ⟨0, _⟩ => show 0 * 16 + i.val = i.val; omega
  | ⟨1, _⟩ => rfl

theorem blk7 (dd : (cfg0.win 7).block.Idx → Elt F (cfg0.win 7).elt) :
    BlkOf (r := 16) (rd.A 7 : Vec F S16x100000 .f32) (pt t) (rd.fetched 7 t dd) := fun i j h => by
  have hh : t.val * 14336 + j.val < 100000 := h
  rw [fetched_moved rd t 7 dd (ix2 i j) fun a => by
    show _ < win0_7.xsize (grid0.coords t) a
    rw [xs7 t]
    match a with
    | ⟨0, _⟩ => exact i.isLt
    | ⟨1, _⟩ => show j.val < min 14336 _; have := j.isLt; omega]
  rw [View.read_apply]
  show rd.A 7 _ = rd.A 7 _
  congr 1
  funext a
  refine Fin.ext ((Window.rect_emb_val (cfg0.win 7) t _ a).trans ?_)
  show cc0_transform_7 (grid0.coords t) a * _ + _ = _
  rw [tr7 t]
  match a with
  | ⟨0, _⟩ => show 0 * 16 + i.val = i.val; omega
  | ⟨1, _⟩ => rfl

theorem scal0 (h : ∀ t Y X, rd.after 0 t Y X → X = Y) (Y) (hY : rd.Finds 0 t Y) : Y = rd.A 0 := by
  obtain ⟨dd, rfl⟩ := rd.finds_in_eq_fetched 0 rfl (fun _ _ _ => rfl) h t Y hY
  funext j
  rw [fetched_moved rd t 0 dd j fun a => (j a).isLt, View.read_apply]
  show rd.A 0 _ = rd.A 0 _
  congr 1
  funext a
  refine Fin.ext (Window.rect_emb_val_of_index_zero (cfg0.win 0) t a ?_ _)
  match a with
  | ⟨0, _⟩ => rfl
  | ⟨1, _⟩ => rfl

theorem scal1 (h : ∀ t Y X, rd.after 1 t Y X → X = Y) (Y) (hY : rd.Finds 1 t Y) : Y = rd.A 1 := by
  obtain ⟨dd, rfl⟩ := rd.finds_in_eq_fetched 1 rfl (fun _ _ _ => rfl) h t Y hY
  funext j
  rw [fetched_moved rd t 1 dd j fun a => (j a).isLt, View.read_apply]
  show rd.A 1 _ = rd.A 1 _
  congr 1
  funext a
  refine Fin.ext (Window.rect_emb_val_of_index_zero (cfg0.win 1) t a ?_ _)
  match a with
  | ⟨0, _⟩ => rfl
  | ⟨1, _⟩ => rfl

theorem scal2 (h : ∀ t Y X, rd.after 2 t Y X → X = Y) (Y) (hY : rd.Finds 2 t Y) : Y = rd.A 2 := by
  obtain ⟨dd, rfl⟩ := rd.finds_in_eq_fetched 2 rfl (fun _ _ _ => rfl) h t Y hY
  funext j
  rw [fetched_moved rd t 2 dd j fun a => (j a).isLt, View.read_apply]
  show rd.A 2 _ = rd.A 2 _
  congr 1
  funext a
  refine Fin.ext (Window.rect_emb_val_of_index_zero (cfg0.win 2) t a ?_ _)
  match a with
  | ⟨0, _⟩ => rfl
  | ⟨1, _⟩ => rfl

end

set_option maxHeartbeats 2000000 in
theorem body0G (d : Dev nD) (A₀ : (w : Fin cfg0.W) → Buf (Elt F) ((cfg0.win w).arr.view.loc (d.tc : Thread nD τ)))
    (Φ₀ : sProp 𝕄) (O : CellTallies nD τ sig Ix) (R : Set (SemLoc sig × Ix)) (ι : Ix) (E : Set Name) :
    (rd0G (Ix := Ix) (Name := Name) (U := U) (Lvl := Lvl) d A₀ Φ₀ O R).BodyObligation (defs₀ (F := F)) Variants.none ι E := fun t Y hY => by
  have b := fun w h => ((rd0G d A₀ Φ₀ O R).finds_of_fetch (w := w) h (Y w)).mp (hY w)
  obtain ⟨d3, h3⟩ := b 3 (fetch0_3 t)
  obtain ⟨d4, h4⟩ := b 4 (fetch0_4 t)
  obtain ⟨d5, h5⟩ := b 5 (fetch0_5 t)
  obtain ⟨d6, h6⟩ := b 6 (fetch0_6 t)
  obtain ⟨d7, h7⟩ := b 7 (fetch0_7 t)
  obtain ⟨s, hs⟩ : ∃ s : Fin 2, s.val = t.val % 2 := ⟨⟨t.val % 2, Nat.mod_lt _ (by decide)⟩, rfl⟩
  have hs0 : cfg0.slots t 0 = (0 : Fin 1) := Subsingleton.elim _ _
  have hs1 : cfg0.slots t 1 = (0 : Fin 1) := Subsingleton.elim _ _
  have hs2 : cfg0.slots t 2 = (0 : Fin 1) := Subsingleton.elim _ _
  have hs3 : cfg0.slots t 3 = s := Fin.ext ((slot3 t).trans hs.symm)
  have hs4 : cfg0.slots t 4 = s := Fin.ext ((slot4 t).trans hs.symm)
  have hs5 : cfg0.slots t 5 = s := Fin.ext ((slot5 t).trans hs.symm)
  have hs6 : cfg0.slots t 6 = s := Fin.ext ((slot6 t).trans hs.symm)
  have hs7 : cfg0.slots t 7 = s := Fin.ext ((slot7 t).trans hs.symm)
  have hs8 : cfg0.slots t 8 = s := Fin.ext ((slot8 t).trans hs.symm)
  have hs9 : cfg0.slots t 9 = s := Fin.ext ((slot9 t).trans hs.symm)
  rw [bigSep_W0, bigSep_W0]
  rw [show (rd0G d A₀ Φ₀ O R).Φ t.succ = (rd0G d A₀ Φ₀ O R).Φ t.castSucc from rfl, show (rd0G d A₀ Φ₀ O R).owesAt ι t.succ = (rd0G d A₀ Φ₀ O R).owesAt ι t.castSucc from rfl]
  show _ ⊢ wp frame (wpE (defs₀ (F := F)) Variants.none d none) E (bodyAt0 t) _
  simp only [bodyAt0, hs0, hs1, hs2, hs3, hs4, hs5, hs6, hs7, hs8, hs9]
  iintro ⟨HΦ, Ho, H0, H1, H2, H3, H4, H5, H6, H7, H8, H9⟩
  iapply (sound_body0 (F := F) d E (grid0.coords t) s (Y 0) (Y 1) (Y 2) (Y 3) (Y 4) (Y 5) (Y 6) (Y 7) (Y 8) (Y 9) _ _ _ _ _ _ _ _ _ _ _)
  isplitl [H0 H1 H2 H3 H4 H5 H6 H7 H8 H9]
  · iframe
  iintro ⟨H0, H1, H2, H3, H4, H5, H6, H7, H8, H9⟩
  iframe HΦ Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  isplitl [H4]
  · iexists Y 4; isplitr; · ipureintro; exact rfl
    iexact H4
  isplitl [H5]
  · iexists Y 5; isplitr; · ipureintro; exact rfl
    iexact H5
  isplitl [H6]
  · iexists Y 6; isplitr; · ipureintro; exact rfl
    iexact H6
  isplitl [H7]
  · iexists Y 7; isplitr; · ipureintro; exact rfl
    iexact H7
  isplitl [H8]
  · iexists k0_pay2 ((Y 0 : Vec F S1x1 .f32) i00) ((Y 1 : Vec F S1x1 .f32) i00) (Y 3) (Y 4) (Y 5); isplitr
    · ipureintro
      exact ⟨Y 3, Y 4, Y 5, h3 ▸ blk3 _ t d3, h4 ▸ blk4 _ t d4, h5 ▸ blk5 _ t d5, by rw [scal0 (rd0G d A₀ Φ₀ O R) t (fun _ _ _ h => h) _ (hY 0), scal1 (rd0G d A₀ Φ₀ O R) t (fun _ _ _ h => h) _ (hY 1)]; rfl⟩
    iexact H8
  · iexists k0_pay3 ((Y 2 : Vec F S1x1 .f32) i00) (Y 3) (Y 6) (Y 7); isplitr
    · ipureintro
      exact ⟨Y 3, Y 6, Y 7, h3 ▸ blk3 _ t d3, h6 ▸ blk6 _ t d6, h7 ▸ blk7 _ t d7, by rw [scal2 (rd0G d A₀ Φ₀ O R) t (fun _ _ _ h => h) _ (hY 2)]; rfl⟩
    iexact H9

end Cert.Proof.KI

end
-- ==== Proof.Region0Val.lean ====
import proofs.«203579_g3066606649474_cont_9to1_387_24_alg».proof.Proof.Region0Data
import Idealize.ShloMosaic.Lib.Pipeline.Value

noncomputable section

namespace Cert.Proof.KI

open Cert.KernelIdeal Cert.KernelIdeal.Gen

open Idealize.ShloMosaic
open Idealize.ShloMosaic.TcCoe
open Idealize.SL Idealize.SL.RA Idealize.SL.BI Idealize.SL.Sem
open Idealize.ShloMosaic.Pipeline (RDat Cfg Window)
open Idealize.ShloMosaic.ValueIdx (ix1 ix2)

variable {F : FTy → Type} [FloatOps F]
variable {Ix : Type} [DecidableEq Ix] {Name : Type} [DecidableEq Name] {U : Type} [URA U] {Lvl : Type}
variable {d : Dev nD} (rd : RDat τ (Elt F) Ix Name U Lvl cfg0 d)

omit [FloatOps F] in
theorem index8 : ∀ t : Fin cfg0.N, (cfg0.win 8).index t 0 = t.val :=
  (by decide +kernel : ∀ t : Fin grid0.N, win0_8.index t 0 = t.val)
omit [FloatOps F] in
theorem index9 : ∀ t : Fin cfg0.N, (cfg0.win 9).index t 0 = t.val :=
  (by decide +kernel : ∀ t : Fin grid0.N, win0_9.index t 0 = t.val)

omit [FloatOps F] in
theorem emb8 (t : Fin cfg0.N) (y : ((cfg0.win 8).xblock (cfg0.grid.coords t)).Idx) :
    (((cfg0.win 8).blk t).view.emb y : S100352.Idx) = lane (Fin.cast N_0 t) ⟨(y 0).val, (y 0).isLt⟩ :=
  funext fun | ⟨0, _⟩ => Fin.ext (by have h := Window.rect_emb_val (cfg0.win 8) t y 0; rw [index8] at h; exact h)

omit [FloatOps F] in
theorem emb9 (t : Fin cfg0.N) (y : ((cfg0.win 9).xblock (cfg0.grid.coords t)).Idx) :
    (((cfg0.win 9).blk t).view.emb y : S100352.Idx) = lane (Fin.cast N_0 t) ⟨(y 0).val, (y 0).isLt⟩ :=
  funext fun | ⟨0, _⟩ => Fin.ext (by have h := Window.rect_emb_val (cfg0.win 9) t y 0; rw [index9] at h; exact h)

omit [FloatOps F] in
theorem lane_ne {t u : Fin 7} (h : t ≠ u) (j k : Fin 14336) : lane t j ≠ lane u k := fun e => by
  have e0 := congrArg (fun x : S100352.Idx => (x 0).val) e
  have ht : t.val ≠ u.val := fun h' => h (Fin.ext h')
  have := j.isLt; have := k.isLt
  simp only [lane] at e0
  change t.val * 14336 + j.val = u.val * 14336 + k.val at e0
  omega

-- the seven blocks are disjoint, so writing one leaves the others as they were
theorem arrAt (n : Nat) (hn : n ≤ cfg0.N) :
    (∀ G : Vec F S100352 .f32, rd.ArrAt 8 n G → ∀ t : Fin cfg0.N, t.val < n →
      ∃ X : Vec F S14336 .f32, rd.Leaves 8 t X ∧ ∀ j : Fin 14336, G (lane (Fin.cast N_0 t) j) = X (ix1 j)) ∧
    (∀ G : Vec F S100352 .f32, rd.ArrAt 9 n G → ∀ t : Fin cfg0.N, t.val < n →
      ∃ X : Vec F S14336 .f32, rd.Leaves 9 t X ∧ ∀ j : Fin 14336, G (lane (Fin.cast N_0 t) j) = X (ix1 j)) := by
  induction n with
  | zero => exact ⟨fun _ _ _ ht => absurd ht (Nat.not_lt_zero _), fun _ _ _ ht => absurd ht (Nat.not_lt_zero _)⟩
  | succ n ih =>
    have hu : n < cfg0.N := hn
    obtain ⟨i8, i9⟩ := ih (Nat.le_of_lt hu)
    refine ⟨fun G h t ht => ?_, fun G h t ht => ?_⟩ <;>
    · first
        | rw [show n + 1 = (⟨n, hu⟩ : Fin cfg0.N).val + 1 from rfl, RDat.ArrAt_succ, if_pos (flush0_8 _)] at h
        | rw [show n + 1 = (⟨n, hu⟩ : Fin cfg0.N).val + 1 from rfl, RDat.ArrAt_succ, if_pos (flush0_9 _)] at h
      obtain ⟨G₀, X, hG₀, hX, rfl⟩ := h
      rcases Nat.lt_succ_iff_lt_or_eq.mp ht with hlt | heq
      · have hi := by first | exact i8 G₀ hG₀ t hlt | exact i9 G₀ hG₀ t hlt
        obtain ⟨X', hX', hval⟩ := hi
        refine ⟨X', hX', fun j => ?_⟩
        rw [View.write_of_not_mem]
        · exact hval j
        · intro hmem
          obtain ⟨y, -, hy⟩ := Finset.mem_map.mp hmem
          refine lane_ne (t := Fin.cast N_0 (⟨n, hu⟩ : Fin cfg0.N)) (u := Fin.cast N_0 t) (fun e => ?_) ⟨(y 0).val, (y 0).isLt⟩ j ?_
          · have := congrArg Fin.val e; simp only [Fin.val_cast] at this; omega
          · first
              | exact (emb8 ⟨n, hu⟩ y).symm.trans hy
              | exact (emb9 ⟨n, hu⟩ y).symm.trans hy
      · obtain rfl : t = ⟨n, hu⟩ := Fin.ext heq
        refine ⟨X, hX, fun j => ?_⟩
        first
          | (have hj : lane (Fin.cast N_0 (⟨n, hu⟩ : Fin cfg0.N)) j = ((cfg0.win 8).blk ⟨n, hu⟩).view.emb
              (show ((cfg0.win 8).xblock (cfg0.grid.coords ⟨n, hu⟩)).Idx from (ix1 j : S14336.Idx)) := (by rw [emb8]; rfl);
             rw [hj, View.write_emb_of_mem _ _ (Finset.mem_univ _)])
          | (have hj : lane (Fin.cast N_0 (⟨n, hu⟩ : Fin cfg0.N)) j = ((cfg0.win 9).blk ⟨n, hu⟩).view.emb
              (show ((cfg0.win 9).xblock (cfg0.grid.coords ⟨n, hu⟩)).Idx from (ix1 j : S14336.Idx)) := (by rw [emb9]; rfl);
             rw [hj, View.write_emb_of_mem _ _ (Finset.mem_univ _)])
        rfl

section Val

variable [Preorder Lvl]

local notation "𝕄" => MT nD τ sig Ix (Elt F) Name U Lvl

theorem val0G (d : Dev nD) (A₀ : (w : Fin cfg0.W) → Buf (Elt F) ((cfg0.win w).arr.view.loc (d.tc : Thread nD τ)))
    (Φ₀ : sProp 𝕄) (O : CellTallies nD τ sig Ix) (R : Set (SemLoc sig × Ix))
    (lcA : Buf (Elt F) ((cfg0.win 8).arr.view.loc (d.tc : Thread nD τ))) (ldA : Buf (Elt F) ((cfg0.win 9).arr.view.loc (d.tc : Thread nD τ)))
    (h8 : (rd0G (Ix := Ix) (Name := Name) (U := U) (Lvl := Lvl) d A₀ Φ₀ O R).ArrAt 8 cfg0.N lcA)
    (h9 : (rd0G (Ix := Ix) (Name := Name) (U := U) (Lvl := Lvl) d A₀ Φ₀ O R).ArrAt 9 cfg0.N ldA) :
    ∀ t : Fin 7,
      (∃ (tb : Vec F S1x14336 .f32) (xpb xb : Vec F S3x14336 .f32),
        BlkOf (r := 1) (A₀ 3 : Vec F S1x100000 .f32) t tb ∧ BlkOf (r := 3) (A₀ 4 : Vec F S3x100000 .f32) t xpb
          ∧ BlkOf (r := 3) (A₀ 5 : Vec F S3x100000 .f32) t xb
          ∧ ∀ j : Fin 14336, (lcA : Vec F S100352 .f32) (lane t j)
              = k0_pay2 ((A₀ 0 : Vec F S1x1 .f32) i00) ((A₀ 1 : Vec F S1x1 .f32) i00) tb xpb xb (ix1 j)) ∧
      (∃ (tb : Vec F S1x14336 .f32) (ohb p0b : Vec F S16x14336 .f32),
        BlkOf (r := 1) (A₀ 3 : Vec F S1x100000 .f32) t tb ∧ BlkOf (r := 16) (A₀ 6 : Vec F S16x100000 .f32) t ohb
          ∧ BlkOf (r := 16) (A₀ 7 : Vec F S16x100000 .f32) t p0b
          ∧ ∀ j : Fin 14336, (ldA : Vec F S100352 .f32) (lane t j) = k0_pay3 ((A₀ 2 : Vec F S1x1 .f32) i00) tb ohb p0b (ix1 j)) := by
  intro t
  obtain ⟨t', rfl⟩ : ∃ t' : Fin cfg0.N, t = Fin.cast N_0 t' := ⟨Fin.cast N_0.symm t, Fin.ext rfl⟩
  obtain ⟨a8, a9⟩ := arrAt (rd0G (Ix := Ix) (Name := Name) (U := U) (Lvl := Lvl) d A₀ Φ₀ O R) cfg0.N le_rfl
  obtain ⟨X8, ⟨Y8, -, tb, xpb, xb, hb3, hb4, hb5, rfl⟩, hv8⟩ := a8 lcA h8 t' t'.isLt
  obtain ⟨X9, ⟨Y9, -, tb', ohb, p0b, hc3, hc6, hc7, rfl⟩, hv9⟩ := a9 ldA h9 t' t'.isLt
  exact ⟨⟨tb, xpb, xb, hb3, hb4, hb5, hv8⟩, ⟨tb', ohb, p0b, hc3, hc6, hc7, hv9⟩⟩

end Val

end Cert.Proof.KI

end
-- ==== Proof.Region0.lean ====
import proofs.«203579_g3066606649474_cont_9to1_387_24_alg».proof.Proof.RegionsIface
import proofs.«203579_g3066606649474_cont_9to1_387_24_alg».proof.Proof.HostVals
import proofs.«203579_g3066606649474_cont_9to1_387_24_alg».proof.Proof.Region0Body
import proofs.«203579_g3066606649474_cont_9to1_387_24_alg».proof.Proof.Region0Val

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]

def A0 (m : (ℓ : Loc nD τ sig) → Buf (Elt F) ℓ) (d : Dev nD) :
    (w : Fin cfg0.W) → Buf (Elt F) ((cfg0.win w).arr.view.loc (d.tc : Thread nD τ)) :=
  fun w => TV1 m d (Pipeline.arrRef cfg0.spec w)

theorem r0_of_blocks (m : (ℓ : Loc nD τ sig) → Buf (Elt F) ℓ) (d : Dev nD) (lcA ldA : Vec F S100352 .f32)
    (h : ∀ t : Fin 7,
      (∃ (tb : Vec F S1x14336 .f32) (xpb xb : Vec F S3x14336 .f32),
        BlkOf (r := 1) (A0 m d 3 : Vec F S1x100000 .f32) t tb ∧ BlkOf (r := 3) (A0 m d 4 : Vec F S3x100000 .f32) t xpb
          ∧ BlkOf (r := 3) (A0 m d 5 : Vec F S3x100000 .f32) t xb
          ∧ ∀ j : Fin 14336, lcA (lane t j)
              = k0_pay2 ((A0 m d 0 : Vec F S1x1 .f32) i00) ((A0 m d 1 : Vec F S1x1 .f32) i00) tb xpb xb (ix1 j)) ∧
      (∃ (tb : Vec F S1x14336 .f32) (ohb p0b : Vec F S16x14336 .f32),
        BlkOf (r := 1) (A0 m d 3 : Vec F S1x100000 .f32) t tb ∧ BlkOf (r := 16) (A0 m d 6 : Vec F S16x100000 .f32) t ohb
          ∧ BlkOf (r := 16) (A0 m d 7 : Vec F S16x100000 .f32) t p0b
          ∧ ∀ j : Fin 14336, ldA (lane t j) = k0_pay3 ((A0 m d 2 : Vec F S1x1 .f32) i00) tb ohb p0b (ix1 j))) :
    R0 m d lcA ldA := by
  have e0 : (A0 m d 0 : Vec F S1x1 .f32) = hA m d := tv1_v3 m d
  have e1 : (A0 m d 1 : Vec F S1x1 .f32) = hC1 m d := tv1_v5 m d
  have e2 : (A0 m d 2 : Vec F S1x1 .f32) = hC2 m d := tv1_v9 m d
  have e3 : (A0 m d 3 : Vec F S1x100000 .f32) = hT m d := tv1_v10 m d
  have e4 : (A0 m d 4 : Vec F S3x100000 .f32) = hXp m d := tv1_v11 m d
  have e5 : (A0 m d 5 : Vec F S3x100000 .f32) = hX m d := tv1_v12 m d
  have e6 : (A0 m d 6 : Vec F S16x100000 .f32) = hOh m d := tv1_v13 m d
  have e7 : (A0 m d 7 : Vec F S16x100000 .f32) = hP0 m d := tv1_v14 m d
  intro t
  obtain ⟨⟨tb, xpb, xb, h3, h4, h5, hv⟩, ⟨tb', ohb, p0b, g3, g6, g7, gv⟩⟩ := h t
  rw [e3] at h3 g3
  rw [e4] at h4
  rw [e5] at h5
  rw [e6] at g6
  rw [e7] at g7
  refine ⟨⟨tb, xpb, xb, h3, h4, h5, fun j => ?_⟩, ⟨tb', ohb, p0b, g3, g6, g7, fun j => ?_⟩⟩
  · rw [hv j, e0, e1, i00_eq]
  · rw [gv j, e2, i00_eq]

def rd0 (m : (ℓ : Loc nD τ sig) → Buf (Elt F) ℓ) (d : Dev nD) : Pipeline.RDat τ (Elt F) (HIx 1) ℕ UU ℕ cfg0 d :=
  rd0G (Ix := HIx 1) (Name := ℕ) (U := UU) (Lvl := ℕ) d (A0 m d)
    (Pipeline.scopedRest (Ix := HIx 1) (Name := ℕ) (U := UU) (Lvl := ℕ) (Val := Elt F) cfg0.spec d)
    ((K (F := F)).Otc d 0) (recAt (F := F) d 0)

def reg0 (m : (ℓ : Loc nD τ sig) → Buf (Elt F) ℓ) (d : Dev nD) : Reg0 (F := F) m d where
  rd := rd0 m d
  hA _ := rfl
  hshare w := by unfold RDat.share; split <;> rfl
  howed _ := rfl
  hrec _ := rfl
  hin := .rfl
  hout := .rfl
  hbody := body0G d (A0 m d) _ _ _ none Set.univ
  hval lcA ldA h8 h9 := r0_of_blocks m d lcA ldA (val0G d (A0 m d) _ _ _ lcA ldA h8 h9)

end Cert.Proof.KI

end
-- ==== Proof.Epi.lean ====
import proofs.«203579_g3066606649474_cont_9to1_387_24_alg».proof.Proof.Gen.KernelIdeal.Skeleton
import Idealize.ShloMosaic.Lib.ValueIdx

noncomputable section

namespace Cert.Proof.KI

open Cert.KernelIdeal Cert.KernelIdeal.Gen
open Idealize.ShloMosaic Idealize.SL.Sem
open Idealize.ShloMosaic.ValueIdx (ix1 ix2)

variable {F : FTy → Type} [FloatOps F]

def sl512 (pA : Vec F S3072 .f32) (off : Nat) (h : off + 512 ≤ 3072) : Vec F S512 .f32 :=
  fun j => pA (ix1 ⟨off + (j 0).val, by have hj : (j 0).val < 512 := (j 0).isLt; omega⟩)

def epi (pA : Vec F S3072 .f32) : Vec F S2x512 .f32 :=
  k2_pay1 (sl512 pA 0 (by omega)) (sl512 pA 1536 (by omega)) (sl512 pA 512 (by omega)) (sl512 pA 2048 (by omega))
    (sl512 pA 1024 (by omega)) (sl512 pA 2560 (by omega))

end Cert.Proof.KI

end
-- ==== Proof.Region2.lean ====
import proofs.«203579_g3066606649474_cont_9to1_387_24_alg».proof.Proof.RegionsIface
import proofs.«203579_g3066606649474_cont_9to1_387_24_alg».proof.Proof.Epi
import Idealize.ShloMosaic.Lib.Pipeline.Kit
import Idealize.ShloMosaic.Lib.Pipeline.Value
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem read512 (c : Dev nD) (f0 : Buf (Elt F) ((c : Thread nD τ).loc cc2_stg0_0)) (off : Nat)
    (inb : ∀ a, (![off] : Fin 1 → Nat) a + S512.size a ≤ S3072.size a) (h : off + 512 ≤ 3072) :
    (Memref.whole cc2_stg0_0 : Memref sig .tc .vmem S3072 .f32).view.readAt (Elt F) (Rect.unit (s := S3072) ![off] S512.size inb).toLoadRect f0
      = sl512 f0 off h := by
  funext j
  show f0 _ = f0 _
  congr 1
  funext a
  refine Fin.ext ?_
  match a with
  | ⟨0, _⟩ => simp [Rect.emb_apply]

theorem sound_body2 (c : Dev nD) (E : Set Name) (X0 : S3072.Idx → Elt F .f32) (X1 : S2x512.Idx → Elt F .f32)
    (h0 : (Memref.whole cc2_stg0_0 : Memref sig .tc .vmem S3072 .f32).IsWhole)
    (h1 : (Memref.whole cc2_stg1_0 : Memref sig .tc .vmem S2x512 .f32).IsWhole) (K : PUnit → sProp 𝕄) :
    iprop((owns (c : Thread nD τ) (Memref.whole cc2_stg0_0) fullShare X0 ∗ owns (c : Thread nD τ) (Memref.whole cc2_stg1_0) fullShare X1)
          ∗ (iprop(owns (c : Thread nD τ) (Memref.whole cc2_stg0_0) fullShare X0
                ∗ owns (c : Thread nD τ) (Memref.whole cc2_stg1_0) fullShare (epi X0)) -∗ K ⟨⟩))
      ⊢ wp frame (wpE (defs₀ (F := F)) Variants.none c none) E
          (cc2__tc_epilogue_body (Memref.whole cc2_stg0_0) h0 (Memref.whole cc2_stg1_0) h1) K := by
  simp only [owns_whole, cc2__tc_epilogue_body_eq_skeleton]; unfold cc2__tc_epilogue_body_skel
  simp only [Prog.lift, Prog.bind_op, Prog.bind_ret]
  iintro ⟨⟨H0, H1⟩, Hk⟩
  sl_steps
  iapply Hk
  have hz : (![0, 0] : Fin 2 → Nat) = fun _ => 0 := funext fun a => by fin_cases a <;> rfl
  erw [Memref.write_access_unit_zero_univ (Elt F) cc2_stg1_0 hz]
  rw [read512 c X0 0 _ (by omega), read512 c X0 1536 _ (by omega), read512 c X0 512 _ (by omega), read512 c X0 2048 _ (by omega),
    read512 c X0 1024 _ (by omega), read512 c X0 2560 _ (by omega)]
  isplitl [H0]
  · iexact H0
  · iexact H1

def rd2G (pA : Vec F S3072 .f32) (oA : Vec F S2x512 .f32) (d : Dev nD) (Φ₀ : sProp 𝕄) (O : CellTallies nD τ sig Ix) (R : Set (SemLoc sig × Ix)) : RDat τ (Elt F) Ix Name U Lvl cfg2 d where
  A w := match w with
    | ⟨0, _⟩ => pA
    | ⟨1, _⟩ => oA
  after w _ := match w with
    | ⟨0, _⟩ => fun Y X => X = Y
    | ⟨1, _⟩ => fun _ X => X = epi pA
  Φ _ := Φ₀
  q _ := fullShare
  owed _ := O
  recorded _ := R

theorem fetched2_0 (pA : Vec F S3072 .f32) (oA : Vec F S2x512 .f32) (d : Dev nD) (Φ₀ : sProp 𝕄) (O : CellTallies nD τ sig Ix) (R : Set (SemLoc sig × Ix)) (t : Fin cfg2.N) (dd : (cfg2.win 0).block.Idx → Elt F (cfg2.win 0).elt) :
    (rd2G pA oA d Φ₀ O R).fetched (0 : Fin 2) t dd = pA := by
  funext j
  unfold RDat.fetched RDat.blockOf Window.fill
  rw [dif_pos (by rfl)]
  rw [View.read_apply]
  show pA _ = pA _
  congr 1
  funext a
  refine Fin.ext ?_
  exact Window.rect_emb_val_of_index_zero (cfg2.win 0) t a rfl _

theorem body2G (pA : Vec F S3072 .f32) (oA : Vec F S2x512 .f32) (d : Dev nD) (Φ₀ : sProp 𝕄) (O : CellTallies nD τ sig Ix) (R : Set (SemLoc sig × Ix)) (ι : Ix) (E : Set Name) :
    (rd2G pA oA d Φ₀ O R).BodyObligation (defs₀ (F := F)) Variants.none ι E := fun t Y hY => by
  rw [bigSep_W2, bigSep_W2]
  obtain ⟨dd, hdd⟩ := ((rd2G pA oA d Φ₀ O R).finds_of_fetch (fetch2_0 t) (Y 0)).mp (hY 0)
  have h0 : Y 0 = pA := hdd.trans (fetched2_0 pA oA d Φ₀ O R t dd)
  rw [show (rd2G pA oA d Φ₀ O R).Φ t.succ = (rd2G pA oA d Φ₀ O R).Φ t.castSucc from rfl,
    show (rd2G pA oA d Φ₀ O R).owesAt ι t.succ = (rd2G pA oA d Φ₀ O R).owesAt ι t.castSucc from rfl]
  iintro ⟨HΦ, Ho, H0, H1⟩
  iapply (sound_body2 (F := F) d E (Y 0) (Y 1) (hstage2_0 0) (hstage2_1 0) _)
  isplitl [H0 H1]
  · isplitl [H0]
    · iexact H0
    · iexact H1
  iintro ⟨H0, H1⟩
  isplitl [HΦ]; · iexact HΦ
  isplitl [Ho]; · iexact Ho
  isplitl [H0]
  · iexists Y 0; isplitr; · ipureintro; exact rfl
    iexact H0
  · iexists epi (Y 0); isplitr; · ipureintro; exact congrArg epi h0
    iexact H1

theorem val2G (pA : Vec F S3072 .f32) (oA : Vec F S2x512 .f32) (d : Dev nD) (Φ₀ : sProp 𝕄) (O : CellTallies nD τ sig Ix) (R : Set (SemLoc sig × Ix)) (o : Buf (Elt F) ((cfg2.win 1).arr.view.loc (d.tc : Thread nD τ)))
    (h : (rd2G pA oA d Φ₀ O R).ArrAt 1 cfg2.N o) : o = epi pA := by
  have hN : cfg2.N = t2_0.val + 1 := N_2
  rw [hN, RDat.ArrAt_succ, if_pos (flush2_1 t2_0)] at h
  obtain ⟨G₀, X, -, ⟨Y, -, hX⟩, rfl⟩ := h
  have hX' : X = epi pA := hX
  subst hX'
  funext i
  have hi : ((cfg2.win 1).blk t2_0).view.emb (fun a => ⟨(i a).val, (i a).isLt⟩) = i := by
    funext a; apply Fin.ext
    exact Window.rect_emb_val_of_index_zero (cfg2.win 1) t2_0 a rfl _
  conv_lhs => rw [← hi, View.write_emb_of_mem _ _ (Finset.mem_univ _)]
  rfl

def reg2 (m : (ℓ : Loc nD τ sig) → Buf (Elt F) ℓ) (pA : Vec F S3072 .f32) (d : Dev nD) : Reg2 epi m pA d where
  rd := rd2G (Ix := HIx 1) (Name := ℕ) (U := UU) (Lvl := ℕ) pA (m ((T d : Thread nD τ).loc main_v17)) d
    (Pipeline.scopedRest (Ix := HIx 1) (Name := ℕ) (U := UU) (Lvl := ℕ) (Val := Elt F) cfg2.spec d)
    ((K (F := F)).Otc d 1) (recAt (F := F) d 1)
  hA0 := rfl
  hA1 := rfl
  hshare w := by unfold RDat.share; split <;> rfl
  howed _ := rfl
  hrec _ := rfl
  hin := .rfl
  hout := .rfl
  hbody := body2G _ _ _ _ _ _ _ _
  hval o h := val2G _ _ _ _ _ _ o h

end Cert.Proof.KI

end
-- ==== Proof.KernelValue.lean ====
import proofs.«203579_g3066606649474_cont_9to1_387_24_alg».proof.Proof.R0
import proofs.«203579_g3066606649474_cont_9to1_387_24_alg».proof.Proof.Spec
import proofs.«203579_g3066606649474_cont_9to1_387_24_alg».proof.Proof.Epi
import proofs.«203579_g3066606649474_cont_9to1_387_24_alg».proof.Proof.Vals
import Idealize.ShloMosaic.Lib.Pipeline.Value
import Idealize.ShloMosaic.PureOps.Ideal.Laws
import Idealize.ShloMosaic.Lib.ValueIdx

noncomputable section

open scoped BigOperators

namespace Cert.KernelValue

open Cert.KernelIdeal Cert.KernelIdeal.Gen Cert.Proof.KI
open Idealize.ShloMosaic Idealize.SL.Sem Idealize.ShloMosaic.ValueIdx

theorem pay1_apply (v3 : Vec Ideal S1x14336 .f32) (j : Fin 14336) :
    k0_pay1 (F := Ideal) v3 (ix1 j) = v3 (ix2 (0 : Fin 1) j) := by
  unfold k0_pay1
  exact shapeCast_apply v3 shapeCasts_S1x14336_S14336 (ix1 j) (ix2 (0 : Fin 1) j)
    (by rw [Shape.rowMajor_val_two, Shape.rowMajor_val_one]; show 0 * 14336 + j.val = j.val; omega)

theorem pay2_apply (v0 v1 : Elt Ideal .f32) (v3 : Vec Ideal S1x14336 .f32) (v5 v7 : Vec Ideal S3x14336 .f32) (j : Fin 14336) :
    k0_pay2 (F := Ideal) v0 v1 v3 v5 v7 (ix1 j)
      = (v1 * Ideal.exp (v0 * v3 (ix2 (0 : Fin 1) j)))
        * ∑ r : Fin 3, (v5 (ix2 r j) - v7 (ix2 r j)) * (v5 (ix2 r j) - v7 (ix2 r j)) := by
  unfold k0_pay2
  simp only [shapeCast_self]
  show (v1 * Ideal.exp (v0 * k0_pay1 v3 (ix1 j)))
      * multiReduction (F := Ideal) (φ := .f32) .add [0] S14336 (mulf (subf v5 v7) (subf v5 v7)) 0x00000000#32 reduces_S3x14336_S14336 (.inl rfl) rfl (ix1 j) = _
  rw [pay1_apply]
  refine congrArg (fun z : EReal => (v1 * Ideal.exp (v0 * v3 (ix2 (0 : Fin 1) j))) * z) ?_
  refine (Ideal.multiReduction_add_single _ _ reduces_S3x14336_S14336 _ _ (ix1 j)).trans ?_
  refine Finset.sum_congr rfl fun r _ => ?_
  have e : reduces_S3x14336_S14336.lift (ix1 j) r = ix2 r j := by
    funext a
    match a with
    | ⟨0, _⟩ => exact Fin.ext rfl
    | ⟨1, _⟩ => exact Fin.ext rfl
  rw [e]; rfl

theorem pay3_apply (v2 : Elt Ideal .f32) (v3 : Vec Ideal S1x14336 .f32) (v19 v21 : Vec Ideal S16x14336 .f32) (j : Fin 14336) :
    k0_pay3 (F := Ideal) v2 v3 v19 v21 (ix1 j)
      = (v2 * v3 (ix2 (0 : Fin 1) j))
        * ∑ r : Fin 16, (v19 (ix2 r j) - v21 (ix2 r j)) * (v19 (ix2 r j) - v21 (ix2 r j)) := by
  unfold k0_pay3
  simp only [shapeCast_self]
  show (v2 * k0_pay1 v3 (ix1 j))
      * multiReduction (F := Ideal) (φ := .f32) .add [0] S14336 (mulf (subf v19 v21) (subf v19 v21)) 0x00000000#32 reduces_S16x14336_S14336 (.inl rfl) rfl (ix1 j) = _
  rw [pay1_apply]
  refine congrArg (fun z : EReal => (v2 * v3 (ix2 (0 : Fin 1) j)) * z) ?_
  refine (Ideal.multiReduction_add_single _ _ reduces_S16x14336_S14336 _ _ (ix1 j)).trans ?_
  refine Finset.sum_congr rfl fun r _ => ?_
  have e : reduces_S16x14336_S14336.lift (ix1 j) r = ix2 r j := by
    funext a
    match a with
    | ⟨0, _⟩ => exact Fin.ext rfl
    | ⟨1, _⟩ => exact Fin.ext rfl
  rw [e]; rfl

section Host
variable (m : (ℓ : Loc nD τ sig) → Buf (Elt Ideal) ℓ) (d : Dev nD)

abbrev aT : FVec Ideal Cert.Spec.SNx1 .f32 := m ((d.tc : Thread nD τ).loc main_arg0)
abbrev aσ : FVec Ideal Cert.Spec.S1 .f32 := m ((d.tc : Thread nD τ).loc main_arg1)
abbrev aXp : FVec Ideal Cert.Spec.SNx3 .f32 := m ((d.tc : Thread nD τ).loc main_arg2)
abbrev aX : FVec Ideal Cert.Spec.SNx3 .f32 := m ((d.tc : Thread nD τ).loc main_arg3)
abbrev aIds : IVec Cert.Spec.SN 32 := m ((d.tc : Thread nD τ).loc main_arg4)
abbrev aβ : FVec Ideal Cert.Spec.S1 .f32 := m ((d.tc : Thread nD τ).loc main_arg5)
abbrev aOh : FVec Ideal Cert.Spec.SNx16 .f32 := m ((d.tc : Thread nD τ).loc main_arg6)
abbrev aP0 : FVec Ideal Cert.Spec.SNx16 .f32 := m ((d.tc : Thread nD τ).loc main_arg7)
abbrev aK : IVec Cert.Spec.S0 32 := m ((d.tc : Thread nD τ).loc main_arg8)

theorem cast1_0 (v : Vec Ideal S1 .f32) : shapeCast S_ v shapeCasts_S1_S_ ix0 = v (ix1 (0 : Fin 1)) :=
  shapeCast_apply v shapeCasts_S1_S_ ix0 (ix1 (0 : Fin 1))
    (by rw [Shape.rowMajor_val_one]; exact (Shape.rowMajorPi_zero _ _).symm)

theorem cast0_11 (v : Vec Ideal S_ .f32) : shapeCast S1x1 v shapeCasts_S_S1x1 (ix2 (0 : Fin 1) (0 : Fin 1)) = v ix0 :=
  shapeCast_apply v shapeCasts_S_S1x1 (ix2 (0 : Fin 1) (0 : Fin 1)) ix0
    (by rw [Shape.rowMajor_val_two]; exact Shape.rowMajorPi_zero _ _)

theorem hLog_apply : hLog m d ix0 = Cert.Spec.lnσ (aσ m d) := by
  unfold hLog Cert.Spec.lnσ
  show Ideal.log (shapeCast S_ (aσ m d) shapeCasts_S1_S_ ix0) = Ideal.log (aσ m d (ix1 (0 : Fin 1)))
  rw [cast1_0]

theorem hA_apply : hA m d (ix2 (0 : Fin 1) (0 : Fin 1)) = Cert.Spec.a (aσ m d) := by
  unfold hA
  rw [cast0_11]
  show Cert.Spec.negTwo * hLog m d ix0 = _
  rw [hLog_apply]; rfl

theorem hC1_apply : hC1 m d (ix2 (0 : Fin 1) (0 : Fin 1)) = Cert.Spec.c1 (aσ m d) := by
  unfold hC1
  rw [cast0_11]
  show -(hLog m d ix0) = _
  rw [hLog_apply]; rfl

theorem hC2_apply : hC2 m d (ix2 (0 : Fin 1) (0 : Fin 1)) = Cert.Spec.c2 (aβ m d) (aK m d) := by
  unfold hC2
  rw [cast0_11]
  show ((((aK m d) ix0).toInt : ℝ) : EReal) * shapeCast S_ (aβ m d) shapeCasts_S1_S_ ix0 = _
  rw [cast1_0]; rfl

theorem hT_apply (i : Fin 100000) : hT m d (ix2 (0 : Fin 1) i) = aT m d (ix2 i (0 : Fin 1)) := by
  unfold hT
  exact transpose_apply [1, 0] _ transposes_S100000x1_S1x100000_1_0 (ix2 (0 : Fin 1) i) (ix2 i (0 : Fin 1))
    (fun b => match b with | ⟨0, _⟩ => rfl | ⟨1, _⟩ => rfl)
theorem hXp_apply (r : Fin 3) (i : Fin 100000) : hXp m d (ix2 r i) = aXp m d (ix2 i r) := by
  unfold hXp
  exact transpose_apply [1, 0] _ transposes_S100000x3_S3x100000_1_0 (ix2 r i) (ix2 i r)
    (fun b => match b with | ⟨0, _⟩ => rfl | ⟨1, _⟩ => rfl)
theorem hX_apply (r : Fin 3) (i : Fin 100000) : hX m d (ix2 r i) = aX m d (ix2 i r) := by
  unfold hX
  exact transpose_apply [1, 0] _ transposes_S100000x3_S3x100000_1_0 (ix2 r i) (ix2 i r)
    (fun b => match b with | ⟨0, _⟩ => rfl | ⟨1, _⟩ => rfl)
theorem hOh_apply (r : Fin 16) (i : Fin 100000) : hOh m d (ix2 r i) = aOh m d (ix2 i r) := by
  unfold hOh
  exact transpose_apply [1, 0] _ transposes_S100000x16_S16x100000_1_0 (ix2 r i) (ix2 i r)
    (fun b => match b with | ⟨0, _⟩ => rfl | ⟨1, _⟩ => rfl)
theorem hP0_apply (r : Fin 16) (i : Fin 100000) : hP0 m d (ix2 r i) = aP0 m d (ix2 i r) := by
  unfold hP0
  exact transpose_apply [1, 0] _ transposes_S100000x16_S16x100000_1_0 (ix2 r i) (ix2 i r)
    (fun b => match b with | ⟨0, _⟩ => rfl | ⟨1, _⟩ => rfl)

theorem R0_ideal (lcA ldA : Vec Ideal S100352 .f32) (h : R0 (F := Ideal) m d lcA ldA) (i : Fin 100000) :
    lcA (ix1 ⟨i.val, Nat.lt_trans i.isLt (by decide)⟩) = Cert.Spec.lc (aT m d) (aσ m d) (aXp m d) (aX m d) i
    ∧ ldA (ix1 ⟨i.val, Nat.lt_trans i.isLt (by decide)⟩) = Cert.Spec.ld (aT m d) (aβ m d) (aOh m d) (aP0 m d) (aK m d) i := by
  have hi : i.val < 100000 := i.isLt
  have htl : i.val / 14336 < 7 := by omega
  have hjl : i.val % 14336 < 14336 := Nat.mod_lt _ (by decide)
  have hij : i.val / 14336 * 14336 + i.val % 14336 = i.val := by omega
  have hh : (⟨i.val / 14336, htl⟩ : Fin 7).val * 14336 + (⟨i.val % 14336, hjl⟩ : Fin 14336).val < 100000 := by
    show i.val / 14336 * 14336 + i.val % 14336 < 100000; omega
  have eN : (⟨(⟨i.val / 14336, htl⟩ : Fin 7).val * 14336 + (⟨i.val % 14336, hjl⟩ : Fin 14336).val, hh⟩ : Fin 100000) = i :=
    Fin.ext hij
  have e : lane ⟨i.val / 14336, htl⟩ ⟨i.val % 14336, hjl⟩ = ix1 ⟨i.val, Nat.lt_trans i.isLt (by decide)⟩ := by
    funext a
    match a with
    | ⟨0, _⟩ => exact Fin.ext hij
  obtain ⟨⟨tb, xpb, xb, hTb, hXpb, hXb, hlc⟩, ⟨tb', ohb, p0b, hTb', hOhb, hP0b, hld⟩⟩ := h ⟨i.val / 14336, htl⟩
  have hT0 : tb (ix2 (0 : Fin 1) ⟨i.val % 14336, hjl⟩) = aT m d (ix2 i (0 : Fin 1)) := by
    rw [hTb 0 ⟨i.val % 14336, hjl⟩ hh, eN, hT_apply]
  have hT0' : tb' (ix2 (0 : Fin 1) ⟨i.val % 14336, hjl⟩) = aT m d (ix2 i (0 : Fin 1)) := by
    rw [hTb' 0 ⟨i.val % 14336, hjl⟩ hh, eN, hT_apply]
  have hXp0 : ∀ r : Fin 3, xpb (ix2 r ⟨i.val % 14336, hjl⟩) = aXp m d (ix2 i r) := fun r => by
    rw [hXpb r ⟨i.val % 14336, hjl⟩ hh, eN, hXp_apply]
  have hX0 : ∀ r : Fin 3, xb (ix2 r ⟨i.val % 14336, hjl⟩) = aX m d (ix2 i r) := fun r => by
    rw [hXb r ⟨i.val % 14336, hjl⟩ hh, eN, hX_apply]
  have hOh0 : ∀ r : Fin 16, ohb (ix2 r ⟨i.val % 14336, hjl⟩) = aOh m d (ix2 i r) := fun r => by
    rw [hOhb r ⟨i.val % 14336, hjl⟩ hh, eN, hOh_apply]
  have hP00 : ∀ r : Fin 16, p0b (ix2 r ⟨i.val % 14336, hjl⟩) = aP0 m d (ix2 i r) := fun r => by
    rw [hP0b r ⟨i.val % 14336, hjl⟩ hh, eN, hP0_apply]
  constructor
  · rw [← e, hlc ⟨i.val % 14336, hjl⟩, pay2_apply, hA_apply, hC1_apply, hT0]
    simp only [hXp0, hX0]
    rfl
  · rw [← e, hld ⟨i.val % 14336, hjl⟩, pay3_apply, hC2_apply, hT0']
    simp only [hOh0, hP00]
    rfl

end Host

theorem sl512_apply (pA : Vec Ideal S3072 .f32) (off : Nat) (h : off + 512 ≤ 3072) (s : Fin 512) :
    sl512 pA off h (ix1 s) = pA (ix1 ⟨off + s.val, by have := s.isLt; omega⟩) := rfl

theorem epi_row0 (pA : Vec Ideal S3072 .f32) (s : Fin 512) :
    epi (F := Ideal) pA (ix2 (0 : Fin 2) s)
      = Ideal.div (sl512 pA 0 (by omega) (ix1 s) + sl512 pA 1536 (by omega) (ix1 s))
          (max (sl512 pA 1024 (by omega) (ix1 s) + sl512 pA 2560 (by omega) (ix1 s)) Cert.Spec.one) := by
  unfold epi k2_pay1
  simp only [shapeCast_self]
  refine (concatenate_pair_apply_left (t := S2x512) (s₁ := S1x512) (s₂ := S1x512) (0 : Fin 2) _ _
    concatenates_S1x512_S1x512_S2x512_d0 (ix2 (0 : Fin 2) s) rfl (ix2 (0 : Fin 1) s)
    (fun b => match b with | ⟨0, _⟩ => rfl | ⟨1, _⟩ => rfl)).trans ?_
  refine (shapeCast_apply _ shapeCasts_S512_S1x512 (ix2 (0 : Fin 1) s) (ix1 s)
    (by rw [Shape.rowMajor_val_two, Shape.rowMajor_val_one]; show s.val = 0 * 512 + s.val; omega)).trans ?_
  rfl

theorem epi_row1 (pA : Vec Ideal S3072 .f32) (s : Fin 512) :
    epi (F := Ideal) pA (ix2 (1 : Fin 2) s)
      = Ideal.div (sl512 pA 512 (by omega) (ix1 s) + sl512 pA 2048 (by omega) (ix1 s))
          (max (sl512 pA 1024 (by omega) (ix1 s) + sl512 pA 2560 (by omega) (ix1 s)) Cert.Spec.one) := by
  unfold epi k2_pay1
  simp only [shapeCast_self]
  have hi : ∀ b : Fin S1x512.rank, b.cast (rfl : S1x512.rank = S2x512.rank) ≠ (0 : Fin S2x512.rank) →
      ((ix2 (0 : Fin 1) s : S1x512.Idx) b).val = ((ix2 (1 : Fin 2) s : S2x512.Idx) (b.cast rfl)).val := by
    intro b hb
    match b, hb with
    | ⟨0, _⟩, hb => exact absurd rfl hb
    | ⟨1, _⟩, _ => rfl
  refine (concatenate_pair_apply_right (t := S2x512) (s₁ := S1x512) (s₂ := S1x512) (0 : Fin 2) _ _
    concatenates_S1x512_S1x512_S2x512_d0 (ix2 (1 : Fin 2) s) rfl rfl (ix2 (0 : Fin 1) s) hi rfl).trans ?_
  refine (shapeCast_apply _ shapeCasts_S512_S1x512 (ix2 (0 : Fin 1) s) (ix1 s)
    (by rw [Shape.rowMajor_val_two, Shape.rowMajor_val_one]; show s.val = 0 * 512 + s.val; omega)).trans ?_
  rfl

theorem sum_chunks {M : Type} [AddCommMonoid M] (g : ℕ → M) :
    ∑ c : Fin 2, ∑ v : Fin 16, ∑ k : Fin 3136, g ((c.val * 16 + v.val) * 3136 + k.val) = ∑ n : Fin 100352, g n.val := by
  have h1 : ∑ n : Fin 100352, g n.val = ∑ w : Fin 32, ∑ k : Fin 3136, g (k.val + 3136 * w.val) := by
    show ∑ n : Fin (32 * 3136), g n.val = _
    rw [← Equiv.sum_comp finProdFinEquiv, Fintype.sum_prod_type]
    rfl
  have h2 : ∀ h : ℕ → M, ∑ w : Fin 32, h w.val = ∑ c : Fin 2, ∑ v : Fin 16, h (v.val + 16 * c.val) := fun h => by
    show ∑ w : Fin (2 * 16), h w.val = _
    rw [← Equiv.sum_comp finProdFinEquiv, Fintype.sum_prod_type]
    rfl
  rw [h1, h2 (fun w => ∑ k : Fin 3136, g (k.val + 3136 * w))]
  refine Finset.sum_congr rfl fun c _ => Finset.sum_congr rfl fun v _ => Finset.sum_congr rfl fun k _ => ?_
  refine congrArg g ?_
  omega

theorem sum_nodes {M : Type} [AddCommMonoid M] (P : Fin 100000 → Prop) [DecidablePred P] (f : Fin 100000 → M) :
    ∑ n : Fin 100352, (if h : n.val < 100000 then (if P ⟨n.val, h⟩ then f ⟨n.val, h⟩ else 0) else 0)
      = ∑ i ∈ Finset.univ.filter P, f i := by
  show ∑ n : Fin (100000 + 352), (if h : n.val < 100000 then (if P ⟨n.val, h⟩ then f ⟨n.val, h⟩ else 0) else 0) = _
  rw [Fin.sum_univ_add, Finset.sum_filter]
  have hz : ∑ i : Fin 352, (if h : (Fin.natAdd 100000 i).val < 100000 then
      (if P ⟨(Fin.natAdd 100000 i).val, h⟩ then f ⟨(Fin.natAdd 100000 i).val, h⟩ else 0) else 0) = 0 :=
    Finset.sum_eq_zero fun i _ => dif_neg (by show ¬(100000 + i.val < 100000); omega)
  rw [hz, add_zero]
  refine Finset.sum_congr rfl fun i _ => ?_
  rw [dif_pos (show (Fin.castAdd 352 i).val < 100000 from i.isLt)]
  rfl

theorem foldl_add_eq_sum (f : Fin 16 → EReal) :
    (List.finRange 16).foldl (fun acc v => acc + f v) 0 = ∑ v : Fin 16, f v := by
  rw [Fin.sum_univ_def, List.sum_eq_foldl, List.foldl_map]

def AccFoldLaw : Prop :=
  ∀ (vals : Vec Ideal S3136 .f32) (idsv : IVec S3136 32), (∀ k, (idsv k).toNat < 528) → ∀ b : Fin 528,
    accFold (F := Ideal) vals idsv (ix1 b) = ∑ k ∈ Finset.univ.filter (fun k : Fin 3136 => (idsv (ix1 k)).toNat = b.val), vals (ix1 k)

section Final
variable (m : (ℓ : Loc nD τ sig) → Buf (Elt Ideal) ℓ) (d : Dev nD)

def nodeVal (a : Fin 3) (i : Fin 100000) : EReal :=
  match a with
  | 0 => Cert.Spec.lc (aT m d) (aσ m d) (aXp m d) (aX m d) i
  | 1 => Cert.Spec.ld (aT m d) (aβ m d) (aOh m d) (aP0 m d) (aK m d) i
  | 2 => Cert.Spec.one

def guarded (a : Fin 3) (s : Fin 512) (n : ℕ) : EReal :=
  if h : n < 100000 then (if (aIds m d (ix1 ⟨n, h⟩)).toNat = s.val then nodeVal m d a ⟨n, h⟩ else 0) else 0

theorem tile_sum (c : Fin 2) (v : Fin 16) (a : Fin 3) (lcv ldv : Vec Ideal S3136 .f32) (hck : ChunkOk m d c v lcv ldv)
    (s : Fin 512) :
    ∑ k ∈ Finset.univ.filter (fun k : Fin 3136 => (tileIds m d c v (ix1 k)).toNat = s.val), rowVals a lcv ldv (ix1 k)
      = ∑ k : Fin 3136, guarded m d a s (baseOf c.val v.val + k.val) := by
  obtain ⟨lcA, ldA, hR, rfl, rfl⟩ := hck
  rw [Finset.sum_filter]
  refine Finset.sum_congr rfl fun k _ => ?_
  unfold guarded tileIds
  by_cases h : baseOf c.val v.val + k.val < 100000
  · rw [dif_pos h]
    simp only [dif_pos (show baseOf c.val v.val + ((ix1 k : S3136.Idx) 0).val < 100000 from h)]
    refine if_congr Iff.rfl ?_ rfl
    have hR' := R0_ideal m d lcA ldA hR ⟨baseOf c.val v.val + k.val, h⟩
    match a with
    | 0 => exact hR'.1
    | 1 => exact hR'.2
    | 2 => rfl
  · rw [dif_neg h]
    simp only [dif_neg (show ¬(baseOf c.val v.val + ((ix1 k : S3136.Idx) 0).val < 100000) from h)]
    rw [if_neg]
    have hs : s.val < 512 := s.isLt
    show ¬((512#32 : BitVec 32).toNat = s.val)
    have : (512#32 : BitVec 32).toNat = 512 := by decide
    omega

end Final

section Final2
variable (m : (ℓ : Loc nD τ sig) → Buf (Elt Ideal) ℓ) (d : Dev nD) (pA : Vec Ideal S3072 .f32)

theorem slot_sum (hacc : AccFoldLaw) (hIds : IdsOk m d)
    (hOut : ∀ c i a, OutOk (F := Ideal) m d c i a (outSlice pA c i a))
    (c : Fin 2) (a : Fin 3) (s : Fin 512) (n : ℕ) (hlt : n < 3072) (hn : n = c.val * 1536 + a.val * 512 + s.val) :
    pA (ix1 ⟨n, hlt⟩) = ∑ v : Fin 16, ∑ k : Fin 3136, guarded m d a s (baseOf c.val v.val + k.val) := by
  have hs : s.val < 512 := s.isLt
  have hq : s.val / 32 < 16 := by omega
  have hr : s.val % 32 < 32 := Nat.mod_lt _ (by decide)
  obtain ⟨rows, hrows, ho⟩ := hOut c ⟨s.val / 32, hq⟩ a
  have h1 := ho (ix1 ⟨s.val % 32, hr⟩)
  have e1 : outSlice pA c ⟨s.val / 32, hq⟩ a (ix1 ⟨s.val % 32, hr⟩) = pA (ix1 ⟨n, hlt⟩) := by
    unfold outSlice
    refine congrArg pA ?_
    funext x
    match x with
    | ⟨0, _⟩ => exact Fin.ext (by show c.val * 1536 + a.val * 512 + s.val / 32 * 32 + s.val % 32 = n; omega)
  have e2 : ∀ v, rows v (ix1 ⟨(⟨s.val / 32, hq⟩ : Fin 16).val * 32 + ((ix1 ⟨s.val % 32, hr⟩ : S32.Idx) 0).val, by
      show s.val / 32 * 32 + s.val % 32 < 512; omega⟩) = rows v (ix1 s) := fun v =>
    congrArg (rows v) (by
      funext x
      match x with
      | ⟨0, _⟩ => exact Fin.ext (by show s.val / 32 * 32 + s.val % 32 = s.val; omega))
  rw [← e1, h1]
  simp only [e2]
  rw [show (Scalar.ofBits (F := Ideal) .f32 0x00000000#32 : EReal) = 0 from Ideal.ofBits_zero_f32]
  refine (foldl_add_eq_sum fun v => rows v (ix1 s)).trans ?_
  refine Finset.sum_congr rfl fun v _ => ?_
  obtain ⟨lcv, ldv, hck, hrow⟩ := hrows v
  rw [hrow]
  show accFold (rowVals a lcv ldv) (tileIds m d c v) (ix1 (⟨s.val, by omega⟩ : Fin 528)) = _
  rw [hacc _ _ (tileIds_lt hIds c v) ⟨s.val, by omega⟩]
  exact tile_sum m d c v a lcv ldv hck s

theorem pair_sum (hacc : AccFoldLaw) (hIds : IdsOk m d)
    (hOut : ∀ c i a, OutOk (F := Ideal) m d c i a (outSlice pA c i a))
    (a : Fin 3) (s : Fin 512) (n0 n1 : ℕ) (h0 : n0 < 3072) (h1 : n1 < 3072)
    (hn0 : n0 = a.val * 512 + s.val) (hn1 : n1 = 1536 + a.val * 512 + s.val) :
    pA (ix1 ⟨n0, h0⟩) + pA (ix1 ⟨n1, h1⟩) = ∑ i ∈ Cert.Spec.seg (aIds m d) s, nodeVal m d a i := by
  have e0 := slot_sum m d pA hacc hIds hOut ⟨0, Nat.zero_lt_two⟩ a s n0 h0 (hn0.trans (by simp))
  have e1 := slot_sum m d pA hacc hIds hOut ⟨1, Nat.one_lt_two⟩ a s n1 h1 (hn1.trans (by simp))
  rw [e0, e1]
  have h := sum_chunks (guarded m d a s)
  rw [Fin.sum_univ_two] at h
  exact h.trans (sum_nodes (fun i : Fin 100000 => (aIds m d (ix1 i)).toNat = s.val) (nodeVal m d a))

theorem final_ideal (hacc : AccFoldLaw) (hIds : IdsOk m d)
    (hOut : ∀ c i a, OutOk (F := Ideal) m d c i a (outSlice pA c i a)) :
    epi (F := Ideal) pA
      = Cert.Spec.out (aT m d) (aσ m d) (aXp m d) (aX m d) (aIds m d) (aβ m d) (aOh m d) (aP0 m d) (aK m d) := by
  funext j
  obtain ⟨r, s, rfl⟩ : ∃ (r : Fin 2) (s : Fin 512), j = ix2 r s := ⟨j 0, j 1, eq_ix2 j⟩
  have hs : s.val < 512 := s.isLt
  have hcnt := pair_sum m d pA hacc hIds hOut ⟨2, by decide⟩ s (1024 + s.val) (2560 + s.val) (by omega) (by omega)
    (by show 1024 + s.val = 2 * 512 + s.val; omega) (by show 2560 + s.val = 1536 + 2 * 512 + s.val; omega)
  match r with
  | ⟨0, _⟩ =>
    have hsum := pair_sum m d pA hacc hIds hOut ⟨0, by decide⟩ s (0 + s.val) (1536 + s.val) (by omega) (by omega)
      (by show 0 + s.val = 0 * 512 + s.val; omega) (by show 1536 + s.val = 1536 + 0 * 512 + s.val; omega)
    refine (epi_row0 pA s).trans ?_
    rw [sl512_apply, sl512_apply, sl512_apply, sl512_apply, hsum, hcnt]
    exact (Cert.Spec.out_row0 _ _ _ _ _ _ _ _ _ s).symm
  | ⟨1, _⟩ =>
    have hsum := pair_sum m d pA hacc hIds hOut ⟨1, by decide⟩ s (512 + s.val) (2048 + s.val) (by omega) (by omega)
      (by show 512 + s.val = 1 * 512 + s.val; omega) (by show 2048 + s.val = 1536 + 1 * 512 + s.val; omega)
    refine (epi_row1 pA s).trans ?_
    rw [sl512_apply, sl512_apply, sl512_apply, sl512_apply, hsum, hcnt]
    exact (Cert.Spec.out_row1 _ _ _ _ _ _ _ _ _ s).symm

end Final2

end Cert.KernelValue

end
-- ==== Proof.ClaimsKI.lean ====
import proofs.«203579_g3066606649474_cont_9to1_387_24_alg».proof.Defs
import proofs.«203579_g3066606649474_cont_9to1_387_24_alg».proof.Proof.Gen.KernelIdeal
import proofs.«203579_g3066606649474_cont_9to1_387_24_alg».proof.Proof.Gen.ReferenceIdeal
import proofs.«203579_g3066606649474_cont_9to1_387_24_alg».proof.Proof.Gen.Pre_input_domain
import proofs.«203579_g3066606649474_cont_9to1_387_24_alg».proof.Proof.Run
import proofs.«203579_g3066606649474_cont_9to1_387_24_alg».proof.Proof.Region0
import proofs.«203579_g3066606649474_cont_9to1_387_24_alg».proof.Proof.Region2
import proofs.«203579_g3066606649474_cont_9to1_387_24_alg».proof.Proof.TileLoop
import proofs.«203579_g3066606649474_cont_9to1_387_24_alg».proof.Proof.KernelValue
import proofs.«203579_g3066606649474_cont_9to1_387_24_alg».proof.Proof.ClaimsRef

noncomputable section

namespace Cert.Proof.ClaimsKI

open Idealize.ShloMosaic Idealize.SL.Sem
open Cert.Proof.KI

theorem frame_ki : Cert.frame_KernelIdeal := fun m ρ hpre =>
  (θ_run Cert.KernelIdeal.defs _ _).mono
    (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1⟩)
    (run_main_pre (F := Ideal) m ρ epi (fun d => reg0 m d) (fun pA d => reg2 m pA d) hpre)

theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun _ h c => ?_)
      (run_main_pre (F := Ideal) m ρ epi (fun d => reg0 m d) (fun pA d => reg2 m pA d) hpre)
    obtain ⟨h0, h1, h2, h3, h4, h5, h6, h7, h8, pA, hok, hv⟩ := h c
    exact ⟨hv.trans (Cert.KernelValue.final_ideal m c pA (fun vals idsv hh b => accFold_ideal vals idsv hh b)
      (idsOk_of_pre m c (hpre c)) hok), h0, h1, h2, h3, h4, h5, h6, h7, h8⟩
  · have hpre' : Cert.Pre_ReferenceIdeal m' := fun c => by
      obtain ⟨e0, e1, e2, e3, e4, e5, e6, e7, e8⟩ := hagree c
      have h := hpre c
      rw [← e0, ← e1, ← e2, ← e3, ← e4, ← e5, ← e6, ← e7, ← e8] at h
      exact h
    refine (θ_run Cert.ReferenceIdeal.defs _ _).mono (fun _ h c => ?_) (Cert.Proof.ClaimsRef.ref_run_spec m' ρ' hpre')
    obtain ⟨e0, e1, e2, e3, e4, e5, e6, e7, e8⟩ := hagree c
    obtain ⟨hv, hrest⟩ := h c
    refine ⟨?_, hrest⟩
    rw [hv, e0, e1, e2, e3, e4, e5, e6, e7, e8]

end Cert.Proof.ClaimsKI

end
-- ==== Proof.Bits.R0.lean ====
import proofs.«203579_g3066606649474_cont_9to1_387_24_alg».proof.Proof.Gen.Kernel.Skeleton
import Idealize.ShloMosaic.Lib.ValueIdx

noncomputable section

namespace Cert.Proof.KB

open Cert.Kernel Cert.Kernel.Gen
open Idealize.ShloMosaic Idealize.SL.Sem
open Idealize.ShloMosaic.ValueIdx (ix1 ix2)

variable {F : FTy → Type} [FloatOps F]

section Host
variable (m : (ℓ : Loc nD τ sig) → Buf (Elt F) ℓ) (d : Dev nD)

def hLog : Vec F S_ .f32 :=
  (Host.log : (⟨S_, .f32⟩ : BufTy).Contents (Elt F) → (⟨S_, .f32⟩ : BufTy).Contents (Elt F))
    (shapeCast S_ (m ((d.tc : Thread nD τ).loc main_arg1)) shapeCasts_S1_S_)

def hA : Vec F S1x1 .f32 :=
  shapeCast S1x1 ((mulf : (⟨S_, .f32⟩ : BufTy).Contents (Elt F) → (⟨S_, .f32⟩ : BufTy).Contents (Elt F) → (⟨S_, .f32⟩ : BufTy).Contents (Elt F))
    (constant S_ .f32 0xC0000000#32) (hLog m d)) shapeCasts_S_S1x1

def hC1 : Vec F S1x1 .f32 :=
  shapeCast S1x1 ((Host.negf : (⟨S_, .f32⟩ : BufTy).Contents (Elt F) → (⟨S_, .f32⟩ : BufTy).Contents (Elt F)) (hLog m d)) shapeCasts_S_S1x1

def hC2 : Vec F S1x1 .f32 :=
  shapeCast S1x1 ((mulf : (⟨S_, .f32⟩ : BufTy).Contents (Elt F) → (⟨S_, .f32⟩ : BufTy).Contents (Elt F) → (⟨S_, .f32⟩ : BufTy).Contents (Elt F))
    ((sitofp .f32 : (⟨S_, .i32⟩ : BufTy).Contents (Elt F) → (⟨S_, .f32⟩ : BufTy).Contents (Elt F)) (m ((d.tc : Thread nD τ).loc main_arg8)))
    (shapeCast S_ (m ((d.tc : Thread nD τ).loc main_arg5)) shapeCasts_S1_S_)) shapeCasts_S_S1x1

def hT : Vec F S1x100000 .f32 :=
  transpose S1x100000 [1, 0] (m ((d.tc : Thread nD τ).loc main_arg0)) transposes_S100000x1_S1x100000_1_0

def hXp : Vec F S3x100000 .f32 :=
  transpose S3x100000 [1, 0] (m ((d.tc : Thread nD τ).loc main_arg2)) transposes_S100000x3_S3x100000_1_0

def hX : Vec F S3x100000 .f32 :=
  transpose S3x100000 [1, 0] (m ((d.tc : Thread nD τ).loc main_arg3)) transposes_S100000x3_S3x100000_1_0

def hOh : Vec F S16x100000 .f32 :=
  transpose S16x100000 [1, 0] (m ((d.tc : Thread nD τ).loc main_arg6)) transposes_S100000x16_S16x100000_1_0

def hP0 : Vec F S16x100000 .f32 :=
  transpose S16x100000 [1, 0] (m ((d.tc : Thread nD τ).loc main_arg7)) transposes_S100000x16_S16x100000_1_0

end Host

def BlkOf {r : Nat} (A : Vec F ⟨2, ![r, 100000]⟩ .f32) (t : Fin 7) (b : Vec F ⟨2, ![r, 14336]⟩ .f32) : Prop :=
  ∀ (i : Fin r) (j : Fin 14336) (h : t.val * 14336 + j.val < 100000), b (ix2 i j) = A (ix2 i ⟨t.val * 14336 + j.val, h⟩)

abbrev lane (t : Fin 7) (j : Fin 14336) : S100352.Idx :=
  ix1 ⟨t.val * 14336 + j.val, by have := t.isLt; have := j.isLt; omega⟩

def R0 (m : (ℓ : Loc nD τ sig) → Buf (Elt F) ℓ) (d : Dev nD) (lcA ldA : Vec F S100352 .f32) : Prop :=
  ∀ t : Fin 7,
    (∃ (tb : Vec F S1x14336 .f32) (xpb xb : Vec F S3x14336 .f32),
      BlkOf (hT m d) t tb ∧ BlkOf (hXp m d) t xpb ∧ BlkOf (hX m d) t xb ∧
      ∀ j : Fin 14336, lcA (lane t j) = k0_pay2 (hA m d (ix2 0 0)) (hC1 m d (ix2 0 0)) tb xpb xb (ix1 j)) ∧
    (∃ (tb : Vec F S1x14336 .f32) (ohb p0b : Vec F S16x14336 .f32),
      BlkOf (hT m d) t tb ∧ BlkOf (hOh m d) t ohb ∧ BlkOf (hP0 m d) t p0b ∧
      ∀ j : Fin 14336, ldA (lane t j) = k0_pay3 (hC2 m d (ix2 0 0)) tb ohb p0b (ix1 j))

end Cert.Proof.KB

end
-- ==== Proof.Bits.Vals.lean ====
import proofs.«203579_g3066606649474_cont_9to1_387_24_alg».proof.Proof.Bits.R0
import Idealize.ShloMosaic.Lib.ValueIdx

noncomputable section

namespace Cert.Proof.KB

open Cert.Kernel Cert.Kernel.Gen
open Idealize.ShloMosaic Idealize.SL.Sem

variable {F : FTy → Type} [FloatOps F]

def baseOf (c i : Nat) : Nat := (c * 16 + i) * 3136

theorem baseOf_add_lt {c i : Nat} (hc : c < 2) (hi : i < 16) (k : Fin 3136) : baseOf c i + k.val < 100352 := by
  unfold baseOf; have := k.isLt; omega

def chunkOf (A : Vec F S100352 .f32) (c : Fin 2) (i : Fin 16) : Vec F S3136 .f32 :=
  fun k => A (ValueIdx.ix1 ⟨baseOf c.val i.val + (k 0).val, baseOf_add_lt c.isLt i.isLt (k 0)⟩)

def ChunkOk (m : (ℓ : Loc nD τ sig) → Buf (Elt F) ℓ) (d : Dev nD) (c : Fin 2) (i : Fin 16) (lcv ldv : Vec F S3136 .f32) : Prop :=
  ∃ lcA ldA : Vec F S100352 .f32, R0 m d lcA ldA ∧ lcv = chunkOf lcA c i ∧ ldv = chunkOf ldA c i

def tileIds (m : (ℓ : Loc nD τ sig) → Buf (Elt F) ℓ) (d : Dev nD) (c : Fin 2) (i : Fin 16) : IVec S3136 32 :=
  fun k => if h : baseOf c.val i.val + (k 0).val < 100000 then (m ((d.tc : Thread nD τ).loc main_arg4)) (ValueIdx.ix1 ⟨_, h⟩) else 512#32

def IdsOk (m : (ℓ : Loc nD τ sig) → Buf (Elt F) ℓ) (d : Dev nD) : Prop :=
  ∀ j : S100000.Idx, ((m ((d.tc : Thread nD τ).loc main_arg4)) j : BitVec 32).toNat ≤ 511

def accZero : Vec F S528 .f32 := fun _ => Scalar.ofBits .f32 0x00000000#32

open Classical in

def accStep (vals : Vec F S3136 .f32) (idsv : IVec S3136 32) (k : Fin k1_t1_loop.trips) (acc : Vec F S528 .f32) : Vec F S528 .f32 :=
  if h1 : ∀ a x, ((![k1_pay6 k] : Fin 1 → IVec S16 32) a x).toNat < S3136.size a then
    if h2 : ∀ a x, ((![loadIdx (F := F) (e := .i32) idsv ![k1_pay6 k] h1] : Fin 1 → IVec S16 32) a x).toNat < S528.size a then
      storeIdx acc ![loadIdx (F := F) (e := .i32) idsv ![k1_pay6 k] h1] (loadIdx vals ![k1_pay6 k] h1) (k1_pay5 k) true h2
    else acc
  else acc

def accPre (vals : Vec F S3136 .f32) (idsv : IVec S3136 32) : ℕ → Vec F S528 .f32
  | 0 => accZero
  | n + 1 => if h : n < k1_t1_loop.trips then accStep vals idsv ⟨n, h⟩ (accPre vals idsv n) else accPre vals idsv n

def accFold (vals : Vec F S3136 .f32) (idsv : IVec S3136 32) : Vec F S528 .f32 := accPre vals idsv k1_t1_loop.trips

def onesV : Vec F S3136 .f32 := fun _ => Scalar.ofBits .f32 0x3F800000#32

def rowVals (a : Fin 3) (lcv ldv : Vec F S3136 .f32) : Vec F S3136 .f32 :=
  match a with | 0 => lcv | 1 => ldv | 2 => onesV

def binsOf (g : Vec F S528 .f32) : Vec F S512 .f32 :=
  fun b => g (ValueIdx.ix1 ⟨(b 0).val, Nat.lt_of_lt_of_le (b 0).isLt (by decide)⟩)

def AccOk (m : (ℓ : Loc nD τ sig) → Buf (Elt F) ℓ) (d : Dev nD) (c : Fin 2) (v : Fin 16) (a : Fin 3) (f : Vec F S512 .f32) : Prop :=
  ∃ lcv ldv : Vec F S3136 .f32, ChunkOk m d c v lcv ldv ∧ f = binsOf (accFold (rowVals a lcv ldv) (tileIds m d c v))

theorem tileIds_lt {m : (ℓ : Loc nD τ sig) → Buf (Elt F) ℓ} {d : Dev nD} (h : IdsOk m d) (c : Fin 2) (i : Fin 16) (k : S3136.Idx) :
    (tileIds m d c i k).toNat < 528 := by
  unfold tileIds
  split
  · exact Nat.lt_of_le_of_lt (h _) (by decide)
  · decide

def OutOk (m : (ℓ : Loc nD τ sig) → Buf (Elt F) ℓ) (d : Dev nD) (c : Fin 2) (i : Fin 16) (a : Fin 3) (o : Vec F S32 .f32) : Prop :=
  ∃ rows : Fin 16 → Vec F S512 .f32, (∀ v, AccOk m d c v a (rows v)) ∧
    ∀ r : S32.Idx, o r = (List.finRange 16).foldl (fun acc v => FloatOps.addf acc (rows v (ValueIdx.ix1 ⟨i.val * 32 + (r 0).val, by
      have := i.isLt; have hr : (r 0).val < 32 := (r 0).isLt; show i.val * 32 + (r 0).val < 512; omega⟩))) (Scalar.ofBits .f32 0x00000000#32)

def outSlice (pA : Vec F S3072 .f32) (c : Fin 2) (i : Fin 16) (a : Fin 3) : Vec F S32 .f32 :=
  fun r => pA (ValueIdx.ix1 ⟨c.val * 1536 + a.val * 512 + i.val * 32 + (r 0).val, by have := c.isLt; have := i.isLt; have := a.isLt; have hr : (r 0).val < 32 := (r 0).isLt; omega⟩)

def shRowOf (f : Vec F S3x16x1x512 .f32) (a : Fin 3) (v : Fin 16) : Vec F S512 .f32 :=
  fun b => f (fun x => match x with | ⟨0, _⟩ => a | ⟨1, _⟩ => v | ⟨2, _⟩ => (0 : Fin 1) | ⟨3, _⟩ => b 0)

end Cert.Proof.KB

end
-- ==== Proof.Bits.Setup.lean ====
import proofs.«203579_g3066606649474_cont_9to1_387_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic
import proofs.«203579_g3066606649474_cont_9to1_387_24_alg».proof.Proof.Gen.Kernel
import proofs.«203579_g3066606649474_cont_9to1_387_24_alg».proof.Proof.Gen.Kernel.Skeleton
import proofs.«203579_g3066606649474_cont_9to1_387_24_alg».proof.Proof.Gen.Kernel.Launch
import proofs.«203579_g3066606649474_cont_9to1_387_24_alg».proof.Proof.Gen.Kernel.Points
import proofs.«203579_g3066606649474_cont_9to1_387_24_alg».proof.Proof.Bits.Vals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
def ER : Emb UR (MT nD τ sig (HIx 1) (Elt F) ℕ UU ℕ) :=
  (((Emb.inl : Emb UR (UR × Counters)).trans (Emb.inr : Emb (UR × Counters) (UB × (UR × Counters)))).trans
      (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

variable (m : (ℓ : Loc nD τ sig) → Buf (Elt F) ℓ) (ρ : Dev nD → PrngReg)

abbrev lcLoc (d : Dev nD) : Loc nD τ sig := (SparseCore.T d).loc main_v15_0
abbrev ldLoc (d : Dev nD) : Loc nD τ sig := (SparseCore.T d).loc main_v15_1
abbrev idsLoc (d : Dev nD) : Loc nD τ sig := (SparseCore.T d).loc main_arg4
abbrev pLoc (d : Dev nD) : Loc nD τ sig := (SparseCore.T d).loc main_v16
abbrev shRef (c : Fin τ.nSC) : DevRef τ sig := ⟨.shared, ⟨0, by decide⟩, c⟩
abbrev shLoc (d : Dev nD) (c : Fin τ.nSC) : Loc nD τ sig := (d, shRef c)

def coreSet (c : Nat) : Finset S100352.Idx := Finset.univ.filter fun j => c * 50176 ≤ (j 0).val ∧ (j 0).val < (c + 1) * 50176
def chunkSet (c i : Nat) : Finset S100352.Idx := Finset.univ.filter fun j => baseOf c i ≤ (j 0).val ∧ (j 0).val < baseOf c i + 3136
def idsCoreSet (c : Nat) : Finset S100000.Idx := Finset.univ.filter fun j => c * 50176 ≤ (j 0).val ∧ (j 0).val < (c + 1) * 50176
def idsSet (c i : Nat) : Finset S100000.Idx := Finset.univ.filter fun j => baseOf c i ≤ (j 0).val ∧ (j 0).val < baseOf c i + 3136
def outCoreSet (c : Nat) : Finset S3072.Idx := Finset.univ.filter fun j => c * 1536 ≤ (j 0).val ∧ (j 0).val < (c + 1) * 1536
def outSets (c i : Nat) : Finset S3072.Idx :=
  Finset.univ.filter fun j => ∃ a : Fin 3, c * 1536 + a.val * 512 + i * 32 ≤ (j 0).val ∧ (j 0).val < c * 1536 + a.val * 512 + i * 32 + 32
def shRows (v : Nat) : Finset S3x16x1x512.Idx := Finset.univ.filter fun j => (j 1).val = v
def shBlk (v i : Nat) : Finset S3x16x1x512.Idx := Finset.univ.filter fun j => (j 1).val = v ∧ i * 32 ≤ (j 3).val ∧ (j 3).val < i * 32 + 32
def shCols (i : Nat) : Finset S3x16x1x512.Idx := Finset.univ.filter fun j => i * 32 ≤ (j 3).val ∧ (j 3).val < i * 32 + 32

variable [FloatOps F]

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

def bPay (g : GSem nD τ sig) (n : ℕ) : sProp 𝕄 :=
  match g with
  | ((d, .scVector c j), _) =>
    if hn : n < 16 then
      iprop(∃ f : Buf (Elt F) (shLoc d c), ⌜∀ a : Fin 3, AccOk m d (Fin.cast nSC_eq c) ⟨n, hn⟩ a (shRowOf f a ⟨n, hn⟩)⌝ ∗ (shLoc d c ↦[shBlk n j.val]{fullShare} f))
    else iprop(emp)
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

def stP (d : Dev nD) (c : Nat) : sProp 𝕄 :=
  iprop((∃ lcA ldA : Vec F S100352 .f32, ⌜R0 m d lcA ldA⌝ ∗ (lcLoc d ↦[coreSet c]{fullShare} lcA) ∗ (ldLoc d ↦[coreSet c]{fullShare} ldA))
    ∗ ⌜IdsOk m d⌝ ∗ (idsLoc d ↦[idsCoreSet c]{fullShare} m (idsLoc d)) ∗ ∃ f, (pLoc d ↦[outCoreSet c]{fullShare} f))
def dnP (d : Dev nD) (c : Fin 2) : sProp 𝕄 :=
  iprop((∃ f, (lcLoc d ↦[coreSet c.val]{fullShare} f)) ∗ (∃ f, (ldLoc d ↦[coreSet c.val]{fullShare} f))
    ∗ (idsLoc d ↦[idsCoreSet c.val]{fullShare} m (idsLoc d))
    ∗ ∃ pA : Vec F S3072 .f32, ⌜∀ (i : Fin 16) (a : Fin 3), OutOk m d c i a (outSlice pA c i a)⌝ ∗ (pLoc d ↦[outCoreSet c.val]{fullShare} pA))
def goP (d : Dev nD) (c : Fin τ.nSC) (i : Nat) : sProp 𝕄 :=
  iprop((∃ lcA ldA : Vec F S100352 .f32, ⌜R0 m d lcA ldA⌝ ∗ (lcLoc d ↦[chunkSet c.val i]{fullShare} lcA) ∗ (ldLoc d ↦[chunkSet c.val i]{fullShare} ldA))
    ∗ ⌜IdsOk m d⌝ ∗ (idsLoc d ↦[idsSet c.val i]{fullShare} m (idsLoc d)) ∗ (∃ f, (pLoc d ↦[outSets c.val i]{fullShare} f))
    ∗ ∃ f, (shLoc d c ↦[shRows i]{fullShare} f))
def tdP (d : Dev nD) (c : Fin τ.nSC) (i : Fin 16) : sProp 𝕄 :=
  iprop((∃ f, (lcLoc d ↦[chunkSet c.val i.val]{fullShare} f)) ∗ (∃ f, (ldLoc d ↦[chunkSet c.val i.val]{fullShare} f))
    ∗ (idsLoc d ↦[idsSet c.val i.val]{fullShare} m (idsLoc d))
    ∗ (∃ pA : Vec F S3072 .f32, ⌜∀ a : Fin 3, OutOk m d (Fin.cast nSC_eq c) i a (outSlice pA (Fin.cast nSC_eq c) i a)⌝ ∗ (pLoc d ↦[outSets c.val i.val]{fullShare} pA))
    ∗ ∃ f, (shLoc d c ↦[shCols i.val]{fullShare} f))

def P : (K (F := F)).Pay (nD := nD) (Val := Elt F) (Name := ℕ) (U := UU) where
  st := fun q d c => match q with | 0 => stP m d (coreOf c).val
  dn := fun q d c => match q with | 0 => dnP m d (Fin.cast nSC_eq (coreOf c))
  go := fun q d c i => match q with | 0 => goP m d (coreOf c) i.val
  td := fun q d c i => match q with | 0 => tdP m d (coreOf c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by show BI.Storable (upEmb : UEmb _ 𝕄) (stP m d (coreOf c).val); unfold stP; infer_instance
  dn q d c := match q with
    | 0 => by show BI.Storable (upEmb : UEmb _ 𝕄) (dnP m d (Fin.cast nSC_eq (coreOf c))); unfold dnP; infer_instance
  go q d c i := match q with
    | 0 => by show BI.Storable (upEmb : UEmb _ 𝕄) (goP m d (coreOf c) i.val); unfold goP; infer_instance
  td q d c i := match q with
    | 0 => by show BI.Storable (upEmb : UEmb _ 𝕄) (tdP m d (coreOf c) (Fin.cast nSub_zero i)); unfold tdP; infer_instance

end Cert.Proof.KB

end
-- ==== Proof.Bits.VecSplit.lean ====
import proofs.«203579_g3066606649474_cont_9to1_387_24_alg».proof.Proof.Bits.Setup
import Idealize.ShloMosaic.Rules.PointsTo
import Idealize.SL.ProofMode.BigOp

noncomputable section

namespace Cert.Proof.KB

open Cert.Kernel Cert.Kernel.Gen

open Idealize.ShloMosaic
open Idealize.ShloMosaic.SparseCore (S V T)
open Idealize.ShloMosaic.SparseCore.Cfg (HIx ownBufs ownRefs mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

def Parts {ι : Type} [DecidableEq ι] (Kf : Fin 16 → Finset ι) (Sset : Finset ι) : Prop :=
  (∀ i ∈ Finset.univ, ∀ j ∈ Finset.univ, i ≠ j → Disjoint (Kf i) (Kf j)) ∧ Finset.univ.biUnion Kf = Sset

-- Every point of the whole lies in the one part its key names: so the parts are disjoint and cover it.
theorem parts_key {ι : Type} [DecidableEq ι] {Kf : Fin 16 → Finset ι} {Sset : Finset ι} (k : ι → ℕ)
    (h : ∀ (i : Fin 16) x, x ∈ Kf i ↔ x ∈ Sset ∧ k x = i.val) (hk : ∀ x ∈ Sset, k x < 16) : Parts Kf Sset :=
  ⟨fun i _ j _ hij => Finset.disjoint_left.mpr fun x h1 h2 => hij (Fin.ext (((h i x).mp h1).2.symm.trans ((h j x).mp h2).2)),
    Finset.ext fun x => by
      rw [Finset.mem_biUnion]
      exact ⟨fun ⟨i, _, hi⟩ => ((h i x).mp hi).1, fun hx => ⟨⟨k x, hk x hx⟩, Finset.mem_univ _, (h _ x).mpr ⟨hx, rfl⟩⟩⟩⟩

theorem chunk_parts (c : Nat) : Parts (fun i : Fin 16 => chunkSet c i.val) (coreSet c) :=
  parts_key (fun x => ((x 0).val - c * 50176) / 3136)
    (fun i x => by simp only [chunkSet, coreSet, Finset.mem_filter_univ]; unfold baseOf; have := i.isLt; omega)
    fun x hx => by simp only [coreSet, Finset.mem_filter_univ] at hx; omega

theorem ids_parts (c : Nat) : Parts (fun i : Fin 16 => idsSet c i.val) (idsCoreSet c) :=
  parts_key (fun x => ((x 0).val - c * 50176) / 3136)
    (fun i x => by simp only [idsSet, idsCoreSet, Finset.mem_filter_univ]; unfold baseOf; have := i.isLt; omega)
    fun x hx => by simp only [idsCoreSet, Finset.mem_filter_univ] at hx; omega

theorem out_parts (c : Nat) : Parts (fun i : Fin 16 => outSets c i.val) (outCoreSet c) :=
  parts_key (fun x => ((x 0).val - c * 1536) % 512 / 32)
    (fun i x => by
      simp only [outSets, outCoreSet, Finset.mem_filter_univ]
      have := i.isLt
      exact ⟨fun ⟨a, h1, h2⟩ => by have := a.isLt; omega,
        fun ⟨h1, h2⟩ => ⟨⟨((x 0).val - c * 1536) / 512, by omega⟩, by dsimp only; omega, by dsimp only; omega⟩⟩)
    fun x hx => by omega

theorem shRows_parts : Parts (fun i : Fin 16 => shRows i.val) Finset.univ :=
  parts_key (fun x => (x 1).val) (fun i x => by simp only [shRows, Finset.mem_filter_univ, Finset.mem_univ, true_and]) fun x _ => (x 1).isLt

theorem shCols_parts : Parts (fun i : Fin 16 => shCols i.val) Finset.univ :=
  parts_key (fun x => (x 3).val / 32) (fun i x => by simp only [shCols, Finset.mem_filter_univ, Finset.mem_univ, true_and]; omega)
    fun x _ => by have h : (x 3).val < 512 := (x 3).isLt; omega

section
variable (ℓ : Loc nD τ sig) {Kf : Fin 16 → Finset (Idx ℓ)} {Sset : Finset (Idx ℓ)} (h : Parts Kf Sset)
include h

theorem pts_parts (f : Buf (Elt F) ℓ) :
    (ℓ ↦[Sset]{fullShare} f : sProp 𝕄) = bigSep Finset.univ fun i => ℓ ↦[Kf i]{fullShare} f := by
  rw [← h.2]; exact pointsTo_biUnion Finset.univ Kf h.1

theorem pts_join (fs : Fin 16 → Buf (Elt F) ℓ) :
    (bigSep Finset.univ fun i => ℓ ↦[Kf i]{fullShare} fs i)
      ⊢ (iprop(∃ g, ⌜∀ i ∈ Finset.univ, ∀ x ∈ Kf i, g x = fs i x⌝ ∗ ℓ ↦[Sset]{fullShare} g) : sProp 𝕄) := by
  rw [← h.2]; exact pointsTo_biUnion_join Finset.univ Kf fs (fs 0) h.1

theorem pts_join_ex (hne : Nonempty (Buf (Elt F) ℓ)) :
    (bigSep Finset.univ fun i => iprop(∃ f, ℓ ↦[Kf i]{fullShare} f)) ⊢ (iprop(∃ g, ℓ ↦[Sset]{fullShare} g) : sProp 𝕄) := by
  refine (bigSep_exists_pi Finset.univ fun i f => (ℓ ↦[Kf i]{fullShare} f : sProp 𝕄)).trans ?_
  iintro ⟨%fs, H⟩
  ihave H' := (pts_join ℓ h fs) $$ H
  icases H' with ⟨%g, -, Hg⟩
  iexists g; iexact Hg

end

variable (m : (ℓ : Loc nD τ sig) → Buf (Elt F) ℓ) [FloatOps F]

theorem split_go (d : Dev nD) (C : Fin τ.nSC) :
    iprop(stP m d C.val ∗ ∃ f, shLoc d C ↦{fullShare} f) ⊢ (bigSep Finset.univ fun i : Fin 16 => goP m d C i.val : sProp 𝕄) := by
  unfold stP
  simp only [pts_parts (lcLoc d) (chunk_parts C.val), pts_parts (ldLoc d) (chunk_parts C.val), pts_parts (idsLoc d) (ids_parts C.val),
    pts_parts (pLoc d) (out_parts C.val), pts_parts (shLoc d C) shRows_parts]
  iintro ⟨⟨⟨%lcA, %ldA, %hR, Hlc, Hld⟩, %hI, Hids, ⟨%fo, Ho⟩⟩, ⟨%fsh, Hsh⟩⟩
  have key (i : Fin 16) : iprop((lcLoc d ↦[chunkSet C.val i.val]{fullShare} lcA) ∗ (ldLoc d ↦[chunkSet C.val i.val]{fullShare} ldA)
      ∗ (idsLoc d ↦[idsSet C.val i.val]{fullShare} m (idsLoc d)) ∗ (pLoc d ↦[outSets C.val i.val]{fullShare} fo)
      ∗ (shLoc d C ↦[shRows i.val]{fullShare} fsh)) ⊢ (goP m d C i.val : sProp 𝕄) := by
    unfold goP
    iintro ⟨H1, H2, H3, H4, H5⟩
    isplitl [H1 H2]
    · iexists lcA, ldA; iframe; ipureintro; exact hR
    isplitr; · ipureintro; exact hI
    iframe
    isplitl [H4]; · iexists fo; iexact H4
    iexists fsh; iexact H5
  iapply (SparseCore.ent (bigSep_mono (s := Finset.univ) fun i _ => key i))
  rw [bigSep_sep', bigSep_sep', bigSep_sep', bigSep_sep']
  iframe

theorem join_td (d : Dev nD) (C : Fin τ.nSC) :
    (bigSep Finset.univ fun i : Fin 16 => tdP m d C i) ⊢ (iprop(dnP m d (Fin.cast nSC_eq C) ∗ ∃ f, shLoc d C ↦{fullShare} f) : sProp 𝕄) := by
  haveI : Nonempty (Vec F S3072 .f32) := ⟨fun _ => FloatOps.ofBits .f32 0⟩
  unfold tdP dnP
  simp only [Fin.val_cast]
  rw [bigSep_sep', bigSep_sep', bigSep_sep', bigSep_sep', pts_parts (idsLoc d) (ids_parts C.val)]
  iintro ⟨Hlc, Hld, Hids, Ho, Hsh⟩
  ihave Hlc := (pts_join_ex (lcLoc d) (chunk_parts C.val) ⟨fun _ => FloatOps.ofBits .f32 0⟩) $$ Hlc
  ihave Hld := (pts_join_ex (ldLoc d) (chunk_parts C.val) ⟨fun _ => FloatOps.ofBits .f32 0⟩) $$ Hld
  ihave Hsh := (pts_join_ex (shLoc d C) shCols_parts ⟨fun _ => FloatOps.ofBits .f32 0⟩) $$ Hsh
  ihave Ho := (bigSep_exists_pi (Y := fun _ => Vec F S3072 .f32) Finset.univ _) $$ Ho
  icases Ho with ⟨%fs, Ho⟩
  ihave Ho := (bigSep_pure_sep Finset.univ _ _) $$ Ho
  icases Ho with ⟨%hok, Ho⟩
  ihave Ho := (pts_join (pLoc d) (out_parts C.val) fs) $$ Ho
  icases Ho with ⟨%g, %hg, Ho⟩
  iframe Hlc Hld Hids Hsh
  iexists g
  iframe
  ipureintro
  intro i a
  have e : outSlice g (Fin.cast nSC_eq C) i a = outSlice (fs i) (Fin.cast nSC_eq C) i a := funext fun r => hg i (Finset.mem_univ i) _ (by
    simp only [outSets, Finset.mem_filter_univ]
    exact ⟨a, Nat.le_add_right _ _, Nat.add_lt_add_left (r 0).isLt _⟩)
  rw [e]; exact hok i (Finset.mem_univ i) a

theorem vecSplit : (K (F := F)).VecSplit (P m) 0 := by
  intro d c
  show iprop(stP m d (coreOf c).val ∗ _) ⊢ |={_}=> iprop((bigSep Finset.univ fun i : Fin 16 => goP m d (coreOf c) i.val)
    ∗ ((bigSep Finset.univ fun i : Fin 16 => tdP m d (coreOf c) i) -∗ iprop(dnP m d (Fin.cast nSC_eq (coreOf c)) ∗ _)))
  rw [show (ownBufs (S d (coreOf c)) : sProp 𝕄) = iprop((∃ f, shLoc d (coreOf c) ↦{fullShare} f) ∗ _) from
    SparseCore.bigSep_erase' ((mem_ownRefs (p := Proc.scScalar (coreOf c)) (b := shRef (coreOf c))).mpr rfl)]
  iintro ⟨Hst, Hsh, Hrest⟩; imodintro
  isplitl [Hst Hsh]
  · iapply (split_go m d (coreOf c)); iframe
  iintro Htd
  ihave H := (join_td m d (coreOf c)) $$ Htd
  icases H with ⟨Hdn, Hsh⟩
  iframe

end Cert.Proof.KB

end
-- ==== Proof.Bits.RegionsIface.lean ====
import proofs.«203579_g3066606649474_cont_9to1_387_24_alg».proof.Proof.Bits.Setup

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def hostOps : List (HloOp τ sig (Elt F)) :=
  [ StableHlo.reshape main_arg1 main_v0 rfl Facts₀.shapeCasts_S1_S_,
    StableHlo.unary main_v0 main_v1 (Host.log : (⟨S_, .f32⟩ : BufTy).Contents (Elt F) → (⟨S_, .f32⟩ : BufTy).Contents (Elt F)),
    StableHlo.nullary main_cst (constant S_ .f32 0xC0000000#32),
    StableHlo.binary main_cst main_v1 main_v2 (mulf : (⟨S_, .f32⟩ : BufTy).Contents (Elt F) → (⟨S_, .f32⟩ : BufTy).Contents (Elt F) → (⟨S_, .f32⟩ : BufTy).Contents (Elt F)),
    StableHlo.reshape main_v2 main_v3 rfl Facts₀.shapeCasts_S_S1x1,
    StableHlo.unary main_v1 main_v4 (Host.negf : (⟨S_, .f32⟩ : BufTy).Contents (Elt F) → (⟨S_, .f32⟩ : BufTy).Contents (Elt F)),
    StableHlo.reshape main_v4 main_v5 rfl Facts₀.shapeCasts_S_S1x1,
    StableHlo.reshape main_arg5 main_v6 rfl Facts₀.shapeCasts_S1_S_,
    StableHlo.unary main_arg8 main_v7 (sitofp .f32 : (⟨S_, .i32⟩ : BufTy).Contents (Elt F) → (⟨S_, .f32⟩ : BufTy).Contents (Elt F)),
    StableHlo.binary main_v7 main_v6 main_v8 (mulf : (⟨S_, .f32⟩ : BufTy).Contents (Elt F) → (⟨S_, .f32⟩ : BufTy).Contents (Elt F) → (⟨S_, .f32⟩ : BufTy).Contents (Elt F)),
    StableHlo.reshape main_v8 main_v9 rfl Facts₀.shapeCasts_S_S1x1,
    StableHlo.unary main_arg0 main_v10 ((transpose S1x100000 [1, 0] · Facts₀.transposes_S100000x1_S1x100000_1_0) : (⟨S100000x1, .f32⟩ : BufTy).Contents (Elt F) → (⟨S1x100000, .f32⟩ : BufTy).Contents (Elt F)),
    StableHlo.unary main_arg2 main_v11 ((transpose S3x100000 [1, 0] · Facts₀.transposes_S100000x3_S3x100000_1_0) : (⟨S100000x3, .f32⟩ : BufTy).Contents (Elt F) → (⟨S3x100000, .f32⟩ : BufTy).Contents (Elt F)),
    StableHlo.unary main_arg3 main_v12 ((transpose S3x100000 [1, 0] · Facts₀.transposes_S100000x3_S3x100000_1_0) : (⟨S100000x3, .f32⟩ : BufTy).Contents (Elt F) → (⟨S3x100000, .f32⟩ : BufTy).Contents (Elt F)),
    StableHlo.unary main_arg6 main_v13 ((transpose S16x100000 [1, 0] · Facts₀.transposes_S100000x16_S16x100000_1_0) : (⟨S100000x16, .f32⟩ : BufTy).Contents (Elt F) → (⟨S16x100000, .f32⟩ : BufTy).Contents (Elt F)),
    StableHlo.unary main_arg7 main_v14 ((transpose S16x100000 [1, 0] · Facts₀.transposes_S100000x16_S16x100000_1_0) : (⟨S100000x16, .f32⟩ : BufTy).Contents (Elt F) → (⟨S16x100000, .f32⟩ : BufTy).Contents (Elt F)) ]

def V0 (m : (ℓ : Loc nD τ sig) → Buf (Elt F) ℓ) (d : Dev nD) : Valuation τ sig (Elt F) := fun b => m (d, b)

def V1 (m : (ℓ : Loc nD τ sig) → Buf (Elt F) ℓ) (d : Dev nD) : Valuation τ sig (Elt F) := StableHlo.after hostOps (V0 m d)

def TV1 (m : (ℓ : Loc nD τ sig) → Buf (Elt F) ℓ) (d : Dev nD) : (b : Ref sig .tc) → Buf (Elt F) ((T d : Thread nD τ).loc b) :=
  fun b => V1 m d (Proc.devRef .tc b)

def recAt (d : Dev nD) (n : ℕ) : Set (SemLoc sig × HIx 1) := {p | (K (F := F)).lev ((T d : Thread nD τ), p.1) p.2 ≤ 8 * n}

def Gd (d : Dev nD) : sProp 𝕄 :=
  iprop((bigSep Finset.univ fun p : Fin 2 => Pipeline.cellsGhost (nD := nD) (τ := τ) cfgs (ER (F := F)) p d)
    ∗ (bigSep Finset.univ fun p : Fin 2 => Pipeline.toksInit (nD := nD) (τ := τ) cfgs (ER (F := F)) p d))

structure Reg0 (m : (ℓ : Loc nD τ sig) → Buf (Elt F) ℓ) (d : Dev nD) where

  rd : Pipeline.RDat τ (Elt F) (HIx 1) ℕ UU ℕ cfg0 d

  hA : ∀ w, rd.A w = TV1 m d (Pipeline.arrRef cfg0.spec w)

  hshare : ∀ w, rd.share w = fullShare
  howed : ∀ t, rd.owed t = (K (F := F)).Otc d 0
  hrec : ∀ t, rd.recorded t = recAt (F := F) d 0

  hin : (Pipeline.scopedRest (Ix := HIx 1) (Name := ℕ) (U := UU) (Lvl := ℕ) (Val := Elt F) cfg0.spec d : sProp 𝕄) ⊢ rd.Φ 0
  hout : rd.Φ (Fin.last cfg0.N) ⊢ (Pipeline.scopedRest (Ix := HIx 1) (Name := ℕ) (U := UU) (Lvl := ℕ) (Val := Elt F) cfg0.spec d : sProp 𝕄)

  hbody : rd.BodyObligation defs₀ 𝒱₀ none Set.univ

  hval : ∀ (lcA : Buf (Elt F) ((cfg0.win 8).arr.view.loc (d.tc : Thread nD τ))) (ldA : Buf (Elt F) ((cfg0.win 9).arr.view.loc (d.tc : Thread nD τ))),
    rd.ArrAt 8 cfg0.N lcA → rd.ArrAt 9 cfg0.N ldA → R0 m d lcA ldA

structure Reg2 (epi : Vec F S3072 .f32 → Vec F S2x512 .f32) (m : (ℓ : Loc nD τ sig) → Buf (Elt F) ℓ) (pA : Vec F S3072 .f32) (d : Dev nD) where
  rd : Pipeline.RDat τ (Elt F) (HIx 1) ℕ UU ℕ cfg2 d

  hA0 : rd.A 0 = pA
  hA1 : rd.A 1 = m ((T d : Thread nD τ).loc main_v17)
  hshare : ∀ w, rd.share w = fullShare
  howed : ∀ t, rd.owed t = (K (F := F)).Otc d 1
  hrec : ∀ t, rd.recorded t = recAt (F := F) d 1
  hin : (Pipeline.scopedRest (Ix := HIx 1) (Name := ℕ) (U := UU) (Lvl := ℕ) (Val := Elt F) cfg2.spec d : sProp 𝕄) ⊢ rd.Φ 0
  hout : rd.Φ (Fin.last cfg2.N) ⊢ (Pipeline.scopedRest (Ix := HIx 1) (Name := ℕ) (U := UU) (Lvl := ℕ) (Val := Elt F) cfg2.spec d : sProp 𝕄)
  hbody : rd.BodyObligation defs₀ 𝒱₀ none Set.univ

  hval : ∀ (o : Buf (Elt F) ((cfg2.win 1).arr.view.loc (d.tc : Thread nD τ))), rd.ArrAt 1 cfg2.N o → o = epi pA

end Cert.Proof.KB

end
-- ==== Proof.Bits.LaunchElem.lean ====
import proofs.«203579_g3066606649474_cont_9to1_387_24_alg».proof.Proof.Bits.Setup
import proofs.«203579_g3066606649474_cont_9to1_387_24_alg».proof.Proof.Bits.RegionsIface
import Idealize.ShloMosaic.Lib.SparseCore.Launch
import Idealize.ShloMosaic.Lib.Pipeline.Sound
import Idealize.ShloMosaic.Lib.Rounds

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) [FloatOps F]

omit [FloatOps F] in
private theorem bigSep_emp_l {I : Type} (s : Finset I) : (bigSep s fun _ => iprop(emp)) = (iprop(emp) : sProp 𝕄) := bigSep_emp_const s

abbrev DCI : Type := Dev nD × Fin τ.nSC × Fin τ.nSub
abbrev bcell₃ (x : DCI) : GSem nD τ sig := bcell x.1 x.2.1 x.2.2

def bCells : Finset (GSem nD τ sig) := Finset.univ.image bcell₃
def bToks : Finset (GSem nD τ sig × ℕ × ℕ) :=
  Finset.univ.image fun x : DCI × Fin (grid1.bound 1) => (bcell x.1.1 x.1.2.1 (x.2.castLE hsub1), 0, x.1.2.2.val)
def u₀ : UU :=
  (initOf (K (F := F)).hsCells (K (F := F)).hsToks,
    (initOf bCells bToks, (initOf (Pipeline.cells (nD := nD) (τ := τ) cfgs Gen.cellOf_inj) (Pipeline.launchToks (nD := nD) (τ := τ) cfgs Gen.cellOf_inj), 1)))

omit [FloatOps F] in
theorem bcell₃_injective : Function.Injective (bcell₃ : DCI → GSem nD τ sig) := fun ⟨_, _, _⟩ ⟨_, _, _⟩ e => by cases e; rfl

omit [FloatOps F] in
theorem ownU_split (a : UH) (b : UB) (r : UR) :
    (ownU ((a, (b, (r, 1))) : UU) : sProp 𝕄) ⊢ iprop(BI.own (EH a) ∗ BI.own (EB b) ∗ BI.own (ER r)) := by
  let E : Emb UU 𝕄 := uEmb.toEmb
  have h1 : (ownU ((a, (b, (r, 1))) : UU) : sProp 𝕄) ⊢ iprop(BI.own (EH a) ∗ BI.own (E ((1, (b, (r, 1))) : UU))) :=
    BI.own_op_elim (E.op_of_mem (Prod.mk_mem_op (URA.mem_op_one a) (URA.mem_one_op (b, (r, (1 : Counters))))))
  have h2 : (BI.own (E ((1, (b, (r, 1))) : UU)) : sProp 𝕄) ⊢ iprop(BI.own (EB b) ∗ BI.own (ER r)) :=
    BI.own_op_elim (E.op_of_mem (Prod.mk_mem_op (URA.mem_op_one (1 : UH)) (Prod.mk_mem_op (URA.mem_op_one b) (URA.mem_one_op (r, (1 : Counters))))))
  exact h1.trans (sep_mono_r h2)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

theorem sems_b : ((K (F := F)).freeSems0 : sProp 𝕄) ⊢ bigSep bCells fun g => semVal g 0 := by
  unfold SparseCore.Cfg.freeSems0
  rw [bCells_eq]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Fin.sum_univ_zero, tallyAt_zero]
  | n + 1 => by rw [Fin.sum_univ_castSucc, sum_tallyAt_one g ι n, tallyAt_add]

theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  obtain ⟨rfl, h⟩ := Prod.mk.inj (Prod.mk.inj (Prod.mk.inj e).1).1
  obtain ⟨rfl, hj⟩ := Proc.scVector.inj h
  obtain rfl : j = j' := Fin.ext (congrArg Fin.val hj)
  obtain rfl : i = i' := Fin.ext (Prod.mk.inj (Prod.mk.inj e).2).2
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

abbrev sharedKit : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
abbrev mineKit (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

theorem kit_intro (dci : DCI) : iprop(sharedKit (F := F) m ∗ mineKit dci) ⊢ (bkit (F := F) m dci.1 dci.2.1 dci.2.2 : sProp 𝕄) := by
  obtain ⟨d, c, i⟩ := dci
  iintro ⟨⟨⟨%κ, #Hinv⟩, #Hr⟩, Hat, Htok, Hcred⟩
  dsimp only
  unfold bkit
  iframe
  have pick (Ψ : DCI → sProp 𝕄) [∀ x, BI.Persistent (Ψ x)] :
      bigSep Finset.univ Ψ ⊢ bigSep Finset.univ fun j : Fin (grid1.bound 1) => Ψ (d, c, j.castLE hsub1) :=
    bigSep_intro_persistent fun j _ => bigSep_elim (Finset.mem_univ _)
  isplitr
  · iexists κ; iapply (pick fun x => cellInv EB (bRd (F := F) m) (κ (bcell₃ x)) (bcell₃ x)); iexact Hinv
  iapply (pick fun x => reached EB (bcell₃ x) 0); iexact Hr

theorem kits_deal (κ : GSem nD τ sig → ℕ) :
    iprop((bigSep bCells fun g => cellInv EB (bRd (F := F) m) (κ g) g) ∗ (bigSep bCells fun g => reached EB g 0)
        ∗ (bigSep bCells fun g => atPos EB g 0 ∅ 0) ∗ (bigSep bToks fun x => dutyTok EB x.1 x.2.1 x.2.2)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [bCells_eq, bCells_eq, bCells_eq, toks_eq, SparseCore.Cfg.bigSep_threads (fun thr : Thread nD τ => bigSep Finset.univ fun q : Fin 1 => (P m).x q thr)]
  simp only [Px_T, Px_S, Px_V, bigSep_emp_l]
  iintro ⟨#Hinv, #Hr, Hat, Htok, Hcred⟩
  isplitr; · iempintro
  isplitr; · iempintro
  iapply (bigSep_with_persistent (R := sharedKit (F := F) m) (Φ := mineKit (F := F)) fun dci _ => kit_intro (F := F) m dci)
  isplitr
  · isplitl; · iexists κ; iexact Hinv
    iexact Hr
  unfold mineKit
  rw [bigSep_sep', bigSep_sep']
  iframe

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => Gd (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HR⟩
  imod (Rounds.fund EB (bRd (F := F) m) bCells bToks) $$ HB with ⟨Hst, #Hr, Hat, Htok⟩
  imod (Pipeline.fund_ghost (nD := nD) (τ := τ) cfgs (ER (F := F)) Gen.cellOf_inj) $$ HR with ⟨Hg1, Hg2⟩
  ihave Hsems := (sems_b (F := F)) $$ Hfree
  imod (invs_b (F := F) m) $$ [Hsems Hst] with ⟨%κ, #Hinv⟩
  · iframe
  ihave Hcred' := (creds_b m) $$ Hcred
  imodintro
  isplitl [HH]; · iexact HH
  isplitl [Hg1 Hg2]
  · unfold Gd
    rw [bigSep_sep']
    iframe
  iapply (kits_deal m κ)
  iframe
  isplitl; · iexact Hinv
  iexact Hr

end Cert.Proof.KB

end
-- ==== Proof.Bits.TileGeom.lean ====
import proofs.«203579_g3066606649474_cont_9to1_387_24_alg».proof.Proof.Bits.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

theorem bound_one : grid1.bound 1 = 16 := rfl
abbrev jL (L : grid1.Coords) : Fin 16 := Fin.cast bound_one (L 1)
theorem L0_lt (L : grid1.Coords) : (L 0).val < 2 := (L 0).isLt
theorem L1_lt (L : grid1.Coords) : (L 1).val < 16 := (L 1).isLt

theorem bigSep_eraseList {M : Type} [URA M] {I : Type} [DecidableEq I] (Φ : I → sProp M) :
    ∀ (l : List I) (s : Finset I), l.Nodup → (∀ x ∈ l, x ∈ s) →
      bigSep s Φ = l.foldr (fun x acc => iprop(Φ x ∗ acc)) (bigSep (l.foldl Finset.erase s) Φ)
  | [], _, _, _ => rfl
  | x :: l, s, hnd, hs =>
    (SparseCore.bigSep_erase' (hs x (List.mem_cons_self ..))).trans
      (congrArg (fun t => iprop(Φ x ∗ t))
        (bigSep_eraseList Φ l (s.erase x) (List.nodup_cons.mp hnd).2 fun y hy =>
          Finset.mem_erase.mpr ⟨fun e => (List.nodup_cons.mp hnd).1 (e ▸ hy), hs y (List.mem_cons_of_mem _ hy)⟩))

section Tile

variable (d : Dev nD) (L : grid1.Coords)

abbrev dcell (d : Dev nD) (c : Fin τ.nSC) (i : Fin τ.nSub) (s : DmaSem sig) : GSem nD τ sig := (V d c i, .dma s)

abbrev tileSems : List (DmaSem sig) :=
  [cc1_scratch11.sem, cc1_scratch12.sem, cc1_scratch13.sem, cc1_scoped0.sem, cc1_scoped1.sem, cc1_scoped2.sem, cc1_scoped3.sem,
    cc1_scoped4.sem, cc1_scoped5.sem, cc1_scoped6.sem, cc1_scoped7.sem]

abbrev semsRest (d : Dev nD) (L : grid1.Coords) : Finset (GSem nD τ sig) :=
  (tileSems.map (dcell d (cV L) (jV L))).foldl Finset.erase (ownCells (V d (cV L) (jV L)))

theorem ownSems0_V :
    (ownSems0 (V d (cV L) (jV L)) : sProp 𝕄)
      = iprop(semVal (V d (cV L) (jV L), .dma cc1_scratch11.sem) 0 ∗ semVal (V d (cV L) (jV L), .dma cc1_scratch12.sem) 0
          ∗ semVal (V d (cV L) (jV L), .dma cc1_scratch13.sem) 0 ∗ semVal (V d (cV L) (jV L), .dma cc1_scoped0.sem) 0
          ∗ semVal (V d (cV L) (jV L), .dma cc1_scoped1.sem) 0 ∗ semVal (V d (cV L) (jV L), .dma cc1_scoped2.sem) 0
          ∗ semVal (V d (cV L) (jV L), .dma cc1_scoped3.sem) 0 ∗ semVal (V d (cV L) (jV L), .dma cc1_scoped4.sem) 0
          ∗ semVal (V d (cV L) (jV L), .dma cc1_scoped5.sem) 0 ∗ semVal (V d (cV L) (jV L), .dma cc1_scoped6.sem) 0
          ∗ semVal (V d (cV L) (jV L), .dma cc1_scoped7.sem) 0 ∗ bigSep (semsRest d L) fun g => semVal g 0) :=
  bigSep_eraseList (fun g => semVal g 0) (tileSems.map (dcell d (cV L) (jV L))) (ownCells (V d (cV L) (jV L)))
    ((by decide : tileSems.Nodup).map fun _ _ e => SemLoc.dma.inj (Prod.mk.inj e).2)
    fun x hx => by obtain ⟨s, -, rfl⟩ := List.mem_map.mp hx; exact mem_ownCells.mpr ⟨rfl, sig.sc_scopedDmaSem .scVector s (by decide)⟩

abbrev vref (c : Fin τ.nSC) (i : Fin τ.nSub) (b : Ref sig .scVector) : DevRef τ sig := (Proc.scVector c i).devRef b

abbrev tileBufs : List (Ref sig .scVector) :=
  [cc1_scratch0, cc1_scratch1, cc1_scratch2, cc1_scratch3, cc1_scratch4, cc1_scratch5, cc1_scratch6, cc1_scratch7, cc1_scratch8, cc1_scratch10]

abbrev bufsRest (L : grid1.Coords) : Finset (DevRef τ sig) :=
  (tileBufs.map (vref (cV L) (jV L))).foldl Finset.erase (ownRefs (τ := τ) (.scVector (cV L) (jV L)))

set_option maxHeartbeats 1600000 in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f) ∗ (∃ f, (V d (cV L) (jV L)).loc cc1_scratch5 ↦{fullShare} f)
          ∗ (∃ f, (V d (cV L) (jV L)).loc cc1_scratch6 ↦{fullShare} f) ∗ (∃ f, (V d (cV L) (jV L)).loc cc1_scratch7 ↦{fullShare} f)
          ∗ (∃ f, (V d (cV L) (jV L)).loc cc1_scratch8 ↦{fullShare} f) ∗ (∃ f, (V d (cV L) (jV L)).loc cc1_scratch10 ↦{fullShare} f)
          ∗ bigSep (bufsRest L) fun b => iprop(∃ f, ((d, b) : Loc nD τ sig) ↦{fullShare} f)) :=
  bigSep_eraseList (fun b => iprop(∃ f, ((d, b) : Loc nD τ sig) ↦{fullShare} f)) (tileBufs.map (vref (cV L) (jV L)))
    (ownRefs (τ := τ) (.scVector (cV L) (jV L))) ((by decide : tileBufs.Nodup).map (Proc.devRef_injective (Proc.scVector (cV L) (jV L))))
    fun x hx => by
      obtain ⟨b, hb, rfl⟩ := List.mem_map.mp hx
      simp only [tileBufs, List.mem_cons, List.not_mem_nil, or_false] at hb
      rcases hb with rfl | rfl | rfl | rfl | rfl | rfl | rfl | rfl | rfl | rfl <;> exact SparseCore.Cfg.mem_ownRefs_of_owner rfl

theorem forall_fin4 {P : Fin 4 → Prop} : (∀ a, P a) ↔ P 0 ∧ P 1 ∧ P 2 ∧ P 3 :=
  ⟨fun h => ⟨h 0, h 1, h 2, h 3⟩, fun h a => by
    match a with
    | ⟨0, _⟩ => exact h.1
    | ⟨1, _⟩ => exact h.2.1
    | ⟨2, _⟩ => exact h.2.2.1
    | ⟨3, _⟩ => exact h.2.2.2⟩

theorem bigSep_fin_three {M : Type} [URA M] (Φ : Fin 3 → sProp M) : bigSep Finset.univ Φ = iprop(Φ 0 ∗ Φ 1 ∗ Φ 2) :=
  bigSep_univ_eq_bigSepL [0, 1, 2] (by decide) (by decide) Φ

theorem mem_unit1 {n : Nat} {off size : Fin 1 → Nat} {inb : ∀ a, off a + size a ≤ (⟨1, ![n]⟩ : Shape).size a} {j : (⟨1, ![n]⟩ : Shape).Idx} :
    j ∈ (Rect.unit (s := ⟨1, ![n]⟩) off size inb).set ↔ off 0 ≤ (j 0).val ∧ (j 0).val < off 0 + size 0 :=
  Rect.mem_set_unit.trans Fin.forall_fin_one

theorem k1_cond1_iff : ∀ L : grid1.Coords, k1_cond1 L = 1#1 ↔ 16 * (L 0).val + (L 1).val < 31 := by decide +kernel
theorem k1_cond2_iff : ∀ L : grid1.Coords, k1_cond2 L = 1#1 ↔ 16 * (L 0).val + (L 1).val = 31 := by decide +kernel

abbrev lcM : Memref sig .scVector .hbm S100352 .f32 := Memref.whole main_v15_0_scv
abbrev ldM : Memref sig .scVector .hbm S100352 .f32 := Memref.whole main_v15_1_scv
abbrev idsM : Memref sig .scVector .hbm S100000 .i32 := Memref.whole main_arg4_scv
abbrev pM : Memref sig .scVector .hbm S3072 .f32 := Memref.whole main_v16_scv
abbrev shM : Memref sig .scVector .shared S3x16x1x512 .f32 := Memref.whole cc1_scratch9
abbrev idsvM : Memref sig .scVector .vmem S3136 .i32 := Memref.whole cc1_scratch2
abbrev rbM : Memref sig .scVector .vmem S3x2x1x32 .f32 := Memref.whole cc1_scratch10

def shRowA (a v : Nat) : Finset S3x16x1x512.Idx := Finset.univ.filter fun j => (j 0).val = a ∧ (j 1).val = v
def shBlkA (a v i : Nat) : Finset S3x16x1x512.Idx :=
  Finset.univ.filter fun j => (j 0).val = a ∧ (j 1).val = v ∧ i * 32 ≤ (j 3).val ∧ (j 3).val < i * 32 + 32
def outSetA (c i a : Nat) : Finset S3072.Idx :=
  Finset.univ.filter fun j => c * 1536 + a * 512 + i * 32 ≤ (j 0).val ∧ (j 0).val < c * 1536 + a * 512 + i * 32 + 32
def rbSet (a b : Nat) : Finset S3x2x1x32.Idx := Finset.univ.filter fun j => (j 0).val = a ∧ (j 1).val = b

abbrev chunkAt (M : Memref sig .scVector .hbm S100352 .f32) (off : Fin 1 → Nat) (inb : ∀ a, off a + S3136.size a ≤ S100352.size a) :
    Memref sig .scVector .hbm S3136 .f32 :=
  M.slice (Rect.unit (s := S100352) off S3136.size inb) (fun _ => rfl)
abbrev idsAt (off : Fin 1 → Nat) (inb : ∀ a, off a + S3136.size a ≤ S100000.size a) : Memref sig .scVector .hbm S3136 .i32 :=
  idsM.slice (Rect.unit (s := S100000) off S3136.size inb) (fun _ => rfl)
abbrev idsTailAt (off : Fin 1 → Nat) (inb : ∀ a, off a + S2784.size a ≤ S100000.size a) : Memref sig .scVector .hbm S2784 .i32 :=
  idsM.slice (Rect.unit (s := S100000) off S2784.size inb) (fun _ => rfl)
abbrev idsvHead : Memref sig .scVector .vmem S2784 .i32 :=
  idsvM.slice (Rect.unit (s := S3136) ![0] S2784.size inb_S3136_S2784_0) (fun _ => rfl)
abbrev shRowAt (off : Fin 4 → Nat) (inb : ∀ a, off a + S1x1x1x512.size a ≤ S3x16x1x512.size a) : Memref sig .scVector .shared S512 .f32 :=
  (shM.slice (Rect.unit (s := S3x16x1x512) off S1x1x1x512.size inb) (fun _ => rfl)).squeeze S512 squeezes_S1x1x1x512_S512
abbrev shBlkAt (off : Fin 4 → Nat) (inb : ∀ a, off a + S1x1x1x32.size a ≤ S3x16x1x512.size a) : Memref sig .scVector .shared S32 .f32 :=
  (shM.slice (Rect.unit (s := S3x16x1x512) off S1x1x1x32.size inb) (fun _ => rfl)).squeeze S32 squeezes_S1x1x1x32_S32
abbrev rbAt (off : Fin 4 → Nat) (inb : ∀ a, off a + S1x1x1x32.size a ≤ S3x2x1x32.size a) : Memref sig .scVector .vmem S32 .f32 :=
  (rbM.slice (Rect.unit (s := S3x2x1x32) off S1x1x1x32.size inb) (fun _ => rfl)).squeeze S32 squeezes_S1x1x1x32_S32
abbrev outAt (off : Fin 1 → Nat) (inb : ∀ a, off a + S32.size a ≤ S3072.size a) : Memref sig .scVector .hbm S32 .f32 :=
  pM.slice (Rect.unit (s := S3072) off S32.size inb) (fun _ => rfl)

theorem set_unit1 {n : Nat} {off size : Fin 1 → Nat} {inb : ∀ a, off a + size a ≤ (⟨1, ![n]⟩ : Shape).size a} {lo hi : Nat} (o : Nat) (ho : off = ![o])
    (h : ∀ x < n, (o ≤ x ∧ x < o + size 0) ↔ lo ≤ x ∧ x < hi) :
    (Rect.unit (s := ⟨1, ![n]⟩) off size inb).set = Finset.univ.filter fun j => lo ≤ (j 0).val ∧ (j 0).val < hi := by
  subst ho
  ext j
  rw [mem_unit1, Finset.mem_filter, and_iff_right (Finset.mem_univ _)]
  exact h _ (j 0).isLt

theorem chunk_iff (c i k x : Nat) (h : k = 3136 ∨ 16 * c + i = 31 ∧ k = 2784 ∧ x < 100000) :
    (50176 * c + 3136 * i ≤ x ∧ x < 50176 * c + 3136 * i + k) ↔ baseOf c i ≤ x ∧ x < baseOf c i + 3136 := by
  unfold baseOf; omega

theorem pts_of_set {ℓ : Loc nD τ sig} {K K' : Finset (Idx ℓ)} (h : K = K') (q : PosShare TreeShare) (f : Buf (Elt F) ℓ) :
    (ℓ ↦[K]{q} f : sProp 𝕄) = ℓ ↦[K']{q} f := by rw [h]

section R4
variable {n0 n1 n3 : Nat} {off size : Fin 4 → Nat} {inb : ∀ a, off a + size a ≤ (⟨4, ![n0, n1, 1, n3]⟩ : Shape).size a}

theorem set_blk4 (a v lo w : Nat) (ho : off = ![a, v, 0, lo]) (hs : size = ![1, 1, 1, w]) :
    (Rect.unit (s := ⟨4, ![n0, n1, 1, n3]⟩) off size inb).set
      = Finset.univ.filter fun j => (j 0).val = a ∧ (j 1).val = v ∧ lo ≤ (j 3).val ∧ (j 3).val < lo + w := by
  subst ho hs
  ext j
  rw [Rect.mem_set_unit, forall_fin4]
  have h2 : (j 2).val < 1 := (j 2).isLt
  simp only [Finset.mem_filter, Finset.mem_univ, _root_.true_and]
  show ((a ≤ (j 0).val ∧ (j 0).val < a + 1) ∧ (v ≤ (j 1).val ∧ (j 1).val < v + 1) ∧ (0 ≤ (j 2).val ∧ (j 2).val < 0 + 1) ∧ (lo ≤ (j 3).val ∧ (j 3).val < lo + w)) ↔ _
  omega

theorem set_row4 (a v : Nat) (ho : off = ![a, v, 0, 0]) (hs : size = ![1, 1, 1, n3]) :
    (Rect.unit (s := ⟨4, ![n0, n1, 1, n3]⟩) off size inb).set = Finset.univ.filter fun j => (j 0).val = a ∧ (j 1).val = v :=
  (set_blk4 a v 0 n3 ho hs).trans (Finset.filter_congr fun j _ => by have h3 : (j 3).val < n3 := (j 3).isLt; omega)

end R4

theorem set_rbAt (off : Fin 4 → Nat) (inb) (a b : Nat) (h : off = ![a, b, 0, 0]) : (rbAt off inb).view.set = rbSet a b :=
  (View.set_reshape ..).trans ((View.set_slice_whole ..).trans (set_row4 a b h rfl))

theorem bigSep_fin_sixteen {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem pts_lcK (q : PosShare TreeShare) (f : Buf (Elt F) (lcLoc d)) :
    ((chunkAt lcM (k1_off1 L) (k1_off1_inb L)).view.loc (V d (cV L) (jV L)) ↦[(chunkAt lcM (k1_off1 L) (k1_off1_inb L)).view.set]{q} f : sProp 𝕄)
      = lcLoc d ↦[chunkSet (cV L).val (L 1).val]{q} f := by
  exact pts_of_set ((View.set_slice_whole ..).trans (set_unit1 _ (k1_off1_eq L) fun x _ => chunk_iff _ _ _ x (.inl rfl))) q f

theorem pts_ldK (q : PosShare TreeShare) (f : Buf (Elt F) (ldLoc d)) :
    ((chunkAt ldM (k1_off1 L) (k1_off1_inb L)).view.loc (V d (cV L) (jV L)) ↦[(chunkAt ldM (k1_off1 L) (k1_off1_inb L)).view.set]{q} f : sProp 𝕄)
      = ldLoc d ↦[chunkSet (cV L).val (L 1).val]{q} f := by
  exact pts_of_set ((View.set_slice_whole ..).trans (set_unit1 _ (k1_off1_eq L) fun x _ => chunk_iff _ _ _ x (.inl rfl))) q f

theorem pts_idsK (h1 : k1_cond1 L = 1#1) (q : PosShare TreeShare) (f : Buf (Elt F) (idsLoc d)) :
    ((idsAt (k1_off2 L) (k1_off2_inb L h1)).view.loc (V d (cV L) (jV L)) ↦[(idsAt (k1_off2 L) (k1_off2_inb L h1)).view.set]{q} f : sProp 𝕄)
      = idsLoc d ↦[idsSet (cV L).val (L 1).val]{q} f := by
  exact pts_of_set ((View.set_slice_whole ..).trans (set_unit1 _ (k1_off2_eq L) fun x _ => chunk_iff _ _ _ x (.inl rfl))) q f

theorem pts_idsTK (h2 : k1_cond2 L = 1#1) (q : PosShare TreeShare) (f : Buf (Elt F) (idsLoc d)) :
    ((idsTailAt (k1_off3 L) (k1_off3_inb L h2)).view.loc (V d (cV L) (jV L)) ↦[(idsTailAt (k1_off3 L) (k1_off3_inb L h2)).view.set]{q} f : sProp 𝕄)
      = idsLoc d ↦[idsSet (cV L).val (L 1).val]{q} f := by
  exact pts_of_set ((View.set_slice_whole ..).trans (set_unit1 _ (k1_off3_eq L) fun x hx => chunk_iff _ _ _ x (.inr ⟨(k1_cond2_iff L).mp h2, rfl, hx⟩))) q f

theorem pts_shRowK0 (q : PosShare TreeShare) (f : Buf (Elt F) (shLoc d (cV L))) :
    ((shRowAt (k1_off4 L) (k1_off4_inb L)).view.loc (V d (cV L) (jV L)) ↦[(shRowAt (k1_off4 L) (k1_off4_inb L)).view.set]{q} f : sProp 𝕄)
      = shLoc d (cV L) ↦[shRowA 0 (L 1).val]{q} f :=
  pts_of_set ((View.set_reshape ..).trans ((View.set_slice_whole ..).trans (set_row4 0 _ (k1_off4_eq L) rfl))) q f
theorem pts_shRowK1 (q : PosShare TreeShare) (f : Buf (Elt F) (shLoc d (cV L))) :
    ((shRowAt (k1_off5 L) (k1_off5_inb L)).view.loc (V d (cV L) (jV L)) ↦[(shRowAt (k1_off5 L) (k1_off5_inb L)).view.set]{q} f : sProp 𝕄)
      = shLoc d (cV L) ↦[shRowA 1 (L 1).val]{q} f :=
  pts_of_set ((View.set_reshape ..).trans ((View.set_slice_whole ..).trans (set_row4 1 _ (k1_off5_eq L) rfl))) q f
theorem pts_shRowK2 (q : PosShare TreeShare) (f : Buf (Elt F) (shLoc d (cV L))) :
    ((shRowAt (k1_off6 L) (k1_off6_inb L)).view.loc (V d (cV L) (jV L)) ↦[(shRowAt (k1_off6 L) (k1_off6_inb L)).view.set]{q} f : sProp 𝕄)
      = shLoc d (cV L) ↦[shRowA 2 (L 1).val]{q} f :=
  pts_of_set ((View.set_reshape ..).trans ((View.set_slice_whole ..).trans (set_row4 2 _ (k1_off6_eq L) rfl))) q f

theorem pts_shBlkAt (off : Fin 4 → Nat) (inb) (a v : Nat) (h : off = ![a, v, 0, 32 * (L 1).val]) (q : PosShare TreeShare) (f : Buf (Elt F) (shLoc d (cV L))) :
    ((shBlkAt off inb).view.loc (V d (cV L) (jV L)) ↦[(shBlkAt off inb).view.set]{q} f : sProp 𝕄)
      = shLoc d (cV L) ↦[shBlkA a v (L 1).val]{q} f := by
  exact pts_of_set ((View.set_reshape ..).trans ((View.set_slice_whole ..).trans (set_blk4 a v _ 32 (by rw [h, Nat.mul_comm]) rfl))) q f

theorem out_iff (c a i x : Nat) : (1536 * c + 512 * a + 32 * i ≤ x ∧ x < 1536 * c + 512 * a + 32 * i + 32) ↔
    c * 1536 + a * 512 + i * 32 ≤ x ∧ x < c * 1536 + a * 512 + i * 32 + 32 := by omega

theorem shRowA_disjoint {a a' : Nat} (v v' : Nat) (h : a ≠ a') : Disjoint (shRowA a v) (shRowA a' v') :=
  Finset.disjoint_filter.mpr fun _ _ h1 h2 => h (h1.1.symm.trans h2.1)
theorem shBlkA_disjoint {a a' : Nat} (v v' i i' : Nat) (h : a ≠ a') : Disjoint (shBlkA a v i) (shBlkA a' v' i') :=
  Finset.disjoint_filter.mpr fun _ _ h1 h2 => h (h1.1.symm.trans h2.1)
theorem shBlk_disjoint {v v' : Nat} (i i' : Nat) (h : v ≠ v') : Disjoint (shBlk v i) (shBlk v' i') :=
  Finset.disjoint_filter.mpr fun _ _ h1 h2 => h (h1.1.symm.trans h2.1)
theorem shBlk_disjoint' (v v' : Nat) {i i' : Nat} (h : i ≠ i') : Disjoint (shBlk v i) (shBlk v' i') :=
  Finset.disjoint_filter.mpr fun _ _ h1 h2 => h (by omega)
theorem outSetA_disjoint (c i : Nat) {a a' : Nat} (h : a ≠ a') : Disjoint (outSetA c i a) (outSetA c i a') :=
  Finset.disjoint_filter.mpr fun _ _ h1 h2 => h (by omega)

theorem shRows_eq (v : Nat) : shRows v = (Finset.univ : Finset (Fin 3)).biUnion fun a => shRowA a.val v := by
  ext j
  simp only [shRows, shRowA, Finset.mem_biUnion, Finset.mem_filter, Finset.mem_univ, _root_.true_and]
  exact ⟨fun h => ⟨⟨(j 0).val, (j 0).isLt⟩, rfl, h⟩, fun ⟨_, _, h⟩ => h⟩
theorem shRows_eq_blks (v : Nat) : shRows v = (Finset.univ : Finset (Fin (grid1.bound 1))).biUnion fun i => shBlk v i.val := by
  ext j
  simp only [shRows, shBlk, Finset.mem_biUnion, Finset.mem_filter, Finset.mem_univ, _root_.true_and]
  have h3 : (j 3).val < 512 := (j 3).isLt
  exact ⟨fun h => ⟨⟨(j 3).val / 32, by show (j 3).val / 32 < 16; omega⟩, h, by show (j 3).val / 32 * 32 ≤ _; omega, by show _ < (j 3).val / 32 * 32 + 32; omega⟩,
    fun ⟨_, h, _⟩ => h⟩
theorem shBlk_eq (v i : Nat) : shBlk v i = (Finset.univ : Finset (Fin 3)).biUnion fun a => shBlkA a.val v i := by
  ext j
  simp only [shBlk, shBlkA, Finset.mem_biUnion, Finset.mem_filter, Finset.mem_univ, _root_.true_and]
  exact ⟨fun h => ⟨⟨(j 0).val, (j 0).isLt⟩, rfl, h⟩, fun ⟨_, _, h⟩ => h⟩
theorem shCols_eq (i : Nat) : shCols i = (Finset.univ : Finset (Fin 16)).biUnion fun v => shBlk v.val i := by
  ext j
  simp only [shCols, shBlk, Finset.mem_biUnion, Finset.mem_filter, Finset.mem_univ, _root_.true_and]
  exact ⟨fun h => ⟨⟨(j 1).val, (j 1).isLt⟩, rfl, h⟩, fun ⟨_, _, h⟩ => h⟩
theorem outSets_eq (c i : Nat) : outSets c i = (Finset.univ : Finset (Fin 3)).biUnion fun a => outSetA c i a.val := by
  ext j
  simp only [outSets, outSetA, Finset.mem_biUnion, Finset.mem_filter, Finset.mem_univ, _root_.true_and]

theorem pts_shRows (c : Fin τ.nSC) (v : Nat) (q : PosShare TreeShare) (f : Buf (Elt F) (shLoc d c)) :
    (shLoc d c ↦[shRows v]{q} f : sProp 𝕄)
      = iprop((shLoc d c ↦[shRowA 0 v]{q} f) ∗ (shLoc d c ↦[shRowA 1 v]{q} f) ∗ (shLoc d c ↦[shRowA 2 v]{q} f)) := by
  rw [shRows_eq, pointsTo_biUnion (ℓ := shLoc d c) (Finset.univ : Finset (Fin 3)) (fun a => shRowA a.val v)
    (fun a _ a' _ h => shRowA_disjoint v v (fun e => h (Fin.ext e))), bigSep_fin_three] <;> rfl

theorem pts_shBlk (c : Fin τ.nSC) (v i : Nat) (q : PosShare TreeShare) (f : Buf (Elt F) (shLoc d c)) :
    (shLoc d c ↦[shBlk v i]{q} f : sProp 𝕄)
      = iprop((shLoc d c ↦[shBlkA 0 v i]{q} f) ∗ (shLoc d c ↦[shBlkA 1 v i]{q} f) ∗ (shLoc d c ↦[shBlkA 2 v i]{q} f)) := by
  rw [shBlk_eq, pointsTo_biUnion (ℓ := shLoc d c) (Finset.univ : Finset (Fin 3)) (fun a => shBlkA a.val v i)
    (fun a _ a' _ h => shBlkA_disjoint v v i i (fun e => h (Fin.ext e))), bigSep_fin_three] <;> rfl

theorem pts_shCols (c : Fin τ.nSC) (i : Nat) (q : PosShare TreeShare) (f : Buf (Elt F) (shLoc d c)) :
    (shLoc d c ↦[shCols i]{q} f : sProp 𝕄)
      = bigSep Finset.univ fun v : Fin 16 =>
          iprop((shLoc d c ↦[shBlkA 0 v.val i]{q} f) ∗ (shLoc d c ↦[shBlkA 1 v.val i]{q} f) ∗ (shLoc d c ↦[shBlkA 2 v.val i]{q} f)) := by
  rw [shCols_eq, pointsTo_biUnion (ℓ := shLoc d c) (Finset.univ : Finset (Fin 16)) (fun v => shBlk v.val i)
    (fun v _ v' _ h => shBlk_disjoint i i (fun e => h (Fin.ext e)))]
  exact bigSep_congr fun v _ => pts_shBlk d c v.val i q f

theorem pts_outSets (c i : Nat) (q : PosShare TreeShare) (f : Buf (Elt F) (pLoc d)) :
    (pLoc d ↦[outSets c i]{q} f : sProp 𝕄)
      = iprop((pLoc d ↦[outSetA c i 0]{q} f) ∗ (pLoc d ↦[outSetA c i 1]{q} f) ∗ (pLoc d ↦[outSetA c i 2]{q} f)) := by
  rw [outSets_eq, pointsTo_biUnion (ℓ := pLoc d) (Finset.univ : Finset (Fin 3)) (fun a => outSetA c i a.val)
    (fun a _ a' _ h => outSetA_disjoint c i (fun e => h (Fin.ext e))), bigSep_fin_three] <;> rfl

theorem pts_outK0 (q : PosShare TreeShare) (f : Buf (Elt F) (pLoc d)) :
    ((outAt (k1_off55 L 0#32) (k1_off55_inb L 0)).view.loc (V d (cV L) (jV L)) ↦[(outAt (k1_off55 L 0#32) (k1_off55_inb L 0)).view.set]{q} f : sProp 𝕄)
      = pLoc d ↦[outSetA (cV L).val (L 1).val 0]{q} f :=
  pts_of_set ((View.set_slice_whole ..).trans (set_unit1 _ (k1_off55_eq L 0) fun x _ => out_iff ..)) q f
theorem pts_outK1 (q : PosShare TreeShare) (f : Buf (Elt F) (pLoc d)) :
    ((outAt (k1_off55 L 512#32) (k1_off55_inb L 1)).view.loc (V d (cV L) (jV L)) ↦[(outAt (k1_off55 L 512#32) (k1_off55_inb L 1)).view.set]{q} f : sProp 𝕄)
      = pLoc d ↦[outSetA (cV L).val (L 1).val 1]{q} f :=
  pts_of_set ((View.set_slice_whole ..).trans (set_unit1 _ (k1_off55_eq L 1) fun x _ => out_iff ..)) q f
theorem pts_outK2 (q : PosShare TreeShare) (f : Buf (Elt F) (pLoc d)) :
    ((outAt (k1_off55 L 1024#32) (k1_off55_inb L 2)).view.loc (V d (cV L) (jV L)) ↦[(outAt (k1_off55 L 1024#32) (k1_off55_inb L 2)).view.set]{q} f : sProp 𝕄)
      = pLoc d ↦[outSetA (cV L).val (L 1).val 2]{q} f :=
  pts_of_set ((View.set_slice_whole ..).trans (set_unit1 _ (k1_off55_eq L 2) fun x _ => out_iff ..)) q f

abbrev accHead (b : Ref sig .scVector) (M : Memref sig .scVector .vmem S528 .f32) : Memref sig .scVector .vmem S512 .f32 :=
  M.slice (Rect.unit (s := S528) ![0] S512.size inb_S528_S512_0) (fun _ => rfl)

theorem of_pm {M : Type} [URA M] {P Q : sProp M} (h : P ⊢ Q) : Idealize.SL.BI.Entails P Q := h

theorem pointsTo_biUnion_join_ex {ℓ : Loc nD τ sig} {T : Type} [DecidableEq T] (S : Finset T) (K : T → Finset (Idx ℓ))
    (P : T → Buf (Elt F) ℓ → Prop) (q : PosShare TreeShare) (f₀ : Buf (Elt F) ℓ)
    (h : ∀ t ∈ S, ∀ t' ∈ S, t ≠ t' → Disjoint (K t) (K t')) :
    bigSep S (fun t => iprop(∃ f, ⌜P t f⌝ ∗ ℓ ↦[K t]{q} f))
      ⊢ (iprop(∃ g, ⌜∀ t ∈ S, ∃ f, P t f ∧ ∀ i ∈ K t, g i = f i⌝ ∗ ℓ ↦[S.biUnion K]{q} g) : sProp 𝕄) := by
  have : Nonempty (Buf (Elt F) ℓ) := ⟨f₀⟩
  refine (bigSep_exists_pi S fun t (f : Buf (Elt F) ℓ) => iprop(⌜P t f⌝ ∗ ℓ ↦[K t]{q} f)).trans ?_
  iintro ⟨%fs, H⟩
  ihave H1 := (bigSep_pure_sep S (fun t => P t (fs t)) fun t => ℓ ↦[K t]{q} fs t) $$ H
  icases H1 with ⟨%hP, H1⟩
  ihave H2 := (pointsTo_biUnion_join S K fs f₀ h) $$ H1
  icases H2 with ⟨%g, %hg, H2⟩
  iexists g
  isplitr
  · ipureintro; exact fun t ht => ⟨fs t, hP t ht, hg t ht⟩
  · iexact H2

variable [FloatOps F] (m : (ℓ : Loc nD τ sig) → Buf (Elt F) ℓ)

theorem bPay_lt (c : Fin τ.nSC) (j : Fin τ.nSub) (n : ℕ) (hn : n < 16) :
    (bRd (F := F) m).payload (bcell d c j) 0 n
      = iprop(∃ f : Buf (Elt F) (shLoc d c), ⌜∀ a : Fin 3, AccOk m d (Fin.cast nSC_eq c) ⟨n, hn⟩ a (shRowOf f a ⟨n, hn⟩)⌝ ∗ (shLoc d c ↦[shBlk n j.val]{fullShare} f)) := by
  show bPay m (bcell d c j) n = _
  unfold bPay; dsimp only
  rw [dif_pos hn]

theorem pays_intro :
    iprop(∃ f : Buf (Elt F) (shLoc d (cV L)), ⌜∀ a : Fin 3, AccOk m d (Fin.cast nSC_eq (cV L)) (jL L) a (shRowOf f a (jL L))⌝
        ∗ (shLoc d (cV L) ↦[shRows (L 1).val]{fullShare} f))
      ⊢ (bigSep Finset.univ fun j' : Fin (grid1.bound 1) => (bRd (F := F) m).payload (bcell d (cV L) (j'.castLE hsub1)) 0 (jV L).val : sProp 𝕄) := by
  iintro ⟨%f, %hf, H⟩
  let Φ : Fin (grid1.bound 1) → sProp 𝕄 := fun j' => shLoc d (cV L) ↦[shBlk (jV L).val (j'.castLE hsub1).val]{fullShare} f
  have hsplit : (shLoc d (cV L) ↦[shRows (L 1).val]{fullShare} f : sProp 𝕄) = bigSep Finset.univ Φ := by
    rw [shRows_eq_blks, pointsTo_biUnion (ℓ := shLoc d (cV L)) Finset.univ (fun i : Fin (grid1.bound 1) => shBlk (L 1).val i.val)
      fun i _ i' _ h => shBlk_disjoint' _ _ fun e => h (Fin.ext e)] <;> rfl
  ihave H2 := (Entails.of_eq hsplit) $$ H
  iapply (show bigSep Finset.univ Φ ⊢ _ from bigSep_mono fun j' _ => by
    rw [bPay_lt d m (cV L) (j'.castLE hsub1) (jV L).val (L1_lt L)]
    refine of_pm ?_
    iintro H
    iexists f
    isplitr
    · ipureintro; exact hf
    · iexact H)
  iexact H2

theorem pays_elim :
    (bigSep ((bRd (F := F) m).duties (bcell d (cV L) (jV L)) 0 \ ∅) fun n => (bRd (F := F) m).payload (bcell d (cV L) (jV L)) 0 n)
      ⊢ (iprop(∃ f : Buf (Elt F) (shLoc d (cV L)),
            ⌜∀ (v : Fin 16) (a : Fin 3), ∃ g : Vec F S512 .f32, AccOk m d (Fin.cast nSC_eq (cV L)) v a g ∧
                ∀ b : S512.Idx, (L 1).val * 32 ≤ (b 0).val → (b 0).val < (L 1).val * 32 + 32 → shRowOf f a v b = g b⌝
            ∗ (shLoc d (cV L) ↦[shCols (L 1).val]{fullShare} f)) : sProp 𝕄) := by
  rw [Finset.sdiff_empty, bRd_duties₀]
  refine (show _ ⊢ _ from bigSep_mono fun n hn => ?_).trans ((pointsTo_biUnion_join_ex (F := F) (ℓ := shLoc d (cV L)) _ (fun n => shBlk n (L 1).val)
    (fun n f => ∃ hn : n < 16, ∀ a : Fin 3, AccOk m d (Fin.cast nSC_eq (cV L)) ⟨n, hn⟩ a (shRowOf f a ⟨n, hn⟩)) fullShare (m (shLoc d (cV L)))
    fun n _ n' _ h => shBlk_disjoint _ _ h).trans ?_)
  · obtain ⟨i, -, rfl⟩ := Finset.mem_image.mp hn
    rw [bPay_lt d m (cV L) (jV L) i.val i.isLt]
    refine of_pm ?_
    iintro ⟨%f, %hf, H⟩
    iexists f
    isplitr
    · ipureintro; exact ⟨i.isLt, hf⟩
    · iexact H
  iintro ⟨%g, %hg, H⟩
  iexists g
  isplitr
  · ipureintro
    intro v a
    obtain ⟨fv, ⟨hn, hacc⟩, hag⟩ := hg v.val (Finset.mem_image.mpr ⟨v, Finset.mem_univ _, rfl⟩)
    exact ⟨shRowOf fv a v, hacc a, fun b h1 h2 => hag _ (Finset.mem_filter.mpr ⟨Finset.mem_univ _, rfl, h1, h2⟩)⟩
  · rw [show ((Finset.univ : Finset (Fin τ.nSub)).image Fin.val).biUnion (fun n => shBlk n (L 1).val) = shCols (L 1).val from Finset.ext fun j => by
      simp only [shCols, shBlk, Finset.mem_biUnion, Finset.mem_image, Finset.mem_filter, Finset.mem_univ, _root_.true_and]
      exact ⟨fun ⟨_, _, _, h⟩ => h, fun h => ⟨(j 1).val, ⟨⟨(j 1).val, (j 1).isLt⟩, rfl⟩, rfl, h⟩⟩]
    iexact H

end Tile

end Cert.Proof.KB

end
-- ==== Proof.Bits.TileCols.lean ====
import proofs.«203579_g3066606649474_cont_9to1_387_24_alg».proof.Proof.Bits.TileGeom

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

set_option hygiene false in
local notation "𝔹" off:max inb:max =>
  ((shBlkAt off inb).view.loc (V d (cV L) (jV L)) ↦[(shBlkAt off inb).view.set]{q} f : sProp 𝕄)

/-- The bins a tile holds after the barrier, tile by tile and plane by plane, each block as the slice the program's own offset function names. -/
theorem pts_colsK (d : Dev nD) (L : grid1.Coords) (q : PosShare TreeShare) (f : Buf (Elt F) (shLoc d (cV L))) :
    (shLoc d (cV L) ↦[shCols (L 1).val]{q} f : sProp 𝕄) = iprop(
      (𝔹 (k1_off7 L) (k1_off7_inb L) ∗ 𝔹 (k1_off8 L) (k1_off8_inb L) ∗ 𝔹 (k1_off9 L) (k1_off9_inb L)) ∗
      (𝔹 (k1_off10 L) (k1_off10_inb L) ∗ 𝔹 (k1_off11 L) (k1_off11_inb L) ∗ 𝔹 (k1_off12 L) (k1_off12_inb L)) ∗
      (𝔹 (k1_off13 L) (k1_off13_inb L) ∗ 𝔹 (k1_off14 L) (k1_off14_inb L) ∗ 𝔹 (k1_off15 L) (k1_off15_inb L)) ∗
      (𝔹 (k1_off16 L) (k1_off16_inb L) ∗ 𝔹 (k1_off17 L) (k1_off17_inb L) ∗ 𝔹 (k1_off18 L) (k1_off18_inb L)) ∗
      (𝔹 (k1_off19 L) (k1_off19_inb L) ∗ 𝔹 (k1_off20 L) (k1_off20_inb L) ∗ 𝔹 (k1_off21 L) (k1_off21_inb L)) ∗
      (𝔹 (k1_off22 L) (k1_off22_inb L) ∗ 𝔹 (k1_off23 L) (k1_off23_inb L) ∗ 𝔹 (k1_off24 L) (k1_off24_inb L)) ∗
      (𝔹 (k1_off25 L) (k1_off25_inb L) ∗ 𝔹 (k1_off26 L) (k1_off26_inb L) ∗ 𝔹 (k1_off27 L) (k1_off27_inb L)) ∗
      (𝔹 (k1_off28 L) (k1_off28_inb L) ∗ 𝔹 (k1_off29 L) (k1_off29_inb L) ∗ 𝔹 (k1_off30 L) (k1_off30_inb L)) ∗
      (𝔹 (k1_off31 L) (k1_off31_inb L) ∗ 𝔹 (k1_off32 L) (k1_off32_inb L) ∗ 𝔹 (k1_off33 L) (k1_off33_inb L)) ∗
      (𝔹 (k1_off34 L) (k1_off34_inb L) ∗ 𝔹 (k1_off35 L) (k1_off35_inb L) ∗ 𝔹 (k1_off36 L) (k1_off36_inb L)) ∗
      (𝔹 (k1_off37 L) (k1_off37_inb L) ∗ 𝔹 (k1_off38 L) (k1_off38_inb L) ∗ 𝔹 (k1_off39 L) (k1_off39_inb L)) ∗
      (𝔹 (k1_off40 L) (k1_off40_inb L) ∗ 𝔹 (k1_off41 L) (k1_off41_inb L) ∗ 𝔹 (k1_off42 L) (k1_off42_inb L)) ∗
      (𝔹 (k1_off43 L) (k1_off43_inb L) ∗ 𝔹 (k1_off44 L) (k1_off44_inb L) ∗ 𝔹 (k1_off45 L) (k1_off45_inb L)) ∗
      (𝔹 (k1_off46 L) (k1_off46_inb L) ∗ 𝔹 (k1_off47 L) (k1_off47_inb L) ∗ 𝔹 (k1_off48 L) (k1_off48_inb L)) ∗
      (𝔹 (k1_off49 L) (k1_off49_inb L) ∗ 𝔹 (k1_off50 L) (k1_off50_inb L) ∗ 𝔹 (k1_off51 L) (k1_off51_inb L)) ∗
      (𝔹 (k1_off52 L) (k1_off52_inb L) ∗ 𝔹 (k1_off53 L) (k1_off53_inb L) ∗ 𝔹 (k1_off54 L) (k1_off54_inb L))) := by
  have s3 : ∀ {a0 a1 a2 b0 b1 b2 : sProp 𝕄}, b0 = a0 → b1 = a1 → b2 = a2 → iprop(a0 ∗ a1 ∗ a2) = iprop(b0 ∗ b1 ∗ b2) := by
    rintro _ _ _ _ _ _ rfl rfl rfl; rfl
  have c2 : ∀ {x x' y y' : sProp 𝕄}, x = x' → y = y' → iprop(x ∗ y) = iprop(x' ∗ y') := by
    rintro _ _ _ _ rfl rfl; rfl
  refine (pts_shCols d (cV L) (L 1).val q f).trans ((bigSep_fin_sixteen _).trans ?_)
  exact c2 (s3 (pts_shBlkAt d L (k1_off7 L) (k1_off7_inb L) 0 0 (k1_off7_eq L) q f) (pts_shBlkAt d L (k1_off8 L) (k1_off8_inb L) 1 0 (k1_off8_eq L) q f) (pts_shBlkAt d L (k1_off9 L) (k1_off9_inb L) 2 0 (k1_off9_eq L) q f))
    (c2 (s3 (pts_shBlkAt d L (k1_off10 L) (k1_off10_inb L) 0 1 (k1_off10_eq L) q f) (pts_shBlkAt d L (k1_off11 L) (k1_off11_inb L) 1 1 (k1_off11_eq L) q f) (pts_shBlkAt d L (k1_off12 L) (k1_off12_inb L) 2 1 (k1_off12_eq L) q f))
    (c2 (s3 (pts_shBlkAt d L (k1_off13 L) (k1_off13_inb L) 0 2 (k1_off13_eq L) q f) (pts_shBlkAt d L (k1_off14 L) (k1_off14_inb L) 1 2 (k1_off14_eq L) q f) (pts_shBlkAt d L (k1_off15 L) (k1_off15_inb L) 2 2 (k1_off15_eq L) q f))
    (c2 (s3 (pts_shBlkAt d L (k1_off16 L) (k1_off16_inb L) 0 3 (k1_off16_eq L) q f) (pts_shBlkAt d L (k1_off17 L) (k1_off17_inb L) 1 3 (k1_off17_eq L) q f) (pts_shBlkAt d L (k1_off18 L) (k1_off18_inb L) 2 3 (k1_off18_eq L) q f))
    (c2 (s3 (pts_shBlkAt d L (k1_off19 L) (k1_off19_inb L) 0 4 (k1_off19_eq L) q f) (pts_shBlkAt d L (k1_off20 L) (k1_off20_inb L) 1 4 (k1_off20_eq L) q f) (pts_shBlkAt d L (k1_off21 L) (k1_off21_inb L) 2 4 (k1_off21_eq L) q f))
    (c2 (s3 (pts_shBlkAt d L (k1_off22 L) (k1_off22_inb L) 0 5 (k1_off22_eq L) q f) (pts_shBlkAt d L (k1_off23 L) (k1_off23_inb L) 1 5 (k1_off23_eq L) q f) (pts_shBlkAt d L (k1_off24 L) (k1_off24_inb L) 2 5 (k1_off24_eq L) q f))
    (c2 (s3 (pts_shBlkAt d L (k1_off25 L) (k1_off25_inb L) 0 6 (k1_off25_eq L) q f) (pts_shBlkAt d L (k1_off26 L) (k1_off26_inb L) 1 6 (k1_off26_eq L) q f) (pts_shBlkAt d L (k1_off27 L) (k1_off27_inb L) 2 6 (k1_off27_eq L) q f))
    (c2 (s3 (pts_shBlkAt d L (k1_off28 L) (k1_off28_inb L) 0 7 (k1_off28_eq L) q f) (pts_shBlkAt d L (k1_off29 L) (k1_off29_inb L) 1 7 (k1_off29_eq L) q f) (pts_shBlkAt d L (k1_off30 L) (k1_off30_inb L) 2 7 (k1_off30_eq L) q f))
    (c2 (s3 (pts_shBlkAt d L (k1_off31 L) (k1_off31_inb L) 0 8 (k1_off31_eq L) q f) (pts_shBlkAt d L (k1_off32 L) (k1_off32_inb L) 1 8 (k1_off32_eq L) q f) (pts_shBlkAt d L (k1_off33 L) (k1_off33_inb L) 2 8 (k1_off33_eq L) q f))
    (c2 (s3 (pts_shBlkAt d L (k1_off34 L) (k1_off34_inb L) 0 9 (k1_off34_eq L) q f) (pts_shBlkAt d L (k1_off35 L) (k1_off35_inb L) 1 9 (k1_off35_eq L) q f) (pts_shBlkAt d L (k1_off36 L) (k1_off36_inb L) 2 9 (k1_off36_eq L) q f))
    (c2 (s3 (pts_shBlkAt d L (k1_off37 L) (k1_off37_inb L) 0 10 (k1_off37_eq L) q f) (pts_shBlkAt d L (k1_off38 L) (k1_off38_inb L) 1 10 (k1_off38_eq L) q f) (pts_shBlkAt d L (k1_off39 L) (k1_off39_inb L) 2 10 (k1_off39_eq L) q f))
    (c2 (s3 (pts_shBlkAt d L (k1_off40 L) (k1_off40_inb L) 0 11 (k1_off40_eq L) q f) (pts_shBlkAt d L (k1_off41 L) (k1_off41_inb L) 1 11 (k1_off41_eq L) q f) (pts_shBlkAt d L (k1_off42 L) (k1_off42_inb L) 2 11 (k1_off42_eq L) q f))
    (c2 (s3 (pts_shBlkAt d L (k1_off43 L) (k1_off43_inb L) 0 12 (k1_off43_eq L) q f) (pts_shBlkAt d L (k1_off44 L) (k1_off44_inb L) 1 12 (k1_off44_eq L) q f) (pts_shBlkAt d L (k1_off45 L) (k1_off45_inb L) 2 12 (k1_off45_eq L) q f))
    (c2 (s3 (pts_shBlkAt d L (k1_off46 L) (k1_off46_inb L) 0 13 (k1_off46_eq L) q f) (pts_shBlkAt d L (k1_off47 L) (k1_off47_inb L) 1 13 (k1_off47_eq L) q f) (pts_shBlkAt d L (k1_off48 L) (k1_off48_inb L) 2 13 (k1_off48_eq L) q f))
    (c2 (s3 (pts_shBlkAt d L (k1_off49 L) (k1_off49_inb L) 0 14 (k1_off49_eq L) q f) (pts_shBlkAt d L (k1_off50 L) (k1_off50_inb L) 1 14 (k1_off50_eq L) q f) (pts_shBlkAt d L (k1_off51 L) (k1_off51_inb L) 2 14 (k1_off51_eq L) q f))
    (s3 (pts_shBlkAt d L (k1_off52 L) (k1_off52_inb L) 0 15 (k1_off52_eq L) q f) (pts_shBlkAt d L (k1_off53 L) (k1_off53_inb L) 1 15 (k1_off53_eq L) q f) (pts_shBlkAt d L (k1_off54 L) (k1_off54_inb L) 2 15 (k1_off54_eq L) q f))))))))))))))))

end Cert.Proof.KB

end
-- ==== Proof.Bits.TileLoop.lean ====
import proofs.«203579_g3066606649474_cont_9to1_387_24_alg».proof.Proof.Bits.Setup
import Idealize.ShloMosaic.PureOps.Ideal
import Idealize.ShloMosaic.Lib.ValueIdx
import Mathlib.Algebra.BigOperators.Fin

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem trips_eq : k1_t1_loop.trips = 197 := by decide

theorem pay4_toNat (k : Fin k1_t1_loop.trips) (x : S16.Idx) : (k1_pay4 k x).toNat = 197 * (x 0).val + k.val := by
  have hk : k.val < 197 := trips_eq ▸ k.isLt
  have hl : (x 0).val < 16 := (x 0).isLt
  show (IntOp.addi (IntOp.muli (BitVec.ofNat 32 (0 * S16.size 0 + (x 0).val)) 197#32) (Scf.iv 0#32 1#32 k.val)).toNat = _
  rw [Nat.zero_mul, Nat.zero_add]
  unfold IntOp.addi IntOp.muli Scf.iv
  simp only [BitVec.toNat_add, BitVec.toNat_mul, BitVec.toNat_ofNat]
  omega

theorem clamp_toNat (p : BitVec 32) (hp : p.toNat < 4000) : (IntOp.minsi p 3135#32).toNat = min p.toNat 3135 := by
  unfold IntOp.minsi
  split <;> rename_i h <;> rw [BitVec.slt_iff_toInt_lt, BitVec.toInt_eq_toNat_cond] at h <;> simp at h
  · omega
  · have : (3135#32 : BitVec 32).toNat = 3135 := by decide
    omega

theorem mask_iff (p : BitVec 32) (hp : p.toNat < 4000) : IntOp.cmpi .slt p 3136#32 = 1 ↔ p.toNat < 3136 := by
  have hs : p.slt 3136#32 = true ↔ p.toNat < 3136 := by
    rw [BitVec.slt_iff_toInt_lt, BitVec.toInt_eq_toNat_cond]
    simp
    omega
  show BitVec.ofBool (p.slt 3136#32) = 1 ↔ _
  rw [← hs]
  generalize p.slt 3136#32 = c
  cases c <;> decide

theorem pay4_lt (k : Fin k1_t1_loop.trips) (x : S16.Idx) : (k1_pay4 k x).toNat < 4000 := by
  have hk : k.val < 197 := trips_eq ▸ k.isLt
  have hl : (x 0).val < 16 := (x 0).isLt
  rw [pay4_toNat]
  omega

theorem pay6_toNat (k : Fin k1_t1_loop.trips) (x : S16.Idx) : (k1_pay6 k x).toNat = min (197 * (x 0).val + k.val) 3135 :=
  (clamp_toNat _ (pay4_lt k x)).trans (by rw [pay4_toNat])

theorem pay5_iff (k : Fin k1_t1_loop.trips) (x : S16.Idx) : k1_pay5 k x = 1 ↔ 197 * (x 0).val + k.val < 3136 :=
  (mask_iff _ (pay4_lt k x)).trans (by rw [pay4_toNat])

-- The clamp keeps every lane's node inside the chunk.
theorem idx_inb (k : Fin k1_t1_loop.trips) : ∀ a x, ((![k1_pay6 k] : Fin 1 → IVec S16 32) a x).toNat < S3136.size a := by
  intro a x
  obtain rfl : a = 0 := Subsingleton.elim _ _
  show (k1_pay6 k x).toNat < 3136
  rw [pay6_toNat]
  omega

theorem chk1_pay6 (k : Fin k1_t1_loop.trips) : k1_chk1 (k1_pay6 k) := ⟨idx_inb k, idx_inb k, idx_inb k⟩

theorem ids_inb {idsR : IVec S3136 32} (hids : ∀ p, (idsR p).toNat < 528) (ix : IVec S16 32)
    (h : ∀ a x, ((![ix] : Fin 1 → IVec S16 32) a x).toNat < S3136.size a) :
    ∀ a x, ((![loadIdx (F := F) (e := .i32) idsR ![ix] h] : Fin 1 → IVec S16 32) a x).toNat < S528.size a := by
  intro a x
  obtain rfl : a = 0 := Subsingleton.elim _ _
  exact hids _

theorem chk2_of {idsR : IVec S3136 32} (hids : ∀ p, (idsR p).toNat < 528) (ix : IVec S16 32)
    (h : ∀ a x, ((![ix] : Fin 1 → IVec S16 32) a x).toNat < S3136.size a) :
    k1_chk2 (loadIdx (F := F) (e := .i32) idsR ![ix] h) := ⟨ids_inb hids ix h, ids_inb hids ix h, ids_inb hids ix h⟩

theorem accPre_step (vals : Vec F S3136 .f32) (idsv : IVec S3136 32) (k : Fin k1_t1_loop.trips) (h1 : ∀ a x, ((![k1_pay6 k] : Fin 1 → IVec S16 32) a x).toNat < S3136.size a)
    (h2 : ∀ a x, ((![loadIdx (F := F) (e := .i32) idsv ![k1_pay6 k] h1] : Fin 1 → IVec S16 32) a x).toNat < S528.size a) :
    storeIdx (accPre vals idsv k.val) ![loadIdx (F := F) (e := .i32) idsv ![k1_pay6 k] h1] (loadIdx vals ![k1_pay6 k] h1) (k1_pay5 k) true h2
      = accPre vals idsv (k.val + 1) := by
  obtain ⟨n, hn⟩ := k
  show _ = (if h : n < k1_t1_loop.trips then accStep vals idsv ⟨n, h⟩ (accPre vals idsv n) else accPre vals idsv n)
  rw [dif_pos hn]
  unfold accStep
  rw [dif_pos h1, dif_pos h2]

abbrev sLc : Memref sig .scVector .vmem S3136 .f32 := Memref.whole cc1_scratch0
abbrev sLd : Memref sig .scVector .vmem S3136 .f32 := Memref.whole cc1_scratch1
abbrev sIds : Memref sig .scVector .vmem S3136 .i32 := Memref.whole cc1_scratch2
abbrev sAc : Memref sig .scVector .vmem S528 .f32 := Memref.whole cc1_scratch3
abbrev sAd : Memref sig .scVector .vmem S528 .f32 := Memref.whole cc1_scratch4
abbrev sAn : Memref sig .scVector .vmem S528 .f32 := Memref.whole cc1_scratch5

-- An indexed load from a buffer held whole, whose whole read is g, looks g up.
theorem wp_look {defs : Defs nD τ sig (Elt F) Λ₀} (𝒱 : Variants) (c : Thread nD τ) (bd : Option 𝒱.V) (E : Set ℕ) {α : Type} {Q : α → sProp 𝕄}
    {s t : Shape} {e : EltTy} {m : Memref sig c.2.kind .vmem s e} {idxs : Fin s.rank → IVec t 32} {h : ∀ a x, (idxs a x).toNat < s.size a}
    {hl : m.view.Loads} {k : Vec F t e → Prog (TpuEff nD τ sig (Elt F) Λ₀ c.2) α} {q : PosShare TreeShare}
    {f : Buf (Elt F) (m.view.loc c)} {g : Vec F s e} (hr : (m.access (.whole s)).read (Elt F) f = g) :
    (m.view.loc c ↦{q} f : sProp 𝕄)
      ⊢ iprop(((m.view.loc c ↦{q} f) -∗ wp frame (wpE defs 𝒱 c bd) E (k (loadIdx g idxs h)) Q)
        -∗ wp frame (wpE defs 𝒱 c bd) E (SparseCore.vectorLoadIdx m idxs h hl >>= k) Q) := by
  subst hr
  exact SparseCore.wp_vectorLoadIdx 𝒱 c bd E (base := m) (idxs := idxs) (h := h) (hl := hl) (k := k) (S := Finset.univ) (q := q) (f := f) (Q := Q) (Finset.subset_univ _)

-- An indexed store into a buffer held whole leaves f', when the whole reads g, the store makes w of g, and w written whole is f'.
theorem wp_put {defs : Defs nD τ sig (Elt F) Λ₀} (𝒱 : Variants) (c : Thread nD τ) (bd : Option 𝒱.V) (E : Set ℕ) {α : Type} {Q : α → sProp 𝕄}
    {s : Shape} {e : EltTy} {m : Memref sig c.2.kind .vmem s e} {n : Fin 1 → Nat} {idxs : Fin s.rank → IVec ⟨1, n⟩ 32} {v : Vec F ⟨1, n⟩ e}
    {mask : IVec ⟨1, n⟩ 1} {add : Bool} {h : ∀ a x, (idxs a x).toNat < s.size a} {hs : (m.access (.whole s)).Stores Finset.univ}
    {k : PUnit → Prog (TpuEff nD τ sig (Elt F) Λ₀ c.2) α} {f f' : Buf (Elt F) (m.view.loc c)} {g w : Vec F s e}
    (h0 : (m.access (.whole s)).set = Finset.univ) (hr : (m.access (.whole s)).read (Elt F) f = g)
    (hw : (m.access (.whole s)).write (Elt F) f w Finset.univ = f') (hg : storeIdx g idxs v mask add h = w) :
    (m.view.loc c ↦{fullShare} f : sProp 𝕄)
      ⊢ iprop(((m.view.loc c ↦{fullShare} f') -∗ wp frame (wpE defs 𝒱 c bd) E (k ⟨⟩) Q)
        -∗ wp frame (wpE defs 𝒱 c bd) E (SparseCore.vectorStoreIdx m idxs v mask add h hs >>= k) Q) := by
  subst hr hg hw
  have := SparseCore.wp_vectorStoreIdx (defs := defs) 𝒱 c bd E (base := m) (idxs := idxs) (v := v) (mask := mask) (add := add) (h := h) (hs := hs) (k := k) (f := f) (Q := Q)
  rw [h0] at this
  exact this

section Trip

variable (d : Dev nD) (L : grid1.Coords)

abbrev thrV : Thread nD τ := V d ((L 0).castLE hcore1) ((L 1).castLE hsub1)

def loopInv (lcv ldv : Vec F S3136 .f32) (idsv : IVec S3136 32) (j : Nat) (_ : Unit) : sProp 𝕄 :=
  iprop(((sIds).view.loc (thrV d L) ↦{fullShare} idsv) ∗ ((sLc).view.loc (thrV d L) ↦{fullShare} lcv) ∗ ((sLd).view.loc (thrV d L) ↦{fullShare} ldv)
    ∗ ((sAc).view.loc (thrV d L) ↦{fullShare} accPre lcv idsv j) ∗ ((sAd).view.loc (thrV d L) ↦{fullShare} accPre ldv idsv j)
    ∗ ((sAn).view.loc (thrV d L) ↦{fullShare} accPre (onesV (F := F)) idsv j))

theorem wp_trip {defs : Defs nD τ sig (Elt F) Λ₀} (𝒱 : Variants) (bd : Option 𝒱.V) (E : Set ℕ)
    {arg2 : Memref sig .scVector .hbm S100352 .f32} {harg2 : arg2.IsWhole} {arg3 : Memref sig .scVector .hbm S100352 .f32} {harg3 : arg3.IsWhole}
    {arg4 : Memref sig .scVector .hbm S100000 .i32} {harg4 : arg4.IsWhole} {arg5 : Memref sig .scVector .hbm S3072 .f32} {harg5 : arg5.IsWhole}
    {arg12 : Memref sig .scVector .vmem S32 .f32} {harg12 : arg12.IsWhole} {arg13 : Memref sig .scVector .vmem S32 .f32} {harg13 : arg13.IsWhole}
    {arg14 : Memref sig .scVector .vmem S32 .f32} {harg14 : arg14.IsWhole} {arg15 : Memref sig .scVector .shared S3x16x1x512 .f32} {harg15 : arg15.IsWhole}
    {arg16 : Memref sig .scVector .vmem S3x2x1x32 .f32} {harg16 : arg16.IsWhole} {arg17 arg18 arg19 : DmaSems sig S_}
    {r0 r1 r2 r3 r4 r5 r6 r7 : DmaSems sig S_} {v13 : FVec F S16 .f32}
    (lcv ldv : Vec F S3136 .f32) (idsv : IVec S3136 32) (hids : ∀ p, (idsv p).toNat < 528)
    (k : Fin k1_t1_loop.trips) (acc : Unit) :
    loopInv d L lcv ldv idsv k.val acc
      ⊢ wp frame (wpE defs 𝒱 (thrV d L) bd) E
          (k1_t1_body L arg2 harg2 arg3 harg3 arg4 harg4 arg5 harg5 sLc (Memref.isWhole_whole _) sLd (Memref.isWhole_whole _) sIds (Memref.isWhole_whole _)
            sAc (Memref.isWhole_whole _) sAd (Memref.isWhole_whole _) sAn (Memref.isWhole_whole _) arg12 harg12 arg13 harg13 arg14 harg14 arg15 harg15 arg16 harg16
            arg17 arg18 arg19 r0 r1 r2 r3 r4 r5 r6 r7 v13 k acc)
          (loopInv d L lcv ldv idsv (k.val + 1)) := by
  unfold loopInv k1_t1_body
  simp only [Prog.lift, Prog.bind_op, Prog.bind_ret, Prog.pure_eq_ret]
  iintro ⟨Hids, Hlc, Hld, Hac, Had, Han⟩
  rw [wp_assume_of _ _ _ _ (chk1_pay6 k)]
  iapply (wp_look 𝒱 (thrV d L) bd E (m := sIds) (q := fullShare) (Memref.read_access_whole (Elt F) cc1_scratch2 idsv)) $$ Hids; iintro Hids
  rw [wp_assume_of _ _ _ _ (chk2_of (F := F) hids (k1_pay6 k) _)]
  iapply (wp_look 𝒱 (thrV d L) bd E (m := sLc) (q := fullShare) (Memref.read_access_whole (Elt F) cc1_scratch0 lcv)) $$ Hlc; iintro Hlc
  iapply (wp_look 𝒱 (thrV d L) bd E (m := sLd) (q := fullShare) (Memref.read_access_whole (Elt F) cc1_scratch1 ldv)) $$ Hld; iintro Hld
  iapply (wp_put 𝒱 (thrV d L) bd E (m := sAc) (Memref.set_access_whole cc1_scratch3) (Memref.read_access_whole _ cc1_scratch3 _)
    (Memref.write_access_whole_univ _ cc1_scratch3 _ _) (accPre_step lcv idsv k (idx_inb k) (ids_inb hids _ _))) $$ Hac; iintro Hac
  iapply (wp_put 𝒱 (thrV d L) bd E (m := sAd) (Memref.set_access_whole cc1_scratch4) (Memref.read_access_whole _ cc1_scratch4 _)
    (Memref.write_access_whole_univ _ cc1_scratch4 _ _) (accPre_step ldv idsv k (idx_inb k) (ids_inb hids _ _))) $$ Had; iintro Had
  iapply (wp_put 𝒱 (thrV d L) bd E (m := sAn) (Memref.set_access_whole cc1_scratch5) (Memref.read_access_whole _ cc1_scratch5 _)
    (Memref.write_access_whole_univ _ cc1_scratch5 _ _) (accPre_step (onesV (F := F)) idsv k (idx_inb k) (ids_inb hids _ _))) $$ Han; iintro Han
  sl_step
  iframe

end Trip

section AtIdeal

open scoped BigOperators
open Idealize.ShloMosaic.ValueIdx (ix1)

def nodeOf (l : Fin 16) (j : Nat) : Fin 3136 := ⟨min (197 * l.val + j) 3135, by omega⟩

-- Over the extended reals an indexed add leaves in a bin what was there plus the values of the set lanes that name it.
theorem storeIdx_add_ideal {d : Fin 1 → Nat} (g : Vec Ideal S528 .f32) (ix : IVec ⟨1, d⟩ 32) (v : Vec Ideal ⟨1, d⟩ .f32) (mk : IVec ⟨1, d⟩ 1)
    (h : ∀ a x, ((![ix] : Fin 1 → IVec ⟨1, d⟩ 32) a x).toNat < S528.size a) (b : S528.Idx) :
    storeIdx g ![ix] v mk true h b
      = g b + ∑ l : Fin (d 0), if mk (Shape.ofLane l) = 1 ∧ (ix (Shape.ofLane l)).toNat = (b 0).val then v (Shape.ofLane l) else 0 := by
  rw [Fin.sum_univ_def]
  unfold storeIdx
  generalize List.finRange (d 0) = ls
  induction ls generalizing g with
  | nil => simp
  | cons l ls ih =>
    rw [List.foldl_cons, ih, List.map_cons, List.sum_cons, ← add_assoc]
    congr 1
    by_cases hm : mk (Shape.ofLane l) = 1
    · simp only [hm, ↓reduceIte, true_and]
      by_cases hb : (ix (Shape.ofLane l)).toNat = (b 0).val
      · have hbi : b = idxAt ![ix] h (Shape.ofLane l) := by
          funext a; obtain rfl : a = 0 := Subsingleton.elim _ _; exact Fin.ext hb.symm
        have hall : ∀ a, (b a).val = ((idxAt ![ix] h (Shape.ofLane l)) a).val := fun a => by rw [← hbi]
        rw [if_pos hb, if_pos hall, ← hbi]; rfl
      · have hall : ¬ ∀ a, (b a).val = ((idxAt ![ix] h (Shape.ofLane l)) a).val := fun hall => hb (hall 0).symm
        rw [if_neg hb, add_zero, if_neg hall]
    · simp only [hm, ↓reduceIte, false_and, add_zero]

def tripSum (vals : Vec Ideal S3136 .f32) (idsv : IVec S3136 32) (b : Fin 528) (j : Nat) : EReal :=
  ∑ l : Fin 16, if 197 * l.val + j < 3136 ∧ (idsv (ix1 (nodeOf l j))).toNat = b.val then vals (ix1 (nodeOf l j)) else 0

theorem loadIdx_pay6 {e : EltTy} (f : Vec Ideal S3136 e) (k : Fin k1_t1_loop.trips)
    (h : ∀ a x, ((![k1_pay6 k] : Fin 1 → IVec S16 32) a x).toNat < S3136.size a) (l : Fin 16) :
    loadIdx f ![k1_pay6 k] h (Shape.ofLane l) = f (ix1 (nodeOf l k.val)) := by
  refine congrArg f (funext fun a => ?_)
  obtain rfl : a = 0 := Subsingleton.elim _ _
  exact Fin.ext (pay6_toNat k (Shape.ofLane l))

theorem accPre_ideal (vals : Vec Ideal S3136 .f32) (idsv : IVec S3136 32) (hids : ∀ k, (idsv k).toNat < 528) (b : Fin 528) :
    ∀ n, n ≤ 197 → accPre vals idsv n (ix1 b) = ∑ j ∈ Finset.range n, tripSum vals idsv b j
  | 0, _ => by
    rw [Finset.range_zero, Finset.sum_empty]
    show Ideal.ofBits .f32 0x00000000#32 = 0
    simp [Ideal.ofBits, Ideal.ieee]
  | n + 1, hn => by
    have hlt : n < k1_t1_loop.trips := by rw [trips_eq]; omega
    rw [← accPre_step vals idsv ⟨n, hlt⟩ (idx_inb _) (ids_inb (F := Ideal) hids _ _), storeIdx_add_ideal,
      accPre_ideal vals idsv hids b n (by omega), Finset.sum_range_succ]
    congr 1
    unfold tripSum
    refine Finset.sum_congr rfl fun l _ => ?_
    exact if_congr (and_congr (pay5_iff ⟨n, hlt⟩ (Shape.ofLane l)) (iff_of_eq (congrArg (·.toNat = b.val) (loadIdx_pay6 (e := .i32) idsv ⟨n, hlt⟩ _ l))))
      (loadIdx_pay6 vals ⟨n, hlt⟩ _ l) rfl

-- Every node of the chunk is looked up by exactly one lane of one trip.
theorem sum_trips_eq (f : Fin 3136 → EReal) :
    ∑ j ∈ Finset.range 197, ∑ l : Fin 16, (if 197 * l.val + j < 3136 then f (nodeOf l j) else 0) = ∑ k : Fin 3136, f k := by
  rw [← Finset.sum_product', ← Finset.sum_filter]
  refine Finset.sum_nbij' (fun x => nodeOf x.2 x.1) (fun k => (k.val % 197, ⟨k.val / 197, by have := k.isLt; omega⟩)) ?_ ?_ ?_ ?_ ?_
  · intro x _; exact Finset.mem_univ _
  · intro k _
    simp only [Finset.mem_filter, Finset.mem_product, Finset.mem_range, Finset.mem_univ, and_true]
    have := k.isLt
    constructor <;> omega
  · rintro ⟨j, l⟩ hx
    simp only [Finset.mem_filter, Finset.mem_product, Finset.mem_range, Finset.mem_univ, and_true] at hx
    have hl := l.isLt
    refine Prod.ext ?_ (Fin.ext ?_)
    · show min (197 * l.val + j) 3135 % 197 = j
      omega
    · show min (197 * l.val + j) 3135 / 197 = l.val
      omega
  · intro k _
    have := k.isLt
    refine Fin.ext ?_
    show min (197 * (k.val / 197) + k.val % 197) 3135 = k.val
    omega
  · intro x _; rfl

theorem accFold_ideal (vals : Vec Ideal S3136 .f32) (idsv : IVec S3136 32) (hids : ∀ k, (idsv k).toNat < 528) (b : Fin 528) :
    accFold vals idsv (ix1 b) = ∑ k ∈ Finset.univ.filter (fun k : Fin 3136 => (idsv (ix1 k)).toNat = b.val), vals (ix1 k) := by
  have h := accPre_ideal vals idsv hids b 197 le_rfl
  rw [← trips_eq] at h
  rw [Finset.sum_filter, ← sum_trips_eq]
  refine h.trans (Finset.sum_congr rfl fun j _ => ?_)
  unfold tripSum
  refine Finset.sum_congr rfl fun l _ => ?_
  by_cases hc : 197 * l.val + j < 3136 <;> simp [hc]

end AtIdeal

end Cert.Proof.KB

end
-- ==== Proof.Bits.TileVals.lean ====
import proofs.«203579_g3066606649474_cont_9to1_387_24_alg».proof.Proof.Bits.TileGeom
import Idealize.ShloMosaic.Lib.WritesUnit

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

section Fill

variable {κ : Kind} {sp : Space} {n : Nat} {e : EltTy} {Val : EltTy → Type} (v : View sig κ sp ⟨1, ![n]⟩ e) (f : v.ty.Contents Val)
  (z : Val e) (lo : Nat) (y : (⟨1, ![n]⟩ : Shape).Idx)

/-- After stores of sixteen lanes of `z` stacked from `lo` up to `hi`, a position below `hi` reads `z`, or what was there if it is below `lo`. -/
def Filled (hi : Nat) (L : List (View.Piece Val ⟨1, ![n]⟩ e)) : Prop :=
  (y 0).val < hi → v.read Val (v.writes Val f L) y = if (y 0).val < lo then v.read Val f y else z

theorem Filled.nil : Filled v f z lo y lo [] := fun h => (if_pos h).symm

theorem Filled.cons {o : Nat} {inb} {w : (Rect.unit (s := ⟨1, ![n]⟩) ![o] S16.size inb).shape.Idx → Val e} {L : List (View.Piece Val ⟨1, ![n]⟩ e)}
    (hw : ∀ x, w x = z) (hlo : lo ≤ o) (hL : Filled v f z lo y o L) :
    Filled v f z lo y (o + 16) (⟨Rect.unit (s := ⟨1, ![n]⟩) ![o] S16.size inb, w⟩ :: L) := fun hy => by
  by_cases h : o ≤ (y 0).val
  · rw [View.read_writes_cons_unit_of_mem v f inb w L y (ValueIdx.ix1 ⟨(y 0).val - o, by omega⟩) rfl
      (Fin.forall_fin_one.mpr (by show (y 0).val = o + ((y 0).val - o); omega)), hw, if_neg (Nat.not_lt.mpr (hlo.trans h))]
  · rw [View.read_writes_cons_unit_of_not_mem v f inb w L y rfl 0 (Or.inl (Nat.lt_of_not_le h))]
    exact hL (Nat.lt_of_not_le h)

end Fill

variable [FloatOps F] (d : Dev nD) (L : grid1.Coords) (m : (ℓ : Loc nD τ sig) → Buf (Elt F) ℓ)

/-- Position `x` of a unit-stride window of an array is the array's position `off + x`. -/
theorem unit_emb {s : Shape} {off size : Fin s.rank → Nat} {inb : ∀ a, off a + size a ≤ s.size a}
    (x : (Rect.unit (s := s) off size inb).shape.Idx) (j : s.Idx) (h : ∀ a, off a + (x a).val = (j a).val) :
    (Rect.unit (s := s) off size inb).emb x = j :=
  funext fun a => Fin.ext (by show off a + 1 * (x a).val = (j a).val; rw [Nat.one_mul]; exact h a)

theorem unit_emb1 {n : Nat} {off size : Fin 1 → Nat} {inb : ∀ a, off a + size a ≤ (⟨1, ![n]⟩ : Shape).size a}
    (k : (Rect.unit (s := ⟨1, ![n]⟩) off size inb).shape.Idx) {i : Nat} (e : off 0 + (k 0).val = i) (h : i < n) :
    (Rect.unit (s := ⟨1, ![n]⟩) off size inb).emb k = ValueIdx.ix1 ⟨i, h⟩ :=
  unit_emb k _ (Fin.forall_fin_one.mpr e)

theorem base_emb {n : Nat} {off size : Fin 1 → Nat} {inb : ∀ a, off a + size a ≤ (⟨1, ![n]⟩ : Shape).size a}
    (ho : off = ![50176 * (L 0).val + 3136 * (L 1).val]) (k : (Rect.unit (s := ⟨1, ![n]⟩) off size inb).shape.Idx)
    (h : baseOf (L 0).val (L 1).val + (k 0).val < n) :
    (Rect.unit (s := ⟨1, ![n]⟩) off size inb).emb k = ValueIdx.ix1 ⟨baseOf (L 0).val (L 1).val + (k 0).val, h⟩ :=
  unit_emb1 k (by subst ho; show 50176 * (L 0).val + 3136 * (L 1).val + (k 0).val = ((L 0).val * 16 + (L 1).val) * 3136 + (k 0).val; omega) h

theorem outSlice_congr (c : Fin 2) (i : Fin 16) (a : Fin 3) (g f : Vec F S3072 .f32) (h : ∀ j ∈ outSetA c.val i.val a.val, g j = f j) :
    outSlice g c i a = outSlice f c i a :=
  funext fun r => h _ (Finset.mem_filter.mpr ⟨Finset.mem_univ _, Nat.le_add_right _ _, Nat.add_lt_add_left (r 0).isLt _⟩)

theorem glue3 {ℓ : Loc nD τ sig} (K : Fin 3 → Finset (Idx ℓ)) (P : Fin 3 → Buf (Elt F) ℓ → Prop) (f₀ : Buf (Elt F) ℓ)
    (hK : ∀ a a', a ≠ a' → Disjoint (K a) (K a')) (hP : ∀ a g f, P a f → (∀ j ∈ K a, g j = f j) → P a g) :
    iprop((∃ f, ⌜P 0 f⌝ ∗ (ℓ ↦[K 0]{fullShare} f)) ∗ (∃ f, ⌜P 1 f⌝ ∗ (ℓ ↦[K 1]{fullShare} f)) ∗ (∃ f, ⌜P 2 f⌝ ∗ (ℓ ↦[K 2]{fullShare} f)))
      ⊢ (iprop(∃ g, ⌜∀ a, P a g⌝ ∗ (ℓ ↦[Finset.univ.biUnion K]{fullShare} g)) : sProp 𝕄) := by
  refine (Entails.of_eq (bigSep_fin_three (fun a : Fin 3 => (iprop(∃ f, ⌜P a f⌝ ∗ (ℓ ↦[K a]{fullShare} f)) : sProp 𝕄))).symm).trans ?_
  refine (pointsTo_biUnion_join_ex (F := F) Finset.univ K P fullShare f₀ (fun a _ a' _ h => hK a a' h)).trans ?_
  iintro ⟨%g, %hg, H⟩
  iexists g
  isplitr
  · ipureintro
    intro a
    obtain ⟨f, hf, hag⟩ := hg a (Finset.mem_univ a)
    exact hP a g f hf hag
  · iexact H

theorem out_glue :
    iprop((∃ f : Vec F S3072 .f32, ⌜OutOk m d (Fin.cast nSC_eq (cV L)) (jL L) 0 (outSlice f (Fin.cast nSC_eq (cV L)) (jL L) 0)⌝
          ∗ (pLoc d ↦[outSetA (cV L).val (L 1).val 0]{fullShare} f))
        ∗ (∃ f : Vec F S3072 .f32, ⌜OutOk m d (Fin.cast nSC_eq (cV L)) (jL L) 1 (outSlice f (Fin.cast nSC_eq (cV L)) (jL L) 1)⌝
          ∗ (pLoc d ↦[outSetA (cV L).val (L 1).val 1]{fullShare} f))
        ∗ (∃ f : Vec F S3072 .f32, ⌜OutOk m d (Fin.cast nSC_eq (cV L)) (jL L) 2 (outSlice f (Fin.cast nSC_eq (cV L)) (jL L) 2)⌝
          ∗ (pLoc d ↦[outSetA (cV L).val (L 1).val 2]{fullShare} f)))
      ⊢ (iprop(∃ pA : Vec F S3072 .f32,
            ⌜∀ a : Fin 3, OutOk m d (Fin.cast nSC_eq (cV L)) (jL L) a (outSlice pA (Fin.cast nSC_eq (cV L)) (jL L) a)⌝
            ∗ (pLoc d ↦[outSets (cV L).val (L 1).val]{fullShare} pA)) : sProp 𝕄) := by
  rw [outSets_eq]
  exact glue3 (F := F) (ℓ := pLoc d) (fun a => outSetA (cV L).val (L 1).val a.val) (fun a f => OutOk m d _ (jL L) a (outSlice f (Fin.cast nSC_eq (cV L)) (jL L) a)) (m (pLoc d))
    (fun _ _ h => outSetA_disjoint _ _ (fun e => h (Fin.ext e))) (fun a g f hf h => by rw [outSlice_congr (Fin.cast nSC_eq (cV L)) (jL L) a g f h]; exact hf)

abbrev binIx (i : Fin 16) (r : S32.Idx) : S512.Idx :=
  ValueIdx.ix1 ⟨i.val * 32 + (r 0).val, by have := i.isLt; have hr : (r 0).val < 32 := (r 0).isLt; show i.val * 32 + (r 0).val < 512; omega⟩

theorem outOk_of_rows (c : Fin 2) (i : Fin 16) (a : Fin 3) (f : Vec F S3x16x1x512 .f32)
    (hf : ∀ (v : Fin 16) (a : Fin 3), ∃ g : Vec F S512 .f32, AccOk m d c v a g ∧
      ∀ b : S512.Idx, i.val * 32 ≤ (b 0).val → (b 0).val < i.val * 32 + 32 → shRowOf f a v b = g b)
    (o : Vec F S32 .f32)
    (ho : ∀ r : S32.Idx, o r = (List.finRange 16).foldl (fun acc v => FloatOps.addf acc (shRowOf f a v (binIx i r))) (Scalar.ofBits .f32 0x00000000#32)) :
    OutOk m d c i a o := by
  choose rows hrows using fun v => hf v a
  refine ⟨rows, fun v => (hrows v).1, fun r => ?_⟩
  rw [ho r]
  refine congrArg (fun x : Fin 16 → F .f32 => (List.finRange 16).foldl (fun acc v => FloatOps.addf acc (x v)) (Scalar.ofBits .f32 0x00000000#32))
    (funext fun v => ?_)
  exact (hrows v).2 (binIx i r) (Nat.le_add_right _ _) (Nat.add_lt_add_left (r 0).isLt _)

def sq4 {n : Nat} (b : (⟨1, ![n]⟩ : Shape).Idx) : (⟨4, ![1, 1, 1, n]⟩ : Shape).Idx :=
  fun x => match x with | ⟨0, _⟩ => (0 : Fin 1) | ⟨1, _⟩ => (0 : Fin 1) | ⟨2, _⟩ => (0 : Fin 1) | ⟨3, _⟩ => b 0

theorem reshape_sq4 {n : Nat} (h : (⟨1, ![n]⟩ : Shape).numel = (⟨4, ![1, 1, 1, n]⟩ : Shape).numel) (b : (⟨1, ![n]⟩ : Shape).Idx) :
    Shape.reshapeEquiv h b = sq4 b :=
  Shape.reshapeEquiv_eq_of_rowMajor h (by
    rw [Shape.rowMajor_val_four, Shape.rowMajor_val_one]
    show ((0 * 1 + 0) * 1 + 0) * n + (b 0).val = (b 0).val
    omega)

theorem read_shRowAt (off : Fin 4 → Nat) (inb) (a : Fin 3) (v : Fin 16) (h : off = ![a.val, v.val, 0, 0]) (g : Vec F S3x16x1x512 .f32) :
    (shRowAt off inb).view.read (Elt F) g = shRowOf g a v := by
  subst h
  funext b
  show g ((Rect.unit (s := S3x16x1x512) ![a.val, v.val, 0, 0] S1x1x1x512.size inb).emb (Shape.reshapeEquiv squeezes_S1x1x1x512_S512.numel_eq b)) = shRowOf g a v b
  rw [reshape_sq4]
  exact congrArg g (unit_emb _ _ (forall_fin4.mpr ⟨rfl, rfl, rfl, Nat.zero_add _⟩))

theorem read_shBlkAt (off : Fin 4 → Nat) (inb) (a : Fin 3) (v j : Fin 16) (h : off = ![a.val, v.val, 0, 32 * j.val]) (g : Vec F S3x16x1x512 .f32) :
    (shBlkAt off inb).view.read (Elt F) g = fun r : S32.Idx => shRowOf g a v (binIx j r) := by
  subst h
  funext r
  show g ((Rect.unit (s := S3x16x1x512) ![a.val, v.val, 0, 32 * j.val] S1x1x1x32.size inb).emb (Shape.reshapeEquiv squeezes_S1x1x1x32_S32.numel_eq r)) = shRowOf g a v (binIx j r)
  rw [reshape_sq4]
  exact congrArg g (unit_emb _ _ (forall_fin4.mpr ⟨rfl, rfl, rfl, congrArg (· + (r 0).val) (Nat.mul_comm 32 j.val)⟩))

theorem read_outAt (off : Fin 1 → Nat) (inb) (c : Fin 2) (i : Fin 16) (a : Fin 3) (h : off = ![1536 * c.val + 512 * a.val + 32 * i.val]) (pA : Vec F S3072 .f32) :
    (outAt off inb).view.read (Elt F) pA = outSlice pA c i a := by
  subst h
  exact funext fun r => congrArg pA (unit_emb1 r (by rw [Matrix.cons_val_zero]; omega) _)

def lanes16 (h0 : Nat) (hh : h0 + 16 ≤ 32) (w : Vec F S32 .f32) : Vec F S1x1x1x16 .f32 :=
  fun x => w (ValueIdx.ix1 ⟨h0 + (x 3).val, by have h3 : (x 3).val < 16 := (x 3).isLt; omega⟩)

theorem read_two_halves {κ : Kind} {sp : Space} (v : View sig κ sp S32 .f32) (fb : v.ty.Contents (Elt F)) (R0 R1 : Vec F S16 .f32)
    (inb0 : ∀ a, (![0] : Fin 1 → Nat) a + S16.size a ≤ S32.size a) (inb16 : ∀ a, (![16] : Fin 1 → Nat) a + S16.size a ≤ S32.size a) (r : S32.Idx) :
    v.read (Elt F) (v.writes (Elt F) fb [⟨Rect.unit (s := S32) ![16] S16.size inb16, R1⟩, ⟨Rect.unit (s := S32) ![0] S16.size inb0, R0⟩]) r
      = if h : (r 0).val < 16 then R0 (ValueIdx.ix1 ⟨(r 0).val, h⟩)
        else R1 (ValueIdx.ix1 ⟨(r 0).val - 16, by have hr : (r 0).val < 32 := (r 0).isLt; omega⟩) := by
  split
  · next h =>
    rw [View.read_writes_cons_unit_of_not_mem v fb inb16 R1 _ r rfl 0 (Or.inl h)]
    exact View.read_writes_cons_unit_of_mem v fb inb0 R0 [] r _ rfl (Fin.forall_fin_one.mpr (Nat.zero_add _).symm)
  · next h =>
    exact View.read_writes_cons_unit_of_mem v fb inb16 R1 _ r _ rfl
      (Fin.forall_fin_one.mpr (by show (r 0).val = 16 + ((r 0).val - 16); omega))

theorem read_rbAccess (a b h0 : Nat) (hh : h0 + 16 ≤ 32) (inb : ∀ x, (![a, b, 0, h0] : Fin 4 → Nat) x + S1x1x1x16.size x ≤ S3x2x1x32.size x)
    (inb' : ∀ x, (![a, b, 0, 0] : Fin 4 → Nat) x + S1x1x1x32.size x ≤ S3x2x1x32.size x) (g : Vec F S3x2x1x32 .f32) :
    (rbM.access (Rect.unit (s := S3x2x1x32) ![a, b, 0, h0] S1x1x1x16.size inb)).read (Elt F) g
      = lanes16 h0 hh ((rbAt ![a, b, 0, 0] inb').view.read (Elt F) g) := by
  funext x
  show g ((Rect.unit (s := S3x2x1x32) ![a, b, 0, h0] S1x1x1x16.size inb).emb x)
    = g ((Rect.unit (s := S3x2x1x32) ![a, b, 0, 0] S1x1x1x32.size inb').emb (Shape.reshapeEquiv squeezes_S1x1x1x32_S32.numel_eq (ValueIdx.ix1 ⟨h0 + (x 3).val, _⟩)))
  rw [reshape_sq4]
  exact congrArg g (unit_emb x _ (forall_fin4.mpr ⟨congrArg (a + ·) (Fin.val_eq_zero _), congrArg (b + ·) (Fin.val_eq_zero _),
    congrArg (0 + ·) (Fin.val_eq_zero _), ((Nat.zero_add _).trans (Nat.one_mul _)).symm⟩))

theorem fetched_lc (fb : cc1_scratch0.ty.Contents (Elt F)) (lcA : Vec F S100352 .f32) :
    View.write (Elt F) (Memref.whole cc1_scratch0).view fb
        (ReadAs.same.apply ((chunkAt lcM (k1_off1 L) (k1_off1_inb L)).view.read (Elt F) lcA)) Finset.univ
      = chunkOf lcA (Fin.cast nSC_eq (cV L)) (jL L) :=
  (View.write_whole_univ cc1_scratch0 fb _).trans (funext fun k => congrArg lcA (base_emb L (k1_off1_eq L) k _))

theorem fetched_ld (fb : cc1_scratch1.ty.Contents (Elt F)) (ldA : Vec F S100352 .f32) :
    View.write (Elt F) (Memref.whole cc1_scratch1).view fb
        (ReadAs.same.apply ((chunkAt ldM (k1_off1 L) (k1_off1_inb L)).view.read (Elt F) ldA)) Finset.univ
      = chunkOf ldA (Fin.cast nSC_eq (cV L)) (jL L) :=
  (View.write_whole_univ cc1_scratch1 fb _).trans (funext fun k => congrArg ldA (base_emb L (k1_off1_eq L) k _))

theorem fetched_ids (h1 : k1_cond1 L = 1#1) (fb : cc1_scratch2.ty.Contents (Elt F)) :
    View.write (Elt F) (Memref.whole cc1_scratch2).view fb
        (ReadAs.same.apply ((idsAt (k1_off2 L) (k1_off2_inb L h1)).view.read (Elt F) (m (idsLoc d)))) Finset.univ
      = tileIds m d (Fin.cast nSC_eq (cV L)) (jL L) := by
  refine (View.write_whole_univ cc1_scratch2 fb _).trans (funext fun k => ?_)
  have hlt : baseOf (L 0).val (L 1).val + (k 0).val < 100000 := by
    have := (k1_cond1_iff L).mp h1; have : (k 0).val < 3136 := (k 0).isLt; unfold baseOf; omega
  unfold tileIds
  rw [dif_pos (show baseOf (Fin.cast nSC_eq (cV L)).val (jL L).val + (k 0).val < 100000 from hlt)]
  exact congrArg (m (idsLoc d)) (base_emb L (k1_off2_eq L) k hlt)

def zeroPieces : List (View.Piece (Elt F) S528 .f32) :=
  [⟨Rect.unit (s := S528) ![512] S16.size inb_S528_S16_512, k1_pay2⟩,
    ⟨Rect.unit (s := S528) ![496] S16.size inb_S528_S16_496, k1_pay2⟩,
    ⟨Rect.unit (s := S528) ![480] S16.size inb_S528_S16_480, k1_pay2⟩,
    ⟨Rect.unit (s := S528) ![464] S16.size inb_S528_S16_464, k1_pay2⟩,
    ⟨Rect.unit (s := S528) ![448] S16.size inb_S528_S16_448, k1_pay2⟩,
    ⟨Rect.unit (s := S528) ![432] S16.size inb_S528_S16_432, k1_pay2⟩,
    ⟨Rect.unit (s := S528) ![416] S16.size inb_S528_S16_416, k1_pay2⟩,
    ⟨Rect.unit (s := S528) ![400] S16.size inb_S528_S16_400, k1_pay2⟩,
    ⟨Rect.unit (s := S528) ![384] S16.size inb_S528_S16_384, k1_pay2⟩,
    ⟨Rect.unit (s := S528) ![368] S16.size inb_S528_S16_368, k1_pay2⟩,
    ⟨Rect.unit (s := S528) ![352] S16.size inb_S528_S16_352, k1_pay2⟩,
    ⟨Rect.unit (s := S528) ![336] S16.size inb_S528_S16_336, k1_pay2⟩,
    ⟨Rect.unit (s := S528) ![320] S16.size inb_S528_S16_320, k1_pay2⟩,
    ⟨Rect.unit (s := S528) ![304] S16.size inb_S528_S16_304, k1_pay2⟩,
    ⟨Rect.unit (s := S528) ![288] S16.size inb_S528_S16_288, k1_pay2⟩,
    ⟨Rect.unit (s := S528) ![272] S16.size inb_S528_S16_272, k1_pay2⟩,
    ⟨Rect.unit (s := S528) ![256] S16.size inb_S528_S16_256, k1_pay2⟩,
    ⟨Rect.unit (s := S528) ![240] S16.size inb_S528_S16_240, k1_pay2⟩,
    ⟨Rect.unit (s := S528) ![224] S16.size inb_S528_S16_224, k1_pay2⟩,
    ⟨Rect.unit (s := S528) ![208] S16.size inb_S528_S16_208, k1_pay2⟩,
    ⟨Rect.unit (s := S528) ![192] S16.size inb_S528_S16_192, k1_pay2⟩,
    ⟨Rect.unit (s := S528) ![176] S16.size inb_S528_S16_176, k1_pay2⟩,
    ⟨Rect.unit (s := S528) ![160] S16.size inb_S528_S16_160, k1_pay2⟩,
    ⟨Rect.unit (s := S528) ![144] S16.size inb_S528_S16_144, k1_pay2⟩,
    ⟨Rect.unit (s := S528) ![128] S16.size inb_S528_S16_128, k1_pay2⟩,
    ⟨Rect.unit (s := S528) ![112] S16.size inb_S528_S16_112, k1_pay2⟩,
    ⟨Rect.unit (s := S528) ![96] S16.size inb_S528_S16_96, k1_pay2⟩,
    ⟨Rect.unit (s := S528) ![80] S16.size inb_S528_S16_80, k1_pay2⟩,
    ⟨Rect.unit (s := S528) ![64] S16.size inb_S528_S16_64, k1_pay2⟩,
    ⟨Rect.unit (s := S528) ![48] S16.size inb_S528_S16_48, k1_pay2⟩,
    ⟨Rect.unit (s := S528) ![32] S16.size inb_S528_S16_32, k1_pay2⟩,
    ⟨Rect.unit (s := S528) ![16] S16.size inb_S528_S16_16, k1_pay2⟩,
    ⟨Rect.unit (s := S528) ![0] S16.size inb_S528_S16_0, k1_pay2⟩]

theorem zeroFilled {κ : Kind} {sp : Space} (v : View sig κ sp S528 .f32) (f : v.ty.Contents (Elt F)) (y : S528.Idx) :
    Filled v f (Scalar.ofBits .f32 0x00000000#32 : Elt F .f32) 0 y 528 zeroPieces := by
  unfold zeroPieces
  iterate 33 refine Filled.cons v f _ 0 y (fun _ => rfl) (Nat.zero_le _) ?_
  exact Filled.nil v f _ 0 y

theorem zerofill3 (base : cc1_scratch3.ty.Contents (Elt F)) : (Memref.whole cc1_scratch3).view.writes (Elt F) base zeroPieces = accZero (F := F) :=
  funext fun y => (zeroFilled (View.whole cc1_scratch3) base y (y 0).isLt).trans (if_neg (Nat.not_lt_zero _))
theorem zerofill4 (base : cc1_scratch4.ty.Contents (Elt F)) : (Memref.whole cc1_scratch4).view.writes (Elt F) base zeroPieces = accZero (F := F) :=
  funext fun y => (zeroFilled (View.whole cc1_scratch4) base y (y 0).isLt).trans (if_neg (Nat.not_lt_zero _))
theorem zerofill5 (base : cc1_scratch5.ty.Contents (Elt F)) : (Memref.whole cc1_scratch5).view.writes (Elt F) base zeroPieces = accZero (F := F) :=
  funext fun y => (zeroFilled (View.whole cc1_scratch5) base y (y 0).isLt).trans (if_neg (Nat.not_lt_zero _))

def tailPieces : List (View.Piece (Elt F) S3136 .i32) :=
  [⟨Rect.unit (s := S3136) ![3120] S16.size inb_S3136_S16_3120, k1_pay1⟩,
    ⟨Rect.unit (s := S3136) ![3104] S16.size inb_S3136_S16_3104, k1_pay1⟩,
    ⟨Rect.unit (s := S3136) ![3088] S16.size inb_S3136_S16_3088, k1_pay1⟩,
    ⟨Rect.unit (s := S3136) ![3072] S16.size inb_S3136_S16_3072, k1_pay1⟩,
    ⟨Rect.unit (s := S3136) ![3056] S16.size inb_S3136_S16_3056, k1_pay1⟩,
    ⟨Rect.unit (s := S3136) ![3040] S16.size inb_S3136_S16_3040, k1_pay1⟩,
    ⟨Rect.unit (s := S3136) ![3024] S16.size inb_S3136_S16_3024, k1_pay1⟩,
    ⟨Rect.unit (s := S3136) ![3008] S16.size inb_S3136_S16_3008, k1_pay1⟩,
    ⟨Rect.unit (s := S3136) ![2992] S16.size inb_S3136_S16_2992, k1_pay1⟩,
    ⟨Rect.unit (s := S3136) ![2976] S16.size inb_S3136_S16_2976, k1_pay1⟩,
    ⟨Rect.unit (s := S3136) ![2960] S16.size inb_S3136_S16_2960, k1_pay1⟩,
    ⟨Rect.unit (s := S3136) ![2944] S16.size inb_S3136_S16_2944, k1_pay1⟩,
    ⟨Rect.unit (s := S3136) ![2928] S16.size inb_S3136_S16_2928, k1_pay1⟩,
    ⟨Rect.unit (s := S3136) ![2912] S16.size inb_S3136_S16_2912, k1_pay1⟩,
    ⟨Rect.unit (s := S3136) ![2896] S16.size inb_S3136_S16_2896, k1_pay1⟩,
    ⟨Rect.unit (s := S3136) ![2880] S16.size inb_S3136_S16_2880, k1_pay1⟩,
    ⟨Rect.unit (s := S3136) ![2864] S16.size inb_S3136_S16_2864, k1_pay1⟩,
    ⟨Rect.unit (s := S3136) ![2848] S16.size inb_S3136_S16_2848, k1_pay1⟩,
    ⟨Rect.unit (s := S3136) ![2832] S16.size inb_S3136_S16_2832, k1_pay1⟩,
    ⟨Rect.unit (s := S3136) ![2816] S16.size inb_S3136_S16_2816, k1_pay1⟩,
    ⟨Rect.unit (s := S3136) ![2800] S16.size inb_S3136_S16_2800, k1_pay1⟩,
    ⟨Rect.unit (s := S3136) ![2784] S16.size inb_S3136_S16_2784, k1_pay1⟩]

theorem tailFilled {κ : Kind} {sp : Space} (v : View sig κ sp S3136 .i32) (f : v.ty.Contents (Elt F)) (y : S3136.Idx) :
    Filled v f (512#32 : Elt F .i32) 2784 y 3136 tailPieces := by
  unfold tailPieces
  iterate 22 refine Filled.cons v f _ 2784 y (fun _ => rfl) (by decide) ?_
  exact Filled.nil v f _ 2784 y

theorem tail_ids (h2 : k1_cond2 L = 1#1) (G : Vec F S3136 .i32)
    (hG : (idsvHead).view.read (Elt F) G = ReadAs.same.apply ((idsTailAt (k1_off3 L) (k1_off3_inb L h2)).view.read (Elt F) (m (idsLoc d)))) :
    (Memref.whole cc1_scratch2).view.writes (Elt F) G tailPieces = tileIds m d (Fin.cast nSC_eq (cV L)) (jL L) := by
  have hw := (k1_cond2_iff L).mp h2
  funext y
  refine (tailFilled (View.whole cc1_scratch2) G y (y 0).isLt).trans ?_
  unfold tileIds
  by_cases hy : (y 0).val < 2784
  · have hk : baseOf (L 0).val (L 1).val + (y 0).val < 100000 := by unfold baseOf; omega
    rw [if_pos hy, dif_pos (show baseOf (Fin.cast nSC_eq (cV L)).val (jL L).val + (y 0).val < 100000 from hk)]
    exact (congrArg G ((ValueIdx.eq_ix1 y).trans (unit_emb1 (ValueIdx.ix1 ⟨(y 0).val, hy⟩) (Nat.zero_add _) _).symm)).trans
      ((congrFun hG _).trans (congrArg (m (idsLoc d)) (base_emb L (k1_off3_eq L) (ValueIdx.ix1 ⟨(y 0).val, hy⟩) hk)))
  · have hk : ¬ baseOf (L 0).val (L 1).val + (y 0).val < 100000 := by unfold baseOf; omega
    rw [if_neg hy, dif_neg (show ¬ baseOf (Fin.cast nSC_eq (cV L)).val (jL L).val + (y 0).val < 100000 from hk)]

theorem shRowOf_congr (a : Fin 3) (v : Fin 16) (g f : Vec F S3x16x1x512 .f32) (h : ∀ j ∈ shRowA a.val v.val, g j = f j) :
    shRowOf g a v = shRowOf f a v :=
  funext fun _ => h _ (Finset.mem_filter.mpr ⟨Finset.mem_univ _, rfl, rfl⟩)

theorem rows_glue :
    iprop((∃ f : Vec F S3x16x1x512 .f32, ⌜AccOk m d (Fin.cast nSC_eq (cV L)) (jL L) 0 (shRowOf f 0 (jL L))⌝
          ∗ (shLoc d (cV L) ↦[shRowA 0 (L 1).val]{fullShare} f))
        ∗ (∃ f : Vec F S3x16x1x512 .f32, ⌜AccOk m d (Fin.cast nSC_eq (cV L)) (jL L) 1 (shRowOf f 1 (jL L))⌝
          ∗ (shLoc d (cV L) ↦[shRowA 1 (L 1).val]{fullShare} f))
        ∗ (∃ f : Vec F S3x16x1x512 .f32, ⌜AccOk m d (Fin.cast nSC_eq (cV L)) (jL L) 2 (shRowOf f 2 (jL L))⌝
          ∗ (shLoc d (cV L) ↦[shRowA 2 (L 1).val]{fullShare} f)))
      ⊢ (iprop(∃ f : Buf (Elt F) (shLoc d (cV L)), ⌜∀ a : Fin 3, AccOk m d (Fin.cast nSC_eq (cV L)) (jL L) a (shRowOf f a (jL L))⌝
            ∗ (shLoc d (cV L) ↦[shRows (L 1).val]{fullShare} f)) : sProp 𝕄) := by
  rw [shRows_eq]
  exact glue3 (F := F) (ℓ := shLoc d (cV L)) (fun a => shRowA a.val (L 1).val) (fun a f => AccOk m d (Fin.cast nSC_eq (cV L)) (jL L) a (shRowOf f a (jL L))) (m (shLoc d (cV L)))
    (fun _ _ h => shRowA_disjoint _ _ (fun e => h (Fin.ext e))) (fun a g f hf h => by rw [shRowOf_congr a (jL L) g f h]; exact hf)

theorem row_written (a : Fin 3) (off : Fin 4 → Nat) (inb) (hoff : off = ![a.val, (jL L).val, 0, 0]) (fsh : Buf (Elt F) (shLoc d (cV L)))
    (W : S512.Idx → Elt F .f32) :
    shRowOf ((shRowAt off inb).view.writes (Elt F) fsh [⟨Rect.whole S512, W⟩]) a (jL L) = W :=
  (read_shRowAt off inb a (jL L) hoff _).symm.trans (View.read_writes_whole (shRowAt off inb).view fsh W)

theorem head_read3 (A : Vec F S528 .f32) : ReadAs.same.apply ((accHead cc1_scratch3 (Memref.whole cc1_scratch3)).view.read (Elt F) A) = binsOf A :=
  funext fun b => congrArg A (unit_emb1 b (Nat.zero_add _) _)
theorem head_read4 (A : Vec F S528 .f32) : ReadAs.same.apply ((accHead cc1_scratch4 (Memref.whole cc1_scratch4)).view.read (Elt F) A) = binsOf A :=
  funext fun b => congrArg A (unit_emb1 b (Nat.zero_add _) _)
theorem head_read5 (A : Vec F S528 .f32) : ReadAs.same.apply ((accHead cc1_scratch5 (Memref.whole cc1_scratch5)).view.read (Elt F) A) = binsOf A :=
  funext fun b => congrArg A (unit_emb1 b (Nat.zero_add _) _)

theorem accOk_rows (lcA ldA : Vec F S100352 .f32) (hR0 : R0 m d lcA ldA) (a : Fin 3) :
    AccOk m d (Fin.cast nSC_eq (cV L)) (jL L) a
      (binsOf (accFold (rowVals a (chunkOf lcA (Fin.cast nSC_eq (cV L)) (jL L)) (chunkOf ldA (Fin.cast nSC_eq (cV L)) (jL L)))
        (tileIds m d (Fin.cast nSC_eq (cV L)) (jL L)))) :=
  ⟨chunkOf lcA (Fin.cast nSC_eq (cV L)) (jL L), chunkOf ldA (Fin.cast nSC_eq (cV L)) (jL L), ⟨lcA, ldA, hR0, rfl, rfl⟩, rfl⟩

theorem row_fact0 (lcA ldA : Vec F S100352 .f32) (hR0 : R0 m d lcA ldA) (fsh : Buf (Elt F) (shLoc d (cV L))) :
    AccOk m d (Fin.cast nSC_eq (cV L)) (jL L) 0
      (shRowOf ((shRowAt (k1_off4 L) (k1_off4_inb L)).view.writes (Elt F) fsh
        [⟨Rect.whole S512, ReadAs.same.apply ((accHead cc1_scratch3 (Memref.whole cc1_scratch3)).view.read (Elt F)
          (accPre (chunkOf lcA (Fin.cast nSC_eq (cV L)) (jL L)) (tileIds m d (Fin.cast nSC_eq (cV L)) (jL L)) (Scf.trips k1_t1_loop.lb k1_t1_loop.ub k1_t1_loop.st)))⟩]) 0 (jL L)) := by
  rw [row_written d L 0 _ _ (k1_off4_eq L) fsh, head_read3]
  exact accOk_rows d L m lcA ldA hR0 0

theorem row_fact1 (lcA ldA : Vec F S100352 .f32) (hR0 : R0 m d lcA ldA) (fsh : Buf (Elt F) (shLoc d (cV L))) :
    AccOk m d (Fin.cast nSC_eq (cV L)) (jL L) 1
      (shRowOf ((shRowAt (k1_off5 L) (k1_off5_inb L)).view.writes (Elt F) fsh
        [⟨Rect.whole S512, ReadAs.same.apply ((accHead cc1_scratch4 (Memref.whole cc1_scratch4)).view.read (Elt F)
          (accPre (chunkOf ldA (Fin.cast nSC_eq (cV L)) (jL L)) (tileIds m d (Fin.cast nSC_eq (cV L)) (jL L)) (Scf.trips k1_t1_loop.lb k1_t1_loop.ub k1_t1_loop.st)))⟩]) 1 (jL L)) := by
  rw [row_written d L 1 _ _ (k1_off5_eq L) fsh, head_read4]
  exact accOk_rows d L m lcA ldA hR0 1

theorem row_fact2 (lcA ldA : Vec F S100352 .f32) (hR0 : R0 m d lcA ldA) (fsh : Buf (Elt F) (shLoc d (cV L))) :
    AccOk m d (Fin.cast nSC_eq (cV L)) (jL L) 2
      (shRowOf ((shRowAt (k1_off6 L) (k1_off6_inb L)).view.writes (Elt F) fsh
        [⟨Rect.whole S512, ReadAs.same.apply ((accHead cc1_scratch5 (Memref.whole cc1_scratch5)).view.read (Elt F)
          (accPre (onesV (F := F)) (tileIds m d (Fin.cast nSC_eq (cV L)) (jL L)) (Scf.trips k1_t1_loop.lb k1_t1_loop.ub k1_t1_loop.st)))⟩]) 2 (jL L)) := by
  rw [row_written d L 2 _ _ (k1_off6_eq L) fsh, head_read5]
  exact accOk_rows d L m lcA ldA hR0 2

theorem out_written (c : Fin 2) (i : Fin 16) (a : Fin 3) (off : Fin 1 → Nat) (inb) (hoff : off = ![1536 * c.val + 512 * a.val + 32 * i.val])
    (pA0 : Vec F S3072 .f32) (W : S32.Idx → Elt F .f32) :
    outSlice ((outAt off inb).view.writes (Elt F) pA0 [⟨Rect.whole S32, W⟩]) c i a = W :=
  (read_outAt off inb c i a hoff _).symm.trans (View.read_writes_whole (outAt off inb).view pA0 W)

end Cert.Proof.KB

end
-- ==== Proof.Bits.TileRounds.lean ====
import proofs.«203579_g3066606649474_cont_9to1_387_24_alg».proof.Proof.Bits.Vals
import Idealize.ShloMosaic.Lib.Pipeline.Value
import Idealize.ShloMosaic.Lib.ValueIdx

noncomputable section

namespace Cert.Proof.KB

open Cert.Kernel Cert.Kernel.Gen
open Idealize.ShloMosaic
open Idealize.ShloMosaic.ValueIdx (ix1 ix4)

variable {F : FTy → Type} [FloatOps F]

def regStep (acc : FVec F S16 .f32) (ld : Vec F S1x1x1x16 .f32) : FVec F S16 .f32 :=
  addf acc (shapeCast S16 ld Facts₀.shapeCasts_S1x1x1x16_S16)

def regSum (ld : Fin 16 → Vec F S1x1x1x16 .f32) : ℕ → FVec F S16 .f32
  | 0 => k1_pay2
  | v + 1 => if h : v < 16 then regStep (regSum ld v) (ld ⟨v, h⟩) else regSum ld v

-- Lane k of a loaded block and lane k of a running sum sit at the same row-major position.
theorem regStep_apply (acc : FVec F S16 .f32) (ld : Vec F S1x1x1x16 .f32) (k : Fin 16) :
    regStep acc ld (ix1 k) = FloatOps.addf (acc (ix1 k)) (ld (ix4 (0 : Fin 1) (0 : Fin 1) (0 : Fin 1) k)) := by
  refine congrArg (FloatOps.addf (acc (ix1 k))) (shapeCast_apply ld _ (ix1 k) _ ?_)
  rw [Shape.rowMajor_val_four, Shape.rowMajor_val_one]
  show ((0 * 1 + 0) * 1 + 0) * 16 + k.val = k.val
  simp

theorem regSum_apply (ld : Fin 16 → Vec F S1x1x1x16 .f32) (k : Fin 16) :
    ∀ n, n ≤ 16 → regSum ld n (ix1 k)
      = ((List.finRange 16).take n).foldl (fun acc v => FloatOps.addf acc (ld v (ix4 (0 : Fin 1) (0 : Fin 1) (0 : Fin 1) k))) (Scalar.ofBits .f32 0x00000000#32)
  | 0, _ => rfl
  | n + 1, hn => by
    have h : n < 16 := hn
    show (if h : n < 16 then regStep (regSum ld n) (ld ⟨n, h⟩) else regSum ld n) (ix1 k) = _
    rw [dif_pos h, regStep_apply, regSum_apply ld k n h.le,
      List.take_succ_eq_append_getElem (by rw [List.length_finRange]; exact h), List.foldl_append, List.getElem_finRange]
    rfl

theorem regSum_all (ld : Fin 16 → Vec F S1x1x1x16 .f32) (k : Fin 16) :
    regSum ld 16 (ix1 k)
      = (List.finRange 16).foldl (fun acc v => FloatOps.addf acc (ld v (ix4 (0 : Fin 1) (0 : Fin 1) (0 : Fin 1) k))) (Scalar.ofBits .f32 0x00000000#32) := by
  rw [regSum_apply ld k 16 le_rfl, List.take_of_length_le (by rw [List.length_finRange])]

end Cert.Proof.KB

end
-- ==== Proof.Bits.TileFinal.lean ====
import proofs.«203579_g3066606649474_cont_9to1_387_24_alg».proof.Proof.Bits.TileVals
import proofs.«203579_g3066606649474_cont_9to1_387_24_alg».proof.Proof.Bits.TileRounds

noncomputable section

namespace Cert.Proof.KB

open Cert.Kernel Cert.Kernel.Gen

open Idealize.ShloMosaic
open Idealize.ShloMosaic.SparseCore (S V T)
open Idealize.SL Idealize.SL.Sem
open Idealize.ShloMosaic.ValueIdx (ix1 ix4)

variable {F : FTy → Type} [FloatOps F] (d : Dev nD) (L : grid1.Coords) (m : (ℓ : Loc nD τ sig) → Buf (Elt F) ℓ)

theorem lanes16_ix4 (h0 : Nat) (hh : h0 + 16 ≤ 32) (w : Vec F S32 .f32) (k : Fin 16) :
    lanes16 h0 hh w (ix4 (0 : Fin 1) (0 : Fin 1) (0 : Fin 1) k) = w (ix1 ⟨h0 + k.val, by have := k.isLt; omega⟩) := rfl

theorem plane_sum (c : Fin 2) (i : Fin 16) (a : Fin 3) (fc : Vec F S3x16x1x512 .f32)
    (hfc : ∀ (v : Fin 16) (a : Fin 3), ∃ g : Vec F S512 .f32, AccOk m d c v a g ∧
      ∀ b : S512.Idx, i.val * 32 ≤ (b 0).val → (b 0).val < i.val * 32 + 32 → shRowOf fc a v b = g b)
    (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc a v (binIx i r)))
    (hld1 : ∀ v, ld1 v = lanes16 16 (by decide) (fun r => shRowOf fc a v (binIx i r)))
    (o : Vec F S32 .f32)
    (ho : ∀ r : S32.Idx, o r = if h : (r 0).val < 16 then LO (ix1 ⟨(r 0).val, h⟩)
      else HI (ix1 ⟨(r 0).val - 16, by have hr : (r 0).val < 32 := (r 0).isLt; omega⟩)) :
    OutOk m d c i a o := by
  refine outOk_of_rows d m c i a fc hfc o (fun r => ?_)
  have hr : (r 0).val < 32 := (r 0).isLt
  rw [ho r]
  split
  · next h =>
    rw [hLO, regSum_all ld0 ⟨(r 0).val, h⟩]
    refine congrArg (fun x : Fin 16 → F .f32 => (List.finRange 16).foldl (fun acc v => FloatOps.addf acc (x v)) (Scalar.ofBits .f32 0x00000000#32))
      (funext fun v => ?_)
    rw [hld0 v, lanes16_ix4]
    refine congrArg (fun z => shRowOf fc a v (binIx i z)) (funext fun x => ?_)
    match x with
    | ⟨0, _⟩ => exact Fin.ext (Nat.zero_add _)
  · next h =>
    rw [hHI, regSum_all ld1 ⟨(r 0).val - 16, by omega⟩]
    refine congrArg (fun x : Fin 16 → F .f32 => (List.finRange 16).foldl (fun acc v => FloatOps.addf acc (x v)) (Scalar.ofBits .f32 0x00000000#32))
      (funext fun v => ?_)
    rw [hld1 v, lanes16_ix4]
    refine congrArg (fun z => shRowOf fc a v (binIx i z)) (funext fun x => ?_)
    match x with
    | ⟨0, _⟩ => exact Fin.ext (by show 16 + ((r 0).val - 16) = (r 0).val; omega)

theorem plane_final0 (fc : Vec F S3x16x1x512 .f32)
    (hfc : ∀ (v : Fin 16) (a : Fin 3), ∃ g : Vec F S512 .f32, AccOk m d (Fin.cast nSC_eq (cV L)) v a g ∧
      ∀ b : S512.Idx, (L 1).val * 32 ≤ (b 0).val → (b 0).val < (L 1).val * 32 + 32 → shRowOf fc a v b = g b)
    (fp : Vec F S3072 .f32) (fb : Vec F S32 .f32) (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc 0 v (binIx (jL L) r)))
    (hld1 : ∀ v, ld1 v = lanes16 16 (by decide) (fun r => shRowOf fc 0 v (binIx (jL L) r))) :
    OutOk m d (Fin.cast nSC_eq (cV L)) (jL L) 0
      (outSlice ((outAt (k1_off55 L 0#32) (k1_off55_inb L 0)).view.writes (Elt F) fp
        [⟨Rect.whole S32, ReadAs.same.apply (View.read (Elt F) (Memref.whole cc1_scratch6).view
          ((Memref.whole cc1_scratch6).view.writes (Elt F) fb
            [⟨Rect.unit ![16] S16.size inb_S32_S16_16, HI⟩, ⟨Rect.unit ![0] S16.size inb_S32_S16_0, LO⟩]))⟩])
        (Fin.cast nSC_eq (cV L)) (jL L) 0) := by
  rw [out_written (Fin.cast nSC_eq (cV L)) (jL L) 0 (k1_off55 L 0#32) (k1_off55_inb L 0) (k1_off55_eq L 0) fp]
  exact plane_sum d m (Fin.cast nSC_eq (cV L)) (jL L) 0 fc hfc LO HI ld0 ld1 hLO hHI hld0 hld1 _
    (fun r => read_two_halves (Memref.whole cc1_scratch6).view fb LO HI inb_S32_S16_0 inb_S32_S16_16 r)

theorem plane_final1 (fc : Vec F S3x16x1x512 .f32)
    (hfc : ∀ (v : Fin 16) (a : Fin 3), ∃ g : Vec F S512 .f32, AccOk m d (Fin.cast nSC_eq (cV L)) v a g ∧
      ∀ b : S512.Idx, (L 1).val * 32 ≤ (b 0).val → (b 0).val < (L 1).val * 32 + 32 → shRowOf fc a v b = g b)
    (fp : Vec F S3072 .f32) (fb : Vec F S32 .f32) (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc 1 v (binIx (jL L) r)))
    (hld1 : ∀ v, ld1 v = lanes16 16 (by decide) (fun r => shRowOf fc 1 v (binIx (jL L) r))) :
    OutOk m d (Fin.cast nSC_eq (cV L)) (jL L) 1
      (outSlice ((outAt (k1_off55 L 512#32) (k1_off55_inb L 1)).view.writes (Elt F) fp
        [⟨Rect.whole S32, ReadAs.same.apply (View.read (Elt F) (Memref.whole cc1_scratch7).view
          ((Memref.whole cc1_scratch7).view.writes (Elt F) fb
            [⟨Rect.unit ![16] S16.size inb_S32_S16_16, HI⟩, ⟨Rect.unit ![0] S16.size inb_S32_S16_0, LO⟩]))⟩])
        (Fin.cast nSC_eq (cV L)) (jL L) 1) := by
  rw [out_written (Fin.cast nSC_eq (cV L)) (jL L) 1 (k1_off55 L 512#32) (k1_off55_inb L 1) (k1_off55_eq L 1) fp]
  exact plane_sum d m (Fin.cast nSC_eq (cV L)) (jL L) 1 fc hfc LO HI ld0 ld1 hLO hHI hld0 hld1 _
    (fun r => read_two_halves (Memref.whole cc1_scratch7).view fb LO HI inb_S32_S16_0 inb_S32_S16_16 r)

theorem plane_final2 (fc : Vec F S3x16x1x512 .f32)
    (hfc : ∀ (v : Fin 16) (a : Fin 3), ∃ g : Vec F S512 .f32, AccOk m d (Fin.cast nSC_eq (cV L)) v a g ∧
      ∀ b : S512.Idx, (L 1).val * 32 ≤ (b 0).val → (b 0).val < (L 1).val * 32 + 32 → shRowOf fc a v b = g b)
    (fp : Vec F S3072 .f32) (fb : Vec F S32 .f32) (LO HI : FVec F S16 .f32) (ld0 ld1 : Fin 16 → Vec F S1x1x1x16 .f32)
    (hLO : LO = regSum ld0 16) (hHI : HI = regSum ld1 16)
    (hld0 : ∀ v, ld0 v = lanes16 0 (by decide) (fun r => shRowOf fc 2 v (binIx (jL L) r)))
    (hld1 : ∀ v, ld1 v = lanes16 16 (by decide) (fun r => shRowOf fc 2 v (binIx (jL L) r))) :
    OutOk m d (Fin.cast nSC_eq (cV L)) (jL L) 2
      (outSlice ((outAt (k1_off55 L 1024#32) (k1_off55_inb L 2)).view.writes (Elt F) fp
        [⟨Rect.whole S32, ReadAs.same.apply (View.read (Elt F) (Memref.whole cc1_scratch8).view
          ((Memref.whole cc1_scratch8).view.writes (Elt F) fb
            [⟨Rect.unit ![16] S16.size inb_S32_S16_16, HI⟩, ⟨Rect.unit ![0] S16.size inb_S32_S16_0, LO⟩]))⟩])
        (Fin.cast nSC_eq (cV L)) (jL L) 2) := by
  rw [out_written (Fin.cast nSC_eq (cV L)) (jL L) 2 (k1_off55 L 1024#32) (k1_off55_inb L 2) (k1_off55_eq L 2) fp]
  exact plane_sum d m (Fin.cast nSC_eq (cV L)) (jL L) 2 fc hfc LO HI ld0 ld1 hLO hHI hld0 hld1 _
    (fun r => read_two_halves (Memref.whole cc1_scratch8).view fb LO HI inb_S32_S16_0 inb_S32_S16_16 r)

end Cert.Proof.KB

end
-- ==== Proof.Bits.TileLoad3.lean ====
import proofs.«203579_g3066606649474_cont_9to1_387_24_alg».proof.Proof.Bits.TileVals

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A write into another plane or the other slot of the receive buffer leaves this window's contents as they were. -/
theorem read_slot_write (a a' b b' : Nat) (hne : a ≠ a' ∨ b ≠ b')
    (inb : ∀ x, (![a, b, 0, 0] : Fin 4 → Nat) x + S1x1x1x32.size x ≤ S3x2x1x32.size x)
    (inb' : ∀ x, (![a', b', 0, 0] : Fin 4 → Nat) x + S1x1x1x32.size x ≤ S3x2x1x32.size x)
    (g : Vec F S3x2x1x32 .f32) (P : Vec F S32 .f32) (M : Finset S32.Idx) :
    (rbAt ![a, b, 0, 0] inb).view.read (Elt F) ((rbAt ![a', b', 0, 0] inb').view.write (Elt F) g P M)
      = (rbAt ![a, b, 0, 0] inb).view.read (Elt F) g := by
  funext x
  rw [View.read_apply, View.read_apply]
  refine congrArg _ (View.write_of_not_mem _ _ _ ?_)
  intro hm
  have hm' : (rbAt ![a, b, 0, 0] inb).view.emb x ∈ rbSet a' b' := by
    rw [← set_rbAt ![a', b', 0, 0] inb' a' b' rfl, ← View.setOn_univ]
    exact Finset.mem_of_subset (Finset.map_subset_map.mpr (Finset.subset_univ M)) hm
  have h1 : (rbAt ![a, b, 0, 0] inb).view.emb x ∈ rbSet a b := by
    rw [← set_rbAt ![a, b, 0, 0] inb a b rfl]; exact View.emb_mem_set _ x
  simp only [rbSet, Finset.mem_filter, Finset.mem_univ, true_and] at hm' h1
  exact hne.elim (fun h => h (h1.1.symm.trans hm'.1)) (fun h => h (h1.2.symm.trans hm'.2))

/-- Sixteen lanes of a plane, read after the round's three copies landed in its slot, are lanes of that plane's delivery (here and in the two lemmas below). -/
theorem load3_2 (b h0 : Nat)
    {inb : ∀ x, (![2, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {X : Vec F S3x2x1x32 .f32} {P0 P1 P2 W : Vec F S32 .f32} (hP : P2 = W) (hh : h0 + 16 ≤ 32 := by decide) :
    (rbM).view.readAt (Elt F) (Rect.unit (s := S3x2x1x32) ![2, b, 0, h0] S1x1x1x16.size inb).toLoadRect
        ((rbAt ![2, b, 0, 0] i2).view.write (Elt F) ((rbAt ![1, b, 0, 0] i1).view.write (Elt F)
          ((rbAt ![0, b, 0, 0] i0).view.write (Elt F) X P0 Finset.univ) P1 Finset.univ) P2 Finset.univ)
      = lanes16 h0 hh W := by
  subst hP
  show (rbM.access (Rect.unit (s := S3x2x1x32) ![2, b, 0, h0] S1x1x1x16.size inb)).read (Elt F) _ = _
  rw [read_rbAccess 2 b h0 hh inb i2, View.read_write_univ]

theorem load3_1 (b h0 : Nat)
    {inb : ∀ x, (![1, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {X : Vec F S3x2x1x32 .f32} {P0 P1 P2 W : Vec F S32 .f32} (hP : P1 = W) (hh : h0 + 16 ≤ 32 := by decide) :
    (rbM).view.readAt (Elt F) (Rect.unit (s := S3x2x1x32) ![1, b, 0, h0] S1x1x1x16.size inb).toLoadRect
        ((rbAt ![2, b, 0, 0] i2).view.write (Elt F) ((rbAt ![1, b, 0, 0] i1).view.write (Elt F)
          ((rbAt ![0, b, 0, 0] i0).view.write (Elt F) X P0 Finset.univ) P1 Finset.univ) P2 Finset.univ)
      = lanes16 h0 hh W := by
  subst hP
  show (rbM.access (Rect.unit (s := S3x2x1x32) ![1, b, 0, h0] S1x1x1x16.size inb)).read (Elt F) _ = _
  rw [read_rbAccess 1 b h0 hh inb i1, read_slot_write 1 2 b b (.inl (by decide)) i1 i2, View.read_write_univ]

theorem load3_0 (b h0 : Nat)
    {inb : ∀ x, (![0, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {X : Vec F S3x2x1x32 .f32} {P0 P1 P2 W : Vec F S32 .f32} (hP : P0 = W) (hh : h0 + 16 ≤ 32 := by decide) :
    (rbM).view.readAt (Elt F) (Rect.unit (s := S3x2x1x32) ![0, b, 0, h0] S1x1x1x16.size inb).toLoadRect
        ((rbAt ![2, b, 0, 0] i2).view.write (Elt F) ((rbAt ![1, b, 0, 0] i1).view.write (Elt F)
          ((rbAt ![0, b, 0, 0] i0).view.write (Elt F) X P0 Finset.univ) P1 Finset.univ) P2 Finset.univ)
      = lanes16 h0 hh W := by
  subst hP
  show (rbM.access (Rect.unit (s := S3x2x1x32) ![0, b, 0, h0] S1x1x1x16.size inb)).read (Elt F) _ = _
  rw [read_rbAccess 0 b h0 hh inb i0, read_slot_write 0 2 b b (.inl (by decide)) i0 i2, read_slot_write 0 1 b b (.inl (by decide)) i0 i1,
    View.read_write_univ]

/-- The same with the next round's three copies already landed in the other slot, which the load does not touch. -/
theorem load6_2 (b b' h0 : Nat)
    {inb : ∀ x, (![2, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {j0 : ∀ x, (![0, b', 0, 0] : Fin 4 → Nat) x + S1x1x1x32.size x ≤ S3x2x1x32.size x}
    {j1 : ∀ x, (![1, b', 0, 0] : Fin 4 → Nat) x + S1x1x1x32.size x ≤ S3x2x1x32.size x}
    {j2 : ∀ x, (![2, b', 0, 0] : Fin 4 → Nat) x + S1x1x1x32.size x ≤ S3x2x1x32.size x}
    {X : Vec F S3x2x1x32 .f32} {P0 P1 P2 Q0 Q1 Q2 W : Vec F S32 .f32} (hP : P2 = W) (hbb : b ≠ b' := by decide) (hh : h0 + 16 ≤ 32 := by decide) :
    (rbM).view.readAt (Elt F) (Rect.unit (s := S3x2x1x32) ![2, b, 0, h0] S1x1x1x16.size inb).toLoadRect
        ((rbAt ![2, b', 0, 0] j2).view.write (Elt F) ((rbAt ![1, b', 0, 0] j1).view.write (Elt F) ((rbAt ![0, b', 0, 0] j0).view.write (Elt F)
          ((rbAt ![2, b, 0, 0] i2).view.write (Elt F) ((rbAt ![1, b, 0, 0] i1).view.write (Elt F)
            ((rbAt ![0, b, 0, 0] i0).view.write (Elt F) X P0 Finset.univ) P1 Finset.univ) P2 Finset.univ)
          Q0 Finset.univ) Q1 Finset.univ) Q2 Finset.univ)
      = lanes16 h0 hh W := by
  subst hP
  show (rbM.access (Rect.unit (s := S3x2x1x32) ![2, b, 0, h0] S1x1x1x16.size inb)).read (Elt F) _ = _
  rw [read_rbAccess 2 b h0 hh inb i2, read_slot_write 2 2 b b' (.inr hbb) i2 j2, read_slot_write 2 1 b b' (.inr hbb) i2 j1,
    read_slot_write 2 0 b b' (.inr hbb) i2 j0, View.read_write_univ]

theorem load6_1 (b b' h0 : Nat)
    {inb : ∀ x, (![1, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {j0 : ∀ x, (![0, b', 0, 0] : Fin 4 → Nat) x + S1x1x1x32.size x ≤ S3x2x1x32.size x}
    {j1 : ∀ x, (![1, b', 0, 0] : Fin 4 → Nat) x + S1x1x1x32.size x ≤ S3x2x1x32.size x}
    {j2 : ∀ x, (![2, b', 0, 0] : Fin 4 → Nat) x + S1x1x1x32.size x ≤ S3x2x1x32.size x}
    {X : Vec F S3x2x1x32 .f32} {P0 P1 P2 Q0 Q1 Q2 W : Vec F S32 .f32} (hP : P1 = W) (hbb : b ≠ b' := by decide) (hh : h0 + 16 ≤ 32 := by decide) :
    (rbM).view.readAt (Elt F) (Rect.unit (s := S3x2x1x32) ![1, b, 0, h0] S1x1x1x16.size inb).toLoadRect
        ((rbAt ![2, b', 0, 0] j2).view.write (Elt F) ((rbAt ![1, b', 0, 0] j1).view.write (Elt F) ((rbAt ![0, b', 0, 0] j0).view.write (Elt F)
          ((rbAt ![2, b, 0, 0] i2).view.write (Elt F) ((rbAt ![1, b, 0, 0] i1).view.write (Elt F)
            ((rbAt ![0, b, 0, 0] i0).view.write (Elt F) X P0 Finset.univ) P1 Finset.univ) P2 Finset.univ)
          Q0 Finset.univ) Q1 Finset.univ) Q2 Finset.univ)
      = lanes16 h0 hh W := by
  subst hP
  show (rbM.access (Rect.unit (s := S3x2x1x32) ![1, b, 0, h0] S1x1x1x16.size inb)).read (Elt F) _ = _
  rw [read_rbAccess 1 b h0 hh inb i1, read_slot_write 1 2 b b' (.inr hbb) i1 j2, read_slot_write 1 1 b b' (.inr hbb) i1 j1,
    read_slot_write 1 0 b b' (.inr hbb) i1 j0, read_slot_write 1 2 b b (.inl (by decide)) i1 i2, View.read_write_univ]

theorem load6_0 (b b' h0 : Nat)
    {inb : ∀ x, (![0, b, 0, h0] : Fin 4 → Nat) x + S1x1x1x16.size x ≤ S3x2x1x32.size x}
    {i0 : ∀ x, (![0, b, 0, 0] : Fin 4 → Nat) x + S1x1x1x32.size x ≤ S3x2x1x32.size x}
    {i1 : ∀ x, (![1, b, 0, 0] : Fin 4 → Nat) x + S1x1x1x32.size x ≤ S3x2x1x32.size x}
    {i2 : ∀ x, (![2, b, 0, 0] : Fin 4 → Nat) x + S1x1x1x32.size x ≤ S3x2x1x32.size x}
    {j0 : ∀ x, (![0, b', 0, 0] : Fin 4 → Nat) x + S1x1x1x32.size x ≤ S3x2x1x32.size x}
    {j1 : ∀ x, (![1, b', 0, 0] : Fin 4 → Nat) x + S1x1x1x32.size x ≤ S3x2x1x32.size x}
    {j2 : ∀ x, (![2, b', 0, 0] : Fin 4 → Nat) x + S1x1x1x32.size x ≤ S3x2x1x32.size x}
    {X : Vec F S3x2x1x32 .f32} {P0 P1 P2 Q0 Q1 Q2 W : Vec F S32 .f32} (hP : P0 = W) (hbb : b ≠ b' := by decide) (hh : h0 + 16 ≤ 32 := by decide) :
    (rbM).view.readAt (Elt F) (Rect.unit (s := S3x2x1x32) ![0, b, 0, h0] S1x1x1x16.size inb).toLoadRect
        ((rbAt ![2, b', 0, 0] j2).view.write (Elt F) ((rbAt ![1, b', 0, 0] j1).view.write (Elt F) ((rbAt ![0, b', 0, 0] j0).view.write (Elt F)
          ((rbAt ![2, b, 0, 0] i2).view.write (Elt F) ((rbAt ![1, b, 0, 0] i1).view.write (Elt F)
            ((rbAt ![0, b, 0, 0] i0).view.write (Elt F) X P0 Finset.univ) P1 Finset.univ) P2 Finset.univ)
          Q0 Finset.univ) Q1 Finset.univ) Q2 Finset.univ)
      = lanes16 h0 hh W := by
  subst hP
  show (rbM.access (Rect.unit (s := S3x2x1x32) ![0, b, 0, h0] S1x1x1x16.size inb)).read (Elt F) _ = _
  rw [read_rbAccess 0 b h0 hh inb i0, read_slot_write 0 2 b b' (.inr hbb) i0 j2, read_slot_write 0 1 b b' (.inr hbb) i0 j1,
    read_slot_write 0 0 b b' (.inr hbb) i0 j0, read_slot_write 0 2 b b (.inl (by decide)) i0 i2, read_slot_write 0 1 b b (.inl (by decide)) i0 i1,
    View.read_write_univ]

end Cert.Proof.KB

end
-- ==== Proof.Bits.TileBodyFull.lean ====
import proofs.«203579_g3066606649474_cont_9to1_387_24_alg».proof.Proof.Bits.TileGeom
import proofs.«203579_g3066606649474_cont_9to1_387_24_alg».proof.Proof.Bits.TileCols
import proofs.«203579_g3066606649474_cont_9to1_387_24_alg».proof.Proof.Bits.TileLoop
import proofs.«203579_g3066606649474_cont_9to1_387_24_alg».proof.Proof.Bits.TileVals
import proofs.«203579_g3066606649474_cont_9to1_387_24_alg».proof.Proof.Bits.TileRounds
import proofs.«203579_g3066606649474_cont_9to1_387_24_alg».proof.Proof.Bits.TileFinal
import proofs.«203579_g3066606649474_cont_9to1_387_24_alg».proof.Proof.Bits.TileLoad3

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

private theorem waits_ins {W W' : Waits sig (HIx 1)} {x : SemLoc sig × HIx 1} (hx : x.2 = none ∨ x.2 = some (0 : Fin 1))
    (h : ∀ p ∈ W', p ∈ W ∨ p.2 = none ∨ p.2 = some (0 : Fin 1)) :
    ∀ p ∈ insert x W', p ∈ W ∨ p.2 = none ∨ p.2 = some (0 : Fin 1) := by
  intro p hp
  rcases Finset.mem_insert.mp hp with rfl | hp
  · exact .inr hx
  · exact h p hp

section Tile
variable (d : Dev nD) (L : grid1.Coords)

set_option maxHeartbeats 4000000 in
/-- One vector subcore's task at a symbolic place: its chunk added into 512 bins, the bins published, exchanged at the barrier, and sixteen tiles' blocks summed in tile order. -/
theorem tile_body_full (h1 : k1_cond1 L = 1#1) (h2 : ¬ k1_cond2 L = 1#1) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (L 1).val
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L
            (Memref.whole main_v15_0_scv) (Memref.isWhole_whole _)
            (Memref.whole main_v15_1_scv) (Memref.isWhole_whole _)
            (Memref.whole main_arg4_scv) (Memref.isWhole_whole _)
            (Memref.whole main_v16_scv) (Memref.isWhole_whole _)
            (Memref.whole cc1_scratch0) (Memref.isWhole_whole _)
            (Memref.whole cc1_scratch1) (Memref.isWhole_whole _)
            (Memref.whole cc1_scratch2) (Memref.isWhole_whole _)
            (Memref.whole cc1_scratch3) (Memref.isWhole_whole _)
            (Memref.whole cc1_scratch4) (Memref.isWhole_whole _)
            (Memref.whole cc1_scratch5) (Memref.isWhole_whole _)
            (Memref.whole cc1_scratch6) (Memref.isWhole_whole _)
            (Memref.whole cc1_scratch7) (Memref.isWhole_whole _)
            (Memref.whole cc1_scratch8) (Memref.isWhole_whole _)
            (Memref.whole cc1_scratch9) (Memref.isWhole_whole _)
            (Memref.whole cc1_scratch10) (Memref.isWhole_whole _)
            cc1_scratch11 cc1_scratch12 cc1_scratch13 cc1_scoped0 cc1_scoped1 cc1_scoped2 cc1_scoped3 cc1_scoped4 cc1_scoped5 cc1_scoped6 cc1_scoped7)
          fun _ => iprop(tdP m d (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by

  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold bkit goP
  iintro ⟨#Hlv, ⟨⟨%κ, #Hinv⟩, Htoks, #Hrch, Hat, Hcred⟩, ⟨⟨%lcA, %ldA, %hR0, Hlc, Hld⟩, %hIds, Hids, ⟨%fp, Hp⟩, ⟨%fsh, Hsh⟩⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hs10, Hsems⟩, HO⟩

  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv

  ihave Hlc := (Entails.of_eq (show (lcLoc d ↦[chunkSet (cV L).val (L 1).val]{fullShare} lcA : sProp 𝕄) = _ from (pts_lcK (F := F) d L fullShare lcA).symm)) $$ Hlc
  ihave Hld := (Entails.of_eq (show (ldLoc d ↦[chunkSet (cV L).val (L 1).val]{fullShare} ldA : sProp 𝕄) = _ from (pts_ldK (F := F) d L fullShare ldA).symm)) $$ Hld
  ihave Hids := (Entails.of_eq (show (idsLoc d ↦[idsSet (cV L).val (L 1).val]{fullShare} m (idsLoc d) : sProp 𝕄) = _ from (pts_idsK (F := F) d L h1 fullShare (m (idsLoc d))).symm)) $$ Hids

  ihave Hb0 := (Entails.of_eq (show ((V d (cV L) (jV L)).loc cc1_scratch0 ↦{fullShare} fb0 : sProp 𝕄) = ((Memref.whole cc1_scratch0).view.loc (V d (cV L) (jV L)) ↦{fullShare} fb0) from rfl)) $$ Hb0
  ihave Hb1 := (Entails.of_eq (show ((V d (cV L) (jV L)).loc cc1_scratch1 ↦{fullShare} fb1 : sProp 𝕄) = ((Memref.whole cc1_scratch1).view.loc (V d (cV L) (jV L)) ↦{fullShare} fb1) from rfl)) $$ Hb1
  ihave Hb2 := (Entails.of_eq (show ((V d (cV L) (jV L)).loc cc1_scratch2 ↦{fullShare} fb2 : sProp 𝕄) = ((Memref.whole cc1_scratch2).view.loc (V d (cV L) (jV L)) ↦{fullShare} fb2) from rfl)) $$ Hb2
  ihave Hb3 := (Entails.of_eq (show ((V d (cV L) (jV L)).loc cc1_scratch3 ↦{fullShare} fb3 : sProp 𝕄) = ((Memref.whole cc1_scratch3).view.loc (V d (cV L) (jV L)) ↦{fullShare} fb3) from rfl)) $$ Hb3
  ihave Hb4 := (Entails.of_eq (show ((V d (cV L) (jV L)).loc cc1_scratch4 ↦{fullShare} fb4 : sProp 𝕄) = ((Memref.whole cc1_scratch4).view.loc (V d (cV L) (jV L)) ↦{fullShare} fb4) from rfl)) $$ Hb4
  ihave Hb5 := (Entails.of_eq (show ((V d (cV L) (jV L)).loc cc1_scratch5 ↦{fullShare} fb5 : sProp 𝕄) = ((Memref.whole cc1_scratch5).view.loc (V d (cV L) (jV L)) ↦{fullShare} fb5) from rfl)) $$ Hb5
  ihave Hb6 := (Entails.of_eq (show ((V d (cV L) (jV L)).loc cc1_scratch6 ↦{fullShare} fb6 : sProp 𝕄) = ((Memref.whole cc1_scratch6).view.loc (V d (cV L) (jV L)) ↦{fullShare} fb6) from rfl)) $$ Hb6
  ihave Hb7 := (Entails.of_eq (show ((V d (cV L) (jV L)).loc cc1_scratch7 ↦{fullShare} fb7 : sProp 𝕄) = ((Memref.whole cc1_scratch7).view.loc (V d (cV L) (jV L)) ↦{fullShare} fb7) from rfl)) $$ Hb7
  ihave Hb8 := (Entails.of_eq (show ((V d (cV L) (jV L)).loc cc1_scratch8 ↦{fullShare} fb8 : sProp 𝕄) = ((Memref.whole cc1_scratch8).view.loc (V d (cV L) (jV L)) ↦{fullShare} fb8) from rfl)) $$ Hb8
  ihave Hb9 := (Entails.of_eq (show ((V d (cV L) (jV L)).loc cc1_scratch10 ↦{fullShare} fb9 : sProp 𝕄) = ((Memref.whole cc1_scratch10).view.loc (V d (cV L) (jV L)) ↦{fullShare} fb9) from rfl)) $$ Hb9

  have hBa : Transfers.BatchOf (V d (cV L) (jV L)) (SemLoc.dma cc1_scratch11.sem) 2 := Transfers.BatchOf.intro _ _ _
  have hBb0 : Transfers.BatchOf (V d (cV L) (jV L)) (SemLoc.dma cc1_scratch12.sem) 3 true := Transfers.BatchOf.intro _ _ _ _
  have hBb1 : Transfers.BatchOf (V d (cV L) (jV L)) (SemLoc.dma cc1_scratch13.sem) 3 true := Transfers.BatchOf.intro _ _ _ _
  sl_exec_parts

  have e0 : View.write (Elt F) (Memref.whole cc1_scratch0).view fb0 (tile_body_full.sl.dma0 L lcA) Finset.univ = chunkOf lcA (Fin.cast nSC_eq (cV L)) (jL L) := fetched_lc (F := F) L fb0 lcA
  have e1 : View.write (Elt F) (Memref.whole cc1_scratch1).view fb1 (tile_body_full.sl.dma1 L ldA) Finset.univ = chunkOf ldA (Fin.cast nSC_eq (cV L)) (jL L) := fetched_ld (F := F) L fb1 ldA
  have e2 : View.write (Elt F) (Memref.whole cc1_scratch2).view fb2 (tile_body_full.sl.dma0_1 m d L h1) Finset.univ = tileIds m d (Fin.cast nSC_eq (cV L)) (jL L) := fetched_ids (F := F) d L m h1 fb2
  have e3 : (Memref.whole cc1_scratch3).view.writes (Elt F) (Memref.whole cc1_scratch3).view.junk tile_body_full.sl.Hb3_33 = accZero (F := F) := zerofill3 (F := F) _
  have e4 : (Memref.whole cc1_scratch4).view.writes (Elt F) (Memref.whole cc1_scratch4).view.junk tile_body_full.sl.Hb4_33 = accZero (F := F) := zerofill4 (F := F) _
  have e5 : (Memref.whole cc1_scratch5).view.writes (Elt F) (Memref.whole cc1_scratch5).view.junk tile_body_full.sl.Hb5_33 = accZero (F := F) := zerofill5 (F := F) _
  rw [e0, e1, e2, e3, e4, e5]
  have hids := tileIds_lt hIds (Fin.cast nSC_eq (cV L)) (jL L)

  sl_for (loopInv d L (chunkOf lcA (Fin.cast nSC_eq (cV L)) (jL L)) (chunkOf ldA (Fin.cast nSC_eq (cV L)) (jL L)) (tileIds m d (Fin.cast nSC_eq (cV L)) (jL L))) $$ [Hb2 Hb0 Hb1 Hb3 Hb4 Hb5]
  · intro k acc
    exact wp_trip d L 𝒱₀ none Set.univ _ _ _ hids k acc
  · unfold loopInv
    isplitl [Hb2]; · iexact Hb2
    isplitl [Hb0]; · iexact Hb0
    isplitl [Hb1]; · iexact Hb1
    isplitl [Hb3]; · iexact Hb3
    isplitl [Hb4]; · iexact Hb4
    iexact Hb5
  iintro %acc HI
  unfold loopInv
  icases HI with ⟨Hb2, Hb0, Hb1, Hb3, Hb4, Hb5⟩

  ihave Hsh := (Entails.of_eq (pts_shRows (F := F) d (cV L) (L 1).val fullShare fsh)) $$ Hsh
  icases Hsh with ⟨Hsh0, Hsh1, Hsh2⟩
  ihave Hsh0 := (Entails.of_eq (pts_shRowK0 (F := F) d L fullShare fsh).symm) $$ Hsh0
  ihave Hsh1 := (Entails.of_eq (pts_shRowK1 (F := F) d L fullShare fsh).symm) $$ Hsh1
  ihave Hsh2 := (Entails.of_eq (pts_shRowK2 (F := F) d L fullShare fsh).symm) $$ Hsh2
  sl_exec_parts

  have hbar : (sc_bar0 : Sem sig) ≠ (K (F := F)).go := sc_bar0_ne_go
  ihave Hmwb := (show levAts (K (F := F)).L (K (F := F)).lev ⊢ MayWait (V d (cV L) (jV L)) (SemLoc.reg sc_bar0) (some (0 : Fin 1)) O from
    (K (F := F)).mayOwe_of_bound 3
      (fun p hp => by rw [Finset.mem_singleton] at hp; subst hp; exact le_of_eq ((K (F := F)).lev_V_reg d (cV L) (jV L) hbar (0 : Fin 1)))
      (fun g ι h => lt_of_lt_of_le (show 3 < 8 * (0 : Fin 1).val + 6 by decide) (hOlev g ι h))) $$ Hlv

  ihave Hpay := (pays_intro (F := F) d L m) $$ [Hsh0 Hsh1 Hsh2]
  · ihave Hsh0 := (Entails.of_eq (pts_shRowK0 (F := F) d L fullShare _)) $$ Hsh0
    ihave Hsh1 := (Entails.of_eq (pts_shRowK1 (F := F) d L fullShare _)) $$ Hsh1
    ihave Hsh2 := (Entails.of_eq (pts_shRowK2 (F := F) d L fullShare _)) $$ Hsh2
    iapply (rows_glue (F := F) d L m)
    isplitl [Hsh0]
    · iexists _
      isplitr [Hsh0]
      pick_goal 2; · iexact Hsh0
      ipureintro; exact row_fact0 (F := F) d L m lcA ldA hR0 fsh
    isplitl [Hsh1]
    · iexists _
      isplitr [Hsh1]
      pick_goal 2; · iexact Hsh1
      ipureintro; exact row_fact1 (F := F) d L m lcA ldA hR0 fsh
    iexists _
    isplitr [Hsh2]
    pick_goal 2; · iexact Hsh2
    ipureintro; exact row_fact2 (F := F) d L m lcA ldA hR0 fsh

  ihave Hzip := (show iprop((bigSep Finset.univ fun j : Fin (grid1.bound 1) => dutyTok EB (bcell d (cV L) (j.castLE hsub1)) 0 (jV L).val)
        ∗ (bigSep Finset.univ fun j : Fin (grid1.bound 1) => (bRd (F := F) m).payload (bcell d (cV L) (j.castLE hsub1)) 0 (jV L).val)
        ∗ (bigSep Finset.univ fun j : Fin (grid1.bound 1) => reached EB (bcell d (cV L) (j.castLE hsub1)) 0))
      ⊢ (bigSep Finset.univ fun j : Fin (grid1.bound 1) => iprop(dutyTok EB (bcell d (cV L) (j.castLE hsub1)) 0 (jV L).val
          ∗ (bRd (F := F) m).payload (bcell d (cV L) (j.castLE hsub1)) 0 (jV L).val ∗ reached EB (bcell d (cV L) (j.castLE hsub1)) 0) : sProp 𝕄) from
    Entails.of_eq ((congrArg (fun X : sProp 𝕄 => iprop((bigSep Finset.univ fun j : Fin (grid1.bound 1) => dutyTok EB (bcell d (cV L) (j.castLE hsub1)) 0 (jV L).val) ∗ X))
        (BI.bigSep_sep Finset.univ (fun j : Fin (grid1.bound 1) => (bRd (F := F) m).payload (bcell d (cV L) (j.castLE hsub1)) 0 (jV L).val) (fun j : Fin (grid1.bound 1) => reached EB (bcell d (cV L) (j.castLE hsub1)) 0)).symm).trans
      (BI.bigSep_sep Finset.univ (fun j : Fin (grid1.bound 1) => dutyTok EB (bcell d (cV L) (j.castLE hsub1)) 0 (jV L).val)
        (fun j : Fin (grid1.bound 1) => iprop((bRd (F := F) m).payload (bcell d (cV L) (j.castLE hsub1)) 0 (jV L).val ∗ reached EB (bcell d (cV L) (j.castLE hsub1)) 0))).symm)) $$ [Htoks Hpay Hrch]
  · isplitl [Htoks]; · iexact Htoks
    isplitl [Hpay]; · iexact Hpay
    iexact Hrch
  unfold oxV
  iapply (SparseCore.wp_subcoreBarrier (defs := defs₀ (F := F)) 𝒱₀ none EB (bRd (F := F) m) d (sc := cV L) (i := jV L) sc_bar0 (grid1.bound 1) hsub1 (L 1) rfl κ (fun _ => 0) (jV L).val
      (fun j => bRd_mem₀ m d (cV L) (j.castLE hsub1) (jV L)) (fun _ => rfl) (bRd_expect m d (cV L) (jV L)) (some (0 : Fin 1)) O _) $$ [HO Hzip Hcred Hat]
  · isplitl []; · iexact Hinv
    isplitl [HO]; · iexact HO
    isplitl [Hzip]; · iexact Hzip
    isplitl [Hcred]; · iexact Hcred
    isplitl [Hat]; · iexact Hat
    iexact Hmwb
  iintro ⟨HO, Hat, #Hrch1, Hgot⟩

  ihave Hcols := (pays_elim (F := F) d L m) $$ Hgot
  icases Hcols with ⟨%fc, %hfc, Hcols⟩
  ihave Hcols := (Entails.of_eq (pts_colsK (F := F) d L fullShare fc)) $$ Hcols
  icases Hcols with ⟨⟨Hk0_0, Hk0_1, Hk0_2⟩, ⟨Hk1_0, Hk1_1, Hk1_2⟩, ⟨Hk2_0, Hk2_1, Hk2_2⟩, ⟨Hk3_0, Hk3_1, Hk3_2⟩, ⟨Hk4_0, Hk4_1, Hk4_2⟩, ⟨Hk5_0, Hk5_1, Hk5_2⟩, ⟨Hk6_0, Hk6_1, Hk6_2⟩, ⟨Hk7_0, Hk7_1, Hk7_2⟩, ⟨Hk8_0, Hk8_1, Hk8_2⟩, ⟨Hk9_0, Hk9_1, Hk9_2⟩, ⟨Hk10_0, Hk10_1, Hk10_2⟩, ⟨Hk11_0, Hk11_1, Hk11_2⟩, ⟨Hk12_0, Hk12_1, Hk12_2⟩, ⟨Hk13_0, Hk13_1, Hk13_2⟩, ⟨Hk14_0, Hk14_1, Hk14_2⟩, ⟨Hk15_0, Hk15_1, Hk15_2⟩⟩

  sl_exec_parts

  ihave Hp := (Entails.of_eq (pts_outSets (F := F) d (cV L).val (L 1).val fullShare fp)) $$ Hp
  icases Hp with ⟨Hp0, Hp1, Hp2⟩
  ihave Hp0 := (Entails.of_eq (show (pLoc d ↦[outSetA (cV L).val (L 1).val 0]{fullShare} fp : sProp 𝕄) = _ from (pts_outK0 (F := F) d L fullShare fp).symm)) $$ Hp0
  ihave Hp1 := (Entails.of_eq (show (pLoc d ↦[outSetA (cV L).val (L 1).val 1]{fullShare} fp : sProp 𝕄) = _ from (pts_outK1 (F := F) d L fullShare fp).symm)) $$ Hp1
  ihave Hp2 := (Entails.of_eq (show (pLoc d ↦[outSetA (cV L).val (L 1).val 2]{fullShare} fp : sProp 𝕄) = _ from (pts_outK2 (F := F) d L fullShare fp).symm)) $$ Hp2
  sl_exec_parts
  sl_step

  have ho0 : OutOk m d (Fin.cast nSC_eq (cV L)) (jL L) 0 (outSlice ((outAt (k1_off55 L 0#32) (k1_off55_inb L 0)).view.writes (Elt F) fp [⟨Rect.whole S32, tile_body_full.sl.dma0_6 d L fb6 fb9 fc⟩]) (Fin.cast nSC_eq (cV L)) (jL L) 0) := by
    refine plane_final0 (F := F) d L m fc hfc fp fb6 _ _
      ![tile_body_full.sl.v204_ld d L fb9 fc, tile_body_full.sl.v285_ld d L fb9 fc, tile_body_full.sl.v366_ld d L fb9 fc, tile_body_full.sl.v447_ld d L fb9 fc, tile_body_full.sl.v528_ld d L fb9 fc, tile_body_full.sl.v609_ld d L fb9 fc, tile_body_full.sl.v690_ld d L fb9 fc, tile_body_full.sl.v771_ld d L fb9 fc, tile_body_full.sl.v852_ld d L fb9 fc, tile_body_full.sl.v933_ld d L fb9 fc, tile_body_full.sl.v1014_ld d L fb9 fc, tile_body_full.sl.v1095_ld d L fb9 fc, tile_body_full.sl.v1176_ld d L fb9 fc, tile_body_full.sl.v1257_ld d L fb9 fc, tile_body_full.sl.v1338_ld d L fb9 fc, tile_body_full.sl.v1392_ld d L fb9 fc]
      ![tile_body_full.sl.v209_ld d L fb9 fc, tile_body_full.sl.v290_ld d L fb9 fc, tile_body_full.sl.v371_ld d L fb9 fc, tile_body_full.sl.v452_ld d L fb9 fc, tile_body_full.sl.v533_ld d L fb9 fc, tile_body_full.sl.v614_ld d L fb9 fc, tile_body_full.sl.v695_ld d L fb9 fc, tile_body_full.sl.v776_ld d L fb9 fc, tile_body_full.sl.v857_ld d L fb9 fc, tile_body_full.sl.v938_ld d L fb9 fc, tile_body_full.sl.v1019_ld d L fb9 fc, tile_body_full.sl.v1100_ld d L fb9 fc, tile_body_full.sl.v1181_ld d L fb9 fc, tile_body_full.sl.v1262_ld d L fb9 fc, tile_body_full.sl.v1343_ld d L fb9 fc, tile_body_full.sl.v1397_ld d L fb9 fc] ?_ ?_ ?_ ?_
    · rfl
    · rfl
    · intro v; fin_cases v
      · exact load6_0 0 1 0 (read_shBlkAt (F := F) (k1_off7 L) (k1_off7_inb L) 0 0 (jL L) (k1_off7_eq L) fc)
      · exact load6_0 1 0 0 (read_shBlkAt (F := F) (k1_off10 L) (k1_off10_inb L) 0 1 (jL L) (k1_off10_eq L) fc)
      · exact load6_0 0 1 0 (read_shBlkAt (F := F) (k1_off13 L) (k1_off13_inb L) 0 2 (jL L) (k1_off13_eq L) fc)
      · exact load6_0 1 0 0 (read_shBlkAt (F := F) (k1_off16 L) (k1_off16_inb L) 0 3 (jL L) (k1_off16_eq L) fc)
      · exact load6_0 0 1 0 (read_shBlkAt (F := F) (k1_off19 L) (k1_off19_inb L) 0 4 (jL L) (k1_off19_eq L) fc)
      · exact load6_0 1 0 0 (read_shBlkAt (F := F) (k1_off22 L) (k1_off22_inb L) 0 5 (jL L) (k1_off22_eq L) fc)
      · exact load6_0 0 1 0 (read_shBlkAt (F := F) (k1_off25 L) (k1_off25_inb L) 0 6 (jL L) (k1_off25_eq L) fc)
      · exact load6_0 1 0 0 (read_shBlkAt (F := F) (k1_off28 L) (k1_off28_inb L) 0 7 (jL L) (k1_off28_eq L) fc)
      · exact load6_0 0 1 0 (read_shBlkAt (F := F) (k1_off31 L) (k1_off31_inb L) 0 8 (jL L) (k1_off31_eq L) fc)
      · exact load6_0 1 0 0 (read_shBlkAt (F := F) (k1_off34 L) (k1_off34_inb L) 0 9 (jL L) (k1_off34_eq L) fc)
      · exact load6_0 0 1 0 (read_shBlkAt (F := F) (k1_off37 L) (k1_off37_inb L) 0 10 (jL L) (k1_off37_eq L) fc)
      · exact load6_0 1 0 0 (read_shBlkAt (F := F) (k1_off40 L) (k1_off40_inb L) 0 11 (jL L) (k1_off40_eq L) fc)
      · exact load6_0 0 1 0 (read_shBlkAt (F := F) (k1_off43 L) (k1_off43_inb L) 0 12 (jL L) (k1_off43_eq L) fc)
      · exact load6_0 1 0 0 (read_shBlkAt (F := F) (k1_off46 L) (k1_off46_inb L) 0 13 (jL L) (k1_off46_eq L) fc)
      · exact load6_0 0 1 0 (read_shBlkAt (F := F) (k1_off49 L) (k1_off49_inb L) 0 14 (jL L) (k1_off49_eq L) fc)
      · exact load3_0 1 0 (read_shBlkAt (F := F) (k1_off52 L) (k1_off52_inb L) 0 15 (jL L) (k1_off52_eq L) fc)
    · intro v; fin_cases v
      · exact load6_0 0 1 16 (read_shBlkAt (F := F) (k1_off7 L) (k1_off7_inb L) 0 0 (jL L) (k1_off7_eq L) fc)
      · exact load6_0 1 0 16 (read_shBlkAt (F := F) (k1_off10 L) (k1_off10_inb L) 0 1 (jL L) (k1_off10_eq L) fc)
      · exact load6_0 0 1 16 (read_shBlkAt (F := F) (k1_off13 L) (k1_off13_inb L) 0 2 (jL L) (k1_off13_eq L) fc)
      · exact load6_0 1 0 16 (read_shBlkAt (F := F) (k1_off16 L) (k1_off16_inb L) 0 3 (jL L) (k1_off16_eq L) fc)
      · exact load6_0 0 1 16 (read_shBlkAt (F := F) (k1_off19 L) (k1_off19_inb L) 0 4 (jL L) (k1_off19_eq L) fc)
      · exact load6_0 1 0 16 (read_shBlkAt (F := F) (k1_off22 L) (k1_off22_inb L) 0 5 (jL L) (k1_off22_eq L) fc)
      · exact load6_0 0 1 16 (read_shBlkAt (F := F) (k1_off25 L) (k1_off25_inb L) 0 6 (jL L) (k1_off25_eq L) fc)
      · exact load6_0 1 0 16 (read_shBlkAt (F := F) (k1_off28 L) (k1_off28_inb L) 0 7 (jL L) (k1_off28_eq L) fc)
      · exact load6_0 0 1 16 (read_shBlkAt (F := F) (k1_off31 L) (k1_off31_inb L) 0 8 (jL L) (k1_off31_eq L) fc)
      · exact load6_0 1 0 16 (read_shBlkAt (F := F) (k1_off34 L) (k1_off34_inb L) 0 9 (jL L) (k1_off34_eq L) fc)
      · exact load6_0 0 1 16 (read_shBlkAt (F := F) (k1_off37 L) (k1_off37_inb L) 0 10 (jL L) (k1_off37_eq L) fc)
      · exact load6_0 1 0 16 (read_shBlkAt (F := F) (k1_off40 L) (k1_off40_inb L) 0 11 (jL L) (k1_off40_eq L) fc)
      · exact load6_0 0 1 16 (read_shBlkAt (F := F) (k1_off43 L) (k1_off43_inb L) 0 12 (jL L) (k1_off43_eq L) fc)
      · exact load6_0 1 0 16 (read_shBlkAt (F := F) (k1_off46 L) (k1_off46_inb L) 0 13 (jL L) (k1_off46_eq L) fc)
      · exact load6_0 0 1 16 (read_shBlkAt (F := F) (k1_off49 L) (k1_off49_inb L) 0 14 (jL L) (k1_off49_eq L) fc)
      · exact load3_0 1 16 (read_shBlkAt (F := F) (k1_off52 L) (k1_off52_inb L) 0 15 (jL L) (k1_off52_eq L) fc)
  have ho1 : OutOk m d (Fin.cast nSC_eq (cV L)) (jL L) 1 (outSlice ((outAt (k1_off55 L 512#32) (k1_off55_inb L 1)).view.writes (Elt F) fp [⟨Rect.whole S32, tile_body_full.sl.dma0_7 d L fb7 fb9 fc⟩]) (Fin.cast nSC_eq (cV L)) (jL L) 1) := by
    refine plane_final1 (F := F) d L m fc hfc fp fb7 _ _
      ![tile_body_full.sl.v214_ld d L fb9 fc, tile_body_full.sl.v295_ld d L fb9 fc, tile_body_full.sl.v376_ld d L fb9 fc, tile_body_full.sl.v457_ld d L fb9 fc, tile_body_full.sl.v538_ld d L fb9 fc, tile_body_full.sl.v619_ld d L fb9 fc, tile_body_full.sl.v700_ld d L fb9 fc, tile_body_full.sl.v781_ld d L fb9 fc, tile_body_full.sl.v862_ld d L fb9 fc, tile_body_full.sl.v943_ld d L fb9 fc, tile_body_full.sl.v1024_ld d L fb9 fc, tile_body_full.sl.v1105_ld d L fb9 fc, tile_body_full.sl.v1186_ld d L fb9 fc, tile_body_full.sl.v1267_ld d L fb9 fc, tile_body_full.sl.v1348_ld d L fb9 fc, tile_body_full.sl.v1402_ld d L fb9 fc]
      ![tile_body_full.sl.v219_ld d L fb9 fc, tile_body_full.sl.v300_ld d L fb9 fc, tile_body_full.sl.v381_ld d L fb9 fc, tile_body_full.sl.v462_ld d L fb9 fc, tile_body_full.sl.v543_ld d L fb9 fc, tile_body_full.sl.v624_ld d L fb9 fc, tile_body_full.sl.v705_ld d L fb9 fc, tile_body_full.sl.v786_ld d L fb9 fc, tile_body_full.sl.v867_ld d L fb9 fc, tile_body_full.sl.v948_ld d L fb9 fc, tile_body_full.sl.v1029_ld d L fb9 fc, tile_body_full.sl.v1110_ld d L fb9 fc, tile_body_full.sl.v1191_ld d L fb9 fc, tile_body_full.sl.v1272_ld d L fb9 fc, tile_body_full.sl.v1353_ld d L fb9 fc, tile_body_full.sl.v1407_ld d L fb9 fc] ?_ ?_ ?_ ?_
    · rfl
    · rfl
    · intro v; fin_cases v
      · exact load6_1 0 1 0 (read_shBlkAt (F := F) (k1_off8 L) (k1_off8_inb L) 1 0 (jL L) (k1_off8_eq L) fc)
      · exact load6_1 1 0 0 (read_shBlkAt (F := F) (k1_off11 L) (k1_off11_inb L) 1 1 (jL L) (k1_off11_eq L) fc)
      · exact load6_1 0 1 0 (read_shBlkAt (F := F) (k1_off14 L) (k1_off14_inb L) 1 2 (jL L) (k1_off14_eq L) fc)
      · exact load6_1 1 0 0 (read_shBlkAt (F := F) (k1_off17 L) (k1_off17_inb L) 1 3 (jL L) (k1_off17_eq L) fc)
      · exact load6_1 0 1 0 (read_shBlkAt (F := F) (k1_off20 L) (k1_off20_inb L) 1 4 (jL L) (k1_off20_eq L) fc)
      · exact load6_1 1 0 0 (read_shBlkAt (F := F) (k1_off23 L) (k1_off23_inb L) 1 5 (jL L) (k1_off23_eq L) fc)
      · exact load6_1 0 1 0 (read_shBlkAt (F := F) (k1_off26 L) (k1_off26_inb L) 1 6 (jL L) (k1_off26_eq L) fc)
      · exact load6_1 1 0 0 (read_shBlkAt (F := F) (k1_off29 L) (k1_off29_inb L) 1 7 (jL L) (k1_off29_eq L) fc)
      · exact load6_1 0 1 0 (read_shBlkAt (F := F) (k1_off32 L) (k1_off32_inb L) 1 8 (jL L) (k1_off32_eq L) fc)
      · exact load6_1 1 0 0 (read_shBlkAt (F := F) (k1_off35 L) (k1_off35_inb L) 1 9 (jL L) (k1_off35_eq L) fc)
      · exact load6_1 0 1 0 (read_shBlkAt (F := F) (k1_off38 L) (k1_off38_inb L) 1 10 (jL L) (k1_off38_eq L) fc)
      · exact load6_1 1 0 0 (read_shBlkAt (F := F) (k1_off41 L) (k1_off41_inb L) 1 11 (jL L) (k1_off41_eq L) fc)
      · exact load6_1 0 1 0 (read_shBlkAt (F := F) (k1_off44 L) (k1_off44_inb L) 1 12 (jL L) (k1_off44_eq L) fc)
      · exact load6_1 1 0 0 (read_shBlkAt (F := F) (k1_off47 L) (k1_off47_inb L) 1 13 (jL L) (k1_off47_eq L) fc)
      · exact load6_1 0 1 0 (read_shBlkAt (F := F) (k1_off50 L) (k1_off50_inb L) 1 14 (jL L) (k1_off50_eq L) fc)
      · exact load3_1 1 0 (read_shBlkAt (F := F) (k1_off53 L) (k1_off53_inb L) 1 15 (jL L) (k1_off53_eq L) fc)
    · intro v; fin_cases v
      · exact load6_1 0 1 16 (read_shBlkAt (F := F) (k1_off8 L) (k1_off8_inb L) 1 0 (jL L) (k1_off8_eq L) fc)
      · exact load6_1 1 0 16 (read_shBlkAt (F := F) (k1_off11 L) (k1_off11_inb L) 1 1 (jL L) (k1_off11_eq L) fc)
      · exact load6_1 0 1 16 (read_shBlkAt (F := F) (k1_off14 L) (k1_off14_inb L) 1 2 (jL L) (k1_off14_eq L) fc)
      · exact load6_1 1 0 16 (read_shBlkAt (F := F) (k1_off17 L) (k1_off17_inb L) 1 3 (jL L) (k1_off17_eq L) fc)
      · exact load6_1 0 1 16 (read_shBlkAt (F := F) (k1_off20 L) (k1_off20_inb L) 1 4 (jL L) (k1_off20_eq L) fc)
      · exact load6_1 1 0 16 (read_shBlkAt (F := F) (k1_off23 L) (k1_off23_inb L) 1 5 (jL L) (k1_off23_eq L) fc)
      · exact load6_1 0 1 16 (read_shBlkAt (F := F) (k1_off26 L) (k1_off26_inb L) 1 6 (jL L) (k1_off26_eq L) fc)
      · exact load6_1 1 0 16 (read_shBlkAt (F := F) (k1_off29 L) (k1_off29_inb L) 1 7 (jL L) (k1_off29_eq L) fc)
      · exact load6_1 0 1 16 (read_shBlkAt (F := F) (k1_off32 L) (k1_off32_inb L) 1 8 (jL L) (k1_off32_eq L) fc)
      · exact load6_1 1 0 16 (read_shBlkAt (F := F) (k1_off35 L) (k1_off35_inb L) 1 9 (jL L) (k1_off35_eq L) fc)
      · exact load6_1 0 1 16 (read_shBlkAt (F := F) (k1_off38 L) (k1_off38_inb L) 1 10 (jL L) (k1_off38_eq L) fc)
      · exact load6_1 1 0 16 (read_shBlkAt (F := F) (k1_off41 L) (k1_off41_inb L) 1 11 (jL L) (k1_off41_eq L) fc)
      · exact load6_1 0 1 16 (read_shBlkAt (F := F) (k1_off44 L) (k1_off44_inb L) 1 12 (jL L) (k1_off44_eq L) fc)
      · exact load6_1 1 0 16 (read_shBlkAt (F := F) (k1_off47 L) (k1_off47_inb L) 1 13 (jL L) (k1_off47_eq L) fc)
      · exact load6_1 0 1 16 (read_shBlkAt (F := F) (k1_off50 L) (k1_off50_inb L) 1 14 (jL L) (k1_off50_eq L) fc)
      · exact load3_1 1 16 (read_shBlkAt (F := F) (k1_off53 L) (k1_off53_inb L) 1 15 (jL L) (k1_off53_eq L) fc)
  have ho2 : OutOk m d (Fin.cast nSC_eq (cV L)) (jL L) 2 (outSlice ((outAt (k1_off55 L 1024#32) (k1_off55_inb L 2)).view.writes (Elt F) fp [⟨Rect.whole S32, tile_body_full.sl.dma0_8 d L fb8 fb9 fc⟩]) (Fin.cast nSC_eq (cV L)) (jL L) 2) := by
    refine plane_final2 (F := F) d L m fc hfc fp fb8 _ _
      ![tile_body_full.sl.v224_ld d L fb9 fc, tile_body_full.sl.v305_ld d L fb9 fc, tile_body_full.sl.v386_ld d L fb9 fc, tile_body_full.sl.v467_ld d L fb9 fc, tile_body_full.sl.v548_ld d L fb9 fc, tile_body_full.sl.v629_ld d L fb9 fc, tile_body_full.sl.v710_ld d L fb9 fc, tile_body_full.sl.v791_ld d L fb9 fc, tile_body_full.sl.v872_ld d L fb9 fc, tile_body_full.sl.v953_ld d L fb9 fc, tile_body_full.sl.v1034_ld d L fb9 fc, tile_body_full.sl.v1115_ld d L fb9 fc, tile_body_full.sl.v1196_ld d L fb9 fc, tile_body_full.sl.v1277_ld d L fb9 fc, tile_body_full.sl.v1358_ld d L fb9 fc, tile_body_full.sl.v1412_ld d L fb9 fc]
      ![tile_body_full.sl.v229_ld d L fb9 fc, tile_body_full.sl.v310_ld d L fb9 fc, tile_body_full.sl.v391_ld d L fb9 fc, tile_body_full.sl.v472_ld d L fb9 fc, tile_body_full.sl.v553_ld d L fb9 fc, tile_body_full.sl.v634_ld d L fb9 fc, tile_body_full.sl.v715_ld d L fb9 fc, tile_body_full.sl.v796_ld d L fb9 fc, tile_body_full.sl.v877_ld d L fb9 fc, tile_body_full.sl.v958_ld d L fb9 fc, tile_body_full.sl.v1039_ld d L fb9 fc, tile_body_full.sl.v1120_ld d L fb9 fc, tile_body_full.sl.v1201_ld d L fb9 fc, tile_body_full.sl.v1282_ld d L fb9 fc, tile_body_full.sl.v1363_ld d L fb9 fc, tile_body_full.sl.v1417_ld d L fb9 fc] ?_ ?_ ?_ ?_
    · rfl
    · rfl
    · intro v; fin_cases v
      · exact load6_2 0 1 0 (read_shBlkAt (F := F) (k1_off9 L) (k1_off9_inb L) 2 0 (jL L) (k1_off9_eq L) fc)
      · exact load6_2 1 0 0 (read_shBlkAt (F := F) (k1_off12 L) (k1_off12_inb L) 2 1 (jL L) (k1_off12_eq L) fc)
      · exact load6_2 0 1 0 (read_shBlkAt (F := F) (k1_off15 L) (k1_off15_inb L) 2 2 (jL L) (k1_off15_eq L) fc)
      · exact load6_2 1 0 0 (read_shBlkAt (F := F) (k1_off18 L) (k1_off18_inb L) 2 3 (jL L) (k1_off18_eq L) fc)
      · exact load6_2 0 1 0 (read_shBlkAt (F := F) (k1_off21 L) (k1_off21_inb L) 2 4 (jL L) (k1_off21_eq L) fc)
      · exact load6_2 1 0 0 (read_shBlkAt (F := F) (k1_off24 L) (k1_off24_inb L) 2 5 (jL L) (k1_off24_eq L) fc)
      · exact load6_2 0 1 0 (read_shBlkAt (F := F) (k1_off27 L) (k1_off27_inb L) 2 6 (jL L) (k1_off27_eq L) fc)
      · exact load6_2 1 0 0 (read_shBlkAt (F := F) (k1_off30 L) (k1_off30_inb L) 2 7 (jL L) (k1_off30_eq L) fc)
      · exact load6_2 0 1 0 (read_shBlkAt (F := F) (k1_off33 L) (k1_off33_inb L) 2 8 (jL L) (k1_off33_eq L) fc)
      · exact load6_2 1 0 0 (read_shBlkAt (F := F) (k1_off36 L) (k1_off36_inb L) 2 9 (jL L) (k1_off36_eq L) fc)
      · exact load6_2 0 1 0 (read_shBlkAt (F := F) (k1_off39 L) (k1_off39_inb L) 2 10 (jL L) (k1_off39_eq L) fc)
      · exact load6_2 1 0 0 (read_shBlkAt (F := F) (k1_off42 L) (k1_off42_inb L) 2 11 (jL L) (k1_off42_eq L) fc)
      · exact load6_2 0 1 0 (read_shBlkAt (F := F) (k1_off45 L) (k1_off45_inb L) 2 12 (jL L) (k1_off45_eq L) fc)
      · exact load6_2 1 0 0 (read_shBlkAt (F := F) (k1_off48 L) (k1_off48_inb L) 2 13 (jL L) (k1_off48_eq L) fc)
      · exact load6_2 0 1 0 (read_shBlkAt (F := F) (k1_off51 L) (k1_off51_inb L) 2 14 (jL L) (k1_off51_eq L) fc)
      · exact load3_2 1 0 (read_shBlkAt (F := F) (k1_off54 L) (k1_off54_inb L) 2 15 (jL L) (k1_off54_eq L) fc)
    · intro v; fin_cases v
      · exact load6_2 0 1 16 (read_shBlkAt (F := F) (k1_off9 L) (k1_off9_inb L) 2 0 (jL L) (k1_off9_eq L) fc)
      · exact load6_2 1 0 16 (read_shBlkAt (F := F) (k1_off12 L) (k1_off12_inb L) 2 1 (jL L) (k1_off12_eq L) fc)
      · exact load6_2 0 1 16 (read_shBlkAt (F := F) (k1_off15 L) (k1_off15_inb L) 2 2 (jL L) (k1_off15_eq L) fc)
      · exact load6_2 1 0 16 (read_shBlkAt (F := F) (k1_off18 L) (k1_off18_inb L) 2 3 (jL L) (k1_off18_eq L) fc)
      · exact load6_2 0 1 16 (read_shBlkAt (F := F) (k1_off21 L) (k1_off21_inb L) 2 4 (jL L) (k1_off21_eq L) fc)
      · exact load6_2 1 0 16 (read_shBlkAt (F := F) (k1_off24 L) (k1_off24_inb L) 2 5 (jL L) (k1_off24_eq L) fc)
      · exact load6_2 0 1 16 (read_shBlkAt (F := F) (k1_off27 L) (k1_off27_inb L) 2 6 (jL L) (k1_off27_eq L) fc)
      · exact load6_2 1 0 16 (read_shBlkAt (F := F) (k1_off30 L) (k1_off30_inb L) 2 7 (jL L) (k1_off30_eq L) fc)
      · exact load6_2 0 1 16 (read_shBlkAt (F := F) (k1_off33 L) (k1_off33_inb L) 2 8 (jL L) (k1_off33_eq L) fc)
      · exact load6_2 1 0 16 (read_shBlkAt (F := F) (k1_off36 L) (k1_off36_inb L) 2 9 (jL L) (k1_off36_eq L) fc)
      · exact load6_2 0 1 16 (read_shBlkAt (F := F) (k1_off39 L) (k1_off39_inb L) 2 10 (jL L) (k1_off39_eq L) fc)
      · exact load6_2 1 0 16 (read_shBlkAt (F := F) (k1_off42 L) (k1_off42_inb L) 2 11 (jL L) (k1_off42_eq L) fc)
      · exact load6_2 0 1 16 (read_shBlkAt (F := F) (k1_off45 L) (k1_off45_inb L) 2 12 (jL L) (k1_off45_eq L) fc)
      · exact load6_2 1 0 16 (read_shBlkAt (F := F) (k1_off48 L) (k1_off48_inb L) 2 13 (jL L) (k1_off48_eq L) fc)
      · exact load6_2 0 1 16 (read_shBlkAt (F := F) (k1_off51 L) (k1_off51_inb L) 2 14 (jL L) (k1_off51_eq L) fc)
      · exact load3_2 1 16 (read_shBlkAt (F := F) (k1_off54 L) (k1_off54_inb L) 2 15 (jL L) (k1_off54_eq L) fc)
  unfold tdP

  ihave Hlc := (Entails.of_eq (show _ = (lcLoc d ↦[chunkSet (cV L).val (jL L).val]{fullShare} lcA : sProp 𝕄) from pts_lcK (F := F) d L fullShare lcA)) $$ Hlc
  ihave Hld := (Entails.of_eq (show _ = (ldLoc d ↦[chunkSet (cV L).val (jL L).val]{fullShare} ldA : sProp 𝕄) from pts_ldK (F := F) d L fullShare ldA)) $$ Hld
  ihave Hids := (Entails.of_eq (show _ = (idsLoc d ↦[idsSet (cV L).val (jL L).val]{fullShare} m (idsLoc d) : sProp 𝕄) from pts_idsK (F := F) d L h1 fullShare (m (idsLoc d)))) $$ Hids

  ihave Hp0 := (Entails.of_eq (pts_outK0 (F := F) d L fullShare _)) $$ Hp0
  ihave Hp1 := (Entails.of_eq (pts_outK1 (F := F) d L fullShare _)) $$ Hp1
  ihave Hp2 := (Entails.of_eq (pts_outK2 (F := F) d L fullShare _)) $$ Hp2
  ihave Hout := (out_glue (F := F) d L m) $$ [Hp0 Hp1 Hp2]
  · isplitl [Hp0]
    · iexists _; isplitr [Hp0]
      pick_goal 2; · iexact Hp0
      ipureintro; exact ho0
    isplitl [Hp1]
    · iexists _; isplitr [Hp1]
      pick_goal 2; · iexact Hp1
      ipureintro; exact ho1
    iexists _; isplitr [Hp2]
    pick_goal 2; · iexact Hp2
    ipureintro; exact ho2
  ihave Hcols := (Entails.of_eq (show _ = (shLoc d (cV L) ↦[shCols (jL L).val]{fullShare} fc : sProp 𝕄) from (pts_colsK (F := F) d L fullShare fc).symm)) $$ [Hk0_0 Hk0_1 Hk0_2 Hk1_0 Hk1_1 Hk1_2 Hk2_0 Hk2_1 Hk2_2 Hk3_0 Hk3_1 Hk3_2 Hk4_0 Hk4_1 Hk4_2 Hk5_0 Hk5_1 Hk5_2 Hk6_0 Hk6_1 Hk6_2 Hk7_0 Hk7_1 Hk7_2 Hk8_0 Hk8_1 Hk8_2 Hk9_0 Hk9_1 Hk9_2 Hk10_0 Hk10_1 Hk10_2 Hk11_0 Hk11_1 Hk11_2 Hk12_0 Hk12_1 Hk12_2 Hk13_0 Hk13_1 Hk13_2 Hk14_0 Hk14_1 Hk14_2 Hk15_0 Hk15_1 Hk15_2]
  · iframe

  isplitl [Hlc Hld Hids Hout Hcols]
  · isplitl [Hlc]; · iexists _; iexact Hlc
    isplitl [Hld]; · iexists _; iexact Hld
    isplitl [Hids]; · iexact Hids
    isplitl [Hout]; · iexact Hout
    iexists _; iexact Hcols
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hs10 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _
  isplitr [HO]
  pick_goal 2; · iexact HO
  ipureintro
  repeat (refine waits_ins ?_ ?_; · first | exact .inl rfl | exact .inr rfl)
  exact fun p hp => .inl hp

end Tile

end Cert.Proof.KB

end
-- ==== Proof.Bits.TileIdsLast.lean ====
import proofs.«203579_g3066606649474_cont_9to1_387_24_alg».proof.Proof.Bits.TileVals

noncomputable section

namespace Cert.Proof.KB

open Cert.Kernel Cert.Kernel.Gen

open Idealize.ShloMosaic
open Idealize.ShloMosaic.SparseCore (S V T)
open Idealize.SL Idealize.SL.Sem

variable {F : FTy → Type} [FloatOps F] (d : Dev nD) (L : grid1.Coords) (m : (ℓ : Loc nD τ sig) → Buf (Elt F) ℓ)

def tailWrites (W : S2784.Idx → Elt F .i32) : List (View.Piece (Elt F) S3136 .i32) :=
  tailPieces ++ [⟨Rect.unit (s := S3136) ![0] S2784.size inb_S3136_S2784_0, W⟩]

theorem tail_ids_writes (h2 : k1_cond2 L = 1#1) (base : cc1_scratch2.ty.Contents (Elt F)) :
    (Memref.whole cc1_scratch2).view.writes (Elt F) base
        (tailWrites (ReadAs.same.apply ((idsTailAt (k1_off3 L) (k1_off3_inb L h2)).view.read (Elt F) (m (idsLoc d)))))
      = tileIds m d (Fin.cast nSC_eq (cV L)) (jL L) := by
  unfold tailWrites
  rw [View.writes_append]
  exact tail_ids d L m h2 _ (View.read_write_univ (v := (idsvHead).view) base _)

end Cert.Proof.KB

end
-- ==== Proof.Bits.TileBodyTail.lean ====
import proofs.«203579_g3066606649474_cont_9to1_387_24_alg».proof.Proof.Bits.TileGeom
import proofs.«203579_g3066606649474_cont_9to1_387_24_alg».proof.Proof.Bits.TileCols
import proofs.«203579_g3066606649474_cont_9to1_387_24_alg».proof.Proof.Bits.TileLoop
import proofs.«203579_g3066606649474_cont_9to1_387_24_alg».proof.Proof.Bits.TileVals
import proofs.«203579_g3066606649474_cont_9to1_387_24_alg».proof.Proof.Bits.TileRounds
import proofs.«203579_g3066606649474_cont_9to1_387_24_alg».proof.Proof.Bits.TileFinal
import proofs.«203579_g3066606649474_cont_9to1_387_24_alg».proof.Proof.Bits.TileLoad3
import proofs.«203579_g3066606649474_cont_9to1_387_24_alg».proof.Proof.Bits.TileIdsLast

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

private theorem waits_ins {W W' : Waits sig (HIx 1)} {x : SemLoc sig × HIx 1} (hx : x.2 = none ∨ x.2 = some (0 : Fin 1))
    (h : ∀ p ∈ W', p ∈ W ∨ p.2 = none ∨ p.2 = some (0 : Fin 1)) :
    ∀ p ∈ insert x W', p ∈ W ∨ p.2 = none ∨ p.2 = some (0 : Fin 1) := by
  intro p hp
  rcases Finset.mem_insert.mp hp with rfl | hp
  · exact .inr hx
  · exact h p hp

section Tile
variable (d : Dev nD) (L : grid1.Coords)

set_option maxHeartbeats 4000000 in
/-- One vector subcore's task at a symbolic place: its chunk added into 512 bins, the bins published, exchanged at the barrier, and sixteen tiles' blocks summed in tile order. -/
theorem tile_body_tail (h1 : ¬ k1_cond1 L = 1#1) (h2 : k1_cond2 L = 1#1) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (L 1).val
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L
            (Memref.whole main_v15_0_scv) (Memref.isWhole_whole _)
            (Memref.whole main_v15_1_scv) (Memref.isWhole_whole _)
            (Memref.whole main_arg4_scv) (Memref.isWhole_whole _)
            (Memref.whole main_v16_scv) (Memref.isWhole_whole _)
            (Memref.whole cc1_scratch0) (Memref.isWhole_whole _)
            (Memref.whole cc1_scratch1) (Memref.isWhole_whole _)
            (Memref.whole cc1_scratch2) (Memref.isWhole_whole _)
            (Memref.whole cc1_scratch3) (Memref.isWhole_whole _)
            (Memref.whole cc1_scratch4) (Memref.isWhole_whole _)
            (Memref.whole cc1_scratch5) (Memref.isWhole_whole _)
            (Memref.whole cc1_scratch6) (Memref.isWhole_whole _)
            (Memref.whole cc1_scratch7) (Memref.isWhole_whole _)
            (Memref.whole cc1_scratch8) (Memref.isWhole_whole _)
            (Memref.whole cc1_scratch9) (Memref.isWhole_whole _)
            (Memref.whole cc1_scratch10) (Memref.isWhole_whole _)
            cc1_scratch11 cc1_scratch12 cc1_scratch13 cc1_scoped0 cc1_scoped1 cc1_scoped2 cc1_scoped3 cc1_scoped4 cc1_scoped5 cc1_scoped6 cc1_scoped7)
          fun _ => iprop(tdP m d (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by

  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold bkit goP
  iintro ⟨#Hlv, ⟨⟨%κ, #Hinv⟩, Htoks, #Hrch, Hat, Hcred⟩, ⟨⟨%lcA, %ldA, %hR0, Hlc, Hld⟩, %hIds, Hids, ⟨%fp, Hp⟩, ⟨%fsh, Hsh⟩⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs0, Hs1, Hs2, Hs3, Hs4, Hs5, Hs6, Hs7, Hs8, Hs9, Hs10, Hsems⟩, HO⟩

  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv

  ihave Hlc := (Entails.of_eq (show (lcLoc d ↦[chunkSet (cV L).val (L 1).val]{fullShare} lcA : sProp 𝕄) = _ from (pts_lcK (F := F) d L fullShare lcA).symm)) $$ Hlc
  ihave Hld := (Entails.of_eq (show (ldLoc d ↦[chunkSet (cV L).val (L 1).val]{fullShare} ldA : sProp 𝕄) = _ from (pts_ldK (F := F) d L fullShare ldA).symm)) $$ Hld
  ihave Hids := (Entails.of_eq (show (idsLoc d ↦[idsSet (cV L).val (L 1).val]{fullShare} m (idsLoc d) : sProp 𝕄) = _ from (pts_idsTK (F := F) d L h2 fullShare (m (idsLoc d))).symm)) $$ Hids

  ihave Hb0 := (Entails.of_eq (show ((V d (cV L) (jV L)).loc cc1_scratch0 ↦{fullShare} fb0 : sProp 𝕄) = ((Memref.whole cc1_scratch0).view.loc (V d (cV L) (jV L)) ↦{fullShare} fb0) from rfl)) $$ Hb0
  ihave Hb1 := (Entails.of_eq (show ((V d (cV L) (jV L)).loc cc1_scratch1 ↦{fullShare} fb1 : sProp 𝕄) = ((Memref.whole cc1_scratch1).view.loc (V d (cV L) (jV L)) ↦{fullShare} fb1) from rfl)) $$ Hb1
  ihave Hb2 := (Entails.of_eq (show ((V d (cV L) (jV L)).loc cc1_scratch2 ↦{fullShare} fb2 : sProp 𝕄) = ((Memref.whole cc1_scratch2).view.loc (V d (cV L) (jV L)) ↦{fullShare} fb2) from rfl)) $$ Hb2
  ihave Hb3 := (Entails.of_eq (show ((V d (cV L) (jV L)).loc cc1_scratch3 ↦{fullShare} fb3 : sProp 𝕄) = ((Memref.whole cc1_scratch3).view.loc (V d (cV L) (jV L)) ↦{fullShare} fb3) from rfl)) $$ Hb3
  ihave Hb4 := (Entails.of_eq (show ((V d (cV L) (jV L)).loc cc1_scratch4 ↦{fullShare} fb4 : sProp 𝕄) = ((Memref.whole cc1_scratch4).view.loc (V d (cV L) (jV L)) ↦{fullShare} fb4) from rfl)) $$ Hb4
  ihave Hb5 := (Entails.of_eq (show ((V d (cV L) (jV L)).loc cc1_scratch5 ↦{fullShare} fb5 : sProp 𝕄) = ((Memref.whole cc1_scratch5).view.loc (V d (cV L) (jV L)) ↦{fullShare} fb5) from rfl)) $$ Hb5
  ihave Hb6 := (Entails.of_eq (show ((V d (cV L) (jV L)).loc cc1_scratch6 ↦{fullShare} fb6 : sProp 𝕄) = ((Memref.whole cc1_scratch6).view.loc (V d (cV L) (jV L)) ↦{fullShare} fb6) from rfl)) $$ Hb6
  ihave Hb7 := (Entails.of_eq (show ((V d (cV L) (jV L)).loc cc1_scratch7 ↦{fullShare} fb7 : sProp 𝕄) = ((Memref.whole cc1_scratch7).view.loc (V d (cV L) (jV L)) ↦{fullShare} fb7) from rfl)) $$ Hb7
  ihave Hb8 := (Entails.of_eq (show ((V d (cV L) (jV L)).loc cc1_scratch8 ↦{fullShare} fb8 : sProp 𝕄) = ((Memref.whole cc1_scratch8).view.loc (V d (cV L) (jV L)) ↦{fullShare} fb8) from rfl)) $$ Hb8
  ihave Hb9 := (Entails.of_eq (show ((V d (cV L) (jV L)).loc cc1_scratch10 ↦{fullShare} fb9 : sProp 𝕄) = ((Memref.whole cc1_scratch10).view.loc (V d (cV L) (jV L)) ↦{fullShare} fb9) from rfl)) $$ Hb9

  have hBa : Transfers.BatchOf (V d (cV L) (jV L)) (SemLoc.dma cc1_scratch11.sem) 2 := Transfers.BatchOf.intro _ _ _
  have hBb0 : Transfers.BatchOf (V d (cV L) (jV L)) (SemLoc.dma cc1_scratch12.sem) 3 true := Transfers.BatchOf.intro _ _ _ _
  have hBb1 : Transfers.BatchOf (V d (cV L) (jV L)) (SemLoc.dma cc1_scratch13.sem) 3 true := Transfers.BatchOf.intro _ _ _ _
  sl_exec_parts

  have e0 : View.write (Elt F) (Memref.whole cc1_scratch0).view fb0 (tile_body_tail.sl.dma0 L lcA) Finset.univ = chunkOf lcA (Fin.cast nSC_eq (cV L)) (jL L) := fetched_lc (F := F) L fb0 lcA
  have e1 : View.write (Elt F) (Memref.whole cc1_scratch1).view fb1 (tile_body_tail.sl.dma1 L ldA) Finset.univ = chunkOf ldA (Fin.cast nSC_eq (cV L)) (jL L) := fetched_ld (F := F) L fb1 ldA
  have e2 : (Memref.whole cc1_scratch2).view.writes (Elt F) (Memref.whole cc1_scratch2).view.junk (tile_body_tail.sl.Hb2_23 m d L h2) = tileIds m d (Fin.cast nSC_eq (cV L)) (jL L) := tail_ids_writes (F := F) d L m h2 _
  have e3 : (Memref.whole cc1_scratch3).view.writes (Elt F) (Memref.whole cc1_scratch3).view.junk tile_body_tail.sl.Hb3_33 = accZero (F := F) := zerofill3 (F := F) _
  have e4 : (Memref.whole cc1_scratch4).view.writes (Elt F) (Memref.whole cc1_scratch4).view.junk tile_body_tail.sl.Hb4_33 = accZero (F := F) := zerofill4 (F := F) _
  have e5 : (Memref.whole cc1_scratch5).view.writes (Elt F) (Memref.whole cc1_scratch5).view.junk tile_body_tail.sl.Hb5_33 = accZero (F := F) := zerofill5 (F := F) _
  rw [e0, e1, e2, e3, e4, e5]
  have hids := tileIds_lt hIds (Fin.cast nSC_eq (cV L)) (jL L)

  sl_for (loopInv d L (chunkOf lcA (Fin.cast nSC_eq (cV L)) (jL L)) (chunkOf ldA (Fin.cast nSC_eq (cV L)) (jL L)) (tileIds m d (Fin.cast nSC_eq (cV L)) (jL L))) $$ [Hb2 Hb0 Hb1 Hb3 Hb4 Hb5]
  · intro k acc
    exact wp_trip d L 𝒱₀ none Set.univ _ _ _ hids k acc
  · unfold loopInv
    isplitl [Hb2]; · iexact Hb2
    isplitl [Hb0]; · iexact Hb0
    isplitl [Hb1]; · iexact Hb1
    isplitl [Hb3]; · iexact Hb3
    isplitl [Hb4]; · iexact Hb4
    iexact Hb5
  iintro %acc HI
  unfold loopInv
  icases HI with ⟨Hb2, Hb0, Hb1, Hb3, Hb4, Hb5⟩

  ihave Hsh := (Entails.of_eq (pts_shRows (F := F) d (cV L) (L 1).val fullShare fsh)) $$ Hsh
  icases Hsh with ⟨Hsh0, Hsh1, Hsh2⟩
  ihave Hsh0 := (Entails.of_eq (pts_shRowK0 (F := F) d L fullShare fsh).symm) $$ Hsh0
  ihave Hsh1 := (Entails.of_eq (pts_shRowK1 (F := F) d L fullShare fsh).symm) $$ Hsh1
  ihave Hsh2 := (Entails.of_eq (pts_shRowK2 (F := F) d L fullShare fsh).symm) $$ Hsh2
  sl_exec_parts

  have hbar : (sc_bar0 : Sem sig) ≠ (K (F := F)).go := sc_bar0_ne_go
  ihave Hmwb := (show levAts (K (F := F)).L (K (F := F)).lev ⊢ MayWait (V d (cV L) (jV L)) (SemLoc.reg sc_bar0) (some (0 : Fin 1)) O from
    (K (F := F)).mayOwe_of_bound 3
      (fun p hp => by rw [Finset.mem_singleton] at hp; subst hp; exact le_of_eq ((K (F := F)).lev_V_reg d (cV L) (jV L) hbar (0 : Fin 1)))
      (fun g ι h => lt_of_lt_of_le (show 3 < 8 * (0 : Fin 1).val + 6 by decide) (hOlev g ι h))) $$ Hlv

  ihave Hpay := (pays_intro (F := F) d L m) $$ [Hsh0 Hsh1 Hsh2]
  · ihave Hsh0 := (Entails.of_eq (pts_shRowK0 (F := F) d L fullShare _)) $$ Hsh0
    ihave Hsh1 := (Entails.of_eq (pts_shRowK1 (F := F) d L fullShare _)) $$ Hsh1
    ihave Hsh2 := (Entails.of_eq (pts_shRowK2 (F := F) d L fullShare _)) $$ Hsh2
    iapply (rows_glue (F := F) d L m)
    isplitl [Hsh0]
    · iexists _
      isplitr [Hsh0]
      pick_goal 2; · iexact Hsh0
      ipureintro; exact row_fact0 (F := F) d L m lcA ldA hR0 fsh
    isplitl [Hsh1]
    · iexists _
      isplitr [Hsh1]
      pick_goal 2; · iexact Hsh1
      ipureintro; exact row_fact1 (F := F) d L m lcA ldA hR0 fsh
    iexists _
    isplitr [Hsh2]
    pick_goal 2; · iexact Hsh2
    ipureintro; exact row_fact2 (F := F) d L m lcA ldA hR0 fsh

  ihave Hzip := (show iprop((bigSep Finset.univ fun j : Fin (grid1.bound 1) => dutyTok EB (bcell d (cV L) (j.castLE hsub1)) 0 (jV L).val)
        ∗ (bigSep Finset.univ fun j : Fin (grid1.bound 1) => (bRd (F := F) m).payload (bcell d (cV L) (j.castLE hsub1)) 0 (jV L).val)
        ∗ (bigSep Finset.univ fun j : Fin (grid1.bound 1) => reached EB (bcell d (cV L) (j.castLE hsub1)) 0))
      ⊢ (bigSep Finset.univ fun j : Fin (grid1.bound 1) => iprop(dutyTok EB (bcell d (cV L) (j.castLE hsub1)) 0 (jV L).val
          ∗ (bRd (F := F) m).payload (bcell d (cV L) (j.castLE hsub1)) 0 (jV L).val ∗ reached EB (bcell d (cV L) (j.castLE hsub1)) 0) : sProp 𝕄) from
    Entails.of_eq ((congrArg (fun X : sProp 𝕄 => iprop((bigSep Finset.univ fun j : Fin (grid1.bound 1) => dutyTok EB (bcell d (cV L) (j.castLE hsub1)) 0 (jV L).val) ∗ X))
        (BI.bigSep_sep Finset.univ (fun j : Fin (grid1.bound 1) => (bRd (F := F) m).payload (bcell d (cV L) (j.castLE hsub1)) 0 (jV L).val) (fun j : Fin (grid1.bound 1) => reached EB (bcell d (cV L) (j.castLE hsub1)) 0)).symm).trans
      (BI.bigSep_sep Finset.univ (fun j : Fin (grid1.bound 1) => dutyTok EB (bcell d (cV L) (j.castLE hsub1)) 0 (jV L).val)
        (fun j : Fin (grid1.bound 1) => iprop((bRd (F := F) m).payload (bcell d (cV L) (j.castLE hsub1)) 0 (jV L).val ∗ reached EB (bcell d (cV L) (j.castLE hsub1)) 0))).symm)) $$ [Htoks Hpay Hrch]
  · isplitl [Htoks]; · iexact Htoks
    isplitl [Hpay]; · iexact Hpay
    iexact Hrch
  unfold oxV
  iapply (SparseCore.wp_subcoreBarrier (defs := defs₀ (F := F)) 𝒱₀ none EB (bRd (F := F) m) d (sc := cV L) (i := jV L) sc_bar0 (grid1.bound 1) hsub1 (L 1) rfl κ (fun _ => 0) (jV L).val
      (fun j => bRd_mem₀ m d (cV L) (j.castLE hsub1) (jV L)) (fun _ => rfl) (bRd_expect m d (cV L) (jV L)) (some (0 : Fin 1)) O _) $$ [HO Hzip Hcred Hat]
  · isplitl []; · iexact Hinv
    isplitl [HO]; · iexact HO
    isplitl [Hzip]; · iexact Hzip
    isplitl [Hcred]; · iexact Hcred
    isplitl [Hat]; · iexact Hat
    iexact Hmwb
  iintro ⟨HO, Hat, #Hrch1, Hgot⟩

  ihave Hcols := (pays_elim (F := F) d L m) $$ Hgot
  icases Hcols with ⟨%fc, %hfc, Hcols⟩
  ihave Hcols := (Entails.of_eq (pts_colsK (F := F) d L fullShare fc)) $$ Hcols
  icases Hcols with ⟨⟨Hk0_0, Hk0_1, Hk0_2⟩, ⟨Hk1_0, Hk1_1, Hk1_2⟩, ⟨Hk2_0, Hk2_1, Hk2_2⟩, ⟨Hk3_0, Hk3_1, Hk3_2⟩, ⟨Hk4_0, Hk4_1, Hk4_2⟩, ⟨Hk5_0, Hk5_1, Hk5_2⟩, ⟨Hk6_0, Hk6_1, Hk6_2⟩, ⟨Hk7_0, Hk7_1, Hk7_2⟩, ⟨Hk8_0, Hk8_1, Hk8_2⟩, ⟨Hk9_0, Hk9_1, Hk9_2⟩, ⟨Hk10_0, Hk10_1, Hk10_2⟩, ⟨Hk11_0, Hk11_1, Hk11_2⟩, ⟨Hk12_0, Hk12_1, Hk12_2⟩, ⟨Hk13_0, Hk13_1, Hk13_2⟩, ⟨Hk14_0, Hk14_1, Hk14_2⟩, ⟨Hk15_0, Hk15_1, Hk15_2⟩⟩

  sl_exec_parts

  ihave Hp := (Entails.of_eq (pts_outSets (F := F) d (cV L).val (L 1).val fullShare fp)) $$ Hp
  icases Hp with ⟨Hp0, Hp1, Hp2⟩
  ihave Hp0 := (Entails.of_eq (show (pLoc d ↦[outSetA (cV L).val (L 1).val 0]{fullShare} fp : sProp 𝕄) = _ from (pts_outK0 (F := F) d L fullShare fp).symm)) $$ Hp0
  ihave Hp1 := (Entails.of_eq (show (pLoc d ↦[outSetA (cV L).val (L 1).val 1]{fullShare} fp : sProp 𝕄) = _ from (pts_outK1 (F := F) d L fullShare fp).symm)) $$ Hp1
  ihave Hp2 := (Entails.of_eq (show (pLoc d ↦[outSetA (cV L).val (L 1).val 2]{fullShare} fp : sProp 𝕄) = _ from (pts_outK2 (F := F) d L fullShare fp).symm)) $$ Hp2
  sl_exec_parts
  sl_step

  have ho0 : OutOk m d (Fin.cast nSC_eq (cV L)) (jL L) 0 (outSlice ((outAt (k1_off55 L 0#32) (k1_off55_inb L 0)).view.writes (Elt F) fp [⟨Rect.whole S32, tile_body_tail.sl.dma0_6 d L fb6 fb9 fc⟩]) (Fin.cast nSC_eq (cV L)) (jL L) 0) := by
    refine plane_final0 (F := F) d L m fc hfc fp fb6 _ _
      ![tile_body_tail.sl.v204_ld d L fb9 fc, tile_body_tail.sl.v285_ld d L fb9 fc, tile_body_tail.sl.v366_ld d L fb9 fc, tile_body_tail.sl.v447_ld d L fb9 fc, tile_body_tail.sl.v528_ld d L fb9 fc, tile_body_tail.sl.v609_ld d L fb9 fc, tile_body_tail.sl.v690_ld d L fb9 fc, tile_body_tail.sl.v771_ld d L fb9 fc, tile_body_tail.sl.v852_ld d L fb9 fc, tile_body_tail.sl.v933_ld d L fb9 fc, tile_body_tail.sl.v1014_ld d L fb9 fc, tile_body_tail.sl.v1095_ld d L fb9 fc, tile_body_tail.sl.v1176_ld d L fb9 fc, tile_body_tail.sl.v1257_ld d L fb9 fc, tile_body_tail.sl.v1338_ld d L fb9 fc, tile_body_tail.sl.v1392_ld d L fb9 fc]
      ![tile_body_tail.sl.v209_ld d L fb9 fc, tile_body_tail.sl.v290_ld d L fb9 fc, tile_body_tail.sl.v371_ld d L fb9 fc, tile_body_tail.sl.v452_ld d L fb9 fc, tile_body_tail.sl.v533_ld d L fb9 fc, tile_body_tail.sl.v614_ld d L fb9 fc, tile_body_tail.sl.v695_ld d L fb9 fc, tile_body_tail.sl.v776_ld d L fb9 fc, tile_body_tail.sl.v857_ld d L fb9 fc, tile_body_tail.sl.v938_ld d L fb9 fc, tile_body_tail.sl.v1019_ld d L fb9 fc, tile_body_tail.sl.v1100_ld d L fb9 fc, tile_body_tail.sl.v1181_ld d L fb9 fc, tile_body_tail.sl.v1262_ld d L fb9 fc, tile_body_tail.sl.v1343_ld d L fb9 fc, tile_body_tail.sl.v1397_ld d L fb9 fc] ?_ ?_ ?_ ?_
    · rfl
    · rfl
    · intro v; fin_cases v
      · exact load6_0 0 1 0 (read_shBlkAt (F := F) (k1_off7 L) (k1_off7_inb L) 0 0 (jL L) (k1_off7_eq L) fc)
      · exact load6_0 1 0 0 (read_shBlkAt (F := F) (k1_off10 L) (k1_off10_inb L) 0 1 (jL L) (k1_off10_eq L) fc)
      · exact load6_0 0 1 0 (read_shBlkAt (F := F) (k1_off13 L) (k1_off13_inb L) 0 2 (jL L) (k1_off13_eq L) fc)
      · exact load6_0 1 0 0 (read_shBlkAt (F := F) (k1_off16 L) (k1_off16_inb L) 0 3 (jL L) (k1_off16_eq L) fc)
      · exact load6_0 0 1 0 (read_shBlkAt (F := F) (k1_off19 L) (k1_off19_inb L) 0 4 (jL L) (k1_off19_eq L) fc)
      · exact load6_0 1 0 0 (read_shBlkAt (F := F) (k1_off22 L) (k1_off22_inb L) 0 5 (jL L) (k1_off22_eq L) fc)
      · exact load6_0 0 1 0 (read_shBlkAt (F := F) (k1_off25 L) (k1_off25_inb L) 0 6 (jL L) (k1_off25_eq L) fc)
      · exact load6_0 1 0 0 (read_shBlkAt (F := F) (k1_off28 L) (k1_off28_inb L) 0 7 (jL L) (k1_off28_eq L) fc)
      · exact load6_0 0 1 0 (read_shBlkAt (F := F) (k1_off31 L) (k1_off31_inb L) 0 8 (jL L) (k1_off31_eq L) fc)
      · exact load6_0 1 0 0 (read_shBlkAt (F := F) (k1_off34 L) (k1_off34_inb L) 0 9 (jL L) (k1_off34_eq L) fc)
      · exact load6_0 0 1 0 (read_shBlkAt (F := F) (k1_off37 L) (k1_off37_inb L) 0 10 (jL L) (k1_off37_eq L) fc)
      · exact load6_0 1 0 0 (read_shBlkAt (F := F) (k1_off40 L) (k1_off40_inb L) 0 11 (jL L) (k1_off40_eq L) fc)
      · exact load6_0 0 1 0 (read_shBlkAt (F := F) (k1_off43 L) (k1_off43_inb L) 0 12 (jL L) (k1_off43_eq L) fc)
      · exact load6_0 1 0 0 (read_shBlkAt (F := F) (k1_off46 L) (k1_off46_inb L) 0 13 (jL L) (k1_off46_eq L) fc)
      · exact load6_0 0 1 0 (read_shBlkAt (F := F) (k1_off49 L) (k1_off49_inb L) 0 14 (jL L) (k1_off49_eq L) fc)
      · exact load3_0 1 0 (read_shBlkAt (F := F) (k1_off52 L) (k1_off52_inb L) 0 15 (jL L) (k1_off52_eq L) fc)
    · intro v; fin_cases v
      · exact load6_0 0 1 16 (read_shBlkAt (F := F) (k1_off7 L) (k1_off7_inb L) 0 0 (jL L) (k1_off7_eq L) fc)
      · exact load6_0 1 0 16 (read_shBlkAt (F := F) (k1_off10 L) (k1_off10_inb L) 0 1 (jL L) (k1_off10_eq L) fc)
      · exact load6_0 0 1 16 (read_shBlkAt (F := F) (k1_off13 L) (k1_off13_inb L) 0 2 (jL L) (k1_off13_eq L) fc)
      · exact load6_0 1 0 16 (read_shBlkAt (F := F) (k1_off16 L) (k1_off16_inb L) 0 3 (jL L) (k1_off16_eq L) fc)
      · exact load6_0 0 1 16 (read_shBlkAt (F := F) (k1_off19 L) (k1_off19_inb L) 0 4 (jL L) (k1_off19_eq L) fc)
      · exact load6_0 1 0 16 (read_shBlkAt (F := F) (k1_off22 L) (k1_off22_inb L) 0 5 (jL L) (k1_off22_eq L) fc)
      · exact load6_0 0 1 16 (read_shBlkAt (F := F) (k1_off25 L) (k1_off25_inb L) 0 6 (jL L) (k1_off25_eq L) fc)
      · exact load6_0 1 0 16 (read_shBlkAt (F := F) (k1_off28 L) (k1_off28_inb L) 0 7 (jL L) (k1_off28_eq L) fc)
      · exact load6_0 0 1 16 (read_shBlkAt (F := F) (k1_off31 L) (k1_off31_inb L) 0 8 (jL L) (k1_off31_eq L) fc)
      · exact load6_0 1 0 16 (read_shBlkAt (F := F) (k1_off34 L) (k1_off34_inb L) 0 9 (jL L) (k1_off34_eq L) fc)
      · exact load6_0 0 1 16 (read_shBlkAt (F := F) (k1_off37 L) (k1_off37_inb L) 0 10 (jL L) (k1_off37_eq L) fc)
      · exact load6_0 1 0 16 (read_shBlkAt (F := F) (k1_off40 L) (k1_off40_inb L) 0 11 (jL L) (k1_off40_eq L) fc)
      · exact load6_0 0 1 16 (read_shBlkAt (F := F) (k1_off43 L) (k1_off43_inb L) 0 12 (jL L) (k1_off43_eq L) fc)
      · exact load6_0 1 0 16 (read_shBlkAt (F := F) (k1_off46 L) (k1_off46_inb L) 0 13 (jL L) (k1_off46_eq L) fc)
      · exact load6_0 0 1 16 (read_shBlkAt (F := F) (k1_off49 L) (k1_off49_inb L) 0 14 (jL L) (k1_off49_eq L) fc)
      · exact load3_0 1 16 (read_shBlkAt (F := F) (k1_off52 L) (k1_off52_inb L) 0 15 (jL L) (k1_off52_eq L) fc)
  have ho1 : OutOk m d (Fin.cast nSC_eq (cV L)) (jL L) 1 (outSlice ((outAt (k1_off55 L 512#32) (k1_off55_inb L 1)).view.writes (Elt F) fp [⟨Rect.whole S32, tile_body_tail.sl.dma0_7 d L fb7 fb9 fc⟩]) (Fin.cast nSC_eq (cV L)) (jL L) 1) := by
    refine plane_final1 (F := F) d L m fc hfc fp fb7 _ _
      ![tile_body_tail.sl.v214_ld d L fb9 fc, tile_body_tail.sl.v295_ld d L fb9 fc, tile_body_tail.sl.v376_ld d L fb9 fc, tile_body_tail.sl.v457_ld d L fb9 fc, tile_body_tail.sl.v538_ld d L fb9 fc, tile_body_tail.sl.v619_ld d L fb9 fc, tile_body_tail.sl.v700_ld d L fb9 fc, tile_body_tail.sl.v781_ld d L fb9 fc, tile_body_tail.sl.v862_ld d L fb9 fc, tile_body_tail.sl.v943_ld d L fb9 fc, tile_body_tail.sl.v1024_ld d L fb9 fc, tile_body_tail.sl.v1105_ld d L fb9 fc, tile_body_tail.sl.v1186_ld d L fb9 fc, tile_body_tail.sl.v1267_ld d L fb9 fc, tile_body_tail.sl.v1348_ld d L fb9 fc, tile_body_tail.sl.v1402_ld d L fb9 fc]
      ![tile_body_tail.sl.v219_ld d L fb9 fc, tile_body_tail.sl.v300_ld d L fb9 fc, tile_body_tail.sl.v381_ld d L fb9 fc, tile_body_tail.sl.v462_ld d L fb9 fc, tile_body_tail.sl.v543_ld d L fb9 fc, tile_body_tail.sl.v624_ld d L fb9 fc, tile_body_tail.sl.v705_ld d L fb9 fc, tile_body_tail.sl.v786_ld d L fb9 fc, tile_body_tail.sl.v867_ld d L fb9 fc, tile_body_tail.sl.v948_ld d L fb9 fc, tile_body_tail.sl.v1029_ld d L fb9 fc, tile_body_tail.sl.v1110_ld d L fb9 fc, tile_body_tail.sl.v1191_ld d L fb9 fc, tile_body_tail.sl.v1272_ld d L fb9 fc, tile_body_tail.sl.v1353_ld d L fb9 fc, tile_body_tail.sl.v1407_ld d L fb9 fc] ?_ ?_ ?_ ?_
    · rfl
    · rfl
    · intro v; fin_cases v
      · exact load6_1 0 1 0 (read_shBlkAt (F := F) (k1_off8 L) (k1_off8_inb L) 1 0 (jL L) (k1_off8_eq L) fc)
      · exact load6_1 1 0 0 (read_shBlkAt (F := F) (k1_off11 L) (k1_off11_inb L) 1 1 (jL L) (k1_off11_eq L) fc)
      · exact load6_1 0 1 0 (read_shBlkAt (F := F) (k1_off14 L) (k1_off14_inb L) 1 2 (jL L) (k1_off14_eq L) fc)
      · exact load6_1 1 0 0 (read_shBlkAt (F := F) (k1_off17 L) (k1_off17_inb L) 1 3 (jL L) (k1_off17_eq L) fc)
      · exact load6_1 0 1 0 (read_shBlkAt (F := F) (k1_off20 L) (k1_off20_inb L) 1 4 (jL L) (k1_off20_eq L) fc)
      · exact load6_1 1 0 0 (read_shBlkAt (F := F) (k1_off23 L) (k1_off23_inb L) 1 5 (jL L) (k1_off23_eq L) fc)
      · exact load6_1 0 1 0 (read_shBlkAt (F := F) (k1_off26 L) (k1_off26_inb L) 1 6 (jL L) (k1_off26_eq L) fc)
      · exact load6_1 1 0 0 (read_shBlkAt (F := F) (k1_off29 L) (k1_off29_inb L) 1 7 (jL L) (k1_off29_eq L) fc)
      · exact load6_1 0 1 0 (read_shBlkAt (F := F) (k1_off32 L) (k1_off32_inb L) 1 8 (jL L) (k1_off32_eq L) fc)
      · exact load6_1 1 0 0 (read_shBlkAt (F := F) (k1_off35 L) (k1_off35_inb L) 1 9 (jL L) (k1_off35_eq L) fc)
      · exact load6_1 0 1 0 (read_shBlkAt (F := F) (k1_off38 L) (k1_off38_inb L) 1 10 (jL L) (k1_off38_eq L) fc)
      · exact load6_1 1 0 0 (read_shBlkAt (F := F) (k1_off41 L) (k1_off41_inb L) 1 11 (jL L) (k1_off41_eq L) fc)
      · exact load6_1 0 1 0 (read_shBlkAt (F := F) (k1_off44 L) (k1_off44_inb L) 1 12 (jL L) (k1_off44_eq L) fc)
      · exact load6_1 1 0 0 (read_shBlkAt (F := F) (k1_off47 L) (k1_off47_inb L) 1 13 (jL L) (k1_off47_eq L) fc)
      · exact load6_1 0 1 0 (read_shBlkAt (F := F) (k1_off50 L) (k1_off50_inb L) 1 14 (jL L) (k1_off50_eq L) fc)
      · exact load3_1 1 0 (read_shBlkAt (F := F) (k1_off53 L) (k1_off53_inb L) 1 15 (jL L) (k1_off53_eq L) fc)
    · intro v; fin_cases v
      · exact load6_1 0 1 16 (read_shBlkAt (F := F) (k1_off8 L) (k1_off8_inb L) 1 0 (jL L) (k1_off8_eq L) fc)
      · exact load6_1 1 0 16 (read_shBlkAt (F := F) (k1_off11 L) (k1_off11_inb L) 1 1 (jL L) (k1_off11_eq L) fc)
      · exact load6_1 0 1 16 (read_shBlkAt (F := F) (k1_off14 L) (k1_off14_inb L) 1 2 (jL L) (k1_off14_eq L) fc)
      · exact load6_1 1 0 16 (read_shBlkAt (F := F) (k1_off17 L) (k1_off17_inb L) 1 3 (jL L) (k1_off17_eq L) fc)
      · exact load6_1 0 1 16 (read_shBlkAt (F := F) (k1_off20 L) (k1_off20_inb L) 1 4 (jL L) (k1_off20_eq L) fc)
      · exact load6_1 1 0 16 (read_shBlkAt (F := F) (k1_off23 L) (k1_off23_inb L) 1 5 (jL L) (k1_off23_eq L) fc)
      · exact load6_1 0 1 16 (read_shBlkAt (F := F) (k1_off26 L) (k1_off26_inb L) 1 6 (jL L) (k1_off26_eq L) fc)
      · exact load6_1 1 0 16 (read_shBlkAt (F := F) (k1_off29 L) (k1_off29_inb L) 1 7 (jL L) (k1_off29_eq L) fc)
      · exact load6_1 0 1 16 (read_shBlkAt (F := F) (k1_off32 L) (k1_off32_inb L) 1 8 (jL L) (k1_off32_eq L) fc)
      · exact load6_1 1 0 16 (read_shBlkAt (F := F) (k1_off35 L) (k1_off35_inb L) 1 9 (jL L) (k1_off35_eq L) fc)
      · exact load6_1 0 1 16 (read_shBlkAt (F := F) (k1_off38 L) (k1_off38_inb L) 1 10 (jL L) (k1_off38_eq L) fc)
      · exact load6_1 1 0 16 (read_shBlkAt (F := F) (k1_off41 L) (k1_off41_inb L) 1 11 (jL L) (k1_off41_eq L) fc)
      · exact load6_1 0 1 16 (read_shBlkAt (F := F) (k1_off44 L) (k1_off44_inb L) 1 12 (jL L) (k1_off44_eq L) fc)
      · exact load6_1 1 0 16 (read_shBlkAt (F := F) (k1_off47 L) (k1_off47_inb L) 1 13 (jL L) (k1_off47_eq L) fc)
      · exact load6_1 0 1 16 (read_shBlkAt (F := F) (k1_off50 L) (k1_off50_inb L) 1 14 (jL L) (k1_off50_eq L) fc)
      · exact load3_1 1 16 (read_shBlkAt (F := F) (k1_off53 L) (k1_off53_inb L) 1 15 (jL L) (k1_off53_eq L) fc)
  have ho2 : OutOk m d (Fin.cast nSC_eq (cV L)) (jL L) 2 (outSlice ((outAt (k1_off55 L 1024#32) (k1_off55_inb L 2)).view.writes (Elt F) fp [⟨Rect.whole S32, tile_body_tail.sl.dma0_8 d L fb8 fb9 fc⟩]) (Fin.cast nSC_eq (cV L)) (jL L) 2) := by
    refine plane_final2 (F := F) d L m fc hfc fp fb8 _ _
      ![tile_body_tail.sl.v224_ld d L fb9 fc, tile_body_tail.sl.v305_ld d L fb9 fc, tile_body_tail.sl.v386_ld d L fb9 fc, tile_body_tail.sl.v467_ld d L fb9 fc, tile_body_tail.sl.v548_ld d L fb9 fc, tile_body_tail.sl.v629_ld d L fb9 fc, tile_body_tail.sl.v710_ld d L fb9 fc, tile_body_tail.sl.v791_ld d L fb9 fc, tile_body_tail.sl.v872_ld d L fb9 fc, tile_body_tail.sl.v953_ld d L fb9 fc, tile_body_tail.sl.v1034_ld d L fb9 fc, tile_body_tail.sl.v1115_ld d L fb9 fc, tile_body_tail.sl.v1196_ld d L fb9 fc, tile_body_tail.sl.v1277_ld d L fb9 fc, tile_body_tail.sl.v1358_ld d L fb9 fc, tile_body_tail.sl.v1412_ld d L fb9 fc]
      ![tile_body_tail.sl.v229_ld d L fb9 fc, tile_body_tail.sl.v310_ld d L fb9 fc, tile_body_tail.sl.v391_ld d L fb9 fc, tile_body_tail.sl.v472_ld d L fb9 fc, tile_body_tail.sl.v553_ld d L fb9 fc, tile_body_tail.sl.v634_ld d L fb9 fc, tile_body_tail.sl.v715_ld d L fb9 fc, tile_body_tail.sl.v796_ld d L fb9 fc, tile_body_tail.sl.v877_ld d L fb9 fc, tile_body_tail.sl.v958_ld d L fb9 fc, tile_body_tail.sl.v1039_ld d L fb9 fc, tile_body_tail.sl.v1120_ld d L fb9 fc, tile_body_tail.sl.v1201_ld d L fb9 fc, tile_body_tail.sl.v1282_ld d L fb9 fc, tile_body_tail.sl.v1363_ld d L fb9 fc, tile_body_tail.sl.v1417_ld d L fb9 fc] ?_ ?_ ?_ ?_
    · rfl
    · rfl
    · intro v; fin_cases v
      · exact load6_2 0 1 0 (read_shBlkAt (F := F) (k1_off9 L) (k1_off9_inb L) 2 0 (jL L) (k1_off9_eq L) fc)
      · exact load6_2 1 0 0 (read_shBlkAt (F := F) (k1_off12 L) (k1_off12_inb L) 2 1 (jL L) (k1_off12_eq L) fc)
      · exact load6_2 0 1 0 (read_shBlkAt (F := F) (k1_off15 L) (k1_off15_inb L) 2 2 (jL L) (k1_off15_eq L) fc)
      · exact load6_2 1 0 0 (read_shBlkAt (F := F) (k1_off18 L) (k1_off18_inb L) 2 3 (jL L) (k1_off18_eq L) fc)
      · exact load6_2 0 1 0 (read_shBlkAt (F := F) (k1_off21 L) (k1_off21_inb L) 2 4 (jL L) (k1_off21_eq L) fc)
      · exact load6_2 1 0 0 (read_shBlkAt (F := F) (k1_off24 L) (k1_off24_inb L) 2 5 (jL L) (k1_off24_eq L) fc)
      · exact load6_2 0 1 0 (read_shBlkAt (F := F) (k1_off27 L) (k1_off27_inb L) 2 6 (jL L) (k1_off27_eq L) fc)
      · exact load6_2 1 0 0 (read_shBlkAt (F := F) (k1_off30 L) (k1_off30_inb L) 2 7 (jL L) (k1_off30_eq L) fc)
      · exact load6_2 0 1 0 (read_shBlkAt (F := F) (k1_off33 L) (k1_off33_inb L) 2 8 (jL L) (k1_off33_eq L) fc)
      · exact load6_2 1 0 0 (read_shBlkAt (F := F) (k1_off36 L) (k1_off36_inb L) 2 9 (jL L) (k1_off36_eq L) fc)
      · exact load6_2 0 1 0 (read_shBlkAt (F := F) (k1_off39 L) (k1_off39_inb L) 2 10 (jL L) (k1_off39_eq L) fc)
      · exact load6_2 1 0 0 (read_shBlkAt (F := F) (k1_off42 L) (k1_off42_inb L) 2 11 (jL L) (k1_off42_eq L) fc)
      · exact load6_2 0 1 0 (read_shBlkAt (F := F) (k1_off45 L) (k1_off45_inb L) 2 12 (jL L) (k1_off45_eq L) fc)
      · exact load6_2 1 0 0 (read_shBlkAt (F := F) (k1_off48 L) (k1_off48_inb L) 2 13 (jL L) (k1_off48_eq L) fc)
      · exact load6_2 0 1 0 (read_shBlkAt (F := F) (k1_off51 L) (k1_off51_inb L) 2 14 (jL L) (k1_off51_eq L) fc)
      · exact load3_2 1 0 (read_shBlkAt (F := F) (k1_off54 L) (k1_off54_inb L) 2 15 (jL L) (k1_off54_eq L) fc)
    · intro v; fin_cases v
      · exact load6_2 0 1 16 (read_shBlkAt (F := F) (k1_off9 L) (k1_off9_inb L) 2 0 (jL L) (k1_off9_eq L) fc)
      · exact load6_2 1 0 16 (read_shBlkAt (F := F) (k1_off12 L) (k1_off12_inb L) 2 1 (jL L) (k1_off12_eq L) fc)
      · exact load6_2 0 1 16 (read_shBlkAt (F := F) (k1_off15 L) (k1_off15_inb L) 2 2 (jL L) (k1_off15_eq L) fc)
      · exact load6_2 1 0 16 (read_shBlkAt (F := F) (k1_off18 L) (k1_off18_inb L) 2 3 (jL L) (k1_off18_eq L) fc)
      · exact load6_2 0 1 16 (read_shBlkAt (F := F) (k1_off21 L) (k1_off21_inb L) 2 4 (jL L) (k1_off21_eq L) fc)
      · exact load6_2 1 0 16 (read_shBlkAt (F := F) (k1_off24 L) (k1_off24_inb L) 2 5 (jL L) (k1_off24_eq L) fc)
      · exact load6_2 0 1 16 (read_shBlkAt (F := F) (k1_off27 L) (k1_off27_inb L) 2 6 (jL L) (k1_off27_eq L) fc)
      · exact load6_2 1 0 16 (read_shBlkAt (F := F) (k1_off30 L) (k1_off30_inb L) 2 7 (jL L) (k1_off30_eq L) fc)
      · exact load6_2 0 1 16 (read_shBlkAt (F := F) (k1_off33 L) (k1_off33_inb L) 2 8 (jL L) (k1_off33_eq L) fc)
      · exact load6_2 1 0 16 (read_shBlkAt (F := F) (k1_off36 L) (k1_off36_inb L) 2 9 (jL L) (k1_off36_eq L) fc)
      · exact load6_2 0 1 16 (read_shBlkAt (F := F) (k1_off39 L) (k1_off39_inb L) 2 10 (jL L) (k1_off39_eq L) fc)
      · exact load6_2 1 0 16 (read_shBlkAt (F := F) (k1_off42 L) (k1_off42_inb L) 2 11 (jL L) (k1_off42_eq L) fc)
      · exact load6_2 0 1 16 (read_shBlkAt (F := F) (k1_off45 L) (k1_off45_inb L) 2 12 (jL L) (k1_off45_eq L) fc)
      · exact load6_2 1 0 16 (read_shBlkAt (F := F) (k1_off48 L) (k1_off48_inb L) 2 13 (jL L) (k1_off48_eq L) fc)
      · exact load6_2 0 1 16 (read_shBlkAt (F := F) (k1_off51 L) (k1_off51_inb L) 2 14 (jL L) (k1_off51_eq L) fc)
      · exact load3_2 1 16 (read_shBlkAt (F := F) (k1_off54 L) (k1_off54_inb L) 2 15 (jL L) (k1_off54_eq L) fc)
  unfold tdP

  ihave Hlc := (Entails.of_eq (show _ = (lcLoc d ↦[chunkSet (cV L).val (jL L).val]{fullShare} lcA : sProp 𝕄) from pts_lcK (F := F) d L fullShare lcA)) $$ Hlc
  ihave Hld := (Entails.of_eq (show _ = (ldLoc d ↦[chunkSet (cV L).val (jL L).val]{fullShare} ldA : sProp 𝕄) from pts_ldK (F := F) d L fullShare ldA)) $$ Hld
  ihave Hids := (Entails.of_eq (show _ = (idsLoc d ↦[idsSet (cV L).val (jL L).val]{fullShare} m (idsLoc d) : sProp 𝕄) from pts_idsTK (F := F) d L h2 fullShare (m (idsLoc d)))) $$ Hids

  ihave Hp0 := (Entails.of_eq (pts_outK0 (F := F) d L fullShare _)) $$ Hp0
  ihave Hp1 := (Entails.of_eq (pts_outK1 (F := F) d L fullShare _)) $$ Hp1
  ihave Hp2 := (Entails.of_eq (pts_outK2 (F := F) d L fullShare _)) $$ Hp2
  ihave Hout := (out_glue (F := F) d L m) $$ [Hp0 Hp1 Hp2]
  · isplitl [Hp0]
    · iexists _; isplitr [Hp0]
      pick_goal 2; · iexact Hp0
      ipureintro; exact ho0
    isplitl [Hp1]
    · iexists _; isplitr [Hp1]
      pick_goal 2; · iexact Hp1
      ipureintro; exact ho1
    iexists _; isplitr [Hp2]
    pick_goal 2; · iexact Hp2
    ipureintro; exact ho2
  ihave Hcols := (Entails.of_eq (show _ = (shLoc d (cV L) ↦[shCols (jL L).val]{fullShare} fc : sProp 𝕄) from (pts_colsK (F := F) d L fullShare fc).symm)) $$ [Hk0_0 Hk0_1 Hk0_2 Hk1_0 Hk1_1 Hk1_2 Hk2_0 Hk2_1 Hk2_2 Hk3_0 Hk3_1 Hk3_2 Hk4_0 Hk4_1 Hk4_2 Hk5_0 Hk5_1 Hk5_2 Hk6_0 Hk6_1 Hk6_2 Hk7_0 Hk7_1 Hk7_2 Hk8_0 Hk8_1 Hk8_2 Hk9_0 Hk9_1 Hk9_2 Hk10_0 Hk10_1 Hk10_2 Hk11_0 Hk11_1 Hk11_2 Hk12_0 Hk12_1 Hk12_2 Hk13_0 Hk13_1 Hk13_2 Hk14_0 Hk14_1 Hk14_2 Hk15_0 Hk15_1 Hk15_2]
  · iframe

  isplitl [Hlc Hld Hids Hout Hcols]
  · isplitl [Hlc]; · iexists _; iexact Hlc
    isplitl [Hld]; · iexists _; iexact Hld
    isplitl [Hids]; · iexact Hids
    isplitl [Hout]; · iexact Hout
    iexists _; iexact Hcols
  isplitl [Hb0 Hb1 Hb2 Hb3 Hb4 Hb5 Hb6 Hb7 Hb8 Hb9 Hbufs]
  ·
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hs8 Hs9 Hs10 Hsems]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _
  isplitr [HO]
  pick_goal 2; · iexact HO
  ipureintro
  repeat (refine waits_ins ?_ ?_; · first | exact .inl rfl | exact .inr rfl)
  exact fun p hp => .inl hp

end Tile

end Cert.Proof.KB

end
-- ==== Proof.Bits.TileBody.lean ====
import proofs.«203579_g3066606649474_cont_9to1_387_24_alg».proof.Proof.Bits.TileBodyFull
import proofs.«203579_g3066606649474_cont_9to1_387_24_alg».proof.Proof.Bits.TileBodyTail

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

section Tile

variable (d : Dev nD) (L : grid1.Coords)

theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goP m d (cV L) (L 1).val
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L
            (Memref.whole main_v15_0_scv) (Memref.isWhole_whole _)
            (Memref.whole main_v15_1_scv) (Memref.isWhole_whole _)
            (Memref.whole main_arg4_scv) (Memref.isWhole_whole _)
            (Memref.whole main_v16_scv) (Memref.isWhole_whole _)
            (Memref.whole cc1_scratch0) (Memref.isWhole_whole _)
            (Memref.whole cc1_scratch1) (Memref.isWhole_whole _)
            (Memref.whole cc1_scratch2) (Memref.isWhole_whole _)
            (Memref.whole cc1_scratch3) (Memref.isWhole_whole _)
            (Memref.whole cc1_scratch4) (Memref.isWhole_whole _)
            (Memref.whole cc1_scratch5) (Memref.isWhole_whole _)
            (Memref.whole cc1_scratch6) (Memref.isWhole_whole _)
            (Memref.whole cc1_scratch7) (Memref.isWhole_whole _)
            (Memref.whole cc1_scratch8) (Memref.isWhole_whole _)
            (Memref.whole cc1_scratch9) (Memref.isWhole_whole _)
            (Memref.whole cc1_scratch10) (Memref.isWhole_whole _)
            cc1_scratch11 cc1_scratch12 cc1_scratch13 cc1_scoped0 cc1_scoped1 cc1_scoped2 cc1_scoped3 cc1_scoped4 cc1_scoped5 cc1_scoped6 cc1_scoped7)
          fun _ => iprop(tdP m d (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h : 16 * (L 0).val + (L 1).val < 31
  · exact tile_body_full m d L ((k1_cond1_iff L).mpr h) (fun e => absurd ((k1_cond2_iff L).mp e) (by omega)) hF O W hO hOlev
  · have h31 : 16 * (L 0).val + (L 1).val = 31 := by have := L0_lt L; have := L1_lt L; omega
    exact tile_body_tail m d L (fun e => absurd ((k1_cond1_iff L).mp e) (by omega)) ((k1_cond2_iff L).mpr h31) hF O W hO hOlev

end Tile

end Cert.Proof.KB

end
-- ==== Proof.Bits.TileObl.lean ====
import proofs.«203579_g3066606649474_cont_9to1_387_24_alg».proof.Proof.Bits.TileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          (Memref.whole main_v15_0_scv) (Memref.isWhole_whole _) (Memref.whole main_v15_1_scv) (Memref.isWhole_whole _) (Memref.whole main_arg4_scv) (Memref.isWhole_whole _) (Memref.whole main_v16_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _)
          cc1_scratch11 cc1_scratch12 cc1_scratch13 cc1_scoped0 cc1_scoped1 cc1_scoped2 cc1_scoped3 cc1_scoped4 cc1_scoped5 cc1_scoped6 cc1_scoped7) ⟨⟩ c s := rfl

set_option maxRecDepth 16384 in
theorem tileObl (hF : (K (F := F)).Facts) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change iprop(levAts (K (F := F)).L (K (F := F)).lev ∗ bkit m d ((K (F := F)).core 0 c) ((K (F := F)).sub 0 i) ∗ goP m d ((K (F := F)).core 0 c) i.val
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) (O + oxV d ((K (F := F)).core 0 c)) W)
      ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO hOlev

end Cert.Proof.KB

end
-- ==== Proof.Bits.Main.lean ====
import proofs.«203579_g3066606649474_cont_9to1_387_24_alg».proof.Proof.Bits.RegionsIface
import Idealize.ShloMosaic.Lib.Pipeline.Frame

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def tailProg (d : Dev nD) : Prog (TpuEff nD τ sig (Elt F) (SparseCore.Sig (ΛP (F := F)) 1) .tc) PUnit := do
  Prog.lift (.customCall (SparseCore.inner (Pipeline.entry 0)) ())
  (K (F := F)).run d 0
  Prog.lift (.customCall (SparseCore.inner (Pipeline.entry 1)) ())
  pure ⟨⟩

theorem main_eq (d : Dev nD) : main (F := F) d = (StableHlo.seq hostOps >>= fun _ => tailProg d) := rfl

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

theorem tcSt_lend {cfg : Pipeline.Cfg sig Λ₀} {d : Dev nD} (rd : Pipeline.RDat τ (Elt F) (HIx 1) ℕ UU ℕ cfg d) (n : ℕ)
    (ho : ∀ t, rd.owed t = (K (F := F)).Otc d n) (hr : ∀ t, rd.recorded t = recAt (F := F) d n) (t t' : Fin (cfg.N + 1)) :
    ((K (F := F)).tcSt EH d n : sProp 𝕄) ⊢ iprop(rd.owesAt none t ∗ (rd.owesAt none t' -∗ (K (F := F)).tcSt EH d n)) := by
  unfold SparseCore.Cfg.tcSt Pipeline.RDat.owesAt Pipeline.owesWithin Pipeline.RDat.bound; rw [ho, ho, hr, hr]
  iintro ⟨⟨%W, %hW, HO⟩, Hr⟩
  isplitl [HO]
  · iexists W; iframe; ipureintro; exact fun p hp => Or.inl (hW p (Finset.mem_coe.mp hp))
  iintro ⟨%W', %hW', HO⟩
  iframe Hr; iexists W'; iframe; ipureintro
  intro p hp
  rcases hW' (Finset.mem_coe.mpr hp) with h | ⟨w, s, rfl⟩
  · exact h
  · show (K (F := F)).lev _ none ≤ _
    rw [SparseCore.Cfg.lev_none]; exact Nat.zero_le _

theorem prefHeld_none (p : Fin 2) (d : Dev nD) (q) (pf) :
    (Pipeline.prefHeld (Ix := HIx 1) (Name := ℕ) (U := UU) (Lvl := ℕ) (Val := Elt F) (pcfgs (F := F) p).pre d q pf : sProp 𝕄) = BI.emp := by
  unfold Pipeline.prefHeld; rw [Finset.univ_eq_empty, BI.bigSep_empty]

theorem pts_whole {ℓ : Loc nD τ sig} {S : Finset (Idx ℓ)} {q : PosShare TreeShare} {f g : Buf (Elt F) ℓ} (hq : q = fullShare) (hS : S = Finset.univ) (hf : f = g) :
    (ℓ ↦[S]{q} f : sProp 𝕄) = (ℓ ↦{fullShare} g) := by rw [hq, hS, hf]

variable (m : (ℓ : Loc nD τ sig) → Buf (Elt F) ℓ) (ρ : Dev nD → PrngReg)
variable (epi : Vec F S3072 .f32 → Vec F S2x512 .f32)
variable (r0 : ∀ d, Reg0 m d) (r2 : ∀ pA d, Reg2 epi m pA d)

def argsAt (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_arg3 ↦{fullShare} m ((T d : Thread nD τ).loc main_arg3))
    ∗ ((T d : Thread nD τ).loc main_arg4 ↦{fullShare} m ((T d : Thread nD τ).loc main_arg4))
    ∗ ((T d : Thread nD τ).loc main_arg5 ↦{fullShare} m ((T d : Thread nD τ).loc main_arg5))
    ∗ ((T d : Thread nD τ).loc main_arg6 ↦{fullShare} m ((T d : Thread nD τ).loc main_arg6))
    ∗ ((T d : Thread nD τ).loc main_arg7 ↦{fullShare} m ((T d : Thread nD τ).loc main_arg7))
    ∗ ((T d : Thread nD τ).loc main_arg8 ↦{fullShare} m ((T d : Thread nD τ).loc main_arg8)))

def FIN (d : Dev nD) : sProp 𝕄 :=
  iprop(argsAt m d ∗ ∃ pA : Vec F S3072 .f32, ⌜∀ (c : Fin 2) (i : Fin 16) (a : Fin 3), OutOk m d c i a (outSlice pA c i a)⌝
    ∗ ((T d : Thread nD τ).loc main_v17 ↦{fullShare} epi pA))

abbrev adm : (p : Fin 2) → (pcfgs (F := F) p).Adm := fun p => (cfgs p).toPCfg_adm

def rdats (pA : Vec F S3072 .f32) : (p : Fin 2) → (d : Dev nD) → Pipeline.RDat τ (Elt F) (HIx 1) ℕ UU ℕ (Pipeline.pin (pcfgs (F := F)) adm p) d
  | ⟨0, _⟩ => fun d => (r0 d).rd
  | ⟨1, _⟩ => fun d => (r2 pA d).rd
  | ⟨_ + 2, h⟩ => absurd h (Nat.not_lt.2 (Nat.le_add_left _ _))

theorem rdats_zero (pA : Vec F S3072 .f32) (d : Dev nD) : rdats m epi r0 r2 pA 0 d = (r0 d).rd := rfl
theorem rdats_one (pA : Vec F S3072 .f32) (d : Dev nD) : rdats m epi r0 r2 pA 1 d = (r2 pA d).rd := rfl

def pre0 (d : Dev nD) : sProp 𝕄 :=
  iprop((K (F := F)).tcSt EH d 0 ∗ unscopedBufs d (TV1 m d))
def Z0 (d : Dev nD) : sProp 𝕄 :=
  iprop(((r0 d).rd.owesAt none (Fin.last _) -∗ (K (F := F)).tcSt EH d 0) ∗ Pipeline.unscopedRest cfg0.spec d (TV1 m d))

def post0 (d : Dev nD) : sProp 𝕄 :=
  iprop((K (F := F)).tcSt EH d 0
    ∗ (∃ lcA ldA : Vec F S100352 .f32, ⌜R0 m d lcA ldA⌝ ∗ (lcLoc d ↦{fullShare} lcA) ∗ (ldLoc d ↦{fullShare} ldA))
    ∗ Pipeline.unscopedRest cfg0.spec d (TV1 m d))

def pre2 (pA : Vec F S3072 .f32) (d : Dev nD) : sProp 𝕄 :=
  iprop((K (F := F)).tcSt EH d 1 ∗ (pLoc d ↦{fullShare} pA)
    ∗ ((T d : Thread nD τ).loc main_v17 ↦{fullShare} m ((T d : Thread nD τ).loc main_v17)) ∗ argsAt m d)
def Z2 (pA : Vec F S3072 .f32) (d : Dev nD) : sProp 𝕄 :=
  iprop(((r2 pA d).rd.owesAt none (Fin.last _) -∗ (K (F := F)).tcSt EH d 1) ∗ argsAt m d)

def post2 (pA : Vec F S3072 .f32) (d : Dev nD) : sProp 𝕄 :=
  iprop((K (F := F)).tcSt EH d 1 ∗ ((T d : Thread nD τ).loc main_v17 ↦{fullShare} epi pA) ∗ argsAt m d)

section Regions

variable {lv : GSem nD τ sig → HIx 1 → ℕ}

theorem hwaits (hlv : (K (F := F)).Refines lv) (pA : Vec F S3072 .f32) (p : Fin 2) (n : ℕ) (d : Dev nD)
    (ho : ∀ t, (rdats m epi r0 r2 pA p d).owed t = (K (F := F)).Otc d n) :
    (levAts (K (F := F)).L lv : sProp 𝕄) ⊢ Pipeline.RDat.cellsWaits (Pipeline.pin (pcfgs (F := F)) adm) (rdats m epi r0 r2 pA) none p d :=
  Pipeline.RDat.cellsWaits_intro (Pipeline.pin (pcfgs (F := F)) adm) (rdats m epi r0 r2 pA) none p d fun w s t => by
    rw [ho t]
    exact (K (F := F)).mayWait_none _ (Otc_none d n) lv hlv

def seg0 (hlv : (K (F := F)).Refines lv) (pA : Vec F S3072 .f32) :
    Pipeline.RDat.RegionSeg (pcfgs (F := F)) adm (rdats m epi r0 r2 pA) none defs₀ 𝒱₀ (K (F := F)).L lv 0 where
  win := Gen.winFacts0.to₀
  block_pos := Gen.block_pos0
  stage_whole := Gen.stage_whole0
  K := PEmpty
  osem k := k.elim
  ho := Pipeline.OwnSemFacts.none _
  hbody c := (r0 c).hbody
  hwaits c := hwaits m epi r0 r2 hlv pA 0 0 c (r0 c).howed
  pre := pre0 m
  post := post0 m
  X _ := iprop(emp)
  Y _ := iprop(emp)
  Z := Z0 m r0
  hentry c := by
    have harr := Pipeline.RDat.arrays_of_unscopedBufs (pcfgs (F := F)) adm (rdats m epi r0 r2 pA) (p := 0) Gen.winFacts0 Gen.arr_whole0 c
      (r0 c).hshare (TV1 m c) (r0 c).hA
    rw [rdats_zero] at harr
    rw [prefHeld_none, rdats_zero]
    unfold pre0 Z0
    iintro ⟨⟨Hst, Hb⟩, -, -⟩
    imodintro
    ihave ⟨Ha, Hur⟩ := harr $$ Hb
    ihave ⟨HO, Hst⟩ := (tcSt_lend (r0 c).rd 0 (r0 c).howed (r0 c).hrec 0 (Fin.last _)) $$ Hst
    iframe; iempintro
  hin c := by
    rw [rdats_zero]
    iintro ⟨-, -, H⟩; iapply (r0 c).hin $$ H
  hout c := by
    rw [Pipeline.ownSems0_none, rdats_zero]
    iintro H
    ihave H := (r0 c).hout $$ H
    iframe; iempintro
  hexit c := by
    rw [rdats_zero]
    unfold Pipeline.RDat.arraysAt Z0
    rw [Gen.bigSep_W0]
    iintro ⟨⟨-, -, -, -, -, -, -, -, ⟨%lcA, %h8, H8⟩, ⟨%ldA, %h9, H9⟩⟩, HO, -, ⟨Hst, Hur⟩⟩
    imodintro
    unfold post0
    ihave Hst := Hst $$ HO
    iframe Hst Hur
    iexists lcA, ldA
    isplitr; · ipureintro; exact (r0 c).hval lcA ldA h8 h9
    isplitl [H8]
    · iapply (Entails.of_eq (pts_whole ((r0 c).hshare 8) (Gen.arr_whole0 8).set_eq_univ rfl)); iexact H8
    · iapply (Entails.of_eq (pts_whole ((r0 c).hshare 9) (Gen.arr_whole0 9).set_eq_univ rfl)); iexact H9

def seg2 (hlv : (K (F := F)).Refines lv) (pA : Vec F S3072 .f32) :
    Pipeline.RDat.RegionSeg (pcfgs (F := F)) adm (rdats m epi r0 r2 pA) none defs₀ 𝒱₀ (K (F := F)).L lv 1 where
  win := Gen.winFacts2.to₀
  block_pos := Gen.block_pos2
  stage_whole := Gen.stage_whole2
  K := PEmpty
  osem k := k.elim
  ho := Pipeline.OwnSemFacts.none _
  hbody c := (r2 pA c).hbody
  hwaits c := hwaits m epi r0 r2 hlv pA 1 1 c (r2 pA c).howed
  pre := pre2 m pA
  post := post2 m epi pA
  X _ := iprop(emp)
  Y _ := iprop(emp)
  Z := Z2 m epi r2 pA
  hentry c := by
    rw [prefHeld_none, rdats_one]
    unfold pre2 Z2 Pipeline.RDat.arrays; rw [Gen.bigSep_W2]
    iintro ⟨⟨Hst, Hp, Hv, Hargs⟩, -, -⟩
    imodintro
    isplitl [Hp Hv]
    · isplitl [Hp]
      · iapply (Entails.of_eq (pts_whole ((r2 pA c).hshare 0) (Gen.arr_whole2 0).set_eq_univ (r2 pA c).hA0).symm); iexact Hp
      · iapply (Entails.of_eq (pts_whole ((r2 pA c).hshare 1) (Gen.arr_whole2 1).set_eq_univ (r2 pA c).hA1).symm); iexact Hv
    ihave ⟨HO, Hst⟩ := (tcSt_lend (r2 pA c).rd 1 (r2 pA c).howed (r2 pA c).hrec 0 (Fin.last _)) $$ Hst
    iframe; iempintro
  hin c := by
    rw [rdats_one]
    iintro ⟨-, -, H⟩; iapply (r2 pA c).hin $$ H
  hout c := by
    rw [Pipeline.ownSems0_none, rdats_one]
    iintro H
    ihave H := (r2 pA c).hout $$ H
    iframe; iempintro
  hexit c := by
    rw [rdats_one]
    unfold Pipeline.RDat.arraysAt Z2
    rw [Gen.bigSep_W2]
    iintro ⟨⟨-, ⟨%o, %h1, H1⟩⟩, HO, -, ⟨Hst, Hargs⟩⟩
    imodintro
    unfold post2
    ihave Hst := Hst $$ HO
    iframe Hst Hargs
    iapply (Entails.of_eq (pts_whole ((r2 pA c).hshare 1) (Gen.arr_whole2 1).set_eq_univ ((r2 pA c).hval o h1))); iexact H1

end Regions

section Run

variable {lv : GSem nD τ sig → HIx 1 → ℕ}

theorem wp_region {p : Fin 2} (rds : (p : Fin 2) → (d : Dev nD) → Pipeline.RDat τ (Elt F) (HIx 1) ℕ UU ℕ (Pipeline.pin (pcfgs (F := F)) adm p) d)
    (R : Pipeline.RDat.RegionSeg (pcfgs (F := F)) adm rds none defs₀ 𝒱₀ (K (F := F)).L lv p) {pre post : Dev nD → sProp 𝕄} (hpre : R.pre = pre) (hpost : R.post = post) (d : Dev nD)
    (k : Prog (TpuEff nD τ sig (Elt F) (SparseCore.Sig (ΛP (F := F)) 1) .tc) PUnit) (Q : PUnit → sProp 𝕄) :
    iprop((iprop(boundary (T d : Thread nD τ) ∗ post d) -∗ wp frame (wpE ((K (F := F)).defs (D (F := F))) 𝒱 (T d) none) Set.univ k Q)
        ∗ boundary (T d : Thread nD τ) ∗ pre d ∗ levAts (K (F := F)).L lv
        ∗ Pipeline.cellsGhost (nD := nD) (τ := τ) cfgs (ER (F := F)) p d ∗ Pipeline.toksInit (nD := nD) (τ := τ) cfgs (ER (F := F)) p d)
      ⊢ wp frame (wpE ((K (F := F)).defs (D (F := F))) 𝒱 (T d) none) Set.univ
          (Prog.lift (.customCall (SparseCore.inner (Pipeline.entry p)) ()) >>= fun _ => k) Q := by
  subst hpre hpost
  rw [wp_bind]
  have h1 := R.wp (pcfgs (F := F)) adm rds none Gen.cellOf_inj (ER (F := F)) defs₀ 𝒱₀ (K (F := F)).L lv d none (fun u h => nomatch h)
    (fun _ => (.ret ⟨⟩ : Prog (TpuEff nD τ sig (Elt F) (ΛP (F := F)) .tc) PUnit))
    (fun _ => wp frame (wpE ((K (F := F)).defs (D (F := F))) 𝒱 (T d) none) Set.univ k Q)
  have h2 := (K (F := F)).wp_liftProg (D (F := F)) 𝒱 (T d) Set.univ none
    (.op (.customCall (Pipeline.entry p) ()) fun _ => (.ret ⟨⟩ : Prog (TpuEff nD τ sig (Elt F) (ΛP (F := F)) .tc) PUnit))
    (fun _ => wp frame (wpE ((K (F := F)).defs (D (F := F))) 𝒱 (T d) none) Set.univ k Q)
  refine BIBase.Entails.trans ?_ (h1.trans h2)
  iintro ⟨Hk, Hrest⟩
  iframe Hrest
  iintro H; rw [wp_ret]; imodintro; iapply Hk $$ H

end Run

def writtenRefs : List (Ref sig .tc) :=
  [main_v0, main_v1, main_cst, main_v2, main_v3, main_v4, main_v5, main_v6, main_v7, main_v8, main_v9, main_v10, main_v11, main_v12, main_v13, main_v14]

theorem hostOps_writes : (hostOps (F := F)).Forall fun op => op.writes ⊆ (writtenRefs.map (Proc.devRef (τ := τ) .tc)).toFinset := by
  simp only [hostOps, List.Forall]
  and_intros <;> exact Finset.singleton_subset_iff.mpr (by decide)

theorem TV1_of_not_written (d : Dev nD) {b : Ref sig .tc} (hb : b ∉ writtenRefs) : TV1 m d b = m ((T d : Thread nD τ).loc b) :=
  StableHlo.after_of_writes_sub hostOps (V0 m d) hostOps_writes hb

theorem hostOps_sub : ∀ op ∈ (hostOps (F := F)), op.bufs ⊆ Pipeline.ucRefs τ sig :=
  List.forall_iff_forall_mem.mp (by
    simp only [hostOps, List.Forall]
    and_intros <;> exact Pipeline.sub_ucRefs _ (by
      first
        | exact StableHlo.reshape_bufs_sub ..
        | exact StableHlo.unary_bufs_sub ..
        | exact StableHlo.binary_bufs_sub ..
        | exact StableHlo.nullary_bufs_sub ..))

theorem hostOps_fresh : ∀ op ∈ (hostOps (F := F)), op.fresh = ∅ :=
  List.forall_iff_forall_mem.mp (by
    simp only [hostOps, List.Forall]
    and_intros <;> rfl)

-- the two halves of the index range are complementary
theorem coreSet_compl : Finset.univ \ coreSet 0 = coreSet 1 := by
  ext j
  have hj : (j 0).val < 100352 := (j 0).isLt
  simp only [coreSet, Finset.mem_sdiff, Finset.mem_filter, Finset.mem_univ, true_and]
  omega

theorem idsCoreSet_compl : Finset.univ \ idsCoreSet 0 = idsCoreSet 1 := by
  ext j
  have hj : (j 0).val < 100000 := (j 0).isLt
  simp only [idsCoreSet, Finset.mem_sdiff, Finset.mem_filter, Finset.mem_univ, true_and]
  omega

theorem outCoreSet_compl : Finset.univ \ outCoreSet 0 = outCoreSet 1 := by
  ext j
  have hj : (j 0).val < 3072 := (j 0).isLt
  simp only [outCoreSet, Finset.mem_sdiff, Finset.mem_filter, Finset.mem_univ, true_and]
  omega

theorem bigSep_two (Φ : Fin 2 → sProp 𝕄) : bigSep Finset.univ Φ = iprop(Φ 0 ∗ Φ 1) := BI.bigSep_fin_two Φ

-- a whole buffer is a part and its complement
theorem split2 {ℓ : Loc nD τ sig} {A B : Finset (Idx ℓ)} (h : Finset.univ \ A = B) (q : PosShare TreeShare) (f : Buf (Elt F) ℓ) :
    (ℓ ↦{q} f : sProp 𝕄) ⊣⊢ iprop((ℓ ↦[A]{q} f) ∗ ℓ ↦[B]{q} f) := by
  rw [← h]; exact pointsTo_split_subset (Finset.subset_univ A)

-- the piecewise function agrees with f on A and with g on the complement of A
theorem join2 {ℓ : Loc nD τ sig} {A B : Finset (Idx ℓ)} (h : Finset.univ \ A = B) (q : PosShare TreeShare) (f g : Buf (Elt F) ℓ) :
    iprop((ℓ ↦[A]{q} f) ∗ ℓ ↦[B]{q} g) ⊢ (iprop(∃ u : Buf (Elt F) ℓ, ⌜(∀ j ∈ A, u j = f j) ∧ (∀ j ∈ B, u j = g j)⌝ ∗ ℓ ↦{q} u) : sProp 𝕄) := by
  classical
  subst h
  iintro H
  iexists (A.piecewise f g)
  isplitr
  · ipureintro
    exact ⟨fun j hj => Finset.piecewise_eq_of_mem _ _ _ hj, fun j hj => Finset.piecewise_eq_of_notMem _ _ _ (Finset.mem_sdiff.mp hj).2⟩
  · iapply (pointsTo_join_subset (Finset.subset_univ A)) $$ H

theorem st_intro (d : Dev nD) (hids : IdsOk m d) :
    iprop((∃ lcA ldA : Vec F S100352 .f32, ⌜R0 m d lcA ldA⌝ ∗ (lcLoc d ↦{fullShare} lcA) ∗ (ldLoc d ↦{fullShare} ldA))
        ∗ (idsLoc d ↦{fullShare} m (idsLoc d)) ∗ ∃ f, (pLoc d ↦{fullShare} f))
      ⊢ (bigSep Finset.univ fun c : Fin ((K (F := F)).nCore 0) => (P m).st 0 d c : sProp 𝕄) := by
  refine BIBase.Entails.trans ?_ (Entails.of_eq (bigSep_two (fun c : Fin 2 => stP m d c.val)).symm)
  unfold stP
  beta_reduce
  simp only [Fin.val_zero, Fin.val_one]
  iintro ⟨⟨%lcA, %ldA, %hR, Hlc, Hld⟩, Hids, ⟨%f, Hp⟩⟩
  ihave ⟨Hlc0, Hlc1⟩ := (split2 (ℓ := lcLoc d) coreSet_compl fullShare lcA).1 $$ Hlc
  ihave ⟨Hld0, Hld1⟩ := (split2 (ℓ := ldLoc d) coreSet_compl fullShare ldA).1 $$ Hld
  ihave ⟨Hi0, Hi1⟩ := (split2 (ℓ := idsLoc d) idsCoreSet_compl fullShare (m (idsLoc d))).1 $$ Hids
  ihave ⟨Hp0, Hp1⟩ := (split2 (ℓ := pLoc d) outCoreSet_compl fullShare f).1 $$ Hp
  isplitl [Hlc0 Hld0 Hi0 Hp0]
  · iframe Hi0 %hids
    isplitr [Hp0]
    · iexists lcA, ldA; iframe %hR ∗
    iexists f; iexact Hp0
  · iframe Hi1 %hids
    isplitr [Hp1]
    · iexists lcA, ldA; iframe %hR ∗
    iexists f; iexact Hp1

-- rows c of the partial array lie inside half c of its index range
theorem outSlice_congr_core (pA pB : Vec F S3072 .f32) (c : Fin 2) (h : ∀ j ∈ outCoreSet c.val, pA j = pB j) (i : Fin 16) (a : Fin 3) :
    outSlice pA c i a = outSlice pB c i a := by
  funext r
  unfold outSlice
  refine h _ ?_
  have := c.isLt; have := i.isLt; have := a.isLt; have hr : (r 0).val < 32 := (r 0).isLt
  simp only [outCoreSet, Finset.mem_filter, Finset.mem_univ, true_and]
  show c.val * 1536 ≤ c.val * 1536 + a.val * 512 + i.val * 32 + (r 0).val ∧ c.val * 1536 + a.val * 512 + i.val * 32 + (r 0).val < (c.val + 1) * 1536
  omega

theorem dn_elim (d : Dev nD) :
    (bigSep Finset.univ fun c : Fin ((K (F := F)).nCore 0) => (P m).dn 0 d c : sProp 𝕄)
      ⊢ iprop((idsLoc d ↦{fullShare} m (idsLoc d))
          ∗ ∃ pA : Vec F S3072 .f32, ⌜∀ (c : Fin 2) (i : Fin 16) (a : Fin 3), OutOk m d c i a (outSlice pA c i a)⌝ ∗ (pLoc d ↦{fullShare} pA)) := by
  refine BIBase.Entails.trans (Entails.of_eq (bigSep_two (fun c : Fin 2 => dnP m d c))) ?_
  unfold dnP
  beta_reduce
  simp only [Fin.val_zero, Fin.val_one]
  iintro ⟨⟨-, -, Hi0, ⟨%pA0, %h0, Hp0⟩⟩, ⟨-, -, Hi1, ⟨%pA1, %h1, Hp1⟩⟩⟩
  isplitl [Hi0 Hi1]
  · iapply (split2 (ℓ := idsLoc d) idsCoreSet_compl fullShare (m (idsLoc d))).2
    iframe
  ihave ⟨%pA, %hpA, Hp⟩ := (join2 (ℓ := pLoc d) outCoreSet_compl fullShare pA0 pA1) $$ [Hp0 Hp1]
  · iframe
  iexists pA
  iframe
  ipureintro
  refine Fin.forall_fin_two.mpr ⟨fun i a => ?_, fun i a => ?_⟩
  · rw [outSlice_congr_core pA pA0 0 hpA.1]; exact h0 i a
  · rw [outSlice_congr_core pA pA1 1 hpA.2]; exact h1 i a

theorem rest0_elim (d : Dev nD) :
    (Pipeline.unscopedRest (Ix := HIx 1) (Name := ℕ) (U := UU) (Lvl := ℕ) cfg0.spec d (TV1 m d) : sProp 𝕄)
      ⊢ iprop(argsAt m d ∗ (pLoc d ↦{fullShare} m (pLoc d)) ∗ ((T d : Thread nD τ).loc main_v17 ↦{fullShare} m ((T d : Thread nD τ).loc main_v17))) := by
  rw [Gen.unscopedRest0_eq d (TV1 m d)]
  simp (disch := decide) only [TV1_of_not_written m d]
  unfold argsAt
  iintro ⟨H0, H1, H2, H3, H4, H5, H6, H7, H8, -, -, -, -, -, -, -, -, H16, H17⟩
  iframe

section Main

variable {lv : GSem nD τ sig → HIx 1 → ℕ}

include r0 r2 in
set_option backward.isDefEq.respectTransparency.types false in
theorem hmain (hlv : (K (F := F)).Refines lv) (hids : ∀ d, IdsOk m d) (κ : GSem nD τ sig → ℕ) (d : Dev nD) :
    iprop((K (F := F)).ctx EH (P m) κ lv ∗ (K (F := F)).tcSt EH d 0 ∗ (K (F := F)).tcRes m ρ d ∗ Gd (F := F) d)
      ⊢ wp frame (wpE ((K (F := F)).defs (D (F := F))) 𝒱 (T d) none) Set.univ (main (F := F) d)
          fun _ => iprop((K (F := F)).tcSt EH d 1 ∗ FIN m epi d) := by
  rw [main_eq d]
  unfold Gd SparseCore.Cfg.tcRes
  rw [bigSep_two, bigSep_two, show (unscopedBufs d (fun b => m ((T d : Thread nD τ).loc b)) : sProp 𝕄) = StableHlo.held (T d : Thread nD τ) (Pipeline.ucRefs τ sig) (V0 m d)
    from Pipeline.unscopedBufs_held d (V0 m d)]
  iintro ⟨#Hctx, Hst, ⟨Hbd, Hh, -, -⟩, ⟨Hg0, Hg1⟩, ⟨Ht0, Ht1⟩⟩
  iapply (StableHlo.wp_seq (defs := (K (F := F)).defs (D (F := F))) 𝒱 none Set.univ d (Pipeline.ucRefs τ sig) (fun _ => tailProg (F := F) d)
    hostOps hostOps_sub hostOps_fresh (V0 m d)) $$ [Hbd Hh]
  · iframe
  iintro ⟨Hbd, Hh⟩
  have hb : (StableHlo.held (T d : Thread nD τ) (Pipeline.ucRefs τ sig) (StableHlo.after hostOps (V0 m d)) : sProp 𝕄) = unscopedBufs d (TV1 m d) :=
    (Pipeline.unscopedBufs_held (Ix := HIx 1) (Name := ℕ) (U := UU) (Lvl := ℕ) d (V1 m d)).symm
  ihave Hb := (Entails.of_eq hb) $$ Hh
  ihave Hlev := (SparseCore.Cfg.ctx_levAts κ) $$ Hctx
  iapply (wp_region (rdats m epi r0 r2 (fun _ => FloatOps.ofBits .f32 0)) (seg0 m epi r0 r2 hlv (fun _ => FloatOps.ofBits .f32 0)) (pre := pre0 m) (post := post0 m) rfl rfl d)
  unfold pre0 post0
  iframe Hbd Hst Hb Hlev Hg0 Ht0
  iintro ⟨Hbd, Hst, Hlcld, Hur⟩
  ihave ⟨Hargs, Hp, Hv⟩ := (rest0_elim m d) $$ Hur
  unfold argsAt
  icases Hargs with ⟨H0, H1, H2, H3, H4, H5, H6, H7, H8⟩
  rw [wp_bind]
  iapply ((K (F := F)).wp_run (D (F := F)) 𝒱 (EH := EH) (P := P m) κ d 0 (lv := lv) (hlv := hlv))
  iframe Hctx
  isplitl [Hst]; · iexact Hst
  isplitl [Hlcld H4 Hp]
  · iapply (st_intro m d (hids d))
    iframe Hlcld H4
    iexists _; iexact Hp
  iintro ⟨Hst, Hdn⟩
  ihave ⟨H4, ⟨%pA, %hpA, Hp⟩⟩ := (dn_elim m d) $$ Hdn
  ihave Hargs : argsAt m d $$ [H0 H1 H2 H3 H4 H5 H6 H7 H8]
  · unfold argsAt; iframe
  ihave Hlev := (SparseCore.Cfg.ctx_levAts κ) $$ Hctx
  iapply (wp_region (rdats m epi r0 r2 pA) (seg2 m epi r0 r2 hlv pA) (pre := pre2 m pA) (post := post2 m epi pA) rfl rfl d)
  unfold pre2
  iframe Hbd Hp Hv Hargs Hlev Hg1 Ht1
  isplitr [Hst]
  · unfold post2 FIN
    iintro ⟨-, Hst, Hv, Hargs⟩
    rw [wp_pure]; imodintro
    iframe; iexists pA; iframe %hpA ∗
  iexact Hst

end Main

def fq (d : Dev nD) (s' : Phys nD τ sig (Elt F)) : Prop :=
  s'.mem.mem ((T d : Thread nD τ).loc main_arg0) = m ((T d : Thread nD τ).loc main_arg0)
  ∧ s'.mem.mem ((T d : Thread nD τ).loc main_arg1) = m ((T d : Thread nD τ).loc main_arg1)
  ∧ s'.mem.mem ((T d : Thread nD τ).loc main_arg2) = m ((T d : Thread nD τ).loc main_arg2)
  ∧ s'.mem.mem ((T d : Thread nD τ).loc main_arg3) = m ((T d : Thread nD τ).loc main_arg3)
  ∧ s'.mem.mem ((T d : Thread nD τ).loc main_arg4) = m ((T d : Thread nD τ).loc main_arg4)
  ∧ s'.mem.mem ((T d : Thread nD τ).loc main_arg5) = m ((T d : Thread nD τ).loc main_arg5)
  ∧ s'.mem.mem ((T d : Thread nD τ).loc main_arg6) = m ((T d : Thread nD τ).loc main_arg6)
  ∧ s'.mem.mem ((T d : Thread nD τ).loc main_arg7) = m ((T d : Thread nD τ).loc main_arg7)
  ∧ s'.mem.mem ((T d : Thread nD τ).loc main_arg8) = m ((T d : Thread nD τ).loc main_arg8)
  ∧ ∃ pA : Vec F S3072 .f32, (∀ (c : Fin 2) (i : Fin 16) (a : Fin 3), OutOk m d c i a (outSlice pA c i a))
      ∧ s'.mem.mem ((T d : Thread nD τ).loc main_v17) = epi pA

-- functions that agree at every index are equal
theorem ext_univ {α β} [Fintype α] {f g : α → β} (h : ∀ i ∈ Finset.univ, f i = g i) : f = g := funext fun i => h i (Finset.mem_univ i)

theorem hfin (d : Dev nD) (s' : Phys nD τ sig (Elt F)) : iprop(FIN m epi d ∗ SI s') ⊢ (⌜fq m epi d s'⌝ : sProp 𝕄) := by
  unfold FIN argsAt
  iintro ⟨⟨⟨H0, H1, H2, H3, H4, H5, H6, H7, H8⟩, ⟨%pA, %hpA, Hv⟩⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI Hv gives %hv
  ipureintro
  exact ⟨ext_univ h0, ext_univ h1, ext_univ h2, ext_univ h3, ext_univ h4, ext_univ h5, ext_univ h6, ext_univ h7, ext_univ h8, pA, hpA, ext_univ hv⟩

end Cert.Proof.KB

end
-- ==== Proof.Bits.PreIds.lean ====
import proofs.«203579_g3066606649474_cont_9to1_387_24_alg».proof.Proof.Bits.Vals
import proofs.«203579_g3066606649474_cont_9to1_387_24_alg».proof.Pre_input_domain
import Idealize.ShloMosaic.Lib.ReduceAll
import Idealize.ShloMosaic.Lib.ValueIdx

noncomputable section

namespace Cert.Proof.KB

open Cert.Kernel Cert.Kernel.Gen
open Idealize.ShloMosaic Idealize.SL.Sem Idealize.ShloMosaic.ValueIdx

variable {F : FTy → Type} [FloatOps F]

instance subsingleton_scalar_idx : Subsingleton Cert.Pre_input_domain.S_.Idx := ⟨fun a b => funext fun d => d.elim0⟩

theorem toNat_le_of_range (w : BitVec 32) (h1 : IntOp.cmpi .sge w 0#32 = 1#1) (h2 : IntOp.cmpi .sle w 511#32 = 1#1) :
    w.toNat ≤ 511 := by
  have hw : w.toNat < 4294967296 := w.isLt
  have e1 : 0 ≤ w.toInt := by
    by_contra hn
    simp [IntOp.cmpi, BitVec.sle, hn] at h1
  have e2 : w.toInt ≤ 511 := by
    by_contra hn
    simp [IntOp.cmpi, BitVec.sle, hn] at h2
  rw [BitVec.toInt_eq_toNat_cond] at e1 e2
  split at e1 <;> omega

theorem idsOk_of_pre [hP : Cert.Pre_input_domain.Facts] (m : (ℓ : Loc nD τ sig) → Buf (Elt F) ℓ) (d : Dev nD)
    (hpre : Cert.Pre_input_domain.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) (m ((d.tc : Thread nD τ).loc main_arg7))
      (m ((d.tc : Thread nD τ).loc main_arg8)) = fun _ => 1#1) : IdsOk m d := by
  intro j
  have h0 := congrFun hpre ix0
  dsimp only [Cert.Pre_input_domain.fn, Cert.Pre_input_domain.fn_part1, Cert.Pre_input_domain.fn_part2] at h0
  simp only [Idealize.ShloMosaic.andi, IntOp.andi_eq_one] at h0
  obtain ⟨⟨⟨_, h_ids⟩, _⟩, _⟩ := h0
  have h := Host.reduce_andi_all _ _ _ _ _ h_ids j
  obtain ⟨h1, h2⟩ := IntOp.andi_eq_one.1 h
  exact toNat_le_of_range _ h1 h2

end Cert.Proof.KB

end
-- ==== Proof.Bits.Run.lean ====
import proofs.«203579_g3066606649474_cont_9to1_387_24_alg».proof.Proof.Bits.Setup
import proofs.«203579_g3066606649474_cont_9to1_387_24_alg».proof.Proof.Bits.VecSplit
import proofs.«203579_g3066606649474_cont_9to1_387_24_alg».proof.Proof.Bits.LaunchElem
import proofs.«203579_g3066606649474_cont_9to1_387_24_alg».proof.Proof.Bits.TileObl
import proofs.«203579_g3066606649474_cont_9to1_387_24_alg».proof.Proof.Bits.Main
import proofs.«203579_g3066606649474_cont_9to1_387_24_alg».proof.Proof.Bits.PreIds
import Idealize.ShloMosaic.Lib.SparseCore.Launch

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (epi : Vec F S3072 .f32 → Vec F S2x512 .f32)

def QC : PUnit × MemSt nD τ sig (Elt F) → Prop := fun r => ∀ d : Dev nD,
  r.2.mem ((T d : Thread nD τ).loc main_arg0) = m ((T d : Thread nD τ).loc main_arg0)
  ∧ r.2.mem ((T d : Thread nD τ).loc main_arg1) = m ((T d : Thread nD τ).loc main_arg1)
  ∧ r.2.mem ((T d : Thread nD τ).loc main_arg2) = m ((T d : Thread nD τ).loc main_arg2)
  ∧ r.2.mem ((T d : Thread nD τ).loc main_arg3) = m ((T d : Thread nD τ).loc main_arg3)
  ∧ r.2.mem ((T d : Thread nD τ).loc main_arg4) = m ((T d : Thread nD τ).loc main_arg4)
  ∧ r.2.mem ((T d : Thread nD τ).loc main_arg5) = m ((T d : Thread nD τ).loc main_arg5)
  ∧ r.2.mem ((T d : Thread nD τ).loc main_arg6) = m ((T d : Thread nD τ).loc main_arg6)
  ∧ r.2.mem ((T d : Thread nD τ).loc main_arg7) = m ((T d : Thread nD τ).loc main_arg7)
  ∧ r.2.mem ((T d : Thread nD τ).loc main_arg8) = m ((T d : Thread nD τ).loc main_arg8)
  ∧ ∃ pA : Vec F S3072 .f32, (∀ (c : Fin 2) (i : Fin 16) (a : Fin 3), OutOk m d c i a (outSlice pA c i a))
      ∧ r.2.mem ((T d : Thread nD τ).loc main_v17) = epi pA

theorem run_main (r0 : ∀ d, Reg0 m d) (r2 : ∀ pA d, Reg2 epi m pA d) (hids : ∀ d, IdsOk m d) :
    θ_run (Cert.Kernel.defs (F := F)) (Cert.Kernel.threads (F := F)) ⟨m, fun _ => 0, ρ⟩ (QC m epi) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => vecSplit m)
    m ρ main (fun d => Gd (F := F) d) (FIN m epi) (u₀ (F := F)) (hu₀ m)
    (hmain m ρ epi r0 r2 ((K (F := F)).refines_self) hids) (fq m epi) (hfin m epi) (QC m epi) (fun _ h => h)

theorem run_main_pre [hP : Cert.Pre_input_domain.Facts] (r0 : ∀ d, Reg0 m d) (r2 : ∀ pA d, Reg2 epi m pA d)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    θ_run (Cert.Kernel.defs (F := F)) (Cert.Kernel.threads (F := F)) ⟨m, fun _ => 0, ρ⟩ (QC m epi) :=
  run_main m ρ epi r0 r2 fun d => idsOk_of_pre m d (hpre d)

end Cert.Proof.KB

end
-- ==== Proof.Bits.HostVals.lean ====
import proofs.«203579_g3066606649474_cont_9to1_387_24_alg».proof.Proof.Bits.RegionsIface
import Idealize.ShloMosaic.Lib.StableHlo.Run

noncomputable section

namespace Cert.Proof.KB

open Cert.Kernel Cert.Kernel.Gen

open Idealize.ShloMosaic Idealize.ShloMosaic.TcCoe
open Idealize.ShloMosaic.SparseCore (S V T)
open Idealize.ShloMosaic.StableHlo
open Idealize.SL Idealize.SL.Sem

variable {F : FTy → Type} [FloatOps F] (m : (ℓ : Loc nD τ sig) → Buf (Elt F) ℓ) (d : Dev nD)

theorem tv1_v3 : TV1 m d main_v3 = hA m d := by
  show StableHlo.after hostOps (V0 m d) (Proc.devRef .tc main_v3) = _
  unfold hostOps
  after_results
  rfl

theorem tv1_v5 : TV1 m d main_v5 = hC1 m d := by
  show StableHlo.after hostOps (V0 m d) (Proc.devRef .tc main_v5) = _
  unfold hostOps
  after_results
  rfl

theorem tv1_v9 : TV1 m d main_v9 = hC2 m d := by
  show StableHlo.after hostOps (V0 m d) (Proc.devRef .tc main_v9) = _
  unfold hostOps
  after_results
  rfl

theorem tv1_v10 : TV1 m d main_v10 = hT m d := by
  show StableHlo.after hostOps (V0 m d) (Proc.devRef .tc main_v10) = _
  unfold hostOps
  after_results
  rfl

theorem tv1_v11 : TV1 m d main_v11 = hXp m d := by
  show StableHlo.after hostOps (V0 m d) (Proc.devRef .tc main_v11) = _
  unfold hostOps
  after_results
  rfl

theorem tv1_v12 : TV1 m d main_v12 = hX m d := by
  show StableHlo.after hostOps (V0 m d) (Proc.devRef .tc main_v12) = _
  unfold hostOps
  after_results
  rfl

theorem tv1_v13 : TV1 m d main_v13 = hOh m d := by
  show StableHlo.after hostOps (V0 m d) (Proc.devRef .tc main_v13) = _
  unfold hostOps
  after_results
  rfl

theorem tv1_v14 : TV1 m d main_v14 = hP0 m d := by
  show StableHlo.after hostOps (V0 m d) (Proc.devRef .tc main_v14) = _
  unfold hostOps
  after_results
  rfl

end Cert.Proof.KB

end
-- ==== Proof.Bits.Region0Data.lean ====
import proofs.«203579_g3066606649474_cont_9to1_387_24_alg».proof.Proof.Bits.R0
import proofs.«203579_g3066606649474_cont_9to1_387_24_alg».proof.Proof.Gen.Kernel.Launch
import proofs.«203579_g3066606649474_cont_9to1_387_24_alg».proof.Proof.Gen.Kernel.Points
import Idealize.ShloMosaic.Lib.Pipeline.Kit
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]

section Body
variable {Ix : Type} [DecidableEq Ix] {Name : Type} [DecidableEq Name] {U : Type} [URA U] {Lvl : Type} [Preorder Lvl]

local notation "𝕄" => MT nD τ sig Ix (Elt F) Name U Lvl

abbrev i00 : S1x1.Idx := fun a => ⟨0, by fin_cases a <;> exact Nat.one_pos⟩

theorem i00_eq : i00 = ix2 (0 : Fin 1) (0 : Fin 1) := funext fun a => by fin_cases a <;> rfl

set_option maxHeartbeats 2000000 in
theorem sound_body0 (c : Dev nD) (E : Set Name) (i : grid0.Coords) (s : Fin 2)
    (Y0 Y1 Y2 : S1x1.Idx → Elt F .f32) (Y3 : S1x14336.Idx → Elt F .f32) (Y4 Y5 : S3x14336.Idx → Elt F .f32)
    (Y6 Y7 : S16x14336.Idx → Elt F .f32) (Y8 Y9 : S14336.Idx → Elt F .f32)
    (h0 : (stage0_0 0).IsWhole) (h1 : (stage0_1 0).IsWhole) (h2 : (stage0_2 0).IsWhole) (h3 : (stage0_3 s).IsWhole)
    (h4 : (stage0_4 s).IsWhole) (h5 : (stage0_5 s).IsWhole) (h6 : (stage0_6 s).IsWhole) (h7 : (stage0_7 s).IsWhole)
    (h8 : (stage0_8 s).IsWhole) (h9 : (stage0_9 s).IsWhole) (K : PUnit → sProp 𝕄) :
    iprop((owns (c : Thread nD τ) (stage0_0 0) fullShare Y0 ∗ owns (c : Thread nD τ) (stage0_1 0) fullShare Y1
            ∗ owns (c : Thread nD τ) (stage0_2 0) fullShare Y2 ∗ owns (c : Thread nD τ) (stage0_3 s) fullShare Y3
            ∗ owns (c : Thread nD τ) (stage0_4 s) fullShare Y4 ∗ owns (c : Thread nD τ) (stage0_5 s) fullShare Y5
            ∗ owns (c : Thread nD τ) (stage0_6 s) fullShare Y6 ∗ owns (c : Thread nD τ) (stage0_7 s) fullShare Y7
            ∗ owns (c : Thread nD τ) (stage0_8 s) fullShare Y8 ∗ owns (c : Thread nD τ) (stage0_9 s) fullShare Y9)
          ∗ (iprop(owns (c : Thread nD τ) (stage0_0 0) fullShare Y0 ∗ owns (c : Thread nD τ) (stage0_1 0) fullShare Y1
            ∗ owns (c : Thread nD τ) (stage0_2 0) fullShare Y2 ∗ owns (c : Thread nD τ) (stage0_3 s) fullShare Y3
            ∗ owns (c : Thread nD τ) (stage0_4 s) fullShare Y4 ∗ owns (c : Thread nD τ) (stage0_5 s) fullShare Y5
            ∗ owns (c : Thread nD τ) (stage0_6 s) fullShare Y6 ∗ owns (c : Thread nD τ) (stage0_7 s) fullShare Y7
            ∗ owns (c : Thread nD τ) (stage0_8 s) fullShare (k0_pay2 (Y0 i00) (Y1 i00) Y3 Y4 Y5)
            ∗ owns (c : Thread nD τ) (stage0_9 s) fullShare (k0_pay3 (Y2 i00) Y3 Y6 Y7)) -∗ K ⟨⟩))
      ⊢ wp frame (wpE (defs₀ (F := F)) Variants.none c none) E
          (cc0__tc_elem_body i (stage0_0 0) h0 (stage0_1 0) h1 (stage0_2 0) h2 (stage0_3 s) h3 (stage0_4 s) h4 (stage0_5 s) h5
            (stage0_6 s) h6 (stage0_7 s) h7 (stage0_8 s) h8 (stage0_9 s) h9) K := by
  have hz2 : (![0, 0] : Fin 2 → Nat) = fun _ => 0 := funext fun a => by fin_cases a <;> rfl
  have hz1 : (![0] : Fin 1 → Nat) = fun _ => 0 := funext fun a => by fin_cases a <;> rfl
  fin_cases s <;>
  · simp only [owns_whole, cc0__tc_elem_body_eq_skeleton]; unfold cc0__tc_elem_body_skel
    simp only [smemLoad, smemLoadElt, Prog.lift, Prog.bind_op, Prog.bind_ret]
    iintro ⟨⟨H0, H1, H2, H3, H4, H5, H6, H7, H8, H9⟩, Hk⟩
    sl_steps
    iapply Hk
    first
      | erw [Memref.write_access_unit_zero_univ (Elt F) cc0_stg8_0 hz1,
          Memref.write_access_unit_zero_univ (Elt F) cc0_stg9_0 hz1,
          Memref.readAt_unit_zero (Elt F) cc0_stg0_0 hz2,
          Memref.readAt_unit_zero (Elt F) cc0_stg1_0 hz2,
          Memref.readAt_unit_zero (Elt F) cc0_stg2_0 hz2,
          Memref.readAt_unit_zero (Elt F) cc0_stg3_0 hz2,
          Memref.readAt_unit_zero (Elt F) cc0_stg4_0 hz2,
          Memref.readAt_unit_zero (Elt F) cc0_stg5_0 hz2,
          Memref.readAt_unit_zero (Elt F) cc0_stg6_0 hz2,
          Memref.readAt_unit_zero (Elt F) cc0_stg7_0 hz2]
      | erw [Memref.write_access_unit_zero_univ (Elt F) cc0_stg8_1 hz1,
          Memref.write_access_unit_zero_univ (Elt F) cc0_stg9_1 hz1,
          Memref.readAt_unit_zero (Elt F) cc0_stg0_0 hz2,
          Memref.readAt_unit_zero (Elt F) cc0_stg1_0 hz2,
          Memref.readAt_unit_zero (Elt F) cc0_stg2_0 hz2,
          Memref.readAt_unit_zero (Elt F) cc0_stg3_1 hz2,
          Memref.readAt_unit_zero (Elt F) cc0_stg4_1 hz2,
          Memref.readAt_unit_zero (Elt F) cc0_stg5_1 hz2,
          Memref.readAt_unit_zero (Elt F) cc0_stg6_1 hz2,
          Memref.readAt_unit_zero (Elt F) cc0_stg7_1 hz2]
    iframe
    isplitl [H8]
    · iexact H8
    · iexact H9

abbrev pt (t : Fin cfg0.N) : Fin 7 := Fin.cast N_0 t

def rd0G (d : Dev nD) (A₀ : (w : Fin cfg0.W) → Buf (Elt F) ((cfg0.win w).arr.view.loc (d.tc : Thread nD τ)))
    (Φ₀ : sProp 𝕄) (O : CellTallies nD τ sig Ix) (R : Set (SemLoc sig × Ix)) : RDat τ (Elt F) Ix Name U Lvl cfg0 d where
  A := A₀
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ X => ∃ (tb : Vec F S1x14336 .f32) (xpb xb : Vec F S3x14336 .f32),
        BlkOf (r := 1) (A₀ 3 : Vec F S1x100000 .f32) (pt t) tb ∧ BlkOf (r := 3) (A₀ 4 : Vec F S3x100000 .f32) (pt t) xpb
          ∧ BlkOf (r := 3) (A₀ 5 : Vec F S3x100000 .f32) (pt t) xb
          ∧ X = k0_pay2 ((A₀ 0 : Vec F S1x1 .f32) i00) ((A₀ 1 : Vec F S1x1 .f32) i00) tb xpb xb
    | ⟨9, _⟩ => fun _ X => ∃ (tb : Vec F S1x14336 .f32) (ohb p0b : Vec F S16x14336 .f32),
        BlkOf (r := 1) (A₀ 3 : Vec F S1x100000 .f32) (pt t) tb ∧ BlkOf (r := 16) (A₀ 6 : Vec F S16x100000 .f32) (pt t) ohb
          ∧ BlkOf (r := 16) (A₀ 7 : Vec F S16x100000 .f32) (pt t) p0b
          ∧ X = k0_pay3 ((A₀ 2 : Vec F S1x1 .f32) i00) tb ohb p0b
  Φ _ := Φ₀
  q _ := fullShare
  owed _ := O
  recorded _ := R

theorem tr3 : ∀ t : Fin grid0.N, cc0_transform_3 (grid0.coords t) = ![0, t.val] := by decide +kernel
theorem tr4 : ∀ t : Fin grid0.N, cc0_transform_4 (grid0.coords t) = ![0, t.val] := by decide +kernel
theorem tr5 : ∀ t : Fin grid0.N, cc0_transform_5 (grid0.coords t) = ![0, t.val] := by decide +kernel
theorem tr6 : ∀ t : Fin grid0.N, cc0_transform_6 (grid0.coords t) = ![0, t.val] := by decide +kernel
theorem tr7 : ∀ t : Fin grid0.N, cc0_transform_7 (grid0.coords t) = ![0, t.val] := by decide +kernel

theorem slot3 : ∀ t : Fin grid0.N, (win0_3.slot t.val t.isLt).val = t.val % 2 := by decide +kernel
theorem slot4 : ∀ t : Fin grid0.N, (win0_4.slot t.val t.isLt).val = t.val % 2 := by decide +kernel
theorem slot5 : ∀ t : Fin grid0.N, (win0_5.slot t.val t.isLt).val = t.val % 2 := by decide +kernel
theorem slot6 : ∀ t : Fin grid0.N, (win0_6.slot t.val t.isLt).val = t.val % 2 := by decide +kernel
theorem slot7 : ∀ t : Fin grid0.N, (win0_7.slot t.val t.isLt).val = t.val % 2 := by decide +kernel
theorem slot8 : ∀ t : Fin grid0.N, (win0_8.slot t.val t.isLt).val = t.val % 2 := by decide +kernel
theorem slot9 : ∀ t : Fin grid0.N, (win0_9.slot t.val t.isLt).val = t.val % 2 := by decide +kernel

end Body

end Cert.Proof.KB

end
-- ==== Proof.Bits.Region0Body.lean ====
import proofs.«203579_g3066606649474_cont_9to1_387_24_alg».proof.Proof.Bits.Region0Data
import Idealize.ShloMosaic.Lib.Pipeline.Kit
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem xs3 : ∀ t : Fin grid0.N, win0_3.xsize (grid0.coords t) = ![1, min 14336 (100000 - t.val * 14336)] := by decide +kernel
theorem xs4 : ∀ t : Fin grid0.N, win0_4.xsize (grid0.coords t) = ![3, min 14336 (100000 - t.val * 14336)] := by decide +kernel
theorem xs5 : ∀ t : Fin grid0.N, win0_5.xsize (grid0.coords t) = ![3, min 14336 (100000 - t.val * 14336)] := by decide +kernel
theorem xs6 : ∀ t : Fin grid0.N, win0_6.xsize (grid0.coords t) = ![16, min 14336 (100000 - t.val * 14336)] := by decide +kernel
theorem xs7 : ∀ t : Fin grid0.N, win0_7.xsize (grid0.coords t) = ![16, min 14336 (100000 - t.val * 14336)] := by decide +kernel

section
variable {d : Dev nD} (rd : RDat τ (Elt F) Ix Name U Lvl cfg0 d) (t : Fin cfg0.N)

theorem fetched_moved (w : Fin cfg0.W) (dd : (cfg0.win w).block.Idx → Elt F (cfg0.win w).elt) (y : (cfg0.win w).block.Idx)
    (hy : ∀ a, (y a).val < (cfg0.win w).xsize (cfg0.grid.coords t) a) :
    rd.fetched w t dd y = ((cfg0.win w).blk t).view.read (Elt F) (rd.A w) fun a => ⟨(y a).val, hy a⟩ := by
  unfold RDat.fetched RDat.blockOf Window.fill
  rw [dif_pos ((Window.moved_iff _ _ _).mpr hy)]

theorem blk3 (dd : (cfg0.win 3).block.Idx → Elt F (cfg0.win 3).elt) :
    BlkOf (r := 1) (rd.A 3 : Vec F S1x100000 .f32) (pt t) (rd.fetched 3 t dd) := fun i j h => by
  have hh : t.val * 14336 + j.val < 100000 := h
  rw [fetched_moved rd t 3 dd (ix2 i j) fun a => by
    show _ < win0_3.xsize (grid0.coords t) a
    rw [xs3 t]
    match a with
    | ⟨0, _⟩ => exact i.isLt
    | ⟨1, _⟩ => show j.val < min 14336 _; have := j.isLt; omega]
  rw [View.read_apply]
  show rd.A 3 _ = rd.A 3 _
  congr 1
  funext a
  refine Fin.ext ((Window.rect_emb_val (cfg0.win 3) t _ a).trans ?_)
  show cc0_transform_3 (grid0.coords t) a * _ + _ = _
  rw [tr3 t]
  match a with
  | ⟨0, _⟩ => show 0 * 1 + i.val = i.val; omega
  | ⟨1, _⟩ => rfl

theorem blk4 (dd : (cfg0.win 4).block.Idx → Elt F (cfg0.win 4).elt) :
    BlkOf (r := 3) (rd.A 4 : Vec F S3x100000 .f32) (pt t) (rd.fetched 4 t dd) := fun i j h => by
  have hh : t.val * 14336 + j.val < 100000 := h
  rw [fetched_moved rd t 4 dd (ix2 i j) fun a => by
    show _ < win0_4.xsize (grid0.coords t) a
    rw [xs4 t]
    match a with
    | ⟨0, _⟩ => exact i.isLt
    | ⟨1, _⟩ => show j.val < min 14336 _; have := j.isLt; omega]
  rw [View.read_apply]
  show rd.A 4 _ = rd.A 4 _
  congr 1
  funext a
  refine Fin.ext ((Window.rect_emb_val (cfg0.win 4) t _ a).trans ?_)
  show cc0_transform_4 (grid0.coords t) a * _ + _ = _
  rw [tr4 t]
  match a with
  | ⟨0, _⟩ => show 0 * 3 + i.val = i.val; omega
  | ⟨1, _⟩ => rfl

theorem blk5 (dd : (cfg0.win 5).block.Idx → Elt F (cfg0.win 5).elt) :
    BlkOf (r := 3) (rd.A 5 : Vec F S3x100000 .f32) (pt t) (rd.fetched 5 t dd) := fun i j h => by
  have hh : t.val * 14336 + j.val < 100000 := h
  rw [fetched_moved rd t 5 dd (ix2 i j) fun a => by
    show _ < win0_5.xsize (grid0.coords t) a
    rw [xs5 t]
    match a with
    | ⟨0, _⟩ => exact i.isLt
    | ⟨1, _⟩ => show j.val < min 14336 _; have := j.isLt; omega]
  rw [View.read_apply]
  show rd.A 5 _ = rd.A 5 _
  congr 1
  funext a
  refine Fin.ext ((Window.rect_emb_val (cfg0.win 5) t _ a).trans ?_)
  show cc0_transform_5 (grid0.coords t) a * _ + _ = _
  rw [tr5 t]
  match a with
  | ⟨0, _⟩ => show 0 * 3 + i.val = i.val; omega
  | ⟨1, _⟩ => rfl

theorem blk6 (dd : (cfg0.win 6).block.Idx → Elt F (cfg0.win 6).elt) :
    BlkOf (r := 16) (rd.A 6 : Vec F S16x100000 .f32) (pt t) (rd.fetched 6 t dd) := fun i j h => by
  have hh : t.val * 14336 + j.val < 100000 := h
  rw [fetched_moved rd t 6 dd (ix2 i j) fun a => by
    show _ < win0_6.xsize (grid0.coords t) a
    rw [xs6 t]
    match a with
    | ⟨0, _⟩ => exact i.isLt
    | ⟨1, _⟩ => show j.val < min 14336 _; have := j.isLt; omega]
  rw [View.read_apply]
  show rd.A 6 _ = rd.A 6 _
  congr 1
  funext a
  refine Fin.ext ((Window.rect_emb_val (cfg0.win 6) t _ a).trans ?_)
  show cc0_transform_6 (grid0.coords t) a * _ + _ = _
  rw [tr6 t]
  match a with
  | ⟨0, _⟩ => show 0 * 16 + i.val = i.val; omega
  | ⟨1, _⟩ => rfl

theorem blk7 (dd : (cfg0.win 7).block.Idx → Elt F (cfg0.win 7).elt) :
    BlkOf (r := 16) (rd.A 7 : Vec F S16x100000 .f32) (pt t) (rd.fetched 7 t dd) := fun i j h => by
  have hh : t.val * 14336 + j.val < 100000 := h
  rw [fetched_moved rd t 7 dd (ix2 i j) fun a => by
    show _ < win0_7.xsize (grid0.coords t) a
    rw [xs7 t]
    match a with
    | ⟨0, _⟩ => exact i.isLt
    | ⟨1, _⟩ => show j.val < min 14336 _; have := j.isLt; omega]
  rw [View.read_apply]
  show rd.A 7 _ = rd.A 7 _
  congr 1
  funext a
  refine Fin.ext ((Window.rect_emb_val (cfg0.win 7) t _ a).trans ?_)
  show cc0_transform_7 (grid0.coords t) a * _ + _ = _
  rw [tr7 t]
  match a with
  | ⟨0, _⟩ => show 0 * 16 + i.val = i.val; omega
  | ⟨1, _⟩ => rfl

theorem scal0 (h : ∀ t Y X, rd.after 0 t Y X → X = Y) (Y) (hY : rd.Finds 0 t Y) : Y = rd.A 0 := by
  obtain ⟨dd, rfl⟩ := rd.finds_in_eq_fetched 0 rfl (fun _ _ _ => rfl) h t Y hY
  funext j
  rw [fetched_moved rd t 0 dd j fun a => (j a).isLt, View.read_apply]
  show rd.A 0 _ = rd.A 0 _
  congr 1
  funext a
  refine Fin.ext (Window.rect_emb_val_of_index_zero (cfg0.win 0) t a ?_ _)
  match a with
  | ⟨0, _⟩ => rfl
  | ⟨1, _⟩ => rfl

theorem scal1 (h : ∀ t Y X, rd.after 1 t Y X → X = Y) (Y) (hY : rd.Finds 1 t Y) : Y = rd.A 1 := by
  obtain ⟨dd, rfl⟩ := rd.finds_in_eq_fetched 1 rfl (fun _ _ _ => rfl) h t Y hY
  funext j
  rw [fetched_moved rd t 1 dd j fun a => (j a).isLt, View.read_apply]
  show rd.A 1 _ = rd.A 1 _
  congr 1
  funext a
  refine Fin.ext (Window.rect_emb_val_of_index_zero (cfg0.win 1) t a ?_ _)
  match a with
  | ⟨0, _⟩ => rfl
  | ⟨1, _⟩ => rfl

theorem scal2 (h : ∀ t Y X, rd.after 2 t Y X → X = Y) (Y) (hY : rd.Finds 2 t Y) : Y = rd.A 2 := by
  obtain ⟨dd, rfl⟩ := rd.finds_in_eq_fetched 2 rfl (fun _ _ _ => rfl) h t Y hY
  funext j
  rw [fetched_moved rd t 2 dd j fun a => (j a).isLt, View.read_apply]
  show rd.A 2 _ = rd.A 2 _
  congr 1
  funext a
  refine Fin.ext (Window.rect_emb_val_of_index_zero (cfg0.win 2) t a ?_ _)
  match a with
  | ⟨0, _⟩ => rfl
  | ⟨1, _⟩ => rfl

end

set_option maxHeartbeats 2000000 in
theorem body0G (d : Dev nD) (A₀ : (w : Fin cfg0.W) → Buf (Elt F) ((cfg0.win w).arr.view.loc (d.tc : Thread nD τ)))
    (Φ₀ : sProp 𝕄) (O : CellTallies nD τ sig Ix) (R : Set (SemLoc sig × Ix)) (ι : Ix) (E : Set Name) :
    (rd0G (Ix := Ix) (Name := Name) (U := U) (Lvl := Lvl) d A₀ Φ₀ O R).BodyObligation (defs₀ (F := F)) Variants.none ι E := fun t Y hY => by
  have b := fun w h => ((rd0G d A₀ Φ₀ O R).finds_of_fetch (w := w) h (Y w)).mp (hY w)
  obtain ⟨d3, h3⟩ := b 3 (fetch0_3 t)
  obtain ⟨d4, h4⟩ := b 4 (fetch0_4 t)
  obtain ⟨d5, h5⟩ := b 5 (fetch0_5 t)
  obtain ⟨d6, h6⟩ := b 6 (fetch0_6 t)
  obtain ⟨d7, h7⟩ := b 7 (fetch0_7 t)
  obtain ⟨s, hs⟩ : ∃ s : Fin 2, s.val = t.val % 2 := ⟨⟨t.val % 2, Nat.mod_lt _ (by decide)⟩, rfl⟩
  have hs0 : cfg0.slots t 0 = (0 : Fin 1) := Subsingleton.elim _ _
  have hs1 : cfg0.slots t 1 = (0 : Fin 1) := Subsingleton.elim _ _
  have hs2 : cfg0.slots t 2 = (0 : Fin 1) := Subsingleton.elim _ _
  have hs3 : cfg0.slots t 3 = s := Fin.ext ((slot3 t).trans hs.symm)
  have hs4 : cfg0.slots t 4 = s := Fin.ext ((slot4 t).trans hs.symm)
  have hs5 : cfg0.slots t 5 = s := Fin.ext ((slot5 t).trans hs.symm)
  have hs6 : cfg0.slots t 6 = s := Fin.ext ((slot6 t).trans hs.symm)
  have hs7 : cfg0.slots t 7 = s := Fin.ext ((slot7 t).trans hs.symm)
  have hs8 : cfg0.slots t 8 = s := Fin.ext ((slot8 t).trans hs.symm)
  have hs9 : cfg0.slots t 9 = s := Fin.ext ((slot9 t).trans hs.symm)
  rw [bigSep_W0, bigSep_W0]
  rw [show (rd0G d A₀ Φ₀ O R).Φ t.succ = (rd0G d A₀ Φ₀ O R).Φ t.castSucc from rfl, show (rd0G d A₀ Φ₀ O R).owesAt ι t.succ = (rd0G d A₀ Φ₀ O R).owesAt ι t.castSucc from rfl]
  show _ ⊢ wp frame (wpE (defs₀ (F := F)) Variants.none d none) E (bodyAt0 t) _
  simp only [bodyAt0, hs0, hs1, hs2, hs3, hs4, hs5, hs6, hs7, hs8, hs9]
  iintro ⟨HΦ, Ho, H0, H1, H2, H3, H4, H5, H6, H7, H8, H9⟩
  iapply (sound_body0 (F := F) d E (grid0.coords t) s (Y 0) (Y 1) (Y 2) (Y 3) (Y 4) (Y 5) (Y 6) (Y 7) (Y 8) (Y 9) _ _ _ _ _ _ _ _ _ _ _)
  isplitl [H0 H1 H2 H3 H4 H5 H6 H7 H8 H9]
  · iframe
  iintro ⟨H0, H1, H2, H3, H4, H5, H6, H7, H8, H9⟩
  iframe HΦ Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  isplitl [H4]
  · iexists Y 4; isplitr; · ipureintro; exact rfl
    iexact H4
  isplitl [H5]
  · iexists Y 5; isplitr; · ipureintro; exact rfl
    iexact H5
  isplitl [H6]
  · iexists Y 6; isplitr; · ipureintro; exact rfl
    iexact H6
  isplitl [H7]
  · iexists Y 7; isplitr; · ipureintro; exact rfl
    iexact H7
  isplitl [H8]
  · iexists k0_pay2 ((Y 0 : Vec F S1x1 .f32) i00) ((Y 1 : Vec F S1x1 .f32) i00) (Y 3) (Y 4) (Y 5); isplitr
    · ipureintro
      exact ⟨Y 3, Y 4, Y 5, h3 ▸ blk3 _ t d3, h4 ▸ blk4 _ t d4, h5 ▸ blk5 _ t d5, by rw [scal0 (rd0G d A₀ Φ₀ O R) t (fun _ _ _ h => h) _ (hY 0), scal1 (rd0G d A₀ Φ₀ O R) t (fun _ _ _ h => h) _ (hY 1)]; rfl⟩
    iexact H8
  · iexists k0_pay3 ((Y 2 : Vec F S1x1 .f32) i00) (Y 3) (Y 6) (Y 7); isplitr
    · ipureintro
      exact ⟨Y 3, Y 6, Y 7, h3 ▸ blk3 _ t d3, h6 ▸ blk6 _ t d6, h7 ▸ blk7 _ t d7, by rw [scal2 (rd0G d A₀ Φ₀ O R) t (fun _ _ _ h => h) _ (hY 2)]; rfl⟩
    iexact H9

end Cert.Proof.KB

end
-- ==== Proof.Bits.Region0Val.lean ====
import proofs.«203579_g3066606649474_cont_9to1_387_24_alg».proof.Proof.Bits.Region0Data
import Idealize.ShloMosaic.Lib.Pipeline.Value

noncomputable section

namespace Cert.Proof.KB

open Cert.Kernel Cert.Kernel.Gen

open Idealize.ShloMosaic
open Idealize.ShloMosaic.TcCoe
open Idealize.SL Idealize.SL.RA Idealize.SL.BI Idealize.SL.Sem
open Idealize.ShloMosaic.Pipeline (RDat Cfg Window)
open Idealize.ShloMosaic.ValueIdx (ix1 ix2)

variable {F : FTy → Type} [FloatOps F]
variable {Ix : Type} [DecidableEq Ix] {Name : Type} [DecidableEq Name] {U : Type} [URA U] {Lvl : Type}
variable {d : Dev nD} (rd : RDat τ (Elt F) Ix Name U Lvl cfg0 d)

omit [FloatOps F] in
theorem index8 : ∀ t : Fin cfg0.N, (cfg0.win 8).index t 0 = t.val :=
  (by decide +kernel : ∀ t : Fin grid0.N, win0_8.index t 0 = t.val)
omit [FloatOps F] in
theorem index9 : ∀ t : Fin cfg0.N, (cfg0.win 9).index t 0 = t.val :=
  (by decide +kernel : ∀ t : Fin grid0.N, win0_9.index t 0 = t.val)

omit [FloatOps F] in
theorem emb8 (t : Fin cfg0.N) (y : ((cfg0.win 8).xblock (cfg0.grid.coords t)).Idx) :
    (((cfg0.win 8).blk t).view.emb y : S100352.Idx) = lane (Fin.cast N_0 t) ⟨(y 0).val, (y 0).isLt⟩ :=
  funext fun | ⟨0, _⟩ => Fin.ext (by have h := Window.rect_emb_val (cfg0.win 8) t y 0; rw [index8] at h; exact h)

omit [FloatOps F] in
theorem emb9 (t : Fin cfg0.N) (y : ((cfg0.win 9).xblock (cfg0.grid.coords t)).Idx) :
    (((cfg0.win 9).blk t).view.emb y : S100352.Idx) = lane (Fin.cast N_0 t) ⟨(y 0).val, (y 0).isLt⟩ :=
  funext fun | ⟨0, _⟩ => Fin.ext (by have h := Window.rect_emb_val (cfg0.win 9) t y 0; rw [index9] at h; exact h)

omit [FloatOps F] in
theorem lane_ne {t u : Fin 7} (h : t ≠ u) (j k : Fin 14336) : lane t j ≠ lane u k := fun e => by
  have e0 := congrArg (fun x : S100352.Idx => (x 0).val) e
  have ht : t.val ≠ u.val := fun h' => h (Fin.ext h')
  have := j.isLt; have := k.isLt
  simp only [lane] at e0
  change t.val * 14336 + j.val = u.val * 14336 + k.val at e0
  omega

-- the seven blocks are disjoint, so writing one leaves the others as they were
theorem arrAt (n : Nat) (hn : n ≤ cfg0.N) :
    (∀ G : Vec F S100352 .f32, rd.ArrAt 8 n G → ∀ t : Fin cfg0.N, t.val < n →
      ∃ X : Vec F S14336 .f32, rd.Leaves 8 t X ∧ ∀ j : Fin 14336, G (lane (Fin.cast N_0 t) j) = X (ix1 j)) ∧
    (∀ G : Vec F S100352 .f32, rd.ArrAt 9 n G → ∀ t : Fin cfg0.N, t.val < n →
      ∃ X : Vec F S14336 .f32, rd.Leaves 9 t X ∧ ∀ j : Fin 14336, G (lane (Fin.cast N_0 t) j) = X (ix1 j)) := by
  induction n with
  | zero => exact ⟨fun _ _ _ ht => absurd ht (Nat.not_lt_zero _), fun _ _ _ ht => absurd ht (Nat.not_lt_zero _)⟩
  | succ n ih =>
    have hu : n < cfg0.N := hn
    obtain ⟨i8, i9⟩ := ih (Nat.le_of_lt hu)
    refine ⟨fun G h t ht => ?_, fun G h t ht => ?_⟩ <;>
    · first
        | rw [show n + 1 = (⟨n, hu⟩ : Fin cfg0.N).val + 1 from rfl, RDat.ArrAt_succ, if_pos (flush0_8 _)] at h
        | rw [show n + 1 = (⟨n, hu⟩ : Fin cfg0.N).val + 1 from rfl, RDat.ArrAt_succ, if_pos (flush0_9 _)] at h
      obtain ⟨G₀, X, hG₀, hX, rfl⟩ := h
      rcases Nat.lt_succ_iff_lt_or_eq.mp ht with hlt | heq
      · have hi := by first | exact i8 G₀ hG₀ t hlt | exact i9 G₀ hG₀ t hlt
        obtain ⟨X', hX', hval⟩ := hi
        refine ⟨X', hX', fun j => ?_⟩
        rw [View.write_of_not_mem]
        · exact hval j
        · intro hmem
          obtain ⟨y, -, hy⟩ := Finset.mem_map.mp hmem
          refine lane_ne (t := Fin.cast N_0 (⟨n, hu⟩ : Fin cfg0.N)) (u := Fin.cast N_0 t) (fun e => ?_) ⟨(y 0).val, (y 0).isLt⟩ j ?_
          · have := congrArg Fin.val e; simp only [Fin.val_cast] at this; omega
          · first
              | exact (emb8 ⟨n, hu⟩ y).symm.trans hy
              | exact (emb9 ⟨n, hu⟩ y).symm.trans hy
      · obtain rfl : t = ⟨n, hu⟩ := Fin.ext heq
        refine ⟨X, hX, fun j => ?_⟩
        first
          | (have hj : lane (Fin.cast N_0 (⟨n, hu⟩ : Fin cfg0.N)) j = ((cfg0.win 8).blk ⟨n, hu⟩).view.emb
              (show ((cfg0.win 8).xblock (cfg0.grid.coords ⟨n, hu⟩)).Idx from (ix1 j : S14336.Idx)) := (by rw [emb8]; rfl);
             rw [hj, View.write_emb_of_mem _ _ (Finset.mem_univ _)])
          | (have hj : lane (Fin.cast N_0 (⟨n, hu⟩ : Fin cfg0.N)) j = ((cfg0.win 9).blk ⟨n, hu⟩).view.emb
              (show ((cfg0.win 9).xblock (cfg0.grid.coords ⟨n, hu⟩)).Idx from (ix1 j : S14336.Idx)) := (by rw [emb9]; rfl);
             rw [hj, View.write_emb_of_mem _ _ (Finset.mem_univ _)])
        rfl

section Val

variable [Preorder Lvl]

local notation "𝕄" => MT nD τ sig Ix (Elt F) Name U Lvl

theorem val0G (d : Dev nD) (A₀ : (w : Fin cfg0.W) → Buf (Elt F) ((cfg0.win w).arr.view.loc (d.tc : Thread nD τ)))
    (Φ₀ : sProp 𝕄) (O : CellTallies nD τ sig Ix) (R : Set (SemLoc sig × Ix))
    (lcA : Buf (Elt F) ((cfg0.win 8).arr.view.loc (d.tc : Thread nD τ))) (ldA : Buf (Elt F) ((cfg0.win 9).arr.view.loc (d.tc : Thread nD τ)))
    (h8 : (rd0G (Ix := Ix) (Name := Name) (U := U) (Lvl := Lvl) d A₀ Φ₀ O R).ArrAt 8 cfg0.N lcA)
    (h9 : (rd0G (Ix := Ix) (Name := Name) (U := U) (Lvl := Lvl) d A₀ Φ₀ O R).ArrAt 9 cfg0.N ldA) :
    ∀ t : Fin 7,
      (∃ (tb : Vec F S1x14336 .f32) (xpb xb : Vec F S3x14336 .f32),
        BlkOf (r := 1) (A₀ 3 : Vec F S1x100000 .f32) t tb ∧ BlkOf (r := 3) (A₀ 4 : Vec F S3x100000 .f32) t xpb
          ∧ BlkOf (r := 3) (A₀ 5 : Vec F S3x100000 .f32) t xb
          ∧ ∀ j : Fin 14336, (lcA : Vec F S100352 .f32) (lane t j)
              = k0_pay2 ((A₀ 0 : Vec F S1x1 .f32) i00) ((A₀ 1 : Vec F S1x1 .f32) i00) tb xpb xb (ix1 j)) ∧
      (∃ (tb : Vec F S1x14336 .f32) (ohb p0b : Vec F S16x14336 .f32),
        BlkOf (r := 1) (A₀ 3 : Vec F S1x100000 .f32) t tb ∧ BlkOf (r := 16) (A₀ 6 : Vec F S16x100000 .f32) t ohb
          ∧ BlkOf (r := 16) (A₀ 7 : Vec F S16x100000 .f32) t p0b
          ∧ ∀ j : Fin 14336, (ldA : Vec F S100352 .f32) (lane t j) = k0_pay3 ((A₀ 2 : Vec F S1x1 .f32) i00) tb ohb p0b (ix1 j)) := by
  intro t
  obtain ⟨t', rfl⟩ : ∃ t' : Fin cfg0.N, t = Fin.cast N_0 t' := ⟨Fin.cast N_0.symm t, Fin.ext rfl⟩
  obtain ⟨a8, a9⟩ := arrAt (rd0G (Ix := Ix) (Name := Name) (U := U) (Lvl := Lvl) d A₀ Φ₀ O R) cfg0.N le_rfl
  obtain ⟨X8, ⟨Y8, -, tb, xpb, xb, hb3, hb4, hb5, rfl⟩, hv8⟩ := a8 lcA h8 t' t'.isLt
  obtain ⟨X9, ⟨Y9, -, tb', ohb, p0b, hc3, hc6, hc7, rfl⟩, hv9⟩ := a9 ldA h9 t' t'.isLt
  exact ⟨⟨tb, xpb, xb, hb3, hb4, hb5, hv8⟩, ⟨tb', ohb, p0b, hc3, hc6, hc7, hv9⟩⟩

end Val

end Cert.Proof.KB

end
-- ==== Proof.Bits.Region0.lean ====
import proofs.«203579_g3066606649474_cont_9to1_387_24_alg».proof.Proof.Bits.RegionsIface
import proofs.«203579_g3066606649474_cont_9to1_387_24_alg».proof.Proof.Bits.HostVals
import proofs.«203579_g3066606649474_cont_9to1_387_24_alg».proof.Proof.Bits.Region0Body
import proofs.«203579_g3066606649474_cont_9to1_387_24_alg».proof.Proof.Bits.Region0Val

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]

def A0 (m : (ℓ : Loc nD τ sig) → Buf (Elt F) ℓ) (d : Dev nD) :
    (w : Fin cfg0.W) → Buf (Elt F) ((cfg0.win w).arr.view.loc (d.tc : Thread nD τ)) :=
  fun w => TV1 m d (Pipeline.arrRef cfg0.spec w)

theorem r0_of_blocks (m : (ℓ : Loc nD τ sig) → Buf (Elt F) ℓ) (d : Dev nD) (lcA ldA : Vec F S100352 .f32)
    (h : ∀ t : Fin 7,
      (∃ (tb : Vec F S1x14336 .f32) (xpb xb : Vec F S3x14336 .f32),
        BlkOf (r := 1) (A0 m d 3 : Vec F S1x100000 .f32) t tb ∧ BlkOf (r := 3) (A0 m d 4 : Vec F S3x100000 .f32) t xpb
          ∧ BlkOf (r := 3) (A0 m d 5 : Vec F S3x100000 .f32) t xb
          ∧ ∀ j : Fin 14336, lcA (lane t j)
              = k0_pay2 ((A0 m d 0 : Vec F S1x1 .f32) i00) ((A0 m d 1 : Vec F S1x1 .f32) i00) tb xpb xb (ix1 j)) ∧
      (∃ (tb : Vec F S1x14336 .f32) (ohb p0b : Vec F S16x14336 .f32),
        BlkOf (r := 1) (A0 m d 3 : Vec F S1x100000 .f32) t tb ∧ BlkOf (r := 16) (A0 m d 6 : Vec F S16x100000 .f32) t ohb
          ∧ BlkOf (r := 16) (A0 m d 7 : Vec F S16x100000 .f32) t p0b
          ∧ ∀ j : Fin 14336, ldA (lane t j) = k0_pay3 ((A0 m d 2 : Vec F S1x1 .f32) i00) tb ohb p0b (ix1 j))) :
    R0 m d lcA ldA := by
  have e0 : (A0 m d 0 : Vec F S1x1 .f32) = hA m d := tv1_v3 m d
  have e1 : (A0 m d 1 : Vec F S1x1 .f32) = hC1 m d := tv1_v5 m d
  have e2 : (A0 m d 2 : Vec F S1x1 .f32) = hC2 m d := tv1_v9 m d
  have e3 : (A0 m d 3 : Vec F S1x100000 .f32) = hT m d := tv1_v10 m d
  have e4 : (A0 m d 4 : Vec F S3x100000 .f32) = hXp m d := tv1_v11 m d
  have e5 : (A0 m d 5 : Vec F S3x100000 .f32) = hX m d := tv1_v12 m d
  have e6 : (A0 m d 6 : Vec F S16x100000 .f32) = hOh m d := tv1_v13 m d
  have e7 : (A0 m d 7 : Vec F S16x100000 .f32) = hP0 m d := tv1_v14 m d
  intro t
  obtain ⟨⟨tb, xpb, xb, h3, h4, h5, hv⟩, ⟨tb', ohb, p0b, g3, g6, g7, gv⟩⟩ := h t
  rw [e3] at h3 g3
  rw [e4] at h4
  rw [e5] at h5
  rw [e6] at g6
  rw [e7] at g7
  refine ⟨⟨tb, xpb, xb, h3, h4, h5, fun j => ?_⟩, ⟨tb', ohb, p0b, g3, g6, g7, fun j => ?_⟩⟩
  · rw [hv j, e0, e1, i00_eq]
  · rw [gv j, e2, i00_eq]

def rd0 (m : (ℓ : Loc nD τ sig) → Buf (Elt F) ℓ) (d : Dev nD) : Pipeline.RDat τ (Elt F) (HIx 1) ℕ UU ℕ cfg0 d :=
  rd0G (Ix := HIx 1) (Name := ℕ) (U := UU) (Lvl := ℕ) d (A0 m d)
    (Pipeline.scopedRest (Ix := HIx 1) (Name := ℕ) (U := UU) (Lvl := ℕ) (Val := Elt F) cfg0.spec d)
    ((K (F := F)).Otc d 0) (recAt (F := F) d 0)

def reg0 (m : (ℓ : Loc nD τ sig) → Buf (Elt F) ℓ) (d : Dev nD) : Reg0 (F := F) m d where
  rd := rd0 m d
  hA _ := rfl
  hshare w := by unfold RDat.share; split <;> rfl
  howed _ := rfl
  hrec _ := rfl
  hin := .rfl
  hout := .rfl
  hbody := body0G d (A0 m d) _ _ _ none Set.univ
  hval lcA ldA h8 h9 := r0_of_blocks m d lcA ldA (val0G d (A0 m d) _ _ _ lcA ldA h8 h9)

end Cert.Proof.KB

end
-- ==== Proof.Bits.Epi.lean ====
import proofs.«203579_g3066606649474_cont_9to1_387_24_alg».proof.Proof.Gen.Kernel.Skeleton
import Idealize.ShloMosaic.Lib.ValueIdx

noncomputable section

namespace Cert.Proof.KB

open Cert.Kernel Cert.Kernel.Gen
open Idealize.ShloMosaic Idealize.SL.Sem
open Idealize.ShloMosaic.ValueIdx (ix1 ix2)

variable {F : FTy → Type} [FloatOps F]

def sl512 (pA : Vec F S3072 .f32) (off : Nat) (h : off + 512 ≤ 3072) : Vec F S512 .f32 :=
  fun j => pA (ix1 ⟨off + (j 0).val, by have hj : (j 0).val < 512 := (j 0).isLt; omega⟩)

def epi (pA : Vec F S3072 .f32) : Vec F S2x512 .f32 :=
  k2_pay1 (sl512 pA 0 (by omega)) (sl512 pA 1536 (by omega)) (sl512 pA 512 (by omega)) (sl512 pA 2048 (by omega))
    (sl512 pA 1024 (by omega)) (sl512 pA 2560 (by omega))

end Cert.Proof.KB

end
-- ==== Proof.Bits.Region2.lean ====
import proofs.«203579_g3066606649474_cont_9to1_387_24_alg».proof.Proof.Bits.RegionsIface
import proofs.«203579_g3066606649474_cont_9to1_387_24_alg».proof.Proof.Bits.Epi
import Idealize.ShloMosaic.Lib.Pipeline.Kit
import Idealize.ShloMosaic.Lib.Pipeline.Value
import Idealize.ShloMosaic.Lib.Tactic
import Idealize.ShloMosaic.Lib.ValueIdx

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)
open Idealize.ShloMosaic.ValueIdx (ix1 ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem read512 (c : Dev nD) (f0 : Buf (Elt F) ((c : Thread nD τ).loc cc2_stg0_0)) (off : Nat)
    (inb : ∀ a, (![off] : Fin 1 → Nat) a + S512.size a ≤ S3072.size a) (h : off + 512 ≤ 3072) :
    (Memref.whole cc2_stg0_0 : Memref sig .tc .vmem S3072 .f32).view.readAt (Elt F) (Rect.unit (s := S3072) ![off] S512.size inb).toLoadRect f0
      = sl512 f0 off h := by
  funext j
  show f0 _ = f0 _
  congr 1
  funext a
  refine Fin.ext ?_
  match a with
  | ⟨0, _⟩ => simp [Rect.emb_apply]

theorem sound_body2 (c : Dev nD) (E : Set Name) (X0 : S3072.Idx → Elt F .f32) (X1 : S2x512.Idx → Elt F .f32)
    (h0 : (Memref.whole cc2_stg0_0 : Memref sig .tc .vmem S3072 .f32).IsWhole)
    (h1 : (Memref.whole cc2_stg1_0 : Memref sig .tc .vmem S2x512 .f32).IsWhole) (K : PUnit → sProp 𝕄) :
    iprop((owns (c : Thread nD τ) (Memref.whole cc2_stg0_0) fullShare X0 ∗ owns (c : Thread nD τ) (Memref.whole cc2_stg1_0) fullShare X1)
          ∗ (iprop(owns (c : Thread nD τ) (Memref.whole cc2_stg0_0) fullShare X0
                ∗ owns (c : Thread nD τ) (Memref.whole cc2_stg1_0) fullShare (epi X0)) -∗ K ⟨⟩))
      ⊢ wp frame (wpE (defs₀ (F := F)) Variants.none c none) E
          (cc2__tc_epilogue_body (Memref.whole cc2_stg0_0) h0 (Memref.whole cc2_stg1_0) h1) K := by
  simp only [owns_whole, cc2__tc_epilogue_body_eq_skeleton]; unfold cc2__tc_epilogue_body_skel
  simp only [Prog.lift, Prog.bind_op, Prog.bind_ret]
  iintro ⟨⟨H0, H1⟩, Hk⟩
  sl_steps
  iapply Hk
  have hz : (![0, 0] : Fin 2 → Nat) = fun _ => 0 := funext fun a => by fin_cases a <;> rfl
  erw [Memref.write_access_unit_zero_univ (Elt F) cc2_stg1_0 hz]
  rw [read512 c X0 0 _ (by omega), read512 c X0 1536 _ (by omega), read512 c X0 512 _ (by omega), read512 c X0 2048 _ (by omega),
    read512 c X0 1024 _ (by omega), read512 c X0 2560 _ (by omega)]
  isplitl [H0]
  · iexact H0
  · iexact H1

def rd2G (pA : Vec F S3072 .f32) (oA : Vec F S2x512 .f32) (d : Dev nD) (Φ₀ : sProp 𝕄) (O : CellTallies nD τ sig Ix) (R : Set (SemLoc sig × Ix)) : RDat τ (Elt F) Ix Name U Lvl cfg2 d where
  A w := match w with
    | ⟨0, _⟩ => pA
    | ⟨1, _⟩ => oA
  after w _ := match w with
    | ⟨0, _⟩ => fun Y X => X = Y
    | ⟨1, _⟩ => fun _ X => X = epi pA
  Φ _ := Φ₀
  q _ := fullShare
  owed _ := O
  recorded _ := R

theorem fetched2_0 (pA : Vec F S3072 .f32) (oA : Vec F S2x512 .f32) (d : Dev nD) (Φ₀ : sProp 𝕄) (O : CellTallies nD τ sig Ix) (R : Set (SemLoc sig × Ix)) (t : Fin cfg2.N) (dd : (cfg2.win 0).block.Idx → Elt F (cfg2.win 0).elt) :
    (rd2G pA oA d Φ₀ O R).fetched (0 : Fin 2) t dd = pA := by
  funext j
  unfold RDat.fetched RDat.blockOf Window.fill
  rw [dif_pos (by rfl)]
  rw [View.read_apply]
  show pA _ = pA _
  congr 1
  funext a
  refine Fin.ext ?_
  exact Window.rect_emb_val_of_index_zero (cfg2.win 0) t a rfl _

theorem body2G (pA : Vec F S3072 .f32) (oA : Vec F S2x512 .f32) (d : Dev nD) (Φ₀ : sProp 𝕄) (O : CellTallies nD τ sig Ix) (R : Set (SemLoc sig × Ix)) (ι : Ix) (E : Set Name) :
    (rd2G pA oA d Φ₀ O R).BodyObligation (defs₀ (F := F)) Variants.none ι E := fun t Y hY => by
  rw [bigSep_W2, bigSep_W2]
  obtain ⟨dd, hdd⟩ := ((rd2G pA oA d Φ₀ O R).finds_of_fetch (fetch2_0 t) (Y 0)).mp (hY 0)
  have h0 : Y 0 = pA := hdd.trans (fetched2_0 pA oA d Φ₀ O R t dd)
  rw [show (rd2G pA oA d Φ₀ O R).Φ t.succ = (rd2G pA oA d Φ₀ O R).Φ t.castSucc from rfl,
    show (rd2G pA oA d Φ₀ O R).owesAt ι t.succ = (rd2G pA oA d Φ₀ O R).owesAt ι t.castSucc from rfl]
  iintro ⟨HΦ, Ho, H0, H1⟩
  iapply (sound_body2 (F := F) d E (Y 0) (Y 1) (hstage2_0 0) (hstage2_1 0) _)
  isplitl [H0 H1]
  · isplitl [H0]
    · iexact H0
    · iexact H1
  iintro ⟨H0, H1⟩
  isplitl [HΦ]; · iexact HΦ
  isplitl [Ho]; · iexact Ho
  isplitl [H0]
  · iexists Y 0; isplitr; · ipureintro; exact rfl
    iexact H0
  · iexists epi (Y 0); isplitr; · ipureintro; exact congrArg epi h0
    iexact H1

theorem val2G (pA : Vec F S3072 .f32) (oA : Vec F S2x512 .f32) (d : Dev nD) (Φ₀ : sProp 𝕄) (O : CellTallies nD τ sig Ix) (R : Set (SemLoc sig × Ix)) (o : Buf (Elt F) ((cfg2.win 1).arr.view.loc (d.tc : Thread nD τ)))
    (h : (rd2G pA oA d Φ₀ O R).ArrAt 1 cfg2.N o) : o = epi pA := by
  have hN : cfg2.N = t2_0.val + 1 := N_2
  rw [hN, RDat.ArrAt_succ, if_pos (flush2_1 t2_0)] at h
  obtain ⟨G₀, X, -, ⟨Y, -, hX⟩, rfl⟩ := h
  have hX' : X = epi pA := hX
  subst hX'
  funext i
  have hi : ((cfg2.win 1).blk t2_0).view.emb (fun a => ⟨(i a).val, (i a).isLt⟩) = i := by
    funext a; apply Fin.ext
    exact Window.rect_emb_val_of_index_zero (cfg2.win 1) t2_0 a rfl _
  conv_lhs => rw [← hi, View.write_emb_of_mem _ _ (Finset.mem_univ _)]
  rfl

def reg2 (m : (ℓ : Loc nD τ sig) → Buf (Elt F) ℓ) (pA : Vec F S3072 .f32) (d : Dev nD) : Reg2 epi m pA d where
  rd := rd2G (Ix := HIx 1) (Name := ℕ) (U := UU) (Lvl := ℕ) pA (m ((T d : Thread nD τ).loc main_v17)) d
    (Pipeline.scopedRest (Ix := HIx 1) (Name := ℕ) (U := UU) (Lvl := ℕ) (Val := Elt F) cfg2.spec d)
    ((K (F := F)).Otc d 1) (recAt (F := F) d 1)
  hA0 := rfl
  hA1 := rfl
  hshare w := by unfold RDat.share; split <;> rfl
  howed _ := rfl
  hrec _ := rfl
  hin := .rfl
  hout := .rfl
  hbody := body2G _ _ _ _ _ _ _ _
  hval o h := val2G _ _ _ _ _ _ o h

end Cert.Proof.KB

end
-- ==== Proof.ClaimsKB.lean ====
import proofs.«203579_g3066606649474_cont_9to1_387_24_alg».proof.Defs
import proofs.«203579_g3066606649474_cont_9to1_387_24_alg».proof.Proof.Gen.Kernel
import proofs.«203579_g3066606649474_cont_9to1_387_24_alg».proof.Proof.Gen.Pre_input_domain
import proofs.«203579_g3066606649474_cont_9to1_387_24_alg».proof.Proof.Bits.Run
import proofs.«203579_g3066606649474_cont_9to1_387_24_alg».proof.Proof.Bits.Region0
import proofs.«203579_g3066606649474_cont_9to1_387_24_alg».proof.Proof.Bits.Region2

noncomputable section

namespace Cert.Proof.ClaimsKB

open Idealize.ShloMosaic Idealize.SL.Sem
open Cert.Proof.KB

theorem frame_k : Cert.frame_Kernel := fun m ρ hpre =>
  (θ_run Cert.Kernel.defs _ _).mono
    (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1⟩)
    (run_main_pre (F := Bits) m ρ epi (fun d => reg0 m d) (fun pA d => reg2 m pA d) hpre)

end Cert.Proof.ClaimsKB

end
-- ==== Proof.lean ====
import proofs.«203579_g3066606649474_cont_9to1_387_24_alg».proof.Defs
import proofs.«203579_g3066606649474_cont_9to1_387_24_alg».proof.Proof.Gen.Kernel
import proofs.«203579_g3066606649474_cont_9to1_387_24_alg».proof.Proof.Gen.KernelIdeal
import proofs.«203579_g3066606649474_cont_9to1_387_24_alg».proof.Proof.Gen.ReferenceIdeal
import proofs.«203579_g3066606649474_cont_9to1_387_24_alg».proof.Proof.Gen.Pre_input_domain
import proofs.«203579_g3066606649474_cont_9to1_387_24_alg».proof.Proof.ClaimsRef
import proofs.«203579_g3066606649474_cont_9to1_387_24_alg».proof.Proof.ClaimsKI
import proofs.«203579_g3066606649474_cont_9to1_387_24_alg».proof.Proof.ClaimsKB

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Proof.ClaimsKB.frame_k, Cert.Proof.ClaimsKI.frame_ki, Cert.Proof.ClaimsRef.frame_ri, trivial, Cert.Proof.ClaimsKI.algebraic⟩

end Cert.Proof

end
